-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S10000x3 : Shape := ⟨2, ![10000, 3]⟩
abbrev S10000 : Shape := ⟨1, ![10000]⟩
abbrev S514x257 : Shape := ⟨2, ![514, 257]⟩
abbrev S514 : Shape := ⟨1, ![514]⟩
abbrev S16x514 : Shape := ⟨2, ![16, 514]⟩
abbrev S16 : Shape := ⟨1, ![16]⟩
abbrev S64x16 : Shape := ⟨2, ![64, 16]⟩
abbrev S64 : Shape := ⟨1, ![64]⟩
abbrev S1x64 : Shape := ⟨2, ![1, 64]⟩
abbrev S1 : Shape := ⟨1, ![1]⟩
abbrev S256x144 : Shape := ⟨2, ![256, 144]⟩
abbrev S256 : Shape := ⟨1, ![256]⟩
abbrev S128x256 : Shape := ⟨2, ![128, 256]⟩
abbrev S128 : Shape := ⟨1, ![128]⟩
abbrev S3x128 : Shape := ⟨2, ![3, 128]⟩
abbrev S3 : Shape := ⟨1, ![3]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x3 : S_.BroadcastsInDim S10000x3 (![] : Fin 0 → Fin S10000x3.rank)
  reducesTo_S10000x3_S_d0_1 : S10000x3.ReducesTo [0, 1] S_
  bcast_S_S514x257 : S_.BroadcastsInDim S514x257 (![] : Fin 0 → Fin S514x257.rank)
  reducesTo_S514x257_S_d0_1 : S514x257.ReducesTo [0, 1] S_
  bcast_S_S514 : S_.BroadcastsInDim S514 (![] : Fin 0 → Fin S514.rank)
  reducesTo_S514_S_d0 : S514.ReducesTo [0] S_
  bcast_S_S16x514 : S_.BroadcastsInDim S16x514 (![] : Fin 0 → Fin S16x514.rank)
  reducesTo_S16x514_S_d0_1 : S16x514.ReducesTo [0, 1] S_
  bcast_S_S16 : S_.BroadcastsInDim S16 (![] : Fin 0 → Fin S16.rank)
  reducesTo_S16_S_d0 : S16.ReducesTo [0] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S256x144 : S_.BroadcastsInDim S256x144 (![] : Fin 0 → Fin S256x144.rank)
  reducesTo_S256x144_S_d0_1 : S256x144.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_
  bcast_S_S2x320000 : S_.BroadcastsInDim S2x320000 (![] : Fin 0 → Fin S2x320000.rank)
  reducesTo_S2x320000_S_d0_1 : S2x320000.ReducesTo [0, 1] S_
  bcast_S_S10000 : S_.BroadcastsInDim S10000 (![] : Fin 0 → Fin S10000.rank)
  reducesTo_S10000_S_d0 : S10000.ReducesTo [0] S_

variable [Facts]

def fn_part6 {F : FTy → Type} [FloatOps F] (main_v95 : IVec S_ 1) (main_v101 : IVec S_ 1) : IVec S_ 1 :=
  let main_v102 : IVec S_ 1 := andi main_v95 main_v101
  main_v102

def fn_part5 {F : FTy → Type} [FloatOps F] (main_arg1 : IVec S2x320000 32) (main_arg3 : IVec S10000 32) (main_v83 : IVec S_ 1) (main_v84 : FVec F S3 .f32) (main_cst_32 : FVec F S_ .f32) : IVec S_ 1 :=
  let main_v85 : FVec F S3 .f32 := broadcastInDim S3 ![] bcast_S_S3 main_cst_32
  let main_v86 : IVec S3 1 := cmpf .olt main_v84 main_v85
  let main_c_33 : IVec S_ 1 := constantI S_ 1 1#1
  let main_v87 : IVec S_ 1 := (fun x v => Host.reduce IntOp.andi x v reducesTo_S3_S_d0 h_S_) main_v86 main_c_33
  let main_v88 : IVec S_ 1 := andi main_v83 main_v87
  let main_c_34 : IVec S_ 32 := constantI S_ 32 0#32
  let main_v89 : IVec S2x320000 32 := broadcastInDim S2x320000 ![] bcast_S_S2x320000 main_c_34
  let main_v90 : IVec S2x320000 1 := cmpi .sge main_arg1 main_v89
  let main_c_35 : IVec S_ 32 := constantI S_ 32 9999#32
  let main_v91 : IVec S2x320000 32 := broadcastInDim S2x320000 ![] bcast_S_S2x320000 main_c_35
  let main_v92 : IVec S2x320000 1 := cmpi .sle main_arg1 main_v91
  let main_v93 : IVec S2x320000 1 := andi main_v90 main_v92
  let main_c_36 : IVec S_ 1 := constantI S_ 1 1#1
  let main_v94 : IVec S_ 1 := (fun x v => Host.reduce IntOp.andi x v reducesTo_S2x320000_S_d0_1 h_S_) main_v93 main_c_36
  let main_v95 : IVec S_ 1 := andi main_v88 main_v94
  let main_c_37 : IVec S_ 32 := constantI S_ 32 0#32
  let main_v96 : IVec S10000 32 := broadcastInDim S10000 ![] bcast_S_S10000 main_c_37
  let main_v97 : IVec S10000 1 := cmpi .sge main_arg3 main_v96
  let main_c_38 : IVec S_ 32 := constantI S_ 32 15#32
  let main_v98 : IVec S10000 32 := broadcastInDim S10000 ![] bcast_S_S10000 main_c_38
  let main_v99 : IVec S10000 1 := cmpi .sle main_arg3 main_v98
  let main_v100 : IVec S10000 1 := andi main_v97 main_v99
  let main_c_39 : IVec S_ 1 := constantI S_ 1 1#1
  let main_v101 : IVec S_ 1 := (fun x v => Host.reduce IntOp.andi x v reducesTo_S10000_S_d0 h_S_) main_v100 main_c_39
  fn_part6 (F := F) main_v95 main_v101

def fn_part4 {F : FTy → Type} [FloatOps F] (main_arg1 : IVec S2x320000 32) (main_arg3 : IVec S10000 32) (main_arg16 : FVec F S128 .f32) (main_arg17 : FVec F S128 .f32) (main_arg18 : FVec F S3x128 .f32) (main_arg19 : FVec F S3 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S3x128 .f32 := Host.absf main_arg18
  let main_cst_30 : FVec F S_ .f32 := constant S_ .f32 0x7F800000#32
  let main_v80 : FVec F S3x128 .f32 := broadcastInDim S3x128 ![] bcast_S_S3x128 main_cst_30
  let main_v81 : IVec S3x128 1 := cmpf .olt main_v79 main_v80
  let main_c_31 : IVec S_ 1 := constantI S_ 1 1#1
  let main_v82 : IVec S_ 1 := (fun x v => Host.reduce IntOp.andi x v reducesTo_S3x128_S_d0_1 h_S_) main_v81 main_c_31
  let main_v83 : IVec S_ 1 := andi main_v78 main_v82
  let main_v84 : FVec F S3 .f32 := Host.absf main_arg19
  let main_cst_32 : FVec F S_ .f32 := constant S_ .f32 0x7F800000#32
  fn_part5 (F := F) main_arg1 main_arg3 main_v83 main_v84 main_cst_32

def fn_part3 {F : FTy → Type} [FloatOps F] (main_arg1 : IVec S2x320000 32) (main_arg3 : IVec S10000 32) (main_arg13 : FVec F S256 .f32) (main_arg14 : FVec F S128x256 .f32) (main_arg15 : FVec F S128 .f32) (main_arg16 : FVec F S128 .f32) (main_arg17 : FVec F S128 .f32) (main_arg18 : FVec F S3x128 .f32) (main_arg19 : FVec F S3 .f32) (main_v48 : IVec S_ 1) (main_v49 : FVec F S256x144 .f32) (main_v50 : FVec F S256x144 .f32) : IVec S_ 1 :=
  let main_v51 : IVec S256x144 1 := cmpf .olt main_v49 main_v50
  let main_c_19 : IVec S_ 1 := constantI S_ 1 1#1
  let main_v52 : IVec S_ 1 := (fun x v => Host.reduce IntOp.andi x v reducesTo_S256x144_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S128x256 .f32 := Host.absf main_arg14
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg3 main_arg16 main_arg17 main_arg18 main_arg19 main_v63 main_v67

def fn_part2 {F : FTy → Type} [FloatOps F] (main_arg1 : IVec S2x320000 32) (main_arg3 : IVec S10000 32) (main_arg9 : FVec F S64 .f32) (main_arg10 : FVec F S1x64 .f32) (main_arg11 : FVec F S1 .f32) (main_arg12 : FVec F S256x144 .f32) (main_arg13 : FVec F S256 .f32) (main_arg14 : FVec F S128x256 .f32) (main_arg15 : FVec F S128 .f32) (main_arg16 : FVec F S128 .f32) (main_arg17 : FVec F S128 .f32) (main_arg18 : FVec F S3x128 .f32) (main_arg19 : FVec F S3 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1x64 .f32 := Host.absf main_arg10
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S256x144 .f32 := Host.absf main_arg12
  let main_cst_18 : FVec F S_ .f32 := constant S_ .f32 0x7F800000#32
  let main_v50 : FVec F S256x144 .f32 := broadcastInDim S256x144 ![] bcast_S_S256x144 main_cst_18
  fn_part3 (F := F) main_arg1 main_arg3 main_arg13 main_arg14 main_arg15 main_arg16 main_arg17 main_arg18 main_arg19 main_v48 main_v49 main_v50

def fn_part1 {F : FTy → Type} [FloatOps F] (main_arg1 : IVec S2x320000 32) (main_arg3 : IVec S10000 32) (main_arg6 : FVec F S16x514 .f32) (main_arg7 : FVec F S16 .f32) (main_arg8 : FVec F S64x16 .f32) (main_arg9 : FVec F S64 .f32) (main_arg10 : FVec F S1x64 .f32) (main_arg11 : FVec F S1 .f32) (main_arg12 : FVec F S256x144 .f32) (main_arg13 : FVec F S256 .f32) (main_arg14 : FVec F S128x256 .f32) (main_arg15 : FVec F S128 .f32) (main_arg16 : FVec F S128 .f32) (main_arg17 : FVec F S128 .f32) (main_arg18 : FVec F S3x128 .f32) (main_arg19 : FVec F S3 .f32) (main_v13 : IVec S_ 1) (main_v16 : IVec S514 1) : IVec S_ 1 :=
  let main_c_5 : IVec S_ 1 := constantI S_ 1 1#1
  let main_v17 : IVec S_ 1 := (fun x v => Host.reduce IntOp.andi x v reducesTo_S514_S_d0 h_S_) main_v16 main_c_5
  let main_v18 : IVec S_ 1 := andi main_v13 main_v17
  let main_v19 : FVec F S16x514 .f32 := Host.absf main_arg6
  let main_cst_6 : FVec F S_ .f32 := constant S_ .f32 0x7F800000#32
  let main_v20 : FVec F S16x514 .f32 := broadcastInDim S16x514 ![] bcast_S_S16x514 main_cst_6
  let main_v21 : IVec S16x514 1 := cmpf .olt main_v19 main_v20
  let main_c_7 : IVec S_ 1 := constantI S_ 1 1#1
  let main_v22 : IVec S_ 1 := (fun x v => Host.reduce IntOp.andi x v reducesTo_S16x514_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S64x16 .f32 := Host.absf main_arg8
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg1 main_arg3 main_arg9 main_arg10 main_arg11 main_arg12 main_arg13 main_arg14 main_arg15 main_arg16 main_arg17 main_arg18 main_arg19 main_v33

def fn {F : FTy → Type} [FloatOps F] (main_arg0 : FVec F S10000x128 .f32) (main_arg1 : IVec S2x320000 32) (main_arg2 : FVec F S10000x3 .f32) (main_arg3 : IVec S10000 32) (main_arg4 : FVec F S514x257 .f32) (main_arg5 : FVec F S514 .f32) (main_arg6 : FVec F S16x514 .f32) (main_arg7 : FVec F S16 .f32) (main_arg8 : FVec F S64x16 .f32) (main_arg9 : FVec F S64 .f32) (main_arg10 : FVec F S1x64 .f32) (main_arg11 : FVec F S1 .f32) (main_arg12 : FVec F S256x144 .f32) (main_arg13 : FVec F S256 .f32) (main_arg14 : FVec F S128x256 .f32) (main_arg15 : FVec F S128 .f32) (main_arg16 : FVec F S128 .f32) (main_arg17 : FVec F S128 .f32) (main_arg18 : FVec F S3x128 .f32) (main_arg19 : FVec F S3 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x3 .f32 := Host.absf main_arg2
  let main_cst_0 : FVec F S_ .f32 := constant S_ .f32 0x7F800000#32
  let main_v5 : FVec F S10000x3 .f32 := broadcastInDim S10000x3 ![] bcast_S_S10000x3 main_cst_0
  let main_v6 : IVec S10000x3 1 := cmpf .olt main_v4 main_v5
  let main_c_1 : IVec S_ 1 := constantI S_ 1 1#1
  let main_v7 : IVec S_ 1 := (fun x v => Host.reduce IntOp.andi x v reducesTo_S10000x3_S_d0_1 h_S_) main_v6 main_c_1
  let main_v8 : IVec S_ 1 := andi main_v3 main_v7
  let main_v9 : FVec F S514x257 .f32 := Host.absf main_arg4
  let main_cst_2 : FVec F S_ .f32 := constant S_ .f32 0x7F800000#32
  let main_v10 : FVec F S514x257 .f32 := broadcastInDim S514x257 ![] bcast_S_S514x257 main_cst_2
  let main_v11 : IVec S514x257 1 := cmpf .olt main_v9 main_v10
  let main_c_3 : IVec S_ 1 := constantI S_ 1 1#1
  let main_v12 : IVec S_ 1 := (fun x v => Host.reduce IntOp.andi x v reducesTo_S514x257_S_d0_1 h_S_) main_v11 main_c_3
  let main_v13 : IVec S_ 1 := andi main_v8 main_v12
  let main_v14 : FVec F S514 .f32 := Host.absf main_arg5
  let main_cst_4 : FVec F S_ .f32 := constant S_ .f32 0x7F800000#32
  let main_v15 : FVec F S514 .f32 := broadcastInDim S514 ![] bcast_S_S514 main_cst_4
  let main_v16 : IVec S514 1 := cmpf .olt main_v14 main_v15
  fn_part1 (F := F) main_arg1 main_arg3 main_arg6 main_arg7 main_arg8 main_arg9 main_arg10 main_arg11 main_arg12 main_arg13 main_arg14 main_arg15 main_arg16 main_arg17 main_arg18 main_arg19 main_v13 main_v16
-- ==== Kernel.lean ====
abbrev S10000x128 : Shape := ⟨2, ![10000, 128]⟩
abbrev S2x320000 : Shape := ⟨2, ![2, 320000]⟩
abbrev S10000x3 : Shape := ⟨2, ![10000, 3]⟩
abbrev S10000 : Shape := ⟨1, ![10000]⟩
abbrev S514x257 : Shape := ⟨2, ![514, 257]⟩
abbrev S514 : Shape := ⟨1, ![514]⟩
abbrev S16x514 : Shape := ⟨2, ![16, 514]⟩
abbrev S16 : Shape := ⟨1, ![16]⟩
abbrev S64x16 : Shape := ⟨2, ![64, 16]⟩
abbrev S64 : Shape := ⟨1, ![64]⟩
abbrev S1x64 : Shape := ⟨2, ![1, 64]⟩
abbrev S1 : Shape := ⟨1, ![1]⟩
abbrev S256x144 : Shape := ⟨2, ![256, 144]⟩
abbrev S256 : Shape := ⟨1, ![256]⟩
abbrev S128x256 : Shape := ⟨2, ![128, 256]⟩
abbrev S128 : Shape := ⟨1, ![128]⟩
abbrev S3x128 : Shape := ⟨2, ![3, 128]⟩
abbrev S3 : Shape := ⟨1, ![3]⟩
abbrev S10000x1 : Shape := ⟨2, ![10000, 1]⟩
abbrev S_ : Shape := ⟨0, ![]⟩
abbrev S10112 : Shape := ⟨1, ![10112]⟩
abbrev S1x320000 : Shape := ⟨2, ![1, 320000]⟩
abbrev S320000 : Shape := ⟨1, ![320000]⟩
abbrev S7680 : Shape := ⟨1, ![7680]⟩
abbrev S327680 : Shape := ⟨1, ![327680]⟩
abbrev S32x80x128 : Shape := ⟨3, ![32, 80, 128]⟩
abbrev S640x128 : Shape := ⟨2, ![640, 128]⟩
abbrev S514x128 : Shape := ⟨2, ![514, 128]⟩
abbrev S128x514 : Shape := ⟨2, ![128, 514]⟩
abbrev S514x1 : Shape := ⟨2, ![514, 1]⟩
abbrev S1x514 : Shape := ⟨2, ![1, 514]⟩
abbrev S514x16 : Shape := ⟨2, ![514, 16]⟩
abbrev S1x16 : Shape := ⟨2, ![1, 16]⟩
abbrev S256x128 : Shape := ⟨2, ![256, 128]⟩
abbrev S256x16 : Shape := ⟨2, ![256, 16]⟩
abbrev S16x256 : Shape := ⟨2, ![16, 256]⟩
abbrev S1x256 : Shape := ⟨2, ![1, 256]⟩
abbrev S1x128 : Shape := ⟨2, ![1, 128]⟩
abbrev S128x3 : Shape := ⟨2, ![128, 3]⟩
abbrev S1x3 : Shape := ⟨2, ![1, 3]⟩
abbrev S327680x128 : Shape := ⟨2, ![327680, 128]⟩
abbrev S20480x16 : Shape := ⟨2, ![20480, 16]⟩
abbrev S128x128 : Shape := ⟨2, ![128, 128]⟩
abbrev S8x16 : Shape := ⟨2, ![8, 16]⟩
abbrev S1x1x128 : Shape := ⟨3, ![1, 1, 128]⟩
abbrev S16x327680 : Shape := ⟨2, ![16, 327680]⟩
abbrev S4096x128 : Shape := ⟨2, ![4096, 128]⟩
abbrev S16x4096 : Shape := ⟨2, ![16, 4096]⟩
abbrev S256x1x16 : Shape := ⟨3, ![256, 1, 16]⟩
abbrev S256x16x16 : Shape := ⟨3, ![256, 16, 16]⟩
abbrev S4096x16 : Shape := ⟨2, ![4096, 16]⟩
abbrev S4096x514 : Shape := ⟨2, ![4096, 514]⟩
abbrev S2x16x640x128 : Shape := ⟨4, ![2, 16, 640, 128]⟩
abbrev S1x2048 : Shape := ⟨2, ![1, 2048]⟩
abbrev S8x2048 : Shape := ⟨2, ![8, 2048]⟩
abbrev S2048 : Shape := ⟨1, ![2048]⟩
abbrev S1x1x640x128 : Shape := ⟨4, ![1, 1, 640, 128]⟩
abbrev S1x16x640x128 : Shape := ⟨4, ![1, 16, 640, 128]⟩
abbrev S16x640x128 : Shape := ⟨3, ![16, 640, 128]⟩
abbrev S640x8 : Shape := ⟨2, ![640, 8]⟩
abbrev S10240x8 : Shape := ⟨2, ![10240, 8]⟩
abbrev S10000x8 : Shape := ⟨2, ![10000, 8]⟩
abbrev S10000x16 : Shape := ⟨2, ![10000, 16]⟩
abbrev S10000x256 : Shape := ⟨2, ![10000, 256]⟩

abbrev nBuf : Table → Nat
  | .hbm => 79
  | .local .tc .vmem => 26
  | .local .scVector .vmem => 11
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S10000x3, .f32⟩
  | .hbm, ⟨3, _⟩ => ⟨S10000, .i32⟩
  | .hbm, ⟨4, _⟩ => ⟨S514x257, .f32⟩
  | .hbm, ⟨5, _⟩ => ⟨S514, .f32⟩
  | .hbm, ⟨6, _⟩ => ⟨S16x514, .f32⟩
  | .hbm, ⟨7, _⟩ => ⟨S16, .f32⟩
  | .hbm, ⟨8, _⟩ => ⟨S64x16, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S256x144, .f32⟩
  | .hbm, ⟨13, _⟩ => ⟨S256, .f32⟩
  | .hbm, ⟨14, _⟩ => ⟨S128x256, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S3x128, .f32⟩
  | .hbm, ⟨19, _⟩ => ⟨S3, .f32⟩
  | .hbm, ⟨20, _⟩ => ⟨S10000x1, .f32⟩
  | .hbm, ⟨21, _⟩ => ⟨S10000, .f32⟩
  | .hbm, ⟨22, _⟩ => ⟨S_, .i32⟩
  | .hbm, ⟨23, _⟩ => ⟨S_, .f32⟩
  | .hbm, ⟨24, _⟩ => ⟨S10112, .f32⟩
  | .hbm, ⟨25, _⟩ => ⟨S10000x1, .f32⟩
  | .hbm, ⟨26, _⟩ => ⟨S10000, .f32⟩
  | .hbm, ⟨27, _⟩ => ⟨S_, .i32⟩
  | .hbm, ⟨28, _⟩ => ⟨S_, .f32⟩
  | .hbm, ⟨29, _⟩ => ⟨S10112, .f32⟩
  | .hbm, ⟨30, _⟩ => ⟨S10000x1, .f32⟩
  | .hbm, ⟨31, _⟩ => ⟨S10000, .f32⟩
  | .hbm, ⟨32, _⟩ => ⟨S_, .i32⟩
  | .hbm, ⟨33, _⟩ => ⟨S_, .f32⟩
  | .hbm, ⟨34, _⟩ => ⟨S10112, .f32⟩
  | .hbm, ⟨35, _⟩ => ⟨S1x320000, .i32⟩
  | .hbm, ⟨36, _⟩ => ⟨S320000, .i32⟩
  | .hbm, ⟨37, _⟩ => ⟨S1x320000, .i32⟩
  | .hbm, ⟨38, _⟩ => ⟨S320000, .i32⟩
  | .hbm, ⟨39, _⟩ => ⟨S_, .i32⟩
  | .hbm, ⟨40, _⟩ => ⟨S7680, .i32⟩
  | .hbm, ⟨41, _⟩ => ⟨S327680, .i32⟩
  | .hbm, ⟨42, _⟩ => ⟨S32x80x128, .i32⟩
  | .hbm, ⟨43, _⟩ => ⟨S_, .i32⟩
  | .hbm, ⟨44, _⟩ => ⟨S7680, .i32⟩
  | .hbm, ⟨45, _⟩ => ⟨S327680, .i32⟩
  | .hbm, ⟨46, _⟩ => ⟨S32x80x128, .i32⟩
  | .hbm, ⟨47, _⟩ => ⟨S_, .i32⟩
  | .hbm, ⟨48, _⟩ => ⟨S7680, .i32⟩
  | .hbm, ⟨49, _⟩ => ⟨S327680, .i32⟩
  | .hbm, ⟨50, _⟩ => ⟨S_, .f32⟩
  | .hbm, ⟨51, _⟩ => ⟨S640x128, .f32⟩
  | .hbm, ⟨52, _⟩ => ⟨S514x128, .f32⟩
  | .hbm, ⟨53, _⟩ => ⟨S128x514, .f32⟩
  | .hbm, ⟨54, _⟩ => ⟨S514x128, .f32⟩
  | .hbm, ⟨55, _⟩ => ⟨S128x514, .f32⟩
  | .hbm, ⟨56, _⟩ => ⟨S514x1, .f32⟩
  | .hbm, ⟨57, _⟩ => ⟨S1x514, .f32⟩
  | .hbm, ⟨58, _⟩ => ⟨S16x514, .f32⟩
  | .hbm, ⟨59, _⟩ => ⟨S1x514, .f32⟩
  | .hbm, ⟨60, _⟩ => ⟨S514x16, .f32⟩
  | .hbm, ⟨61, _⟩ => ⟨S1x16, .f32⟩
  | .hbm, ⟨62, _⟩ => ⟨S256x128, .f32⟩
  | .hbm, ⟨63, _⟩ => ⟨S128x256, .f32⟩
  | .hbm, ⟨64, _⟩ => ⟨S256x16, .f32⟩
  | .hbm, ⟨65, _⟩ => ⟨S16x256, .f32⟩
  | .hbm, ⟨66, _⟩ => ⟨S1x256, .f32⟩
  | .hbm, ⟨67, _⟩ => ⟨S256x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S128x3, .f32⟩
  | .hbm, ⟨72, _⟩ => ⟨S1x3, .f32⟩
  | .hbm, ⟨73, _⟩ => ⟨S327680x128, .f32⟩
  | .hbm, ⟨74, _⟩ => ⟨S327680x128, .f32⟩
  | .hbm, ⟨75, _⟩ => ⟨S20480x16, .f32⟩
  | .hbm, ⟨76, _⟩ => ⟨S16x327680, .f32⟩
  | .hbm, ⟨77, _⟩ => ⟨S2x16x640x128, .f32⟩
  | .hbm, ⟨78, _⟩ => ⟨S10000x3, .f32⟩
  | .local .tc .vmem, ⟨0, _⟩ => ⟨S4096x128, .f32⟩
  | .local .tc .vmem, ⟨1, _⟩ => ⟨S4096x128, .f32⟩
  | .local .tc .vmem, ⟨2, _⟩ => ⟨S4096x128, .f32⟩
  | .local .tc .vmem, ⟨3, _⟩ => ⟨S4096x128, .f32⟩
  | .local .tc .vmem, ⟨4, _⟩ => ⟨S256x16, .f32⟩
  | .local .tc .vmem, ⟨5, _⟩ => ⟨S256x16, .f32⟩
  | .local .tc .vmem, ⟨6, _⟩ => ⟨S128x514, .f32⟩
  | .local .tc .vmem, ⟨7, _⟩ => ⟨S128x514, .f32⟩
  | .local .tc .vmem, ⟨8, _⟩ => ⟨S16x514, .f32⟩
  | .local .tc .vmem, ⟨9, _⟩ => ⟨S1x514, .f32⟩
  | .local .tc .vmem, ⟨10, _⟩ => ⟨S514x16, .f32⟩
  | .local .tc .vmem, ⟨11, _⟩ => ⟨S1x16, .f32⟩
  | .local .tc .vmem, ⟨12, _⟩ => ⟨S16x4096, .f32⟩
  | .local .tc .vmem, ⟨13, _⟩ => ⟨S16x4096, .f32⟩
  | .local .tc .vmem, ⟨14, _⟩ => ⟨S10000x128, .f32⟩
  | .local .tc .vmem, ⟨15, _⟩ => ⟨S2x16x640x128, .f32⟩
  | .local .tc .vmem, ⟨16, _⟩ => ⟨S128x256, .f32⟩
  | .local .tc .vmem, ⟨17, _⟩ => ⟨S16x256, .f32⟩
  | .local .tc .vmem, ⟨18, _⟩ => ⟨S1x256, .f32⟩
  | .local .tc .vmem, ⟨19, _⟩ => ⟨S256x128, .f32⟩
  | .local .tc .vmem, ⟨20, _⟩ => ⟨S1x128, .f32⟩
  | .local .tc .vmem, ⟨21, _⟩ => ⟨S1x128, .f32⟩
  | .local .tc .vmem, ⟨22, _⟩ => ⟨S1x128, .f32⟩
  | .local .tc .vmem, ⟨23, _⟩ => ⟨S128x3, .f32⟩
  | .local .tc .vmem, ⟨24, _⟩ => ⟨S1x3, .f32⟩
  | .local .tc .vmem, ⟨25, _⟩ => ⟨S10000x3, .f32⟩
  | .local .scVector .vmem, ⟨0, _⟩ => ⟨S128, .i32⟩
  | .local .scVector .vmem, ⟨1, _⟩ => ⟨S128, .i32⟩
  | .local .scVector .vmem, ⟨2, _⟩ => ⟨S128x128, .f32⟩
  | .local .scVector .vmem, ⟨3, _⟩ => ⟨S128x128, .f32⟩
  | .local .scVector .vmem, ⟨4, _⟩ => ⟨S8x16, .f32⟩
  | .local .scVector .vmem, ⟨5, _⟩ => ⟨S10112, .f32⟩
  | .local .scVector .vmem, ⟨6, _⟩ => ⟨S10112, .f32⟩
  | .local .scVector .vmem, ⟨7, _⟩ => ⟨S10112, .f32⟩
  | .local .scVector .vmem, ⟨8, _⟩ => ⟨S640x128, .f32⟩
  | .local .scVector .vmem, ⟨9, _⟩ => ⟨S1x2048, .i32⟩
  | .local .scVector .vmem, ⟨10, _⟩ => ⟨S8x2048, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 40 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => false
  | ⟨25, _⟩ => false
  | ⟨26, _⟩ => false
  | ⟨27, _⟩ => false
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTables nBuf rfl bufTy 4 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_call0_v0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_call1_v0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c_1 : Ref sig .tc := ⟨.hbm, 32, rfl⟩
abbrev main_call2_v0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_3 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_v20 : Ref sig .tc := ⟨.hbm, 49, rfl⟩
abbrev main_cst : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43_0 : Ref sig .tc := ⟨.hbm, 73, rfl⟩
abbrev main_v43_1 : Ref sig .tc := ⟨.hbm, 74, rfl⟩
abbrev main_v43_2 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_arg0_scv : Ref sig .scVector := ⟨.hbm, 0, rfl⟩
abbrev main_v2_scv : Ref sig .scVector := ⟨.hbm, 24, rfl⟩
abbrev main_v5_scv : Ref sig .scVector := ⟨.hbm, 29, rfl⟩
abbrev main_v8_scv : Ref sig .scVector := ⟨.hbm, 34, rfl⟩
abbrev main_v15_scv : Ref sig .scVector := ⟨.hbm, 42, rfl⟩
abbrev main_v18_scv : Ref sig .scVector := ⟨.hbm, 46, rfl⟩
abbrev main_v43_0_scv : Ref sig .scVector := ⟨.hbm, 73, rfl⟩
abbrev main_v43_1_scv : Ref sig .scVector := ⟨.hbm, 74, rfl⟩
abbrev main_v43_2_scv : Ref sig .scVector := ⟨.hbm, 75, rfl⟩
abbrev main_v44_scv : Ref sig .scVector := ⟨.hbm, 76, rfl⟩
abbrev main_v20_scv : Ref sig .scVector := ⟨.hbm, 49, rfl⟩
abbrev main_v21_scv : Ref sig .scVector := ⟨.hbm, 51, rfl⟩
abbrev main_v45_scv : Ref sig .scVector := ⟨.hbm, 77, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg9_1 : Ref sig .tc := ⟨.vmem, 13, rfl⟩
abbrev cc3_stg0_0 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg3_0 : Ref sig .tc := ⟨.vmem, 17, rfl⟩
abbrev cc3_stg4_0 : Ref sig .tc := ⟨.vmem, 18, rfl⟩
abbrev cc3_stg5_0 : Ref sig .tc := ⟨.vmem, 19, rfl⟩
abbrev cc3_stg6_0 : Ref sig .tc := ⟨.vmem, 20, rfl⟩
abbrev cc3_stg7_0 : Ref sig .tc := ⟨.vmem, 21, rfl⟩
abbrev cc3_stg8_0 : Ref sig .tc := ⟨.vmem, 22, rfl⟩
abbrev cc3_stg9_0 : Ref sig .tc := ⟨.vmem, 23, rfl⟩
abbrev cc3_stg10_0 : Ref sig .tc := ⟨.vmem, 24, rfl⟩
abbrev cc3_stg11_0 : Ref sig .tc := ⟨.vmem, 25, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc2_scratch0 : Ref sig .scVector := ⟨.vmem, 8, rfl⟩
abbrev cc2_scratch1 : Ref sig .scVector := ⟨.vmem, 9, rfl⟩
abbrev cc2_scratch2 : Ref sig .scVector := ⟨.vmem, 10, rfl⟩
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc3_sem0_0 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem10_0 : DmaSem sig := 38
abbrev cc3_sem11_0 : DmaSem sig := 39
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c80_i32_0 : BitVec 32 := 80#32
  let v4 : BitVec 32 := Scalar.addi c0_i32 c80_i32_0
  let c1_i32 : BitVec 32 := 1#32
  ⟨c0_i32, v4, c1_i32⟩
def k0_off1 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_3 : BitVec 32 := 0#32
  let c0_i32 : BitVec 32 := 0#32
  let c1_i32 : BitVec 32 := 1#32
  let arg21 : BitVec 32 := Scf.iv c0_i32 c1_i32 k0_t1
  let c1_i32_2 : BitVec 32 := 1#32
  let v5 : BitVec 32 := Scalar.muli arg21 c1_i32_2
  let v6 : BitVec 32 := Scalar.addi c0_i32_3 v5
  let c0_i32_39_r3 : BitVec 32 := 0#32
  ![v1.toNat, v6.toNat, 0]

def k0_chk1 (v11 : IVec S16 32) : Prop :=
  (∀ a x, ((![v11] : Fin 1 → IVec S16 32) a x).toNat < S10112.size a) ∧
  (∀ a x, ((![v11] : Fin 1 → IVec S16 32) a x).toNat < S10112.size a) ∧
  (∀ a x, ((![v11] : Fin 1 → IVec S16 32) a x).toNat < S10112.size a)
instance k0_chk1.dec : ∀ (v11 : IVec S16 32), Decidable (k0_chk1 v11) := fun v11 => decidable_of_iff' _ (Iff.of_eq (k0_chk1.eq_1 v11))
theorem k0_idx1_inb : ∀ (v11 : IVec S16 32) (k0_hw1 : k0_chk1 v11), ∀ a x, ((![v11] : Fin 1 → IVec S16 32) a x).toNat < S10112.size a := fun v11 k0_hw1 => k0_hw1.1
theorem k0_idx3_inb : ∀ (v11 : IVec S16 32) (k0_hw1 : k0_chk1 v11), ∀ a x, ((![v11] : Fin 1 → IVec S16 32) a x).toNat < S10112.size a := fun v11 k0_hw1 => k0_hw1.2.1
theorem k0_idx5_inb : ∀ (v11 : IVec S16 32) (k0_hw1 : k0_chk1 v11), ∀ a x, ((![v11] : Fin 1 → IVec S16 32) a x).toNat < S10112.size a := fun v11 k0_hw1 => k0_hw1.2.2

def k0_chk2 (v12 : IVec S16 32) : Prop :=
  (∀ a x, ((![v12] : Fin 1 → IVec S16 32) a x).toNat < S10112.size a) ∧
  (∀ a x, ((![v12] : Fin 1 → IVec S16 32) a x).toNat < S10112.size a) ∧
  (∀ a x, ((![v12] : Fin 1 → IVec S16 32) a x).toNat < S10112.size a)
instance k0_chk2.dec : ∀ (v12 : IVec S16 32), Decidable (k0_chk2 v12) := fun v12 => decidable_of_iff' _ (Iff.of_eq (k0_chk2.eq_1 v12))
theorem k0_idx2_inb : ∀ (v12 : IVec S16 32) (k0_hw2 : k0_chk2 v12), ∀ a x, ((![v12] : Fin 1 → IVec S16 32) a x).toNat < S10112.size a := fun v12 k0_hw2 => k0_hw2.1
theorem k0_idx4_inb : ∀ (v12 : IVec S16 32) (k0_hw2 : k0_chk2 v12), ∀ a x, ((![v12] : Fin 1 → IVec S16 32) a x).toNat < S10112.size a := fun v12 k0_hw2 => k0_hw2.2.1
theorem k0_idx6_inb : ∀ (v12 : IVec S16 32) (k0_hw2 : k0_chk2 v12), ∀ a x, ((![v12] : Fin 1 → IVec S16 32) a x).toNat < S10112.size a := fun v12 k0_hw2 => k0_hw2.2.2

def k0_chk3 (v31 : IVec S16 32) : Prop :=
  (∀ a x, ((![v31] : Fin 1 → IVec S16 32) a x).toNat < S10112.size a) ∧
  (∀ a x, ((![v31] : Fin 1 → IVec S16 32) a x).toNat < S10112.size a) ∧
  (∀ a x, ((![v31] : Fin 1 → IVec S16 32) a x).toNat < S10112.size a)
instance k0_chk3.dec : ∀ (v31 : IVec S16 32), Decidable (k0_chk3 v31) := fun v31 => decidable_of_iff' _ (Iff.of_eq (k0_chk3.eq_1 v31))
theorem k0_idx7_inb : ∀ (v31 : IVec S16 32) (k0_hw3 : k0_chk3 v31), ∀ a x, ((![v31] : Fin 1 → IVec S16 32) a x).toNat < S10112.size a := fun v31 k0_hw3 => k0_hw3.1
theorem k0_idx9_inb : ∀ (v31 : IVec S16 32) (k0_hw3 : k0_chk3 v31), ∀ a x, ((![v31] : Fin 1 → IVec S16 32) a x).toNat < S10112.size a := fun v31 k0_hw3 => k0_hw3.2.1
theorem k0_idx11_inb : ∀ (v31 : IVec S16 32) (k0_hw3 : k0_chk3 v31), ∀ a x, ((![v31] : Fin 1 → IVec S16 32) a x).toNat < S10112.size a := fun v31 k0_hw3 => k0_hw3.2.2

def k0_chk4 (v32 : IVec S16 32) : Prop :=
  (∀ a x, ((![v32] : Fin 1 → IVec S16 32) a x).toNat < S10112.size a) ∧
  (∀ a x, ((![v32] : Fin 1 → IVec S16 32) a x).toNat < S10112.size a) ∧
  (∀ a x, ((![v32] : Fin 1 → IVec S16 32) a x).toNat < S10112.size a)
instance k0_chk4.dec : ∀ (v32 : IVec S16 32), Decidable (k0_chk4 v32) := fun v32 => decidable_of_iff' _ (Iff.of_eq (k0_chk4.eq_1 v32))
theorem k0_idx8_inb : ∀ (v32 : IVec S16 32) (k0_hw4 : k0_chk4 v32), ∀ a x, ((![v32] : Fin 1 → IVec S16 32) a x).toNat < S10112.size a := fun v32 k0_hw4 => k0_hw4.1
theorem k0_idx10_inb : ∀ (v32 : IVec S16 32) (k0_hw4 : k0_chk4 v32), ∀ a x, ((![v32] : Fin 1 → IVec S16 32) a x).toNat < S10112.size a := fun v32 k0_hw4 => k0_hw4.2.1
theorem k0_idx12_inb : ∀ (v32 : IVec S16 32) (k0_hw4 : k0_chk4 v32), ∀ a x, ((![v32] : Fin 1 → IVec S16 32) a x).toNat < S10112.size a := fun v32 k0_hw4 => k0_hw4.2.2

def k0_chk5 (v51 : IVec S16 32) : Prop :=
  (∀ a x, ((![v51] : Fin 1 → IVec S16 32) a x).toNat < S10112.size a) ∧
  (∀ a x, ((![v51] : Fin 1 → IVec S16 32) a x).toNat < S10112.size a) ∧
  (∀ a x, ((![v51] : Fin 1 → IVec S16 32) a x).toNat < S10112.size a)
instance k0_chk5.dec : ∀ (v51 : IVec S16 32), Decidable (k0_chk5 v51) := fun v51 => decidable_of_iff' _ (Iff.of_eq (k0_chk5.eq_1 v51))
theorem k0_idx13_inb : ∀ (v51 : IVec S16 32) (k0_hw5 : k0_chk5 v51), ∀ a x, ((![v51] : Fin 1 → IVec S16 32) a x).toNat < S10112.size a := fun v51 k0_hw5 => k0_hw5.1
theorem k0_idx15_inb : ∀ (v51 : IVec S16 32) (k0_hw5 : k0_chk5 v51), ∀ a x, ((![v51] : Fin 1 → IVec S16 32) a x).toNat < S10112.size a := fun v51 k0_hw5 => k0_hw5.2.1
theorem k0_idx17_inb : ∀ (v51 : IVec S16 32) (k0_hw5 : k0_chk5 v51), ∀ a x, ((![v51] : Fin 1 → IVec S16 32) a x).toNat < S10112.size a := fun v51 k0_hw5 => k0_hw5.2.2

def k0_chk6 (v52 : IVec S16 32) : Prop :=
  (∀ a x, ((![v52] : Fin 1 → IVec S16 32) a x).toNat < S10112.size a) ∧
  (∀ a x, ((![v52] : Fin 1 → IVec S16 32) a x).toNat < S10112.size a) ∧
  (∀ a x, ((![v52] : Fin 1 → IVec S16 32) a x).toNat < S10112.size a)
instance k0_chk6.dec : ∀ (v52 : IVec S16 32), Decidable (k0_chk6 v52) := fun v52 => decidable_of_iff' _ (Iff.of_eq (k0_chk6.eq_1 v52))
theorem k0_idx14_inb : ∀ (v52 : IVec S16 32) (k0_hw6 : k0_chk6 v52), ∀ a x, ((![v52] : Fin 1 → IVec S16 32) a x).toNat < S10112.size a := fun v52 k0_hw6 => k0_hw6.1
theorem k0_idx16_inb : ∀ (v52 : IVec S16 32) (k0_hw6 : k0_chk6 v52), ∀ a x, ((![v52] : Fin 1 → IVec S16 32) a x).toNat < S10112.size a := fun v52 k0_hw6 => k0_hw6.2.1
theorem k0_idx18_inb : ∀ (v52 : IVec S16 32) (k0_hw6 : k0_chk6 v52), ∀ a x, ((![v52] : Fin 1 → IVec S16 32) a x).toNat < S10112.size a := fun v52 k0_hw6 => k0_hw6.2.2

def k0_chk7 (v71 : IVec S16 32) : Prop :=
  (∀ a x, ((![v71] : Fin 1 → IVec S16 32) a x).toNat < S10112.size a) ∧
  (∀ a x, ((![v71] : Fin 1 → IVec S16 32) a x).toNat < S10112.size a) ∧
  (∀ a x, ((![v71] : Fin 1 → IVec S16 32) a x).toNat < S10112.size a)
instance k0_chk7.dec : ∀ (v71 : IVec S16 32), Decidable (k0_chk7 v71) := fun v71 => decidable_of_iff' _ (Iff.of_eq (k0_chk7.eq_1 v71))
theorem k0_idx19_inb : ∀ (v71 : IVec S16 32) (k0_hw7 : k0_chk7 v71), ∀ a x, ((![v71] : Fin 1 → IVec S16 32) a x).toNat < S10112.size a := fun v71 k0_hw7 => k0_hw7.1
theorem k0_idx21_inb : ∀ (v71 : IVec S16 32) (k0_hw7 : k0_chk7 v71), ∀ a x, ((![v71] : Fin 1 → IVec S16 32) a x).toNat < S10112.size a := fun v71 k0_hw7 => k0_hw7.2.1
theorem k0_idx23_inb : ∀ (v71 : IVec S16 32) (k0_hw7 : k0_chk7 v71), ∀ a x, ((![v71] : Fin 1 → IVec S16 32) a x).toNat < S10112.size a := fun v71 k0_hw7 => k0_hw7.2.2

def k0_chk8 (v72 : IVec S16 32) : Prop :=
  (∀ a x, ((![v72] : Fin 1 → IVec S16 32) a x).toNat < S10112.size a) ∧
  (∀ a x, ((![v72] : Fin 1 → IVec S16 32) a x).toNat < S10112.size a) ∧
  (∀ a x, ((![v72] : Fin 1 → IVec S16 32) a x).toNat < S10112.size a)
instance k0_chk8.dec : ∀ (v72 : IVec S16 32), Decidable (k0_chk8 v72) := fun v72 => decidable_of_iff' _ (Iff.of_eq (k0_chk8.eq_1 v72))
theorem k0_idx20_inb : ∀ (v72 : IVec S16 32) (k0_hw8 : k0_chk8 v72), ∀ a x, ((![v72] : Fin 1 → IVec S16 32) a x).toNat < S10112.size a := fun v72 k0_hw8 => k0_hw8.1
theorem k0_idx22_inb : ∀ (v72 : IVec S16 32) (k0_hw8 : k0_chk8 v72), ∀ a x, ((![v72] : Fin 1 → IVec S16 32) a x).toNat < S10112.size a := fun v72 k0_hw8 => k0_hw8.2.1
theorem k0_idx24_inb : ∀ (v72 : IVec S16 32) (k0_hw8 : k0_chk8 v72), ∀ a x, ((![v72] : Fin 1 → IVec S16 32) a x).toNat < S10112.size a := fun v72 k0_hw8 => k0_hw8.2.2

def k0_chk9 (v91 : IVec S16 32) : Prop :=
  (∀ a x, ((![v91] : Fin 1 → IVec S16 32) a x).toNat < S10112.size a) ∧
  (∀ a x, ((![v91] : Fin 1 → IVec S16 32) a x).toNat < S10112.size a) ∧
  (∀ a x, ((![v91] : Fin 1 → IVec S16 32) a x).toNat < S10112.size a)
instance k0_chk9.dec : ∀ (v91 : IVec S16 32), Decidable (k0_chk9 v91) := fun v91 => decidable_of_iff' _ (Iff.of_eq (k0_chk9.eq_1 v91))
theorem k0_idx25_inb : ∀ (v91 : IVec S16 32) (k0_hw9 : k0_chk9 v91), ∀ a x, ((![v91] : Fin 1 → IVec S16 32) a x).toNat < S10112.size a := fun v91 k0_hw9 => k0_hw9.1
theorem k0_idx27_inb : ∀ (v91 : IVec S16 32) (k0_hw9 : k0_chk9 v91), ∀ a x, ((![v91] : Fin 1 → IVec S16 32) a x).toNat < S10112.size a := fun v91 k0_hw9 => k0_hw9.2.1
theorem k0_idx29_inb : ∀ (v91 : IVec S16 32) (k0_hw9 : k0_chk9 v91), ∀ a x, ((![v91] : Fin 1 → IVec S16 32) a x).toNat < S10112.size a := fun v91 k0_hw9 => k0_hw9.2.2

def k0_chk10 (v92 : IVec S16 32) : Prop :=
  (∀ a x, ((![v92] : Fin 1 → IVec S16 32) a x).toNat < S10112.size a) ∧
  (∀ a x, ((![v92] : Fin 1 → IVec S16 32) a x).toNat < S10112.size a) ∧
  (∀ a x, ((![v92] : Fin 1 → IVec S16 32) a x).toNat < S10112.size a)
instance k0_chk10.dec : ∀ (v92 : IVec S16 32), Decidable (k0_chk10 v92) := fun v92 => decidable_of_iff' _ (Iff.of_eq (k0_chk10.eq_1 v92))
theorem k0_idx26_inb : ∀ (v92 : IVec S16 32) (k0_hw10 : k0_chk10 v92), ∀ a x, ((![v92] : Fin 1 → IVec S16 32) a x).toNat < S10112.size a := fun v92 k0_hw10 => k0_hw10.1
theorem k0_idx28_inb : ∀ (v92 : IVec S16 32) (k0_hw10 : k0_chk10 v92), ∀ a x, ((![v92] : Fin 1 → IVec S16 32) a x).toNat < S10112.size a := fun v92 k0_hw10 => k0_hw10.2.1
theorem k0_idx30_inb : ∀ (v92 : IVec S16 32) (k0_hw10 : k0_chk10 v92), ∀ a x, ((![v92] : Fin 1 → IVec S16 32) a x).toNat < S10112.size a := fun v92 k0_hw10 => k0_hw10.2.2

def k0_chk11 (v111 : IVec S16 32) : Prop :=
  (∀ a x, ((![v111] : Fin 1 → IVec S16 32) a x).toNat < S10112.size a) ∧
  (∀ a x, ((![v111] : Fin 1 → IVec S16 32) a x).toNat < S10112.size a) ∧
  (∀ a x, ((![v111] : Fin 1 → IVec S16 32) a x).toNat < S10112.size a)
instance k0_chk11.dec : ∀ (v111 : IVec S16 32), Decidable (k0_chk11 v111) := fun v111 => decidable_of_iff' _ (Iff.of_eq (k0_chk11.eq_1 v111))
theorem k0_idx31_inb : ∀ (v111 : IVec S16 32) (k0_hw11 : k0_chk11 v111), ∀ a x, ((![v111] : Fin 1 → IVec S16 32) a x).toNat < S10112.size a := fun v111 k0_hw11 => k0_hw11.1
theorem k0_idx33_inb : ∀ (v111 : IVec S16 32) (k0_hw11 : k0_chk11 v111), ∀ a x, ((![v111] : Fin 1 → IVec S16 32) a x).toNat < S10112.size a := fun v111 k0_hw11 => k0_hw11.2.1
theorem k0_idx35_inb : ∀ (v111 : IVec S16 32) (k0_hw11 : k0_chk11 v111), ∀ a x, ((![v111] : Fin 1 → IVec S16 32) a x).toNat < S10112.size a := fun v111 k0_hw11 => k0_hw11.2.2

def k0_chk12 (v112 : IVec S16 32) : Prop :=
  (∀ a x, ((![v112] : Fin 1 → IVec S16 32) a x).toNat < S10112.size a) ∧
  (∀ a x, ((![v112] : Fin 1 → IVec S16 32) a x).toNat < S10112.size a) ∧
  (∀ a x, ((![v112] : Fin 1 → IVec S16 32) a x).toNat < S10112.size a)
instance k0_chk12.dec : ∀ (v112 : IVec S16 32), Decidable (k0_chk12 v112) := fun v112 => decidable_of_iff' _ (Iff.of_eq (k0_chk12.eq_1 v112))
theorem k0_idx32_inb : ∀ (v112 : IVec S16 32) (k0_hw12 : k0_chk12 v112), ∀ a x, ((![v112] : Fin 1 → IVec S16 32) a x).toNat < S10112.size a := fun v112 k0_hw12 => k0_hw12.1
theorem k0_idx34_inb : ∀ (v112 : IVec S16 32) (k0_hw12 : k0_chk12 v112), ∀ a x, ((![v112] : Fin 1 → IVec S16 32) a x).toNat < S10112.size a := fun v112 k0_hw12 => k0_hw12.2.1
theorem k0_idx36_inb : ∀ (v112 : IVec S16 32) (k0_hw12 : k0_chk12 v112), ∀ a x, ((![v112] : Fin 1 → IVec S16 32) a x).toNat < S10112.size a := fun v112 k0_hw12 => k0_hw12.2.2

def k0_chk13 (v131 : IVec S16 32) : Prop :=
  (∀ a x, ((![v131] : Fin 1 → IVec S16 32) a x).toNat < S10112.size a) ∧
  (∀ a x, ((![v131] : Fin 1 → IVec S16 32) a x).toNat < S10112.size a) ∧
  (∀ a x, ((![v131] : Fin 1 → IVec S16 32) a x).toNat < S10112.size a)
instance k0_chk13.dec : ∀ (v131 : IVec S16 32), Decidable (k0_chk13 v131) := fun v131 => decidable_of_iff' _ (Iff.of_eq (k0_chk13.eq_1 v131))
theorem k0_idx37_inb : ∀ (v131 : IVec S16 32) (k0_hw13 : k0_chk13 v131), ∀ a x, ((![v131] : Fin 1 → IVec S16 32) a x).toNat < S10112.size a := fun v131 k0_hw13 => k0_hw13.1
theorem k0_idx39_inb : ∀ (v131 : IVec S16 32) (k0_hw13 : k0_chk13 v131), ∀ a x, ((![v131] : Fin 1 → IVec S16 32) a x).toNat < S10112.size a := fun v131 k0_hw13 => k0_hw13.2.1
theorem k0_idx41_inb : ∀ (v131 : IVec S16 32) (k0_hw13 : k0_chk13 v131), ∀ a x, ((![v131] : Fin 1 → IVec S16 32) a x).toNat < S10112.size a := fun v131 k0_hw13 => k0_hw13.2.2

def k0_chk14 (v132 : IVec S16 32) : Prop :=
  (∀ a x, ((![v132] : Fin 1 → IVec S16 32) a x).toNat < S10112.size a) ∧
  (∀ a x, ((![v132] : Fin 1 → IVec S16 32) a x).toNat < S10112.size a) ∧
  (∀ a x, ((![v132] : Fin 1 → IVec S16 32) a x).toNat < S10112.size a)
instance k0_chk14.dec : ∀ (v132 : IVec S16 32), Decidable (k0_chk14 v132) := fun v132 => decidable_of_iff' _ (Iff.of_eq (k0_chk14.eq_1 v132))
theorem k0_idx38_inb : ∀ (v132 : IVec S16 32) (k0_hw14 : k0_chk14 v132), ∀ a x, ((![v132] : Fin 1 → IVec S16 32) a x).toNat < S10112.size a := fun v132 k0_hw14 => k0_hw14.1
theorem k0_idx40_inb : ∀ (v132 : IVec S16 32) (k0_hw14 : k0_chk14 v132), ∀ a x, ((![v132] : Fin 1 → IVec S16 32) a x).toNat < S10112.size a := fun v132 k0_hw14 => k0_hw14.2.1
theorem k0_idx42_inb : ∀ (v132 : IVec S16 32) (k0_hw14 : k0_chk14 v132), ∀ a x, ((![v132] : Fin 1 → IVec S16 32) a x).toNat < S10112.size a := fun v132 k0_hw14 => k0_hw14.2.2

def k0_chk15 (v151 : IVec S16 32) : Prop :=
  (∀ a x, ((![v151] : Fin 1 → IVec S16 32) a x).toNat < S10112.size a) ∧
  (∀ a x, ((![v151] : Fin 1 → IVec S16 32) a x).toNat < S10112.size a) ∧
  (∀ a x, ((![v151] : Fin 1 → IVec S16 32) a x).toNat < S10112.size a)
instance k0_chk15.dec : ∀ (v151 : IVec S16 32), Decidable (k0_chk15 v151) := fun v151 => decidable_of_iff' _ (Iff.of_eq (k0_chk15.eq_1 v151))
theorem k0_idx43_inb : ∀ (v151 : IVec S16 32) (k0_hw15 : k0_chk15 v151), ∀ a x, ((![v151] : Fin 1 → IVec S16 32) a x).toNat < S10112.size a := fun v151 k0_hw15 => k0_hw15.1
theorem k0_idx45_inb : ∀ (v151 : IVec S16 32) (k0_hw15 : k0_chk15 v151), ∀ a x, ((![v151] : Fin 1 → IVec S16 32) a x).toNat < S10112.size a := fun v151 k0_hw15 => k0_hw15.2.1
theorem k0_idx47_inb : ∀ (v151 : IVec S16 32) (k0_hw15 : k0_chk15 v151), ∀ a x, ((![v151] : Fin 1 → IVec S16 32) a x).toNat < S10112.size a := fun v151 k0_hw15 => k0_hw15.2.2

def k0_chk16 (v152 : IVec S16 32) : Prop :=
  (∀ a x, ((![v152] : Fin 1 → IVec S16 32) a x).toNat < S10112.size a) ∧
  (∀ a x, ((![v152] : Fin 1 → IVec S16 32) a x).toNat < S10112.size a) ∧
  (∀ a x, ((![v152] : Fin 1 → IVec S16 32) a x).toNat < S10112.size a)
instance k0_chk16.dec : ∀ (v152 : IVec S16 32), Decidable (k0_chk16 v152) := fun v152 => decidable_of_iff' _ (Iff.of_eq (k0_chk16.eq_1 v152))
theorem k0_idx44_inb : ∀ (v152 : IVec S16 32) (k0_hw16 : k0_chk16 v152), ∀ a x, ((![v152] : Fin 1 → IVec S16 32) a x).toNat < S10112.size a := fun v152 k0_hw16 => k0_hw16.1
theorem k0_idx46_inb : ∀ (v152 : IVec S16 32) (k0_hw16 : k0_chk16 v152), ∀ a x, ((![v152] : Fin 1 → IVec S16 32) a x).toNat < S10112.size a := fun v152 k0_hw16 => k0_hw16.2.1
theorem k0_idx48_inb : ∀ (v152 : IVec S16 32) (k0_hw16 : k0_chk16 v152), ∀ a x, ((![v152] : Fin 1 → IVec S16 32) a x).toNat < S10112.size a := fun v152 k0_hw16 => k0_hw16.2.2
def k0_off2 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c80_i32_34 : BitVec 32 := 80#32
  let v171 : BitVec 32 := Scalar.muli v1 c80_i32_34
  let c0_i32_3 : BitVec 32 := 0#32
  let c0_i32 : BitVec 32 := 0#32
  let c1_i32 : BitVec 32 := 1#32
  let arg21 : BitVec 32 := Scf.iv c0_i32 c1_i32 k0_t1
  let c1_i32_2 : BitVec 32 := 1#32
  let v5 : BitVec 32 := Scalar.muli arg21 c1_i32_2
  let v6 : BitVec 32 := Scalar.addi c0_i32_3 v5
  let v172 : BitVec 32 := Scalar.addi v171 v6
  let c8_i32 : BitVec 32 := 8#32
  let v173 : BitVec 32 := Scalar.muli v172 c8_i32
  let c0_i32_39_r5 : BitVec 32 := 0#32
  ![v173.toNat, 0]
def k0_off3 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c80_i32 : BitVec 32 := 80#32
  let v2 : BitVec 32 := Scalar.muli v1 c80_i32
  let c128_i32 : BitVec 32 := 128#32
  let v3 : BitVec 32 := Scalar.muli v2 c128_i32
  let c0_i32_3 : BitVec 32 := 0#32
  let c0_i32 : BitVec 32 := 0#32
  let c1_i32 : BitVec 32 := 1#32
  let arg21 : BitVec 32 := Scf.iv c0_i32 c1_i32 k0_t1
  let c1_i32_2 : BitVec 32 := 1#32
  let v5 : BitVec 32 := Scalar.muli arg21 c1_i32_2
  let v6 : BitVec 32 := Scalar.addi c0_i32_3 v5
  let c128_i32_4 : BitVec 32 := 128#32
  let v7 : BitVec 32 := Scalar.muli v6 c128_i32_4
  let v8 : BitVec 32 := Scalar.addi v3 v7
  let c0_i32_39_r6 : BitVec 32 := 0#32
  ![v8.toNat, 0]
abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x514 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x514 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x514 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x514 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S514x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S16x4096 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨2, ![2, 16], ![false, false]⟩

@[reducible] def k2_t1_loop : Scf.Loop 32 :=
  let c0_i32_10 : BitVec 32 := 0#32
  let c10_i32 : BitVec 32 := 10#32
  let v29 : BitVec 32 := Scalar.addi c0_i32_10 c10_i32
  let c1_i32_11 : BitVec 32 := 1#32
  ⟨c0_i32_10, v29, c1_i32_11⟩
def k2_off1 (i : grid2.Coords) (k2_t1 : Fin k2_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c2_i32_3 : BitVec 32 := 2#32
  let c0_i32_6 : BitVec 32 := 0#32
  let v18 : BitVec 1 := Scalar.cmpi .sgt c2_i32_3 c0_i32_6
  let v19 : BitVec 32 := Scalar.extui v18
  let c0_i32_7 : BitVec 32 := 0#32
  let v20 : BitVec 1 := Scalar.cmpi .slt c2_i32_3 c0_i32_7
  let v21 : BitVec 32 := Scalar.extui v20
  let v22 : BitVec 32 := Scalar.subi v19 v21
  let v23 : BitVec 1 := Scalar.cmpi .ne v17 v22
  let v24 : BitVec 32 := Scalar.remsi v1 c2_i32_3
  let c0_i32_8 : BitVec 32 := 0#32
  let v25 : BitVec 1 := Scalar.cmpi .ne v24 c0_i32_8
  let v26 : BitVec 1 := Scalar.andi v23 v25
  let v12 : BitVec 32 := Scalar.divsi v1 c2_i32_3
  let c1_i32_9 : BitVec 32 := 1#32
  let v27 : BitVec 32 := Scalar.subi v12 c1_i32_9
  let v28 : BitVec 32 := Scalar.select v26 v27 v12
  let c20480_i32 : BitVec 32 := 20480#32
  let v32 : BitVec 32 := Scalar.muli v28 c20480_i32
  let c0_i32_14 : BitVec 32 := 0#32
  let c0_i32_10 : BitVec 32 := 0#32
  let c1_i32_11 : BitVec 32 := 1#32
  let arg9 : BitVec 32 := Scf.iv c0_i32_10 c1_i32_11 k2_t1
  let c1_i32_13 : BitVec 32 := 1#32
  let v30 : BitVec 32 := Scalar.muli arg9 c1_i32_13
  let v31 : BitVec 32 := Scalar.addi c0_i32_14 v30
  let c2048_i32 : BitVec 32 := 2048#32
  let v33 : BitVec 32 := Scalar.muli v31 c2048_i32
  let v34 : BitVec 32 := Scalar.addi v32 v33
  ![v34.toNat]
def k2_off2 (i : grid2.Coords) (k2_t1 : Fin k2_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c8_i32 : BitVec 32 := 8#32
  let v35 : BitVec 32 := Scalar.muli v11 c8_i32
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c2_i32_3 : BitVec 32 := 2#32
  let c0_i32_6 : BitVec 32 := 0#32
  let v18 : BitVec 1 := Scalar.cmpi .sgt c2_i32_3 c0_i32_6
  let v19 : BitVec 32 := Scalar.extui v18
  let c0_i32_7 : BitVec 32 := 0#32
  let v20 : BitVec 1 := Scalar.cmpi .slt c2_i32_3 c0_i32_7
  let v21 : BitVec 32 := Scalar.extui v20
  let v22 : BitVec 32 := Scalar.subi v19 v21
  let v23 : BitVec 1 := Scalar.cmpi .ne v17 v22
  let v24 : BitVec 32 := Scalar.remsi v1 c2_i32_3
  let c0_i32_8 : BitVec 32 := 0#32
  let v25 : BitVec 1 := Scalar.cmpi .ne v24 c0_i32_8
  let v26 : BitVec 1 := Scalar.andi v23 v25
  let v12 : BitVec 32 := Scalar.divsi v1 c2_i32_3
  let c1_i32_9 : BitVec 32 := 1#32
  let v27 : BitVec 32 := Scalar.subi v12 c1_i32_9
  let v28 : BitVec 32 := Scalar.select v26 v27 v12
  let c20480_i32 : BitVec 32 := 20480#32
  let v32 : BitVec 32 := Scalar.muli v28 c20480_i32
  let c0_i32_14 : BitVec 32 := 0#32
  let c0_i32_10 : BitVec 32 := 0#32
  let c1_i32_11 : BitVec 32 := 1#32
  let arg9 : BitVec 32 := Scf.iv c0_i32_10 c1_i32_11 k2_t1
  let c1_i32_13 : BitVec 32 := 1#32
  let v30 : BitVec 32 := Scalar.muli arg9 c1_i32_13
  let v31 : BitVec 32 := Scalar.addi c0_i32_14 v30
  let c2048_i32 : BitVec 32 := 2048#32
  let v33 : BitVec 32 := Scalar.muli v31 c2048_i32
  let v34 : BitVec 32 := Scalar.addi v32 v33
  ![v35.toNat, v34.toNat]
@[reducible] def k2_t2_loop : Scf.Loop 32 :=
  let c0_i32_16 : BitVec 32 := 0#32
  let c128_i32 : BitVec 32 := 128#32
  let v36 : BitVec 32 := Scalar.addi c0_i32_16 c128_i32
  let c1_i32_17 : BitVec 32 := 1#32
  ⟨c0_i32_16, v36, c1_i32_17⟩
def k2_off3 (k2_t2 : Fin k2_t2_loop.trips) : Fin 2 → Nat :=
  let c0_i32_22 : BitVec 32 := 0#32
  let v40 : Index := Scalar.indexCast c0_i32_22
  let c0_i32_20 : BitVec 32 := 0#32
  let c0_i32_16 : BitVec 32 := 0#32
  let c1_i32_17 : BitVec 32 := 1#32
  let arg10 : BitVec 32 := Scf.iv c0_i32_16 c1_i32_17 k2_t2
  let c1_i32_19 : BitVec 32 := 1#32
  let v37 : BitVec 32 := Scalar.muli arg10 c1_i32_19
  let v38 : BitVec 32 := Scalar.addi c0_i32_20 v37
  let c16_i32_21 : BitVec 32 := 16#32
  let v39 : BitVec 32 := Scalar.muli v38 c16_i32_21
  let v41 : Index := Scalar.indexCast v39
  ![0, v41.toNat]
def k2_off4 (k2_t2 : Fin k2_t2_loop.trips) : Fin 2 → Nat :=
  let c0_i32_26 : BitVec 32 := 0#32
  let v50 : Index := Scalar.indexCast c0_i32_26
  let c0_i32_20 : BitVec 32 := 0#32
  let c0_i32_16 : BitVec 32 := 0#32
  let c1_i32_17 : BitVec 32 := 1#32
  let arg10 : BitVec 32 := Scf.iv c0_i32_16 c1_i32_17 k2_t2
  let c1_i32_19 : BitVec 32 := 1#32
  let v37 : BitVec 32 := Scalar.muli arg10 c1_i32_19
  let v38 : BitVec 32 := Scalar.addi c0_i32_20 v37
  let c16_i32_25 : BitVec 32 := 16#32
  let v49 : BitVec 32 := Scalar.muli v38 c16_i32_25
  let v51 : Index := Scalar.indexCast v49
  ![0, v51.toNat]

def k2_chk1 (v44 : IVec S16 32) (v54 : IVec S16 32) : Prop :=
  (∀ a x, ((![v44, v54] : Fin 2 → IVec S16 32) a x).toNat < S640x128.size a)
instance k2_chk1.dec : ∀ (v44 : IVec S16 32) (v54 : IVec S16 32), Decidable (k2_chk1 v44 v54) := fun v44 v54 => decidable_of_iff' _ (Iff.of_eq (k2_chk1.eq_1 v44 v54))
theorem k2_idx1_inb : ∀ (v44 : IVec S16 32) (v54 : IVec S16 32) (k2_hw1 : k2_chk1 v44 v54), ∀ a x, ((![v44, v54] : Fin 2 → IVec S16 32) a x).toNat < S640x128.size a := fun v44 v54 k2_hw1 => k2_hw1
def k2_off5 (k2_t2 : Fin k2_t2_loop.trips) : Fin 2 → Nat :=
  let c1_i32_29 : BitVec 32 := 1#32
  let v56 : Index := Scalar.indexCast c1_i32_29
  let c0_i32_20 : BitVec 32 := 0#32
  let c0_i32_16 : BitVec 32 := 0#32
  let c1_i32_17 : BitVec 32 := 1#32
  let arg10 : BitVec 32 := Scf.iv c0_i32_16 c1_i32_17 k2_t2
  let c1_i32_19 : BitVec 32 := 1#32
  let v37 : BitVec 32 := Scalar.muli arg10 c1_i32_19
  let v38 : BitVec 32 := Scalar.addi c0_i32_20 v37
  let c16_i32_28 : BitVec 32 := 16#32
  let v55 : BitVec 32 := Scalar.muli v38 c16_i32_28
  let v57 : Index := Scalar.indexCast v55
  ![1, v57.toNat]

def k2_chk2 (v44 : IVec S16 32) (v60 : IVec S16 32) : Prop :=
  (∀ a x, ((![v44, v60] : Fin 2 → IVec S16 32) a x).toNat < S640x128.size a)
instance k2_chk2.dec : ∀ (v44 : IVec S16 32) (v60 : IVec S16 32), Decidable (k2_chk2 v44 v60) := fun v44 v60 => decidable_of_iff' _ (Iff.of_eq (k2_chk2.eq_1 v44 v60))
theorem k2_idx2_inb : ∀ (v44 : IVec S16 32) (v60 : IVec S16 32) (k2_hw2 : k2_chk2 v44 v60), ∀ a x, ((![v44, v60] : Fin 2 → IVec S16 32) a x).toNat < S640x128.size a := fun v44 v60 k2_hw2 => k2_hw2
def k2_off6 (k2_t2 : Fin k2_t2_loop.trips) : Fin 2 → Nat :=
  let c2_i32_32 : BitVec 32 := 2#32
  let v62 : Index := Scalar.indexCast c2_i32_32
  let c0_i32_20 : BitVec 32 := 0#32
  let c0_i32_16 : BitVec 32 := 0#32
  let c1_i32_17 : BitVec 32 := 1#32
  let arg10 : BitVec 32 := Scf.iv c0_i32_16 c1_i32_17 k2_t2
  let c1_i32_19 : BitVec 32 := 1#32
  let v37 : BitVec 32 := Scalar.muli arg10 c1_i32_19
  let v38 : BitVec 32 := Scalar.addi c0_i32_20 v37
  let c16_i32_31 : BitVec 32 := 16#32
  let v61 : BitVec 32 := Scalar.muli v38 c16_i32_31
  let v63 : Index := Scalar.indexCast v61
  ![2, v63.toNat]

def k2_chk3 (v44 : IVec S16 32) (v66 : IVec S16 32) : Prop :=
  (∀ a x, ((![v44, v66] : Fin 2 → IVec S16 32) a x).toNat < S640x128.size a)
instance k2_chk3.dec : ∀ (v44 : IVec S16 32) (v66 : IVec S16 32), Decidable (k2_chk3 v44 v66) := fun v44 v66 => decidable_of_iff' _ (Iff.of_eq (k2_chk3.eq_1 v44 v66))
theorem k2_idx3_inb : ∀ (v44 : IVec S16 32) (v66 : IVec S16 32) (k2_hw3 : k2_chk3 v44 v66), ∀ a x, ((![v44, v66] : Fin 2 → IVec S16 32) a x).toNat < S640x128.size a := fun v44 v66 k2_hw3 => k2_hw3
def k2_off7 (k2_t2 : Fin k2_t2_loop.trips) : Fin 2 → Nat :=
  let c3_i32 : BitVec 32 := 3#32
  let v68 : Index := Scalar.indexCast c3_i32
  let c0_i32_20 : BitVec 32 := 0#32
  let c0_i32_16 : BitVec 32 := 0#32
  let c1_i32_17 : BitVec 32 := 1#32
  let arg10 : BitVec 32 := Scf.iv c0_i32_16 c1_i32_17 k2_t2
  let c1_i32_19 : BitVec 32 := 1#32
  let v37 : BitVec 32 := Scalar.muli arg10 c1_i32_19
  let v38 : BitVec 32 := Scalar.addi c0_i32_20 v37
  let c16_i32_34 : BitVec 32 := 16#32
  let v67 : BitVec 32 := Scalar.muli v38 c16_i32_34
  let v69 : Index := Scalar.indexCast v67
  ![3, v69.toNat]

def k2_chk4 (v44 : IVec S16 32) (v72 : IVec S16 32) : Prop :=
  (∀ a x, ((![v44, v72] : Fin 2 → IVec S16 32) a x).toNat < S640x128.size a)
instance k2_chk4.dec : ∀ (v44 : IVec S16 32) (v72 : IVec S16 32), Decidable (k2_chk4 v44 v72) := fun v44 v72 => decidable_of_iff' _ (Iff.of_eq (k2_chk4.eq_1 v44 v72))
theorem k2_idx4_inb : ∀ (v44 : IVec S16 32) (v72 : IVec S16 32) (k2_hw4 : k2_chk4 v44 v72), ∀ a x, ((![v44, v72] : Fin 2 → IVec S16 32) a x).toNat < S640x128.size a := fun v44 v72 k2_hw4 => k2_hw4
def k2_off8 (k2_t2 : Fin k2_t2_loop.trips) : Fin 2 → Nat :=
  let c4_i32 : BitVec 32 := 4#32
  let v74 : Index := Scalar.indexCast c4_i32
  let c0_i32_20 : BitVec 32 := 0#32
  let c0_i32_16 : BitVec 32 := 0#32
  let c1_i32_17 : BitVec 32 := 1#32
  let arg10 : BitVec 32 := Scf.iv c0_i32_16 c1_i32_17 k2_t2
  let c1_i32_19 : BitVec 32 := 1#32
  let v37 : BitVec 32 := Scalar.muli arg10 c1_i32_19
  let v38 : BitVec 32 := Scalar.addi c0_i32_20 v37
  let c16_i32_36 : BitVec 32 := 16#32
  let v73 : BitVec 32 := Scalar.muli v38 c16_i32_36
  let v75 : Index := Scalar.indexCast v73
  ![4, v75.toNat]

def k2_chk5 (v44 : IVec S16 32) (v78 : IVec S16 32) : Prop :=
  (∀ a x, ((![v44, v78] : Fin 2 → IVec S16 32) a x).toNat < S640x128.size a)
instance k2_chk5.dec : ∀ (v44 : IVec S16 32) (v78 : IVec S16 32), Decidable (k2_chk5 v44 v78) := fun v44 v78 => decidable_of_iff' _ (Iff.of_eq (k2_chk5.eq_1 v44 v78))
theorem k2_idx5_inb : ∀ (v44 : IVec S16 32) (v78 : IVec S16 32) (k2_hw5 : k2_chk5 v44 v78), ∀ a x, ((![v44, v78] : Fin 2 → IVec S16 32) a x).toNat < S640x128.size a := fun v44 v78 k2_hw5 => k2_hw5
def k2_off9 (k2_t2 : Fin k2_t2_loop.trips) : Fin 2 → Nat :=
  let c5_i32 : BitVec 32 := 5#32
  let v80 : Index := Scalar.indexCast c5_i32
  let c0_i32_20 : BitVec 32 := 0#32
  let c0_i32_16 : BitVec 32 := 0#32
  let c1_i32_17 : BitVec 32 := 1#32
  let arg10 : BitVec 32 := Scf.iv c0_i32_16 c1_i32_17 k2_t2
  let c1_i32_19 : BitVec 32 := 1#32
  let v37 : BitVec 32 := Scalar.muli arg10 c1_i32_19
  let v38 : BitVec 32 := Scalar.addi c0_i32_20 v37
  let c16_i32_38 : BitVec 32 := 16#32
  let v79 : BitVec 32 := Scalar.muli v38 c16_i32_38
  let v81 : Index := Scalar.indexCast v79
  ![5, v81.toNat]

def k2_chk6 (v44 : IVec S16 32) (v84 : IVec S16 32) : Prop :=
  (∀ a x, ((![v44, v84] : Fin 2 → IVec S16 32) a x).toNat < S640x128.size a)
instance k2_chk6.dec : ∀ (v44 : IVec S16 32) (v84 : IVec S16 32), Decidable (k2_chk6 v44 v84) := fun v44 v84 => decidable_of_iff' _ (Iff.of_eq (k2_chk6.eq_1 v44 v84))
theorem k2_idx6_inb : ∀ (v44 : IVec S16 32) (v84 : IVec S16 32) (k2_hw6 : k2_chk6 v44 v84), ∀ a x, ((![v44, v84] : Fin 2 → IVec S16 32) a x).toNat < S640x128.size a := fun v44 v84 k2_hw6 => k2_hw6
def k2_off10 (k2_t2 : Fin k2_t2_loop.trips) : Fin 2 → Nat :=
  let c6_i32 : BitVec 32 := 6#32
  let v86 : Index := Scalar.indexCast c6_i32
  let c0_i32_20 : BitVec 32 := 0#32
  let c0_i32_16 : BitVec 32 := 0#32
  let c1_i32_17 : BitVec 32 := 1#32
  let arg10 : BitVec 32 := Scf.iv c0_i32_16 c1_i32_17 k2_t2
  let c1_i32_19 : BitVec 32 := 1#32
  let v37 : BitVec 32 := Scalar.muli arg10 c1_i32_19
  let v38 : BitVec 32 := Scalar.addi c0_i32_20 v37
  let c16_i32_40 : BitVec 32 := 16#32
  let v85 : BitVec 32 := Scalar.muli v38 c16_i32_40
  let v87 : Index := Scalar.indexCast v85
  ![6, v87.toNat]

def k2_chk7 (v44 : IVec S16 32) (v90 : IVec S16 32) : Prop :=
  (∀ a x, ((![v44, v90] : Fin 2 → IVec S16 32) a x).toNat < S640x128.size a)
instance k2_chk7.dec : ∀ (v44 : IVec S16 32) (v90 : IVec S16 32), Decidable (k2_chk7 v44 v90) := fun v44 v90 => decidable_of_iff' _ (Iff.of_eq (k2_chk7.eq_1 v44 v90))
theorem k2_idx7_inb : ∀ (v44 : IVec S16 32) (v90 : IVec S16 32) (k2_hw7 : k2_chk7 v44 v90), ∀ a x, ((![v44, v90] : Fin 2 → IVec S16 32) a x).toNat < S640x128.size a := fun v44 v90 k2_hw7 => k2_hw7
def k2_off11 (k2_t2 : Fin k2_t2_loop.trips) : Fin 2 → Nat :=
  let c7_i32 : BitVec 32 := 7#32
  let v92 : Index := Scalar.indexCast c7_i32
  let c0_i32_20 : BitVec 32 := 0#32
  let c0_i32_16 : BitVec 32 := 0#32
  let c1_i32_17 : BitVec 32 := 1#32
  let arg10 : BitVec 32 := Scf.iv c0_i32_16 c1_i32_17 k2_t2
  let c1_i32_19 : BitVec 32 := 1#32
  let v37 : BitVec 32 := Scalar.muli arg10 c1_i32_19
  let v38 : BitVec 32 := Scalar.addi c0_i32_20 v37
  let c16_i32_42 : BitVec 32 := 16#32
  let v91 : BitVec 32 := Scalar.muli v38 c16_i32_42
  let v93 : Index := Scalar.indexCast v91
  ![7, v93.toNat]

def k2_chk8 (v44 : IVec S16 32) (v96 : IVec S16 32) : Prop :=
  (∀ a x, ((![v44, v96] : Fin 2 → IVec S16 32) a x).toNat < S640x128.size a)
instance k2_chk8.dec : ∀ (v44 : IVec S16 32) (v96 : IVec S16 32), Decidable (k2_chk8 v44 v96) := fun v44 v96 => decidable_of_iff' _ (Iff.of_eq (k2_chk8.eq_1 v44 v96))
theorem k2_idx8_inb : ∀ (v44 : IVec S16 32) (v96 : IVec S16 32) (k2_hw8 : k2_chk8 v44 v96), ∀ a x, ((![v44, v96] : Fin 2 → IVec S16 32) a x).toNat < S640x128.size a := fun v44 v96 k2_hw8 => k2_hw8
def k2_off12 (i : grid2.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c2_i32_3 : BitVec 32 := 2#32
  let c0_i32_6 : BitVec 32 := 0#32
  let v18 : BitVec 1 := Scalar.cmpi .sgt c2_i32_3 c0_i32_6
  let v19 : BitVec 32 := Scalar.extui v18
  let c0_i32_7 : BitVec 32 := 0#32
  let v20 : BitVec 1 := Scalar.cmpi .slt c2_i32_3 c0_i32_7
  let v21 : BitVec 32 := Scalar.extui v20
  let v22 : BitVec 32 := Scalar.subi v19 v21
  let v23 : BitVec 1 := Scalar.cmpi .ne v17 v22
  let v24 : BitVec 32 := Scalar.remsi v1 c2_i32_3
  let c0_i32_8 : BitVec 32 := 0#32
  let v25 : BitVec 1 := Scalar.cmpi .ne v24 c0_i32_8
  let v26 : BitVec 1 := Scalar.andi v23 v25
  let v12 : BitVec 32 := Scalar.divsi v1 c2_i32_3
  let c1_i32_9 : BitVec 32 := 1#32
  let v27 : BitVec 32 := Scalar.subi v12 c1_i32_9
  let v28 : BitVec 32 := Scalar.select v26 v27 v12
  let c0_i32_13_r3 : BitVec 32 := 0#32
  let c0_i32_14_r3 : BitVec 32 := 0#32
  ![v11.toNat, v28.toNat, 0, 0]
abbrev grid3 : Pipeline.Grid := .none

abbrev stage3_0 : Fin 1 → Memref sig .tc .vmem S10000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S2x16x640x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S128x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S16x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev stage3_9 : Fin 1 → Memref sig .tc .vmem S128x3 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))

abbrev stage3_10 : Fin 1 → Memref sig .tc .vmem S1x3 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))

abbrev stage3_11 : Fin 1 → Memref sig .tc .vmem S10000x3 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  slices_S10000x3_S10000x1_0_0 : S10000x3.Slices ![0, 0] S10000x1
  shapeCasts_S10000x1_S10000 : S10000x1.ShapeCasts S10000
  pads_S10000_S10112_01120 : S10000.Pads (![0] : Fin 1 → Nat) ![112] ![0] S10112
  h_S_ : 0 < S_.numel
  slices_S10000x3_S10000x1_0_1 : S10000x3.Slices ![0, 1] S10000x1
  slices_S10000x3_S10000x1_0_2 : S10000x3.Slices ![0, 2] S10000x1
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S7680 : S_.BroadcastsInDim S7680 (![] : Fin 0 → Fin S7680.rank)
  concatenates_S320000_S7680_S327680_d0 : Shape.Concatenates [S320000, S7680] S327680 0
  shapeCasts_S327680_S32x80x128 : S327680.ShapeCasts S32x80x128
  bcast_S_S640x128 : S_.BroadcastsInDim S640x128 (![] : Fin 0 → Fin S640x128.rank)
  slices_S514x257_S514x128_0_0 : S514x257.Slices ![0, 0] S514x128
  transposes_S514x128_S128x514_1_0 : S514x128.Transposes [1, 0] S128x514
  slices_S514x257_S514x128_0_128 : S514x257.Slices ![0, 128] S514x128
  slices_S514x257_S514x1_0_256 : S514x257.Slices ![0, 256] S514x1
  transposes_S514x1_S1x514_1_0 : S514x1.Transposes [1, 0] S1x514
  bcast_S1x514_S16x514_0_1 : S1x514.BroadcastsInDim S16x514 (![0, 1] : Fin 2 → Fin S16x514.rank)
  shapeCasts_S514_S1x514 : S514.ShapeCasts S1x514
  transposes_S16x514_S514x16_1_0 : S16x514.Transposes [1, 0] S514x16
  shapeCasts_S16_S1x16 : S16.ShapeCasts S1x16
  slices_S256x144_S256x128_0_0 : S256x144.Slices ![0, 0] S256x128
  transposes_S256x128_S128x256_1_0 : S256x128.Transposes [1, 0] S128x256
  slices_S256x144_S256x16_0_128 : S256x144.Slices ![0, 128] S256x16
  transposes_S256x16_S16x256_1_0 : S256x16.Transposes [1, 0] S16x256
  shapeCasts_S256_S1x256 : S256.ShapeCasts S1x256
  transposes_S128x256_S256x128_1_0 : S128x256.Transposes [1, 0] S256x128
  shapeCasts_S128_S1x128 : S128.ShapeCasts S1x128
  transposes_S3x128_S128x3_1_0 : S3x128.Transposes [1, 0] S128x3
  shapeCasts_S3_S1x3 : S3.ShapeCasts S1x3
  squeezes_S1x1x128_S128 : S1x1x128.Squeezes S128
  inb_S10000x128_S10000x128_0_0 : ∀ a, (![0, 0] : Fin 2 → Nat) a + S10000x128.size a ≤ S10000x128.size a
  gathers_S10000x128_S128x128 : S10000x128.Gathers 0 S128x128
  inb_S128_S16_0 : ∀ a, (![0] : Fin 1 → Nat) a + S16.size a ≤ S128.size a
  h_S16 : 0 < S16.numel
  h_S10112 : 0 < S10112.numel
  inb_S8x16_S1x16_0_0 : ∀ a, (![0, 0] : Fin 2 → Nat) a + S1x16.size a ≤ S8x16.size a
  h_S1x16 : 0 < S1x16.numel
  shapeCasts_S1x16_S16 : S1x16.ShapeCasts S16
  inb_S128_S16_16 : ∀ a, (![16] : Fin 1 → Nat) a + S16.size a ≤ S128.size a
  inb_S8x16_S1x16_1_0 : ∀ a, (![1, 0] : Fin 2 → Nat) a + S1x16.size a ≤ S8x16.size a
  inb_S128_S16_32 : ∀ a, (![32] : Fin 1 → Nat) a + S16.size a ≤ S128.size a
  inb_S8x16_S1x16_2_0 : ∀ a, (![2, 0] : Fin 2 → Nat) a + S1x16.size a ≤ S8x16.size a
  inb_S128_S16_48 : ∀ a, (![48] : Fin 1 → Nat) a + S16.size a ≤ S128.size a
  inb_S8x16_S1x16_3_0 : ∀ a, (![3, 0] : Fin 2 → Nat) a + S1x16.size a ≤ S8x16.size a
  inb_S128_S16_64 : ∀ a, (![64] : Fin 1 → Nat) a + S16.size a ≤ S128.size a
  inb_S8x16_S1x16_4_0 : ∀ a, (![4, 0] : Fin 2 → Nat) a + S1x16.size a ≤ S8x16.size a
  inb_S128_S16_80 : ∀ a, (![80] : Fin 1 → Nat) a + S16.size a ≤ S128.size a
  inb_S8x16_S1x16_5_0 : ∀ a, (![5, 0] : Fin 2 → Nat) a + S1x16.size a ≤ S8x16.size a
  inb_S128_S16_96 : ∀ a, (![96] : Fin 1 → Nat) a + S16.size a ≤ S128.size a
  inb_S8x16_S1x16_6_0 : ∀ a, (![6, 0] : Fin 2 → Nat) a + S1x16.size a ≤ S8x16.size a
  inb_S128_S16_112 : ∀ a, (![112] : Fin 1 → Nat) a + S16.size a ≤ S128.size a
  inb_S8x16_S1x16_7_0 : ∀ a, (![7, 0] : Fin 2 → Nat) a + S1x16.size a ≤ S8x16.size a
  inb_S256x16_S256x16_0_0 : ∀ a, (![0, 0] : Fin 2 → Nat) a + S256x16.size a ≤ S256x16.size a
  h_S256x16 : 0 < S256x16.numel
  shapeCasts_S256x16_S256x16 : S256x16.ShapeCasts S256x16
  shapeCasts_S256x16_S256x1x16 : S256x16.ShapeCasts S256x1x16
  shapeCasts_S256x1x16_S256x1x16 : S256x1x16.ShapeCasts S256x1x16
  broadcasts_S256x1x16_S256x16x16 : S256x1x16.Broadcasts S256x16x16
  shapeCasts_S256x16x16_S4096x16 : S256x16x16.ShapeCasts S4096x16
  iota_S4096x16_d1_w32 : S4096x16.Iotas .tc 32 [1]
  iota_S4096x16_d0_w32 : S4096x16.Iotas .tc 32 [0]
  broadcasts_S4096x16_S4096x16 : S4096x16.Broadcasts S4096x16
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x514_S128x514_0_0 : ∀ a, (![0, 0] : Fin 2 → Nat) a + S128x514.size a ≤ S128x514.size a
  h_S128x514 : 0 < S128x514.numel
  shapeCasts_S128x514_S128x514 : S128x514.ShapeCasts S128x514
  inb_S16x514_S16x514_0_0 : ∀ a, (![0, 0] : Fin 2 → Nat) a + S16x514.size a ≤ S16x514.size a
  h_S16x514 : 0 < S16x514.numel
  shapeCasts_S16x514_S16x514 : S16x514.ShapeCasts S16x514
  inb_S1x514_S1x514_0_0 : ∀ a, (![0, 0] : Fin 2 → Nat) a + S1x514.size a ≤ S1x514.size a
  h_S1x514 : 0 < S1x514.numel
  shapeCasts_S1x514_S1x514 : S1x514.ShapeCasts S1x514
  broadcasts_S1x514_S4096x514 : S1x514.Broadcasts S4096x514
  inb_S514x16_S514x16_0_0 : ∀ a, (![0, 0] : Fin 2 → Nat) a + S514x16.size a ≤ S514x16.size a
  h_S514x16 : 0 < S514x16.numel
  shapeCasts_S514x16_S514x16 : S514x16.ShapeCasts S514x16
  inb_S1x16_S1x16_0_0 : ∀ a, (![0, 0] : Fin 2 → Nat) a + S1x16.size a ≤ S1x16.size a
  shapeCasts_S1x16_S1x16 : S1x16.ShapeCasts S1x16
  broadcasts_S1x16_S4096x16 : S1x16.Broadcasts S4096x16
  transposes_S4096x16_p1_0_S16x4096 : S4096x16.Transposes [1, 0] S16x4096
  inb_S16x4096_S16x4096_0_0 : ∀ a, (![0, 0] : Fin 2 → Nat) a + S16x4096.size a ≤ S16x4096.size a
  h_S16x4096 : 0 < S16x4096.numel
  inb_S1x2048_S1x2048_0_0 : ∀ a, (![0, 0] : Fin 2 → Nat) a + S1x2048.size a ≤ S1x2048.size a
  squeezes_S1x2048_S2048 : S1x2048.Squeezes S2048
  h_S640x128 : 0 < S640x128.numel
  squeezes_S1x1x640x128_S640x128 : S1x1x640x128.Squeezes S640x128
  h_S10000x128 : 0 < S10000x128.numel
  inb_S2x16x640x128_S1x16x640x128_0_0_0_0 : ∀ a, (![0, 0, 0, 0] : Fin 4 → Nat) a + S1x16x640x128.size a ≤ S2x16x640x128.size a
  h_S1x16x640x128 : 0 < S1x16x640x128.numel
  shapeCasts_S1x16x640x128_S16x640x128 : S1x16x640x128.ShapeCasts S16x640x128
  reduces_S16x640x128_S640x128 : S16x640x128.Reduces [0] S640x128
  inb_S2x16x640x128_S1x16x640x128_1_0_0_0 : ∀ a, (![1, 0, 0, 0] : Fin 4 → Nat) a + S1x16x640x128.size a ≤ S2x16x640x128.size a
  slices_S640x128_o0_0_S640x8 : S640x128.Slices ![0, 0] S640x8
  slices_S640x128_o0_8_S640x8 : S640x128.Slices ![0, 8] S640x8
  slices_S640x128_o0_16_S640x8 : S640x128.Slices ![0, 16] S640x8
  slices_S640x128_o0_24_S640x8 : S640x128.Slices ![0, 24] S640x8
  slices_S640x128_o0_32_S640x8 : S640x128.Slices ![0, 32] S640x8
  slices_S640x128_o0_40_S640x8 : S640x128.Slices ![0, 40] S640x8
  slices_S640x128_o0_48_S640x8 : S640x128.Slices ![0, 48] S640x8
  slices_S640x128_o0_56_S640x8 : S640x128.Slices ![0, 56] S640x8
  slices_S640x128_o0_64_S640x8 : S640x128.Slices ![0, 64] S640x8
  slices_S640x128_o0_72_S640x8 : S640x128.Slices ![0, 72] S640x8
  slices_S640x128_o0_80_S640x8 : S640x128.Slices ![0, 80] S640x8
  slices_S640x128_o0_88_S640x8 : S640x128.Slices ![0, 88] S640x8
  slices_S640x128_o0_96_S640x8 : S640x128.Slices ![0, 96] S640x8
  slices_S640x128_o0_104_S640x8 : S640x128.Slices ![0, 104] S640x8
  slices_S640x128_o0_112_S640x8 : S640x128.Slices ![0, 112] S640x8
  slices_S640x128_o0_120_S640x8 : S640x128.Slices ![0, 120] S640x8
  concatenates_S640x8_S640x8_S640x8_S640x8_S640x8_S640x8_S640x8_S640x8_S640x8_S640x8_S640x8_S640x8_S640x8_S640x8_S640x8_S640x8_S10240x8_d0 : Shape.Concatenates [S640x8, S640x8, S640x8, S640x8, S640x8, S640x8, S640x8, S640x8, S640x8, S640x8, S640x8, S640x8, S640x8, S640x8, S640x8, S640x8] S10240x8 0
  slices_S10240x8_o0_0_S10000x8 : S10240x8.Slices ![0, 0] S10000x8
  concatenates_S10000x8_S10000x8_S10000x16_d1 : Shape.Concatenates [S10000x8, S10000x8] S10000x16 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S128 : S10000x128.Reduces [0] S128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  inb_S10000x3_S10000x3_0_0 : ∀ a, (![0, 0] : Fin 2 → Nat) a + S10000x3.size a ≤ S10000x3.size a
  h_S10000x3 : 0 < S10000x3.numel
  dot_S4096x128_S128x514_S4096x514_1_0_0_1_n_n_wf : DotDims.WF S4096x128 S128x514 S4096x514 [1] [0] [0] [1] [] []
  dot_S4096x16_S16x514_S4096x514_1_0_0_1_n_n_wf : DotDims.WF S4096x16 S16x514 S4096x514 [1] [0] [0] [1] [] []
  dot_S4096x514_S514x16_S4096x16_1_0_0_1_n_n_wf : DotDims.WF S4096x514 S514x16 S4096x16 [1] [0] [0] [1] [] []
  dot_S10000x128_S128x256_S10000x256_1_0_0_1_n_n_wf : DotDims.WF S10000x128 S128x256 S10000x256 [1] [0] [0] [1] [] []
  dot_S10000x16_S16x256_S10000x256_1_0_0_1_n_n_wf : DotDims.WF S10000x16 S16x256 S10000x256 [1] [0] [0] [1] [] []
  dot_S10000x256_S256x128_S10000x128_1_0_0_1_n_n_wf : DotDims.WF S10000x256 S256x128 S10000x128 [1] [0] [0] [1] [] []
  dot_S10000x128_S128x3_S10000x3_1_0_0_1_n_n_wf : DotDims.WF S10000x128 S128x3 S10000x3 [1] [0] [0] [1] [] []
  hcc0_scratch8 : 0 + S_.numel ≤ 40
  hcc0_scratch9 : 1 + S_.numel ≤ 40
  hcc0_scoped0 : 2 + S_.numel ≤ 40
  hcc0_scoped1 : 3 + S_.numel ≤ 40
  hcc0_scoped2 : 4 + S_.numel ≤ 40
  hcc0_scoped3 : 5 + S_.numel ≤ 40
  hcc0_scoped4 : 6 + S_.numel ≤ 40
  hcc0_scoped5 : 7 + S_.numel ≤ 40
  hcc0_scoped6 : 8 + S_.numel ≤ 40
  hcc0_scoped7 : 9 + S_.numel ≤ 40
  hcc2_scoped0 : 24 + S_.numel ≤ 40
  hcc2_scoped1 : 25 + S_.numel ≤ 40
  hcc2_scoped2 : 26 + S_.numel ≤ 40
  hcc2_scoped3 : 27 + S_.numel ≤ 40
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S1x1x128.size a ≤ S32x80x128.size a
  k0_off2_inb : ∀ (i : grid0.Coords) (k0_t1 : Fin k0_t1_loop.trips), ∀ a, (k0_off2 i k0_t1) a + S8x16.size a ≤ S20480x16.size a
  k0_off3_inb : ∀ (i : grid0.Coords) (k0_t1 : Fin k0_t1_loop.trips), ∀ a, (k0_off3 i k0_t1) a + S128x128.size a ≤ S327680x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S327680x128.size a
  hwx1_0 : ∀ i : grid1.Coords, EltTy.bits .f32 = 32 ∨ (Rect.block (s := S327680x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S327680x128.size a
  hwx1_1 : ∀ i : grid1.Coords, EltTy.bits .f32 = 32 ∨ (Rect.block (s := S327680x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x16.size a ≤ S20480x16.size a
  hwx1_2 : ∀ i : grid1.Coords, EltTy.bits .f32 = 32 ∨ (Rect.block (s := S20480x16) S256x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x514.size a ≤ S128x514.size a
  hwx1_3 : ∀ i : grid1.Coords, EltTy.bits .f32 = 32 ∨ (Rect.block (s := S128x514) S128x514.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x514.size a ≤ S128x514.size a
  hwx1_4 : ∀ i : grid1.Coords, EltTy.bits .f32 = 32 ∨ (Rect.block (s := S128x514) S128x514.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x514.size a ≤ S16x514.size a
  hwx1_5 : ∀ i : grid1.Coords, EltTy.bits .f32 = 32 ∨ (Rect.block (s := S16x514) S16x514.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x514.size a ≤ S1x514.size a
  hwx1_6 : ∀ i : grid1.Coords, EltTy.bits .f32 = 32 ∨ (Rect.block (s := S1x514) S1x514.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S514x16.size a ≤ S514x16.size a
  hwx1_7 : ∀ i : grid1.Coords, EltTy.bits .f32 = 32 ∨ (Rect.block (s := S514x16) S514x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x16.size a ≤ S1x16.size a
  hwx1_8 : ∀ i : grid1.Coords, EltTy.bits .f32 = 32 ∨ (Rect.block (s := S1x16) S1x16.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S16x4096.size a ≤ S16x327680.size a
  hwx1_9 : ∀ i : grid1.Coords, EltTy.bits .f32 = 32 ∨ (Rect.block (s := S16x327680) S16x4096.size (cc1_transform_9 i) (hinb1_9 i)).WholeWords (EltTy.packing .f32)
  hcore2 : grid2.bound 0 ≤ τ.nSC
  hsub2 : grid2.bound 1 ≤ τ.nSub
  k2_t1_ok : k2_t1_loop.OK
  k2_off1_inb : ∀ (i : grid2.Coords) (k2_t1 : Fin k2_t1_loop.trips), ∀ a, (k2_off1 i k2_t1) a + S2048.size a ≤ S327680.size a
  k2_off2_inb : ∀ (i : grid2.Coords) (k2_t1 : Fin k2_t1_loop.trips), ∀ a, (k2_off2 i k2_t1) a + S8x2048.size a ≤ S16x327680.size a
  k2_t2_ok : k2_t2_loop.OK
  k2_off3_inb : ∀ k2_t2 : Fin k2_t2_loop.trips, ∀ a, (k2_off3 k2_t2) a + S1x16.size a ≤ S1x2048.size a
  k2_off4_inb : ∀ k2_t2 : Fin k2_t2_loop.trips, ∀ a, (k2_off4 k2_t2) a + S1x16.size a ≤ S8x2048.size a
  k2_off5_inb : ∀ k2_t2 : Fin k2_t2_loop.trips, ∀ a, (k2_off5 k2_t2) a + S1x16.size a ≤ S8x2048.size a
  k2_off6_inb : ∀ k2_t2 : Fin k2_t2_loop.trips, ∀ a, (k2_off6 k2_t2) a + S1x16.size a ≤ S8x2048.size a
  k2_off7_inb : ∀ k2_t2 : Fin k2_t2_loop.trips, ∀ a, (k2_off7 k2_t2) a + S1x16.size a ≤ S8x2048.size a
  k2_off8_inb : ∀ k2_t2 : Fin k2_t2_loop.trips, ∀ a, (k2_off8 k2_t2) a + S1x16.size a ≤ S8x2048.size a
  k2_off9_inb : ∀ k2_t2 : Fin k2_t2_loop.trips, ∀ a, (k2_off9 k2_t2) a + S1x16.size a ≤ S8x2048.size a
  k2_off10_inb : ∀ k2_t2 : Fin k2_t2_loop.trips, ∀ a, (k2_off10 k2_t2) a + S1x16.size a ≤ S8x2048.size a
  k2_off11_inb : ∀ k2_t2 : Fin k2_t2_loop.trips, ∀ a, (k2_off11 k2_t2) a + S1x16.size a ≤ S8x2048.size a
  k2_off12_inb : ∀ i : grid2.Coords, ∀ a, (k2_off12 i) a + S1x1x640x128.size a ≤ S2x16x640x128.size a
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage3_4 : ∀ j, (stage3_4 j).IsWhole
  hstage3_5 : ∀ j, (stage3_5 j).IsWhole
  hstage3_6 : ∀ j, (stage3_6 j).IsWhole
  hstage3_7 : ∀ j, (stage3_7 j).IsWhole
  hstage3_8 : ∀ j, (stage3_8 j).IsWhole
  hstage3_9 : ∀ j, (stage3_9 j).IsWhole
  hstage3_10 : ∀ j, (stage3_10 j).IsWhole
  hstage3_11 : ∀ j, (stage3_11 j).IsWhole

variable [Facts₀]

abbrev cc0_scratch8 : DmaSems sig S_ := SemArray.consecutive 0 S_ hcc0_scratch8
abbrev cc0_scratch9 : DmaSems sig S_ := SemArray.consecutive 1 S_ hcc0_scratch9
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4
abbrev cc0_scoped5 : DmaSems sig S_ := SemArray.consecutive 7 S_ hcc0_scoped5
abbrev cc0_scoped6 : DmaSems sig S_ := SemArray.consecutive 8 S_ hcc0_scoped6
abbrev cc0_scoped7 : DmaSems sig S_ := SemArray.consecutive 9 S_ hcc0_scoped7
abbrev cc2_scoped0 : DmaSems sig S_ := SemArray.consecutive 24 S_ hcc2_scoped0
abbrev cc2_scoped1 : DmaSems sig S_ := SemArray.consecutive 25 S_ hcc2_scoped1
abbrev cc2_scoped2 : DmaSems sig S_ := SemArray.consecutive 26 S_ hcc2_scoped2
abbrev cc2_scoped3 : DmaSems sig S_ := SemArray.consecutive 27 S_ hcc2_scoped3
def dot_S4096x128_S128x514_S4096x514_1_0_0_1_n_n : DotDims S4096x128 S128x514 S4096x514 where
  lhsContracting := [1]
  rhsContracting := [0]
  lhsNonContracting := [0]
  rhsNonContracting := [1]
  lhsBatch := []
  rhsBatch := []
  wf := dot_S4096x128_S128x514_S4096x514_1_0_0_1_n_n_wf
def dot_S4096x16_S16x514_S4096x514_1_0_0_1_n_n : DotDims S4096x16 S16x514 S4096x514 where
  lhsContracting := [1]
  rhsContracting := [0]
  lhsNonContracting := [0]
  rhsNonContracting := [1]
  lhsBatch := []
  rhsBatch := []
  wf := dot_S4096x16_S16x514_S4096x514_1_0_0_1_n_n_wf
def dot_S4096x514_S514x16_S4096x16_1_0_0_1_n_n : DotDims S4096x514 S514x16 S4096x16 where
  lhsContracting := [1]
  rhsContracting := [0]
  lhsNonContracting := [0]
  rhsNonContracting := [1]
  lhsBatch := []
  rhsBatch := []
  wf := dot_S4096x514_S514x16_S4096x16_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x16_S16x256_S10000x256_1_0_0_1_n_n : DotDims S10000x16 S16x256 S10000x256 where
  lhsContracting := [1]
  rhsContracting := [0]
  lhsNonContracting := [0]
  rhsNonContracting := [1]
  lhsBatch := []
  rhsBatch := []
  wf := dot_S10000x16_S16x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x3_S10000x3_1_0_0_1_n_n : DotDims S10000x128 S128x3 S10000x3 where
  lhsContracting := [1]
  rhsContracting := [0]
  lhsNonContracting := [0]
  rhsNonContracting := [1]
  lhsBatch := []
  rhsBatch := []
  wf := dot_S10000x128_S128x3_S10000x3_1_0_0_1_n_n_wf

abbrev win1_0 : Pipeline.Window sig grid1 :=
  Pipeline.Window.ofSpec (Memref.whole main_v43_0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43_1) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43_2) S256x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128x514.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S128x514.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S16x514.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x514.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S514x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31) S1x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v44) S16x4096.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win3_0 : Pipeline.Window sig grid3 :=
  Pipeline.Window.whole (Memref.whole main_arg0) false false (stage3_0 0) (sem3_0 0) (Memref.isWhole_whole _) (hstage3_0 0)

abbrev win3_1 : Pipeline.Window sig grid3 :=
  Pipeline.Window.whole (Memref.whole main_v45) false false (stage3_1 0) (sem3_1 0) (Memref.isWhole_whole _) (hstage3_1 0)

abbrev win3_2 : Pipeline.Window sig grid3 :=
  Pipeline.Window.whole (Memref.whole main_v33) false false (stage3_2 0) (sem3_2 0) (Memref.isWhole_whole _) (hstage3_2 0)

abbrev win3_3 : Pipeline.Window sig grid3 :=
  Pipeline.Window.whole (Memref.whole main_v35) false false (stage3_3 0) (sem3_3 0) (Memref.isWhole_whole _) (hstage3_3 0)

abbrev win3_4 : Pipeline.Window sig grid3 :=
  Pipeline.Window.whole (Memref.whole main_v36) false false (stage3_4 0) (sem3_4 0) (Memref.isWhole_whole _) (hstage3_4 0)

abbrev win3_5 : Pipeline.Window sig grid3 :=
  Pipeline.Window.whole (Memref.whole main_v37) false false (stage3_5 0) (sem3_5 0) (Memref.isWhole_whole _) (hstage3_5 0)

abbrev win3_6 : Pipeline.Window sig grid3 :=
  Pipeline.Window.whole (Memref.whole main_v38) false false (stage3_6 0) (sem3_6 0) (Memref.isWhole_whole _) (hstage3_6 0)

abbrev win3_7 : Pipeline.Window sig grid3 :=
  Pipeline.Window.whole (Memref.whole main_v39) false false (stage3_7 0) (sem3_7 0) (Memref.isWhole_whole _) (hstage3_7 0)

abbrev win3_8 : Pipeline.Window sig grid3 :=
  Pipeline.Window.whole (Memref.whole main_v40) false false (stage3_8 0) (sem3_8 0) (Memref.isWhole_whole _) (hstage3_8 0)

abbrev win3_9 : Pipeline.Window sig grid3 :=
  Pipeline.Window.whole (Memref.whole main_v41) false false (stage3_9 0) (sem3_9 0) (Memref.isWhole_whole _) (hstage3_9 0)

abbrev win3_10 : Pipeline.Window sig grid3 :=
  Pipeline.Window.whole (Memref.whole main_v42) false false (stage3_10 0) (sem3_10 0) (Memref.isWhole_whole _) (hstage3_10 0)

abbrev win3_11 : Pipeline.Window sig grid3 :=
  Pipeline.Window.whole (Memref.whole main_v46) true false (stage3_11 0) (sem3_11 0) (Memref.isWhole_whole _) (hstage3_11 0)

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S10000x3 : Shape := ⟨2, ![10000, 3]⟩
abbrev S10000 : Shape := ⟨1, ![10000]⟩
abbrev S514x257 : Shape := ⟨2, ![514, 257]⟩
abbrev S514 : Shape := ⟨1, ![514]⟩
abbrev S16x514 : Shape := ⟨2, ![16, 514]⟩
abbrev S16 : Shape := ⟨1, ![16]⟩
abbrev S64x16 : Shape := ⟨2, ![64, 16]⟩
abbrev S64 : Shape := ⟨1, ![64]⟩
abbrev S1x64 : Shape := ⟨2, ![1, 64]⟩
abbrev S1 : Shape := ⟨1, ![1]⟩
abbrev S256x144 : Shape := ⟨2, ![256, 144]⟩
abbrev S256 : Shape := ⟨1, ![256]⟩
abbrev S128x256 : Shape := ⟨2, ![128, 256]⟩
abbrev S128 : Shape := ⟨1, ![128]⟩
abbrev S3x128 : Shape := ⟨2, ![3, 128]⟩
abbrev S3 : Shape := ⟨1, ![3]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x3 : Shape := ⟨2, ![320000, 3]⟩
abbrev S320000x128 : Shape := ⟨2, ![320000, 128]⟩
abbrev S320000x257 : Shape := ⟨2, ![320000, 257]⟩
abbrev S257x514 : Shape := ⟨2, ![257, 514]⟩
abbrev S320000x514 : Shape := ⟨2, ![320000, 514]⟩
abbrev S1x514 : Shape := ⟨2, ![1, 514]⟩
abbrev S514x16 : Shape := ⟨2, ![514, 16]⟩
abbrev S320000x16 : Shape := ⟨2, ![320000, 16]⟩
abbrev S1x16 : Shape := ⟨2, ![1, 16]⟩
abbrev S16x64 : Shape := ⟨2, ![16, 64]⟩
abbrev S320000x64 : Shape := ⟨2, ![320000, 64]⟩
abbrev S64x1 : Shape := ⟨2, ![64, 1]⟩
abbrev S1x1 : Shape := ⟨2, ![1, 1]⟩
abbrev S10000x16 : Shape := ⟨2, ![10000, 16]⟩
abbrev S10000x144 : Shape := ⟨2, ![10000, 144]⟩
abbrev S144x256 : Shape := ⟨2, ![144, 256]⟩
abbrev S10000x256 : Shape := ⟨2, ![10000, 256]⟩
abbrev S1x256 : Shape := ⟨2, ![1, 256]⟩
abbrev S256x128 : Shape := ⟨2, ![256, 128]⟩
abbrev S1x128 : Shape := ⟨2, ![1, 128]⟩
abbrev S128x3 : Shape := ⟨2, ![128, 3]⟩
abbrev S1x3 : Shape := ⟨2, ![1, 3]⟩

abbrev nBuf : Space → Nat
  | .hbm => 194
  | .vmem => 0
  | .smem => 0
  | _ => 0

abbrev hbmTy0_0 (i : Nat) : BufTy := match i % 128 with
  | 0 => ⟨S10000x128, .f32⟩
  | 1 => ⟨S2x320000, .i32⟩
  | 2 => ⟨S10000x3, .f32⟩
  | 3 => ⟨S10000, .i32⟩
  | 4 => ⟨S514x257, .f32⟩
  | 5 => ⟨S514, .f32⟩
  | 6 => ⟨S16x514, .f32⟩
  | 7 => ⟨S16, .f32⟩
  | 8 => ⟨S64x16, .f32⟩
  | 9 => ⟨S64, .f32⟩
  | 10 => ⟨S1x64, .f32⟩
  | 11 => ⟨S1, .f32⟩
  | 12 => ⟨S256x144, .f32⟩
  | 13 => ⟨S256, .f32⟩
  | 14 => ⟨S128x256, .f32⟩
  | 15 => ⟨S128, .f32⟩
  | 16 => ⟨S128, .f32⟩
  | 17 => ⟨S128, .f32⟩
  | 18 => ⟨S3x128, .f32⟩
  | 19 => ⟨S3, .f32⟩
  | 20 => ⟨S1x320000, .i32⟩
  | 21 => ⟨S320000, .i32⟩
  | 22 => ⟨S1x320000, .i32⟩
  | 23 => ⟨S320000, .i32⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S320000x3, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x3, .f32⟩
  | 42 => ⟨S320000x3, .f32⟩
  | 43 => ⟨S320000x3, .f32⟩
  | 44 => ⟨S_, .f32⟩
  | 45 => ⟨S320000, .f32⟩
  | 46 => ⟨S320000x1, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000x128, .f32⟩
  | 56 => ⟨S_, .i32⟩
  | 57 => ⟨S320000, .i32⟩
  | 58 => ⟨S320000, .i1⟩
  | 59 => ⟨S_, .i32⟩
  | 60 => ⟨S320000, .i32⟩
  | 61 => ⟨S320000, .i32⟩
  | 62 => ⟨S320000, .i32⟩
  | 63 => ⟨S320000x1, .i32⟩
  | 64 => ⟨S320000x128, .f32⟩
  | 65 => ⟨S320000x257, .f32⟩
  | 66 => ⟨S257x514, .f32⟩
  | 67 => ⟨S320000x514, .f32⟩
  | 68 => ⟨S1x514, .f32⟩
  | 69 => ⟨S320000x514, .f32⟩
  | 70 => ⟨S320000x514, .f32⟩
  | 71 => ⟨S320000x514, .f32⟩
  | 72 => ⟨S320000x514, .f32⟩
  | 73 => ⟨S_, .f32⟩
  | 74 => ⟨S320000x514, .f32⟩
  | 75 => ⟨S320000x514, .f32⟩
  | 76 => ⟨S_, .f32⟩
  | 77 => ⟨S320000x514, .f32⟩
  | 78 => ⟨S320000x514, .f32⟩
  | 79 => ⟨S320000x514, .f32⟩
  | 80 => ⟨S514x16, .f32⟩
  | 81 => ⟨S320000x16, .f32⟩
  | 82 => ⟨S1x16, .f32⟩
  | 83 => ⟨S320000x16, .f32⟩
  | 84 => ⟨S320000x16, .f32⟩
  | 85 => ⟨S320000x16, .f32⟩
  | 86 => ⟨S320000x16, .f32⟩
  | 87 => ⟨S_, .f32⟩
  | 88 => ⟨S320000x16, .f32⟩
  | 89 => ⟨S320000x16, .f32⟩
  | 90 => ⟨S_, .f32⟩
  | 91 => ⟨S320000x16, .f32⟩
  | 92 => ⟨S320000x16, .f32⟩
  | 93 => ⟨S320000x16, .f32⟩
  | 94 => ⟨S16x64, .f32⟩
  | 95 => ⟨S320000x64, .f32⟩
  | 96 => ⟨S1x64, .f32⟩
  | 97 => ⟨S320000x64, .f32⟩
  | 98 => ⟨S320000x64, .f32⟩
  | 99 => ⟨S320000x64, .f32⟩
  | 100 => ⟨S320000x64, .f32⟩
  | 101 => ⟨S_, .f32⟩
  | 102 => ⟨S320000x64, .f32⟩
  | 103 => ⟨S320000x64, .f32⟩
  | 104 => ⟨S_, .f32⟩
  | 105 => ⟨S320000x64, .f32⟩
  | 106 => ⟨S320000x64, .f32⟩
  | 107 => ⟨S320000x64, .f32⟩
  | 108 => ⟨S64x1, .f32⟩
  | 109 => ⟨S320000x1, .f32⟩
  | 110 => ⟨S1x1, .f32⟩
  | 111 => ⟨S320000x1, .f32⟩
  | 112 => ⟨S320000x1, .f32⟩
  | 113 => ⟨S320000x3, .f32⟩
  | 114 => ⟨S320000x3, .f32⟩
  | 115 => ⟨S_, .f32⟩
  | 116 => ⟨S10000x3, .f32⟩
  | 117 => ⟨S320000x1, .i32⟩
  | 118 => ⟨S10000x3, .f32⟩
  | 119 => ⟨S10000x3, .f32⟩
  | 120 => ⟨S_, .f32⟩
  | 121 => ⟨S10000x16, .f32⟩
  | 122 => ⟨S320000x1, .i32⟩
  | 123 => ⟨S10000x16, .f32⟩
  | 124 => ⟨S10000x144, .f32⟩
  | 125 => ⟨S144x256, .f32⟩
  | 126 => ⟨S10000x256, .f32⟩
  | 127 => ⟨S1x256, .f32⟩
  | _ => ⟨S10000x128, .f32⟩

abbrev hbmTy0_1 (i : Nat) : BufTy := match i % 128 with
  | 0 => ⟨S10000x256, .f32⟩
  | 1 => ⟨S10000x256, .f32⟩
  | 2 => ⟨S10000x256, .f32⟩
  | 3 => ⟨S10000x256, .f32⟩
  | 4 => ⟨S_, .f32⟩
  | 5 => ⟨S10000x256, .f32⟩
  | 6 => ⟨S10000x256, .f32⟩
  | 7 => ⟨S_, .f32⟩
  | 8 => ⟨S10000x256, .f32⟩
  | 9 => ⟨S10000x256, .f32⟩
  | 10 => ⟨S10000x256, .f32⟩
  | 11 => ⟨S256x128, .f32⟩
  | 12 => ⟨S10000x128, .f32⟩
  | 13 => ⟨S1x128, .f32⟩
  | 14 => ⟨S10000x128, .f32⟩
  | 15 => ⟨S10000x128, .f32⟩
  | 16 => ⟨S10000x128, .f32⟩
  | 17 => ⟨S_, .f32⟩
  | 18 => ⟨S128, .f32⟩
  | 19 => ⟨S_, .f32⟩
  | 20 => ⟨S128, .f32⟩
  | 21 => ⟨S128, .f32⟩
  | 22 => ⟨S_, .i32⟩
  | 23 => ⟨S_, .f32⟩
  | 24 => ⟨S128, .f32⟩
  | 25 => ⟨S1x128, .f32⟩
  | 26 => ⟨S_, .f32⟩
  | 27 => ⟨S1x128, .f32⟩
  | 28 => ⟨S1x128, .f32⟩
  | 29 => ⟨S10000x128, .f32⟩
  | 30 => ⟨S10000x128, .f32⟩
  | 31 => ⟨S10000x128, .f32⟩
  | 32 => ⟨S_, .f32⟩
  | 33 => ⟨S_, .f32⟩
  | 34 => ⟨S_, .f32⟩
  | 35 => ⟨S_, .f32⟩
  | 36 => ⟨S128, .f32⟩
  | 37 => ⟨S128, .f32⟩
  | 38 => ⟨S128, .f32⟩
  | 39 => ⟨S_, .f32⟩
  | 40 => ⟨S_, .i1⟩
  | 41 => ⟨S_, .f32⟩
  | 42 => ⟨S_, .f32⟩
  | 43 => ⟨S128, .f32⟩
  | 44 => ⟨S128, .f32⟩
  | 45 => ⟨S1x128, .f32⟩
  | 46 => ⟨S10000x128, .f32⟩
  | 47 => ⟨S10000x128, .f32⟩
  | 48 => ⟨S_, .f32⟩
  | 49 => ⟨S128, .f32⟩
  | 50 => ⟨S128, .f32⟩
  | 51 => ⟨S128, .f32⟩
  | 52 => ⟨S1x128, .f32⟩
  | 53 => ⟨S10000x128, .f32⟩
  | 54 => ⟨S10000x128, .f32⟩
  | 55 => ⟨S1x128, .f32⟩
  | 56 => ⟨S10000x128, .f32⟩
  | 57 => ⟨S10000x128, .f32⟩
  | 58 => ⟨S1x128, .f32⟩
  | 59 => ⟨S10000x128, .f32⟩
  | 60 => ⟨S10000x128, .f32⟩
  | 61 => ⟨S128x3, .f32⟩
  | 62 => ⟨S10000x3, .f32⟩
  | 63 => ⟨S1x3, .f32⟩
  | 64 => ⟨S10000x3, .f32⟩
  | 65 => ⟨S10000x3, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst : Ref sig .tc := ⟨.hbm, 44, rfl⟩
abbrev main_v20 : Ref sig .tc := ⟨.hbm, 45, rfl⟩
abbrev main_v21 : Ref sig .tc := ⟨.hbm, 46, rfl⟩
abbrev main_c_3 : Ref sig .tc := ⟨.hbm, 47, rfl⟩
abbrev main_v22 : Ref sig .tc := ⟨.hbm, 48, rfl⟩
abbrev main_v23 : Ref sig .tc := ⟨.hbm, 49, rfl⟩
abbrev main_c_4 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_cst_12 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_13 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_14 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_15 : Ref sig .tc := ⟨.hbm, 132, rfl⟩
abbrev main_v95 : Ref sig .tc := ⟨.hbm, 133, rfl⟩
abbrev main_v96 : Ref sig .tc := ⟨.hbm, 134, rfl⟩
abbrev main_cst_16 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_17 : Ref sig .tc := ⟨.hbm, 145, rfl⟩
abbrev main_v106 : Ref sig .tc := ⟨.hbm, 146, rfl⟩
abbrev main_cst_18 : Ref sig .tc := ⟨.hbm, 147, rfl⟩
abbrev main_v107 : Ref sig .tc := ⟨.hbm, 148, rfl⟩
abbrev main_v108 : Ref sig .tc := ⟨.hbm, 149, rfl⟩
abbrev main_c_19 : Ref sig .tc := ⟨.hbm, 150, rfl⟩
abbrev main_call0_cst : Ref sig .tc := ⟨.hbm, 151, rfl⟩
abbrev main_call0_v0 : Ref sig .tc := ⟨.hbm, 152, rfl⟩
abbrev main_call0_v1 : Ref sig .tc := ⟨.hbm, 153, rfl⟩
abbrev main_call0_cst_0 : Ref sig .tc := ⟨.hbm, 154, rfl⟩
abbrev main_call0_v2 : Ref sig .tc := ⟨.hbm, 155, rfl⟩
abbrev main_call0_v3 : Ref sig .tc := ⟨.hbm, 156, rfl⟩
abbrev main_call0_v4 : Ref sig .tc := ⟨.hbm, 157, rfl⟩
abbrev main_call0_v5 : Ref sig .tc := ⟨.hbm, 158, rfl⟩
abbrev main_call0_v6 : Ref sig .tc := ⟨.hbm, 159, rfl⟩
abbrev main_call0_v7 : Ref sig .tc := ⟨.hbm, 160, rfl⟩
abbrev main_call0_cst_1 : Ref sig .tc := ⟨.hbm, 161, rfl⟩
abbrev main_call0_v8 : Ref sig .tc := ⟨.hbm, 162, rfl⟩
abbrev main_call0_cst_2 : Ref sig .tc := ⟨.hbm, 163, rfl⟩
abbrev main_call0_v9 : Ref sig .tc := ⟨.hbm, 164, rfl⟩
abbrev main_call0_v10 : Ref sig .tc := ⟨.hbm, 165, rfl⟩
abbrev main_call0_v11 : Ref sig .tc := ⟨.hbm, 166, rfl⟩
abbrev main_call0_cst_3 : Ref sig .tc := ⟨.hbm, 167, rfl⟩
abbrev main_call0_v12 : Ref sig .tc := ⟨.hbm, 168, rfl⟩
abbrev main_call0_cst_4 : Ref sig .tc := ⟨.hbm, 169, rfl⟩
abbrev main_call0_call0_v0 : Ref sig .tc := ⟨.hbm, 170, rfl⟩
abbrev main_call0_call0_v1 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_cst_20 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  reducesTo_S320000x3_S320000_d1 : S320000x3.ReducesTo [1] S320000
  h_S_ : 0 < S_.numel
  concatenates_S320000x128_S320000x128_S320000x1_S320000x257_d1 : Shape.Concatenates [S320000x128, S320000x128, S320000x1] S320000x257 1
  transposes_S514x257_S257x514_1_0 : S514x257.Transposes [1, 0] S257x514
  bcast_S514_S1x514_1 : S514.BroadcastsInDim S1x514 (![1] : Fin 1 → Fin S1x514.rank)
  bcast_S1x514_S320000x514_0_1 : S1x514.BroadcastsInDim S320000x514 (![0, 1] : Fin 2 → Fin S320000x514.rank)
  bcast_S_S320000x514 : S_.BroadcastsInDim S320000x514 (![] : Fin 0 → Fin S320000x514.rank)
  transposes_S16x514_S514x16_1_0 : S16x514.Transposes [1, 0] S514x16
  bcast_S16_S1x16_1 : S16.BroadcastsInDim S1x16 (![1] : Fin 1 → Fin S1x16.rank)
  bcast_S1x16_S320000x16_0_1 : S1x16.BroadcastsInDim S320000x16 (![0, 1] : Fin 2 → Fin S320000x16.rank)
  bcast_S_S320000x16 : S_.BroadcastsInDim S320000x16 (![] : Fin 0 → Fin S320000x16.rank)
  transposes_S64x16_S16x64_1_0 : S64x16.Transposes [1, 0] S16x64
  bcast_S64_S1x64_1 : S64.BroadcastsInDim S1x64 (![1] : Fin 1 → Fin S1x64.rank)
  bcast_S1x64_S320000x64_0_1 : S1x64.BroadcastsInDim S320000x64 (![0, 1] : Fin 2 → Fin S320000x64.rank)
  bcast_S_S320000x64 : S_.BroadcastsInDim S320000x64 (![] : Fin 0 → Fin S320000x64.rank)
  transposes_S1x64_S64x1_1_0 : S1x64.Transposes [1, 0] S64x1
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  bcast_S320000x1_S320000x3_0_1 : S320000x1.BroadcastsInDim S320000x3 (![0, 1] : Fin 2 → Fin S320000x3.rank)
  bcast_S_S10000x3 : S_.BroadcastsInDim S10000x3 (![] : Fin 0 → Fin S10000x3.rank)
  bcast_S_S10000x16 : S_.BroadcastsInDim S10000x16 (![] : Fin 0 → Fin S10000x16.rank)
  concatenates_S10000x128_S10000x16_S10000x144_d1 : Shape.Concatenates [S10000x128, S10000x16] S10000x144 1
  transposes_S256x144_S144x256_1_0 : S256x144.Transposes [1, 0] S144x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S128_d0 : S10000x128.ReducesTo [0] S128
  bcast_S_S128 : S_.BroadcastsInDim S128 (![] : Fin 0 → Fin S128.rank)
  bcast_S_S1x128 : S_.BroadcastsInDim S1x128 (![] : Fin 0 → Fin S1x128.rank)
  transposes_S3x128_S128x3_1_0 : S3x128.Transposes [1, 0] S128x3
  bcast_S3_S1x3_1 : S3.BroadcastsInDim S1x3 (![1] : Fin 1 → Fin S1x3.rank)
  bcast_S1x3_S10000x3_0_1 : S1x3.BroadcastsInDim S10000x3 (![0, 1] : Fin 2 → Fin S10000x3.rank)
  gather_S10000x3_S320000x1_S320000x3_1_0_n_n_0_1_13_wf : GatherDims.WF S10000x3 S320000x1 S320000x3 [1] [0] [] [0] [] 1 ![1, 3]
  gather_S10000x128_S320000x1_S320000x128_1_0_n_n_0_1_1128_wf : GatherDims.WF S10000x128 S320000x1 S320000x128 [1] [0] [] [0] [] 1 ![1, 128]
  dot_S320000x257_S257x514_S320000x514_1_0_0_1_n_n_wf : DotDims.WF S320000x257 S257x514 S320000x514 [1] [0] [0] [1] [] []
  dot_S320000x514_S514x16_S320000x16_1_0_0_1_n_n_wf : DotDims.WF S320000x514 S514x16 S320000x16 [1] [0] [0] [1] [] []
  dot_S320000x16_S16x64_S320000x64_1_0_0_1_n_n_wf : DotDims.WF S320000x16 S16x64 S320000x64 [1] [0] [0] [1] [] []
  dot_S320000x64_S64x1_S320000x1_1_0_0_1_n_n_wf : DotDims.WF S320000x64 S64x1 S320000x1 [1] [0] [0] [1] [] []
  scatter_S10000x3_S320000x1_S320000x3_1_0_0_1_wf : ScatterDims.WF S10000x3 S320000x1 S320000x3 [1] [0] [0] 1
  scatter_S10000x16_S320000x1_S320000x16_1_0_0_1_wf : ScatterDims.WF S10000x16 S320000x1 S320000x16 [1] [0] [0] 1
  dot_S10000x144_S144x256_S10000x256_1_0_0_1_n_n_wf : DotDims.WF S10000x144 S144x256 S10000x256 [1] [0] [0] [1] [] []
  dot_S10000x256_S256x128_S10000x128_1_0_0_1_n_n_wf : DotDims.WF S10000x256 S256x128 S10000x128 [1] [0] [0] [1] [] []
  dot_S10000x128_S128x3_S10000x3_1_0_0_1_n_n_wf : DotDims.WF S10000x128 S128x3 S10000x3 [1] [0] [0] [1] [] []

variable [Facts₀]

def gather_S10000x3_S320000x1_S320000x3_1_0_n_n_0_1_13 : GatherDims S10000x3 S320000x1 S320000x3 where
  offsetDims := [1]
  collapsedSliceDims := [0]
  operandBatchingDims := []
  startIndicesBatchingDims := []
  startIndexMap := [0]
  indexVectorDim := 1
  sliceSizes := ![1, 3]
  wf := gather_S10000x3_S320000x1_S320000x3_1_0_n_n_0_1_13_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x257_S257x514_S320000x514_1_0_0_1_n_n : DotDims S320000x257 S257x514 S320000x514 where
  lhsContracting := [1]
  rhsContracting := [0]
  lhsNonContracting := [0]
  rhsNonContracting := [1]
  lhsBatch := []
  rhsBatch := []
  wf := dot_S320000x257_S257x514_S320000x514_1_0_0_1_n_n_wf
def dot_S320000x514_S514x16_S320000x16_1_0_0_1_n_n : DotDims S320000x514 S514x16 S320000x16 where
  lhsContracting := [1]
  rhsContracting := [0]
  lhsNonContracting := [0]
  rhsNonContracting := [1]
  lhsBatch := []
  rhsBatch := []
  wf := dot_S320000x514_S514x16_S320000x16_1_0_0_1_n_n_wf
def dot_S320000x16_S16x64_S320000x64_1_0_0_1_n_n : DotDims S320000x16 S16x64 S320000x64 where
  lhsContracting := [1]
  rhsContracting := [0]
  lhsNonContracting := [0]
  rhsNonContracting := [1]
  lhsBatch := []
  rhsBatch := []
  wf := dot_S320000x16_S16x64_S320000x64_1_0_0_1_n_n_wf
def dot_S320000x64_S64x1_S320000x1_1_0_0_1_n_n : DotDims S320000x64 S64x1 S320000x1 where
  lhsContracting := [1]
  rhsContracting := [0]
  lhsNonContracting := [0]
  rhsNonContracting := [1]
  lhsBatch := []
  rhsBatch := []
  wf := dot_S320000x64_S64x1_S320000x1_1_0_0_1_n_n_wf
def scatter_S10000x3_S320000x1_S320000x3_1_0_0_1 : ScatterDims S10000x3 S320000x1 S320000x3 where
  updateWindowDims := [1]
  insertedWindowDims := [0]
  scatterDimsToOperandDims := [0]
  indexVectorDim := 1
  wf := scatter_S10000x3_S320000x1_S320000x3_1_0_0_1_wf
def scatter_S10000x16_S320000x1_S320000x16_1_0_0_1 : ScatterDims S10000x16 S320000x1 S320000x16 where
  updateWindowDims := [1]
  insertedWindowDims := [0]
  scatterDimsToOperandDims := [0]
  indexVectorDim := 1
  wf := scatter_S10000x16_S320000x1_S320000x16_1_0_0_1_wf
def dot_S10000x144_S144x256_S10000x256_1_0_0_1_n_n : DotDims S10000x144 S144x256 S10000x256 where
  lhsContracting := [1]
  rhsContracting := [0]
  lhsNonContracting := [0]
  rhsNonContracting := [1]
  lhsBatch := []
  rhsBatch := []
  wf := dot_S10000x144_S144x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x3_S10000x3_1_0_0_1_n_n : DotDims S10000x128 S128x3 S10000x3 where
  lhsContracting := [1]
  rhsContracting := [0]
  lhsNonContracting := [0]
  rhsNonContracting := [1]
  lhsBatch := []
  rhsBatch := []
  wf := dot_S10000x128_S128x3_S10000x3_1_0_0_1_n_n_wf

class Facts : Prop extends Facts₀ where

variable [Facts]
-- ==== Proof.KB.Common.lean ====
import proofs.«205084_g25537875542483_cont_9to1_419_23_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«205084_g25537875542483_cont_9to1_419_23_alg».proof.Proof.Gen.Kernel
import proofs.«205084_g25537875542483_cont_9to1_419_23_alg».proof.Proof.Gen.Kernel.Skeleton
import proofs.«205084_g25537875542483_cont_9to1_419_23_alg».proof.Proof.Gen.Kernel.Launch
import proofs.«205084_g25537875542483_cont_9to1_419_23_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL

def EP : Emb UP (MT nD τ sig (HIx 2) (Elt F) ℕ UU ℕ) :=
  (Emb.inl : Emb UP (UP × Counters)).trans (embR : Emb (UP × Counters) (MT nD τ sig (HIx 2) (Elt F) ℕ UU ℕ))

instance EP_landsIn : (EP : Emb UP 𝕄).LandsIn (upEmb : UEmb _ 𝕄) := by unfold EP; infer_instance

abbrev adm : (p : Fin 2) → (pcfgs (F := F) p).Adm := fun p => (cfgs p).toPCfg_adm

abbrev cV0 (L : grid0.Coords) : Fin τ.nSC := (L 0).castLE hcore0
abbrev jV0 (L : grid0.Coords) : Fin τ.nSub := (L 1).castLE hsub0
abbrev cV2 (L : grid2.Coords) : Fin τ.nSC := (L 0).castLE hcore2
abbrev jV2 (L : grid2.Coords) : Fin τ.nSub := (L 1).castLE hsub2

end Cert.Proof.KB

end
-- ==== Proof.KB.K0Body.lean ====
import proofs.«205084_g25537875542483_cont_9to1_419_23_alg».proof.Proof.KB.Common
import Idealize.ShloMosaic.Lib.SparseCore.Stream
import Idealize.ShloMosaic.Lib.Transfers
import Idealize.ShloMosaic.Lib.Tactic

noncomputable section

namespace Cert.Proof.KB.K0Body

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "xV" => (Memref.whole Cert.Kernel.main_arg0_scv : Memref Cert.Kernel.sig Kind.scVector Space.hbm Cert.Kernel.S10000x128 EltTy.f32)
local notation "pxV" => (Memref.whole Cert.Kernel.main_v2_scv : Memref Cert.Kernel.sig Kind.scVector Space.hbm Cert.Kernel.S10112 EltTy.f32)
local notation "pyV" => (Memref.whole Cert.Kernel.main_v5_scv : Memref Cert.Kernel.sig Kind.scVector Space.hbm Cert.Kernel.S10112 EltTy.f32)
local notation "pzV" => (Memref.whole Cert.Kernel.main_v8_scv : Memref Cert.Kernel.sig Kind.scVector Space.hbm Cert.Kernel.S10112 EltTy.f32)
local notation "srcV" => (Memref.whole Cert.Kernel.main_v15_scv : Memref Cert.Kernel.sig Kind.scVector Space.hbm Cert.Kernel.S32x80x128 EltTy.i32)
local notation "dstV" => (Memref.whole Cert.Kernel.main_v18_scv : Memref Cert.Kernel.sig Kind.scVector Space.hbm Cert.Kernel.S32x80x128 EltTy.i32)
local notation "xiV" => (Memref.whole Cert.Kernel.main_v43_0_scv : Memref Cert.Kernel.sig Kind.scVector Space.hbm Cert.Kernel.S327680x128 EltTy.f32)
local notation "xjV" => (Memref.whole Cert.Kernel.main_v43_1_scv : Memref Cert.Kernel.sig Kind.scVector Space.hbm Cert.Kernel.S327680x128 EltTy.f32)
local notation "relV" => (Memref.whole Cert.Kernel.main_v43_2_scv : Memref Cert.Kernel.sig Kind.scVector Space.hbm Cert.Kernel.S20480x16 EltTy.f32)
local notation "iaV" => (Memref.whole Cert.Kernel.cc0_scratch0 : Memref Cert.Kernel.sig Kind.scVector Space.vmem Cert.Kernel.S128 EltTy.i32)
local notation "ibV" => (Memref.whole Cert.Kernel.cc0_scratch1 : Memref Cert.Kernel.sig Kind.scVector Space.vmem Cert.Kernel.S128 EltTy.i32)
local notation "raV" => (Memref.whole Cert.Kernel.cc0_scratch2 : Memref Cert.Kernel.sig Kind.scVector Space.vmem Cert.Kernel.S128x128 EltTy.f32)
local notation "rbV" => (Memref.whole Cert.Kernel.cc0_scratch3 : Memref Cert.Kernel.sig Kind.scVector Space.vmem Cert.Kernel.S128x128 EltTy.f32)
local notation "rvV" => (Memref.whole Cert.Kernel.cc0_scratch4 : Memref Cert.Kernel.sig Kind.scVector Space.vmem Cert.Kernel.S8x16 EltTy.f32)
local notation "pxS" => (Memref.whole Cert.Kernel.cc0_scratch5 : Memref Cert.Kernel.sig Kind.scVector Space.vmem Cert.Kernel.S10112 EltTy.f32)
local notation "pyS" => (Memref.whole Cert.Kernel.cc0_scratch6 : Memref Cert.Kernel.sig Kind.scVector Space.vmem Cert.Kernel.S10112 EltTy.f32)
local notation "pzS" => (Memref.whole Cert.Kernel.cc0_scratch7 : Memref Cert.Kernel.sig Kind.scVector Space.vmem Cert.Kernel.S10112 EltTy.f32)

abbrev xLoc (d : Dev nD) : Loc nD τ sig := (SparseCore.T d).loc main_arg0
abbrev pxLoc (d : Dev nD) : Loc nD τ sig := (SparseCore.T d).loc main_v2
abbrev pyLoc (d : Dev nD) : Loc nD τ sig := (SparseCore.T d).loc main_v5
abbrev pzLoc (d : Dev nD) : Loc nD τ sig := (SparseCore.T d).loc main_v8
abbrev srcLoc (d : Dev nD) : Loc nD τ sig := (SparseCore.T d).loc main_v15
abbrev dstLoc (d : Dev nD) : Loc nD τ sig := (SparseCore.T d).loc main_v18
abbrev xiLoc (d : Dev nD) : Loc nD τ sig := (SparseCore.T d).loc main_v43_0
abbrev xjLoc (d : Dev nD) : Loc nD τ sig := (SparseCore.T d).loc main_v43_1
abbrev relLoc (d : Dev nD) : Loc nD τ sig := (SparseCore.T d).loc main_v43_2

theorem L0_lt (L : grid0.Coords) : (L 0).val < 2 := (L 0).isLt
theorem L1_lt (L : grid0.Coords) : (L 1).val < 16 := (L 1).isLt

abbrev wid (L : grid0.Coords) : ℕ := 16 * (L 0).val + (L 1).val
theorem wid_lt (L : grid0.Coords) : wid L < 32 := by have := L0_lt L; have := L1_lt L; unfold wid; omega

theorem srcBlk_inb (L : grid0.Coords) : ∀ a, (![wid L, 0, 0] : Fin 3 → ℕ) a + (![1, 80, 128] : Fin 3 → ℕ) a ≤ S32x80x128.size a := by
  have := wid_lt L
  intro a; fin_cases a <;> simp <;> omega
theorem outBlk_inb (L : grid0.Coords) : ∀ a, (![10240 * wid L, 0] : Fin 2 → ℕ) a + (![10240, 128] : Fin 2 → ℕ) a ≤ S327680x128.size a := by
  have := wid_lt L
  intro a; fin_cases a <;> simp <;> omega
theorem relBlk_inb (L : grid0.Coords) : ∀ a, (![640 * wid L, 0] : Fin 2 → ℕ) a + (![640, 16] : Fin 2 → ℕ) a ≤ S20480x16.size a := by
  have := wid_lt L
  intro a; fin_cases a <;> simp <;> omega

abbrev srcBlk (L : grid0.Coords) : Rect S32x80x128 := Rect.unit (s := S32x80x128) ![wid L, 0, 0] ![1, 80, 128] (srcBlk_inb L)

abbrev outBlk (L : grid0.Coords) : Rect S327680x128 := Rect.unit (s := S327680x128) ![10240 * wid L, 0] ![10240, 128] (outBlk_inb L)

abbrev relBlk (L : grid0.Coords) : Rect S20480x16 := Rect.unit (s := S20480x16) ![640 * wid L, 0] ![640, 16] (relBlk_inb L)

abbrev tileShare (L : grid0.Coords) : PosShare TreeShare := Transfers.shareTok fullShare 32 ⟨wid L, wid_lt L⟩

section Task

variable (q : PosShare TreeShare) (d : Dev nD) (L : grid0.Coords)
variable (fx : Buf (Elt F) (xLoc d)) (fpx : Buf (Elt F) (pxLoc d)) (fpy : Buf (Elt F) (pyLoc d)) (fpz : Buf (Elt F) (pzLoc d))
variable (fsrc : Buf (Elt F) (srcLoc d)) (fdst : Buf (Elt F) (dstLoc d))

def go0 : sProp 𝕄 :=
  iprop((xLoc d ↦{q} fx) ∗ (pxLoc d ↦{q} fpx) ∗ (pyLoc d ↦{q} fpy) ∗ (pzLoc d ↦{q} fpz)
    ∗ (srcLoc d ↦[(srcBlk L).set]{fullShare} fsrc) ∗ (dstLoc d ↦[(srcBlk L).set]{fullShare} fdst)
    ∗ (∃ f, xiLoc d ↦[(outBlk L).set]{fullShare} f) ∗ (∃ f, xjLoc d ↦[(outBlk L).set]{fullShare} f)
    ∗ (∃ f, relLoc d ↦[(relBlk L).set]{fullShare} f))

def td0 : sProp 𝕄 :=
  iprop((xLoc d ↦{q} fx) ∗ (pxLoc d ↦{q} fpx) ∗ (pyLoc d ↦{q} fpy) ∗ (pzLoc d ↦{q} fpz)
    ∗ (srcLoc d ↦[(srcBlk L).set]{fullShare} fsrc) ∗ (dstLoc d ↦[(srcBlk L).set]{fullShare} fdst)
    ∗ (∃ f, xiLoc d ↦[(outBlk L).set]{fullShare} f) ∗ (∃ f, xjLoc d ↦[(outBlk L).set]{fullShare} f)
    ∗ (∃ f, relLoc d ↦[(relBlk L).set]{fullShare} f))

def IdxOK : Prop := (∀ i, (fsrc i).toNat < 10000) ∧ (∀ i, (fdst i).toNat < 10000)

end Task

theorem mem_foldl_erase {α : Type} [DecidableEq α] (l : List α) (s : Finset α) (a : α) :
    a ∈ l.foldl Finset.erase s ↔ a ∈ s ∧ a ∉ l := by
  induction l generalizing s with
  | nil => simp
  | cons b l ih => simp only [List.foldl_cons, ih, Finset.mem_erase, List.mem_cons, not_or]; tauto

theorem bigSep_peel {I : Type} [DecidableEq I] (Φ : I → sProp 𝕄) : ∀ (l : List I) (s : Finset I), l.Nodup → (∀ i ∈ l, i ∈ s) →
    bigSep s Φ = l.foldr (fun i P => iprop(Φ i ∗ P)) (bigSep (l.foldl Finset.erase s) Φ)
  | [], _, _, _ => rfl
  | i :: l, s, hn, hm => by
    rw [SparseCore.bigSep_erase' (hm i (List.mem_cons_self ..))]
    rw [bigSep_peel Φ l (s.erase i) (List.nodup_cons.mp hn).2 fun j hj =>
      Finset.mem_erase.mpr ⟨fun e => (List.nodup_cons.mp hn).1 (e ▸ hj), hm j (List.mem_cons_of_mem _ hj)⟩]
    rfl

section Own

variable (d : Dev nD) (L : grid0.Coords)

abbrev sLoc (r : Ref sig .scVector) : Loc nD τ sig := (d, (Proc.scVector (cV0 L) (jV0 L)).devRef r)

abbrev cell (s : DmaSem sig) : GSem nD τ sig := (V d (cV0 L) (jV0 L), SemLoc.dma s)

abbrev taskSems : List (DmaSem sig) := [cc0_scratch8.sem, cc0_scratch9.sem, cc0_scoped0.sem, cc0_scoped1.sem, cc0_scoped2.sem, cc0_scoped3.sem, cc0_scoped4.sem, cc0_scoped5.sem, cc0_scoped6.sem, cc0_scoped7.sem]

abbrev taskScr : List (Ref sig .scVector) := [cc0_scratch0, cc0_scratch1, cc0_scratch2, cc0_scratch3, cc0_scratch4, cc0_scratch5, cc0_scratch6, cc0_scratch7]
abbrev taskCells : List (GSem nD τ sig) := taskSems.map (cell d L)
theorem ownSems0_V :
    (ownSems0 (V d (cV0 L) (jV0 L)) : sProp 𝕄)
      = iprop(semVal (cell d L cc0_scratch8.sem) 0 ∗ semVal (cell d L cc0_scratch9.sem) 0 ∗ semVal (cell d L cc0_scoped0.sem) 0 ∗ semVal (cell d L cc0_scoped1.sem) 0 ∗ semVal (cell d L cc0_scoped2.sem) 0 ∗ semVal (cell d L cc0_scoped3.sem) 0 ∗ semVal (cell d L cc0_scoped4.sem) 0 ∗ semVal (cell d L cc0_scoped5.sem) 0 ∗ semVal (cell d L cc0_scoped6.sem) 0 ∗ semVal (cell d L cc0_scoped7.sem) 0
          ∗ bigSep ((taskCells d L).foldl Finset.erase (ownCells (V d (cV0 L) (jV0 L)))) fun g => semVal g 0) := by
  unfold SparseCore.Cfg.ownSems0
  refine (bigSep_peel _ (taskCells d L) _ ?_ ?_).trans rfl
  · exact List.Nodup.map (fun a b e => by simpa using e) (by decide)
  · intro g hg
    obtain ⟨s, hs, rfl⟩ := List.mem_map.mp hg
    exact (mem_ownCells (g := cell d L s)).mpr ⟨rfl, (show ∀ s ∈ taskSems, (SemLoc.dma s : SemLoc sig).isScoped .scVector = true by decide) s hs⟩

abbrev restRefs : Finset (DevRef τ sig) := (((((((((ownRefs (τ := τ) (.scVector (cV0 L) (jV0 L)))).erase ((Proc.scVector (cV0 L) (jV0 L)).devRef cc0_scratch0)).erase ((Proc.scVector (cV0 L) (jV0 L)).devRef cc0_scratch1)).erase ((Proc.scVector (cV0 L) (jV0 L)).devRef cc0_scratch2)).erase ((Proc.scVector (cV0 L) (jV0 L)).devRef cc0_scratch3)).erase ((Proc.scVector (cV0 L) (jV0 L)).devRef cc0_scratch4)).erase ((Proc.scVector (cV0 L) (jV0 L)).devRef cc0_scratch5)).erase ((Proc.scVector (cV0 L) (jV0 L)).devRef cc0_scratch6)).erase ((Proc.scVector (cV0 L) (jV0 L)).devRef cc0_scratch7)

theorem ownBufs_V :
    (ownBufs (V d (cV0 L) (jV0 L)) : sProp 𝕄)
      = iprop((∃ f, sLoc d L cc0_scratch0 ↦{fullShare} f) ∗ (∃ f, sLoc d L cc0_scratch1 ↦{fullShare} f) ∗ (∃ f, sLoc d L cc0_scratch2 ↦{fullShare} f) ∗ (∃ f, sLoc d L cc0_scratch3 ↦{fullShare} f) ∗ (∃ f, sLoc d L cc0_scratch4 ↦{fullShare} f) ∗ (∃ f, sLoc d L cc0_scratch5 ↦{fullShare} f) ∗ (∃ f, sLoc d L cc0_scratch6 ↦{fullShare} f) ∗ (∃ f, sLoc d L cc0_scratch7 ↦{fullShare} f)
          ∗ bigSep (restRefs L) fun b => iprop(∃ f, ((d, b) : Loc nD τ sig) ↦{fullShare} f)) := by
  unfold SparseCore.Cfg.ownBufs
  have hm : ∀ (r : Ref sig .scVector) (l : List (Ref sig .scVector)), r ∈ taskScr → r ∉ l →
      (Proc.scVector (cV0 L) (jV0 L)).devRef r ∈ (l.map (Proc.scVector (cV0 L) (jV0 L)).devRef).foldl Finset.erase (ownRefs (τ := τ) (.scVector (cV0 L) (jV0 L))) := fun r l hr hl =>
    (mem_foldl_erase _ _ _).mpr ⟨SparseCore.Cfg.mem_ownRefs_of_owner (p := Proc.scVector (cV0 L) (jV0 L)) (by
        simp only [taskScr, List.mem_cons, List.not_mem_nil, or_false] at hr
        rcases hr with rfl | rfl | rfl | rfl | rfl | rfl | rfl | rfl <;> rfl),
      fun h => hl (by obtain ⟨r', hr', e⟩ := List.mem_map.mp h; exact Proc.devRef_injective _ e ▸ hr')⟩
  refine (SparseCore.bigSep_erase' (s := (ownRefs (τ := τ) (.scVector (cV0 L) (jV0 L)))) (hm cc0_scratch0 [] (by decide) (by decide))).trans ?_
  rw [SparseCore.bigSep_erase' (s := ((ownRefs (τ := τ) (.scVector (cV0 L) (jV0 L)))).erase ((Proc.scVector (cV0 L) (jV0 L)).devRef cc0_scratch0)) (hm cc0_scratch1 [cc0_scratch0] (by decide) (by decide)),
    SparseCore.bigSep_erase' (s := (((ownRefs (τ := τ) (.scVector (cV0 L) (jV0 L)))).erase ((Proc.scVector (cV0 L) (jV0 L)).devRef cc0_scratch0)).erase ((Proc.scVector (cV0 L) (jV0 L)).devRef cc0_scratch1)) (hm cc0_scratch2 [cc0_scratch0, cc0_scratch1] (by decide) (by decide)),
    SparseCore.bigSep_erase' (s := ((((ownRefs (τ := τ) (.scVector (cV0 L) (jV0 L)))).erase ((Proc.scVector (cV0 L) (jV0 L)).devRef cc0_scratch0)).erase ((Proc.scVector (cV0 L) (jV0 L)).devRef cc0_scratch1)).erase ((Proc.scVector (cV0 L) (jV0 L)).devRef cc0_scratch2)) (hm cc0_scratch3 [cc0_scratch0, cc0_scratch1, cc0_scratch2] (by decide) (by decide)),
    SparseCore.bigSep_erase' (s := (((((ownRefs (τ := τ) (.scVector (cV0 L) (jV0 L)))).erase ((Proc.scVector (cV0 L) (jV0 L)).devRef cc0_scratch0)).erase ((Proc.scVector (cV0 L) (jV0 L)).devRef cc0_scratch1)).erase ((Proc.scVector (cV0 L) (jV0 L)).devRef cc0_scratch2)).erase ((Proc.scVector (cV0 L) (jV0 L)).devRef cc0_scratch3)) (hm cc0_scratch4 [cc0_scratch0, cc0_scratch1, cc0_scratch2, cc0_scratch3] (by decide) (by decide)),
    SparseCore.bigSep_erase' (s := ((((((ownRefs (τ := τ) (.scVector (cV0 L) (jV0 L)))).erase ((Proc.scVector (cV0 L) (jV0 L)).devRef cc0_scratch0)).erase ((Proc.scVector (cV0 L) (jV0 L)).devRef cc0_scratch1)).erase ((Proc.scVector (cV0 L) (jV0 L)).devRef cc0_scratch2)).erase ((Proc.scVector (cV0 L) (jV0 L)).devRef cc0_scratch3)).erase ((Proc.scVector (cV0 L) (jV0 L)).devRef cc0_scratch4)) (hm cc0_scratch5 [cc0_scratch0, cc0_scratch1, cc0_scratch2, cc0_scratch3, cc0_scratch4] (by decide) (by decide)),
    SparseCore.bigSep_erase' (s := (((((((ownRefs (τ := τ) (.scVector (cV0 L) (jV0 L)))).erase ((Proc.scVector (cV0 L) (jV0 L)).devRef cc0_scratch0)).erase ((Proc.scVector (cV0 L) (jV0 L)).devRef cc0_scratch1)).erase ((Proc.scVector (cV0 L) (jV0 L)).devRef cc0_scratch2)).erase ((Proc.scVector (cV0 L) (jV0 L)).devRef cc0_scratch3)).erase ((Proc.scVector (cV0 L) (jV0 L)).devRef cc0_scratch4)).erase ((Proc.scVector (cV0 L) (jV0 L)).devRef cc0_scratch5)) (hm cc0_scratch6 [cc0_scratch0, cc0_scratch1, cc0_scratch2, cc0_scratch3, cc0_scratch4, cc0_scratch5] (by decide) (by decide)),
    SparseCore.bigSep_erase' (s := ((((((((ownRefs (τ := τ) (.scVector (cV0 L) (jV0 L)))).erase ((Proc.scVector (cV0 L) (jV0 L)).devRef cc0_scratch0)).erase ((Proc.scVector (cV0 L) (jV0 L)).devRef cc0_scratch1)).erase ((Proc.scVector (cV0 L) (jV0 L)).devRef cc0_scratch2)).erase ((Proc.scVector (cV0 L) (jV0 L)).devRef cc0_scratch3)).erase ((Proc.scVector (cV0 L) (jV0 L)).devRef cc0_scratch4)).erase ((Proc.scVector (cV0 L) (jV0 L)).devRef cc0_scratch5)).erase ((Proc.scVector (cV0 L) (jV0 L)).devRef cc0_scratch6)) (hm cc0_scratch7 [cc0_scratch0, cc0_scratch1, cc0_scratch2, cc0_scratch3, cc0_scratch4, cc0_scratch5, cc0_scratch6] (by decide) (by decide))]

theorem pts_x (S : Finset (Idx (xLoc d))) (q : PosShare TreeShare) (f : Buf (Elt F) (xLoc d)) :
    ((xV).view.loc (V d (cV0 L) (jV0 L)) ↦[S]{q} f : sProp 𝕄) = xLoc d ↦[S]{q} f := rfl
theorem pts_px (S : Finset (Idx (pxLoc d))) (q : PosShare TreeShare) (f : Buf (Elt F) (pxLoc d)) :
    ((pxV).view.loc (V d (cV0 L) (jV0 L)) ↦[S]{q} f : sProp 𝕄) = pxLoc d ↦[S]{q} f := rfl
theorem pts_py (S : Finset (Idx (pyLoc d))) (q : PosShare TreeShare) (f : Buf (Elt F) (pyLoc d)) :
    ((pyV).view.loc (V d (cV0 L) (jV0 L)) ↦[S]{q} f : sProp 𝕄) = pyLoc d ↦[S]{q} f := rfl
theorem pts_pz (S : Finset (Idx (pzLoc d))) (q : PosShare TreeShare) (f : Buf (Elt F) (pzLoc d)) :
    ((pzV).view.loc (V d (cV0 L) (jV0 L)) ↦[S]{q} f : sProp 𝕄) = pzLoc d ↦[S]{q} f := rfl
theorem pts_src (S : Finset (Idx (srcLoc d))) (q : PosShare TreeShare) (f : Buf (Elt F) (srcLoc d)) :
    ((srcV).view.loc (V d (cV0 L) (jV0 L)) ↦[S]{q} f : sProp 𝕄) = srcLoc d ↦[S]{q} f := rfl
theorem pts_dst (S : Finset (Idx (dstLoc d))) (q : PosShare TreeShare) (f : Buf (Elt F) (dstLoc d)) :
    ((dstV).view.loc (V d (cV0 L) (jV0 L)) ↦[S]{q} f : sProp 𝕄) = dstLoc d ↦[S]{q} f := rfl
theorem pts_xi (S : Finset (Idx (xiLoc d))) (q : PosShare TreeShare) (f : Buf (Elt F) (xiLoc d)) :
    ((xiV).view.loc (V d (cV0 L) (jV0 L)) ↦[S]{q} f : sProp 𝕄) = xiLoc d ↦[S]{q} f := rfl
theorem pts_xj (S : Finset (Idx (xjLoc d))) (q : PosShare TreeShare) (f : Buf (Elt F) (xjLoc d)) :
    ((xjV).view.loc (V d (cV0 L) (jV0 L)) ↦[S]{q} f : sProp 𝕄) = xjLoc d ↦[S]{q} f := rfl
theorem pts_rel (S : Finset (Idx (relLoc d))) (q : PosShare TreeShare) (f : Buf (Elt F) (relLoc d)) :
    ((relV).view.loc (V d (cV0 L) (jV0 L)) ↦[S]{q} f : sProp 𝕄) = relLoc d ↦[S]{q} f := rfl
theorem pts_s0 (f : Buf (Elt F) (sLoc d L cc0_scratch0)) :
    ((iaV).view.loc (V d (cV0 L) (jV0 L)) ↦{fullShare} f : sProp 𝕄) = sLoc d L cc0_scratch0 ↦{fullShare} f := rfl
theorem pts_s1 (f : Buf (Elt F) (sLoc d L cc0_scratch1)) :
    ((ibV).view.loc (V d (cV0 L) (jV0 L)) ↦{fullShare} f : sProp 𝕄) = sLoc d L cc0_scratch1 ↦{fullShare} f := rfl
theorem pts_s2 (f : Buf (Elt F) (sLoc d L cc0_scratch2)) :
    ((raV).view.loc (V d (cV0 L) (jV0 L)) ↦{fullShare} f : sProp 𝕄) = sLoc d L cc0_scratch2 ↦{fullShare} f := rfl
theorem pts_s3 (f : Buf (Elt F) (sLoc d L cc0_scratch3)) :
    ((rbV).view.loc (V d (cV0 L) (jV0 L)) ↦{fullShare} f : sProp 𝕄) = sLoc d L cc0_scratch3 ↦{fullShare} f := rfl
theorem pts_s4 (f : Buf (Elt F) (sLoc d L cc0_scratch4)) :
    ((rvV).view.loc (V d (cV0 L) (jV0 L)) ↦{fullShare} f : sProp 𝕄) = sLoc d L cc0_scratch4 ↦{fullShare} f := rfl
theorem pts_s5 (f : Buf (Elt F) (sLoc d L cc0_scratch5)) :
    ((pxS).view.loc (V d (cV0 L) (jV0 L)) ↦{fullShare} f : sProp 𝕄) = sLoc d L cc0_scratch5 ↦{fullShare} f := rfl
theorem pts_s6 (f : Buf (Elt F) (sLoc d L cc0_scratch6)) :
    ((pyS).view.loc (V d (cV0 L) (jV0 L)) ↦{fullShare} f : sProp 𝕄) = sLoc d L cc0_scratch6 ↦{fullShare} f := rfl
theorem pts_s7 (f : Buf (Elt F) (sLoc d L cc0_scratch7)) :
    ((pzS).view.loc (V d (cV0 L) (jV0 L)) ↦{fullShare} f : sProp 𝕄) = sLoc d L cc0_scratch7 ↦{fullShare} f := rfl

end Own

section Rows

variable (L : grid0.Coords) (k : Fin k0_t1_loop.trips)

theorem trip_lt : k.val < 80 := Nat.lt_of_lt_of_le k.isLt k0_t1_abs.2.1

abbrev srcRect : Rect S32x80x128 := Rect.unit (s := S32x80x128) (k0_off1 L k) S1x1x128.size (k0_off1_inb L k)
abbrev outRect : Rect S327680x128 := Rect.unit (s := S327680x128) (k0_off3 L k) S128x128.size (k0_off3_inb L k)
abbrev relRect : Rect S20480x16 := Rect.unit (s := S20480x16) (k0_off2 L k) S8x16.size (k0_off2_inb L k)

abbrev srcRowK : Memref sig .scVector .hbm S128 .i32 := ((srcV).slice (srcRect L k) (fun _ => rfl)).squeeze S128 squeezes_S1x1x128_S128
abbrev dstRowK : Memref sig .scVector .hbm S128 .i32 := ((dstV).slice (srcRect L k) (fun _ => rfl)).squeeze S128 squeezes_S1x1x128_S128
abbrev xiRowK : Memref sig .scVector .hbm S128x128 .f32 := (xiV).slice (outRect L k) (fun _ => rfl)
abbrev xjRowK : Memref sig .scVector .hbm S128x128 .f32 := (xjV).slice (outRect L k) (fun _ => rfl)
abbrev relRowK : Memref sig .scVector .hbm S8x16 .f32 := (relV).slice (relRect L k) (fun _ => rfl)

theorem set_srcRowK : (srcRowK L k).view.set = (srcRect L k).set := by
  show (((srcV).view.slice (srcRect L k)).reshape S128 squeezes_S1x1x128_S128.numel_eq).set = _
  rw [View.set_reshape]; exact View.set_slice_whole _ _
theorem set_dstRowK : (dstRowK L k).view.set = (srcRect L k).set := by
  show (((dstV).view.slice (srcRect L k)).reshape S128 squeezes_S1x1x128_S128.numel_eq).set = _
  rw [View.set_reshape]; exact View.set_slice_whole _ _
theorem set_xiRowK : (xiRowK L k).view.set = (outRect L k).set := View.set_slice_whole _ _
theorem set_xjRowK : (xjRowK L k).view.set = (outRect L k).set := View.set_slice_whole _ _
theorem set_relRowK : (relRowK L k).view.set = (relRect L k).set := View.set_slice_whole _ _

theorem srcRect_sub : (srcRect L k).set ⊆ (srcBlk L).set := by
  have hk := trip_lt k
  have hw : wid L = 16 * (L 0).val + (L 1).val := rfl
  have h0 := L0_lt L; have h1 := L1_lt L
  intro i hi
  rw [Rect.mem_set_unit] at hi ⊢
  intro a; have h := hi a; rw [k0_off1_eq] at h
  fin_cases a <;> simp at h ⊢ <;> omega
theorem outRect_sub : (outRect L k).set ⊆ (outBlk L).set := by
  have hk := trip_lt k
  have hw : wid L = 16 * (L 0).val + (L 1).val := rfl
  have h0 := L0_lt L; have h1 := L1_lt L
  intro i hi
  rw [Rect.mem_set_unit] at hi ⊢
  intro a; have h := hi a; rw [k0_off3_eq] at h
  fin_cases a <;> simp at h ⊢ <;> omega
theorem relRect_sub : (relRect L k).set ⊆ (relBlk L).set := by
  have hk := trip_lt k
  have hw : wid L = 16 * (L 0).val + (L 1).val := rfl
  have h0 := L0_lt L; have h1 := L1_lt L
  intro i hi
  rw [Rect.mem_set_unit] at hi ⊢
  intro a; have h := hi a; rw [k0_off2_eq] at h
  fin_cases a <;> simp at h ⊢ <;> omega

end Rows

def Kept (P : sProp 𝕄) : sProp 𝕄 := P
theorem kept_eq (P : sProp 𝕄) : Kept P = P := rfl

section Facts

variable (d : Dev nD) (L : grid0.Coords) (k : Fin k0_t1_loop.trips)
variable (fsrc : Buf (Elt F) (srcLoc d)) (fdst : Buf (Elt F) (dstLoc d))

theorem ia_ok (hok : IdxOK d fsrc fdst) (g : (iaV).view.ty.Contents (Elt F)) (pay : S128.Idx → Elt F .i32)
    (hpay : pay = (srcRowK L k).view.read (Elt F) fsrc) :
    ∀ x, ((iaV).view.read (Elt F) (View.write (Elt F) (iaV).view g pay Finset.univ) x).toNat < 10000 := by
  subst hpay; intro x
  rw [View.write_whole_univ]
  simp only [Memref.view_whole, View.read_whole]
  rw [show ∀ j, (srcRowK L k).view.read (Elt F) fsrc j = fsrc ((srcRowK L k).view.emb j) from fun j => (View.read_apply _ _).trans (cast_eq _ _)]
  exact hok.1 _

theorem ib_ok (hok : IdxOK d fsrc fdst) (g : (ibV).view.ty.Contents (Elt F)) (pay : S128.Idx → Elt F .i32)
    (hpay : pay = (dstRowK L k).view.read (Elt F) fdst) :
    ∀ x, ((ibV).view.read (Elt F) (View.write (Elt F) (ibV).view g pay Finset.univ) x).toNat < 10000 := by
  subst hpay; intro x
  rw [View.write_whole_univ]
  simp only [Memref.view_whole, View.read_whole]
  rw [show ∀ j, (dstRowK L k).view.read (Elt F) fdst j = fdst ((dstRowK L k).view.emb j) from fun j => (View.read_apply _ _).trans (cast_eq _ _)]
  exact hok.2 _

theorem chk_ok (m : Memref sig .scVector .vmem S128 .i32) (f : m.view.ty.Contents (Elt F))
    (hf : ∀ x, (m.view.read (Elt F) f x).toNat < 10000) (off : Fin 1 → ℕ) (inb : ∀ a, off a + S16.size a ≤ S128.size a) :
    ∀ a x, ((![m.view.readAt (Elt F) (Rect.unit (s := S128) off S16.size inb).toLoadRect f] : Fin 1 → IVec S16 32) a x).toNat < S10112.size a := by
  intro a x
  obtain rfl : a = 0 := Subsingleton.elim _ _
  show (m.view.readAt (Elt F) (Rect.unit (s := S128) off S16.size inb).toLoadRect f x).toNat < 10112
  rw [View.readAt_apply]; exact Nat.lt_trans (hf _) (by norm_num)

theorem chk3 (m : Memref sig .scVector .vmem S128 .i32) (f : m.view.ty.Contents (Elt F))
    (hf : ∀ x, (m.view.read (Elt F) f x).toNat < 10000) (off : Fin 1 → ℕ) (inb : ∀ a, off a + S16.size a ≤ S128.size a) :
    (∀ a x, ((![m.view.readAt (Elt F) (Rect.unit (s := S128) off S16.size inb).toLoadRect f] : Fin 1 → IVec S16 32) a x).toNat < S10112.size a) ∧
    (∀ a x, ((![m.view.readAt (Elt F) (Rect.unit (s := S128) off S16.size inb).toLoadRect f] : Fin 1 → IVec S16 32) a x).toNat < S10112.size a) ∧
    (∀ a x, ((![m.view.readAt (Elt F) (Rect.unit (s := S128) off S16.size inb).toLoadRect f] : Fin 1 → IVec S16 32) a x).toNat < S10112.size a) :=
  ⟨chk_ok m f hf off inb, chk_ok m f hf off inb, chk_ok m f hf off inb⟩

end Facts

theorem W_ins {W W' : Waits sig (HIx 2)} (sm : SemLoc sig) (h : ∀ p ∈ W', p ∈ W ∨ p.2 = none) :
    ∀ p ∈ insert (sm, (default : HIx 2)) W', p ∈ W ∨ p.2 = none := by
  intro p hp
  rcases Finset.mem_insert.mp hp with hp | hp
  · exact .inr (hp ▸ rfl)
  · exact h p hp

section Body

variable [FloatOps F]
variable (q : PosShare TreeShare) (d : Dev nD) (L : grid0.Coords)
variable (fx : Buf (Elt F) (xLoc d)) (fpx : Buf (Elt F) (pxLoc d)) (fpy : Buf (Elt F) (pyLoc d)) (fpz : Buf (Elt F) (pzLoc d))
variable (fsrc : Buf (Elt F) (srcLoc d)) (fdst : Buf (Elt F) (dstLoc d))

end Body

end Cert.Proof.KB.K0Body

end
-- ==== Proof.KB.K2Body.lean ====
import proofs.«205084_g25537875542483_cont_9to1_419_23_alg».proof.Proof.KB.Common
import Idealize.ShloMosaic.Lib.Transfers
import Idealize.ShloMosaic.Lib.ValueIdx

noncomputable section

namespace Cert.Proof.KB.K2Body

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "mtW" => (Memref.whole main_v44_scv : Memref sig Kind.scVector Space.hbm S16x327680 EltTy.f32)
local notation "dstW" => (Memref.whole main_v20_scv : Memref sig Kind.scVector Space.hbm S327680 EltTy.i32)
local notation "zpkW" => (Memref.whole main_v21_scv : Memref sig Kind.scVector Space.hbm S640x128 EltTy.f32)
local notation "partsW" => (Memref.whole main_v45_scv : Memref sig Kind.scVector Space.hbm S2x16x640x128 EltTy.f32)
local notation "accW" => (Memref.whole cc2_scratch0 : Memref sig Kind.scVector Space.vmem S640x128 EltTy.f32)
local notation "idxW" => (Memref.whole cc2_scratch1 : Memref sig Kind.scVector Space.vmem S1x2048 EltTy.i32)
local notation "rowsW" => (Memref.whole cc2_scratch2 : Memref sig Kind.scVector Space.vmem S8x2048 EltTy.f32)

abbrev mtLoc (d : Dev nD) : Loc nD τ sig := (SparseCore.T d).loc main_v44
abbrev dstLoc (d : Dev nD) : Loc nD τ sig := (SparseCore.T d).loc main_v20
abbrev zpkLoc (d : Dev nD) : Loc nD τ sig := (SparseCore.T d).loc main_v21
abbrev partsLoc (d : Dev nD) : Loc nD τ sig := (SparseCore.T d).loc main_v45

abbrev thr (d : Dev nD) (L : grid2.Coords) : Thread nD τ := V d (cV2 L) (jV2 L)

abbrev partsSl (L : grid2.Coords) : Memref sig .scVector .hbm S640x128 .f32 :=
  ((partsW).slice (Rect.unit (s := S2x16x640x128) (k2_off12 L) S1x1x640x128.size (k2_off12_inb L)) (fun _ => rfl)).squeeze S640x128 squeezes_S1x1x640x128_S640x128
abbrev partsSet (L : grid2.Coords) : Finset S2x16x640x128.Idx := (partsSl L).view.set

def DstOK {d : Dev nD} (fdst : Buf (Elt F) (dstLoc d)) : Prop := ∀ j : S327680.Idx, (fdst j).toNat < 10240

variable [FloatOps F]

def go2 (qm qd qz : PosShare TreeShare) (d : Dev nD) (fmt : Buf (Elt F) (mtLoc d)) (fdst : Buf (Elt F) (dstLoc d)) (fz : Buf (Elt F) (zpkLoc d))
    (L : grid2.Coords) : sProp 𝕄 :=
  iprop((mtLoc d ↦{qm} fmt) ∗ (dstLoc d ↦{qd} fdst) ∗ (zpkLoc d ↦{qz} fz) ∗ ∃ f, partsLoc d ↦[partsSet L]{fullShare} f)

def td2 (qm qd qz : PosShare TreeShare) (d : Dev nD) (fmt : Buf (Elt F) (mtLoc d)) (fdst : Buf (Elt F) (dstLoc d)) (fz : Buf (Elt F) (zpkLoc d))
    (L : grid2.Coords) : sProp 𝕄 :=
  iprop((mtLoc d ↦{qm} fmt) ∗ (dstLoc d ↦{qd} fdst) ∗ (zpkLoc d ↦{qz} fz) ∗ ∃ f, partsLoc d ↦[partsSet L]{fullShare} f)

theorem remsi_toNat (x : BitVec 32) (hx : x.toNat < 10240) : (IntOp.remsi .vector x 640#32).toNat = x.toNat % 640 :=
  IntOp.toNat_remsi _ (by omega) 640 (by decide) (by decide)

theorem divsi_toNat (x : BitVec 32) (hx : x.toNat < 10240) : (IntOp.divsi .vector x 640#32).toNat = x.toNat / 640 := by
  have hm : x.msb = false := BitVec.msb_eq_false_iff_two_mul_lt.mpr (by omega)
  unfold IntOp.divsi
  rw [if_neg (IntOp.not_corner_of_pos (y := 640#32) (by decide)), BitVec.sdiv_eq, hm, show (640#32 : BitVec 32).msb = false by decide]
  show (x / 640#32).toNat = _
  rw [BitVec.toNat_udiv]; rfl

theorem col_toNat (x c : BitVec 32) (hx : x.toNat < 10240) (hc : c.toNat < 8) :
    (IntOp.addi (IntOp.muli (IntOp.divsi .vector x 640#32) 8#32) c).toNat = 8 * (x.toNat / 640) + c.toNat := by
  unfold IntOp.addi IntOp.muli
  rw [BitVec.toNat_add, BitVec.toNat_mul, divsi_toNat x hx]
  have : x.toNat / 640 < 16 := by omega
  simp
  omega

section Tile

variable (d : Dev nD) (L : grid2.Coords)

abbrev c0cell : GSem nD τ sig := (thr d L, .dma cc2_scoped0.sem)
abbrev c1cell : GSem nD τ sig := (thr d L, .dma cc2_scoped1.sem)
abbrev c2cell : GSem nD τ sig := (thr d L, .dma cc2_scoped2.sem)
abbrev c3cell : GSem nD τ sig := (thr d L, .dma cc2_scoped3.sem)

theorem ownSems0_V :
    (ownSems0 (thr d L) : sProp 𝕄)
      = iprop(semVal (c0cell d L) 0 ∗ semVal (c1cell d L) 0 ∗ semVal (c2cell d L) 0 ∗ semVal (c3cell d L) 0
          ∗ bigSep (((((ownCells (thr d L)).erase (c0cell d L)).erase (c1cell d L)).erase (c2cell d L)).erase (c3cell d L))
              fun g => semVal g 0) := by
  unfold SparseCore.Cfg.ownSems0
  have m (s : DmaSem sig) (h : (SemLoc.dma s : SemLoc sig).isScoped .scVector = true) :
      ((thr d L, .dma s) : GSem nD τ sig) ∈ ownCells (thr d L) := mem_ownCells.mpr ⟨rfl, h⟩
  have m0 := m cc2_scoped0.sem (by decide)
  have m1 := m cc2_scoped1.sem (by decide)
  have m2 := m cc2_scoped2.sem (by decide)
  have m3 := m cc2_scoped3.sem (by decide)
  have n10 : c1cell d L ≠ c0cell d L := by simp [c0cell, c1cell]; decide
  have n20 : c2cell d L ≠ c0cell d L := by simp [c0cell, c2cell]; decide
  have n30 : c3cell d L ≠ c0cell d L := by simp [c0cell, c3cell]; decide
  have n21 : c2cell d L ≠ c1cell d L := by simp [c1cell, c2cell]; decide
  have n31 : c3cell d L ≠ c1cell d L := by simp [c1cell, c3cell]; decide
  have n32 : c3cell d L ≠ c2cell d L := by simp [c2cell, c3cell]; decide
  rw [SparseCore.bigSep_erase' m0,
    SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

theorem ownBufs_V :
    (ownBufs (thr d L) : sProp 𝕄)
      = iprop((∃ f, (thr d L).loc cc2_scratch0 ↦{fullShare} f) ∗ (∃ f, (thr d L).loc cc2_scratch1 ↦{fullShare} f)
          ∗ (∃ f, (thr d L).loc cc2_scratch2 ↦{fullShare} f)
          ∗ bigSep ((((ownRefs (τ := τ) (.scVector (cV2 L) (jV2 L))).erase ((Proc.scVector (cV2 L) (jV2 L)).devRef cc2_scratch0)).erase
              ((Proc.scVector (cV2 L) (jV2 L)).devRef cc2_scratch1)).erase ((Proc.scVector (cV2 L) (jV2 L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV2 L) (jV2 L))
    (b := (Proc.scVector (cV2 L) (jV2 L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV2 L) (jV2 L)) (b := (Proc.scVector (cV2 L) (jV2 L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (cV2 L) (jV2 L)) (b := (Proc.scVector (cV2 L) (jV2 L)).devRef cc2_scratch2) rfl⟩⟩)]

theorem pts_mt (q : PosShare TreeShare) (f : Buf (Elt F) (mtLoc d)) :
    ((mtW).view.loc (thr d L) ↦{q} f : sProp 𝕄) = mtLoc d ↦{q} f := rfl
theorem pts_dst (q : PosShare TreeShare) (f : Buf (Elt F) (dstLoc d)) :
    ((dstW).view.loc (thr d L) ↦{q} f : sProp 𝕄) = dstLoc d ↦{q} f := rfl
theorem pts_zpk (q : PosShare TreeShare) (f : Buf (Elt F) (zpkLoc d)) :
    ((zpkW).view.loc (thr d L) ↦{q} f : sProp 𝕄) = zpkLoc d ↦{q} f := rfl
theorem pts_parts (f : Buf (Elt F) (partsLoc d)) :
    ((partsSl L).view.loc (thr d L) ↦[(partsSl L).view.set]{fullShare} f : sProp 𝕄) = partsLoc d ↦[partsSet L]{fullShare} f := rfl
theorem pts_acc (f : Buf (Elt F) ((thr d L).loc cc2_scratch0)) :
    ((accW).view.loc (thr d L) ↦{fullShare} f : sProp 𝕄) = (thr d L).loc cc2_scratch0 ↦{fullShare} f := rfl
theorem pts_idx (f : Buf (Elt F) ((thr d L).loc cc2_scratch1)) :
    ((idxW).view.loc (thr d L) ↦{fullShare} f : sProp 𝕄) = (thr d L).loc cc2_scratch1 ↦{fullShare} f := rfl
theorem pts_rows (f : Buf (Elt F) ((thr d L).loc cc2_scratch2)) :
    ((rowsW).view.loc (thr d L) ↦{fullShare} f : sProp 𝕄) = (thr d L).loc cc2_scratch2 ↦{fullShare} f := rfl

theorem pts_acc_whole (f : Buf (Elt F) ((thr d L).loc cc2_scratch0)) :
    ((((accW).access (.whole S640x128)).loc (thr d L) ↦[((accW).access (.whole S640x128)).set]{fullShare} f : sProp 𝕄))
      = ((accW).view.loc (thr d L) ↦{fullShare} f) := by
  rw [show ((accW).access (.whole S640x128)).set = Finset.univ from Memref.set_access_whole (cc2_scratch0 : Ref sig .scVector)]

abbrev idxSq : Memref sig .scVector .vmem S2048 .i32 :=
  ((idxW).slice (Rect.unit (s := S1x2048) ![0, 0] S1x2048.size inb_S1x2048_S1x2048_0_0) (fun _ => rfl)).squeeze S2048 squeezes_S1x2048_S2048

def IdxOK (fi : Buf (Elt F) ((thr d L).loc cc2_scratch1)) : Prop := ∀ j : S1x2048.Idx, (fi j).toNat < 10240

theorem idxSq_set : (idxSq).view.set = Finset.univ := by
  apply Finset.eq_univ_of_card
  rw [View.card_set]; rfl

abbrev ld (fi : Buf (Elt F) ((thr d L).loc cc2_scratch1)) (t : Fin k2_t2_loop.trips) : Vec F S1x16 .i32 :=
  (idxW).view.readAt (Elt F) (Rect.unit (s := S1x2048) (k2_off3 t) S1x16.size (k2_off3_inb t)).toLoadRect fi

-- a word below 10240 names a row below 640 and, with a message row below eight, a column below 128
theorem chk_ok (fi : Buf (Elt F) ((thr d L).loc cc2_scratch1)) (hfi : IdxOK d L fi) (t : Fin k2_t2_loop.trips) (c : BitVec 32) (hc : c.toNat < 8) :
    ∀ a x, ((![k2_pay2 (ld d L fi t), addi (k2_pay3 (ld d L fi t)) (broadcast S16 c)] : Fin 2 → IVec S16 32) a x).toNat < S640x128.size a := by
  intro a x
  have hb : (k2_pay1 (ld d L fi t) x).toNat < 10240 := hfi _
  fin_cases a
  · show (IntOp.remsi .vector (k2_pay1 (ld d L fi t) x) 640#32).toNat < 640
    rw [remsi_toNat _ hb]; exact Nat.mod_lt _ (by decide)
  · show (IntOp.addi (IntOp.muli (IntOp.divsi .vector (k2_pay1 (ld d L fi t) x) 640#32) 8#32) c).toNat < 128
    rw [col_toNat _ _ hb hc]; omega

-- writing every element makes the earlier contents irrelevant
theorem write_univ_congr {κ : Kind} {sp : Space} {s : Shape} {e : EltTy} (v : View sig κ sp s e) (hset : v.set = Finset.univ)
    (f g : v.ty.Contents (Elt F)) (w : s.Idx → Elt F e) :
    v.write (Elt F) f w Finset.univ = v.write (Elt F) g w Finset.univ := by
  funext i
  obtain ⟨x, -, rfl⟩ := Finset.mem_map.mp (hset ▸ Finset.mem_univ i : i ∈ v.set)
  rw [View.write_emb_of_mem _ _ (Finset.mem_univ x), View.write_emb_of_mem _ _ (Finset.mem_univ x)]

abbrev dstSl (k : Fin k2_t1_loop.trips) : Memref sig .scVector .hbm S2048 .i32 :=
  (dstW).slice (Rect.unit (s := S327680) (k2_off1 L k) S2048.size (k2_off1_inb L k)) (fun _ => rfl)
abbrev mtSl (k : Fin k2_t1_loop.trips) : Memref sig .scVector .hbm S8x2048 .f32 :=
  (mtW).slice (Rect.unit (s := S16x327680) (k2_off2 L k) S8x2048.size (k2_off2_inb L k)) (fun _ => rfl)

def Ik (fdst : Buf (Elt F) (dstLoc d)) (k : Fin k2_t1_loop.trips) : Buf (Elt F) ((thr d L).loc cc2_scratch1) :=
  View.write (Elt F) (idxSq).view (fun _ => (0#32 : BitVec 32)) ((dstSl L k).view.read (Elt F) fdst) Finset.univ

theorem Ik_emb (fdst : Buf (Elt F) (dstLoc d)) (k : Fin k2_t1_loop.trips) (x : S2048.Idx) :
    Ik d L fdst k ((idxSq).view.emb x) = (dstSl L k).view.read (Elt F) fdst x := by
  unfold Ik
  rw [View.write_emb_of_mem _ _ (Finset.mem_univ x)]; rfl

-- the written words cover the whole buffer, so each of its words is one of the chunk's destination words
theorem Ik_ok (fdst : Buf (Elt F) (dstLoc d)) (hok : DstOK fdst) (k : Fin k2_t1_loop.trips) : IdxOK d L (Ik d L fdst k) := fun j => by
  obtain ⟨x, -, rfl⟩ := Finset.mem_map.mp (idxSq_set ▸ Finset.mem_univ j : j ∈ (idxSq).view.set)
  rw [Ik_emb]; exact hok _

def Rk (fmt : Buf (Elt F) (mtLoc d)) (k : Fin k2_t1_loop.trips) : Buf (Elt F) ((thr d L).loc cc2_scratch2) :=
  (mtSl L k).view.read (Elt F) fmt

def st1 (f : Buf (Elt F) ((thr d L).loc cc2_scratch0)) (iv jv : IVec S16 32) (v : Vec F S16 .f32)
    (h : ∀ a x, ((![iv, jv] : Fin 2 → IVec S16 32) a x).toNat < S640x128.size a) : Buf (Elt F) ((thr d L).loc cc2_scratch0) :=
  ((accW).access (.whole S640x128)).write (Elt F) f
    (storeIdx (((accW).access (.whole S640x128)).read (Elt F) f) ![iv, jv] v (fun _ => 1#1) true h) Finset.univ

theorem acc_store (f : Buf (Elt F) ((thr d L).loc cc2_scratch0)) (iv jv : IVec S16 32) (v : Vec F S16 .f32)
    (h : ∀ a x, ((![iv, jv] : Fin 2 → IVec S16 32) a x).toNat < S640x128.size a) :
    ((((accW).access (.whole S640x128)).loc (thr d L) ↦[((accW).access (.whole S640x128)).set]{fullShare}
        (((accW).access (.whole S640x128)).write (Elt F) f
          (storeIdx (((accW).access (.whole S640x128)).read (Elt F) f) ![iv, jv] v (fun _ => 1#1) true h) Finset.univ) : sProp 𝕄))
      = ((accW).view.loc (thr d L) ↦{fullShare} st1 d L f iv jv v h) := pts_acc_whole d L _

theorem st1_eq (f : Buf (Elt F) ((thr d L).loc cc2_scratch0)) (iv jv : IVec S16 32) (v : Vec F S16 .f32)
    (h : ∀ a x, ((![iv, jv] : Fin 2 → IVec S16 32) a x).toNat < S640x128.size a) :
    st1 d L f iv jv v h = storeIdx f ![iv, jv] v (fun _ => 1#1) true h := by
  unfold st1
  have hr : ((accW).access (.whole S640x128)).read (Elt F) f = f :=
    Memref.read_access_whole (Elt F) (cc2_scratch0 : Ref sig .scVector) f
  rw [hr]
  exact Memref.write_access_whole_univ (Elt F) (cc2_scratch0 : Ref sig .scVector) f _

abbrev rowLd (fr : Buf (Elt F) ((thr d L).loc cc2_scratch2)) (off : Fin 2 → Nat) (inb : ∀ a, off a + S1x16.size a ≤ S8x2048.size a) : Vec F S1x16 .f32 :=
  (rowsW).view.readAt (Elt F) (Rect.unit (s := S8x2048) off S1x16.size inb).toLoadRect fr

-- a step applied trip by trip, for as many trips as the loop has
def iter {α : Type} (n : Nat) (g : Fin n → α → α) (a : α) : Nat → α
  | 0 => a
  | k + 1 => if h : k < n then g ⟨k, h⟩ (iter n g a k) else iter n g a k

theorem iter_succ {α : Type} {n : Nat} (g : Fin n → α → α) (a : α) (k : Fin n) : iter n g a (k.val + 1) = g k (iter n g a k.val) := by
  show (if h : k.val < n then g ⟨k.val, h⟩ (iter n g a k.val) else iter n g a k.val) = _
  rw [dif_pos k.isLt]

section Chunk

variable (fi : Buf (Elt F) ((thr d L).loc cc2_scratch1)) (hfi : IdxOK d L fi) (fr : Buf (Elt F) ((thr d L).loc cc2_scratch2))

def T (t : Fin k2_t2_loop.trips) (f : Buf (Elt F) ((thr d L).loc cc2_scratch0)) : Buf (Elt F) ((thr d L).loc cc2_scratch0) :=
  let f1 := st1 d L f (k2_pay2 (ld d L fi t)) (k2_pay5 (ld d L fi t)) (k2_pay4 (rowLd d L fr (k2_off4 t) (k2_off4_inb t))) (chk_ok d L fi hfi t 0#32 (by decide))
  let f2 := st1 d L f1 (k2_pay2 (ld d L fi t)) (k2_pay7 (ld d L fi t)) (k2_pay6 (rowLd d L fr (k2_off5 t) (k2_off5_inb t))) (chk_ok d L fi hfi t 1#32 (by decide))
  let f3 := st1 d L f2 (k2_pay2 (ld d L fi t)) (k2_pay9 (ld d L fi t)) (k2_pay8 (rowLd d L fr (k2_off6 t) (k2_off6_inb t))) (chk_ok d L fi hfi t 2#32 (by decide))
  let f4 := st1 d L f3 (k2_pay2 (ld d L fi t)) (k2_pay11 (k2_pay3 (ld d L fi t))) (k2_pay10 (rowLd d L fr (k2_off7 t) (k2_off7_inb t))) (chk_ok d L fi hfi t 3#32 (by decide))
  let f5 := st1 d L f4 (k2_pay2 (ld d L fi t)) (k2_pay13 (k2_pay3 (ld d L fi t))) (k2_pay12 (rowLd d L fr (k2_off8 t) (k2_off8_inb t))) (chk_ok d L fi hfi t 4#32 (by decide))
  let f6 := st1 d L f5 (k2_pay2 (ld d L fi t)) (k2_pay15 (k2_pay3 (ld d L fi t))) (k2_pay14 (rowLd d L fr (k2_off9 t) (k2_off9_inb t))) (chk_ok d L fi hfi t 5#32 (by decide))
  let f7 := st1 d L f6 (k2_pay2 (ld d L fi t)) (k2_pay17 (k2_pay3 (ld d L fi t))) (k2_pay16 (rowLd d L fr (k2_off10 t) (k2_off10_inb t))) (chk_ok d L fi hfi t 6#32 (by decide))
  st1 d L f7 (k2_pay2 (ld d L fi t)) (k2_pay19 (k2_pay3 (ld d L fi t))) (k2_pay18 (rowLd d L fr (k2_off11 t) (k2_off11_inb t))) (chk_ok d L fi hfi t 7#32 (by decide))

def B (f₀ : Buf (Elt F) ((thr d L).loc cc2_scratch0)) : Nat → Buf (Elt F) ((thr d L).loc cc2_scratch0) :=
  iter k2_t2_loop.trips (T d L fi hfi fr) f₀

theorem B_succ (f₀ : Buf (Elt F) ((thr d L).loc cc2_scratch0)) (t : Fin k2_t2_loop.trips) :
    B d L fi hfi fr f₀ (t.val + 1) = T d L fi hfi fr t (B d L fi hfi fr f₀ t.val) := iter_succ _ _ t

theorem B_zero (f₀ : Buf (Elt F) ((thr d L).loc cc2_scratch0)) : B d L fi hfi fr f₀ 0 = f₀ := rfl

attribute [irreducible] B

def inv2v (f₀ : Buf (Elt F) ((thr d L).loc cc2_scratch0)) (t : Nat) (_ : Unit) : sProp 𝕄 :=
  iprop(((accW).view.loc (thr d L) ↦{fullShare} B d L fi hfi fr f₀ t)
    ∗ ((idxW).view.loc (thr d L) ↦{fullShare} fi)
    ∗ ((rowsW).view.loc (thr d L) ↦{fullShare} fr))

end Chunk

section Task

variable (fmt : Buf (Elt F) (mtLoc d)) (fdst : Buf (Elt F) (dstLoc d)) (fz : Buf (Elt F) (zpkLoc d)) (hok : DstOK fdst)

def A : Nat → Buf (Elt F) ((thr d L).loc cc2_scratch0) :=
  iter k2_t1_loop.trips (fun k f => B d L (Ik d L fdst k) (Ik_ok d L fdst hok k) (Rk d L fmt k) f k2_t2_loop.trips) ((zpkW).view.read (Elt F) fz)

theorem A_succ (k : Fin k2_t1_loop.trips) :
    A d L fmt fdst fz hok (k.val + 1)
      = B d L (Ik d L fdst k) (Ik_ok d L fdst hok k) (Rk d L fmt k) (A d L fmt fdst fz hok k.val) k2_t2_loop.trips := iter_succ _ _ k

theorem A_zero : A d L fmt fdst fz hok 0 = (zpkW).view.read (Elt F) fz := rfl

attribute [irreducible] A

def out2 : S640x128.Idx → Elt F .f32 :=
  (accW).view.read (Elt F) (A d L fmt fdst fz hok k2_t1_loop.trips)

end Task

def inv1v (qm qd : PosShare TreeShare) (fmt : Buf (Elt F) (mtLoc d)) (fdst : Buf (Elt F) (dstLoc d)) (fz : Buf (Elt F) (zpkLoc d)) (hok : DstOK fdst)
    (O : CellTallies nD τ sig (HIx 2)) (W : Waits sig (HIx 2)) (k : Nat) (_ : Unit) : sProp 𝕄 :=
  iprop(Transfers.MayWaits (thr d L) (none : HIx 2) O
    ∗ ((mtW).view.loc (thr d L) ↦{qm} fmt)
    ∗ ((dstW).view.loc (thr d L) ↦{qd} fdst)
    ∗ ((accW).view.loc (thr d L) ↦{fullShare} A d L fmt fdst fz hok k)
    ∗ (∃ f, (idxW).view.loc (thr d L) ↦{fullShare} f)
    ∗ (∃ f, (rowsW).view.loc (thr d L) ↦{fullShare} f)
    ∗ semVal (c1cell d L) 0 ∗ semVal (c2cell d L) 0
    ∗ ∃ W', ⌜∀ p ∈ W', p ∈ W ∨ p.2 = none⌝ ∗ owes (thr d L) O W')

def td2v (qm qd qz : PosShare TreeShare) (fmt : Buf (Elt F) (mtLoc d)) (fdst : Buf (Elt F) (dstLoc d)) (fz : Buf (Elt F) (zpkLoc d)) (hok : DstOK fdst) : sProp 𝕄 :=
  iprop((mtLoc d ↦{qm} fmt) ∗ (dstLoc d ↦{qd} fdst) ∗ (zpkLoc d ↦{qz} fz)
    ∗ ∃ f, (partsLoc d ↦[partsSet L]{fullShare} f) ∗ ⌜(partsSl L).view.read (Elt F) f = out2 d L fmt fdst fz hok⌝)

theorem td2v_td2 (qm qd qz : PosShare TreeShare) (fmt : Buf (Elt F) (mtLoc d)) (fdst : Buf (Elt F) (dstLoc d)) (fz : Buf (Elt F) (zpkLoc d)) (hok : DstOK fdst) :
    td2v d L qm qd qz fmt fdst fz hok ⊢ td2 qm qd qz d fmt fdst fz L := by
  unfold td2v td2
  iintro ⟨Hm, Hd, Hz, %f, Hp, -⟩
  isplitl [Hm]; · iexact Hm
  isplitl [Hd]; · iexact Hd
  isplitl [Hz]; · iexact Hz
  iexists f; iexact Hp

theorem body2v (qm qd qz : PosShare TreeShare) (fmt : Buf (Elt F) (mtLoc d)) (fdst : Buf (Elt F) (dstLoc d)) (fz : Buf (Elt F) (zpkLoc d))
    (O : CellTallies nD τ sig (HIx 2)) (W : Waits sig (HIx 2)) (hO : ∀ g, O g none = 0) (hok : DstOK fdst) :
    iprop(levAts (K (F := F)).L (K (F := F)).lev ∗ emp ∗ go2 qm qd qz d fmt fdst fz L
        ∗ scopedBufs (thr d L) ∗ scopedSems0 (thr d L) ∗ owes (thr d L) O W)
      ⊢ wp frame (wpE (defs₀ (F := F)) 𝒱₀ (thr d L) none) Set.univ
          (cc2_k L mtW (Memref.isWhole_whole _) dstW (Memref.isWhole_whole _) zpkW (Memref.isWhole_whole _) partsW (Memref.isWhole_whole _)
            accW (Memref.isWhole_whole _) idxW (Memref.isWhole_whole _) rowsW (Memref.isWhole_whole _) cc2_scoped0 cc2_scoped1 cc2_scoped2 cc2_scoped3)
          fun _ => iprop(td2v d L qm qd qz fmt fdst fz hok ∗ scopedBufs (thr d L) ∗ scopedSems0 (thr d L)
            ∗ ∃ W', ⌜∀ p ∈ W', p ∈ W ∨ p.2 = none⌝ ∗ owes (thr d L) O W') := by
  simp only [cc2_k_eq_skeleton]; unfold cc2_k_skel
  rw [(K (F := F)).scopedBufs_V facts d (cV2 L) (jV2 L), SparseCore.Cfg.scopedSems0_V (Val := Elt F) d (cV2 L) (jV2 L), ownSems0_V, ownBufs_V]
  unfold go2 td2v out2
  iintro ⟨#Hlv, -, ⟨Hmt, Hdst, Hz, %fp, Hp⟩, ⟨⟨%fa, Ha⟩, ⟨%fi, Hi⟩, ⟨%fr, Hr⟩, Hbufs⟩, ⟨Hs0, Hs1, Hs2, Hs3, Hsems⟩, HO⟩
  ihave Hmw := ((K (F := F)).mayWaits_none (thr := thr d L) hO) $$ Hlv
  ihave Hmt' := (Entails.of_eq (pts_mt (F := F) d L _ _).symm) $$ Hmt
  ihave Hdst' := (Entails.of_eq (pts_dst (F := F) d L _ _).symm) $$ Hdst
  ihave Hz' := (Entails.of_eq (pts_zpk (F := F) d L _ _).symm) $$ Hz
  ihave Hp' := (Entails.of_eq (pts_parts (F := F) d L _).symm) $$ Hp
  ihave Ha' := (Entails.of_eq (pts_acc (F := F) d L _).symm) $$ Ha
  ihave Hi' := (Entails.of_eq (pts_idx (F := F) d L _).symm) $$ Hi
  ihave Hr' := (Entails.of_eq (pts_rows (F := F) d L _).symm) $$ Hr
  sl_exec
  have eA : View.write (Elt F) (accW).view fa (body2v.sl.dma0 d fz) Finset.univ = A d L fmt fdst fz hok 0 :=
    (View.write_whole_univ _ _ _).trans (A_zero d L fmt fdst fz hok).symm
  rw [eA]
  sl_for (inv1v d L qm qd fmt fdst fz hok O W) $$ [Hmw Hmt' Hdst' Ha' Hi' Hr' Hs1 Hs2 HO]
  case region =>
    intro k _
    unfold inv1v
    iintro ⟨#Hmw, Hmt, Hdst, Ha, ⟨%fi, Hi⟩, ⟨%fr, Hr⟩, Hs1, Hs2, %W', %hW', HO⟩
    sl_exec
    have eI : View.write (Elt F) (idxSq).view fi (body2v.sl.dma0_1 d L fdst k) Finset.univ = Ik d L fdst k :=
      write_univ_congr (idxSq).view idxSq_set fi _ _
    have eR : View.write (Elt F) (rowsW).view fr (body2v.sl.dma0_2 d L fmt k) Finset.univ = Rk d L fmt k := View.write_whole_univ _ _ _
    rw [eI, eR]
    sl_for (inv2v d L (Ik d L fdst k) (Ik_ok d L fdst hok k) (Rk d L fmt k) (A d L fmt fdst fz hok k.val)) $$ [Ha Hi Hr]
    case region =>
      intro t _
      unfold inv2v
      iintro ⟨Ha, Hi, Hr⟩
      iterate 8
        sl_exec (disch := exact chk_ok d L _ (Ik_ok d L fdst hok k) t _ (by decide))
        ihave Ha := (Entails.of_eq (pts_acc_whole d L _).symm) $$ Ha
        iapply (SparseCore.wp_vectorStoreIdx 𝒱₀ (thr d L) none Set.univ (base := accW)) $$ Ha
        iintro Ha
        ihave Ha := (Entails.of_eq (acc_store d L _ _ _ _ _)) $$ Ha
      sl_exec
      sl_step
      rw [B_succ]
      isplitl [Ha]; · iexact Ha
      isplitl [Hi]; · iexact Hi
      iexact Hr
    · unfold inv2v
      rw [B_zero]
      isplitl [Ha]; · iexact Ha
      isplitl [Hi]; · iexact Hi
      iexact Hr
    iintro %_ HI
    unfold inv2v
    icases HI with ⟨Ha, Hi, Hr⟩
    sl_exec
    sl_step
    rw [A_succ]
    isplitr; · iexact Hmw
    isplitl [Hmt]; · iexact Hmt
    isplitl [Hdst]; · iexact Hdst
    isplitl [Ha]; · iexact Ha
    isplitl [Hi]; · iexists _; iexact Hi
    isplitl [Hr]; · iexists _; iexact Hr
    isplitl [Hs1]; · iexact Hs1
    isplitl [Hs2]; · iexact Hs2
    iexists (insert (SemLoc.dma cc2_scoped2.sem, (default : HIx 2)) (insert (SemLoc.dma cc2_scoped1.sem, (default : HIx 2)) (W'))); isplitr
    · ipureintro; intro p hp
      rcases Finset.mem_insert.mp hp with rfl | hp
      · exact .inr rfl
      rcases Finset.mem_insert.mp hp with rfl | hp
      · exact .inr rfl
      exact hW' p hp
    · iexact HO
  · unfold inv1v
    isplitr; · iexact Hmw
    isplitl [Hmt']; · iexact Hmt'
    isplitl [Hdst']; · iexact Hdst'
    isplitl [Ha']; · iexact Ha'
    isplitl [Hi']; · iexists _; iexact Hi'
    isplitl [Hr']; · iexists _; iexact Hr'
    isplitl [Hs1]; · iexact Hs1
    isplitl [Hs2]; · iexact Hs2
    iexists (insert (SemLoc.dma cc2_scoped0.sem, (default : HIx 2)) (W)); isplitr
    · ipureintro; intro p hp
      rcases Finset.mem_insert.mp hp with rfl | hp
      · exact .inr rfl
      exact .inl hp
    · iexact HO
  iintro %_ HI
  unfold inv1v
  icases HI with ⟨-, Hmt, Hdst, Ha, ⟨%fi3, Hi⟩, ⟨%fr3, Hr⟩, Hs1, Hs2, %W', %hW', HO⟩
  generalize A d L fmt fdst fz hok k2_t1_loop.trips = Af
  sl_exec
  sl_step
  isplitl [Hmt Hdst Hz' Hp']
  · isplitl [Hmt]; · iapply (Entails.of_eq (pts_mt (F := F) d L _ _)); iexact Hmt
    isplitl [Hdst]; · iapply (Entails.of_eq (pts_dst (F := F) d L _ _)); iexact Hdst
    isplitl [Hz']; · iapply (Entails.of_eq (pts_zpk (F := F) d L _ _)); iexact Hz'
    iexists _; isplitl [Hp']
    · iapply (Entails.of_eq (pts_parts (F := F) d L _)); iexact Hp'
    · ipureintro; exact View.read_writes_whole _ _ _
  isplitl [Ha Hi Hr Hbufs]
  · isplitl [Ha]; · iexists _; iexact Ha
    isplitl [Hi]; · iexists _; iexact Hi
    isplitl [Hr]; · iexists _; iexact Hr
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists (insert (SemLoc.dma cc2_scoped3.sem, (default : HIx 2)) (W')); isplitr
  · ipureintro; intro p hp
    rcases Finset.mem_insert.mp hp with rfl | hp
    · exact .inr rfl
    exact hW' p hp
  · iexact HO

theorem body2 (qm qd qz : PosShare TreeShare) (fmt : Buf (Elt F) (mtLoc d)) (fdst : Buf (Elt F) (dstLoc d)) (fz : Buf (Elt F) (zpkLoc d))
    (O : CellTallies nD τ sig (HIx 2)) (W : Waits sig (HIx 2)) (hO : ∀ g, O g none = 0) (hok : DstOK fdst) :
    iprop(levAts (K (F := F)).L (K (F := F)).lev ∗ emp ∗ go2 qm qd qz d fmt fdst fz L
        ∗ scopedBufs (thr d L) ∗ scopedSems0 (thr d L) ∗ owes (thr d L) O W)
      ⊢ wp frame (wpE (defs₀ (F := F)) 𝒱₀ (thr d L) none) Set.univ
          (cc2_k L mtW (Memref.isWhole_whole _) dstW (Memref.isWhole_whole _) zpkW (Memref.isWhole_whole _) partsW (Memref.isWhole_whole _)
            accW (Memref.isWhole_whole _) idxW (Memref.isWhole_whole _) rowsW (Memref.isWhole_whole _) cc2_scoped0 cc2_scoped1 cc2_scoped2 cc2_scoped3)
          fun _ => iprop(td2 qm qd qz d fmt fdst fz L ∗ scopedBufs (thr d L) ∗ scopedSems0 (thr d L)
            ∗ ∃ W', ⌜∀ p ∈ W', p ∈ W ∨ p.2 = none⌝ ∗ owes (thr d L) O W') :=
  (body2v d L qm qd qz fmt fdst fz O W hO hok).trans (wp_mono frame _ _ fun _ => by
    iintro ⟨Ht, Hrest⟩
    isplitl [Ht]
    · iapply (td2v_td2 d L qm qd qz fmt fdst fz hok); iexact Ht
    · iexact Hrest)

end Tile

theorem k2_off12_closed : ∀ L : grid2.Coords,
    k2_off12 L = ![(16 * (L 0).val + (L 1).val) % 2, (16 * (L 0).val + (L 1).val) / 2, 0, 0] := by decide +kernel

theorem partsSet_eq (L : grid2.Coords) :
    partsSet L = (Rect.unit (s := S2x16x640x128) (k2_off12 L) S1x1x640x128.size (k2_off12_inb L)).set := by
  show (((View.whole (main_v45_scv : Ref sig .scVector)).slice (Rect.unit (s := S2x16x640x128) (k2_off12 L) S1x1x640x128.size (k2_off12_inb L))).reshape
      S640x128 squeezes_S1x1x640x128_S640x128.numel_eq).set = _
  rw [View.set_reshape, View.set_slice]; exact Finset.map_refl

theorem partsSet_disjoint : ∀ L L' : grid2.Coords, L ≠ L' → Disjoint (partsSet L) (partsSet L') := by
  intro L L' hne
  rw [partsSet_eq, partsSet_eq]
  have hc : (L 0).val < 2 := (L 0).isLt
  have hc' : (L' 0).val < 2 := (L' 0).isLt
  have hs : (L 1).val < 16 := (L 1).isLt
  have hs' : (L' 1).val < 16 := (L' 1).isLt
  have hw : 16 * (L 0).val + (L 1).val ≠ 16 * (L' 0).val + (L' 1).val := by
    intro e
    apply hne
    funext a
    fin_cases a
    · exact Fin.ext (by show (L 0).val = (L' 0).val; omega)
    · exact Fin.ext (by show (L 1).val = (L' 1).val; omega)
  by_cases h0 : (16 * (L 0).val + (L 1).val) % 2 = (16 * (L' 0).val + (L' 1).val) % 2
  · refine Rect.unit_disjoint 1 ?_
    rw [k2_off12_closed L, k2_off12_closed L']
    show (16 * (L 0).val + (L 1).val) / 2 + 1 ≤ (16 * (L' 0).val + (L' 1).val) / 2 ∨ (16 * (L' 0).val + (L' 1).val) / 2 + 1 ≤ (16 * (L 0).val + (L 1).val) / 2
    omega
  · refine Rect.unit_disjoint 0 ?_
    rw [k2_off12_closed L, k2_off12_closed L']
    show (16 * (L 0).val + (L 1).val) % 2 + 1 ≤ (16 * (L' 0).val + (L' 1).val) % 2 ∨ (16 * (L' 0).val + (L' 1).val) % 2 + 1 ≤ (16 * (L 0).val + (L 1).val) % 2
    omega

theorem partsSet_cover : (Finset.univ : Finset grid2.Coords).biUnion partsSet = Finset.univ := by
  apply Finset.eq_univ_of_forall
  intro i
  have h0 : (i 0).val < 2 := (i 0).isLt
  have h1 : (i 1).val < 16 := (i 1).isLt
  let wid := 2 * (i 1).val + (i 0).val
  let L : grid2.Coords := fun
    | 0 => ⟨wid / 16, by show (2 * (i 1).val + (i 0).val) / 16 < 2; omega⟩
    | 1 => ⟨wid % 16, by show (2 * (i 1).val + (i 0).val) % 16 < 16; omega⟩
    | ⟨_ + 2, h⟩ => absurd h (Nat.not_lt.2 (Nat.le_add_left _ _))
  refine Finset.mem_biUnion.mpr ⟨L, Finset.mem_univ _, ?_⟩
  rw [partsSet_eq, Rect.mem_set_unit, k2_off12_closed L]
  have e0 : (16 * (L 0).val + (L 1).val) % 2 = (i 0).val := by
    show (16 * ((2 * (i 1).val + (i 0).val) / 16) + (2 * (i 1).val + (i 0).val) % 16) % 2 = (i 0).val; omega
  have e1 : (16 * (L 0).val + (L 1).val) / 2 = (i 1).val := by
    show (16 * ((2 * (i 1).val + (i 0).val) / 16) + (2 * (i 1).val + (i 0).val) % 16) / 2 = (i 1).val; omega
  intro a
  fin_cases a
  · show (16 * (L 0).val + (L 1).val) % 2 ≤ (i 0).val ∧ (i 0).val < (16 * (L 0).val + (L 1).val) % 2 + 1
    omega
  · show (16 * (L 0).val + (L 1).val) / 2 ≤ (i 1).val ∧ (i 1).val < (16 * (L 0).val + (L 1).val) / 2 + 1
    omega
  · show 0 ≤ (i 2).val ∧ (i 2).val < 0 + 640
    exact ⟨Nat.zero_le _, by simpa using (i 2).isLt⟩
  · show 0 ≤ (i 3).val ∧ (i 3).val < 0 + 128
    exact ⟨Nat.zero_le _, by simpa using (i 3).isLt⟩

theorem k2_off1_closed : ∀ (L : grid2.Coords) (k : Fin k2_t1_loop.trips),
    k2_off1 L k = ![20480 * ((16 * (L 0).val + (L 1).val) / 2) + 2048 * k.val] := by decide +kernel

theorem k2_off2_closed : ∀ (L : grid2.Coords) (k : Fin k2_t1_loop.trips),
    k2_off2 L k = ![8 * ((16 * (L 0).val + (L 1).val) % 2), 20480 * ((16 * (L 0).val + (L 1).val) / 2) + 2048 * k.val] := by decide +kernel

section At

open Idealize.ShloMosaic.ValueIdx

variable (d : Dev nD) (L : grid2.Coords)

theorem idxSq_emb (x : Fin 2048) : (idxSq).view.emb (ix1 x) = ix2 (0 : Fin 1) x := by
  have h1 : Shape.reshapeEquiv (squeezes_S1x2048_S2048.numel_eq) (ix1 x) = ix2 (0 : Fin 1) x :=
    Shape.reshapeEquiv_eq_of_rowMajor _ (by rw [Shape.rowMajor_val_two, Shape.rowMajor_val_one]; simp)
  show (Rect.unit (s := S1x2048) ![0, 0] S1x2048.size inb_S1x2048_S1x2048_0_0).emb (Shape.reshapeEquiv _ (ix1 x)) = _
  rw [h1]
  funext a; apply Fin.ext
  rw [Rect.emb_apply]
  match a with
  | ⟨0, _⟩ => simp
  | ⟨1, _⟩ => simp

theorem chunk_lt (k : Fin k2_t1_loop.trips) (j : Fin 2048) :
    20480 * ((16 * (L 0).val + (L 1).val) / 2) + 2048 * k.val + j.val < 327680 := by
  have hc : (L 0).val < 2 := (L 0).isLt
  have hs : (L 1).val < 16 := (L 1).isLt
  have hk : k.val < 10 := Nat.lt_of_lt_of_le k.isLt k2_t1_abs.2.1
  omega

theorem row_lt (c : Fin 8) : 8 * ((16 * (L 0).val + (L 1).val) % 2) + c.val < 16 := by omega

theorem Ik_at (fdst : Buf (Elt F) (dstLoc d)) (k : Fin k2_t1_loop.trips) (j : Fin 2048) :
    Ik d L fdst k (ix2 (0 : Fin 1) j) = fdst (ix1 ⟨20480 * ((16 * (L 0).val + (L 1).val) / 2) + 2048 * k.val + j.val, chunk_lt L k j⟩) := by
  rw [← idxSq_emb, Ik_emb]
  show fdst ((Rect.unit (s := S327680) (k2_off1 L k) S2048.size (k2_off1_inb L k)).emb (ix1 j)) = _
  congr 1
  funext a; apply Fin.ext
  rw [Rect.emb_apply]
  match a with
  | ⟨0, _⟩ =>
    show k2_off1 L k 0 + 1 * j.val = 20480 * ((16 * (L 0).val + (L 1).val) / 2) + 2048 * k.val + j.val
    rw [k2_off1_closed L k]; simp

theorem Rk_at (fmt : Buf (Elt F) (mtLoc d)) (k : Fin k2_t1_loop.trips) (c : Fin 8) (j : Fin 2048) :
    Rk d L fmt k (ix2 c j) = fmt (ix2 ⟨8 * ((16 * (L 0).val + (L 1).val) % 2) + c.val, row_lt L c⟩
      ⟨20480 * ((16 * (L 0).val + (L 1).val) / 2) + 2048 * k.val + j.val, chunk_lt L k j⟩) := by
  show fmt ((Rect.unit (s := S16x327680) (k2_off2 L k) S8x2048.size (k2_off2_inb L k)).emb (ix2 c j)) = _
  congr 1
  funext a; apply Fin.ext
  rw [Rect.emb_apply]
  match a with
  | ⟨0, _⟩ =>
    show k2_off2 L k 0 + 1 * c.val = 8 * ((16 * (L 0).val + (L 1).val) % 2) + c.val
    rw [k2_off2_closed L k]; simp
  | ⟨1, _⟩ =>
    show k2_off2 L k 1 + 1 * j.val = 20480 * ((16 * (L 0).val + (L 1).val) / 2) + 2048 * k.val + j.val
    rw [k2_off2_closed L k]; simp

end At

end Cert.Proof.KB.K2Body

end
-- ==== Proof.KB.IdxRange.lean ====
import proofs.«205084_g25537875542483_cont_9to1_419_23_alg».proof.Proof.KB.Common
import proofs.«205084_g25537875542483_cont_9to1_419_23_alg».proof.Proof.Gen.Pre_input_domain
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.ReduceAll

noncomputable section

namespace Cert.Proof.KB.IdxRange

open Cert.Kernel Cert.Kernel.Gen
open Idealize.ShloMosaic Idealize.ShloMosaic.ValueIdx
open Idealize.SL.Sem

variable {F : FTy → Type} [FloatOps F]

def hostPre : List (HloOp τ sig (Elt F)) :=
  [ StableHlo.unary main_arg2 main_v0 ((extractStridedSlice S10000x1 ![0, 0] · slices_S10000x3_S10000x1_0_0) : (⟨S10000x3, .f32⟩ : BufTy).Contents (Elt F) → (⟨S10000x1, .f32⟩ : BufTy).Contents (Elt F)),
    StableHlo.reshape main_v0 main_v1 rfl shapeCasts_S10000x1_S10000,
    StableHlo.nullary main_c (constantI S_ 32 0#32),
    StableHlo.TRef.unary (.of main_c : StableHlo.TRef sig ⟨S_, .i32⟩) main_call0.v0 (sitofp .f32),
    StableHlo.TRef.binary (.of main_v1 : StableHlo.TRef sig ⟨S10000, .f32⟩) main_call0.v0 main_call0.v1 (fun x v => pad S10112 ![0] ![112] ![0] x v pads_S10000_S10112_01120 h_S_),
    StableHlo.unary main_arg2 main_v3 ((extractStridedSlice S10000x1 ![0, 1] · slices_S10000x3_S10000x1_0_1) : (⟨S10000x3, .f32⟩ : BufTy).Contents (Elt F) → (⟨S10000x1, .f32⟩ : BufTy).Contents (Elt F)),
    StableHlo.reshape main_v3 main_v4 rfl shapeCasts_S10000x1_S10000,
    StableHlo.nullary main_c_0 (constantI S_ 32 0#32),
    StableHlo.TRef.unary (.of main_c_0 : StableHlo.TRef sig ⟨S_, .i32⟩) main_call1.v0 (sitofp .f32),
    StableHlo.TRef.binary (.of main_v4 : StableHlo.TRef sig ⟨S10000, .f32⟩) main_call1.v0 main_call1.v1 (fun x v => pad S10112 ![0] ![112] ![0] x v pads_S10000_S10112_01120 h_S_),
    StableHlo.unary main_arg2 main_v6 ((extractStridedSlice S10000x1 ![0, 2] · slices_S10000x3_S10000x1_0_2) : (⟨S10000x3, .f32⟩ : BufTy).Contents (Elt F) → (⟨S10000x1, .f32⟩ : BufTy).Contents (Elt F)),
    StableHlo.reshape main_v6 main_v7 rfl shapeCasts_S10000x1_S10000,
    StableHlo.nullary main_c_1 (constantI S_ 32 0#32),
    StableHlo.TRef.unary (.of main_c_1 : StableHlo.TRef sig ⟨S_, .i32⟩) main_call2.v0 (sitofp .f32),
    StableHlo.TRef.binary (.of main_v7 : StableHlo.TRef sig ⟨S10000, .f32⟩) main_call2.v0 main_call2.v1 (fun x v => pad S10112 ![0] ![112] ![0] x v pads_S10000_S10112_01120 h_S_),
    StableHlo.unary main_arg1 main_v9 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v9 main_v10 rfl shapeCasts_S1x320000_S320000,
    StableHlo.unary main_arg1 main_v11 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v11 main_v12 rfl shapeCasts_S1x320000_S320000,
    StableHlo.nullary main_c_2 (constantI S_ 32 0#32),
    StableHlo.unary main_c_2 main_v13 (broadcastInDim S7680 ![] bcast_S_S7680 : (⟨S_, .i32⟩ : BufTy).Contents (Elt F) → (⟨S7680, .i32⟩ : BufTy).Contents (Elt F)),
    StableHlo.binary main_v10 main_v13 main_v14 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    StableHlo.reshape main_v14 main_v15 rfl shapeCasts_S327680_S32x80x128,
    StableHlo.nullary main_c_3 (constantI S_ 32 0#32),
    StableHlo.unary main_c_3 main_v16 (broadcastInDim S7680 ![] bcast_S_S7680 : (⟨S_, .i32⟩ : BufTy).Contents (Elt F) → (⟨S7680, .i32⟩ : BufTy).Contents (Elt F)),
    StableHlo.binary main_v12 main_v16 main_v17 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    StableHlo.reshape main_v17 main_v18 rfl shapeCasts_S327680_S32x80x128,
    StableHlo.nullary main_c_4 (constantI S_ 32 10008#32),
    StableHlo.unary main_c_4 main_v19 (broadcastInDim S7680 ![] bcast_S_S7680 : (⟨S_, .i32⟩ : BufTy).Contents (Elt F) → (⟨S7680, .i32⟩ : BufTy).Contents (Elt F)),
    StableHlo.binary main_v12 main_v19 main_v20 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    StableHlo.nullary main_cst (constant S_ .f32 0x00000000#32),
    StableHlo.unary main_cst main_v21 (broadcastInDim S640x128 ![] bcast_S_S640x128 : (⟨S_, .f32⟩ : BufTy).Contents (Elt F) → (⟨S640x128, .f32⟩ : BufTy).Contents (Elt F)),
    StableHlo.unary main_arg4 main_v22 ((extractStridedSlice S514x128 ![0, 0] · slices_S514x257_S514x128_0_0) : (⟨S514x257, .f32⟩ : BufTy).Contents (Elt F) → (⟨S514x128, .f32⟩ : BufTy).Contents (Elt F)),
    StableHlo.unary main_v22 main_v23 ((transpose S128x514 [1, 0] · transposes_S514x128_S128x514_1_0) : (⟨S514x128, .f32⟩ : BufTy).Contents (Elt F) → (⟨S128x514, .f32⟩ : BufTy).Contents (Elt F)),
    StableHlo.unary main_arg4 main_v24 ((extractStridedSlice S514x128 ![0, 128] · slices_S514x257_S514x128_0_128) : (⟨S514x257, .f32⟩ : BufTy).Contents (Elt F) → (⟨S514x128, .f32⟩ : BufTy).Contents (Elt F)),
    StableHlo.unary main_v24 main_v25 ((transpose S128x514 [1, 0] · transposes_S514x128_S128x514_1_0) : (⟨S514x128, .f32⟩ : BufTy).Contents (Elt F) → (⟨S128x514, .f32⟩ : BufTy).Contents (Elt F)),
    StableHlo.unary main_arg4 main_v26 ((extractStridedSlice S514x1 ![0, 256] · slices_S514x257_S514x1_0_256) : (⟨S514x257, .f32⟩ : BufTy).Contents (Elt F) → (⟨S514x1, .f32⟩ : BufTy).Contents (Elt F)),
    StableHlo.unary main_v26 main_v27 ((transpose S1x514 [1, 0] · transposes_S514x1_S1x514_1_0) : (⟨S514x1, .f32⟩ : BufTy).Contents (Elt F) → (⟨S1x514, .f32⟩ : BufTy).Contents (Elt F)),
    StableHlo.unary main_v27 main_v28 (broadcastInDim S16x514 ![0, 1] bcast_S1x514_S16x514_0_1 : (⟨S1x514, .f32⟩ : BufTy).Contents (Elt F) → (⟨S16x514, .f32⟩ : BufTy).Contents (Elt F)),
    StableHlo.reshape main_arg5 main_v29 rfl shapeCasts_S514_S1x514,
    StableHlo.unary main_arg6 main_v30 ((transpose S514x16 [1, 0] · transposes_S16x514_S514x16_1_0) : (⟨S16x514, .f32⟩ : BufTy).Contents (Elt F) → (⟨S514x16, .f32⟩ : BufTy).Contents (Elt F)),
    StableHlo.reshape main_arg7 main_v31 rfl shapeCasts_S16_S1x16,
    StableHlo.unary main_arg12 main_v32 ((extractStridedSlice S256x128 ![0, 0] · slices_S256x144_S256x128_0_0) : (⟨S256x144, .f32⟩ : BufTy).Contents (Elt F) → (⟨S256x128, .f32⟩ : BufTy).Contents (Elt F)),
    StableHlo.unary main_v32 main_v33 ((transpose S128x256 [1, 0] · transposes_S256x128_S128x256_1_0) : (⟨S256x128, .f32⟩ : BufTy).Contents (Elt F) → (⟨S128x256, .f32⟩ : BufTy).Contents (Elt F)),
    StableHlo.unary main_arg12 main_v34 ((extractStridedSlice S256x16 ![0, 128] · slices_S256x144_S256x16_0_128) : (⟨S256x144, .f32⟩ : BufTy).Contents (Elt F) → (⟨S256x16, .f32⟩ : BufTy).Contents (Elt F)),
    StableHlo.unary main_v34 main_v35 ((transpose S16x256 [1, 0] · transposes_S256x16_S16x256_1_0) : (⟨S256x16, .f32⟩ : BufTy).Contents (Elt F) → (⟨S16x256, .f32⟩ : BufTy).Contents (Elt F)),
    StableHlo.reshape main_arg13 main_v36 rfl shapeCasts_S256_S1x256,
    StableHlo.unary main_arg14 main_v37 ((transpose S256x128 [1, 0] · transposes_S128x256_S256x128_1_0) : (⟨S128x256, .f32⟩ : BufTy).Contents (Elt F) → (⟨S256x128, .f32⟩ : BufTy).Contents (Elt F)),
    StableHlo.reshape main_arg15 main_v38 rfl shapeCasts_S128_S1x128,
    StableHlo.reshape main_arg16 main_v39 rfl shapeCasts_S128_S1x128,
    StableHlo.reshape main_arg17 main_v40 rfl shapeCasts_S128_S1x128,
    StableHlo.unary main_arg18 main_v41 ((transpose S128x3 [1, 0] · transposes_S3x128_S128x3_1_0) : (⟨S3x128, .f32⟩ : BufTy).Contents (Elt F) → (⟨S128x3, .f32⟩ : BufTy).Contents (Elt F)),
    StableHlo.reshape main_arg19 main_v42 rfl shapeCasts_S3_S1x3 ]

def mainCalls (d : Dev nD) : Prog (TpuEff nD τ sig (Elt F) (SparseCore.Sig (Pipeline.Sig Λ₀ (Fin 2) fun p => (pcfgs (F := F) p).Adm) 2) .tc) PUnit := do
  sc.run d 0
  Prog.lift (.customCall (SparseCore.inner (Pipeline.entry 0)) ())
  sc.run d 1
  Prog.lift (.customCall (SparseCore.inner (Pipeline.entry 1)) ())
  pure ⟨⟩

theorem main_pre_eq (d : Dev nD) : main (F := F) d = (StableHlo.seq hostPre >>= fun _ => mainCalls d) := by
  chain_rfl

abbrev hostPre_W : List (Ref sig .tc) :=
  [main_v0, main_v1, main_c, main_call0_v0, main_v2, main_v3, main_v4, main_c_0, main_call1_v0, main_v5, main_v6, main_v7, main_c_1, main_call2_v0, main_v8, main_v9, main_v10, main_v11, main_v12, main_c_2, main_v13, main_v14, main_v15, main_c_3, main_v16, main_v17, main_v18, main_c_4, main_v19, main_v20, main_cst, main_v21, main_v22, main_v23, main_v24, main_v25, main_v26, main_v27, main_v28, main_v29, main_v30, main_v31, main_v32, main_v33, main_v34, main_v35, main_v36, main_v37, main_v38, main_v39, main_v40, main_v41, main_v42]

theorem after_hostPre_of (V : Valuation τ sig (Elt F)) (r : Ref sig .tc) (h : r ∉ hostPre_W) :
    StableHlo.after hostPre V (Proc.devRef .tc r) = V (Proc.devRef .tc r) := by
  refine StableHlo.after_of_writes_sub hostPre V ?_ h
  unfold hostPre
  simp only [List.Forall, StableHlo.nullary_writes, StableHlo.unary_writes, StableHlo.binary_writes, StableHlo.reshape_writes,
    Finset.singleton_subset_iff, List.mem_toFinset]
  constructorm* _ ∧ _
  all_goals exact List.mem_map_of_mem (by decide)

theorem hostPre_sub_uc : ∀ op ∈ (hostPre : List (HloOp τ sig (Elt F))), op.bufs ⊆ Pipeline.ucRefs τ sig := by
  have h : (hostPre : List (HloOp τ sig (Elt F))).Forall fun op => op.bufs ⊆ StableHlo.tcRefs τ sig := by
    unfold hostPre
    simp only [List.Forall, StableHlo.nullary_bufs_sub, StableHlo.unary_bufs_sub, StableHlo.binary_bufs_sub, StableHlo.reshape_bufs_sub, and_self]
  exact fun op ho => Pipeline.sub_ucRefs op (List.forall_iff_forall_mem.1 h op ho)

theorem hostPre_fresh_mem : ∀ op ∈ (hostPre : List (HloOp τ sig (Elt F))), op.fresh = ∅ := by
  refine List.forall_iff_forall_mem.1 ?_
  unfold hostPre
  simp only [List.Forall]; repeat' constructor

def rowPad (e : IVec S2x320000 32) (r : Fin 2) (w : BitVec 32) (p : Nat) : BitVec 32 :=
  if h : p < 320000 then e (ix2 r ⟨p, h⟩) else w

-- Row r flattened with 7680 copies of w behind it: below 320000 the row's word, from there on w.
theorem flat_apply (e : IVec S2x320000 32) (r : Fin 2) (hs : S2x320000.Slices ![r.val, 0] S1x320000) (w : BitVec 32) (k : S327680.Idx) :
    concatenate S327680 0 [⟨S320000, shapeCast S320000 (extractStridedSlice S1x320000 ![r.val, 0] e hs) shapeCasts_S1x320000_S320000⟩,
        ⟨S7680, broadcastInDim S7680 ![] bcast_S_S7680 (constantI S_ 32 w)⟩] concatenates_S320000_S7680_S327680_d0 k
      = rowPad e r w (k 0).val := by
  have hk : (k 0).val < 327680 := (k 0).isLt
  unfold rowPad
  split
  · next hp =>
    exact (concatenate_pair_apply_left (0 : Fin S327680.rank) _ _ concatenates_S320000_S7680_S327680_d0 k rfl
      (ix1 ⟨(k 0).val, hp⟩) (fun b => match b with | ⟨0, _⟩ => rfl)).trans
      ((shapeCast_1a_a_apply _ shapeCasts_S1x320000_S320000 ⟨(k 0).val, hp⟩).trans
        (extractStridedSlice_apply _ e hs _ (ix2 r ⟨(k 0).val, hp⟩) fun a => match a with
          | ⟨0, _⟩ => rfl
          | ⟨1, _⟩ => (Nat.zero_add _).symm))
  · exact (concatenate_pair_apply_right (0 : Fin S327680.rank) _ _ concatenates_S320000_S7680_S327680_d0 k rfl rfl
      (ix1 ⟨(k 0).val - 320000, by omega⟩) (fun b hb => match b with | ⟨0, _⟩ => absurd rfl hb)
      (by show (k 0).val - 320000 + 320000 = (k 0).val; omega)).trans rfl

-- Folding 327680 words to [32, 80, 128] keeps the row-major position.
theorem fold_apply (x : IVec S327680 32) (j : S32x80x128.Idx) :
    shapeCast S32x80x128 x shapeCasts_S327680_S32x80x128 j = x (ix1 ⟨((j 0).val * 80 + (j 1).val) * 128 + (j 2).val, by
      have h0 : (j 0).val < 32 := (j 0).isLt
      have h1 : (j 1).val < 80 := (j 1).isLt
      have h2 : (j 2).val < 128 := (j 2).isLt
      omega⟩) :=
  shapeCast_apply x _ j _ (by rw [Shape.rowMajor_val_one, Shape.rowMajor_val_three]; rfl)

theorem src_g_eq (V : Valuation τ sig (Elt F)) (j : S32x80x128.Idx) :
    (StableHlo.after hostPre V (Proc.devRef .tc main_v15) : IVec S32x80x128 32) j
      = rowPad (V (Proc.devRef .tc main_arg1)) 0 0#32 (((j 0).val * 80 + (j 1).val) * 128 + (j 2).val) := by
  unfold hostPre; after_results
  exact (fold_apply _ j).trans (flat_apply _ 0 slices_S2x320000_S1x320000_0_0 _ _)

theorem dst_g_eq (V : Valuation τ sig (Elt F)) (j : S32x80x128.Idx) :
    (StableHlo.after hostPre V (Proc.devRef .tc main_v18) : IVec S32x80x128 32) j
      = rowPad (V (Proc.devRef .tc main_arg1)) 1 0#32 (((j 0).val * 80 + (j 1).val) * 128 + (j 2).val) := by
  unfold hostPre; after_results
  exact (fold_apply _ j).trans (flat_apply _ 1 slices_S2x320000_S1x320000_1_0 _ _)

theorem dst_s_eq (V : Valuation τ sig (Elt F)) (j : S327680.Idx) :
    (StableHlo.after hostPre V (Proc.devRef .tc main_v20) : IVec S327680 32) j
      = rowPad (V (Proc.devRef .tc main_arg1)) 1 10008#32 (j 0).val := by
  unfold hostPre; after_results
  exact flat_apply _ 1 slices_S2x320000_S1x320000_1_0 _ _

def PreAt (m : (ℓ : Loc nD τ sig) → Buf (Elt F) ℓ) (c : Dev nD) : Prop :=
  Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) = fun _ => 1#1

-- A word with 0 ≤ v ≤ 9999 as a signed word is below 10000 as a natural number.
theorem word_range (v : BitVec 32) (h : IntOp.andi (IntOp.cmpi .sge v 0#32) (IntOp.cmpi .sle v 9999#32) = 1#1) :
    v.toNat < 10000 := by
  have h0 := IntOp.cmpi_sge.1 (IntOp.andi_eq_one.1 h).1
  have h1 := IntOp.cmpi_sle.1 (IntOp.andi_eq_one.1 h).2
  rw [show (0#32 : BitVec 32).toInt = 0 by decide, BitVec.toInt_eq_toNat_cond] at h0
  rw [show (9999#32 : BitVec 32).toInt = 9999 by decide, BitVec.toInt_eq_toNat_cond] at h1
  have hv := v.isLt
  split at h0 <;> omega

-- The precondition's last conjunct but one is the conjunction over all of edge_index of 0 ≤ e ∧ e ≤ 9999.
theorem edge_range (m : (ℓ : Loc nD τ sig) → Buf (Elt F) ℓ) (c : Dev nD) (h : PreAt m c) (i : S2x320000.Idx) :
    ((m ((c.tc : Thread nD τ).loc main_arg1) : IVec S2x320000 32) i).toNat < 10000 := by
  have e := congrFun h ix0
  change IntOp.andi (IntOp.andi _ (Host.reduce IntOp.andi _ _ Cert.Pre_input_domain.Facts.reducesTo_S2x320000_S_d0_1
    Cert.Pre_input_domain.Facts.h_S_ ix0)) _ = 1#1 at e
  exact word_range _ (Host.reduce_andi_eq_one _ _ _ _ _ (IntOp.andi_eq_one.1 (IntOp.andi_eq_one.1 e).1).2 i
    ((eq_ix0 _).trans (eq_ix0 _).symm))

-- A padded row's word is non-negative and below N when the row's words are nodes and the padding word is below N ≤ 2³¹.
theorem rowPad_ok (e : IVec S2x320000 32) (he : ∀ i, (e i).toNat < 10000) (r : Fin 2) (w : BitVec 32) (N : Nat) (hN : 10000 ≤ N)
    (hN' : N ≤ 2 ^ 31) (hw : w.toNat < N) (p : Nat) : 0 ≤ (rowPad e r w p).toInt ∧ (rowPad e r w p).toNat < N := by
  have hlt : (rowPad e r w p).toNat < N := by
    unfold rowPad
    split
    · exact Nat.lt_of_lt_of_le (he _) hN
    · exact hw
  exact ⟨(Int.natCast_nonneg _).trans_eq (StableHlo.Predicate.toInt_eq_toNat_of_lt (Nat.lt_of_lt_of_le hlt hN')).symm, hlt⟩

theorem src_g_lt (m : (ℓ : Loc nD τ sig) → Buf (Elt F) ℓ) (c : Dev nD) (h : PreAt m c) (j : S32x80x128.Idx) :
    ((StableHlo.after hostPre (StableHlo.launchContents m c) (Proc.devRef .tc main_v15) : IVec S32x80x128 32) j).toNat < 10000 := by
  rw [src_g_eq]; exact (rowPad_ok _ (edge_range m c h) _ _ _ (Nat.le_refl _) (by decide) (by decide) _).2

theorem dst_g_lt (m : (ℓ : Loc nD τ sig) → Buf (Elt F) ℓ) (c : Dev nD) (h : PreAt m c) (j : S32x80x128.Idx) :
    ((StableHlo.after hostPre (StableHlo.launchContents m c) (Proc.devRef .tc main_v18) : IVec S32x80x128 32) j).toNat < 10000 := by
  rw [dst_g_eq]; exact (rowPad_ok _ (edge_range m c h) _ _ _ (Nat.le_refl _) (by decide) (by decide) _).2

theorem dst_s_ok (m : (ℓ : Loc nD τ sig) → Buf (Elt F) ℓ) (c : Dev nD) (h : PreAt m c) (j : S327680.Idx) :
    0 ≤ ((StableHlo.after hostPre (StableHlo.launchContents m c) (Proc.devRef .tc main_v20) : IVec S327680 32) j).toInt
      ∧ ((StableHlo.after hostPre (StableHlo.launchContents m c) (Proc.devRef .tc main_v20) : IVec S327680 32) j).toNat < 10240 := by
  rw [dst_s_eq]; exact rowPad_ok _ (edge_range m c h) _ _ _ (by decide) (by decide) (by decide) _

theorem preAt_of_pre (m : (ℓ : Loc nD τ sig) → Buf (Elt Bits) ℓ) (h : Cert.Pre_Kernel m) (c : Dev nD) :
    PreAt (F := Bits) m c := h c

end Cert.Proof.KB.IdxRange

end
-- ==== Proof.KB.Pay.lean ====
import proofs.«205084_g25537875542483_cont_9to1_419_23_alg».proof.Proof.KB.Common
import proofs.«205084_g25537875542483_cont_9to1_419_23_alg».proof.Proof.KB.K0Body
import proofs.«205084_g25537875542483_cont_9to1_419_23_alg».proof.Proof.KB.K2Body
import proofs.«205084_g25537875542483_cont_9to1_419_23_alg».proof.Proof.KB.IdxRange

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

abbrev W0 (d : Dev nD) : Valuation τ sig (Elt F) := fun b => m (d, b)
def Wh (d : Dev nD) : Valuation τ sig (Elt F) := StableHlo.after IdxRange.hostPre (W0 m d)
theorem Wh_eq (d : Dev nD) : Wh m d = StableHlo.after IdxRange.hostPre (W0 m d) := rfl

def L0 (c : Fin (grid0.bound 0)) (i : Fin (grid0.bound 1)) : grid0.Coords :=
  fun | 0 => c | 1 => i | ⟨_ + 2, h⟩ => absurd h (Nat.not_lt.2 (Nat.le_add_left _ _))
def L2 (c : Fin (grid2.bound 0)) (i : Fin (grid2.bound 1)) : grid2.Coords :=
  fun | 0 => c | 1 => i | ⟨_ + 2, h⟩ => absurd h (Nat.not_lt.2 (Nat.le_add_left _ _))

theorem tile2_lt (L : grid2.Coords) : 16 * (L 0).val + (L 1).val < 32 := by
  have h0 : (L 0).val < 2 := (L 0).isLt
  have h1 : (L 1).val < 16 := (L 1).isLt
  omega
abbrev tok2 (L : grid2.Coords) : PosShare TreeShare :=
  Transfers.shareTok fullShare 32 ⟨16 * (L 0).val + (L 1).val, tile2_lt L⟩

def go0At (d : Dev nD) (c : Fin (grid0.bound 0)) (i : Fin (grid0.bound 1)) : sProp 𝕄 :=
  K0Body.go0 (K0Body.tileShare (L0 c i)) d (L0 c i) (Wh m d main_arg0) (Wh m d main_v2) (Wh m d main_v5) (Wh m d main_v8) (Wh m d main_v15) (Wh m d main_v18)
def td0At (d : Dev nD) (c : Fin (grid0.bound 0)) (i : Fin (grid0.bound 1)) : sProp 𝕄 :=
  K0Body.td0 (K0Body.tileShare (L0 c i)) d (L0 c i) (Wh m d main_arg0) (Wh m d main_v2) (Wh m d main_v5) (Wh m d main_v8) (Wh m d main_v15) (Wh m d main_v18)

def go2At (d : Dev nD) (c : Fin (grid2.bound 0)) (i : Fin (grid2.bound 1)) : sProp 𝕄 :=
  iprop(∃ fmt, K2Body.go2 (tok2 (L2 c i)) (tok2 (L2 c i)) (tok2 (L2 c i)) d fmt (Wh m d main_v20) (Wh m d main_v21) (L2 c i))
def td2At (d : Dev nD) (c : Fin (grid2.bound 0)) (i : Fin (grid2.bound 1)) : sProp 𝕄 :=
  iprop(∃ fmt, K2Body.td2 (tok2 (L2 c i)) (tok2 (L2 c i)) (tok2 (L2 c i)) d fmt (Wh m d main_v20) (Wh m d main_v21) (L2 c i))

def P : (K (F := F)).Pay (nD := nD) (Val := Elt F) (Name := ℕ) (U := UU) where
  st := fun q d c => match q, c with
    | 0, c => bigSep Finset.univ fun i : Fin (grid0.bound 1) => go0At m d c i
    | 1, c => bigSep Finset.univ fun i : Fin (grid2.bound 1) => go2At m d c i
  dn := fun q d c => match q, c with
    | 0, c => bigSep Finset.univ fun i : Fin (grid0.bound 1) => td0At m d c i
    | 1, c => bigSep Finset.univ fun i : Fin (grid2.bound 1) => td2At m d c i
  go := fun q d c i => match q, c, i with
    | 0, c, i => go0At m d c i
    | 1, c, i => go2At m d c i
  td := fun q d c i => match q, c, i with
    | 0, c, i => td0At m d c i
    | 1, c, i => td2At m d c i
  x := fun _ _ => iprop(emp)

set_option synthInstance.maxHeartbeats 400000 in
theorem go2_storable (qm qd qz : PosShare TreeShare) (d : Dev nD) (fmt : Buf (Elt F) (K2Body.mtLoc d)) (fdst : Buf (Elt F) (K2Body.dstLoc d)) (fz : Buf (Elt F) (K2Body.zpkLoc d))
    (L : grid2.Coords) : BI.Storable (upEmb : UEmb _ 𝕄) (K2Body.go2 qm qd qz d fmt fdst fz L) := by unfold K2Body.go2; infer_instance
set_option synthInstance.maxHeartbeats 400000 in
instance go0At_storable (d : Dev nD) (c : Fin (grid0.bound 0)) (i : Fin (grid0.bound 1)) : BI.Storable (upEmb : UEmb _ 𝕄) (go0At m d c i) := by
  unfold go0At K0Body.go0; infer_instance
set_option synthInstance.maxHeartbeats 400000 in
instance td0At_storable (d : Dev nD) (c : Fin (grid0.bound 0)) (i : Fin (grid0.bound 1)) : BI.Storable (upEmb : UEmb _ 𝕄) (td0At m d c i) := by
  unfold td0At K0Body.td0; infer_instance
instance go2At_storable (d : Dev nD) (c : Fin (grid2.bound 0)) (i : Fin (grid2.bound 1)) : BI.Storable (upEmb : UEmb _ 𝕄) (go2At m d c i) := by
  have := fun fmt => go2_storable (F := F) (tok2 (L2 c i)) (tok2 (L2 c i)) (tok2 (L2 c i)) d fmt (Wh m d main_v20) (Wh m d main_v21) (L2 c i)
  unfold go2At; infer_instance
set_option synthInstance.maxHeartbeats 400000 in
instance td2At_storable (d : Dev nD) (c : Fin (grid2.bound 0)) (i : Fin (grid2.bound 1)) : BI.Storable (upEmb : UEmb _ 𝕄) (td2At m d c i) := by
  unfold td2At K2Body.td2; infer_instance

theorem defs₀_vec0 (c : Fin τ.nSC) (s : Fin τ.nSub) :
    defs₀ (F := F) (.scVector c s) 0 ()
      = SparseCore.onTile hcore0 hsub0 (fun c s => cc0_k (L0 c s) (Memref.whole main_arg0_scv) (Memref.isWhole_whole _) (Memref.whole main_v2_scv) (Memref.isWhole_whole _)
          (Memref.whole main_v5_scv) (Memref.isWhole_whole _) (Memref.whole main_v8_scv) (Memref.isWhole_whole _) (Memref.whole main_v15_scv) (Memref.isWhole_whole _)
          (Memref.whole main_v18_scv) (Memref.isWhole_whole _) (Memref.whole main_v43_0_scv) (Memref.isWhole_whole _) (Memref.whole main_v43_1_scv) (Memref.isWhole_whole _)
          (Memref.whole main_v43_2_scv) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _)
          (Memref.whole cc0_scratch5) (Memref.isWhole_whole _) (Memref.whole cc0_scratch6) (Memref.isWhole_whole _) (Memref.whole cc0_scratch7) (Memref.isWhole_whole _)
          cc0_scratch8 cc0_scratch9 cc0_scoped0 cc0_scoped1 cc0_scoped2 cc0_scoped3 cc0_scoped4 cc0_scoped5 cc0_scoped6 cc0_scoped7) ⟨⟩ c s := rfl
theorem defs₀_vec2 (c : Fin τ.nSC) (s : Fin τ.nSub) :
    defs₀ (F := F) (.scVector c s) 2 ()
      = SparseCore.onTile hcore2 hsub2 (fun c s => cc2_k (L2 c s) (Memref.whole main_v44_scv) (Memref.isWhole_whole _) (Memref.whole main_v20_scv) (Memref.isWhole_whole _)
          (Memref.whole main_v21_scv) (Memref.isWhole_whole _) (Memref.whole main_v45_scv) (Memref.isWhole_whole _) (Memref.whole cc2_scratch0) (Memref.isWhole_whole _)
          (Memref.whole cc2_scratch1) (Memref.isWhole_whole _) (Memref.whole cc2_scratch2) (Memref.isWhole_whole _) cc2_scoped0 cc2_scoped1 cc2_scoped2 cc2_scoped3) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

variable (hpre : ∀ d : Dev nD, IdxRange.PreAt m d)

include hpre in
theorem idxOK0 (d : Dev nD) : K0Body.IdxOK d (Wh m d main_v15) (Wh m d main_v18) := by
  unfold Wh
  exact ⟨fun j => IdxRange.src_g_lt m d (hpre d) j, fun j => IdxRange.dst_g_lt m d (hpre d) j⟩
include hpre in
theorem dstOK2 (d : Dev nD) : K2Body.DstOK (d := d) (Wh m d main_v20) := by
  unfold Wh
  exact fun j => (IdxRange.dst_s_ok m d (hpre d) j).2

end Cert.Proof.KB

end
-- ==== Proof.KB.R1Dat.lean ====
import proofs.«205084_g25537875542483_cont_9to1_419_23_alg».proof.Proof.KB.Common
import Idealize.ShloMosaic.Lib.Pipeline.FrameBody
import Idealize.ShloMosaic.Lib.Ring
import Idealize.ShloMosaic.Lib.Tactic

set_option maxRecDepth 16384

noncomputable section

namespace Cert.Proof.KB.R1Dat

open Cert.Kernel Cert.Kernel.Gen Cert.Proof.KB

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

section Region

variable (V : (c : Dev nD) → (b : Ref sig .tc) → Buf (Elt F) ((c : Thread nD τ).loc b))
  (O : CellTallies nD τ sig (HIx 2)) (Rec : Set (SemLoc sig × HIx 2))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r_S4096x128 : Rect S4096x128 := Rect.unit (s := S4096x128) ![0, 0] S4096x128.size inb_S4096x128_S4096x128_0_0
abbrev r_S256x16 : Rect S256x16 := Rect.unit (s := S256x16) ![0, 0] S256x16.size inb_S256x16_S256x16_0_0
abbrev r_S128x514 : Rect S128x514 := Rect.unit (s := S128x514) ![0, 0] S128x514.size inb_S128x514_S128x514_0_0
abbrev r_S16x514 : Rect S16x514 := Rect.unit (s := S16x514) ![0, 0] S16x514.size inb_S16x514_S16x514_0_0
abbrev r_S1x514 : Rect S1x514 := Rect.unit (s := S1x514) ![0, 0] S1x514.size inb_S1x514_S1x514_0_0
abbrev r_S514x16 : Rect S514x16 := Rect.unit (s := S514x16) ![0, 0] S514x16.size inb_S514x16_S514x16_0_0
abbrev r_S1x16 : Rect S1x16 := Rect.unit (s := S1x16) ![0, 0] S1x16.size inb_S1x16_S1x16_0_0
abbrev r_S16x4096 : Rect S16x4096 := Rect.unit (s := S16x4096) ![0, 0] S16x4096.size inb_S16x4096_S16x4096_0_0

def out1_9 (x0 x1 : Vec F S4096x128 .f32) (x2 : Vec F S256x16 .f32) (x3 x4 : Vec F S128x514 .f32) (x5 : Vec F S16x514 .f32)
    (x6 : Vec F S1x514 .f32) (x7 : Vec F S514x16 .f32) (x8 : Vec F S1x16 .f32) : Vec F S16x4096 .f32 :=
  View.canon [⟨r_S16x4096, k1_pay1 (k1_pay2 (View.ld x2 r_S256x16))
    (k1_pay3 (View.ld x0 r_S4096x128) (View.ld x3 r_S128x514) (View.ld x1 r_S4096x128) (View.ld x4 r_S128x514))
    (View.ld x5 r_S16x514) (View.ld x6 r_S1x514) (View.ld x7 r_S514x16) (View.ld x8 r_S1x16)⟩]

theorem cover1_9 (p0 : Vec F S16x4096 .f32) (y : S16x4096.Idx) :
    ∃ pc ∈ ([⟨r_S16x4096, p0⟩] : List (View.Piece (Elt F) S16x4096 .f32)), y ∈ pc.1.set :=
  View.cover_of_tiled [⟨r_S16x4096, p0⟩] S16x4096.size (by rfl) y

set_option maxHeartbeats 4000000 in
theorem sound_kernel1 (c : Dev nD) (E : Set ℕ) (i : grid1.Coords) (arg1 : Memref sig .tc .vmem S4096x128 .f32) (harg1 : arg1.IsWhole) (arg2 : Memref sig .tc .vmem S4096x128 .f32) (harg2 : arg2.IsWhole) (arg3 : Memref sig .tc .vmem S256x16 .f32) (harg3 : arg3.IsWhole) (arg4 : Memref sig .tc .vmem S128x514 .f32) (harg4 : arg4.IsWhole) (arg5 : Memref sig .tc .vmem S128x514 .f32) (harg5 : arg5.IsWhole) (arg6 : Memref sig .tc .vmem S16x514 .f32) (harg6 : arg6.IsWhole) (arg7 : Memref sig .tc .vmem S1x514 .f32) (harg7 : arg7.IsWhole) (arg8 : Memref sig .tc .vmem S514x16 .f32) (harg8 : arg8.IsWhole) (arg9 : Memref sig .tc .vmem S1x16 .f32) (harg9 : arg9.IsWhole) (arg10 : Memref sig .tc .vmem S16x4096 .f32) (harg10 : arg10.IsWhole)
    (x0 x1 : Vec F S4096x128 .f32) (x2 : Vec F S256x16 .f32) (x3 x4 : Vec F S128x514 .f32) (x5 : Vec F S16x514 .f32) (x6 : Vec F S1x514 .f32) (x7 : Vec F S514x16 .f32) (x8 : Vec F S1x16 .f32) (d : Vec F S16x4096 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare d
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare (out1_9 x0 x1 x2 x3 x4 x5 x6 x7 x8)) -∗ K ⟨⟩))
      ⊢ wp frame (wpE (defs₀ (F := F)) Variants.none c none) E (cc1__edge_body i arg1 harg1 arg2 harg2 arg3 harg3 arg4 harg4 arg5 harg5 arg6 harg6 arg7 harg7 arg8 harg8 arg9 harg9 arg10 harg10) K := by
  simp only [cc1__edge_body_eq_skeleton]; unfold cc1__edge_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

def dat1 (c : Dev nD) : Dat τ (Elt F) (HIx 2) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.scopedRest (Ix := HIx 2) (Name := ℕ) (U := UU) (Lvl := ℕ) (Val := Elt F) spec1 c
  q _ := fullShare
  owed _ := O
  recorded _ := Rec

theorem A_eq1 (c : Dev nD) (w : Fin cfg1.W) : (dat1 V O Rec c).A w = V c (Pipeline.arrRef spec1 w) := by
  dsimp only [dat1]

theorem share1 (c : Dev nD) (w : Fin cfg1.W) : (dat1 V O Rec c).share w = fullShare := (dat1 V O Rec c).share_full (fun _ => rfl) w

theorem after1_9 (c : Dev nD) (t : Fin cfg1.N) : (dat1 V O Rec c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) : ∀ t d, (dat1 V O Rec c).before 0 t d = (dat1 V O Rec c).after 0 t :=
  (dat1 V O Rec c).before_in_eq_fetched 0 rfl (fun _ => rfl) (fun _ _ _ => rfl) fun _ => rfl
theorem before1_1 (c : Dev nD) : ∀ t d, (dat1 V O Rec c).before 1 t d = (dat1 V O Rec c).after 1 t :=
  (dat1 V O Rec c).before_in_eq_fetched 1 rfl (fun _ => rfl) (fun _ _ _ => rfl) fun _ => rfl
theorem before1_2 (c : Dev nD) : ∀ t d, (dat1 V O Rec c).before 2 t d = (dat1 V O Rec c).after 2 t :=
  (dat1 V O Rec c).before_in_eq_fetched 2 rfl (fun _ => rfl) (fun _ _ _ => rfl) fun _ => rfl
theorem before1_3 (c : Dev nD) : ∀ t d, (dat1 V O Rec c).before 3 t d = (dat1 V O Rec c).after 3 t :=
  (dat1 V O Rec c).before_in_eq_fetched 3 rfl (fun _ => rfl) (fun _ _ _ => rfl) fun _ => rfl
theorem before1_4 (c : Dev nD) : ∀ t d, (dat1 V O Rec c).before 4 t d = (dat1 V O Rec c).after 4 t :=
  (dat1 V O Rec c).before_in_eq_fetched 4 rfl (fun _ => rfl) (fun _ _ _ => rfl) fun _ => rfl
theorem before1_5 (c : Dev nD) : ∀ t d, (dat1 V O Rec c).before 5 t d = (dat1 V O Rec c).after 5 t :=
  (dat1 V O Rec c).before_in_eq_fetched 5 rfl (fun _ => rfl) (fun _ _ _ => rfl) fun _ => rfl
theorem before1_6 (c : Dev nD) : ∀ t d, (dat1 V O Rec c).before 6 t d = (dat1 V O Rec c).after 6 t :=
  (dat1 V O Rec c).before_in_eq_fetched 6 rfl (fun _ => rfl) (fun _ _ _ => rfl) fun _ => rfl
theorem before1_7 (c : Dev nD) : ∀ t d, (dat1 V O Rec c).before 7 t d = (dat1 V O Rec c).after 7 t :=
  (dat1 V O Rec c).before_in_eq_fetched 7 rfl (fun _ => rfl) (fun _ _ _ => rfl) fun _ => rfl
theorem before1_8 (c : Dev nD) : ∀ t d, (dat1 V O Rec c).before 8 t d = (dat1 V O Rec c).after 8 t :=
  (dat1 V O Rec c).before_in_eq_fetched 8 rfl (fun _ => rfl) (fun _ _ _ => rfl) fun _ => rfl

def inAt1 (c : Dev nD) (t : Fin cfg1.N) (w : Fin cfg1.W) : sProp 𝕄 :=
  iprop(∃ d, owns c ((cfg1.win w).stage (cfg1.slots t w)) fullShare ((dat1 V O Rec c).before w t d))

def outAt1 (c : Dev nD) (t : Fin cfg1.N) (w : Fin cfg1.W) : sProp 𝕄 :=
  owns c ((cfg1.win w).stage (cfg1.slots t w)) fullShare ((dat1 V O Rec c).after w t)

theorem sound_body1 (c : Dev nD) (t : Fin cfg1.N) :
    iprop((dat1 V O Rec c).Φ t.castSucc ∗ (dat1 V O Rec c).owesAt none t.castSucc ∗ inAt1 V O Rec c t 0 ∗ inAt1 V O Rec c t 1 ∗ inAt1 V O Rec c t 2 ∗ inAt1 V O Rec c t 3 ∗ inAt1 V O Rec c t 4 ∗ inAt1 V O Rec c t 5 ∗ inAt1 V O Rec c t 6 ∗ inAt1 V O Rec c t 7 ∗ inAt1 V O Rec c t 8 ∗ inAt1 V O Rec c t 9)
      ⊢ wp frame (wpE (defs₀ (F := F)) Variants.none c none) Set.univ (bodyAt1 t) fun _ =>
        iprop((dat1 V O Rec c).Φ t.succ ∗ (dat1 V O Rec c).owesAt none t.succ ∗ outAt1 V O Rec c t 0 ∗ outAt1 V O Rec c t 1 ∗ outAt1 V O Rec c t 2 ∗ outAt1 V O Rec c t 3 ∗ outAt1 V O Rec c t 4 ∗ outAt1 V O Rec c t 5 ∗ outAt1 V O Rec c t 6 ∗ outAt1 V O Rec c t 7 ∗ outAt1 V O Rec c t 8 ∗ outAt1 V O Rec c t 9) := by
  unfold inAt1 outAt1 bodyAt1
  simp only [before1_0, before1_1, before1_2, before1_3, before1_4, before1_5, before1_6, before1_7, before1_8]
  rw [show (dat1 V O Rec c).Φ t.succ = (dat1 V O Rec c).Φ t.castSucc from rfl,
    show (dat1 V O Rec c).owesAt none t.succ = (dat1 V O Rec c).owesAt none t.castSucc from rfl, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ _ _ _ _ _ _ _ _ _ _ _)
  iframe
  iintro ⟨H0, H1, H2, H3, H4, H5, H6, H7, H8, H9⟩
  iframe
  iexact H9

theorem hbody1 (c : Dev nD) : BodyObligationLoose (dat1 (F := F) V O Rec c) (defs₀ (F := F)) 𝒱₀ none Set.univ :=
  BodyObligation.loose _ fun t => by
    rw [bigSep_W1, bigSep_W1]
    exact sound_body1 V O Rec c t

theorem hwaits1 (hO : ∀ g, O g none = 0)
    (pdats : (p : Fin 2) → (c : Dev nD) → Dat τ (Elt F) (HIx 2) ℕ UU ℕ (Pipeline.pin (pcfgs (F := F)) adm p) c)
    (h0 : ∀ c, pdats 0 c = dat1 V O Rec c) (c : Dev nD) :
    (levAts (K (F := F)).L (K (F := F)).lev : sProp 𝕄) ⊢ Pipeline.cellsWaits (Pipeline.pin (pcfgs (F := F)) adm) pdats none 0 c :=
  Pipeline.cellsWaits_intro (Pipeline.pin (pcfgs (F := F)) adm) pdats none 0 c fun w s t => by
    rw [h0 c]; exact (K (F := F)).mayWait_none _ hO

theorem hin1 (c : Dev nD) :
    iprop((emp : sProp 𝕄) ∗ Pipeline.prefHeld (pcfgs (F := F) 0).pre c (fun _ => fullShare) (adm (F := F) 0).1 ∗ Pipeline.scopedRest (Pipeline.pin (pcfgs (F := F)) adm 0).spec c)
      ⊢ (dat1 V O Rec c).Φ 0 := by
  rw [show (dat1 V O Rec c).Φ 0 = Pipeline.scopedRest (Ix := HIx 2) (Name := ℕ) (U := UU) (Lvl := ℕ) (Val := Elt F) spec1 c from rfl]
  iintro ⟨-, -, Hr⟩
  iexact Hr

theorem hout1 (c : Dev nD) :
    (dat1 V O Rec c).Φ (Fin.last (Pipeline.pin (pcfgs (F := F)) adm 0).N)
      ⊢ iprop((emp : sProp 𝕄) ∗ Pipeline.ownSems0 (fun k : PEmpty => k.elim) c ∗ Pipeline.scopedRest (Pipeline.pin (pcfgs (F := F)) adm 0).spec c) := by
  show Pipeline.scopedRest (Ix := HIx 2) (Name := ℕ) (U := UU) (Lvl := ℕ) (Val := Elt F) spec1 c
    ⊢ iprop((emp : sProp 𝕄) ∗ Pipeline.ownSems0 (fun k : PEmpty => k.elim) c ∗ Pipeline.scopedRest (Ix := HIx 2) (Name := ℕ) (U := UU) (Lvl := ℕ) (Val := Elt F) spec1 c)
  rw [Pipeline.ownSems0_none]
  iintro Hr
  isplitr; · iempintro
  isplitr; · iempintro
  iexact Hr

end Region

end Cert.Proof.KB.R1Dat

end
-- ==== Proof.KB.R3Dat.lean ====
import proofs.«205084_g25537875542483_cont_9to1_419_23_alg».proof.Proof.KB.Common
import Idealize.ShloMosaic.Lib.Pipeline.FrameBody
import Idealize.ShloMosaic.Lib.Ring
import Idealize.ShloMosaic.Lib.Tactic

set_option maxRecDepth 16384

noncomputable section

namespace Cert.Proof.KB.R3Dat

open Cert.Kernel Cert.Kernel.Gen Cert.Proof.KB

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

section Region

variable (V : (c : Dev nD) → (b : Ref sig .tc) → Buf (Elt F) ((c : Thread nD τ).loc b))
  (O : CellTallies nD τ sig (HIx 2)) (Rec : Set (SemLoc sig × HIx 2))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x128 := Rect.unit (s := S10000x128) ![0, 0] S10000x128.size inb_S10000x128_S10000x128_0_0
abbrev r3_1a : Rect S2x16x640x128 := Rect.unit (s := S2x16x640x128) ![0, 0, 0, 0] S1x16x640x128.size inb_S2x16x640x128_S1x16x640x128_0_0_0_0
abbrev r3_1b : Rect S2x16x640x128 := Rect.unit (s := S2x16x640x128) ![1, 0, 0, 0] S1x16x640x128.size inb_S2x16x640x128_S1x16x640x128_1_0_0_0
abbrev r3_2 : Rect S128x256 := Rect.unit (s := S128x256) ![0, 0] S128x256.size inb_S128x256_S128x256_0_0
abbrev r3_3 : Rect S16x256 := Rect.unit (s := S16x256) ![0, 0] S16x256.size inb_S16x256_S16x256_0_0
abbrev r3_4 : Rect S1x256 := Rect.unit (s := S1x256) ![0, 0] S1x256.size inb_S1x256_S1x256_0_0
abbrev r3_5 : Rect S256x128 := Rect.unit (s := S256x128) ![0, 0] S256x128.size inb_S256x128_S256x128_0_0
abbrev r3_6 : Rect S1x128 := Rect.unit (s := S1x128) ![0, 0] S1x128.size inb_S1x128_S1x128_0_0
abbrev r3_9 : Rect S128x3 := Rect.unit (s := S128x3) ![0, 0] S128x3.size inb_S128x3_S128x3_0_0
abbrev r3_10 : Rect S1x3 := Rect.unit (s := S1x3) ![0, 0] S1x3.size inb_S1x3_S1x3_0_0
abbrev r3_11 : Rect S10000x3 := Rect.unit (s := S10000x3) ![0, 0] S10000x3.size inb_S10000x3_S10000x3_0_0

def val3 (x0 : Vec F S10000x128 .f32) (x1 : Vec F S2x16x640x128 .f32) (x2 : Vec F S128x256 .f32) (x3 : Vec F S16x256 .f32)
    (x4 : Vec F S1x256 .f32) (x5 : Vec F S256x128 .f32) (x6 : Vec F S1x128 .f32) (x7 : Vec F S1x128 .f32) (x8 : Vec F S1x128 .f32)
    (x9 : Vec F S128x3 .f32) (x10 : Vec F S1x3 .f32) : FVec F S10000x3 .f32 :=
  k3_pay1
    (k3_pay4 (View.ld x0 r3_0) (k3_pay2 (View.ld x1 r3_1a) (View.ld x1 r3_1b)) (k3_pay3 (View.ld x2 r3_2))
      (View.ld x3 r3_3) (View.ld x4 r3_4) (View.ld x5 r3_5) (View.ld x6 r3_6))
    (k3_pay5 (View.ld x7 r3_6)) (View.ld x8 r3_6) (View.ld x9 r3_9) (View.ld x10 r3_10)

def out3_11 (x0 : Vec F S10000x128 .f32) (x1 : Vec F S2x16x640x128 .f32) (x2 : Vec F S128x256 .f32) (x3 : Vec F S16x256 .f32)
    (x4 : Vec F S1x256 .f32) (x5 : Vec F S256x128 .f32) (x6 : Vec F S1x128 .f32) (x7 : Vec F S1x128 .f32) (x8 : Vec F S1x128 .f32)
    (x9 : Vec F S128x3 .f32) (x10 : Vec F S1x3 .f32) : Vec F S10000x3 .f32 :=
  View.canon [⟨r3_11, val3 x0 x1 x2 x3 x4 x5 x6 x7 x8 x9 x10⟩]

theorem cover3_11 (p0 : Vec F S10000x3 .f32) (y : S10000x3.Idx) :
    ∃ pc ∈ ([⟨r3_11, p0⟩] : List (View.Piece (Elt F) S10000x3 .f32)), y ∈ pc.1.set :=
  View.cover_of_tiled [⟨r3_11, p0⟩] S10000x3.size (by rfl) y

set_option maxHeartbeats 4000000 in
theorem sound_kernel3 (c : Dev nD) (E : Set ℕ) (arg0 : Memref sig .tc .vmem S10000x128 .f32) (harg0 : arg0.IsWhole) (arg1 : Memref sig .tc .vmem S2x16x640x128 .f32) (harg1 : arg1.IsWhole) (arg2 : Memref sig .tc .vmem S128x256 .f32) (harg2 : arg2.IsWhole) (arg3 : Memref sig .tc .vmem S16x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x3 .f32) (harg9 : arg9.IsWhole) (arg10 : Memref sig .tc .vmem S1x3 .f32) (harg10 : arg10.IsWhole) (arg11 : Memref sig .tc .vmem S10000x3 .f32) (harg11 : arg11.IsWhole)
    (x0 : Vec F S10000x128 .f32) (x1 : Vec F S2x16x640x128 .f32) (x2 : Vec F S128x256 .f32) (x3 : Vec F S16x256 .f32) (x4 : Vec F S1x256 .f32) (x5 : Vec F S256x128 .f32) (x6 : Vec F S1x128 .f32) (x7 : Vec F S1x128 .f32) (x8 : Vec F S1x128 .f32) (x9 : Vec F S128x3 .f32) (x10 : Vec F S1x3 .f32) (d : Vec F S10000x3 .f32) (Kont : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare d
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare (out3_11 x0 x1 x2 x3 x4 x5 x6 x7 x8 x9 x10)) -∗ Kont ⟨⟩))
      ⊢ wp frame (wpE (defs₀ (F := F)) Variants.none c none) E (cc3__node_body arg0 harg0 arg1 harg1 arg2 harg2 arg3 harg3 arg4 harg4 arg5 harg5 arg6 harg6 arg7 harg7 arg8 harg8 arg9 harg9 arg10 harg10 arg11 harg11) Kont := by
  simp only [cc3__node_body_eq_skeleton]; unfold cc3__node_body_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover3_11 _)

def dat3 (c : Dev nD) : Dat τ (Elt F) (HIx 2) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.scopedRest (Ix := HIx 2) (Name := ℕ) (U := UU) (Lvl := ℕ) (Val := Elt F) spec3 c
  q _ := fullShare
  owed _ := O
  recorded _ := Rec

theorem A_eq3 (c : Dev nD) (w : Fin cfg3.W) : (dat3 V O Rec c).A w = V c (Pipeline.arrRef spec3 w) := by
  dsimp only [dat3]

theorem share3 (c : Dev nD) (w : Fin cfg3.W) : (dat3 V O Rec c).share w = fullShare := (dat3 V O Rec c).share_full (fun _ => rfl) w

theorem after3_11 (c : Dev nD) (t : Fin cfg3.N) : (dat3 V O Rec c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

theorem before3_0 (c : Dev nD) : ∀ t d, (dat3 V O Rec c).before 0 t d = (dat3 V O Rec c).after 0 t :=
  (dat3 V O Rec c).before_in_eq_fetched 0 rfl (fun _ => rfl) (fun _ _ _ => rfl) fun _ => rfl
theorem before3_1 (c : Dev nD) : ∀ t d, (dat3 V O Rec c).before 1 t d = (dat3 V O Rec c).after 1 t :=
  (dat3 V O Rec c).before_in_eq_fetched 1 rfl (fun _ => rfl) (fun _ _ _ => rfl) fun _ => rfl
theorem before3_2 (c : Dev nD) : ∀ t d, (dat3 V O Rec c).before 2 t d = (dat3 V O Rec c).after 2 t :=
  (dat3 V O Rec c).before_in_eq_fetched 2 rfl (fun _ => rfl) (fun _ _ _ => rfl) fun _ => rfl
theorem before3_3 (c : Dev nD) : ∀ t d, (dat3 V O Rec c).before 3 t d = (dat3 V O Rec c).after 3 t :=
  (dat3 V O Rec c).before_in_eq_fetched 3 rfl (fun _ => rfl) (fun _ _ _ => rfl) fun _ => rfl
theorem before3_4 (c : Dev nD) : ∀ t d, (dat3 V O Rec c).before 4 t d = (dat3 V O Rec c).after 4 t :=
  (dat3 V O Rec c).before_in_eq_fetched 4 rfl (fun _ => rfl) (fun _ _ _ => rfl) fun _ => rfl
theorem before3_5 (c : Dev nD) : ∀ t d, (dat3 V O Rec c).before 5 t d = (dat3 V O Rec c).after 5 t :=
  (dat3 V O Rec c).before_in_eq_fetched 5 rfl (fun _ => rfl) (fun _ _ _ => rfl) fun _ => rfl
theorem before3_6 (c : Dev nD) : ∀ t d, (dat3 V O Rec c).before 6 t d = (dat3 V O Rec c).after 6 t :=
  (dat3 V O Rec c).before_in_eq_fetched 6 rfl (fun _ => rfl) (fun _ _ _ => rfl) fun _ => rfl
theorem before3_7 (c : Dev nD) : ∀ t d, (dat3 V O Rec c).before 7 t d = (dat3 V O Rec c).after 7 t :=
  (dat3 V O Rec c).before_in_eq_fetched 7 rfl (fun _ => rfl) (fun _ _ _ => rfl) fun _ => rfl
theorem before3_8 (c : Dev nD) : ∀ t d, (dat3 V O Rec c).before 8 t d = (dat3 V O Rec c).after 8 t :=
  (dat3 V O Rec c).before_in_eq_fetched 8 rfl (fun _ => rfl) (fun _ _ _ => rfl) fun _ => rfl
theorem before3_9 (c : Dev nD) : ∀ t d, (dat3 V O Rec c).before 9 t d = (dat3 V O Rec c).after 9 t :=
  (dat3 V O Rec c).before_in_eq_fetched 9 rfl (fun _ => rfl) (fun _ _ _ => rfl) fun _ => rfl
theorem before3_10 (c : Dev nD) : ∀ t d, (dat3 V O Rec c).before 10 t d = (dat3 V O Rec c).after 10 t :=
  (dat3 V O Rec c).before_in_eq_fetched 10 rfl (fun _ => rfl) (fun _ _ _ => rfl) fun _ => rfl

def inAt3 (c : Dev nD) (t : Fin cfg3.N) (w : Fin cfg3.W) : sProp 𝕄 :=
  iprop(∃ d, owns c ((cfg3.win w).stage (cfg3.slots t w)) fullShare ((dat3 V O Rec c).before w t d))

def outAt3 (c : Dev nD) (t : Fin cfg3.N) (w : Fin cfg3.W) : sProp 𝕄 :=
  owns c ((cfg3.win w).stage (cfg3.slots t w)) fullShare ((dat3 V O Rec c).after w t)

theorem sound_body3 (c : Dev nD) (t : Fin cfg3.N) :
    iprop((dat3 V O Rec c).Φ t.castSucc ∗ (dat3 V O Rec c).owesAt none t.castSucc ∗ inAt3 V O Rec c t 0 ∗ inAt3 V O Rec c t 1 ∗ inAt3 V O Rec c t 2 ∗ inAt3 V O Rec c t 3 ∗ inAt3 V O Rec c t 4 ∗ inAt3 V O Rec c t 5 ∗ inAt3 V O Rec c t 6 ∗ inAt3 V O Rec c t 7 ∗ inAt3 V O Rec c t 8 ∗ inAt3 V O Rec c t 9 ∗ inAt3 V O Rec c t 10 ∗ inAt3 V O Rec c t 11)
      ⊢ wp frame (wpE (defs₀ (F := F)) Variants.none c none) Set.univ (bodyAt3 t) fun _ =>
        iprop((dat3 V O Rec c).Φ t.succ ∗ (dat3 V O Rec c).owesAt none t.succ ∗ outAt3 V O Rec c t 0 ∗ outAt3 V O Rec c t 1 ∗ outAt3 V O Rec c t 2 ∗ outAt3 V O Rec c t 3 ∗ outAt3 V O Rec c t 4 ∗ outAt3 V O Rec c t 5 ∗ outAt3 V O Rec c t 6 ∗ outAt3 V O Rec c t 7 ∗ outAt3 V O Rec c t 8 ∗ outAt3 V O Rec c t 9 ∗ outAt3 V O Rec c t 10 ∗ outAt3 V O Rec c t 11) := by
  unfold inAt3 outAt3 bodyAt3
  simp only [before3_0, before3_1, before3_2, before3_3, before3_4, before3_5, before3_6, before3_7, before3_8, before3_9, before3_10]
  rw [show (dat3 V O Rec c).Φ t.succ = (dat3 V O Rec c).Φ t.castSucc from rfl,
    show (dat3 V O Rec c).owesAt none t.succ = (dat3 V O Rec c).owesAt none t.castSucc from rfl, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _ _ _ _ _ _ _ _ _ _ _ _ _)
  iframe
  iintro ⟨H0, H1, H2, H3, H4, H5, H6, H7, H8, H9, H10, H11⟩
  iframe
  iexact H11

theorem hbody3 (c : Dev nD) : BodyObligationLoose (dat3 (F := F) V O Rec c) (defs₀ (F := F)) 𝒱₀ none Set.univ :=
  BodyObligation.loose _ fun t => by
    rw [bigSep_W3, bigSep_W3]
    exact sound_body3 V O Rec c t

theorem mayWait3 (hO : ∀ g, O g none = 0) (c : Dev nD) (w : Fin cfg3.W) (s : Fin (cfg3.win w).nbuf) (t : Fin (cfg3.N + 1)) :
    (levAts (K (F := F)).L (K (F := F)).lev : sProp 𝕄) ⊢ MayWait (c : Thread nD τ) (.dma ((cfg3.win w).sem s)) none ((dat3 V O Rec c).owed t) :=
  (K (F := F)).mayWait_none _ hO

theorem hin3 (c : Dev nD) :
    iprop((emp : sProp 𝕄) ∗ Pipeline.prefHeld (pcfgs (F := F) 1).pre c (fun _ => fullShare) (adm (F := F) 1).1
        ∗ Pipeline.scopedRest (Ix := HIx 2) (Name := ℕ) (U := UU) (Lvl := ℕ) (Val := Elt F) spec3 c)
      ⊢ (dat3 V O Rec c).Φ 0 := by
  rw [show (dat3 V O Rec c).Φ 0 = Pipeline.scopedRest (Ix := HIx 2) (Name := ℕ) (U := UU) (Lvl := ℕ) (Val := Elt F) spec3 c from rfl]
  iintro ⟨-, -, Hr⟩
  iexact Hr

theorem hout3 (c : Dev nD) :
    (dat3 V O Rec c).Φ (Fin.last cfg3.N)
      ⊢ iprop((emp : sProp 𝕄) ∗ Pipeline.ownSems0 (fun k : PEmpty => (k.elim : SemLoc sig)) c
        ∗ Pipeline.scopedRest (Ix := HIx 2) (Name := ℕ) (U := UU) (Lvl := ℕ) (Val := Elt F) spec3 c) := by
  rw [Pipeline.ownSems0_none, show (dat3 V O Rec c).Φ (Fin.last cfg3.N) = Pipeline.scopedRest (Ix := HIx 2) (Name := ℕ) (U := UU) (Lvl := ℕ) (Val := Elt F) spec3 c from rfl]
  iintro Hr
  isplitr; · iempintro
  isplitr; · iempintro
  iexact Hr

end Region

end Cert.Proof.KB.R3Dat

end
-- ==== Proof.KB.Segs.lean ====
import proofs.«205084_g25537875542483_cont_9to1_419_23_alg».proof.Proof.KB.Common
import proofs.«205084_g25537875542483_cont_9to1_419_23_alg».proof.Proof.KB.R1Dat
import proofs.«205084_g25537875542483_cont_9to1_419_23_alg».proof.Proof.KB.R3Dat
import Idealize.ShloMosaic.Lib.Pipeline.RegionsLoop
import Idealize.ShloMosaic.Lib.Pipeline.FrameSuffix

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 2) (Elt F) ℕ UU ℕ

variable (W1 W3 : Dev nD → Valuation τ sig (Elt F)) (O1 O3 : CellTallies nD τ sig (HIx 2)) (B1 B3 : Set (SemLoc sig × HIx 2))

abbrev atTc (W : Dev nD → Valuation τ sig (Elt F)) : (c : Dev nD) → (b : Ref sig .tc) → Buf (Elt F) ((c : Thread nD τ).loc b) := fun c b => W c b

def pdats : (p : Fin 2) → (c : Dev nD) → Dat τ (Elt F) (HIx 2) ℕ UU ℕ (Pipeline.pin (pcfgs (F := F)) adm p) c
  | ⟨0, _⟩ => fun c => R1Dat.dat1 (atTc W1) O1 B1 c
  | ⟨1, _⟩ => fun c => R3Dat.dat3 (atTc W3) O3 B3 c

def exit1 (c : Dev nD) : Valuation τ sig (Elt F) :=
  Pipeline.withArrays spec1 c (W1 c) fun w => (R1Dat.dat1 (atTc W1) O1 B1 c).arrAt w cfg1.N
theorem exit1_arr (c : Dev nD) (w : Fin cfg1.W) :
    exit1 W1 O1 B1 c (Proc.devRef .tc (Pipeline.arrRef spec1 w)) = (R1Dat.dat1 (atTc W1) O1 B1 c).arrAt w cfg1.N := by
  unfold exit1; exact Pipeline.withArrays_arr spec1 launch1.win.arr_inj c _ _ w
theorem exit1_of_ne (c : Dev nD) (b : Ref sig .tc) (hb : ∀ w, Pipeline.arrRef spec1 w ≠ b) :
    exit1 W1 O1 B1 c (Proc.devRef .tc b) = W1 c (Proc.devRef .tc b) := by
  unfold exit1; exact Pipeline.withArrays_of_ne spec1 c _ _ b hb

set_option backward.isDefEq.respectTransparency.types false in
def reg1 (hO1 : ∀ g, O1 g none = 0) :
    Pipeline.RegionSeg (pcfgs (F := F)) adm (pdats W1 W3 O1 O3 B1 B3) (none : HIx 2) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := R1Dat.hbody1 (atTc W1) O1 B1 c
  hwaits := R1Dat.hwaits1 (atTc W1) O1 B1 hO1 (pdats W1 W3 O1 O3 B1 B3) (fun _ => rfl)
  pre c := iprop(StableHlo.held (c : Thread nD τ) (Pipeline.ucRefs τ sig) (W1 c) ∗ (pdats W1 W3 O1 O3 B1 B3 0 c).owesAt none 0)
  post c := iprop(StableHlo.held (c : Thread nD τ) (Pipeline.ucRefs τ sig) (exit1 W1 O1 B1 c)
    ∗ (pdats W1 W3 O1 O3 B1 B3 0 c).owesAt none (Fin.last (Pipeline.pin (pcfgs (F := F)) adm 0).N))
  X c := iprop(emp)
  Y c := iprop(emp)
  Z c := Pipeline.unscopedRest (Ix := HIx 2) (Name := ℕ) (U := UU) (Lvl := ℕ) spec1 c (atTc W1 c)
  hentry c := by
    rw [Pipeline.ownSems0_none]
    have hsplit := Pipeline.arrays_of_unscopedBufs (p := 0) (pcfgs (F := F)) adm (pdats W1 W3 O1 O3 B1 B3) launch1.win launch1.arr_whole c
      (fun w => R1Dat.share1 (atTc W1) O1 B1 c w) (atTc W1 c) fun w => R1Dat.A_eq1 (atTc W1) O1 B1 c w
    rw [Pipeline.unscopedBufs_held] at hsplit
    iintro ⟨⟨Hub, HO⟩, -, -⟩
    ihave H := hsplit $$ Hub
    icases H with ⟨Ha, Hrest⟩
    imodintro
    iframe
    unfold Pipeline.prefHeld; rw [show (Finset.univ : Finset (Fin 0)) = ∅ from rfl, BI.bigSep_empty]; iempintro
  hin c := R1Dat.hin1 (atTc W1) O1 B1 c
  hout c := R1Dat.hout1 (atTc W1) O1 B1 c
  hexit c := by
    have hjoin := Pipeline.unscopedBufs_of_arrays (p := 0) (pcfgs (F := F)) adm (Ix := HIx 2) (Name := ℕ) (U := UU) (Lvl := ℕ)
      launch1.win launch1.arr_whole c (pdats W1 W3 O1 O3 B1 B3) (fun w => R1Dat.share1 (atTc W1) O1 B1 c w)
      (atTc W1 c) (atTc (exit1 W1 O1 B1) c) ((pdats W1 W3 O1 O3 B1 B3 0 c).arrAt · cfg1.N) (fun w => (exit1_arr W1 O1 B1 c w).symm)
      fun b hb => exit1_of_ne W1 O1 B1 c b fun w e => hb (Finset.mem_image.mpr ⟨w, Finset.mem_univ _, e⟩)
    rw [Pipeline.unscopedBufs_held] at hjoin
    iintro ⟨Ha, HO, -, Hrest⟩
    imodintro
    iframe HO
    iapply hjoin; iframe

def exit3 (c : Dev nD) : Valuation τ sig (Elt F) :=
  Pipeline.withArrays spec3 c (W3 c) fun w => (R3Dat.dat3 (atTc W3) O3 B3 c).arrAt w cfg3.N
theorem exit3_arr (c : Dev nD) (w : Fin cfg3.W) :
    exit3 W3 O3 B3 c (Proc.devRef .tc (Pipeline.arrRef spec3 w)) = (R3Dat.dat3 (atTc W3) O3 B3 c).arrAt w cfg3.N := by
  unfold exit3; exact Pipeline.withArrays_arr spec3 launch3.win.arr_inj c _ _ w
theorem exit3_of_ne (c : Dev nD) (b : Ref sig .tc) (hb : ∀ w, Pipeline.arrRef spec3 w ≠ b) :
    exit3 W3 O3 B3 c (Proc.devRef .tc b) = W3 c (Proc.devRef .tc b) := by
  unfold exit3; exact Pipeline.withArrays_of_ne spec3 c _ _ b hb

set_option backward.isDefEq.respectTransparency.types false in
def reg3 (hO3 : ∀ g, O3 g none = 0) :
    Pipeline.RegionSeg (pcfgs (F := F)) adm (pdats W1 W3 O1 O3 B1 B3) (none : HIx 2) defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := R3Dat.hbody3 (atTc W3) O3 B3 c
  hwaits := fun c => Pipeline.cellsWaits_intro (Pipeline.pin (pcfgs (F := F)) adm) (pdats W1 W3 O1 O3 B1 B3) none 1 c (R3Dat.mayWait3 (atTc W3) O3 B3 hO3 c)
  pre c := iprop(StableHlo.held (c : Thread nD τ) (Pipeline.ucRefs τ sig) (W3 c) ∗ (pdats W1 W3 O1 O3 B1 B3 1 c).owesAt none 0)
  post c := iprop(StableHlo.held (c : Thread nD τ) (Pipeline.ucRefs τ sig) (exit3 W3 O3 B3 c)
    ∗ (pdats W1 W3 O1 O3 B1 B3 1 c).owesAt none (Fin.last (Pipeline.pin (pcfgs (F := F)) adm 1).N))
  X c := iprop(emp)
  Y c := iprop(emp)
  Z c := Pipeline.unscopedRest (Ix := HIx 2) (Name := ℕ) (U := UU) (Lvl := ℕ) spec3 c (atTc W3 c)
  hentry c := by
    rw [Pipeline.ownSems0_none]
    have hsplit := Pipeline.arrays_of_unscopedBufs (p := 1) (pcfgs (F := F)) adm (pdats W1 W3 O1 O3 B1 B3) launch3.win launch3.arr_whole c
      (fun w => R3Dat.share3 (atTc W3) O3 B3 c w) (atTc W3 c) fun w => R3Dat.A_eq3 (atTc W3) O3 B3 c w
    rw [Pipeline.unscopedBufs_held] at hsplit
    iintro ⟨⟨Hub, HO⟩, -, -⟩
    ihave H := hsplit $$ Hub
    icases H with ⟨Ha, Hrest⟩
    imodintro
    iframe
    unfold Pipeline.prefHeld; rw [show (Finset.univ : Finset (Fin 0)) = ∅ from rfl, BI.bigSep_empty]; iempintro
  hin c := R3Dat.hin3 (atTc W3) O3 B3 c
  hout c := R3Dat.hout3 (atTc W3) O3 B3 c
  hexit c := by
    have hjoin := Pipeline.unscopedBufs_of_arrays (p := 1) (pcfgs (F := F)) adm (Ix := HIx 2) (Name := ℕ) (U := UU) (Lvl := ℕ)
      launch3.win launch3.arr_whole c (pdats W1 W3 O1 O3 B1 B3) (fun w => R3Dat.share3 (atTc W3) O3 B3 c w)
      (atTc W3 c) (atTc (exit3 W3 O3 B3) c) ((pdats W1 W3 O1 O3 B1 B3 1 c).arrAt · cfg3.N) (fun w => (exit3_arr W3 O3 B3 c w).symm)
      fun b hb => exit3_of_ne W3 O3 B3 c b fun w e => hb (Finset.mem_image.mpr ⟨w, Finset.mem_univ _, e⟩)
    rw [Pipeline.unscopedBufs_held] at hjoin
    iintro ⟨Ha, HO, -, Hrest⟩
    imodintro
    iframe HO
    iapply hjoin; iframe

end Cert.Proof.KB

end
-- ==== Proof.KB.Region.lean ====
import proofs.«205084_g25537875542483_cont_9to1_419_23_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (pdats : (p : Fin 2) → (c : Dev nD) → Pipeline.Dat τ (Elt F) (HIx 2) ℕ UU ℕ (Pipeline.pin (pcfgs (F := F)) adm p) c)

set_option backward.isDefEq.respectTransparency.types false in
theorem wp_region [∀ e, Nonempty (Elt F e)] (p : Fin 2)
    (R : Pipeline.RegionSeg (pcfgs (F := F)) adm pdats (none : HIx 2) defs₀ 𝒱₀ (K (F := F)).L (K (F := F)).lev p) (d : Dev nD)
    {α : Type} (k : PUnit → Prog (TpuEff nD τ sig (Elt F) (SparseCore.Sig (ΛP (F := F)) 2) .tc) α) (Q : α → sProp 𝕄) :
    iprop((iprop(boundary (T d) ∗ R.post d) -∗ wp frame (wpE ((K (F := F)).defs (D (F := F))) 𝒱 (T d) none) Set.univ (k ⟨⟩) Q)
        ∗ boundary (T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE ((K (F := F)).defs (D (F := F))) 𝒱 (T d) none) Set.univ (.op (.customCall (SparseCore.inner (Pipeline.entry p)) ()) k) Q := by
  have h := Pipeline.RegionSeg.wp (pcfgs (F := F)) adm pdats (none : HIx 2) cellOf_inj (EP (F := F)) defs₀ 𝒱₀ (K (F := F)).L (K (F := F)).lev R d none
    (by intro u hu; exact absurd hu (Option.not_mem_none u)) (α := PUnit) (fun _ => Prog.ret PUnit.unit) (fun _ => iprop(boundary (T d) ∗ R.post d))
  have hl := (K (F := F)).wp_liftProg (D (F := F)) 𝒱 (T d) Set.univ none
    (α := PUnit) (Prog.op (.customCall (Pipeline.entry p) ()) fun _ => Prog.ret PUnit.unit) (fun _ => iprop(boundary (T d) ∗ R.post d))
  rw [show (Prog.op (TpuEff.customCall (SparseCore.inner (Pipeline.entry p)) ()) k) =
      (SparseCore.liftProg (Prog.op (TpuEff.customCall (Pipeline.entry p) ()) fun _ => Prog.ret PUnit.unit) >>= k) from rfl, wp_bind]
  iintro ⟨Hk, Hb, Hpre, Hlv, Hg, Ht⟩
  iapply (wp_wand_r frame _ Set.univ)
  isplitl [Hb Hpre Hlv Hg Ht]
  · iapply hl
    iapply h
    isplitr
    · iintro H; rw [wp_ret]; imodintro; iexact H
    isplitl [Hb]; · iexact Hb
    isplitl [Hpre]; · iexact Hpre
    isplitl [Hlv]; · iexact Hlv
    isplitl [Hg] <;> iassumption
  · iintro %_ H
    iapply Hk; iexact H

end Cert.Proof.KB

end
-- ==== Proof.KB.Ghost.lean ====
import proofs.«205084_g25537875542483_cont_9to1_419_23_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

abbrev G (d : Dev nD) : sProp 𝕄 :=
  bigSep Finset.univ fun p : Fin 2 =>
    iprop(Pipeline.cellsGhost (Pipeline.pin (pcfgs (F := F)) adm) (EP (F := F)) p d ∗ Pipeline.toksInit (Pipeline.pin (pcfgs (F := F)) adm) (EP (F := F)) p d)

def u₀ : UU :=
  (initOf (K (F := F)).hsCells (K (F := F)).hsToks,
    (initOf (Pipeline.cells (nD := nD) (τ := τ) (Pipeline.pin (pcfgs (F := F)) adm) cellOf_inj) (Pipeline.launchToks (nD := nD) (τ := τ) (Pipeline.pin (pcfgs (F := F)) adm) cellOf_inj), 1))

set_option backward.isDefEq.respectTransparency.types false in
theorem hu₀ : (ownU (u₀ (F := F)) : sProp 𝕄)
    ⊢ |={Set.univ}=> iprop(BI.own (EH (initOf (K (F := F)).hsCells (K (F := F)).hsToks)) ∗ bigSep Finset.univ fun d : Dev nD => G (F := F) d) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (Entails.of_eq (show (BI.own (((Emb.inl : Emb UP (UP × Counters)).trans (embR : Emb (UP × Counters) 𝕄))
      (initOf (Pipeline.cells (nD := nD) (τ := τ) (Pipeline.pin (pcfgs (F := F)) adm) cellOf_inj) (Pipeline.launchToks (nD := nD) (τ := τ) (Pipeline.pin (pcfgs (F := F)) adm) cellOf_inj))) : sProp 𝕄)
      = BI.own ((EP (F := F)) (initOf (Pipeline.cells (nD := nD) (τ := τ) (Pipeline.pin (pcfgs (F := F)) adm) cellOf_inj) (Pipeline.launchToks (nD := nD) (τ := τ) (Pipeline.pin (pcfgs (F := F)) adm) cellOf_inj))) from rfl)) $$ HP
  imod (Pipeline.fund_ghost (Pipeline.pin (pcfgs (F := F)) adm) (EP (F := F)) cellOf_inj) $$ HP' with ⟨Hg, Ht⟩
  imodintro
  isplitl [HH]; · iexact HH
  unfold G
  simp only [bigSep_sep']
  isplitl [Hg] <;> iassumption

end Cert.Proof.KB

end
-- ==== Proof.KB.Steps.lean ====
import proofs.«205084_g25537875542483_cont_9to1_419_23_alg».proof.Proof.KB.Pay
import proofs.«205084_g25537875542483_cont_9to1_419_23_alg».proof.Proof.KB.Segs
import proofs.«205084_g25537875542483_cont_9to1_419_23_alg».proof.Proof.KB.Region
import proofs.«205084_g25537875542483_cont_9to1_419_23_alg».proof.Proof.KB.Ghost

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 2) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄)
      = iprop((∃ W, ⌜(K (F := F)).WBelow (T d) W (8 * n)⌝ ∗ owes (T d) ((K (F := F)).Otc d n) W) ∗ tcRest (F := F) d n) := rfl

def Bn (d : Dev nD) (n : ℕ) : Set (SemLoc sig × HIx 2) := {p | (K (F := F)).lev (T d, p.1) p.2 ≤ 8 * n}

variable (m : (ℓ : Loc nD τ sig) → Buf (Elt F) ℓ)

set_option backward.isDefEq.respectTransparency.types false in
-- A region entered from the buffers at `W` beside the TensorCore's debts within the bound, and left at `Wx` beside the same, is a step from the state before call `n` to itself.
theorem region_step [∀ e, Nonempty (Elt F e)] (p : Fin 2) (n : ℕ) (d : Dev nD) (W Wx : Valuation τ sig (Elt F))
    (pd : (p : Fin 2) → (c : Dev nD) → Pipeline.Dat τ (Elt F) (HIx 2) ℕ UU ℕ (Pipeline.pin (pcfgs (F := F)) adm p) c)
    (R : Pipeline.RegionSeg (pcfgs (F := F)) adm pd (none : HIx 2) defs₀ 𝒱₀ (K (F := F)).L (K (F := F)).lev p)
    (Sp : Set (SemLoc sig × HIx 2)) (hS : ∀ q ∈ Sp, q.2 = none)
    (hpre : R.pre d = iprop(StableHlo.held (T d) (Pipeline.ucRefs τ sig) W ∗ Pipeline.owesWithin d ((K (F := F)).Otc d n) (Bn (F := F) d n ∪ Sp)))
    (hpost : R.post d = iprop(StableHlo.held (T d) (Pipeline.ucRefs τ sig) Wx ∗ Pipeline.owesWithin d ((K (F := F)).Otc d n) (Bn (F := F) d n ∪ Sp)))
    {α : Type} (k : PUnit → Prog (TpuEff nD τ sig (Elt F) (SparseCore.Sig (ΛP (F := F)) 2) .tc) α) (Q : α → sProp 𝕄) :
    iprop(levAts (K (F := F)).L (K (F := F)).lev ∗ (K (F := F)).tcSt EH d n ∗ boundary (T d) ∗ StableHlo.held (T d) (Pipeline.ucRefs τ sig) W
        ∗ Pipeline.cellsGhost (Pipeline.pin (pcfgs (F := F)) adm) (EP (F := F)) p d ∗ Pipeline.toksInit (Pipeline.pin (pcfgs (F := F)) adm) (EP (F := F)) p d
        ∗ (iprop((K (F := F)).tcSt EH d n ∗ boundary (T d) ∗ StableHlo.held (T d) (Pipeline.ucRefs τ sig) Wx)
            -∗ wp frame (wpE ((K (F := F)).defs (D (F := F))) 𝒱 (T d) none) Set.univ (k ⟨⟩) Q))
      ⊢ wp frame (wpE ((K (F := F)).defs (D (F := F))) 𝒱 (T d) none) Set.univ (.op (.customCall (SparseCore.inner (Pipeline.entry p)) ()) k) Q := by
  rw [tcSt_eq]
  iintro ⟨#Hlv, ⟨⟨%W0, %hW0, HO⟩, Hrest⟩, Hb, Hheld, Hg, Ht, Hk⟩
  iapply (wp_region pd p R d k Q)
  rw [hpre, hpost]
  isplitl [Hk Hrest]
  · iintro ⟨Hb, Hheld, ⟨%W', %hW', HO⟩⟩
    iapply Hk
    iframe Hrest Hb Hheld
    iexists W'; isplitr
    · ipureintro
      intro q hq
      rcases hW' (Finset.mem_coe.mpr hq) with h | hs
      · exact h
      · show (K (F := F)).lev _ q.2 ≤ _; rw [hS q hs, SparseCore.Cfg.lev_none]; exact Nat.zero_le _
    · iexact HO
  iframe Hb Hheld Hlv Hg Ht
  iexists W0; isplitr
  · ipureintro; intro q hq; exact Or.inl (hW0 q (Finset.mem_coe.mp hq))
  · iexact HO

set_option backward.isDefEq.respectTransparency.types false in
theorem region1_step [∀ e, Nonempty (Elt F e)] (d : Dev nD) (W : Valuation τ sig (Elt F))
    {α : Type} (k : PUnit → Prog (TpuEff nD τ sig (Elt F) (SparseCore.Sig (ΛP (F := F)) 2) .tc) α) (Q : α → sProp 𝕄) :
    iprop(levAts (K (F := F)).L (K (F := F)).lev ∗ (K (F := F)).tcSt EH d 1 ∗ boundary (T d) ∗ StableHlo.held (T d) (Pipeline.ucRefs τ sig) W
        ∗ Pipeline.cellsGhost (Pipeline.pin (pcfgs (F := F)) adm) (EP (F := F)) 0 d ∗ Pipeline.toksInit (Pipeline.pin (pcfgs (F := F)) adm) (EP (F := F)) 0 d
        ∗ (iprop((K (F := F)).tcSt EH d 1 ∗ boundary (T d)
            ∗ StableHlo.held (T d) (Pipeline.ucRefs τ sig) (exit1 (fun _ => W) ((K (F := F)).Otc d 1) (Bn (F := F) d 1) d))
            -∗ wp frame (wpE ((K (F := F)).defs (D (F := F))) 𝒱 (T d) none) Set.univ (k ⟨⟩) Q))
      ⊢ wp frame (wpE ((K (F := F)).defs (D (F := F))) 𝒱 (T d) none) Set.univ (.op (.customCall (SparseCore.inner (Pipeline.entry 0)) ()) k) Q :=
  region_step 0 1 d W _ _ (reg1 (fun _ => W) (fun _ => W) ((K (F := F)).Otc d 1) ((K (F := F)).Otc d 1) (Bn (F := F) d 1) (Bn (F := F) d 1) fun g => Otc_none d 1 g)
    (cfg1.waitPairs none) (by rintro _ ⟨w, s, rfl⟩; rfl) rfl rfl k Q

set_option backward.isDefEq.respectTransparency.types false in
theorem region3_step [∀ e, Nonempty (Elt F e)] (d : Dev nD) (W : Valuation τ sig (Elt F))
    {α : Type} (k : PUnit → Prog (TpuEff nD τ sig (Elt F) (SparseCore.Sig (ΛP (F := F)) 2) .tc) α) (Q : α → sProp 𝕄) :
    iprop(levAts (K (F := F)).L (K (F := F)).lev ∗ (K (F := F)).tcSt EH d 2 ∗ boundary (T d) ∗ StableHlo.held (T d) (Pipeline.ucRefs τ sig) W
        ∗ Pipeline.cellsGhost (Pipeline.pin (pcfgs (F := F)) adm) (EP (F := F)) 1 d ∗ Pipeline.toksInit (Pipeline.pin (pcfgs (F := F)) adm) (EP (F := F)) 1 d
        ∗ (iprop((K (F := F)).tcSt EH d 2 ∗ boundary (T d)
            ∗ StableHlo.held (T d) (Pipeline.ucRefs τ sig) (exit3 (fun _ => W) ((K (F := F)).Otc d 2) (Bn (F := F) d 2) d))
            -∗ wp frame (wpE ((K (F := F)).defs (D (F := F))) 𝒱 (T d) none) Set.univ (k ⟨⟩) Q))
      ⊢ wp frame (wpE ((K (F := F)).defs (D (F := F))) 𝒱 (T d) none) Set.univ (.op (.customCall (SparseCore.inner (Pipeline.entry 1)) ()) k) Q :=
  region_step 1 2 d W _ _ (reg3 (fun _ => W) (fun _ => W) ((K (F := F)).Otc d 2) ((K (F := F)).Otc d 2) (Bn (F := F) d 2) (Bn (F := F) d 2) fun g => Otc_none d 2 g)
    (cfg3.waitPairs none) (by rintro _ ⟨w, s, rfl⟩; rfl) rfl rfl k Q

end Cert.Proof.KB

end
-- ==== Proof.LibTileSplit.lean ====
import Idealize.ShloMosaic.Rules.PointsTo
import Idealize.ShloMosaic.Lib.Transfers
import Idealize.SL.ProofMode.BigOp

noncomputable section

namespace Idealize.ShloMosaic.TileSplit

open Idealize.SL
open Idealize.SL.RA Idealize.SL.Sem Idealize.SL.ProofMode
open Idealize.SL.BI (sProp bigSep bigSep_insert bigSep_mono bigSep_empty bigSep_congr bigSep_exists_pi)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

variable {ℓ : Loc nD τ sig} {q : PosShare TreeShare}

theorem ent {M : Type} [URA M] {P R : sProp M} (h : Idealize.SL.BI.Entails P R) : P ⊢ R := h
theorem unent {M : Type} [URA M] {P R : sProp M} (h : P ⊢ R) : Idealize.SL.BI.Entails P R := h

theorem step {I : Finset (Idx ℓ)} (f : Buf Val ℓ) : (ℓ ↦[I]{q} f : sProp 𝕄) ⊢ iprop(∃ f, ℓ ↦[I]{q} f) := by
  iintro H; iexists f; iexact H

theorem pointsTo_blocks_join {T : Type} [DecidableEq T] (S : Finset T) (K : T → Finset (Idx ℓ)) (f₀ : Buf Val ℓ)
    (h : ∀ t ∈ S, ∀ t' ∈ S, t ≠ t' → Disjoint (K t) (K t')) :
    bigSep S (fun t => iprop(∃ f, ℓ ↦[K t]{q} f)) ⊢ (iprop(∃ g, ℓ ↦[S.biUnion K]{q} g) : sProp 𝕄) := by
  haveI : Nonempty (Buf Val ℓ) := ⟨f₀⟩
  refine (bigSep_exists_pi S (fun t (f : Buf Val ℓ) => (ℓ ↦[K t]{q} f : sProp 𝕄))).trans ?_
  iintro ⟨%fs, H⟩
  ihave H' := (pointsTo_biUnion_join S K fs f₀ h) $$ H
  icases H' with ⟨%g, -, Hg⟩
  iexists g; iexact Hg

theorem pointsTo_blocks_split {T : Type} (S : Finset T) (K : T → Finset (Idx ℓ))
    (h : ∀ t ∈ S, ∀ t' ∈ S, t ≠ t' → Disjoint (K t) (K t')) :
    (iprop(∃ f, ℓ ↦[S.biUnion K]{q} f) : sProp 𝕄) ⊢ bigSep S (fun t => iprop(∃ f, ℓ ↦[K t]{q} f)) := by
  iintro ⟨%f, H⟩
  ihave H' := (Entails.of_eq (pointsTo_biUnion (q := q) (f := f) S K h)) $$ H
  iapply (ent (bigSep_mono (Ψ := fun t => iprop(∃ f, ℓ ↦[K t]{q} f)) fun t _ => unent (step f))) $$ H'

theorem pointsTo_family_agree {T : Type} (S : Finset T) (I : Finset (Idx ℓ)) (q₀ : PosShare TreeShare) (r : T → PosShare TreeShare)
    (f₀ : Buf Val ℓ) :
    iprop((ℓ ↦[I]{q₀} f₀) ∗ bigSep S (fun t => iprop(∃ f, ℓ ↦[I]{r t} f)))
      ⊢ (iprop((ℓ ↦[I]{q₀} f₀) ∗ bigSep S (fun t => ℓ ↦[I]{r t} f₀)) : sProp 𝕄) := by
  classical
  induction S using Finset.induction_on with
  | empty => rw [bigSep_empty, bigSep_empty]
  | insert t S ht ih =>
    rw [bigSep_insert ht, bigSep_insert ht]
    refine (show iprop((ℓ ↦[I]{q₀} f₀) ∗ (∃ f, ℓ ↦[I]{r t} f) ∗ bigSep S (fun t => iprop(∃ f, ℓ ↦[I]{r t} f))) ⊢
      (iprop((ℓ ↦[I]{q₀} f₀) ∗ (ℓ ↦[I]{r t} f₀) ∗ bigSep S (fun t => ℓ ↦[I]{r t} f₀)) : sProp 𝕄) from ?_)
    iintro ⟨H₀, ⟨%f, Ht⟩, HS⟩
    ihave Hag := (persistent_entails_right pointsTo_agree) $$ [H₀ Ht]
    · iframe
    icases Hag with ⟨%hag, H₀, Ht⟩
    ihave Ht' := (Entails.of_eq (pointsTo_congr (f := f) (g := f₀) fun i hi => (hag i (Finset.mem_inter.mpr ⟨hi, hi⟩)).1.symm)) $$ Ht
    ihave H := ih $$ [H₀ HS]
    · iframe
    icases H with ⟨H₀, HS⟩
    iframe

theorem pointsTo_toks_join_agree [Preorder Lvl] (I : Finset (Idx ℓ)) (q : PosShare TreeShare) (n : ℕ) (f₀ : Buf Val ℓ) :
    iprop((ℓ ↦[I]{Transfers.shareDrop q n} f₀) ∗ bigSep Finset.univ (fun i : Fin n => iprop(∃ f, ℓ ↦[I]{Transfers.shareTok q n i} f)))
      ⊢ (ℓ ↦[I]{q} f₀ : sProp 𝕄) :=
  (pointsTo_family_agree Finset.univ I (Transfers.shareDrop q n) (fun i : Fin n => Transfers.shareTok q n i) f₀).trans
    (Transfers.pointsTo_toks_join q n)

end Idealize.ShloMosaic.TileSplit

end
-- ==== Proof.KB.Tiles.lean ====
import proofs.«205084_g25537875542483_cont_9to1_419_23_alg».proof.Proof.KB.Common
import proofs.«205084_g25537875542483_cont_9to1_419_23_alg».proof.Proof.KB.K0Body
import proofs.«205084_g25537875542483_cont_9to1_419_23_alg».proof.Proof.KB.K2Body
import proofs.«205084_g25537875542483_cont_9to1_419_23_alg».proof.Proof.KB.Pay
import proofs.«205084_g25537875542483_cont_9to1_419_23_alg».proof.Proof.LibTileSplit

noncomputable section

namespace Cert.Proof.KB.Tiles

open Cert.Kernel Cert.Kernel.Gen Cert.Proof.KB
open Cert.Proof.KB.K0Body (xLoc pxLoc pyLoc pzLoc srcLoc xiLoc xjLoc relLoc wid wid_lt L0_lt L1_lt srcBlk outBlk relBlk tileShare go0 td0)
open Cert.Proof.KB.K2Body (mtLoc zpkLoc partsLoc partsSet go2 td2 partsSet_disjoint partsSet_cover)

open Idealize.ShloMosaic Idealize.ShloMosaic.TileSplit
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

theorem wid_inj {L L' : grid0.Coords} (h : wid L = wid L') : L = L' := by
  have h0 := L0_lt L; have h1 := L1_lt L; have h0' := L0_lt L'; have h1' := L1_lt L'
  unfold wid at h
  funext a
  match a with
  | ⟨0, _⟩ => exact Fin.ext (show (L 0).val = (L' 0).val by omega)
  | ⟨1, _⟩ => exact Fin.ext (show (L 1).val = (L' 1).val by omega)

def tileOf (k : Fin 32) : grid0.Coords :=
  fun | 0 => (⟨k.val / 16, by omega⟩ : Fin 2) | 1 => (⟨k.val % 16, by omega⟩ : Fin 16)
      | ⟨_ + 2, h⟩ => absurd h (Nat.not_lt.2 (Nat.le_add_left _ _))

theorem wid_tileOf (k : Fin 32) : wid (tileOf k) = k.val := by
  show 16 * (k.val / 16) + k.val % 16 = k.val
  omega

def widEquiv : grid0.Coords ≃ Fin 32 where
  toFun L := ⟨wid L, wid_lt L⟩
  invFun := tileOf
  left_inv L := wid_inj (wid_tileOf ⟨wid L, wid_lt L⟩)
  right_inv k := Fin.ext (wid_tileOf k)

def coordsEquiv : Fin (grid0.bound 0) × Fin (grid0.bound 1) ≃ grid0.Coords where
  toFun p := L0 p.1 p.2
  invFun L := (L 0, L 1)
  left_inv p := rfl
  right_inv L := by
    funext a
    match a with
    | ⟨0, _⟩ => rfl
    | ⟨1, _⟩ => rfl

theorem bigSep_coords (Φ : grid0.Coords → sProp 𝕄) :
    bigSep Finset.univ Φ
      = bigSep Finset.univ fun c : Fin (grid0.bound 0) => bigSep Finset.univ fun i : Fin (grid0.bound 1) => Φ (L0 c i) := by
  rw [bigSep_univ_equiv coordsEquiv Φ, bigSep_univ_prod]
  rfl

theorem toks_tiles {ℓ : Loc nD τ sig} (I : Finset (Idx ℓ)) (f : Buf (Elt F) ℓ) :
    (ℓ ↦[I]{fullShare} f : sProp 𝕄)
      ⊣⊢ iprop((ℓ ↦[I]{Transfers.shareDrop fullShare 32} f) ∗ bigSep (Finset.univ : Finset grid0.Coords) fun L => ℓ ↦[I]{tileShare L} f) := by
  have e := bigSep_univ_equiv widEquiv (fun k : Fin 32 => (ℓ ↦[I]{Transfers.shareTok fullShare 32 k} f : sProp 𝕄))
  have h := Transfers.pointsTo_toks (Ix := HIx 2) (Name := ℕ) (U := UU) (Lvl := ℕ) (ℓ := ℓ) (S := I) (f := f) fullShare 32
  rw [e] at h
  exact h

theorem srcBlk_disjoint : ∀ L ∈ (Finset.univ : Finset grid0.Coords), ∀ L' ∈ (Finset.univ : Finset grid0.Coords), L ≠ L' →
    Disjoint (srcBlk L).set (srcBlk L').set := by
  intro L _ L' _ h
  have hw : wid L ≠ wid L' := fun e => h (wid_inj e)
  refine Rect.unit_disjoint 0 ?_
  show wid L + 1 ≤ wid L' ∨ wid L' + 1 ≤ wid L
  omega

theorem srcBlk_cover : (Finset.univ : Finset grid0.Coords).biUnion (fun L => (srcBlk L).set) = Finset.univ := by
  refine Finset.eq_univ_of_forall fun j => ?_
  have h0 : (j 0).val < 32 := (j 0).isLt
  have h1 : (j 1).val < 80 := (j 1).isLt
  have h2 : (j 2).val < 128 := (j 2).isLt
  refine Finset.mem_biUnion.2 ⟨tileOf ⟨(j 0).val, h0⟩, Finset.mem_univ _, Rect.mem_set_unit.2 fun a => ?_⟩
  have hw : wid (tileOf ⟨(j 0).val, h0⟩) = (j 0).val := wid_tileOf _
  match a with
  | ⟨0, _⟩ => show wid (tileOf ⟨(j 0).val, h0⟩) ≤ (j 0).val ∧ (j 0).val < wid (tileOf ⟨(j 0).val, h0⟩) + 1; omega
  | ⟨1, _⟩ => show 0 ≤ (j 1).val ∧ (j 1).val < 0 + 80; omega
  | ⟨2, _⟩ => show 0 ≤ (j 2).val ∧ (j 2).val < 0 + 128; omega

theorem outBlk_disjoint : ∀ L ∈ (Finset.univ : Finset grid0.Coords), ∀ L' ∈ (Finset.univ : Finset grid0.Coords), L ≠ L' →
    Disjoint (outBlk L).set (outBlk L').set := by
  intro L _ L' _ h
  have hw : wid L ≠ wid L' := fun e => h (wid_inj e)
  refine Rect.unit_disjoint 0 ?_
  show 10240 * wid L + 10240 ≤ 10240 * wid L' ∨ 10240 * wid L' + 10240 ≤ 10240 * wid L
  omega

theorem outBlk_cover : (Finset.univ : Finset grid0.Coords).biUnion (fun L => (outBlk L).set) = Finset.univ := by
  refine Finset.eq_univ_of_forall fun j => ?_
  have h0 : (j 0).val < 327680 := (j 0).isLt
  have h1 : (j 1).val < 128 := (j 1).isLt
  have hk : (j 0).val / 10240 < 32 := by omega
  refine Finset.mem_biUnion.2 ⟨tileOf ⟨(j 0).val / 10240, hk⟩, Finset.mem_univ _, Rect.mem_set_unit.2 fun a => ?_⟩
  have hw : wid (tileOf ⟨(j 0).val / 10240, hk⟩) = (j 0).val / 10240 := wid_tileOf _
  match a with
  | ⟨0, _⟩ =>
    show 10240 * wid (tileOf ⟨(j 0).val / 10240, hk⟩) ≤ (j 0).val ∧ (j 0).val < 10240 * wid (tileOf ⟨(j 0).val / 10240, hk⟩) + 10240
    omega
  | ⟨1, _⟩ => show 0 ≤ (j 1).val ∧ (j 1).val < 0 + 128; omega

theorem relBlk_disjoint : ∀ L ∈ (Finset.univ : Finset grid0.Coords), ∀ L' ∈ (Finset.univ : Finset grid0.Coords), L ≠ L' →
    Disjoint (relBlk L).set (relBlk L').set := by
  intro L _ L' _ h
  have hw : wid L ≠ wid L' := fun e => h (wid_inj e)
  refine Rect.unit_disjoint 0 ?_
  show 640 * wid L + 640 ≤ 640 * wid L' ∨ 640 * wid L' + 640 ≤ 640 * wid L
  omega

theorem relBlk_cover : (Finset.univ : Finset grid0.Coords).biUnion (fun L => (relBlk L).set) = Finset.univ := by
  refine Finset.eq_univ_of_forall fun j => ?_
  have h0 : (j 0).val < 20480 := (j 0).isLt
  have h1 : (j 1).val < 16 := (j 1).isLt
  have hk : (j 0).val / 640 < 32 := by omega
  refine Finset.mem_biUnion.2 ⟨tileOf ⟨(j 0).val / 640, hk⟩, Finset.mem_univ _, Rect.mem_set_unit.2 fun a => ?_⟩
  have hw : wid (tileOf ⟨(j 0).val / 640, hk⟩) = (j 0).val / 640 := wid_tileOf _
  match a with
  | ⟨0, _⟩ =>
    show 640 * wid (tileOf ⟨(j 0).val / 640, hk⟩) ≤ (j 0).val ∧ (j 0).val < 640 * wid (tileOf ⟨(j 0).val / 640, hk⟩) + 640
    omega
  | ⟨1, _⟩ => show 0 ≤ (j 1).val ∧ (j 1).val < 0 + 16; omega

theorem partsSet_disjoint' : ∀ L ∈ (Finset.univ : Finset grid2.Coords), ∀ L' ∈ (Finset.univ : Finset grid2.Coords), L ≠ L' →
    Disjoint (partsSet L) (partsSet L') := fun L _ L' _ h => partsSet_disjoint L L' h

theorem src_blocks (d : Dev nD) (f : Buf (Elt F) (srcLoc d)) :
    (srcLoc d ↦{fullShare} f : sProp 𝕄) = bigSep (Finset.univ : Finset grid0.Coords) fun L => srcLoc d ↦[(srcBlk L).set]{fullShare} f := by
  rw [← pointsTo_biUnion Finset.univ (ℓ := srcLoc d) (fun L => (srcBlk L).set) srcBlk_disjoint, srcBlk_cover]
theorem dst_blocks (d : Dev nD) (f : Buf (Elt F) (K0Body.dstLoc d)) :
    (K0Body.dstLoc d ↦{fullShare} f : sProp 𝕄) = bigSep (Finset.univ : Finset grid0.Coords) fun L => K0Body.dstLoc d ↦[(srcBlk L).set]{fullShare} f := by
  rw [← pointsTo_biUnion Finset.univ (ℓ := K0Body.dstLoc d) (fun L => (srcBlk L).set) srcBlk_disjoint, srcBlk_cover]

-- An array held whole at some contents is its blocks, pairwise disjoint and covering, each at some contents.
theorem blocks_split {T : Type} [Fintype T] {ℓ : Loc nD τ sig} (K : T → Finset (Idx ℓ))
    (h : ∀ t ∈ (Finset.univ : Finset T), ∀ t' ∈ (Finset.univ : Finset T), t ≠ t' → Disjoint (K t) (K t'))
    (hc : (Finset.univ : Finset T).biUnion K = Finset.univ) :
    (iprop(∃ f, ℓ ↦{fullShare} f) : sProp 𝕄) ⊢ bigSep (Finset.univ : Finset T) fun t => iprop(∃ f, ℓ ↦[K t]{fullShare} f) := by
  have h' := pointsTo_blocks_split (Ix := HIx 2) (Val := Elt F) (Name := ℕ) (U := UU) (Lvl := ℕ) (ℓ := ℓ) (q := fullShare) Finset.univ K h
  rw [hc] at h'
  exact h'

section Call0

variable (d : Dev nD)
variable (fx : Buf (Elt F) (xLoc d)) (fpx : Buf (Elt F) (pxLoc d)) (fpy : Buf (Elt F) (pyLoc d)) (fpz : Buf (Elt F) (pzLoc d))
variable (fsrc : Buf (Elt F) (srcLoc d)) (fdst : Buf (Elt F) (K0Body.dstLoc d))

def rem0 : sProp 𝕄 :=
  iprop((xLoc d ↦{Transfers.shareDrop fullShare 32} fx) ∗ (pxLoc d ↦{Transfers.shareDrop fullShare 32} fpx)
    ∗ (pyLoc d ↦{Transfers.shareDrop fullShare 32} fpy) ∗ (pzLoc d ↦{Transfers.shareDrop fullShare 32} fpz))

def whole0 : sProp 𝕄 :=
  iprop((xLoc d ↦{fullShare} fx) ∗ (pxLoc d ↦{fullShare} fpx) ∗ (pyLoc d ↦{fullShare} fpy) ∗ (pzLoc d ↦{fullShare} fpz)
    ∗ (srcLoc d ↦{fullShare} fsrc) ∗ (K0Body.dstLoc d ↦{fullShare} fdst)
    ∗ (∃ f, xiLoc d ↦{fullShare} f) ∗ (∃ f, xjLoc d ↦{fullShare} f) ∗ (∃ f, relLoc d ↦{fullShare} f))

theorem split0_coords :
    whole0 d fx fpx fpy fpz fsrc fdst
      ⊢ iprop(rem0 d fx fpx fpy fpz ∗ bigSep (Finset.univ : Finset grid0.Coords) fun L => go0 (tileShare L) d L fx fpx fpy fpz fsrc fdst) := by
  unfold whole0 rem0 K0Body.go0
  simp only [bigSep_sep']
  iintro ⟨Hx, Hpx, Hpy, Hpz, Hs, Hd, Hxi, Hxj, Hrel⟩
  ihave Hx' := (toks_tiles Finset.univ fx).1 $$ Hx
  icases Hx' with ⟨Hxr, Hxt⟩
  ihave Hpx' := (toks_tiles Finset.univ fpx).1 $$ Hpx
  icases Hpx' with ⟨Hpxr, Hpxt⟩
  ihave Hpy' := (toks_tiles Finset.univ fpy).1 $$ Hpy
  icases Hpy' with ⟨Hpyr, Hpyt⟩
  ihave Hpz' := (toks_tiles Finset.univ fpz).1 $$ Hpz
  icases Hpz' with ⟨Hpzr, Hpzt⟩
  ihave Hs' := (Entails.of_eq (src_blocks d fsrc)) $$ Hs
  ihave Hd' := (Entails.of_eq (dst_blocks d fdst)) $$ Hd
  ihave Hxi' := (blocks_split (ℓ := xiLoc d) (fun L => (outBlk L).set) outBlk_disjoint outBlk_cover) $$ Hxi
  ihave Hxj' := (blocks_split (ℓ := xjLoc d) (fun L => (outBlk L).set) outBlk_disjoint outBlk_cover) $$ Hxj
  ihave Hrel' := (blocks_split (ℓ := relLoc d) (fun L => (relBlk L).set) relBlk_disjoint relBlk_cover) $$ Hrel
  iframe

end Call0

section Call2

variable (d : Dev nD)
variable (fmt : Buf (Elt F) (mtLoc d)) (fdst : Buf (Elt F) (K2Body.dstLoc d)) (fz : Buf (Elt F) (zpkLoc d))

abbrev tileShare2 (L : grid2.Coords) : PosShare TreeShare := tileShare (L : grid0.Coords)

def rem2 : sProp 𝕄 :=
  iprop((mtLoc d ↦{Transfers.shareDrop fullShare 32} fmt) ∗ (K2Body.dstLoc d ↦{Transfers.shareDrop fullShare 32} fdst)
    ∗ (zpkLoc d ↦{Transfers.shareDrop fullShare 32} fz))

def whole2 : sProp 𝕄 :=
  iprop((mtLoc d ↦{fullShare} fmt) ∗ (K2Body.dstLoc d ↦{fullShare} fdst) ∗ (zpkLoc d ↦{fullShare} fz) ∗ ∃ f, partsLoc d ↦{fullShare} f)

theorem split2_coords :
    whole2 d fmt fdst fz
      ⊢ iprop(rem2 d fmt fdst fz ∗ bigSep (Finset.univ : Finset grid2.Coords) fun L =>
          go2 (tileShare2 L) (tileShare2 L) (tileShare2 L) d fmt fdst fz L) := by
  unfold whole2 rem2 K2Body.go2
  simp only [bigSep_sep']
  iintro ⟨Hm, Hd, Hz, Hp⟩
  ihave Hm' := (toks_tiles Finset.univ fmt).1 $$ Hm
  icases Hm' with ⟨Hmr, Hmt⟩
  ihave Hd' := (toks_tiles Finset.univ fdst).1 $$ Hd
  icases Hd' with ⟨Hdr, Hdt⟩
  ihave Hz' := (toks_tiles Finset.univ fz).1 $$ Hz
  icases Hz' with ⟨Hzr, Hzt⟩
  ihave Hp' := (blocks_split (ℓ := partsLoc d) partsSet partsSet_disjoint' partsSet_cover) $$ Hp
  iframe

end Call2

section At

open Idealize.ShloMosaic.TcCoe

variable [FloatOps F] (m : (ℓ : Loc nD τ sig) → Buf (Elt F) ℓ) (d : Dev nD)

def whole0At : sProp 𝕄 :=
  whole0 d (Wh m d main_arg0) (Wh m d main_v2) (Wh m d main_v5) (Wh m d main_v8) (Wh m d main_v15) (Wh m d main_v18)

def rem0At : sProp 𝕄 :=
  rem0 d (Wh m d main_arg0) (Wh m d main_v2) (Wh m d main_v5) (Wh m d main_v8)

theorem split0 :
    whole0At m d ⊢ iprop(rem0At m d ∗ bigSep Finset.univ fun c : Fin (grid0.bound 0) => bigSep Finset.univ fun i : Fin (grid0.bound 1) => go0At m d c i) := by
  unfold whole0At rem0At
  refine (split0_coords d _ _ _ _ _ _).trans (Entails.of_eq ?_)
  rw [bigSep_coords]
  rfl

def whole2At (fmt : Buf (Elt F) (mtLoc d)) : sProp 𝕄 := whole2 d fmt (Wh m d main_v20) (Wh m d main_v21)

def rem2At (fmt : Buf (Elt F) (mtLoc d)) : sProp 𝕄 := rem2 d fmt (Wh m d main_v20) (Wh m d main_v21)

end At

end Cert.Proof.KB.Tiles

end
-- ==== Proof.KB.Calls.lean ====
import proofs.«205084_g25537875542483_cont_9to1_419_23_alg».proof.Proof.KB.Common
import proofs.«205084_g25537875542483_cont_9to1_419_23_alg».proof.Proof.KB.Pay
import proofs.«205084_g25537875542483_cont_9to1_419_23_alg».proof.Proof.KB.Tiles

noncomputable section

namespace Cert.Proof.KB.Calls

open Cert.Kernel Cert.Kernel.Gen Cert.Proof.KB

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (m : (ℓ : Loc nD τ sig) → Buf (Elt F) ℓ)

abbrev x' : DevRef τ sig := Proc.devRef .tc (main_arg0 : Ref sig .tc)
abbrev px' : DevRef τ sig := Proc.devRef .tc (main_v2 : Ref sig .tc)
abbrev py' : DevRef τ sig := Proc.devRef .tc (main_v5 : Ref sig .tc)
abbrev pz' : DevRef τ sig := Proc.devRef .tc (main_v8 : Ref sig .tc)
abbrev src' : DevRef τ sig := Proc.devRef .tc (main_v15 : Ref sig .tc)
abbrev dst' : DevRef τ sig := Proc.devRef .tc (main_v18 : Ref sig .tc)
abbrev xi' : DevRef τ sig := Proc.devRef .tc (main_v43_0 : Ref sig .tc)
abbrev xj' : DevRef τ sig := Proc.devRef .tc (main_v43_1 : Ref sig .tc)
abbrev rel' : DevRef τ sig := Proc.devRef .tc (main_v43_2 : Ref sig .tc)
abbrev mt' : DevRef τ sig := Proc.devRef .tc (main_v44 : Ref sig .tc)
abbrev tg' : DevRef τ sig := Proc.devRef .tc (main_v20 : Ref sig .tc)
abbrev zb' : DevRef τ sig := Proc.devRef .tc (main_v21 : Ref sig .tc)
abbrev parts' : DevRef τ sig := Proc.devRef .tc (main_v45 : Ref sig .tc)

abbrev S9 : Finset (DevRef τ sig) := {x', px', py', pz', src', dst', xi', xj', rel'}

abbrev S4 : Finset (DevRef τ sig) := {mt', tg', zb', parts'}

theorem mem_uc (r : Ref sig .tc) (h : r.isScoped = false) : Proc.devRef .tc r ∈ Pipeline.ucRefs τ sig :=
  Finset.mem_filter.2 ⟨StableHlo.devRef_mem_tcRefs r, by rw [Proc.isScoped_devRef, h]; exact Bool.false_ne_true⟩

theorem S9_sub : S9 ⊆ Pipeline.ucRefs τ sig := by
  intro b hb
  simp only [S9, Finset.mem_insert, Finset.mem_singleton] at hb
  rcases hb with rfl | rfl | rfl | rfl | rfl | rfl | rfl | rfl | rfl <;> exact mem_uc _ rfl
theorem S4_sub : S4 ⊆ Pipeline.ucRefs τ sig := by
  intro b hb
  simp only [S4, Finset.mem_insert, Finset.mem_singleton] at hb
  rcases hb with rfl | rfl | rfl | rfl <;> exact mem_uc _ rfl

omit [FloatOps F] in
theorem held_S9 (d : Dev nD) (W : Valuation τ sig (Elt F)) :
    (held (T d) S9 W : sProp 𝕄) = iprop((K0Body.xLoc d ↦{fullShare} W x') ∗ (K0Body.pxLoc d ↦{fullShare} W px') ∗ (K0Body.pyLoc d ↦{fullShare} W py')
      ∗ (K0Body.pzLoc d ↦{fullShare} W pz') ∗ (K0Body.srcLoc d ↦{fullShare} W src') ∗ (K0Body.dstLoc d ↦{fullShare} W dst')
      ∗ (K0Body.xiLoc d ↦{fullShare} W xi') ∗ (K0Body.xjLoc d ↦{fullShare} W xj') ∗ (K0Body.relLoc d ↦{fullShare} W rel')) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem held_S4 (d : Dev nD) (W : Valuation τ sig (Elt F)) :
    (held (T d) S4 W : sProp 𝕄) = iprop((K2Body.mtLoc d ↦{fullShare} W mt') ∗ (K2Body.dstLoc d ↦{fullShare} W tg')
      ∗ (K2Body.zpkLoc d ↦{fullShare} W zb') ∗ (K2Body.partsLoc d ↦{fullShare} W parts')) := by
  unfold held S4
  rw [SparseCore.bigSep_insert' (by decide), SparseCore.bigSep_insert' (by decide), SparseCore.bigSep_insert' (by decide), bigSep_singleton]

def Wc0 (d : Dev nD) (f0 : Buf (Elt F) (K0Body.xiLoc d)) (f1 : Buf (Elt F) (K0Body.xjLoc d)) (f2 : Buf (Elt F) (K0Body.relLoc d)) :
    Valuation τ sig (Elt F) :=
  Function.update (Function.update (Function.update (Wh m d) xi' f0) xj' f1) rel' f2

section Wc0

variable (d : Dev nD) (f0 : Buf (Elt F) (K0Body.xiLoc d)) (f1 : Buf (Elt F) (K0Body.xjLoc d)) (f2 : Buf (Elt F) (K0Body.relLoc d))

theorem Wc0_of_ne' (b : DevRef τ sig) (h0 : b ≠ xi') (h1 : b ≠ xj') (h2 : b ≠ rel') : Wc0 m d f0 f1 f2 b = Wh m d b := by
  unfold Wc0
  rw [Function.update_of_ne h2, Function.update_of_ne h1, Function.update_of_ne h0]
theorem Wc0_of_ne (b : Ref sig .tc) (h : b ≠ main_v43_0 ∧ b ≠ main_v43_1 ∧ b ≠ main_v43_2) :
    Wc0 m d f0 f1 f2 (Proc.devRef .tc b) = Wh m d b :=
  Wc0_of_ne' m d f0 f1 f2 _ (StableHlo.devRef_ne_of_ne h.1) (StableHlo.devRef_ne_of_ne h.2.1) (StableHlo.devRef_ne_of_ne h.2.2)
theorem Wc0_xi : Wc0 m d f0 f1 f2 xi' = f0 := by
  unfold Wc0
  rw [Function.update_of_ne (show xi' ≠ rel' by decide), Function.update_of_ne (show xi' ≠ xj' by decide), Function.update_self]
theorem Wc0_xj : Wc0 m d f0 f1 f2 xj' = f1 := by
  unfold Wc0
  rw [Function.update_of_ne (show xj' ≠ rel' by decide), Function.update_self]
theorem Wc0_rel : Wc0 m d f0 f1 f2 rel' = f2 := by
  unfold Wc0
  rw [Function.update_self]

end Wc0

theorem st1_eq (d : Dev nD) :
    (bigSep Finset.univ fun c : Fin ((K (F := F)).nCore 1) => (P m).st 1 d c)
      = bigSep Finset.univ fun c : Fin (grid2.bound 0) => bigSep Finset.univ fun i : Fin (grid2.bound 1) => go2At m d c i := rfl
end Cert.Proof.KB.Calls

end
-- ==== Proof.KB.R3Val.lean ====
import proofs.«205084_g25537875542483_cont_9to1_419_23_alg».proof.Proof.KB.R3Dat
import Idealize.ShloMosaic.Lib.Pipeline.Value

set_option maxRecDepth 16384

noncomputable section

namespace Cert.Proof.KB.R3Val

open Cert.Kernel Cert.Kernel.Gen Cert.Proof.KB Cert.Proof.KB.R3Dat

open Idealize.ShloMosaic Idealize.ShloMosaic.TcCoe
open Idealize.ShloMosaic.SparseCore.Cfg (HIx)
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))
  (O : CellTallies nD τ sig (HIx 2)) (Rec : Set (SemLoc sig × HIx 2))

theorem arrAt3_in (c : Dev nD) (w : Fin cfg3.W) (hw : (cfg3.win w).isOut = false) (n : Nat) :
    (dat3 V O Rec c).arrAt w n = V c (Pipeline.arrRef spec3 w) :=
  ((dat3 V O Rec c).arrAt_in w hw n).trans (A_eq3 V O Rec c w)

theorem arrAt3_out (c : Dev nD) :
    ((cfg3.win 11).blk t3_0).view.read (Elt F) ((dat3 V O Rec c).arrAt 11 cfg3.N) = out3_11 (iblk3 V c 0 t3_0) (iblk3 V c 1 t3_0) (iblk3 V c 2 t3_0) (iblk3 V c 3 t3_0) (iblk3 V c 4 t3_0) (iblk3 V c 5 t3_0) (iblk3 V c 6 t3_0) (iblk3 V c 7 t3_0) (iblk3 V c 8 t3_0) (iblk3 V c 9 t3_0) (iblk3 V c 10 t3_0) :=
  ((dat3 V O Rec c).read_blk_arrAt_eq_flushed 11 (fun t t' _ _ h => absurd ((fin_N3 t).trans (fin_N3 t').symm) h)
    cfg3.N t3_0 t3_0.isLt (flush3_11 t3_0)).trans (after3_11 V O Rec c t3_0)

end Cert.Proof.KB.R3Val

end
-- ==== Proof.KB.Main.lean ====
import proofs.«205084_g25537875542483_cont_9to1_419_23_alg».proof.Proof.KB.Steps
import proofs.«205084_g25537875542483_cont_9to1_419_23_alg».proof.Proof.KB.Calls
import proofs.«205084_g25537875542483_cont_9to1_419_23_alg».proof.Proof.KB.R3Val

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9,
  main_arg10, main_arg11, main_arg12, main_arg13, main_arg14, main_arg15, main_arg16, main_arg17, main_arg18, main_arg19]

abbrev Wr1 (d : Dev nD) (f0 : Buf (Elt F) (K0Body.xiLoc d)) (f1 : Buf (Elt F) (K0Body.xjLoc d)) (f2 : Buf (Elt F) (K0Body.relLoc d)) : Valuation τ sig (Elt F) :=
  exit1 (fun _ => Calls.Wc0 m d f0 f1 f2) ((K (F := F)).Otc d 1) (Bn (F := F) d 1) d

abbrev Wc1 (d : Dev nD) (f0 : Buf (Elt F) (K0Body.xiLoc d)) (f1 : Buf (Elt F) (K0Body.xjLoc d)) (f2 : Buf (Elt F) (K0Body.relLoc d)) (g : Buf (Elt F) (K2Body.partsLoc d)) :
    Valuation τ sig (Elt F) := Function.update (Wr1 m d f0 f1 f2) Calls.parts' g

abbrev Wr3 (d : Dev nD) (f0 : Buf (Elt F) (K0Body.xiLoc d)) (f1 : Buf (Elt F) (K0Body.xjLoc d)) (f2 : Buf (Elt F) (K0Body.relLoc d)) (g : Buf (Elt F) (K2Body.partsLoc d)) :
    Valuation τ sig (Elt F) := exit3 (fun _ => Wc1 m d f0 f1 f2 g) ((K (F := F)).Otc d 2) (Bn (F := F) d 2) d

theorem Wc1_arg (d : Dev nD) (f0 f1 f2 g) (b : Ref sig .tc) (hb : b ∈ argRefs) :
    Wc1 m d f0 f1 f2 g (Proc.devRef .tc b) = m (d, Proc.devRef .tc b) := by
  have h45 : (Proc.devRef .tc b : DevRef τ sig) ≠ Calls.parts' :=
    StableHlo.devRef_ne_of_ne ((by decide : ∀ b ∈ argRefs, b ≠ main_v45) b hb)
  have h1 : ∀ w, Pipeline.arrRef spec1 w ≠ b := (by decide : ∀ b ∈ argRefs, ∀ w, Pipeline.arrRef spec1 w ≠ b) b hb
  have h0 : b ≠ main_v43_0 ∧ b ≠ main_v43_1 ∧ b ≠ main_v43_2 := (by decide : ∀ b ∈ argRefs, b ≠ main_v43_0 ∧ b ≠ main_v43_1 ∧ b ≠ main_v43_2) b hb
  have hW : b ∉ IdxRange.hostPre_W := (by decide : ∀ b ∈ argRefs, b ∉ IdxRange.hostPre_W) b hb
  show Function.update _ _ _ _ = _
  rw [Function.update_of_ne h45]
  show exit1 _ _ _ d (Proc.devRef .tc b) = _
  rw [exit1_of_ne _ _ _ d b h1, Calls.Wc0_of_ne m d f0 f1 f2 b h0]
  unfold Wh
  exact IdxRange.after_hostPre_of _ b hW

theorem Wr3_arg (d : Dev nD) (f0 f1 f2 g) (b : Ref sig .tc) (hb : b ∈ argRefs) :
    Wr3 m d f0 f1 f2 g (Proc.devRef .tc b) = m (d, Proc.devRef .tc b) := by
  by_cases h0 : b = main_arg0
  · subst h0
    show exit3 _ _ _ d (Proc.devRef .tc (Pipeline.arrRef spec3 0)) = _
    rw [exit3_arr, R3Val.arrAt3_in _ _ _ d 0 rfl cfg3.N]
    exact Wc1_arg m d f0 f1 f2 g main_arg0 (by decide)
  · have h3 : ∀ w, Pipeline.arrRef spec3 w ≠ b :=
      (by decide : ∀ b ∈ argRefs, b ≠ main_arg0 → ∀ w, Pipeline.arrRef spec3 w ≠ b) b hb h0
    show exit3 _ _ _ d (Proc.devRef .tc b) = _
    rw [exit3_of_ne _ _ _ d b h3]
    exact Wc1_arg m d f0 f1 f2 g b hb

theorem G_eq (d : Dev nD) : (G (F := F) d : sProp 𝕄)
    = iprop((Pipeline.cellsGhost (Pipeline.pin (pcfgs (F := F)) adm) (EP (F := F)) 0 d ∗ Pipeline.toksInit (Pipeline.pin (pcfgs (F := F)) adm) (EP (F := F)) 0 d)
        ∗ (Pipeline.cellsGhost (Pipeline.pin (pcfgs (F := F)) adm) (EP (F := F)) 1 d ∗ Pipeline.toksInit (Pipeline.pin (pcfgs (F := F)) adm) (EP (F := F)) 1 d)) := by
  unfold G
  rw [show (Finset.univ : Finset (Fin 2)) = {0, 1} by decide, SparseCore.bigSep_insert' (by decide), bigSep_singleton]

omit [FloatOps F] in
theorem bigSep_emp' {I : Type} (s : Finset I) : (bigSep s fun _ => iprop(emp)) = (iprop(emp) : sProp 𝕄) := bigSep_emp_const s

end Cert.Proof.KB

end
-- ==== Proof.KB.K0Frame.lean ====
import proofs.«205084_g25537875542483_cont_9to1_419_23_alg».proof.Proof.KB.K0Body

noncomputable section

namespace Cert.Proof.KB.K0Body

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "xV" => (Memref.whole Cert.Kernel.main_arg0_scv : Memref Cert.Kernel.sig Kind.scVector Space.hbm Cert.Kernel.S10000x128 EltTy.f32)
local notation "pxV" => (Memref.whole Cert.Kernel.main_v2_scv : Memref Cert.Kernel.sig Kind.scVector Space.hbm Cert.Kernel.S10112 EltTy.f32)
local notation "pyV" => (Memref.whole Cert.Kernel.main_v5_scv : Memref Cert.Kernel.sig Kind.scVector Space.hbm Cert.Kernel.S10112 EltTy.f32)
local notation "pzV" => (Memref.whole Cert.Kernel.main_v8_scv : Memref Cert.Kernel.sig Kind.scVector Space.hbm Cert.Kernel.S10112 EltTy.f32)
local notation "srcV" => (Memref.whole Cert.Kernel.main_v15_scv : Memref Cert.Kernel.sig Kind.scVector Space.hbm Cert.Kernel.S32x80x128 EltTy.i32)
local notation "dstV" => (Memref.whole Cert.Kernel.main_v18_scv : Memref Cert.Kernel.sig Kind.scVector Space.hbm Cert.Kernel.S32x80x128 EltTy.i32)
local notation "xiV" => (Memref.whole Cert.Kernel.main_v43_0_scv : Memref Cert.Kernel.sig Kind.scVector Space.hbm Cert.Kernel.S327680x128 EltTy.f32)
local notation "xjV" => (Memref.whole Cert.Kernel.main_v43_1_scv : Memref Cert.Kernel.sig Kind.scVector Space.hbm Cert.Kernel.S327680x128 EltTy.f32)
local notation "relV" => (Memref.whole Cert.Kernel.main_v43_2_scv : Memref Cert.Kernel.sig Kind.scVector Space.hbm Cert.Kernel.S20480x16 EltTy.f32)
local notation "iaV" => (Memref.whole Cert.Kernel.cc0_scratch0 : Memref Cert.Kernel.sig Kind.scVector Space.vmem Cert.Kernel.S128 EltTy.i32)
local notation "ibV" => (Memref.whole Cert.Kernel.cc0_scratch1 : Memref Cert.Kernel.sig Kind.scVector Space.vmem Cert.Kernel.S128 EltTy.i32)
local notation "raV" => (Memref.whole Cert.Kernel.cc0_scratch2 : Memref Cert.Kernel.sig Kind.scVector Space.vmem Cert.Kernel.S128x128 EltTy.f32)
local notation "rbV" => (Memref.whole Cert.Kernel.cc0_scratch3 : Memref Cert.Kernel.sig Kind.scVector Space.vmem Cert.Kernel.S128x128 EltTy.f32)
local notation "rvV" => (Memref.whole Cert.Kernel.cc0_scratch4 : Memref Cert.Kernel.sig Kind.scVector Space.vmem Cert.Kernel.S8x16 EltTy.f32)
local notation "pxS" => (Memref.whole Cert.Kernel.cc0_scratch5 : Memref Cert.Kernel.sig Kind.scVector Space.vmem Cert.Kernel.S10112 EltTy.f32)
local notation "pyS" => (Memref.whole Cert.Kernel.cc0_scratch6 : Memref Cert.Kernel.sig Kind.scVector Space.vmem Cert.Kernel.S10112 EltTy.f32)
local notation "pzS" => (Memref.whole Cert.Kernel.cc0_scratch7 : Memref Cert.Kernel.sig Kind.scVector Space.vmem Cert.Kernel.S10112 EltTy.f32)

set_option hygiene false in
local macro "vli " H:ident base:term : tactic =>
  `(tactic| (iapply (SparseCore.wp_vectorLoadIdx 𝒱₀ (V d (cV0 L) (jV0 L)) none Set.univ (base := $base) (S := Finset.univ) (q := fullShare) (Finset.subset_univ _)) $$ $H:ident; iintro $H:ident))

section Body

variable [FloatOps F]
variable (q : PosShare TreeShare) (d : Dev nD) (L : grid0.Coords)
variable (fx : Buf (Elt F) (xLoc d)) (fpx : Buf (Elt F) (pxLoc d)) (fpy : Buf (Elt F) (pyLoc d)) (fpz : Buf (Elt F) (pzLoc d))
variable (fsrc : Buf (Elt F) (srcLoc d)) (fdst : Buf (Elt F) (dstLoc d))

-- A carved-out part and the kept rest join as the part and the rest do.
theorem join_kept {P Q R : sProp 𝕄} (h : iprop(P ∗ Q) ⊢ R) : iprop(P ∗ Kept Q) ⊢ R := h

def inv (O : CellTallies nD τ sig (HIx 2)) (W : Waits sig (HIx 2)) (_ : Nat) (_ : PUnit) : sProp 𝕄 :=
  iprop(∃ fxi fxj frel fia fib fra frb frv fpxs fpys fpzs W', ⌜∀ p ∈ W', p ∈ W ∨ p.2 = none⌝
    ∗ Transfers.MayWaits (V d (cV0 L) (jV0 L)) (default : HIx 2) O
    ∗ ((xV).view.loc (V d (cV0 L) (jV0 L)) ↦{q} fx)
    ∗ ((srcV).view.loc (V d (cV0 L) (jV0 L)) ↦[(srcBlk L).set]{fullShare} fsrc)
    ∗ ((dstV).view.loc (V d (cV0 L) (jV0 L)) ↦[(srcBlk L).set]{fullShare} fdst)
    ∗ ((xiV).view.loc (V d (cV0 L) (jV0 L)) ↦[(outBlk L).set]{fullShare} fxi)
    ∗ ((xjV).view.loc (V d (cV0 L) (jV0 L)) ↦[(outBlk L).set]{fullShare} fxj)
    ∗ ((relV).view.loc (V d (cV0 L) (jV0 L)) ↦[(relBlk L).set]{fullShare} frel)
    ∗ ((iaV).view.loc (V d (cV0 L) (jV0 L)) ↦{fullShare} fia)
    ∗ ((ibV).view.loc (V d (cV0 L) (jV0 L)) ↦{fullShare} fib)
    ∗ ((raV).view.loc (V d (cV0 L) (jV0 L)) ↦{fullShare} fra)
    ∗ ((rbV).view.loc (V d (cV0 L) (jV0 L)) ↦{fullShare} frb)
    ∗ ((rvV).view.loc (V d (cV0 L) (jV0 L)) ↦{fullShare} frv)
    ∗ (((pxS).access (.whole S10112)).loc (V d (cV0 L) (jV0 L)) ↦{fullShare} fpxs)
    ∗ (((pyS).access (.whole S10112)).loc (V d (cV0 L) (jV0 L)) ↦{fullShare} fpys)
    ∗ (((pzS).access (.whole S10112)).loc (V d (cV0 L) (jV0 L)) ↦{fullShare} fpzs)
    ∗ semVal (cell d L cc0_scratch8.sem) 0
    ∗ semVal (cell d L cc0_scratch9.sem) 0
    ∗ semVal (cell d L cc0_scoped3.sem) 0
    ∗ semVal (cell d L cc0_scoped4.sem) 0
    ∗ semVal (cell d L cc0_scoped5.sem) 0
    ∗ semVal (cell d L cc0_scoped6.sem) 0
    ∗ semVal (cell d L cc0_scoped7.sem) 0
    ∗ owes (V d (cV0 L) (jV0 L)) O W')

set_option maxHeartbeats 4000000 in
theorem body0 (O : CellTallies nD τ sig (HIx 2)) (W : Waits sig (HIx 2)) (hO : ∀ g, O g none = 0) (hok : IdxOK d fsrc fdst) :
    iprop(levAts (K (F := F)).L (K (F := F)).lev ∗ emp ∗ go0 q d L fx fpx fpy fpz fsrc fdst
        ∗ scopedBufs (V d (cV0 L) (jV0 L)) ∗ scopedSems0 (V d (cV0 L) (jV0 L)) ∗ owes (V d (cV0 L) (jV0 L)) O W)
      ⊢ wp frame (wpE (defs₀ (F := F)) 𝒱₀ (V d (cV0 L) (jV0 L)) none) Set.univ
          (cc0_k L xV (Memref.isWhole_whole _) pxV (Memref.isWhole_whole _) pyV (Memref.isWhole_whole _) pzV (Memref.isWhole_whole _)
            srcV (Memref.isWhole_whole _) dstV (Memref.isWhole_whole _) xiV (Memref.isWhole_whole _) xjV (Memref.isWhole_whole _)
            relV (Memref.isWhole_whole _) iaV (Memref.isWhole_whole _) ibV (Memref.isWhole_whole _) raV (Memref.isWhole_whole _)
            rbV (Memref.isWhole_whole _) rvV (Memref.isWhole_whole _) pxS (Memref.isWhole_whole _) pyS (Memref.isWhole_whole _)
            pzS (Memref.isWhole_whole _) cc0_scratch8 cc0_scratch9 cc0_scoped0 cc0_scoped1 cc0_scoped2 cc0_scoped3 cc0_scoped4
            cc0_scoped5 cc0_scoped6 cc0_scoped7)
          fun _ => iprop(td0 q d L fx fpx fpy fpz fsrc fdst ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  simp only [cc0_k_eq_skeleton]; unfold cc0_k_skel
  rw [(K (F := F)).scopedBufs_V facts d (cV0 L) (jV0 L), SparseCore.Cfg.scopedSems0_V (Val := Elt F) d (cV0 L) (jV0 L), ownSems0_V, ownBufs_V]
  unfold go0
  iintro ⟨#Hlv, -, ⟨Hx, Hpx, Hpy, Hpz, Hsrc, Hdst, ⟨%fxi, Hxi⟩, ⟨%fxj, Hxj⟩, ⟨%frel, Hrel⟩⟩,
    ⟨⟨%fia, Hia⟩, ⟨%fib, Hib⟩, ⟨%fra, Hra⟩, ⟨%frb, Hrb⟩, ⟨%frv, Hrv⟩, ⟨%fpxs, Hpxs⟩, ⟨%fpys, Hpys⟩, ⟨%fpzs, Hpzs⟩, Hbufs⟩,
    ⟨HsemA, HsemB, Hsem0, Hsem1, Hsem2, Hsem3, Hsem4, Hsem5, Hsem6, Hsem7, Hsems⟩, HO⟩
  ihave Hmw := (show levAts (K (F := F)).L (K (F := F)).lev ⊢ Transfers.MayWaits (V d (cV0 L) (jV0 L)) (default : HIx 2) O from
    (K (F := F)).mayWaits_none (thr := V d (cV0 L) (jV0 L)) hO) $$ Hlv
  ihave Hx := (Entails.of_eq (pts_x (F := F) d L _ _ _).symm) $$ Hx
  ihave Hpx := (Entails.of_eq (pts_px (F := F) d L _ _ _).symm) $$ Hpx
  ihave Hpy := (Entails.of_eq (pts_py (F := F) d L _ _ _).symm) $$ Hpy
  ihave Hpz := (Entails.of_eq (pts_pz (F := F) d L _ _ _).symm) $$ Hpz
  ihave Hsrc := (Entails.of_eq (pts_src (F := F) d L _ _ _).symm) $$ Hsrc
  ihave Hdst := (Entails.of_eq (pts_dst (F := F) d L _ _ _).symm) $$ Hdst
  ihave Hxi := (Entails.of_eq (pts_xi (F := F) d L _ _ _).symm) $$ Hxi
  ihave Hxj := (Entails.of_eq (pts_xj (F := F) d L _ _ _).symm) $$ Hxj
  ihave Hrel := (Entails.of_eq (pts_rel (F := F) d L _ _ _).symm) $$ Hrel
  ihave Hia := (Entails.of_eq (pts_s0 (F := F) d L _).symm) $$ Hia
  ihave Hib := (Entails.of_eq (pts_s1 (F := F) d L _).symm) $$ Hib
  ihave Hra := (Entails.of_eq (pts_s2 (F := F) d L _).symm) $$ Hra
  ihave Hrb := (Entails.of_eq (pts_s3 (F := F) d L _).symm) $$ Hrb
  ihave Hrv := (Entails.of_eq (pts_s4 (F := F) d L _).symm) $$ Hrv
  ihave Hpxs := (Entails.of_eq (pts_s5 (F := F) d L _).symm) $$ Hpxs
  ihave Hpys := (Entails.of_eq (pts_s6 (F := F) d L _).symm) $$ Hpys
  ihave Hpzs := (Entails.of_eq (pts_s7 (F := F) d L _).symm) $$ Hpzs
  sl_exec
  sl_for (inv q d L fx fsrc fdst O W) $$ [Hmw Hx Hsrc Hdst Hxi Hxj Hrel Hia Hib Hra Hrb Hrv Hpxs Hpys Hpzs HsemA HsemB Hsem3 Hsem4 Hsem5 Hsem6 Hsem7 HO]
  case region =>
    intro k _
    unfold inv
    iintro ⟨%fxi, %fxj, %frel, %fia, %fib, %fra, %frb, %frv, %fpxs, %fpys, %fpzs, %W', %hW', Hmw, Hx, Hsrc, Hdst, Hxi, Hxj, Hrel, Hia, Hib, Hra, Hrb, Hrv, Hpxs, Hpys, Hpzs, HsemA, HsemB, Hsem3, Hsem4, Hsem5, Hsem6, Hsem7, HO⟩
    have hsS : (srcRowK L k).view.set ⊆ (srcBlk L).set := by rw [set_srcRowK]; exact srcRect_sub L k
    have hsD : (dstRowK L k).view.set ⊆ (srcBlk L).set := by rw [set_dstRowK]; exact srcRect_sub L k
    have hsXi : (xiRowK L k).view.set ⊆ (outBlk L).set := by rw [set_xiRowK]; exact outRect_sub L k
    have hsXj : (xjRowK L k).view.set ⊆ (outBlk L).set := by rw [set_xjRowK]; exact outRect_sub L k
    have hsR : (relRowK L k).view.set ⊆ (relBlk L).set := by rw [set_relRowK]; exact relRect_sub L k
    ihave ⟨Hsrcrow, Hsrc⟩ := (pointsTo_split_subset (ℓ := (srcRowK L k).view.loc (V d (cV0 L) (jV0 L))) (I := (srcRowK L k).view.set) (q := fullShare) (f := fsrc) hsS).1 $$ Hsrc
    ihave Hsrc := (Entails.of_eq (kept_eq _).symm) $$ Hsrc
    ihave ⟨Hdstrow, Hdst⟩ := (pointsTo_split_subset (ℓ := (dstRowK L k).view.loc (V d (cV0 L) (jV0 L))) (I := (dstRowK L k).view.set) (q := fullShare) (f := fdst) hsD).1 $$ Hdst
    ihave Hdst := (Entails.of_eq (kept_eq _).symm) $$ Hdst
    ihave ⟨Hxirow, Hxi⟩ := (pointsTo_split_subset (ℓ := (xiRowK L k).view.loc (V d (cV0 L) (jV0 L))) (I := (xiRowK L k).view.set) (q := fullShare) (f := fxi) hsXi).1 $$ Hxi
    ihave Hxi := (Entails.of_eq (kept_eq _).symm) $$ Hxi
    ihave ⟨Hxjrow, Hxj⟩ := (pointsTo_split_subset (ℓ := (xjRowK L k).view.loc (V d (cV0 L) (jV0 L))) (I := (xjRowK L k).view.set) (q := fullShare) (f := fxj) hsXj).1 $$ Hxj
    ihave Hxj := (Entails.of_eq (kept_eq _).symm) $$ Hxj
    ihave ⟨Hrelrow, Hrel⟩ := (pointsTo_split_subset (ℓ := (relRowK L k).view.loc (V d (cV0 L) (jV0 L))) (I := (relRowK L k).view.set) (q := fullShare) (f := frel) hsR).1 $$ Hrel
    ihave Hrel := (Entails.of_eq (kept_eq _).symm) $$ Hrel
    sl_exec
    have hinA := ia_ok d L k fsrc fdst hok fia (body0.sl.dma0_3 d L fsrc k) rfl
    have hinB := ib_ok d L k fsrc fdst hok fib (body0.sl.dma0_4 d L fdst k) rfl
    have hc1 : k0_chk1 _ := chk3 _ _ hinA ![0] inb_S128_S16_0
    have hc2 : k0_chk2 _ := chk3 _ _ hinB ![0] inb_S128_S16_0
    have hc3 : k0_chk3 _ := chk3 _ _ hinA ![16] inb_S128_S16_16
    have hc4 : k0_chk4 _ := chk3 _ _ hinB ![16] inb_S128_S16_16
    have hc5 : k0_chk5 _ := chk3 _ _ hinA ![32] inb_S128_S16_32
    have hc6 : k0_chk6 _ := chk3 _ _ hinB ![32] inb_S128_S16_32
    have hc7 : k0_chk7 _ := chk3 _ _ hinA ![48] inb_S128_S16_48
    have hc8 : k0_chk8 _ := chk3 _ _ hinB ![48] inb_S128_S16_48
    have hc9 : k0_chk9 _ := chk3 _ _ hinA ![64] inb_S128_S16_64
    have hc10 : k0_chk10 _ := chk3 _ _ hinB ![64] inb_S128_S16_64
    have hc11 : k0_chk11 _ := chk3 _ _ hinA ![80] inb_S128_S16_80
    have hc12 : k0_chk12 _ := chk3 _ _ hinB ![80] inb_S128_S16_80
    have hc13 : k0_chk13 _ := chk3 _ _ hinA ![96] inb_S128_S16_96
    have hc14 : k0_chk14 _ := chk3 _ _ hinB ![96] inb_S128_S16_96
    have hc15 : k0_chk15 _ := chk3 _ _ hinA ![112] inb_S128_S16_112
    have hc16 : k0_chk16 _ := chk3 _ _ hinB ![112] inb_S128_S16_112
    ihave ⟨Hx1, Hx2⟩ := (pointsTo_share (PosShare.mem_left_op_right q)).1 $$ Hx
    ihave ⟨Hia1, Hia2⟩ := (pointsTo_share (PosShare.mem_left_op_right fullShare)).1 $$ Hia
    ihave ⟨Hib1, Hib2⟩ := (pointsTo_share (PosShare.mem_left_op_right fullShare)).1 $$ Hib
    sl_exec
    vli Hpxs pxS
    vli Hpxs pxS
    vli Hpys pyS
    vli Hpys pyS
    sl_exec
    vli Hpzs pzS
    vli Hpzs pzS
    sl_exec
    vli Hpxs pxS
    vli Hpxs pxS
    vli Hpys pyS
    vli Hpys pyS
    vli Hpzs pzS
    vli Hpzs pzS
    sl_exec
    vli Hpxs pxS
    vli Hpxs pxS
    vli Hpys pyS
    vli Hpys pyS
    sl_exec
    vli Hpzs pzS
    vli Hpzs pzS
    sl_exec
    vli Hpxs pxS
    vli Hpxs pxS
    vli Hpys pyS
    vli Hpys pyS
    vli Hpzs pzS
    vli Hpzs pzS
    sl_exec
    vli Hpxs pxS
    vli Hpxs pxS
    vli Hpys pyS
    vli Hpys pyS
    vli Hpzs pzS
    vli Hpzs pzS
    sl_exec
    vli Hpxs pxS
    vli Hpxs pxS
    vli Hpys pyS
    vli Hpys pyS
    vli Hpzs pzS
    vli Hpzs pzS
    sl_exec
    vli Hpxs pxS
    vli Hpxs pxS
    vli Hpys pyS
    vli Hpys pyS
    vli Hpzs pzS
    vli Hpzs pzS
    sl_exec
    vli Hpxs pxS
    vli Hpxs pxS
    vli Hpys pyS
    vli Hpys pyS
    vli Hpzs pzS
    vli Hpzs pzS
    sl_exec
    sl_step
    ihave Hx := (pointsTo_share (PosShare.mem_left_op_right q)).2 $$ [Hx1 Hx2]
    · iframe
    ihave Hia := (pointsTo_share (PosShare.mem_left_op_right fullShare)).2 $$ [Hia1 Hia2]
    · iframe
    ihave Hib := (pointsTo_share (PosShare.mem_left_op_right fullShare)).2 $$ [Hib1 Hib2]
    · iframe
    ihave Hsrc := join_kept (pointsTo_split_subset (ℓ := (srcRowK L k).view.loc (V d (cV0 L) (jV0 L))) (I := (srcRowK L k).view.set) (q := fullShare) (f := fsrc) hsS).2 $$ [Hsrcrow Hsrc]
    · iframe
    ihave Hdst := join_kept (pointsTo_split_subset (ℓ := (dstRowK L k).view.loc (V d (cV0 L) (jV0 L))) (I := (dstRowK L k).view.set) (q := fullShare) (f := fdst) hsD).2 $$ [Hdstrow Hdst]
    · iframe
    ihave Hxi := join_kept (pointsTo_join_subset (ℓ := (xiRowK L k).view.loc (V d (cV0 L) (jV0 L))) (I := (xiRowK L k).view.set) (q := fullShare) hsXi) $$ [Hxirow Hxi]
    · iframe
    ihave Hxj := join_kept (pointsTo_join_subset (ℓ := (xjRowK L k).view.loc (V d (cV0 L) (jV0 L))) (I := (xjRowK L k).view.set) (q := fullShare) hsXj) $$ [Hxjrow Hxj]
    · iframe
    ihave Hrel := join_kept (pointsTo_join_subset (ℓ := (relRowK L k).view.loc (V d (cV0 L) (jV0 L))) (I := (relRowK L k).view.set) (q := fullShare) hsR) $$ [Hrelrow Hrel]
    · iframe
    iexists _, _, _, _, _, _, _, _, _, _, _, _
    iframe
    isplitr
    · ipureintro; exact W_ins _ (W_ins _ (W_ins _ (W_ins _ (W_ins _ (W_ins _ (W_ins _ hW'))))))
    isplitl [HsemA]; · iexact HsemA
    isplitl [HsemB]; · iexact HsemB
    isplitl [Hsem3]; · iexact Hsem3
    isplitl [Hsem4]; · iexact Hsem4
    isplitl [Hsem5]; · iexact Hsem5
    isplitl [Hsem6]; · iexact Hsem6
    iexact Hsem7
  · unfold inv
    ihave Hpxs := (Entails.of_eq (rfl : ((pxS).view.loc (V d (cV0 L) (jV0 L)) ↦{fullShare} _ : sProp 𝕄) = (((pxS).access (.whole S10112)).loc (V d (cV0 L) (jV0 L)) ↦{fullShare} _))) $$ Hpxs
    ihave Hpys := (Entails.of_eq (rfl : ((pyS).view.loc (V d (cV0 L) (jV0 L)) ↦{fullShare} _ : sProp 𝕄) = (((pyS).access (.whole S10112)).loc (V d (cV0 L) (jV0 L)) ↦{fullShare} _))) $$ Hpys
    ihave Hpzs := (Entails.of_eq (rfl : ((pzS).view.loc (V d (cV0 L) (jV0 L)) ↦{fullShare} _ : sProp 𝕄) = (((pzS).access (.whole S10112)).loc (V d (cV0 L) (jV0 L)) ↦{fullShare} _))) $$ Hpzs
    iexists _, _, _, _, _, _, _, _, _, _, _, _
    iframe Hmw
    iframe
    ipureintro; exact W_ins _ (W_ins _ (W_ins _ (fun p hp => .inl hp)))
  iintro %_ HI
  unfold inv
  icases HI with ⟨%fxi, %fxj, %frel, %fia, %fib, %fra, %frb, %frv, %fpxs, %fpys, %fpzs, %W', %hW', -, Hx, Hsrc, Hdst, Hxi, Hxj, Hrel, Hia, Hib, Hra, Hrb, Hrv, Hpxs, Hpys, Hpzs, HsemA, HsemB, Hsem3, Hsem4, Hsem5, Hsem6, Hsem7, HO⟩
  sl_exec
  sl_step
  unfold td0
  isplitl [Hx Hpx Hpy Hpz Hsrc Hdst Hxi Hxj Hrel]
  · isplitl [Hx]; · iexact Hx
    isplitl [Hpx]; · iexact Hpx
    isplitl [Hpy]; · iexact Hpy
    isplitl [Hpz]; · iexact Hpz
    isplitl [Hsrc]; · iexact Hsrc
    isplitl [Hdst]; · iexact Hdst
    isplitl [Hxi]; · iexists _; iexact Hxi
    isplitl [Hxj]; · iexists _; iexact Hxj
    iexists _; iexact Hrel
  isplitl [Hia Hib Hra Hrb Hrv Hpxs Hpys Hpzs Hbufs]
  · isplitl [Hia]; · iexists _; iexact Hia
    isplitl [Hib]; · iexists _; iexact Hib
    isplitl [Hra]; · iexists _; iexact Hra
    isplitl [Hrb]; · iexists _; iexact Hrb
    isplitl [Hrv]; · iexists _; iexact Hrv
    isplitl [Hpxs]; · iexists _; iexact Hpxs
    isplitl [Hpys]; · iexists _; iexact Hpys
    isplitl [Hpzs]; · iexists _; iexact Hpzs
    iexact Hbufs
  isplitl [HsemA HsemB Hsem0 Hsem1 Hsem2 Hsem3 Hsem4 Hsem5 Hsem6 Hsem7 Hsems]
  · iframe
    isplitl [Hsem0]; · iexact Hsem0
    isplitl [Hsem1]; · iexact Hsem1
    iexact Hsem2
  iexists W'; isplitr
  · ipureintro; exact hW'
  · iexact HO

end Body

end Cert.Proof.KB.K0Body

end
-- ==== Proof.KB.PayFrame.lean ====
import proofs.«205084_g25537875542483_cont_9to1_419_23_alg».proof.Proof.KB.Pay
import proofs.«205084_g25537875542483_cont_9to1_419_23_alg».proof.Proof.KB.K0Frame

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

instance P_storable : (P (F := F) m).IsStorable where
  st q d c := match q, c with
    | 0, c => by haveI : ∀ i : Fin (grid0.bound 1), BI.Storable (upEmb : UEmb _ 𝕄) (go0At m d c i) := fun i => go0At_storable m d c i; exact (inferInstance : BI.Storable (upEmb : UEmb _ 𝕄) (bigSep Finset.univ fun i : Fin (grid0.bound 1) => go0At m d c i))
    | 1, c => by haveI : ∀ i : Fin (grid2.bound 1), BI.Storable (upEmb : UEmb _ 𝕄) (go2At m d c i) := fun i => go2At_storable m d c i; exact (inferInstance : BI.Storable (upEmb : UEmb _ 𝕄) (bigSep Finset.univ fun i : Fin (grid2.bound 1) => go2At m d c i))
  dn q d c := match q, c with
    | 0, c => by haveI : ∀ i : Fin (grid0.bound 1), BI.Storable (upEmb : UEmb _ 𝕄) (td0At m d c i) := fun i => td0At_storable m d c i; exact (inferInstance : BI.Storable (upEmb : UEmb _ 𝕄) (bigSep Finset.univ fun i : Fin (grid0.bound 1) => td0At m d c i))
    | 1, c => by haveI : ∀ i : Fin (grid2.bound 1), BI.Storable (upEmb : UEmb _ 𝕄) (td2At m d c i) := fun i => td2At_storable m d c i; exact (inferInstance : BI.Storable (upEmb : UEmb _ 𝕄) (bigSep Finset.univ fun i : Fin (grid2.bound 1) => td2At m d c i))
  go q d c i := match q, c, i with
    | 0, c, i => go0At_storable m d c i
    | 1, c, i => go2At_storable m d c i
  td q d c i := match q, c, i with
    | 0, c, i => td0At_storable m d c i
    | 1, c, i => td2At_storable m d c i

variable (hpre : ∀ d : Dev nD, IdxRange.PreAt m d)

include hpre in
theorem tileObl0 : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vec0]; simp only [SparseCore.onTile, hc, and_self, ↓reduceDIte]
  exact (K0Body.body0 _ d (L0 ⟨_, hc.1⟩ ⟨_, hc.2⟩) _ _ _ _ _ _ O W hO (idxOK0 m hpre d)).trans (wp_mono frame _ _ fun _ => obl_post)

include hpre in
theorem tileObl1 : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vec2]; simp only [SparseCore.onTile, hc, and_self, ↓reduceDIte]
  show iprop(_ ∗ emp ∗ go2At m d c i ∗ _) ⊢ wp _ _ _ _ (fun _ => iprop(td2At m d c i ∗ _))
  unfold go2At
  iintro ⟨Hlv, He, ⟨%fmt, Hgo⟩, Hsb, Hss, HO⟩
  iapply (wp_wand_r frame _ Set.univ)
  isplitl [Hlv He Hgo Hsb Hss HO]
  · iapply (K2Body.body2 d (L2 ⟨_, hc.1⟩ ⟨_, hc.2⟩) _ _ _ fmt _ _ O W hO (dstOK2 m hpre d))
    isplitl [Hlv]; · iexact Hlv
    isplitl [He]; · iexact He
    isplitl [Hgo]; · iexact Hgo
    isplitl [Hsb]; · iexact Hsb
    isplitl [Hss]; · iexact Hss
    iexact HO
  · iintro %_ ⟨Htd, Hsb, Hss, %W', %hW', HO⟩
    isplitl [Htd]; · unfold td2At; iexists fmt; iexact Htd
    isplitl [Hsb]; · iexact Hsb
    isplitl [Hss]; · iexact Hss
    iexists W'; isplitr
    · ipureintro; exact fun p hp => (hW' p hp).imp_right Or.inl
    · iexact HO

-- Handing a resource on now and taking any other back unchanged later is no update at all.
omit [FloatOps F] in
theorem split_id (A B : sProp 𝕄) : A ⊢ |={Set.univ}=> iprop(A ∗ (B -∗ B)) := by
  iintro H; imodintro
  isplitl [H]; · iexact H
  iintro H; iexact H

theorem vecSplit0 : (K (F := F)).VecSplit' (P m) 0 := fun _ _ => split_id _ _
theorem vecSplit1 : (K (F := F)).VecSplit' (P m) 1 := fun _ _ => split_id _ _

end Cert.Proof.KB

end
-- ==== Proof.KB.TilesFrame.lean ====
import proofs.«205084_g25537875542483_cont_9to1_419_23_alg».proof.Proof.KB.Tiles
import proofs.«205084_g25537875542483_cont_9to1_419_23_alg».proof.Proof.KB.PayFrame

noncomputable section

namespace Cert.Proof.KB.Tiles

open Cert.Kernel Cert.Kernel.Gen Cert.Proof.KB
open Cert.Proof.KB.K0Body (xLoc pxLoc pyLoc pzLoc srcLoc xiLoc xjLoc relLoc wid wid_lt L0_lt L1_lt srcBlk outBlk relBlk tileShare go0 td0)
open Cert.Proof.KB.K2Body (mtLoc zpkLoc partsLoc partsSet go2 td2 partsSet_disjoint partsSet_cover)

open Idealize.ShloMosaic Idealize.ShloMosaic.TileSplit
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

theorem toks_tiles_join {ℓ : Loc nD τ sig} (I : Finset (Idx ℓ)) (f : Buf (Elt F) ℓ) :
    iprop((ℓ ↦[I]{Transfers.shareDrop fullShare 32} f) ∗ bigSep (Finset.univ : Finset grid0.Coords) fun L => iprop(∃ g, ℓ ↦[I]{tileShare L} g))
      ⊢ (ℓ ↦[I]{fullShare} f : sProp 𝕄) := by
  have e := bigSep_univ_equiv widEquiv (fun k : Fin 32 => (iprop(∃ g, ℓ ↦[I]{Transfers.shareTok fullShare 32 k} g) : sProp 𝕄))
  have h := pointsTo_toks_join_agree (Ix := HIx 2) (Name := ℕ) (U := UU) (Lvl := ℕ) (ℓ := ℓ) I fullShare 32 f
  rw [e] at h
  exact h

-- Blocks of an array, pairwise disjoint and covering, each held at some contents, are the array held at some contents.
theorem blocks_join {T : Type} [Fintype T] [DecidableEq T] {ℓ : Loc nD τ sig} (K : T → Finset (Idx ℓ))
    (h : ∀ t ∈ (Finset.univ : Finset T), ∀ t' ∈ (Finset.univ : Finset T), t ≠ t' → Disjoint (K t) (K t'))
    (hc : (Finset.univ : Finset T).biUnion K = Finset.univ) (f₀ : Buf (Elt F) ℓ) :
    (bigSep (Finset.univ : Finset T) fun t => iprop(∃ f, ℓ ↦[K t]{fullShare} f)) ⊢ (iprop(∃ f, ℓ ↦{fullShare} f) : sProp 𝕄) := by
  have h' := pointsTo_blocks_join (Ix := HIx 2) (Val := Elt F) (Name := ℕ) (U := UU) (Lvl := ℕ) (ℓ := ℓ) (q := fullShare) Finset.univ K f₀ h
  rw [hc] at h'
  exact h'

section Call0

variable (d : Dev nD)
variable (fx : Buf (Elt F) (xLoc d)) (fpx : Buf (Elt F) (pxLoc d)) (fpy : Buf (Elt F) (pyLoc d)) (fpz : Buf (Elt F) (pzLoc d))
variable (fsrc : Buf (Elt F) (srcLoc d)) (fdst : Buf (Elt F) (K0Body.dstLoc d))

theorem join0_coords :
    iprop(rem0 d fx fpx fpy fpz ∗ bigSep (Finset.univ : Finset grid0.Coords) fun L => td0 (tileShare L) d L fx fpx fpy fpz fsrc fdst)
      ⊢ whole0 d fx fpx fpy fpz fsrc fdst := by
  unfold whole0 rem0 K0Body.td0
  simp only [bigSep_sep']
  rw [src_blocks, dst_blocks]
  iintro ⟨⟨Hxr, Hpxr, Hpyr, Hpzr⟩, Hxt, Hpxt, Hpyt, Hpzt, Hs, Hd, Hxi, Hxj, Hrel⟩
  isplitl [Hxr Hxt]; · iapply (toks_tiles Finset.univ fx).2; iframe
  isplitl [Hpxr Hpxt]; · iapply (toks_tiles Finset.univ fpx).2; iframe
  isplitl [Hpyr Hpyt]; · iapply (toks_tiles Finset.univ fpy).2; iframe
  isplitl [Hpzr Hpzt]; · iapply (toks_tiles Finset.univ fpz).2; iframe
  iframe Hs Hd
  isplitl [Hxi]; · iapply (blocks_join (ℓ := xiLoc d) (fun L => (outBlk L).set) outBlk_disjoint outBlk_cover fun _ => fx (Shape.Idx.first h_S10000x128)); iexact Hxi
  isplitl [Hxj]; · iapply (blocks_join (ℓ := xjLoc d) (fun L => (outBlk L).set) outBlk_disjoint outBlk_cover fun _ => fx (Shape.Idx.first h_S10000x128)); iexact Hxj
  iapply (blocks_join (ℓ := relLoc d) (fun L => (relBlk L).set) relBlk_disjoint relBlk_cover fun _ => fx (Shape.Idx.first h_S10000x128)); iexact Hrel

end Call0

section Call2

variable (d : Dev nD)
variable (fmt : Buf (Elt F) (mtLoc d)) (fdst : Buf (Elt F) (K2Body.dstLoc d)) (fz : Buf (Elt F) (zpkLoc d))

theorem join2_coords :
    iprop(rem2 d fmt fdst fz ∗ bigSep (Finset.univ : Finset grid2.Coords) fun L =>
        iprop(∃ fmt', td2 (tileShare2 L) (tileShare2 L) (tileShare2 L) d fmt' fdst fz L))
      ⊢ whole2 d fmt fdst fz := by
  unfold whole2 rem2 K2Body.td2
  have hx : ∀ L : grid2.Coords,
      (iprop(∃ fmt', (mtLoc d ↦{tileShare2 L} fmt') ∗ (K2Body.dstLoc d ↦{tileShare2 L} fdst) ∗ (zpkLoc d ↦{tileShare2 L} fz)
          ∗ ∃ f, partsLoc d ↦[partsSet L]{fullShare} f) : sProp 𝕄)
        ⊢ iprop((∃ fmt', mtLoc d ↦{tileShare2 L} fmt') ∗ (K2Body.dstLoc d ↦{tileShare2 L} fdst) ∗ (zpkLoc d ↦{tileShare2 L} fz)
          ∗ ∃ f, partsLoc d ↦[partsSet L]{fullShare} f) := by
    intro L
    iintro ⟨%fmt', Hm, Hd, Hz, Hp⟩
    iframe Hd Hz Hp
    iexists fmt'; iexact Hm
  refine (sep_mono_right (ent (bigSep_mono fun L _ => unent (hx L)))).trans ?_
  simp only [bigSep_sep']
  iintro ⟨⟨Hmr, Hdr, Hzr⟩, Hmt, Hdt, Hzt, Hp⟩
  isplitl [Hmr Hmt]; · iapply (toks_tiles_join Finset.univ fmt); iframe
  isplitl [Hdr Hdt]; · iapply (toks_tiles Finset.univ fdst).2; iframe
  isplitl [Hzr Hzt]; · iapply (toks_tiles Finset.univ fz).2; iframe
  iapply (blocks_join (ℓ := partsLoc d) partsSet partsSet_disjoint' partsSet_cover fun _ => fz (Shape.Idx.first h_S640x128)); iexact Hp

end Call2

section At

open Idealize.ShloMosaic.TcCoe

variable [FloatOps F] (m : (ℓ : Loc nD τ sig) → Buf (Elt F) ℓ) (d : Dev nD)

theorem join0 :
    iprop(rem0At m d ∗ bigSep Finset.univ fun c : Fin (grid0.bound 0) => bigSep Finset.univ fun i : Fin (grid0.bound 1) => td0At m d c i) ⊢ whole0At m d := by
  unfold whole0At rem0At
  refine (Entails.of_eq ?_).trans (join0_coords d _ _ _ _ _ _)
  rw [bigSep_coords]
  rfl

theorem split2 (fmt : Buf (Elt F) (mtLoc d)) :
    whole2At m d fmt ⊢ iprop(rem2At m d fmt ∗ bigSep Finset.univ fun c : Fin (grid2.bound 0) => bigSep Finset.univ fun i : Fin (grid2.bound 1) => go2At m d c i) := by
  unfold whole2At rem2At
  refine (split2_coords d fmt _ _).trans (sep_mono_right ?_)
  have hx : ∀ L : grid2.Coords,
      (go2 (tileShare2 L) (tileShare2 L) (tileShare2 L) d fmt (Wh m d main_v20) (Wh m d main_v21) L : sProp 𝕄)
        ⊢ iprop(∃ fmt', go2 (tileShare2 L) (tileShare2 L) (tileShare2 L) d fmt' (Wh m d main_v20) (Wh m d main_v21) L) := by
    intro L; iintro H; iexists fmt; iexact H
  refine (ent (bigSep_mono fun L _ => unent (hx L))).trans (Entails.of_eq ?_)
  rw [bigSep_coords]
  rfl

theorem join2 (fmt : Buf (Elt F) (mtLoc d)) :
    iprop(rem2At m d fmt ∗ bigSep Finset.univ fun c : Fin (grid2.bound 0) => bigSep Finset.univ fun i : Fin (grid2.bound 1) => td2At m d c i) ⊢ whole2At m d fmt := by
  unfold whole2At rem2At
  refine (Entails.of_eq ?_).trans (join2_coords d fmt _ _)
  rw [bigSep_coords]
  rfl

end At

end Cert.Proof.KB.Tiles

end
-- ==== Proof.KB.CallsFrame.lean ====
import proofs.«205084_g25537875542483_cont_9to1_419_23_alg».proof.Proof.KB.Calls
import proofs.«205084_g25537875542483_cont_9to1_419_23_alg».proof.Proof.KB.TilesFrame

noncomputable section

namespace Cert.Proof.KB.Calls

open Cert.Kernel Cert.Kernel.Gen Cert.Proof.KB

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (m : (ℓ : Loc nD τ sig) → Buf (Elt F) ℓ)

theorem st0_eq (d : Dev nD) :
    (bigSep Finset.univ fun c : Fin ((K (F := F)).nCore 0) => (P m).st 0 d c)
      = bigSep Finset.univ fun c : Fin (grid0.bound 0) => bigSep Finset.univ fun i : Fin (grid0.bound 1) => go0At m d c i := rfl
theorem dn0_eq (d : Dev nD) :
    (bigSep Finset.univ fun c : Fin ((K (F := F)).nCore 0) => (P m).dn 0 d c)
      = bigSep Finset.univ fun c : Fin (grid0.bound 0) => bigSep Finset.univ fun i : Fin (grid0.bound 1) => td0At m d c i := rfl
theorem dn1_eq (d : Dev nD) :
    (bigSep Finset.univ fun c : Fin ((K (F := F)).nCore 1) => (P m).dn 1 d c)
      = bigSep Finset.univ fun c : Fin (grid2.bound 0) => bigSep Finset.univ fun i : Fin (grid2.bound 1) => td2At m d c i := rfl

theorem call0_step (κ : GSem nD τ sig → ℕ) (d : Dev nD) {α : Type}
    (k : PUnit → Prog (TpuEff nD τ sig (Elt F) (SparseCore.Sig (ΛP (F := F)) 2) .tc) α) (Q : α → sProp 𝕄) :
    iprop((K (F := F)).ctx EH (P m) κ ∗ (K (F := F)).tcSt EH d 0 ∗ held (T d) (Pipeline.ucRefs τ sig) (Wh m d)
        ∗ (∀ f0 f1 f2, iprop((K (F := F)).tcSt EH d 1 ∗ held (T d) (Pipeline.ucRefs τ sig) (Wc0 m d f0 f1 f2))
            -∗ wp frame (wpE ((K (F := F)).defs (D (F := F))) 𝒱 (T d) none) Set.univ (k ⟨⟩) Q))
      ⊢ wp frame (wpE ((K (F := F)).defs (D (F := F))) 𝒱 (T d) none) Set.univ ((K (F := F)).run d 0 >>= k) Q := by
  have hsp : iprop((K0Body.xLoc d ↦{fullShare} Wh m d x') ∗ (K0Body.pxLoc d ↦{fullShare} Wh m d px') ∗ (K0Body.pyLoc d ↦{fullShare} Wh m d py')
        ∗ (K0Body.pzLoc d ↦{fullShare} Wh m d pz') ∗ (K0Body.srcLoc d ↦{fullShare} Wh m d src') ∗ (K0Body.dstLoc d ↦{fullShare} Wh m d dst')
        ∗ (∃ f, K0Body.xiLoc d ↦{fullShare} f) ∗ (∃ f, K0Body.xjLoc d ↦{fullShare} f) ∗ (∃ f, K0Body.relLoc d ↦{fullShare} f))
      ⊢ (iprop(Tiles.rem0At m d ∗ bigSep Finset.univ fun c : Fin (grid0.bound 0) => bigSep Finset.univ fun i : Fin (grid0.bound 1) => go0At m d c i) : sProp 𝕄) := by
    have h := Tiles.split0 m d
    unfold Tiles.whole0At Tiles.whole0 at h
    exact h
  have hjn : (iprop(Tiles.rem0At m d ∗ bigSep Finset.univ fun c : Fin (grid0.bound 0) => bigSep Finset.univ fun i : Fin (grid0.bound 1) => td0At m d c i) : sProp 𝕄)
      ⊢ iprop((K0Body.xLoc d ↦{fullShare} Wh m d x') ∗ (K0Body.pxLoc d ↦{fullShare} Wh m d px') ∗ (K0Body.pyLoc d ↦{fullShare} Wh m d py')
        ∗ (K0Body.pzLoc d ↦{fullShare} Wh m d pz') ∗ (K0Body.srcLoc d ↦{fullShare} Wh m d src') ∗ (K0Body.dstLoc d ↦{fullShare} Wh m d dst')
        ∗ (∃ f, K0Body.xiLoc d ↦{fullShare} f) ∗ (∃ f, K0Body.xjLoc d ↦{fullShare} f) ∗ (∃ f, K0Body.relLoc d ↦{fullShare} f)) := by
    have h := Tiles.join0 m d
    unfold Tiles.whole0At Tiles.whole0 at h
    exact h
  rw [wp_bind]
  iintro ⟨#Hctx, Hst, Hheld, Hk⟩
  ihave Hh := (Entails.of_eq (StableHlo.held_sub_split (T d) S9_sub (Wh m d))) $$ Hheld
  icases Hh with ⟨H9, Hrest⟩
  ihave H9' := (Entails.of_eq (held_S9 d (Wh m d))) $$ H9
  icases H9' with ⟨Hx, Hpx, Hpy, Hpz, Hs, Hd, Hxi, Hxj, Hrel⟩
  ihave Hsp := hsp $$ [Hx Hpx Hpy Hpz Hs Hd Hxi Hxj Hrel]
  · iframe
    isplitl [Hxi]; · iexists _; iexact Hxi
    isplitl [Hxj]; · iexists _; iexact Hxj
    iexists _; iexact Hrel
  icases Hsp with ⟨Hrem, Hgo⟩
  iapply ((K (F := F)).wp_run (D (F := F)) 𝒱 (EH := EH) (P := P m) κ d 0) $$ [Hst Hgo Hrem Hrest Hk]
  isplitr; · iexact Hctx
  isplitl [Hst]; · iexact Hst
  isplitl [Hgo]; · rw [st0_eq]; iexact Hgo
  iintro ⟨Hst, Hdn⟩
  ihave Hdn' := (Entails.of_eq (dn0_eq m d)) $$ Hdn
  ihave Hj := hjn $$ [Hrem Hdn']
  · iframe
  icases Hj with ⟨Hx, Hpx, Hpy, Hpz, Hs, Hd, ⟨%f0, Hxi⟩, ⟨%f1, Hxj⟩, ⟨%f2, Hrel⟩⟩
  ispecialize Hk $$ %f0
  ispecialize Hk $$ %f1
  ispecialize Hk $$ %f2
  iapply Hk
  isplitl [Hst]; · iexact Hst
  rw [StableHlo.held_sub_split (T d) S9_sub (Wc0 m d f0 f1 f2), held_S9,
    ← StableHlo.held_congr (T d) (V := Wh m d) (V' := Wc0 m d f0 f1 f2) (S := Pipeline.ucRefs τ sig \ S9) fun b hb => by
      have hb' := (Finset.mem_sdiff.1 hb).2
      simp only [S9, Finset.mem_insert, Finset.mem_singleton, not_or] at hb'
      exact (Wc0_of_ne' m d f0 f1 f2 b hb'.2.2.2.2.2.2.1 hb'.2.2.2.2.2.2.2.1 hb'.2.2.2.2.2.2.2.2).symm,
    Wc0_of_ne' m d f0 f1 f2 x' (by decide) (by decide) (by decide), Wc0_of_ne' m d f0 f1 f2 px' (by decide) (by decide) (by decide),
    Wc0_of_ne' m d f0 f1 f2 py' (by decide) (by decide) (by decide), Wc0_of_ne' m d f0 f1 f2 pz' (by decide) (by decide) (by decide),
    Wc0_of_ne' m d f0 f1 f2 src' (by decide) (by decide) (by decide), Wc0_of_ne' m d f0 f1 f2 dst' (by decide) (by decide) (by decide),
    Wc0_xi, Wc0_xj, Wc0_rel]
  iframe

theorem call1_step (κ : GSem nD τ sig → ℕ) (d : Dev nD) (W : Valuation τ sig (Elt F))
    (h20 : W (Proc.devRef .tc main_v20) = Wh m d main_v20) (h21 : W (Proc.devRef .tc main_v21) = Wh m d main_v21) {α : Type}
    (k : PUnit → Prog (TpuEff nD τ sig (Elt F) (SparseCore.Sig (ΛP (F := F)) 2) .tc) α) (Q : α → sProp 𝕄) :
    iprop((K (F := F)).ctx EH (P m) κ ∗ (K (F := F)).tcSt EH d 1 ∗ held (T d) (Pipeline.ucRefs τ sig) W
        ∗ (∀ g : Buf (Elt F) (K2Body.partsLoc d), iprop((K (F := F)).tcSt EH d 2 ∗ held (T d) (Pipeline.ucRefs τ sig) (Function.update W parts' g))
            -∗ wp frame (wpE ((K (F := F)).defs (D (F := F))) 𝒱 (T d) none) Set.univ (k ⟨⟩) Q))
      ⊢ wp frame (wpE ((K (F := F)).defs (D (F := F))) 𝒱 (T d) none) Set.univ ((K (F := F)).run d 1 >>= k) Q := by
  have hsp : iprop((K2Body.mtLoc d ↦{fullShare} W mt') ∗ (K2Body.dstLoc d ↦{fullShare} Wh m d main_v20) ∗ (K2Body.zpkLoc d ↦{fullShare} Wh m d main_v21)
        ∗ ∃ f, K2Body.partsLoc d ↦{fullShare} f)
      ⊢ (iprop(Tiles.rem2At m d (W mt') ∗ bigSep Finset.univ fun c : Fin (grid2.bound 0) => bigSep Finset.univ fun i : Fin (grid2.bound 1) => go2At m d c i) : sProp 𝕄) := by
    have h := Tiles.split2 m d (W mt')
    unfold Tiles.whole2At Tiles.whole2 at h
    exact h
  have hjn : (iprop(Tiles.rem2At m d (W mt') ∗ bigSep Finset.univ fun c : Fin (grid2.bound 0) => bigSep Finset.univ fun i : Fin (grid2.bound 1) => td2At m d c i) : sProp 𝕄)
      ⊢ iprop((K2Body.mtLoc d ↦{fullShare} W mt') ∗ (K2Body.dstLoc d ↦{fullShare} Wh m d main_v20) ∗ (K2Body.zpkLoc d ↦{fullShare} Wh m d main_v21)
        ∗ ∃ f, K2Body.partsLoc d ↦{fullShare} f) := by
    have h := Tiles.join2 m d (W mt')
    unfold Tiles.whole2At Tiles.whole2 at h
    exact h
  have e4 : ∀ W' : Valuation τ sig (Elt F), W' tg' = Wh m d main_v20 → W' zb' = Wh m d main_v21 →
      (held (T d) S4 W' : sProp 𝕄) = iprop((K2Body.mtLoc d ↦{fullShare} W' mt') ∗ (K2Body.dstLoc d ↦{fullShare} Wh m d main_v20)
        ∗ (K2Body.zpkLoc d ↦{fullShare} Wh m d main_v21) ∗ (K2Body.partsLoc d ↦{fullShare} W' parts')) := by
    intro W' e20 e21
    rw [held_S4, e20, e21]
  rw [wp_bind]
  iintro ⟨#Hctx, Hst, Hheld, Hk⟩
  ihave Hh := (Entails.of_eq (StableHlo.held_sub_split (T d) S4_sub W)) $$ Hheld
  icases Hh with ⟨H4, Hrest⟩
  ihave H4' := (Entails.of_eq (e4 W h20 h21)) $$ H4
  icases H4' with ⟨Hm, Hd, Hz, Hp⟩
  ihave Hsp := hsp $$ [Hm Hd Hz Hp]
  · iframe; iexists _; iexact Hp
  icases Hsp with ⟨Hrem, Hgo⟩
  iapply ((K (F := F)).wp_run (D (F := F)) 𝒱 (EH := EH) (P := P m) κ d 1) $$ [Hst Hgo Hrem Hrest Hk]
  isplitr; · iexact Hctx
  isplitl [Hst]; · iexact Hst
  isplitl [Hgo]; · rw [st1_eq]; iexact Hgo
  iintro ⟨Hst, Hdn⟩
  ihave Hdn' := (Entails.of_eq (dn1_eq m d)) $$ Hdn
  ihave Hj := hjn $$ [Hrem Hdn']
  · iframe
  icases Hj with ⟨Hm, Hd, Hz, ⟨%g, Hp⟩⟩
  ispecialize Hk $$ %g
  iapply Hk
  isplitl [Hst]; · iexact Hst
  rw [StableHlo.held_sub_split (T d) S4_sub (Function.update W parts' g),
    e4 (Function.update W parts' g) ((Function.update_of_ne (show tg' ≠ parts' by decide) _ _).trans h20)
      ((Function.update_of_ne (show zb' ≠ parts' by decide) _ _).trans h21),
    ← StableHlo.held_congr (T d) (V := W) (V' := Function.update W parts' g) (S := Pipeline.ucRefs τ sig \ S4) fun b hb => by
      have hb' := (Finset.mem_sdiff.1 hb).2
      simp only [S4, Finset.mem_insert, Finset.mem_singleton, not_or] at hb'
      exact (Function.update_of_ne hb'.2.2.2 _ _).symm,
    Function.update_of_ne (show mt' ≠ parts' by decide), Function.update_self]
  iframe

end Cert.Proof.KB.Calls

end
-- ==== Proof.KB.Frame.lean ====
import proofs.«205084_g25537875542483_cont_9to1_419_23_alg».proof.Proof.KB.Main
import proofs.«205084_g25537875542483_cont_9to1_419_23_alg».proof.Proof.KB.CallsFrame

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

def FIN (d : Dev nD) : sProp 𝕄 :=
  iprop(∃ W : Valuation τ sig (Elt F), ⌜∀ b ∈ argRefs, W (Proc.devRef .tc b) = m (d, Proc.devRef .tc b)⌝ ∗ StableHlo.held (T d) (Pipeline.ucRefs τ sig) W)

set_option backward.isDefEq.respectTransparency.types false in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [show unscopedBufs d (fun b => m ((SparseCore.T d).loc b)) = StableHlo.held (SparseCore.T d) (Pipeline.ucRefs τ sig) (W0 m d)
    from Pipeline.unscopedBufs_held d (W0 m d)]
  rw [IdxRange.main_pre_eq, G_eq]
  iintro ⟨#Hctx, Hst, ⟨Hb, Hheld, Hsems, Hprng⟩, ⟨Hg0, Ht0⟩, ⟨Hg1, Ht1⟩⟩
  have hlev : (K (F := F)).ctx EH (P m) κ ⊢ (levAts (K (F := F)).L (K (F := F)).lev : sProp 𝕄) := SparseCore.Cfg.ctx_levAts κ
  ihave Hlv1 := hlev $$ Hctx
  ihave Hlv3 := hlev $$ Hctx

  iapply (StableHlo.wp_seq (defs := (K (F := F)).defs (D (F := F))) 𝒱 none Set.univ d (Pipeline.ucRefs τ sig) (fun _ => IdxRange.mainCalls d)
    (IdxRange.hostPre (F := F)) IdxRange.hostPre_sub_uc IdxRange.hostPre_fresh_mem (W0 m d)) $$ [Hb Hheld]
  · isplitl [Hb] <;> iassumption
  iintro ⟨Hb, Hheld⟩
  unfold IdxRange.mainCalls

  iapply (Calls.call0_step m κ d _ _)
  isplitr; · iexact Hctx
  isplitl [Hst]; · iexact Hst
  isplitl [Hheld]; · iexact Hheld
  iintro %f0 %f1 %f2 ⟨Hst, Hheld⟩

  iapply (region1_step d (Calls.Wc0 m d f0 f1 f2) _ _)
  iframe Hlv1 Hb Hheld Hg0 Ht0
  isplitl [Hst]; · iexact Hst
  iintro ⟨Hst, Hb, Hheld⟩

  iapply (Calls.call1_step m κ d (Wr1 m d f0 f1 f2)
    (by show exit1 _ _ _ d (Proc.devRef .tc main_v20) = _
        rw [exit1_of_ne _ _ _ d main_v20 (by decide), Calls.Wc0_of_ne m d f0 f1 f2 main_v20 (by decide)])
    (by show exit1 _ _ _ d (Proc.devRef .tc main_v21) = _
        rw [exit1_of_ne _ _ _ d main_v21 (by decide), Calls.Wc0_of_ne m d f0 f1 f2 main_v21 (by decide)]) _ _)
  isplitr; · iexact Hctx
  isplitl [Hst]; · iexact Hst
  isplitl [Hheld]; · iexact Hheld
  iintro %g ⟨Hst, Hheld⟩

  iapply (region3_step d (Wc1 m d f0 f1 f2 g) _ _)
  iframe Hlv3 Hb Hheld Hg1 Ht1
  isplitl [Hst]; · iexact Hst
  iintro ⟨Hst, Hb, Hheld⟩
  rw [show ((Prog.ret PUnit.unit).bind fun _ => (Pure.pure PUnit.unit : Prog (TpuEff nD τ sig (Elt F) (SparseCore.Sig (ΛP (F := F)) 2) .tc) PUnit))
      = Pure.pure PUnit.unit from rfl, wp_pure]
  imodintro
  isplitl [Hst]; · iexact Hst
  unfold FIN
  iexists (Wr3 m d f0 f1 f2 g)
  isplitr
  · ipureintro; exact fun b hb => Wr3_arg m d f0 f1 f2 g b hb
  · iexact Hheld

def fq (d : Dev nD) (s' : Phys nD τ sig (Elt F)) : Prop :=
  ∀ b ∈ argRefs, s'.mem.mem (d, Proc.devRef .tc b) = m (d, Proc.devRef .tc b)

theorem hfin (d : Dev nD) (s' : Phys nD τ sig (Elt F)) : iprop(FIN m d ∗ SI s') ⊢ (⌜fq m d s'⌝ : sProp 𝕄) := by
  unfold FIN
  iintro ⟨⟨%W, %hW, Hh⟩, HSI⟩
  unfold StableHlo.held
  have hread : iprop((bigSep (Pipeline.ucRefs τ sig) fun b => (((d, b) : Loc nD τ sig) ↦{fullShare} W b : sProp 𝕄)) ∗ SI s')
      ⊢ iprop(⌜∀ b ∈ Pipeline.ucRefs τ sig, s'.mem.mem ((d, b) : Loc nD τ sig) = W b⌝ ∗ SI s') :=
    pointsTo_read_all (Pipeline.ucRefs τ sig) (fun b => ((d, b) : Loc nD τ sig)) W s'
  ihave H := hread $$ [Hh HSI]
  · isplitl [Hh] <;> iassumption
  icases H with ⟨%h, -⟩
  ipureintro
  intro b hb
  have hm : (Proc.devRef .tc b : DevRef τ sig) ∈ Pipeline.ucRefs τ sig :=
    (by decide : ∀ b ∈ argRefs, (Proc.devRef .tc b : DevRef τ sig) ∈ Pipeline.ucRefs τ sig) b hb
  exact (h _ hm).trans (hW b hb)

def QC : PUnit × MemSt nD τ sig (Elt F) → Prop :=
  fun r => ∀ c : Dev nD, ∀ b ∈ argRefs, r.2.mem (c, Proc.devRef .tc b) = m (c, Proc.devRef .tc b)

theorem hu₀' : iprop(ownU (u₀ (F := F)) ∗ (P (F := F) m).oxCred ∗ (K (F := F)).freeSems0) ⊢ |={Set.univ}=> iprop(BI.own (EH (initOf (K (F := F)).hsCells (K (F := F)).hsToks))
    ∗ (bigSep Finset.univ fun d : Dev nD => G (F := F) d)
    ∗ bigSep Finset.univ fun thr : Thread nD τ => bigSep Finset.univ fun q : Fin 2 => (P (F := F) m).x q thr) := by
  have h0 := hu₀ (F := F)
  iintro ⟨Hu, -, -⟩
  imod h0 $$ Hu with ⟨HH, HG⟩
  imodintro
  isplitl [HH]; · iexact HH
  isplitl [HG]; · iexact HG
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

theorem run_main [∀ e, Nonempty (Elt F e)] (hpre : ∀ d : Dev nD, IdxRange.PreAt m d) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => tileObl0 m hpre | 1 => tileObl1 m hpre)
    (fun q _ => match q with | 0 => SparseCore.Cfg.VecSplit.of_plain (vecSplit0 m) | 1 => SparseCore.Cfg.VecSplit.of_plain (vecSplit1 m))
    m ρ main (fun d => G (F := F) d) (FIN m) (u₀ (F := F)) (hu₀' m) (hmain m ρ) (fq m) (hfin m) (QC m) (fun _ h c b hb => h c b hb)

theorem frame : Cert.frame_Kernel := fun m ρ hpre =>
  (θ_run (Cert.Kernel.defs (F := Bits)) _ _).mono (fun _ h c => by (repeat' apply And.intro) <;> exact h c _ (by decide))
    (run_main (F := Bits) m ρ (fun d => IdxRange.preAt_of_pre m hpre d))

end Cert.Proof.KB

end
-- ==== Proof.KI.Common.lean ====
import proofs.«205084_g25537875542483_cont_9to1_419_23_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«205084_g25537875542483_cont_9to1_419_23_alg».proof.Proof.Gen.KernelIdeal
import proofs.«205084_g25537875542483_cont_9to1_419_23_alg».proof.Proof.Gen.KernelIdeal.Skeleton
import proofs.«205084_g25537875542483_cont_9to1_419_23_alg».proof.Proof.Gen.KernelIdeal.Launch
import proofs.«205084_g25537875542483_cont_9to1_419_23_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL

def EP : Emb UP (MT nD τ sig (HIx 2) (Elt F) ℕ UU ℕ) :=
  (Emb.inl : Emb UP (UP × Counters)).trans (embR : Emb (UP × Counters) (MT nD τ sig (HIx 2) (Elt F) ℕ UU ℕ))

instance EP_landsIn : (EP : Emb UP 𝕄).LandsIn (upEmb : UEmb _ 𝕄) := by unfold EP; infer_instance

abbrev adm : (p : Fin 2) → (pcfgs (F := F) p).Adm := fun p => (cfgs p).toPCfg_adm

abbrev cV0 (L : grid0.Coords) : Fin τ.nSC := (L 0).castLE hcore0
abbrev jV0 (L : grid0.Coords) : Fin τ.nSub := (L 1).castLE hsub0
abbrev cV2 (L : grid2.Coords) : Fin τ.nSC := (L 0).castLE hcore2
abbrev jV2 (L : grid2.Coords) : Fin τ.nSub := (L 1).castLE hsub2

end Cert.Proof.KI

end
-- ==== Proof.KI.K0Body.lean ====
import proofs.«205084_g25537875542483_cont_9to1_419_23_alg».proof.Proof.KI.Common
import Idealize.ShloMosaic.Lib.SparseCore.Stream
import Idealize.ShloMosaic.Lib.Transfers
import Idealize.ShloMosaic.Lib.Tactic

noncomputable section

namespace Cert.Proof.KI.K0Body

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "xV" => (Memref.whole Cert.KernelIdeal.main_arg0_scv : Memref Cert.KernelIdeal.sig Kind.scVector Space.hbm Cert.KernelIdeal.S10000x128 EltTy.f32)
local notation "pxV" => (Memref.whole Cert.KernelIdeal.main_v2_scv : Memref Cert.KernelIdeal.sig Kind.scVector Space.hbm Cert.KernelIdeal.S10112 EltTy.f32)
local notation "pyV" => (Memref.whole Cert.KernelIdeal.main_v5_scv : Memref Cert.KernelIdeal.sig Kind.scVector Space.hbm Cert.KernelIdeal.S10112 EltTy.f32)
local notation "pzV" => (Memref.whole Cert.KernelIdeal.main_v8_scv : Memref Cert.KernelIdeal.sig Kind.scVector Space.hbm Cert.KernelIdeal.S10112 EltTy.f32)
local notation "srcV" => (Memref.whole Cert.KernelIdeal.main_v15_scv : Memref Cert.KernelIdeal.sig Kind.scVector Space.hbm Cert.KernelIdeal.S32x80x128 EltTy.i32)
local notation "dstV" => (Memref.whole Cert.KernelIdeal.main_v18_scv : Memref Cert.KernelIdeal.sig Kind.scVector Space.hbm Cert.KernelIdeal.S32x80x128 EltTy.i32)
local notation "xiV" => (Memref.whole Cert.KernelIdeal.main_v43_0_scv : Memref Cert.KernelIdeal.sig Kind.scVector Space.hbm Cert.KernelIdeal.S327680x128 EltTy.f32)
local notation "xjV" => (Memref.whole Cert.KernelIdeal.main_v43_1_scv : Memref Cert.KernelIdeal.sig Kind.scVector Space.hbm Cert.KernelIdeal.S327680x128 EltTy.f32)
local notation "relV" => (Memref.whole Cert.KernelIdeal.main_v43_2_scv : Memref Cert.KernelIdeal.sig Kind.scVector Space.hbm Cert.KernelIdeal.S20480x16 EltTy.f32)
local notation "iaV" => (Memref.whole Cert.KernelIdeal.cc0_scratch0 : Memref Cert.KernelIdeal.sig Kind.scVector Space.vmem Cert.KernelIdeal.S128 EltTy.i32)
local notation "ibV" => (Memref.whole Cert.KernelIdeal.cc0_scratch1 : Memref Cert.KernelIdeal.sig Kind.scVector Space.vmem Cert.KernelIdeal.S128 EltTy.i32)
local notation "raV" => (Memref.whole Cert.KernelIdeal.cc0_scratch2 : Memref Cert.KernelIdeal.sig Kind.scVector Space.vmem Cert.KernelIdeal.S128x128 EltTy.f32)
local notation "rbV" => (Memref.whole Cert.KernelIdeal.cc0_scratch3 : Memref Cert.KernelIdeal.sig Kind.scVector Space.vmem Cert.KernelIdeal.S128x128 EltTy.f32)
local notation "rvV" => (Memref.whole Cert.KernelIdeal.cc0_scratch4 : Memref Cert.KernelIdeal.sig Kind.scVector Space.vmem Cert.KernelIdeal.S8x16 EltTy.f32)
local notation "pxS" => (Memref.whole Cert.KernelIdeal.cc0_scratch5 : Memref Cert.KernelIdeal.sig Kind.scVector Space.vmem Cert.KernelIdeal.S10112 EltTy.f32)
local notation "pyS" => (Memref.whole Cert.KernelIdeal.cc0_scratch6 : Memref Cert.KernelIdeal.sig Kind.scVector Space.vmem Cert.KernelIdeal.S10112 EltTy.f32)
local notation "pzS" => (Memref.whole Cert.KernelIdeal.cc0_scratch7 : Memref Cert.KernelIdeal.sig Kind.scVector Space.vmem Cert.KernelIdeal.S10112 EltTy.f32)

abbrev xLoc (d : Dev nD) : Loc nD τ sig := (SparseCore.T d).loc main_arg0
abbrev pxLoc (d : Dev nD) : Loc nD τ sig := (SparseCore.T d).loc main_v2
abbrev pyLoc (d : Dev nD) : Loc nD τ sig := (SparseCore.T d).loc main_v5
abbrev pzLoc (d : Dev nD) : Loc nD τ sig := (SparseCore.T d).loc main_v8
abbrev srcLoc (d : Dev nD) : Loc nD τ sig := (SparseCore.T d).loc main_v15
abbrev dstLoc (d : Dev nD) : Loc nD τ sig := (SparseCore.T d).loc main_v18
abbrev xiLoc (d : Dev nD) : Loc nD τ sig := (SparseCore.T d).loc main_v43_0
abbrev xjLoc (d : Dev nD) : Loc nD τ sig := (SparseCore.T d).loc main_v43_1
abbrev relLoc (d : Dev nD) : Loc nD τ sig := (SparseCore.T d).loc main_v43_2

theorem L0_lt (L : grid0.Coords) : (L 0).val < 2 := (L 0).isLt
theorem L1_lt (L : grid0.Coords) : (L 1).val < 16 := (L 1).isLt

abbrev wid (L : grid0.Coords) : ℕ := 16 * (L 0).val + (L 1).val
theorem wid_lt (L : grid0.Coords) : wid L < 32 := by have := L0_lt L; have := L1_lt L; unfold wid; omega

theorem srcBlk_inb (L : grid0.Coords) : ∀ a, (![wid L, 0, 0] : Fin 3 → ℕ) a + (![1, 80, 128] : Fin 3 → ℕ) a ≤ S32x80x128.size a := by
  have := wid_lt L
  intro a; fin_cases a <;> simp <;> omega
theorem outBlk_inb (L : grid0.Coords) : ∀ a, (![10240 * wid L, 0] : Fin 2 → ℕ) a + (![10240, 128] : Fin 2 → ℕ) a ≤ S327680x128.size a := by
  have := wid_lt L
  intro a; fin_cases a <;> simp <;> omega
theorem relBlk_inb (L : grid0.Coords) : ∀ a, (![640 * wid L, 0] : Fin 2 → ℕ) a + (![640, 16] : Fin 2 → ℕ) a ≤ S20480x16.size a := by
  have := wid_lt L
  intro a; fin_cases a <;> simp <;> omega

abbrev srcBlk (L : grid0.Coords) : Rect S32x80x128 := Rect.unit (s := S32x80x128) ![wid L, 0, 0] ![1, 80, 128] (srcBlk_inb L)

abbrev outBlk (L : grid0.Coords) : Rect S327680x128 := Rect.unit (s := S327680x128) ![10240 * wid L, 0] ![10240, 128] (outBlk_inb L)

abbrev relBlk (L : grid0.Coords) : Rect S20480x16 := Rect.unit (s := S20480x16) ![640 * wid L, 0] ![640, 16] (relBlk_inb L)

abbrev tileShare (L : grid0.Coords) : PosShare TreeShare := Transfers.shareTok fullShare 32 ⟨wid L, wid_lt L⟩

section Task

variable (q : PosShare TreeShare) (d : Dev nD) (L : grid0.Coords)
variable (fx : Buf (Elt F) (xLoc d)) (fpx : Buf (Elt F) (pxLoc d)) (fpy : Buf (Elt F) (pyLoc d)) (fpz : Buf (Elt F) (pzLoc d))
variable (fsrc : Buf (Elt F) (srcLoc d)) (fdst : Buf (Elt F) (dstLoc d))

def go0 : sProp 𝕄 :=
  iprop((xLoc d ↦{q} fx) ∗ (pxLoc d ↦{q} fpx) ∗ (pyLoc d ↦{q} fpy) ∗ (pzLoc d ↦{q} fpz)
    ∗ (srcLoc d ↦[(srcBlk L).set]{fullShare} fsrc) ∗ (dstLoc d ↦[(srcBlk L).set]{fullShare} fdst)
    ∗ (∃ f, xiLoc d ↦[(outBlk L).set]{fullShare} f) ∗ (∃ f, xjLoc d ↦[(outBlk L).set]{fullShare} f)
    ∗ (∃ f, relLoc d ↦[(relBlk L).set]{fullShare} f))

def td0 : sProp 𝕄 :=
  iprop((xLoc d ↦{q} fx) ∗ (pxLoc d ↦{q} fpx) ∗ (pyLoc d ↦{q} fpy) ∗ (pzLoc d ↦{q} fpz)
    ∗ (srcLoc d ↦[(srcBlk L).set]{fullShare} fsrc) ∗ (dstLoc d ↦[(srcBlk L).set]{fullShare} fdst)
    ∗ (∃ f, xiLoc d ↦[(outBlk L).set]{fullShare} f) ∗ (∃ f, xjLoc d ↦[(outBlk L).set]{fullShare} f)
    ∗ (∃ f, relLoc d ↦[(relBlk L).set]{fullShare} f))

def IdxOK : Prop := (∀ i, (fsrc i).toNat < 10000) ∧ (∀ i, (fdst i).toNat < 10000)

end Task

theorem mem_foldl_erase {α : Type} [DecidableEq α] (l : List α) (s : Finset α) (a : α) :
    a ∈ l.foldl Finset.erase s ↔ a ∈ s ∧ a ∉ l := by
  induction l generalizing s with
  | nil => simp
  | cons b l ih => simp only [List.foldl_cons, ih, Finset.mem_erase, List.mem_cons, not_or]; tauto

theorem bigSep_peel {I : Type} [DecidableEq I] (Φ : I → sProp 𝕄) : ∀ (l : List I) (s : Finset I), l.Nodup → (∀ i ∈ l, i ∈ s) →
    bigSep s Φ = l.foldr (fun i P => iprop(Φ i ∗ P)) (bigSep (l.foldl Finset.erase s) Φ)
  | [], _, _, _ => rfl
  | i :: l, s, hn, hm => by
    rw [SparseCore.bigSep_erase' (hm i (List.mem_cons_self ..))]
    rw [bigSep_peel Φ l (s.erase i) (List.nodup_cons.mp hn).2 fun j hj =>
      Finset.mem_erase.mpr ⟨fun e => (List.nodup_cons.mp hn).1 (e ▸ hj), hm j (List.mem_cons_of_mem _ hj)⟩]
    rfl

section Own

variable (d : Dev nD) (L : grid0.Coords)

abbrev sLoc (r : Ref sig .scVector) : Loc nD τ sig := (d, (Proc.scVector (cV0 L) (jV0 L)).devRef r)

abbrev cell (s : DmaSem sig) : GSem nD τ sig := (V d (cV0 L) (jV0 L), SemLoc.dma s)

abbrev taskSems : List (DmaSem sig) := [cc0_scratch8.sem, cc0_scratch9.sem, cc0_scoped0.sem, cc0_scoped1.sem, cc0_scoped2.sem, cc0_scoped3.sem, cc0_scoped4.sem, cc0_scoped5.sem, cc0_scoped6.sem, cc0_scoped7.sem]

abbrev taskScr : List (Ref sig .scVector) := [cc0_scratch0, cc0_scratch1, cc0_scratch2, cc0_scratch3, cc0_scratch4, cc0_scratch5, cc0_scratch6, cc0_scratch7]
abbrev taskCells : List (GSem nD τ sig) := taskSems.map (cell d L)
theorem ownSems0_V :
    (ownSems0 (V d (cV0 L) (jV0 L)) : sProp 𝕄)
      = iprop(semVal (cell d L cc0_scratch8.sem) 0 ∗ semVal (cell d L cc0_scratch9.sem) 0 ∗ semVal (cell d L cc0_scoped0.sem) 0 ∗ semVal (cell d L cc0_scoped1.sem) 0 ∗ semVal (cell d L cc0_scoped2.sem) 0 ∗ semVal (cell d L cc0_scoped3.sem) 0 ∗ semVal (cell d L cc0_scoped4.sem) 0 ∗ semVal (cell d L cc0_scoped5.sem) 0 ∗ semVal (cell d L cc0_scoped6.sem) 0 ∗ semVal (cell d L cc0_scoped7.sem) 0
          ∗ bigSep ((taskCells d L).foldl Finset.erase (ownCells (V d (cV0 L) (jV0 L)))) fun g => semVal g 0) := by
  unfold SparseCore.Cfg.ownSems0
  refine (bigSep_peel _ (taskCells d L) _ ?_ ?_).trans rfl
  · exact List.Nodup.map (fun a b e => by simpa using e) (by decide)
  · intro g hg
    obtain ⟨s, hs, rfl⟩ := List.mem_map.mp hg
    exact (mem_ownCells (g := cell d L s)).mpr ⟨rfl, (show ∀ s ∈ taskSems, (SemLoc.dma s : SemLoc sig).isScoped .scVector = true by decide) s hs⟩

abbrev restRefs : Finset (DevRef τ sig) := (((((((((ownRefs (τ := τ) (.scVector (cV0 L) (jV0 L)))).erase ((Proc.scVector (cV0 L) (jV0 L)).devRef cc0_scratch0)).erase ((Proc.scVector (cV0 L) (jV0 L)).devRef cc0_scratch1)).erase ((Proc.scVector (cV0 L) (jV0 L)).devRef cc0_scratch2)).erase ((Proc.scVector (cV0 L) (jV0 L)).devRef cc0_scratch3)).erase ((Proc.scVector (cV0 L) (jV0 L)).devRef cc0_scratch4)).erase ((Proc.scVector (cV0 L) (jV0 L)).devRef cc0_scratch5)).erase ((Proc.scVector (cV0 L) (jV0 L)).devRef cc0_scratch6)).erase ((Proc.scVector (cV0 L) (jV0 L)).devRef cc0_scratch7)

theorem ownBufs_V :
    (ownBufs (V d (cV0 L) (jV0 L)) : sProp 𝕄)
      = iprop((∃ f, sLoc d L cc0_scratch0 ↦{fullShare} f) ∗ (∃ f, sLoc d L cc0_scratch1 ↦{fullShare} f) ∗ (∃ f, sLoc d L cc0_scratch2 ↦{fullShare} f) ∗ (∃ f, sLoc d L cc0_scratch3 ↦{fullShare} f) ∗ (∃ f, sLoc d L cc0_scratch4 ↦{fullShare} f) ∗ (∃ f, sLoc d L cc0_scratch5 ↦{fullShare} f) ∗ (∃ f, sLoc d L cc0_scratch6 ↦{fullShare} f) ∗ (∃ f, sLoc d L cc0_scratch7 ↦{fullShare} f)
          ∗ bigSep (restRefs L) fun b => iprop(∃ f, ((d, b) : Loc nD τ sig) ↦{fullShare} f)) := by
  unfold SparseCore.Cfg.ownBufs
  have hm : ∀ (r : Ref sig .scVector) (l : List (Ref sig .scVector)), r ∈ taskScr → r ∉ l →
      (Proc.scVector (cV0 L) (jV0 L)).devRef r ∈ (l.map (Proc.scVector (cV0 L) (jV0 L)).devRef).foldl Finset.erase (ownRefs (τ := τ) (.scVector (cV0 L) (jV0 L))) := fun r l hr hl =>
    (mem_foldl_erase _ _ _).mpr ⟨SparseCore.Cfg.mem_ownRefs_of_owner (p := Proc.scVector (cV0 L) (jV0 L)) (by
        simp only [taskScr, List.mem_cons, List.not_mem_nil, or_false] at hr
        rcases hr with rfl | rfl | rfl | rfl | rfl | rfl | rfl | rfl <;> rfl),
      fun h => hl (by obtain ⟨r', hr', e⟩ := List.mem_map.mp h; exact Proc.devRef_injective _ e ▸ hr')⟩
  refine (SparseCore.bigSep_erase' (s := (ownRefs (τ := τ) (.scVector (cV0 L) (jV0 L)))) (hm cc0_scratch0 [] (by decide) (by decide))).trans ?_
  rw [SparseCore.bigSep_erase' (s := ((ownRefs (τ := τ) (.scVector (cV0 L) (jV0 L)))).erase ((Proc.scVector (cV0 L) (jV0 L)).devRef cc0_scratch0)) (hm cc0_scratch1 [cc0_scratch0] (by decide) (by decide)),
    SparseCore.bigSep_erase' (s := (((ownRefs (τ := τ) (.scVector (cV0 L) (jV0 L)))).erase ((Proc.scVector (cV0 L) (jV0 L)).devRef cc0_scratch0)).erase ((Proc.scVector (cV0 L) (jV0 L)).devRef cc0_scratch1)) (hm cc0_scratch2 [cc0_scratch0, cc0_scratch1] (by decide) (by decide)),
    SparseCore.bigSep_erase' (s := ((((ownRefs (τ := τ) (.scVector (cV0 L) (jV0 L)))).erase ((Proc.scVector (cV0 L) (jV0 L)).devRef cc0_scratch0)).erase ((Proc.scVector (cV0 L) (jV0 L)).devRef cc0_scratch1)).erase ((Proc.scVector (cV0 L) (jV0 L)).devRef cc0_scratch2)) (hm cc0_scratch3 [cc0_scratch0, cc0_scratch1, cc0_scratch2] (by decide) (by decide)),
    SparseCore.bigSep_erase' (s := (((((ownRefs (τ := τ) (.scVector (cV0 L) (jV0 L)))).erase ((Proc.scVector (cV0 L) (jV0 L)).devRef cc0_scratch0)).erase ((Proc.scVector (cV0 L) (jV0 L)).devRef cc0_scratch1)).erase ((Proc.scVector (cV0 L) (jV0 L)).devRef cc0_scratch2)).erase ((Proc.scVector (cV0 L) (jV0 L)).devRef cc0_scratch3)) (hm cc0_scratch4 [cc0_scratch0, cc0_scratch1, cc0_scratch2, cc0_scratch3] (by decide) (by decide)),
    SparseCore.bigSep_erase' (s := ((((((ownRefs (τ := τ) (.scVector (cV0 L) (jV0 L)))).erase ((Proc.scVector (cV0 L) (jV0 L)).devRef cc0_scratch0)).erase ((Proc.scVector (cV0 L) (jV0 L)).devRef cc0_scratch1)).erase ((Proc.scVector (cV0 L) (jV0 L)).devRef cc0_scratch2)).erase ((Proc.scVector (cV0 L) (jV0 L)).devRef cc0_scratch3)).erase ((Proc.scVector (cV0 L) (jV0 L)).devRef cc0_scratch4)) (hm cc0_scratch5 [cc0_scratch0, cc0_scratch1, cc0_scratch2, cc0_scratch3, cc0_scratch4] (by decide) (by decide)),
    SparseCore.bigSep_erase' (s := (((((((ownRefs (τ := τ) (.scVector (cV0 L) (jV0 L)))).erase ((Proc.scVector (cV0 L) (jV0 L)).devRef cc0_scratch0)).erase ((Proc.scVector (cV0 L) (jV0 L)).devRef cc0_scratch1)).erase ((Proc.scVector (cV0 L) (jV0 L)).devRef cc0_scratch2)).erase ((Proc.scVector (cV0 L) (jV0 L)).devRef cc0_scratch3)).erase ((Proc.scVector (cV0 L) (jV0 L)).devRef cc0_scratch4)).erase ((Proc.scVector (cV0 L) (jV0 L)).devRef cc0_scratch5)) (hm cc0_scratch6 [cc0_scratch0, cc0_scratch1, cc0_scratch2, cc0_scratch3, cc0_scratch4, cc0_scratch5] (by decide) (by decide)),
    SparseCore.bigSep_erase' (s := ((((((((ownRefs (τ := τ) (.scVector (cV0 L) (jV0 L)))).erase ((Proc.scVector (cV0 L) (jV0 L)).devRef cc0_scratch0)).erase ((Proc.scVector (cV0 L) (jV0 L)).devRef cc0_scratch1)).erase ((Proc.scVector (cV0 L) (jV0 L)).devRef cc0_scratch2)).erase ((Proc.scVector (cV0 L) (jV0 L)).devRef cc0_scratch3)).erase ((Proc.scVector (cV0 L) (jV0 L)).devRef cc0_scratch4)).erase ((Proc.scVector (cV0 L) (jV0 L)).devRef cc0_scratch5)).erase ((Proc.scVector (cV0 L) (jV0 L)).devRef cc0_scratch6)) (hm cc0_scratch7 [cc0_scratch0, cc0_scratch1, cc0_scratch2, cc0_scratch3, cc0_scratch4, cc0_scratch5, cc0_scratch6] (by decide) (by decide))]

theorem pts_x (S : Finset (Idx (xLoc d))) (q : PosShare TreeShare) (f : Buf (Elt F) (xLoc d)) :
    ((xV).view.loc (V d (cV0 L) (jV0 L)) ↦[S]{q} f : sProp 𝕄) = xLoc d ↦[S]{q} f := rfl
theorem pts_px (S : Finset (Idx (pxLoc d))) (q : PosShare TreeShare) (f : Buf (Elt F) (pxLoc d)) :
    ((pxV).view.loc (V d (cV0 L) (jV0 L)) ↦[S]{q} f : sProp 𝕄) = pxLoc d ↦[S]{q} f := rfl
theorem pts_py (S : Finset (Idx (pyLoc d))) (q : PosShare TreeShare) (f : Buf (Elt F) (pyLoc d)) :
    ((pyV).view.loc (V d (cV0 L) (jV0 L)) ↦[S]{q} f : sProp 𝕄) = pyLoc d ↦[S]{q} f := rfl
theorem pts_pz (S : Finset (Idx (pzLoc d))) (q : PosShare TreeShare) (f : Buf (Elt F) (pzLoc d)) :
    ((pzV).view.loc (V d (cV0 L) (jV0 L)) ↦[S]{q} f : sProp 𝕄) = pzLoc d ↦[S]{q} f := rfl
theorem pts_src (S : Finset (Idx (srcLoc d))) (q : PosShare TreeShare) (f : Buf (Elt F) (srcLoc d)) :
    ((srcV).view.loc (V d (cV0 L) (jV0 L)) ↦[S]{q} f : sProp 𝕄) = srcLoc d ↦[S]{q} f := rfl
theorem pts_dst (S : Finset (Idx (dstLoc d))) (q : PosShare TreeShare) (f : Buf (Elt F) (dstLoc d)) :
    ((dstV).view.loc (V d (cV0 L) (jV0 L)) ↦[S]{q} f : sProp 𝕄) = dstLoc d ↦[S]{q} f := rfl
theorem pts_xi (S : Finset (Idx (xiLoc d))) (q : PosShare TreeShare) (f : Buf (Elt F) (xiLoc d)) :
    ((xiV).view.loc (V d (cV0 L) (jV0 L)) ↦[S]{q} f : sProp 𝕄) = xiLoc d ↦[S]{q} f := rfl
theorem pts_xj (S : Finset (Idx (xjLoc d))) (q : PosShare TreeShare) (f : Buf (Elt F) (xjLoc d)) :
    ((xjV).view.loc (V d (cV0 L) (jV0 L)) ↦[S]{q} f : sProp 𝕄) = xjLoc d ↦[S]{q} f := rfl
theorem pts_rel (S : Finset (Idx (relLoc d))) (q : PosShare TreeShare) (f : Buf (Elt F) (relLoc d)) :
    ((relV).view.loc (V d (cV0 L) (jV0 L)) ↦[S]{q} f : sProp 𝕄) = relLoc d ↦[S]{q} f := rfl
theorem pts_s0 (f : Buf (Elt F) (sLoc d L cc0_scratch0)) :
    ((iaV).view.loc (V d (cV0 L) (jV0 L)) ↦{fullShare} f : sProp 𝕄) = sLoc d L cc0_scratch0 ↦{fullShare} f := rfl
theorem pts_s1 (f : Buf (Elt F) (sLoc d L cc0_scratch1)) :
    ((ibV).view.loc (V d (cV0 L) (jV0 L)) ↦{fullShare} f : sProp 𝕄) = sLoc d L cc0_scratch1 ↦{fullShare} f := rfl
theorem pts_s2 (f : Buf (Elt F) (sLoc d L cc0_scratch2)) :
    ((raV).view.loc (V d (cV0 L) (jV0 L)) ↦{fullShare} f : sProp 𝕄) = sLoc d L cc0_scratch2 ↦{fullShare} f := rfl
theorem pts_s3 (f : Buf (Elt F) (sLoc d L cc0_scratch3)) :
    ((rbV).view.loc (V d (cV0 L) (jV0 L)) ↦{fullShare} f : sProp 𝕄) = sLoc d L cc0_scratch3 ↦{fullShare} f := rfl
theorem pts_s4 (f : Buf (Elt F) (sLoc d L cc0_scratch4)) :
    ((rvV).view.loc (V d (cV0 L) (jV0 L)) ↦{fullShare} f : sProp 𝕄) = sLoc d L cc0_scratch4 ↦{fullShare} f := rfl
theorem pts_s5 (f : Buf (Elt F) (sLoc d L cc0_scratch5)) :
    ((pxS).view.loc (V d (cV0 L) (jV0 L)) ↦{fullShare} f : sProp 𝕄) = sLoc d L cc0_scratch5 ↦{fullShare} f := rfl
theorem pts_s6 (f : Buf (Elt F) (sLoc d L cc0_scratch6)) :
    ((pyS).view.loc (V d (cV0 L) (jV0 L)) ↦{fullShare} f : sProp 𝕄) = sLoc d L cc0_scratch6 ↦{fullShare} f := rfl
theorem pts_s7 (f : Buf (Elt F) (sLoc d L cc0_scratch7)) :
    ((pzS).view.loc (V d (cV0 L) (jV0 L)) ↦{fullShare} f : sProp 𝕄) = sLoc d L cc0_scratch7 ↦{fullShare} f := rfl

end Own

section Rows

variable (L : grid0.Coords) (k : Fin k0_t1_loop.trips)

theorem trip_lt : k.val < 80 := Nat.lt_of_lt_of_le k.isLt k0_t1_abs.2.1

abbrev srcRect : Rect S32x80x128 := Rect.unit (s := S32x80x128) (k0_off1 L k) S1x1x128.size (k0_off1_inb L k)
abbrev outRect : Rect S327680x128 := Rect.unit (s := S327680x128) (k0_off3 L k) S128x128.size (k0_off3_inb L k)
abbrev relRect : Rect S20480x16 := Rect.unit (s := S20480x16) (k0_off2 L k) S8x16.size (k0_off2_inb L k)

abbrev srcRowK : Memref sig .scVector .hbm S128 .i32 := ((srcV).slice (srcRect L k) (fun _ => rfl)).squeeze S128 squeezes_S1x1x128_S128
abbrev dstRowK : Memref sig .scVector .hbm S128 .i32 := ((dstV).slice (srcRect L k) (fun _ => rfl)).squeeze S128 squeezes_S1x1x128_S128
abbrev xiRowK : Memref sig .scVector .hbm S128x128 .f32 := (xiV).slice (outRect L k) (fun _ => rfl)
abbrev xjRowK : Memref sig .scVector .hbm S128x128 .f32 := (xjV).slice (outRect L k) (fun _ => rfl)
abbrev relRowK : Memref sig .scVector .hbm S8x16 .f32 := (relV).slice (relRect L k) (fun _ => rfl)

theorem set_srcRowK : (srcRowK L k).view.set = (srcRect L k).set := by
  show (((srcV).view.slice (srcRect L k)).reshape S128 squeezes_S1x1x128_S128.numel_eq).set = _
  rw [View.set_reshape]; exact View.set_slice_whole _ _
theorem set_dstRowK : (dstRowK L k).view.set = (srcRect L k).set := by
  show (((dstV).view.slice (srcRect L k)).reshape S128 squeezes_S1x1x128_S128.numel_eq).set = _
  rw [View.set_reshape]; exact View.set_slice_whole _ _
theorem set_xiRowK : (xiRowK L k).view.set = (outRect L k).set := View.set_slice_whole _ _
theorem set_xjRowK : (xjRowK L k).view.set = (outRect L k).set := View.set_slice_whole _ _
theorem set_relRowK : (relRowK L k).view.set = (relRect L k).set := View.set_slice_whole _ _

theorem srcRect_sub : (srcRect L k).set ⊆ (srcBlk L).set := by
  have hk := trip_lt k
  have hw : wid L = 16 * (L 0).val + (L 1).val := rfl
  have h0 := L0_lt L; have h1 := L1_lt L
  intro i hi
  rw [Rect.mem_set_unit] at hi ⊢
  intro a; have h := hi a; rw [k0_off1_eq] at h
  fin_cases a <;> simp at h ⊢ <;> omega
theorem outRect_sub : (outRect L k).set ⊆ (outBlk L).set := by
  have hk := trip_lt k
  have hw : wid L = 16 * (L 0).val + (L 1).val := rfl
  have h0 := L0_lt L; have h1 := L1_lt L
  intro i hi
  rw [Rect.mem_set_unit] at hi ⊢
  intro a; have h := hi a; rw [k0_off3_eq] at h
  fin_cases a <;> simp at h ⊢ <;> omega
theorem relRect_sub : (relRect L k).set ⊆ (relBlk L).set := by
  have hk := trip_lt k
  have hw : wid L = 16 * (L 0).val + (L 1).val := rfl
  have h0 := L0_lt L; have h1 := L1_lt L
  intro i hi
  rw [Rect.mem_set_unit] at hi ⊢
  intro a; have h := hi a; rw [k0_off2_eq] at h
  fin_cases a <;> simp at h ⊢ <;> omega

end Rows

def Kept (P : sProp 𝕄) : sProp 𝕄 := P
theorem kept_eq (P : sProp 𝕄) : Kept P = P := rfl

section Facts

variable (d : Dev nD) (L : grid0.Coords) (k : Fin k0_t1_loop.trips)
variable (fsrc : Buf (Elt F) (srcLoc d)) (fdst : Buf (Elt F) (dstLoc d))

theorem ia_ok (hok : IdxOK d fsrc fdst) (g : (iaV).view.ty.Contents (Elt F)) (pay : S128.Idx → Elt F .i32)
    (hpay : pay = (srcRowK L k).view.read (Elt F) fsrc) :
    ∀ x, ((iaV).view.read (Elt F) (View.write (Elt F) (iaV).view g pay Finset.univ) x).toNat < 10000 := by
  subst hpay; intro x
  rw [View.write_whole_univ]
  simp only [Memref.view_whole, View.read_whole]
  rw [show ∀ j, (srcRowK L k).view.read (Elt F) fsrc j = fsrc ((srcRowK L k).view.emb j) from fun j => (View.read_apply _ _).trans (cast_eq _ _)]
  exact hok.1 _

theorem ib_ok (hok : IdxOK d fsrc fdst) (g : (ibV).view.ty.Contents (Elt F)) (pay : S128.Idx → Elt F .i32)
    (hpay : pay = (dstRowK L k).view.read (Elt F) fdst) :
    ∀ x, ((ibV).view.read (Elt F) (View.write (Elt F) (ibV).view g pay Finset.univ) x).toNat < 10000 := by
  subst hpay; intro x
  rw [View.write_whole_univ]
  simp only [Memref.view_whole, View.read_whole]
  rw [show ∀ j, (dstRowK L k).view.read (Elt F) fdst j = fdst ((dstRowK L k).view.emb j) from fun j => (View.read_apply _ _).trans (cast_eq _ _)]
  exact hok.2 _

theorem chk_ok (m : Memref sig .scVector .vmem S128 .i32) (f : m.view.ty.Contents (Elt F))
    (hf : ∀ x, (m.view.read (Elt F) f x).toNat < 10000) (off : Fin 1 → ℕ) (inb : ∀ a, off a + S16.size a ≤ S128.size a) :
    ∀ a x, ((![m.view.readAt (Elt F) (Rect.unit (s := S128) off S16.size inb).toLoadRect f] : Fin 1 → IVec S16 32) a x).toNat < S10112.size a := by
  intro a x
  obtain rfl : a = 0 := Subsingleton.elim _ _
  show (m.view.readAt (Elt F) (Rect.unit (s := S128) off S16.size inb).toLoadRect f x).toNat < 10112
  rw [View.readAt_apply]; exact Nat.lt_trans (hf _) (by norm_num)

theorem chk3 (m : Memref sig .scVector .vmem S128 .i32) (f : m.view.ty.Contents (Elt F))
    (hf : ∀ x, (m.view.read (Elt F) f x).toNat < 10000) (off : Fin 1 → ℕ) (inb : ∀ a, off a + S16.size a ≤ S128.size a) :
    (∀ a x, ((![m.view.readAt (Elt F) (Rect.unit (s := S128) off S16.size inb).toLoadRect f] : Fin 1 → IVec S16 32) a x).toNat < S10112.size a) ∧
    (∀ a x, ((![m.view.readAt (Elt F) (Rect.unit (s := S128) off S16.size inb).toLoadRect f] : Fin 1 → IVec S16 32) a x).toNat < S10112.size a) ∧
    (∀ a x, ((![m.view.readAt (Elt F) (Rect.unit (s := S128) off S16.size inb).toLoadRect f] : Fin 1 → IVec S16 32) a x).toNat < S10112.size a) :=
  ⟨chk_ok m f hf off inb, chk_ok m f hf off inb, chk_ok m f hf off inb⟩

end Facts

theorem W_ins {W W' : Waits sig (HIx 2)} (sm : SemLoc sig) (h : ∀ p ∈ W', p ∈ W ∨ p.2 = none) :
    ∀ p ∈ insert (sm, (default : HIx 2)) W', p ∈ W ∨ p.2 = none := by
  intro p hp
  rcases Finset.mem_insert.mp hp with hp | hp
  · exact .inr (hp ▸ rfl)
  · exact h p hp

section Body

variable [FloatOps F]
variable (q : PosShare TreeShare) (d : Dev nD) (L : grid0.Coords)
variable (fx : Buf (Elt F) (xLoc d)) (fpx : Buf (Elt F) (pxLoc d)) (fpy : Buf (Elt F) (pyLoc d)) (fpz : Buf (Elt F) (pzLoc d))
variable (fsrc : Buf (Elt F) (srcLoc d)) (fdst : Buf (Elt F) (dstLoc d))

end Body

end Cert.Proof.KI.K0Body

end
-- ==== Proof.KI.K2Body.lean ====
import proofs.«205084_g25537875542483_cont_9to1_419_23_alg».proof.Proof.KI.Common
import Idealize.ShloMosaic.Lib.Transfers
import Idealize.ShloMosaic.Lib.ValueIdx

noncomputable section

namespace Cert.Proof.KI.K2Body

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "mtW" => (Memref.whole main_v44_scv : Memref sig Kind.scVector Space.hbm S16x327680 EltTy.f32)
local notation "dstW" => (Memref.whole main_v20_scv : Memref sig Kind.scVector Space.hbm S327680 EltTy.i32)
local notation "zpkW" => (Memref.whole main_v21_scv : Memref sig Kind.scVector Space.hbm S640x128 EltTy.f32)
local notation "partsW" => (Memref.whole main_v45_scv : Memref sig Kind.scVector Space.hbm S2x16x640x128 EltTy.f32)
local notation "accW" => (Memref.whole cc2_scratch0 : Memref sig Kind.scVector Space.vmem S640x128 EltTy.f32)
local notation "idxW" => (Memref.whole cc2_scratch1 : Memref sig Kind.scVector Space.vmem S1x2048 EltTy.i32)
local notation "rowsW" => (Memref.whole cc2_scratch2 : Memref sig Kind.scVector Space.vmem S8x2048 EltTy.f32)

abbrev mtLoc (d : Dev nD) : Loc nD τ sig := (SparseCore.T d).loc main_v44
abbrev dstLoc (d : Dev nD) : Loc nD τ sig := (SparseCore.T d).loc main_v20
abbrev zpkLoc (d : Dev nD) : Loc nD τ sig := (SparseCore.T d).loc main_v21
abbrev partsLoc (d : Dev nD) : Loc nD τ sig := (SparseCore.T d).loc main_v45

abbrev thr (d : Dev nD) (L : grid2.Coords) : Thread nD τ := V d (cV2 L) (jV2 L)

abbrev partsSl (L : grid2.Coords) : Memref sig .scVector .hbm S640x128 .f32 :=
  ((partsW).slice (Rect.unit (s := S2x16x640x128) (k2_off12 L) S1x1x640x128.size (k2_off12_inb L)) (fun _ => rfl)).squeeze S640x128 squeezes_S1x1x640x128_S640x128
abbrev partsSet (L : grid2.Coords) : Finset S2x16x640x128.Idx := (partsSl L).view.set

def DstOK {d : Dev nD} (fdst : Buf (Elt F) (dstLoc d)) : Prop := ∀ j : S327680.Idx, (fdst j).toNat < 10240

variable [FloatOps F]

def go2 (qm qd qz : PosShare TreeShare) (d : Dev nD) (fmt : Buf (Elt F) (mtLoc d)) (fdst : Buf (Elt F) (dstLoc d)) (fz : Buf (Elt F) (zpkLoc d))
    (L : grid2.Coords) : sProp 𝕄 :=
  iprop((mtLoc d ↦{qm} fmt) ∗ (dstLoc d ↦{qd} fdst) ∗ (zpkLoc d ↦{qz} fz) ∗ ∃ f, partsLoc d ↦[partsSet L]{fullShare} f)

def td2 (qm qd qz : PosShare TreeShare) (d : Dev nD) (fmt : Buf (Elt F) (mtLoc d)) (fdst : Buf (Elt F) (dstLoc d)) (fz : Buf (Elt F) (zpkLoc d))
    (L : grid2.Coords) : sProp 𝕄 :=
  iprop((mtLoc d ↦{qm} fmt) ∗ (dstLoc d ↦{qd} fdst) ∗ (zpkLoc d ↦{qz} fz) ∗ ∃ f, partsLoc d ↦[partsSet L]{fullShare} f)

theorem remsi_toNat (x : BitVec 32) (hx : x.toNat < 10240) : (IntOp.remsi .vector x 640#32).toNat = x.toNat % 640 :=
  IntOp.toNat_remsi _ (by omega) 640 (by decide) (by decide)

theorem divsi_toNat (x : BitVec 32) (hx : x.toNat < 10240) : (IntOp.divsi .vector x 640#32).toNat = x.toNat / 640 := by
  have hm : x.msb = false := BitVec.msb_eq_false_iff_two_mul_lt.mpr (by omega)
  unfold IntOp.divsi
  rw [if_neg (IntOp.not_corner_of_pos (y := 640#32) (by decide)), BitVec.sdiv_eq, hm, show (640#32 : BitVec 32).msb = false by decide]
  show (x / 640#32).toNat = _
  rw [BitVec.toNat_udiv]; rfl

theorem col_toNat (x c : BitVec 32) (hx : x.toNat < 10240) (hc : c.toNat < 8) :
    (IntOp.addi (IntOp.muli (IntOp.divsi .vector x 640#32) 8#32) c).toNat = 8 * (x.toNat / 640) + c.toNat := by
  unfold IntOp.addi IntOp.muli
  rw [BitVec.toNat_add, BitVec.toNat_mul, divsi_toNat x hx]
  have : x.toNat / 640 < 16 := by omega
  simp
  omega

section Tile

variable (d : Dev nD) (L : grid2.Coords)

abbrev c0cell : GSem nD τ sig := (thr d L, .dma cc2_scoped0.sem)
abbrev c1cell : GSem nD τ sig := (thr d L, .dma cc2_scoped1.sem)
abbrev c2cell : GSem nD τ sig := (thr d L, .dma cc2_scoped2.sem)
abbrev c3cell : GSem nD τ sig := (thr d L, .dma cc2_scoped3.sem)

theorem ownSems0_V :
    (ownSems0 (thr d L) : sProp 𝕄)
      = iprop(semVal (c0cell d L) 0 ∗ semVal (c1cell d L) 0 ∗ semVal (c2cell d L) 0 ∗ semVal (c3cell d L) 0
          ∗ bigSep (((((ownCells (thr d L)).erase (c0cell d L)).erase (c1cell d L)).erase (c2cell d L)).erase (c3cell d L))
              fun g => semVal g 0) := by
  unfold SparseCore.Cfg.ownSems0
  have m (s : DmaSem sig) (h : (SemLoc.dma s : SemLoc sig).isScoped .scVector = true) :
      ((thr d L, .dma s) : GSem nD τ sig) ∈ ownCells (thr d L) := mem_ownCells.mpr ⟨rfl, h⟩
  have m0 := m cc2_scoped0.sem (by decide)
  have m1 := m cc2_scoped1.sem (by decide)
  have m2 := m cc2_scoped2.sem (by decide)
  have m3 := m cc2_scoped3.sem (by decide)
  have n10 : c1cell d L ≠ c0cell d L := by simp [c0cell, c1cell]; decide
  have n20 : c2cell d L ≠ c0cell d L := by simp [c0cell, c2cell]; decide
  have n30 : c3cell d L ≠ c0cell d L := by simp [c0cell, c3cell]; decide
  have n21 : c2cell d L ≠ c1cell d L := by simp [c1cell, c2cell]; decide
  have n31 : c3cell d L ≠ c1cell d L := by simp [c1cell, c3cell]; decide
  have n32 : c3cell d L ≠ c2cell d L := by simp [c2cell, c3cell]; decide
  rw [SparseCore.bigSep_erase' m0,
    SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

theorem ownBufs_V :
    (ownBufs (thr d L) : sProp 𝕄)
      = iprop((∃ f, (thr d L).loc cc2_scratch0 ↦{fullShare} f) ∗ (∃ f, (thr d L).loc cc2_scratch1 ↦{fullShare} f)
          ∗ (∃ f, (thr d L).loc cc2_scratch2 ↦{fullShare} f)
          ∗ bigSep ((((ownRefs (τ := τ) (.scVector (cV2 L) (jV2 L))).erase ((Proc.scVector (cV2 L) (jV2 L)).devRef cc2_scratch0)).erase
              ((Proc.scVector (cV2 L) (jV2 L)).devRef cc2_scratch1)).erase ((Proc.scVector (cV2 L) (jV2 L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV2 L) (jV2 L))
    (b := (Proc.scVector (cV2 L) (jV2 L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV2 L) (jV2 L)) (b := (Proc.scVector (cV2 L) (jV2 L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (cV2 L) (jV2 L)) (b := (Proc.scVector (cV2 L) (jV2 L)).devRef cc2_scratch2) rfl⟩⟩)]

theorem pts_mt (q : PosShare TreeShare) (f : Buf (Elt F) (mtLoc d)) :
    ((mtW).view.loc (thr d L) ↦{q} f : sProp 𝕄) = mtLoc d ↦{q} f := rfl
theorem pts_dst (q : PosShare TreeShare) (f : Buf (Elt F) (dstLoc d)) :
    ((dstW).view.loc (thr d L) ↦{q} f : sProp 𝕄) = dstLoc d ↦{q} f := rfl
theorem pts_zpk (q : PosShare TreeShare) (f : Buf (Elt F) (zpkLoc d)) :
    ((zpkW).view.loc (thr d L) ↦{q} f : sProp 𝕄) = zpkLoc d ↦{q} f := rfl
theorem pts_parts (f : Buf (Elt F) (partsLoc d)) :
    ((partsSl L).view.loc (thr d L) ↦[(partsSl L).view.set]{fullShare} f : sProp 𝕄) = partsLoc d ↦[partsSet L]{fullShare} f := rfl
theorem pts_acc (f : Buf (Elt F) ((thr d L).loc cc2_scratch0)) :
    ((accW).view.loc (thr d L) ↦{fullShare} f : sProp 𝕄) = (thr d L).loc cc2_scratch0 ↦{fullShare} f := rfl
theorem pts_idx (f : Buf (Elt F) ((thr d L).loc cc2_scratch1)) :
    ((idxW).view.loc (thr d L) ↦{fullShare} f : sProp 𝕄) = (thr d L).loc cc2_scratch1 ↦{fullShare} f := rfl
theorem pts_rows (f : Buf (Elt F) ((thr d L).loc cc2_scratch2)) :
    ((rowsW).view.loc (thr d L) ↦{fullShare} f : sProp 𝕄) = (thr d L).loc cc2_scratch2 ↦{fullShare} f := rfl

theorem pts_acc_whole (f : Buf (Elt F) ((thr d L).loc cc2_scratch0)) :
    ((((accW).access (.whole S640x128)).loc (thr d L) ↦[((accW).access (.whole S640x128)).set]{fullShare} f : sProp 𝕄))
      = ((accW).view.loc (thr d L) ↦{fullShare} f) := by
  rw [show ((accW).access (.whole S640x128)).set = Finset.univ from Memref.set_access_whole (cc2_scratch0 : Ref sig .scVector)]

abbrev idxSq : Memref sig .scVector .vmem S2048 .i32 :=
  ((idxW).slice (Rect.unit (s := S1x2048) ![0, 0] S1x2048.size inb_S1x2048_S1x2048_0_0) (fun _ => rfl)).squeeze S2048 squeezes_S1x2048_S2048

def IdxOK (fi : Buf (Elt F) ((thr d L).loc cc2_scratch1)) : Prop := ∀ j : S1x2048.Idx, (fi j).toNat < 10240

theorem idxSq_set : (idxSq).view.set = Finset.univ := by
  apply Finset.eq_univ_of_card
  rw [View.card_set]; rfl

abbrev ld (fi : Buf (Elt F) ((thr d L).loc cc2_scratch1)) (t : Fin k2_t2_loop.trips) : Vec F S1x16 .i32 :=
  (idxW).view.readAt (Elt F) (Rect.unit (s := S1x2048) (k2_off3 t) S1x16.size (k2_off3_inb t)).toLoadRect fi

-- a word below 10240 names a row below 640 and, with a message row below eight, a column below 128
theorem chk_ok (fi : Buf (Elt F) ((thr d L).loc cc2_scratch1)) (hfi : IdxOK d L fi) (t : Fin k2_t2_loop.trips) (c : BitVec 32) (hc : c.toNat < 8) :
    ∀ a x, ((![k2_pay2 (ld d L fi t), addi (k2_pay3 (ld d L fi t)) (broadcast S16 c)] : Fin 2 → IVec S16 32) a x).toNat < S640x128.size a := by
  intro a x
  have hb : (k2_pay1 (ld d L fi t) x).toNat < 10240 := hfi _
  fin_cases a
  · show (IntOp.remsi .vector (k2_pay1 (ld d L fi t) x) 640#32).toNat < 640
    rw [remsi_toNat _ hb]; exact Nat.mod_lt _ (by decide)
  · show (IntOp.addi (IntOp.muli (IntOp.divsi .vector (k2_pay1 (ld d L fi t) x) 640#32) 8#32) c).toNat < 128
    rw [col_toNat _ _ hb hc]; omega

-- writing every element makes the earlier contents irrelevant
theorem write_univ_congr {κ : Kind} {sp : Space} {s : Shape} {e : EltTy} (v : View sig κ sp s e) (hset : v.set = Finset.univ)
    (f g : v.ty.Contents (Elt F)) (w : s.Idx → Elt F e) :
    v.write (Elt F) f w Finset.univ = v.write (Elt F) g w Finset.univ := by
  funext i
  obtain ⟨x, -, rfl⟩ := Finset.mem_map.mp (hset ▸ Finset.mem_univ i : i ∈ v.set)
  rw [View.write_emb_of_mem _ _ (Finset.mem_univ x), View.write_emb_of_mem _ _ (Finset.mem_univ x)]

abbrev dstSl (k : Fin k2_t1_loop.trips) : Memref sig .scVector .hbm S2048 .i32 :=
  (dstW).slice (Rect.unit (s := S327680) (k2_off1 L k) S2048.size (k2_off1_inb L k)) (fun _ => rfl)
abbrev mtSl (k : Fin k2_t1_loop.trips) : Memref sig .scVector .hbm S8x2048 .f32 :=
  (mtW).slice (Rect.unit (s := S16x327680) (k2_off2 L k) S8x2048.size (k2_off2_inb L k)) (fun _ => rfl)

def Ik (fdst : Buf (Elt F) (dstLoc d)) (k : Fin k2_t1_loop.trips) : Buf (Elt F) ((thr d L).loc cc2_scratch1) :=
  View.write (Elt F) (idxSq).view (fun _ => (0#32 : BitVec 32)) ((dstSl L k).view.read (Elt F) fdst) Finset.univ

theorem Ik_emb (fdst : Buf (Elt F) (dstLoc d)) (k : Fin k2_t1_loop.trips) (x : S2048.Idx) :
    Ik d L fdst k ((idxSq).view.emb x) = (dstSl L k).view.read (Elt F) fdst x := by
  unfold Ik
  rw [View.write_emb_of_mem _ _ (Finset.mem_univ x)]; rfl

-- the written words cover the whole buffer, so each of its words is one of the chunk's destination words
theorem Ik_ok (fdst : Buf (Elt F) (dstLoc d)) (hok : DstOK fdst) (k : Fin k2_t1_loop.trips) : IdxOK d L (Ik d L fdst k) := fun j => by
  obtain ⟨x, -, rfl⟩ := Finset.mem_map.mp (idxSq_set ▸ Finset.mem_univ j : j ∈ (idxSq).view.set)
  rw [Ik_emb]; exact hok _

def Rk (fmt : Buf (Elt F) (mtLoc d)) (k : Fin k2_t1_loop.trips) : Buf (Elt F) ((thr d L).loc cc2_scratch2) :=
  (mtSl L k).view.read (Elt F) fmt

def st1 (f : Buf (Elt F) ((thr d L).loc cc2_scratch0)) (iv jv : IVec S16 32) (v : Vec F S16 .f32)
    (h : ∀ a x, ((![iv, jv] : Fin 2 → IVec S16 32) a x).toNat < S640x128.size a) : Buf (Elt F) ((thr d L).loc cc2_scratch0) :=
  ((accW).access (.whole S640x128)).write (Elt F) f
    (storeIdx (((accW).access (.whole S640x128)).read (Elt F) f) ![iv, jv] v (fun _ => 1#1) true h) Finset.univ

theorem acc_store (f : Buf (Elt F) ((thr d L).loc cc2_scratch0)) (iv jv : IVec S16 32) (v : Vec F S16 .f32)
    (h : ∀ a x, ((![iv, jv] : Fin 2 → IVec S16 32) a x).toNat < S640x128.size a) :
    ((((accW).access (.whole S640x128)).loc (thr d L) ↦[((accW).access (.whole S640x128)).set]{fullShare}
        (((accW).access (.whole S640x128)).write (Elt F) f
          (storeIdx (((accW).access (.whole S640x128)).read (Elt F) f) ![iv, jv] v (fun _ => 1#1) true h) Finset.univ) : sProp 𝕄))
      = ((accW).view.loc (thr d L) ↦{fullShare} st1 d L f iv jv v h) := pts_acc_whole d L _

theorem st1_eq (f : Buf (Elt F) ((thr d L).loc cc2_scratch0)) (iv jv : IVec S16 32) (v : Vec F S16 .f32)
    (h : ∀ a x, ((![iv, jv] : Fin 2 → IVec S16 32) a x).toNat < S640x128.size a) :
    st1 d L f iv jv v h = storeIdx f ![iv, jv] v (fun _ => 1#1) true h := by
  unfold st1
  have hr : ((accW).access (.whole S640x128)).read (Elt F) f = f :=
    Memref.read_access_whole (Elt F) (cc2_scratch0 : Ref sig .scVector) f
  rw [hr]
  exact Memref.write_access_whole_univ (Elt F) (cc2_scratch0 : Ref sig .scVector) f _

abbrev rowLd (fr : Buf (Elt F) ((thr d L).loc cc2_scratch2)) (off : Fin 2 → Nat) (inb : ∀ a, off a + S1x16.size a ≤ S8x2048.size a) : Vec F S1x16 .f32 :=
  (rowsW).view.readAt (Elt F) (Rect.unit (s := S8x2048) off S1x16.size inb).toLoadRect fr

-- a step applied trip by trip, for as many trips as the loop has
def iter {α : Type} (n : Nat) (g : Fin n → α → α) (a : α) : Nat → α
  | 0 => a
  | k + 1 => if h : k < n then g ⟨k, h⟩ (iter n g a k) else iter n g a k

theorem iter_succ {α : Type} {n : Nat} (g : Fin n → α → α) (a : α) (k : Fin n) : iter n g a (k.val + 1) = g k (iter n g a k.val) := by
  show (if h : k.val < n then g ⟨k.val, h⟩ (iter n g a k.val) else iter n g a k.val) = _
  rw [dif_pos k.isLt]

section Chunk

variable (fi : Buf (Elt F) ((thr d L).loc cc2_scratch1)) (hfi : IdxOK d L fi) (fr : Buf (Elt F) ((thr d L).loc cc2_scratch2))

def T (t : Fin k2_t2_loop.trips) (f : Buf (Elt F) ((thr d L).loc cc2_scratch0)) : Buf (Elt F) ((thr d L).loc cc2_scratch0) :=
  let f1 := st1 d L f (k2_pay2 (ld d L fi t)) (k2_pay5 (ld d L fi t)) (k2_pay4 (rowLd d L fr (k2_off4 t) (k2_off4_inb t))) (chk_ok d L fi hfi t 0#32 (by decide))
  let f2 := st1 d L f1 (k2_pay2 (ld d L fi t)) (k2_pay7 (ld d L fi t)) (k2_pay6 (rowLd d L fr (k2_off5 t) (k2_off5_inb t))) (chk_ok d L fi hfi t 1#32 (by decide))
  let f3 := st1 d L f2 (k2_pay2 (ld d L fi t)) (k2_pay9 (ld d L fi t)) (k2_pay8 (rowLd d L fr (k2_off6 t) (k2_off6_inb t))) (chk_ok d L fi hfi t 2#32 (by decide))
  let f4 := st1 d L f3 (k2_pay2 (ld d L fi t)) (k2_pay11 (k2_pay3 (ld d L fi t))) (k2_pay10 (rowLd d L fr (k2_off7 t) (k2_off7_inb t))) (chk_ok d L fi hfi t 3#32 (by decide))
  let f5 := st1 d L f4 (k2_pay2 (ld d L fi t)) (k2_pay13 (k2_pay3 (ld d L fi t))) (k2_pay12 (rowLd d L fr (k2_off8 t) (k2_off8_inb t))) (chk_ok d L fi hfi t 4#32 (by decide))
  let f6 := st1 d L f5 (k2_pay2 (ld d L fi t)) (k2_pay15 (k2_pay3 (ld d L fi t))) (k2_pay14 (rowLd d L fr (k2_off9 t) (k2_off9_inb t))) (chk_ok d L fi hfi t 5#32 (by decide))
  let f7 := st1 d L f6 (k2_pay2 (ld d L fi t)) (k2_pay17 (k2_pay3 (ld d L fi t))) (k2_pay16 (rowLd d L fr (k2_off10 t) (k2_off10_inb t))) (chk_ok d L fi hfi t 6#32 (by decide))
  st1 d L f7 (k2_pay2 (ld d L fi t)) (k2_pay19 (k2_pay3 (ld d L fi t))) (k2_pay18 (rowLd d L fr (k2_off11 t) (k2_off11_inb t))) (chk_ok d L fi hfi t 7#32 (by decide))

def B (f₀ : Buf (Elt F) ((thr d L).loc cc2_scratch0)) : Nat → Buf (Elt F) ((thr d L).loc cc2_scratch0) :=
  iter k2_t2_loop.trips (T d L fi hfi fr) f₀

theorem B_succ (f₀ : Buf (Elt F) ((thr d L).loc cc2_scratch0)) (t : Fin k2_t2_loop.trips) :
    B d L fi hfi fr f₀ (t.val + 1) = T d L fi hfi fr t (B d L fi hfi fr f₀ t.val) := iter_succ _ _ t

theorem B_zero (f₀ : Buf (Elt F) ((thr d L).loc cc2_scratch0)) : B d L fi hfi fr f₀ 0 = f₀ := rfl

attribute [irreducible] B

def inv2v (f₀ : Buf (Elt F) ((thr d L).loc cc2_scratch0)) (t : Nat) (_ : Unit) : sProp 𝕄 :=
  iprop(((accW).view.loc (thr d L) ↦{fullShare} B d L fi hfi fr f₀ t)
    ∗ ((idxW).view.loc (thr d L) ↦{fullShare} fi)
    ∗ ((rowsW).view.loc (thr d L) ↦{fullShare} fr))

end Chunk

section Task

variable (fmt : Buf (Elt F) (mtLoc d)) (fdst : Buf (Elt F) (dstLoc d)) (fz : Buf (Elt F) (zpkLoc d)) (hok : DstOK fdst)

def A : Nat → Buf (Elt F) ((thr d L).loc cc2_scratch0) :=
  iter k2_t1_loop.trips (fun k f => B d L (Ik d L fdst k) (Ik_ok d L fdst hok k) (Rk d L fmt k) f k2_t2_loop.trips) ((zpkW).view.read (Elt F) fz)

theorem A_succ (k : Fin k2_t1_loop.trips) :
    A d L fmt fdst fz hok (k.val + 1)
      = B d L (Ik d L fdst k) (Ik_ok d L fdst hok k) (Rk d L fmt k) (A d L fmt fdst fz hok k.val) k2_t2_loop.trips := iter_succ _ _ k

theorem A_zero : A d L fmt fdst fz hok 0 = (zpkW).view.read (Elt F) fz := rfl

attribute [irreducible] A

def out2 : S640x128.Idx → Elt F .f32 :=
  (accW).view.read (Elt F) (A d L fmt fdst fz hok k2_t1_loop.trips)

end Task

def inv1v (qm qd : PosShare TreeShare) (fmt : Buf (Elt F) (mtLoc d)) (fdst : Buf (Elt F) (dstLoc d)) (fz : Buf (Elt F) (zpkLoc d)) (hok : DstOK fdst)
    (O : CellTallies nD τ sig (HIx 2)) (W : Waits sig (HIx 2)) (k : Nat) (_ : Unit) : sProp 𝕄 :=
  iprop(Transfers.MayWaits (thr d L) (none : HIx 2) O
    ∗ ((mtW).view.loc (thr d L) ↦{qm} fmt)
    ∗ ((dstW).view.loc (thr d L) ↦{qd} fdst)
    ∗ ((accW).view.loc (thr d L) ↦{fullShare} A d L fmt fdst fz hok k)
    ∗ (∃ f, (idxW).view.loc (thr d L) ↦{fullShare} f)
    ∗ (∃ f, (rowsW).view.loc (thr d L) ↦{fullShare} f)
    ∗ semVal (c1cell d L) 0 ∗ semVal (c2cell d L) 0
    ∗ ∃ W', ⌜∀ p ∈ W', p ∈ W ∨ p.2 = none⌝ ∗ owes (thr d L) O W')

def td2v (qm qd qz : PosShare TreeShare) (fmt : Buf (Elt F) (mtLoc d)) (fdst : Buf (Elt F) (dstLoc d)) (fz : Buf (Elt F) (zpkLoc d)) (hok : DstOK fdst) : sProp 𝕄 :=
  iprop((mtLoc d ↦{qm} fmt) ∗ (dstLoc d ↦{qd} fdst) ∗ (zpkLoc d ↦{qz} fz)
    ∗ ∃ f, (partsLoc d ↦[partsSet L]{fullShare} f) ∗ ⌜(partsSl L).view.read (Elt F) f = out2 d L fmt fdst fz hok⌝)

theorem td2v_td2 (qm qd qz : PosShare TreeShare) (fmt : Buf (Elt F) (mtLoc d)) (fdst : Buf (Elt F) (dstLoc d)) (fz : Buf (Elt F) (zpkLoc d)) (hok : DstOK fdst) :
    td2v d L qm qd qz fmt fdst fz hok ⊢ td2 qm qd qz d fmt fdst fz L := by
  unfold td2v td2
  iintro ⟨Hm, Hd, Hz, %f, Hp, -⟩
  isplitl [Hm]; · iexact Hm
  isplitl [Hd]; · iexact Hd
  isplitl [Hz]; · iexact Hz
  iexists f; iexact Hp

theorem body2v (qm qd qz : PosShare TreeShare) (fmt : Buf (Elt F) (mtLoc d)) (fdst : Buf (Elt F) (dstLoc d)) (fz : Buf (Elt F) (zpkLoc d))
    (O : CellTallies nD τ sig (HIx 2)) (W : Waits sig (HIx 2)) (hO : ∀ g, O g none = 0) (hok : DstOK fdst) :
    iprop(levAts (K (F := F)).L (K (F := F)).lev ∗ emp ∗ go2 qm qd qz d fmt fdst fz L
        ∗ scopedBufs (thr d L) ∗ scopedSems0 (thr d L) ∗ owes (thr d L) O W)
      ⊢ wp frame (wpE (defs₀ (F := F)) 𝒱₀ (thr d L) none) Set.univ
          (cc2_k L mtW (Memref.isWhole_whole _) dstW (Memref.isWhole_whole _) zpkW (Memref.isWhole_whole _) partsW (Memref.isWhole_whole _)
            accW (Memref.isWhole_whole _) idxW (Memref.isWhole_whole _) rowsW (Memref.isWhole_whole _) cc2_scoped0 cc2_scoped1 cc2_scoped2 cc2_scoped3)
          fun _ => iprop(td2v d L qm qd qz fmt fdst fz hok ∗ scopedBufs (thr d L) ∗ scopedSems0 (thr d L)
            ∗ ∃ W', ⌜∀ p ∈ W', p ∈ W ∨ p.2 = none⌝ ∗ owes (thr d L) O W') := by
  simp only [cc2_k_eq_skeleton]; unfold cc2_k_skel
  rw [(K (F := F)).scopedBufs_V facts d (cV2 L) (jV2 L), SparseCore.Cfg.scopedSems0_V (Val := Elt F) d (cV2 L) (jV2 L), ownSems0_V, ownBufs_V]
  unfold go2 td2v out2
  iintro ⟨#Hlv, -, ⟨Hmt, Hdst, Hz, %fp, Hp⟩, ⟨⟨%fa, Ha⟩, ⟨%fi, Hi⟩, ⟨%fr, Hr⟩, Hbufs⟩, ⟨Hs0, Hs1, Hs2, Hs3, Hsems⟩, HO⟩
  ihave Hmw := ((K (F := F)).mayWaits_none (thr := thr d L) hO) $$ Hlv
  ihave Hmt' := (Entails.of_eq (pts_mt (F := F) d L _ _).symm) $$ Hmt
  ihave Hdst' := (Entails.of_eq (pts_dst (F := F) d L _ _).symm) $$ Hdst
  ihave Hz' := (Entails.of_eq (pts_zpk (F := F) d L _ _).symm) $$ Hz
  ihave Hp' := (Entails.of_eq (pts_parts (F := F) d L _).symm) $$ Hp
  ihave Ha' := (Entails.of_eq (pts_acc (F := F) d L _).symm) $$ Ha
  ihave Hi' := (Entails.of_eq (pts_idx (F := F) d L _).symm) $$ Hi
  ihave Hr' := (Entails.of_eq (pts_rows (F := F) d L _).symm) $$ Hr
  sl_exec
  have eA : View.write (Elt F) (accW).view fa (body2v.sl.dma0 d fz) Finset.univ = A d L fmt fdst fz hok 0 :=
    (View.write_whole_univ _ _ _).trans (A_zero d L fmt fdst fz hok).symm
  rw [eA]
  sl_for (inv1v d L qm qd fmt fdst fz hok O W) $$ [Hmw Hmt' Hdst' Ha' Hi' Hr' Hs1 Hs2 HO]
  case region =>
    intro k _
    unfold inv1v
    iintro ⟨#Hmw, Hmt, Hdst, Ha, ⟨%fi, Hi⟩, ⟨%fr, Hr⟩, Hs1, Hs2, %W', %hW', HO⟩
    sl_exec
    have eI : View.write (Elt F) (idxSq).view fi (body2v.sl.dma0_1 d L fdst k) Finset.univ = Ik d L fdst k :=
      write_univ_congr (idxSq).view idxSq_set fi _ _
    have eR : View.write (Elt F) (rowsW).view fr (body2v.sl.dma0_2 d L fmt k) Finset.univ = Rk d L fmt k := View.write_whole_univ _ _ _
    rw [eI, eR]
    sl_for (inv2v d L (Ik d L fdst k) (Ik_ok d L fdst hok k) (Rk d L fmt k) (A d L fmt fdst fz hok k.val)) $$ [Ha Hi Hr]
    case region =>
      intro t _
      unfold inv2v
      iintro ⟨Ha, Hi, Hr⟩
      iterate 8
        sl_exec (disch := exact chk_ok d L _ (Ik_ok d L fdst hok k) t _ (by decide))
        ihave Ha := (Entails.of_eq (pts_acc_whole d L _).symm) $$ Ha
        iapply (SparseCore.wp_vectorStoreIdx 𝒱₀ (thr d L) none Set.univ (base := accW)) $$ Ha
        iintro Ha
        ihave Ha := (Entails.of_eq (acc_store d L _ _ _ _ _)) $$ Ha
      sl_exec
      sl_step
      rw [B_succ]
      isplitl [Ha]; · iexact Ha
      isplitl [Hi]; · iexact Hi
      iexact Hr
    · unfold inv2v
      rw [B_zero]
      isplitl [Ha]; · iexact Ha
      isplitl [Hi]; · iexact Hi
      iexact Hr
    iintro %_ HI
    unfold inv2v
    icases HI with ⟨Ha, Hi, Hr⟩
    sl_exec
    sl_step
    rw [A_succ]
    isplitr; · iexact Hmw
    isplitl [Hmt]; · iexact Hmt
    isplitl [Hdst]; · iexact Hdst
    isplitl [Ha]; · iexact Ha
    isplitl [Hi]; · iexists _; iexact Hi
    isplitl [Hr]; · iexists _; iexact Hr
    isplitl [Hs1]; · iexact Hs1
    isplitl [Hs2]; · iexact Hs2
    iexists (insert (SemLoc.dma cc2_scoped2.sem, (default : HIx 2)) (insert (SemLoc.dma cc2_scoped1.sem, (default : HIx 2)) (W'))); isplitr
    · ipureintro; intro p hp
      rcases Finset.mem_insert.mp hp with rfl | hp
      · exact .inr rfl
      rcases Finset.mem_insert.mp hp with rfl | hp
      · exact .inr rfl
      exact hW' p hp
    · iexact HO
  · unfold inv1v
    isplitr; · iexact Hmw
    isplitl [Hmt']; · iexact Hmt'
    isplitl [Hdst']; · iexact Hdst'
    isplitl [Ha']; · iexact Ha'
    isplitl [Hi']; · iexists _; iexact Hi'
    isplitl [Hr']; · iexists _; iexact Hr'
    isplitl [Hs1]; · iexact Hs1
    isplitl [Hs2]; · iexact Hs2
    iexists (insert (SemLoc.dma cc2_scoped0.sem, (default : HIx 2)) (W)); isplitr
    · ipureintro; intro p hp
      rcases Finset.mem_insert.mp hp with rfl | hp
      · exact .inr rfl
      exact .inl hp
    · iexact HO
  iintro %_ HI
  unfold inv1v
  icases HI with ⟨-, Hmt, Hdst, Ha, ⟨%fi3, Hi⟩, ⟨%fr3, Hr⟩, Hs1, Hs2, %W', %hW', HO⟩
  generalize A d L fmt fdst fz hok k2_t1_loop.trips = Af
  sl_exec
  sl_step
  isplitl [Hmt Hdst Hz' Hp']
  · isplitl [Hmt]; · iapply (Entails.of_eq (pts_mt (F := F) d L _ _)); iexact Hmt
    isplitl [Hdst]; · iapply (Entails.of_eq (pts_dst (F := F) d L _ _)); iexact Hdst
    isplitl [Hz']; · iapply (Entails.of_eq (pts_zpk (F := F) d L _ _)); iexact Hz'
    iexists _; isplitl [Hp']
    · iapply (Entails.of_eq (pts_parts (F := F) d L _)); iexact Hp'
    · ipureintro; exact View.read_writes_whole _ _ _
  isplitl [Ha Hi Hr Hbufs]
  · isplitl [Ha]; · iexists _; iexact Ha
    isplitl [Hi]; · iexists _; iexact Hi
    isplitl [Hr]; · iexists _; iexact Hr
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists (insert (SemLoc.dma cc2_scoped3.sem, (default : HIx 2)) (W')); isplitr
  · ipureintro; intro p hp
    rcases Finset.mem_insert.mp hp with rfl | hp
    · exact .inr rfl
    exact hW' p hp
  · iexact HO

theorem body2 (qm qd qz : PosShare TreeShare) (fmt : Buf (Elt F) (mtLoc d)) (fdst : Buf (Elt F) (dstLoc d)) (fz : Buf (Elt F) (zpkLoc d))
    (O : CellTallies nD τ sig (HIx 2)) (W : Waits sig (HIx 2)) (hO : ∀ g, O g none = 0) (hok : DstOK fdst) :
    iprop(levAts (K (F := F)).L (K (F := F)).lev ∗ emp ∗ go2 qm qd qz d fmt fdst fz L
        ∗ scopedBufs (thr d L) ∗ scopedSems0 (thr d L) ∗ owes (thr d L) O W)
      ⊢ wp frame (wpE (defs₀ (F := F)) 𝒱₀ (thr d L) none) Set.univ
          (cc2_k L mtW (Memref.isWhole_whole _) dstW (Memref.isWhole_whole _) zpkW (Memref.isWhole_whole _) partsW (Memref.isWhole_whole _)
            accW (Memref.isWhole_whole _) idxW (Memref.isWhole_whole _) rowsW (Memref.isWhole_whole _) cc2_scoped0 cc2_scoped1 cc2_scoped2 cc2_scoped3)
          fun _ => iprop(td2 qm qd qz d fmt fdst fz L ∗ scopedBufs (thr d L) ∗ scopedSems0 (thr d L)
            ∗ ∃ W', ⌜∀ p ∈ W', p ∈ W ∨ p.2 = none⌝ ∗ owes (thr d L) O W') :=
  (body2v d L qm qd qz fmt fdst fz O W hO hok).trans (wp_mono frame _ _ fun _ => by
    iintro ⟨Ht, Hrest⟩
    isplitl [Ht]
    · iapply (td2v_td2 d L qm qd qz fmt fdst fz hok); iexact Ht
    · iexact Hrest)

end Tile

theorem k2_off12_closed : ∀ L : grid2.Coords,
    k2_off12 L = ![(16 * (L 0).val + (L 1).val) % 2, (16 * (L 0).val + (L 1).val) / 2, 0, 0] := by decide +kernel

theorem partsSet_eq (L : grid2.Coords) :
    partsSet L = (Rect.unit (s := S2x16x640x128) (k2_off12 L) S1x1x640x128.size (k2_off12_inb L)).set := by
  show (((View.whole (main_v45_scv : Ref sig .scVector)).slice (Rect.unit (s := S2x16x640x128) (k2_off12 L) S1x1x640x128.size (k2_off12_inb L))).reshape
      S640x128 squeezes_S1x1x640x128_S640x128.numel_eq).set = _
  rw [View.set_reshape, View.set_slice]; exact Finset.map_refl

theorem partsSet_disjoint : ∀ L L' : grid2.Coords, L ≠ L' → Disjoint (partsSet L) (partsSet L') := by
  intro L L' hne
  rw [partsSet_eq, partsSet_eq]
  have hc : (L 0).val < 2 := (L 0).isLt
  have hc' : (L' 0).val < 2 := (L' 0).isLt
  have hs : (L 1).val < 16 := (L 1).isLt
  have hs' : (L' 1).val < 16 := (L' 1).isLt
  have hw : 16 * (L 0).val + (L 1).val ≠ 16 * (L' 0).val + (L' 1).val := by
    intro e
    apply hne
    funext a
    fin_cases a
    · exact Fin.ext (by show (L 0).val = (L' 0).val; omega)
    · exact Fin.ext (by show (L 1).val = (L' 1).val; omega)
  by_cases h0 : (16 * (L 0).val + (L 1).val) % 2 = (16 * (L' 0).val + (L' 1).val) % 2
  · refine Rect.unit_disjoint 1 ?_
    rw [k2_off12_closed L, k2_off12_closed L']
    show (16 * (L 0).val + (L 1).val) / 2 + 1 ≤ (16 * (L' 0).val + (L' 1).val) / 2 ∨ (16 * (L' 0).val + (L' 1).val) / 2 + 1 ≤ (16 * (L 0).val + (L 1).val) / 2
    omega
  · refine Rect.unit_disjoint 0 ?_
    rw [k2_off12_closed L, k2_off12_closed L']
    show (16 * (L 0).val + (L 1).val) % 2 + 1 ≤ (16 * (L' 0).val + (L' 1).val) % 2 ∨ (16 * (L' 0).val + (L' 1).val) % 2 + 1 ≤ (16 * (L 0).val + (L 1).val) % 2
    omega

theorem partsSet_cover : (Finset.univ : Finset grid2.Coords).biUnion partsSet = Finset.univ := by
  apply Finset.eq_univ_of_forall
  intro i
  have h0 : (i 0).val < 2 := (i 0).isLt
  have h1 : (i 1).val < 16 := (i 1).isLt
  let wid := 2 * (i 1).val + (i 0).val
  let L : grid2.Coords := fun
    | 0 => ⟨wid / 16, by show (2 * (i 1).val + (i 0).val) / 16 < 2; omega⟩
    | 1 => ⟨wid % 16, by show (2 * (i 1).val + (i 0).val) % 16 < 16; omega⟩
    | ⟨_ + 2, h⟩ => absurd h (Nat.not_lt.2 (Nat.le_add_left _ _))
  refine Finset.mem_biUnion.mpr ⟨L, Finset.mem_univ _, ?_⟩
  rw [partsSet_eq, Rect.mem_set_unit, k2_off12_closed L]
  have e0 : (16 * (L 0).val + (L 1).val) % 2 = (i 0).val := by
    show (16 * ((2 * (i 1).val + (i 0).val) / 16) + (2 * (i 1).val + (i 0).val) % 16) % 2 = (i 0).val; omega
  have e1 : (16 * (L 0).val + (L 1).val) / 2 = (i 1).val := by
    show (16 * ((2 * (i 1).val + (i 0).val) / 16) + (2 * (i 1).val + (i 0).val) % 16) / 2 = (i 1).val; omega
  intro a
  fin_cases a
  · show (16 * (L 0).val + (L 1).val) % 2 ≤ (i 0).val ∧ (i 0).val < (16 * (L 0).val + (L 1).val) % 2 + 1
    omega
  · show (16 * (L 0).val + (L 1).val) / 2 ≤ (i 1).val ∧ (i 1).val < (16 * (L 0).val + (L 1).val) / 2 + 1
    omega
  · show 0 ≤ (i 2).val ∧ (i 2).val < 0 + 640
    exact ⟨Nat.zero_le _, by simpa using (i 2).isLt⟩
  · show 0 ≤ (i 3).val ∧ (i 3).val < 0 + 128
    exact ⟨Nat.zero_le _, by simpa using (i 3).isLt⟩

theorem k2_off1_closed : ∀ (L : grid2.Coords) (k : Fin k2_t1_loop.trips),
    k2_off1 L k = ![20480 * ((16 * (L 0).val + (L 1).val) / 2) + 2048 * k.val] := by decide +kernel

theorem k2_off2_closed : ∀ (L : grid2.Coords) (k : Fin k2_t1_loop.trips),
    k2_off2 L k = ![8 * ((16 * (L 0).val + (L 1).val) % 2), 20480 * ((16 * (L 0).val + (L 1).val) / 2) + 2048 * k.val] := by decide +kernel

section At

open Idealize.ShloMosaic.ValueIdx

variable (d : Dev nD) (L : grid2.Coords)

theorem idxSq_emb (x : Fin 2048) : (idxSq).view.emb (ix1 x) = ix2 (0 : Fin 1) x := by
  have h1 : Shape.reshapeEquiv (squeezes_S1x2048_S2048.numel_eq) (ix1 x) = ix2 (0 : Fin 1) x :=
    Shape.reshapeEquiv_eq_of_rowMajor _ (by rw [Shape.rowMajor_val_two, Shape.rowMajor_val_one]; simp)
  show (Rect.unit (s := S1x2048) ![0, 0] S1x2048.size inb_S1x2048_S1x2048_0_0).emb (Shape.reshapeEquiv _ (ix1 x)) = _
  rw [h1]
  funext a; apply Fin.ext
  rw [Rect.emb_apply]
  match a with
  | ⟨0, _⟩ => simp
  | ⟨1, _⟩ => simp

theorem chunk_lt (k : Fin k2_t1_loop.trips) (j : Fin 2048) :
    20480 * ((16 * (L 0).val + (L 1).val) / 2) + 2048 * k.val + j.val < 327680 := by
  have hc : (L 0).val < 2 := (L 0).isLt
  have hs : (L 1).val < 16 := (L 1).isLt
  have hk : k.val < 10 := Nat.lt_of_lt_of_le k.isLt k2_t1_abs.2.1
  omega

theorem row_lt (c : Fin 8) : 8 * ((16 * (L 0).val + (L 1).val) % 2) + c.val < 16 := by omega

theorem Ik_at (fdst : Buf (Elt F) (dstLoc d)) (k : Fin k2_t1_loop.trips) (j : Fin 2048) :
    Ik d L fdst k (ix2 (0 : Fin 1) j) = fdst (ix1 ⟨20480 * ((16 * (L 0).val + (L 1).val) / 2) + 2048 * k.val + j.val, chunk_lt L k j⟩) := by
  rw [← idxSq_emb, Ik_emb]
  show fdst ((Rect.unit (s := S327680) (k2_off1 L k) S2048.size (k2_off1_inb L k)).emb (ix1 j)) = _
  congr 1
  funext a; apply Fin.ext
  rw [Rect.emb_apply]
  match a with
  | ⟨0, _⟩ =>
    show k2_off1 L k 0 + 1 * j.val = 20480 * ((16 * (L 0).val + (L 1).val) / 2) + 2048 * k.val + j.val
    rw [k2_off1_closed L k]; simp

theorem Rk_at (fmt : Buf (Elt F) (mtLoc d)) (k : Fin k2_t1_loop.trips) (c : Fin 8) (j : Fin 2048) :
    Rk d L fmt k (ix2 c j) = fmt (ix2 ⟨8 * ((16 * (L 0).val + (L 1).val) % 2) + c.val, row_lt L c⟩
      ⟨20480 * ((16 * (L 0).val + (L 1).val) / 2) + 2048 * k.val + j.val, chunk_lt L k j⟩) := by
  show fmt ((Rect.unit (s := S16x327680) (k2_off2 L k) S8x2048.size (k2_off2_inb L k)).emb (ix2 c j)) = _
  congr 1
  funext a; apply Fin.ext
  rw [Rect.emb_apply]
  match a with
  | ⟨0, _⟩ =>
    show k2_off2 L k 0 + 1 * c.val = 8 * ((16 * (L 0).val + (L 1).val) % 2) + c.val
    rw [k2_off2_closed L k]; simp
  | ⟨1, _⟩ =>
    show k2_off2 L k 1 + 1 * j.val = 20480 * ((16 * (L 0).val + (L 1).val) / 2) + 2048 * k.val + j.val
    rw [k2_off2_closed L k]; simp

end At

end Cert.Proof.KI.K2Body

end
-- ==== Proof.KI.IdxRange.lean ====
import proofs.«205084_g25537875542483_cont_9to1_419_23_alg».proof.Proof.KI.Common
import proofs.«205084_g25537875542483_cont_9to1_419_23_alg».proof.Proof.Gen.Pre_input_domain
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.ReduceAll

noncomputable section

namespace Cert.Proof.KI.IdxRange

open Cert.KernelIdeal Cert.KernelIdeal.Gen
open Idealize.ShloMosaic Idealize.ShloMosaic.ValueIdx
open Idealize.SL.Sem

variable {F : FTy → Type} [FloatOps F]

def hostPre : List (HloOp τ sig (Elt F)) :=
  [ StableHlo.unary main_arg2 main_v0 ((extractStridedSlice S10000x1 ![0, 0] · slices_S10000x3_S10000x1_0_0) : (⟨S10000x3, .f32⟩ : BufTy).Contents (Elt F) → (⟨S10000x1, .f32⟩ : BufTy).Contents (Elt F)),
    StableHlo.reshape main_v0 main_v1 rfl shapeCasts_S10000x1_S10000,
    StableHlo.nullary main_c (constantI S_ 32 0#32),
    StableHlo.TRef.unary (.of main_c : StableHlo.TRef sig ⟨S_, .i32⟩) main_call0.v0 (sitofp .f32),
    StableHlo.TRef.binary (.of main_v1 : StableHlo.TRef sig ⟨S10000, .f32⟩) main_call0.v0 main_call0.v1 (fun x v => pad S10112 ![0] ![112] ![0] x v pads_S10000_S10112_01120 h_S_),
    StableHlo.unary main_arg2 main_v3 ((extractStridedSlice S10000x1 ![0, 1] · slices_S10000x3_S10000x1_0_1) : (⟨S10000x3, .f32⟩ : BufTy).Contents (Elt F) → (⟨S10000x1, .f32⟩ : BufTy).Contents (Elt F)),
    StableHlo.reshape main_v3 main_v4 rfl shapeCasts_S10000x1_S10000,
    StableHlo.nullary main_c_0 (constantI S_ 32 0#32),
    StableHlo.TRef.unary (.of main_c_0 : StableHlo.TRef sig ⟨S_, .i32⟩) main_call1.v0 (sitofp .f32),
    StableHlo.TRef.binary (.of main_v4 : StableHlo.TRef sig ⟨S10000, .f32⟩) main_call1.v0 main_call1.v1 (fun x v => pad S10112 ![0] ![112] ![0] x v pads_S10000_S10112_01120 h_S_),
    StableHlo.unary main_arg2 main_v6 ((extractStridedSlice S10000x1 ![0, 2] · slices_S10000x3_S10000x1_0_2) : (⟨S10000x3, .f32⟩ : BufTy).Contents (Elt F) → (⟨S10000x1, .f32⟩ : BufTy).Contents (Elt F)),
    StableHlo.reshape main_v6 main_v7 rfl shapeCasts_S10000x1_S10000,
    StableHlo.nullary main_c_1 (constantI S_ 32 0#32),
    StableHlo.TRef.unary (.of main_c_1 : StableHlo.TRef sig ⟨S_, .i32⟩) main_call2.v0 (sitofp .f32),
    StableHlo.TRef.binary (.of main_v7 : StableHlo.TRef sig ⟨S10000, .f32⟩) main_call2.v0 main_call2.v1 (fun x v => pad S10112 ![0] ![112] ![0] x v pads_S10000_S10112_01120 h_S_),
    StableHlo.unary main_arg1 main_v9 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v9 main_v10 rfl shapeCasts_S1x320000_S320000,
    StableHlo.unary main_arg1 main_v11 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v11 main_v12 rfl shapeCasts_S1x320000_S320000,
    StableHlo.nullary main_c_2 (constantI S_ 32 0#32),
    StableHlo.unary main_c_2 main_v13 (broadcastInDim S7680 ![] bcast_S_S7680 : (⟨S_, .i32⟩ : BufTy).Contents (Elt F) → (⟨S7680, .i32⟩ : BufTy).Contents (Elt F)),
    StableHlo.binary main_v10 main_v13 main_v14 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    StableHlo.reshape main_v14 main_v15 rfl shapeCasts_S327680_S32x80x128,
    StableHlo.nullary main_c_3 (constantI S_ 32 0#32),
    StableHlo.unary main_c_3 main_v16 (broadcastInDim S7680 ![] bcast_S_S7680 : (⟨S_, .i32⟩ : BufTy).Contents (Elt F) → (⟨S7680, .i32⟩ : BufTy).Contents (Elt F)),
    StableHlo.binary main_v12 main_v16 main_v17 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    StableHlo.reshape main_v17 main_v18 rfl shapeCasts_S327680_S32x80x128,
    StableHlo.nullary main_c_4 (constantI S_ 32 10008#32),
    StableHlo.unary main_c_4 main_v19 (broadcastInDim S7680 ![] bcast_S_S7680 : (⟨S_, .i32⟩ : BufTy).Contents (Elt F) → (⟨S7680, .i32⟩ : BufTy).Contents (Elt F)),
    StableHlo.binary main_v12 main_v19 main_v20 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    StableHlo.nullary main_cst (constant S_ .f32 0x00000000#32),
    StableHlo.unary main_cst main_v21 (broadcastInDim S640x128 ![] bcast_S_S640x128 : (⟨S_, .f32⟩ : BufTy).Contents (Elt F) → (⟨S640x128, .f32⟩ : BufTy).Contents (Elt F)),
    StableHlo.unary main_arg4 main_v22 ((extractStridedSlice S514x128 ![0, 0] · slices_S514x257_S514x128_0_0) : (⟨S514x257, .f32⟩ : BufTy).Contents (Elt F) → (⟨S514x128, .f32⟩ : BufTy).Contents (Elt F)),
    StableHlo.unary main_v22 main_v23 ((transpose S128x514 [1, 0] · transposes_S514x128_S128x514_1_0) : (⟨S514x128, .f32⟩ : BufTy).Contents (Elt F) → (⟨S128x514, .f32⟩ : BufTy).Contents (Elt F)),
    StableHlo.unary main_arg4 main_v24 ((extractStridedSlice S514x128 ![0, 128] · slices_S514x257_S514x128_0_128) : (⟨S514x257, .f32⟩ : BufTy).Contents (Elt F) → (⟨S514x128, .f32⟩ : BufTy).Contents (Elt F)),
    StableHlo.unary main_v24 main_v25 ((transpose S128x514 [1, 0] · transposes_S514x128_S128x514_1_0) : (⟨S514x128, .f32⟩ : BufTy).Contents (Elt F) → (⟨S128x514, .f32⟩ : BufTy).Contents (Elt F)),
    StableHlo.unary main_arg4 main_v26 ((extractStridedSlice S514x1 ![0, 256] · slices_S514x257_S514x1_0_256) : (⟨S514x257, .f32⟩ : BufTy).Contents (Elt F) → (⟨S514x1, .f32⟩ : BufTy).Contents (Elt F)),
    StableHlo.unary main_v26 main_v27 ((transpose S1x514 [1, 0] · transposes_S514x1_S1x514_1_0) : (⟨S514x1, .f32⟩ : BufTy).Contents (Elt F) → (⟨S1x514, .f32⟩ : BufTy).Contents (Elt F)),
    StableHlo.unary main_v27 main_v28 (broadcastInDim S16x514 ![0, 1] bcast_S1x514_S16x514_0_1 : (⟨S1x514, .f32⟩ : BufTy).Contents (Elt F) → (⟨S16x514, .f32⟩ : BufTy).Contents (Elt F)),
    StableHlo.reshape main_arg5 main_v29 rfl shapeCasts_S514_S1x514,
    StableHlo.unary main_arg6 main_v30 ((transpose S514x16 [1, 0] · transposes_S16x514_S514x16_1_0) : (⟨S16x514, .f32⟩ : BufTy).Contents (Elt F) → (⟨S514x16, .f32⟩ : BufTy).Contents (Elt F)),
    StableHlo.reshape main_arg7 main_v31 rfl shapeCasts_S16_S1x16,
    StableHlo.unary main_arg12 main_v32 ((extractStridedSlice S256x128 ![0, 0] · slices_S256x144_S256x128_0_0) : (⟨S256x144, .f32⟩ : BufTy).Contents (Elt F) → (⟨S256x128, .f32⟩ : BufTy).Contents (Elt F)),
    StableHlo.unary main_v32 main_v33 ((transpose S128x256 [1, 0] · transposes_S256x128_S128x256_1_0) : (⟨S256x128, .f32⟩ : BufTy).Contents (Elt F) → (⟨S128x256, .f32⟩ : BufTy).Contents (Elt F)),
    StableHlo.unary main_arg12 main_v34 ((extractStridedSlice S256x16 ![0, 128] · slices_S256x144_S256x16_0_128) : (⟨S256x144, .f32⟩ : BufTy).Contents (Elt F) → (⟨S256x16, .f32⟩ : BufTy).Contents (Elt F)),
    StableHlo.unary main_v34 main_v35 ((transpose S16x256 [1, 0] · transposes_S256x16_S16x256_1_0) : (⟨S256x16, .f32⟩ : BufTy).Contents (Elt F) → (⟨S16x256, .f32⟩ : BufTy).Contents (Elt F)),
    StableHlo.reshape main_arg13 main_v36 rfl shapeCasts_S256_S1x256,
    StableHlo.unary main_arg14 main_v37 ((transpose S256x128 [1, 0] · transposes_S128x256_S256x128_1_0) : (⟨S128x256, .f32⟩ : BufTy).Contents (Elt F) → (⟨S256x128, .f32⟩ : BufTy).Contents (Elt F)),
    StableHlo.reshape main_arg15 main_v38 rfl shapeCasts_S128_S1x128,
    StableHlo.reshape main_arg16 main_v39 rfl shapeCasts_S128_S1x128,
    StableHlo.reshape main_arg17 main_v40 rfl shapeCasts_S128_S1x128,
    StableHlo.unary main_arg18 main_v41 ((transpose S128x3 [1, 0] · transposes_S3x128_S128x3_1_0) : (⟨S3x128, .f32⟩ : BufTy).Contents (Elt F) → (⟨S128x3, .f32⟩ : BufTy).Contents (Elt F)),
    StableHlo.reshape main_arg19 main_v42 rfl shapeCasts_S3_S1x3 ]

def mainCalls (d : Dev nD) : Prog (TpuEff nD τ sig (Elt F) (SparseCore.Sig (Pipeline.Sig Λ₀ (Fin 2) fun p => (pcfgs (F := F) p).Adm) 2) .tc) PUnit := do
  sc.run d 0
  Prog.lift (.customCall (SparseCore.inner (Pipeline.entry 0)) ())
  sc.run d 1
  Prog.lift (.customCall (SparseCore.inner (Pipeline.entry 1)) ())
  pure ⟨⟩

theorem main_pre_eq (d : Dev nD) : main (F := F) d = (StableHlo.seq hostPre >>= fun _ => mainCalls d) := by
  chain_rfl

abbrev hostPre_W : List (Ref sig .tc) :=
  [main_v0, main_v1, main_c, main_call0_v0, main_v2, main_v3, main_v4, main_c_0, main_call1_v0, main_v5, main_v6, main_v7, main_c_1, main_call2_v0, main_v8, main_v9, main_v10, main_v11, main_v12, main_c_2, main_v13, main_v14, main_v15, main_c_3, main_v16, main_v17, main_v18, main_c_4, main_v19, main_v20, main_cst, main_v21, main_v22, main_v23, main_v24, main_v25, main_v26, main_v27, main_v28, main_v29, main_v30, main_v31, main_v32, main_v33, main_v34, main_v35, main_v36, main_v37, main_v38, main_v39, main_v40, main_v41, main_v42]

theorem after_hostPre_of (V : Valuation τ sig (Elt F)) (r : Ref sig .tc) (h : r ∉ hostPre_W) :
    StableHlo.after hostPre V (Proc.devRef .tc r) = V (Proc.devRef .tc r) := by
  refine StableHlo.after_of_writes_sub hostPre V ?_ h
  unfold hostPre
  simp only [List.Forall, StableHlo.nullary_writes, StableHlo.unary_writes, StableHlo.binary_writes, StableHlo.reshape_writes,
    Finset.singleton_subset_iff, List.mem_toFinset]
  constructorm* _ ∧ _
  all_goals exact List.mem_map_of_mem (by decide)

theorem hostPre_sub_uc : ∀ op ∈ (hostPre : List (HloOp τ sig (Elt F))), op.bufs ⊆ Pipeline.ucRefs τ sig := by
  have h : (hostPre : List (HloOp τ sig (Elt F))).Forall fun op => op.bufs ⊆ StableHlo.tcRefs τ sig := by
    unfold hostPre
    simp only [List.Forall, StableHlo.nullary_bufs_sub, StableHlo.unary_bufs_sub, StableHlo.binary_bufs_sub, StableHlo.reshape_bufs_sub, and_self]
  exact fun op ho => Pipeline.sub_ucRefs op (List.forall_iff_forall_mem.1 h op ho)

theorem hostPre_fresh_mem : ∀ op ∈ (hostPre : List (HloOp τ sig (Elt F))), op.fresh = ∅ := by
  refine List.forall_iff_forall_mem.1 ?_
  unfold hostPre
  simp only [List.Forall]; repeat' constructor

def rowPad (e : IVec S2x320000 32) (r : Fin 2) (w : BitVec 32) (p : Nat) : BitVec 32 :=
  if h : p < 320000 then e (ix2 r ⟨p, h⟩) else w

-- Row r flattened with 7680 copies of w behind it: below 320000 the row's word, from there on w.
theorem flat_apply (e : IVec S2x320000 32) (r : Fin 2) (hs : S2x320000.Slices ![r.val, 0] S1x320000) (w : BitVec 32) (k : S327680.Idx) :
    concatenate S327680 0 [⟨S320000, shapeCast S320000 (extractStridedSlice S1x320000 ![r.val, 0] e hs) shapeCasts_S1x320000_S320000⟩,
        ⟨S7680, broadcastInDim S7680 ![] bcast_S_S7680 (constantI S_ 32 w)⟩] concatenates_S320000_S7680_S327680_d0 k
      = rowPad e r w (k 0).val := by
  have hk : (k 0).val < 327680 := (k 0).isLt
  unfold rowPad
  split
  · next hp =>
    exact (concatenate_pair_apply_left (0 : Fin S327680.rank) _ _ concatenates_S320000_S7680_S327680_d0 k rfl
      (ix1 ⟨(k 0).val, hp⟩) (fun b => match b with | ⟨0, _⟩ => rfl)).trans
      ((shapeCast_1a_a_apply _ shapeCasts_S1x320000_S320000 ⟨(k 0).val, hp⟩).trans
        (extractStridedSlice_apply _ e hs _ (ix2 r ⟨(k 0).val, hp⟩) fun a => match a with
          | ⟨0, _⟩ => rfl
          | ⟨1, _⟩ => (Nat.zero_add _).symm))
  · exact (concatenate_pair_apply_right (0 : Fin S327680.rank) _ _ concatenates_S320000_S7680_S327680_d0 k rfl rfl
      (ix1 ⟨(k 0).val - 320000, by omega⟩) (fun b hb => match b with | ⟨0, _⟩ => absurd rfl hb)
      (by show (k 0).val - 320000 + 320000 = (k 0).val; omega)).trans rfl

-- Folding 327680 words to [32, 80, 128] keeps the row-major position.
theorem fold_apply (x : IVec S327680 32) (j : S32x80x128.Idx) :
    shapeCast S32x80x128 x shapeCasts_S327680_S32x80x128 j = x (ix1 ⟨((j 0).val * 80 + (j 1).val) * 128 + (j 2).val, by
      have h0 : (j 0).val < 32 := (j 0).isLt
      have h1 : (j 1).val < 80 := (j 1).isLt
      have h2 : (j 2).val < 128 := (j 2).isLt
      omega⟩) :=
  shapeCast_apply x _ j _ (by rw [Shape.rowMajor_val_one, Shape.rowMajor_val_three]; rfl)

theorem src_g_eq (V : Valuation τ sig (Elt F)) (j : S32x80x128.Idx) :
    (StableHlo.after hostPre V (Proc.devRef .tc main_v15) : IVec S32x80x128 32) j
      = rowPad (V (Proc.devRef .tc main_arg1)) 0 0#32 (((j 0).val * 80 + (j 1).val) * 128 + (j 2).val) := by
  unfold hostPre; after_results
  exact (fold_apply _ j).trans (flat_apply _ 0 slices_S2x320000_S1x320000_0_0 _ _)

theorem dst_g_eq (V : Valuation τ sig (Elt F)) (j : S32x80x128.Idx) :
    (StableHlo.after hostPre V (Proc.devRef .tc main_v18) : IVec S32x80x128 32) j
      = rowPad (V (Proc.devRef .tc main_arg1)) 1 0#32 (((j 0).val * 80 + (j 1).val) * 128 + (j 2).val) := by
  unfold hostPre; after_results
  exact (fold_apply _ j).trans (flat_apply _ 1 slices_S2x320000_S1x320000_1_0 _ _)

theorem dst_s_eq (V : Valuation τ sig (Elt F)) (j : S327680.Idx) :
    (StableHlo.after hostPre V (Proc.devRef .tc main_v20) : IVec S327680 32) j
      = rowPad (V (Proc.devRef .tc main_arg1)) 1 10008#32 (j 0).val := by
  unfold hostPre; after_results
  exact flat_apply _ 1 slices_S2x320000_S1x320000_1_0 _ _

def PreAt (m : (ℓ : Loc nD τ sig) → Buf (Elt F) ℓ) (c : Dev nD) : Prop :=
  Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) = fun _ => 1#1

-- A word with 0 ≤ v ≤ 9999 as a signed word is below 10000 as a natural number.
theorem word_range (v : BitVec 32) (h : IntOp.andi (IntOp.cmpi .sge v 0#32) (IntOp.cmpi .sle v 9999#32) = 1#1) :
    v.toNat < 10000 := by
  have h0 := IntOp.cmpi_sge.1 (IntOp.andi_eq_one.1 h).1
  have h1 := IntOp.cmpi_sle.1 (IntOp.andi_eq_one.1 h).2
  rw [show (0#32 : BitVec 32).toInt = 0 by decide, BitVec.toInt_eq_toNat_cond] at h0
  rw [show (9999#32 : BitVec 32).toInt = 9999 by decide, BitVec.toInt_eq_toNat_cond] at h1
  have hv := v.isLt
  split at h0 <;> omega

-- The precondition's last conjunct but one is the conjunction over all of edge_index of 0 ≤ e ∧ e ≤ 9999.
theorem edge_range (m : (ℓ : Loc nD τ sig) → Buf (Elt F) ℓ) (c : Dev nD) (h : PreAt m c) (i : S2x320000.Idx) :
    ((m ((c.tc : Thread nD τ).loc main_arg1) : IVec S2x320000 32) i).toNat < 10000 := by
  have e := congrFun h ix0
  change IntOp.andi (IntOp.andi _ (Host.reduce IntOp.andi _ _ Cert.Pre_input_domain.Facts.reducesTo_S2x320000_S_d0_1
    Cert.Pre_input_domain.Facts.h_S_ ix0)) _ = 1#1 at e
  exact word_range _ (Host.reduce_andi_eq_one _ _ _ _ _ (IntOp.andi_eq_one.1 (IntOp.andi_eq_one.1 e).1).2 i
    ((eq_ix0 _).trans (eq_ix0 _).symm))

-- A padded row's word is non-negative and below N when the row's words are nodes and the padding word is below N ≤ 2³¹.
theorem rowPad_ok (e : IVec S2x320000 32) (he : ∀ i, (e i).toNat < 10000) (r : Fin 2) (w : BitVec 32) (N : Nat) (hN : 10000 ≤ N)
    (hN' : N ≤ 2 ^ 31) (hw : w.toNat < N) (p : Nat) : 0 ≤ (rowPad e r w p).toInt ∧ (rowPad e r w p).toNat < N := by
  have hlt : (rowPad e r w p).toNat < N := by
    unfold rowPad
    split
    · exact Nat.lt_of_lt_of_le (he _) hN
    · exact hw
  exact ⟨(Int.natCast_nonneg _).trans_eq (StableHlo.Predicate.toInt_eq_toNat_of_lt (Nat.lt_of_lt_of_le hlt hN')).symm, hlt⟩

theorem src_g_lt (m : (ℓ : Loc nD τ sig) → Buf (Elt F) ℓ) (c : Dev nD) (h : PreAt m c) (j : S32x80x128.Idx) :
    ((StableHlo.after hostPre (StableHlo.launchContents m c) (Proc.devRef .tc main_v15) : IVec S32x80x128 32) j).toNat < 10000 := by
  rw [src_g_eq]; exact (rowPad_ok _ (edge_range m c h) _ _ _ (Nat.le_refl _) (by decide) (by decide) _).2

theorem dst_g_lt (m : (ℓ : Loc nD τ sig) → Buf (Elt F) ℓ) (c : Dev nD) (h : PreAt m c) (j : S32x80x128.Idx) :
    ((StableHlo.after hostPre (StableHlo.launchContents m c) (Proc.devRef .tc main_v18) : IVec S32x80x128 32) j).toNat < 10000 := by
  rw [dst_g_eq]; exact (rowPad_ok _ (edge_range m c h) _ _ _ (Nat.le_refl _) (by decide) (by decide) _).2

theorem dst_s_ok (m : (ℓ : Loc nD τ sig) → Buf (Elt F) ℓ) (c : Dev nD) (h : PreAt m c) (j : S327680.Idx) :
    0 ≤ ((StableHlo.after hostPre (StableHlo.launchContents m c) (Proc.devRef .tc main_v20) : IVec S327680 32) j).toInt
      ∧ ((StableHlo.after hostPre (StableHlo.launchContents m c) (Proc.devRef .tc main_v20) : IVec S327680 32) j).toNat < 10240 := by
  rw [dst_s_eq]; exact rowPad_ok _ (edge_range m c h) _ _ _ (by decide) (by decide) (by decide) _

theorem preAt_of_pre (m : (ℓ : Loc nD τ sig) → Buf (Elt Ideal) ℓ) (h : Cert.Pre_KernelIdeal m) (c : Dev nD) :
    PreAt (F := Ideal) m c := h c

end Cert.Proof.KI.IdxRange

end
-- ==== Proof.KI.Pay.lean ====
import proofs.«205084_g25537875542483_cont_9to1_419_23_alg».proof.Proof.KI.Common
import proofs.«205084_g25537875542483_cont_9to1_419_23_alg».proof.Proof.KI.K0Body
import proofs.«205084_g25537875542483_cont_9to1_419_23_alg».proof.Proof.KI.K2Body
import proofs.«205084_g25537875542483_cont_9to1_419_23_alg».proof.Proof.KI.IdxRange

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

abbrev W0 (d : Dev nD) : Valuation τ sig (Elt F) := fun b => m (d, b)
def Wh (d : Dev nD) : Valuation τ sig (Elt F) := StableHlo.after IdxRange.hostPre (W0 m d)
theorem Wh_eq (d : Dev nD) : Wh m d = StableHlo.after IdxRange.hostPre (W0 m d) := rfl

def L0 (c : Fin (grid0.bound 0)) (i : Fin (grid0.bound 1)) : grid0.Coords :=
  fun | 0 => c | 1 => i | ⟨_ + 2, h⟩ => absurd h (Nat.not_lt.2 (Nat.le_add_left _ _))
def L2 (c : Fin (grid2.bound 0)) (i : Fin (grid2.bound 1)) : grid2.Coords :=
  fun | 0 => c | 1 => i | ⟨_ + 2, h⟩ => absurd h (Nat.not_lt.2 (Nat.le_add_left _ _))

theorem tile2_lt (L : grid2.Coords) : 16 * (L 0).val + (L 1).val < 32 := by
  have h0 : (L 0).val < 2 := (L 0).isLt
  have h1 : (L 1).val < 16 := (L 1).isLt
  omega
abbrev tok2 (L : grid2.Coords) : PosShare TreeShare :=
  Transfers.shareTok fullShare 32 ⟨16 * (L 0).val + (L 1).val, tile2_lt L⟩

def go0At (d : Dev nD) (c : Fin (grid0.bound 0)) (i : Fin (grid0.bound 1)) : sProp 𝕄 :=
  K0Body.go0 (K0Body.tileShare (L0 c i)) d (L0 c i) (Wh m d main_arg0) (Wh m d main_v2) (Wh m d main_v5) (Wh m d main_v8) (Wh m d main_v15) (Wh m d main_v18)
def td0At (d : Dev nD) (c : Fin (grid0.bound 0)) (i : Fin (grid0.bound 1)) : sProp 𝕄 :=
  K0Body.td0 (K0Body.tileShare (L0 c i)) d (L0 c i) (Wh m d main_arg0) (Wh m d main_v2) (Wh m d main_v5) (Wh m d main_v8) (Wh m d main_v15) (Wh m d main_v18)

def go2At (d : Dev nD) (c : Fin (grid2.bound 0)) (i : Fin (grid2.bound 1)) : sProp 𝕄 :=
  iprop(∃ fmt, K2Body.go2 (tok2 (L2 c i)) (tok2 (L2 c i)) (tok2 (L2 c i)) d fmt (Wh m d main_v20) (Wh m d main_v21) (L2 c i))
def td2At (d : Dev nD) (c : Fin (grid2.bound 0)) (i : Fin (grid2.bound 1)) : sProp 𝕄 :=
  iprop(∃ fmt, K2Body.td2 (tok2 (L2 c i)) (tok2 (L2 c i)) (tok2 (L2 c i)) d fmt (Wh m d main_v20) (Wh m d main_v21) (L2 c i))

def P : (K (F := F)).Pay (nD := nD) (Val := Elt F) (Name := ℕ) (U := UU) where
  st := fun q d c => match q, c with
    | 0, c => bigSep Finset.univ fun i : Fin (grid0.bound 1) => go0At m d c i
    | 1, c => bigSep Finset.univ fun i : Fin (grid2.bound 1) => go2At m d c i
  dn := fun q d c => match q, c with
    | 0, c => bigSep Finset.univ fun i : Fin (grid0.bound 1) => td0At m d c i
    | 1, c => bigSep Finset.univ fun i : Fin (grid2.bound 1) => td2At m d c i
  go := fun q d c i => match q, c, i with
    | 0, c, i => go0At m d c i
    | 1, c, i => go2At m d c i
  td := fun q d c i => match q, c, i with
    | 0, c, i => td0At m d c i
    | 1, c, i => td2At m d c i
  x := fun _ _ => iprop(emp)

set_option synthInstance.maxHeartbeats 400000 in
theorem go2_storable (qm qd qz : PosShare TreeShare) (d : Dev nD) (fmt : Buf (Elt F) (K2Body.mtLoc d)) (fdst : Buf (Elt F) (K2Body.dstLoc d)) (fz : Buf (Elt F) (K2Body.zpkLoc d))
    (L : grid2.Coords) : BI.Storable (upEmb : UEmb _ 𝕄) (K2Body.go2 qm qd qz d fmt fdst fz L) := by unfold K2Body.go2; infer_instance
set_option synthInstance.maxHeartbeats 400000 in
instance go0At_storable (d : Dev nD) (c : Fin (grid0.bound 0)) (i : Fin (grid0.bound 1)) : BI.Storable (upEmb : UEmb _ 𝕄) (go0At m d c i) := by
  unfold go0At K0Body.go0; infer_instance
set_option synthInstance.maxHeartbeats 400000 in
instance td0At_storable (d : Dev nD) (c : Fin (grid0.bound 0)) (i : Fin (grid0.bound 1)) : BI.Storable (upEmb : UEmb _ 𝕄) (td0At m d c i) := by
  unfold td0At K0Body.td0; infer_instance
instance go2At_storable (d : Dev nD) (c : Fin (grid2.bound 0)) (i : Fin (grid2.bound 1)) : BI.Storable (upEmb : UEmb _ 𝕄) (go2At m d c i) := by
  have := fun fmt => go2_storable (F := F) (tok2 (L2 c i)) (tok2 (L2 c i)) (tok2 (L2 c i)) d fmt (Wh m d main_v20) (Wh m d main_v21) (L2 c i)
  unfold go2At; infer_instance
set_option synthInstance.maxHeartbeats 400000 in
instance td2At_storable (d : Dev nD) (c : Fin (grid2.bound 0)) (i : Fin (grid2.bound 1)) : BI.Storable (upEmb : UEmb _ 𝕄) (td2At m d c i) := by
  unfold td2At K2Body.td2; infer_instance

theorem defs₀_vec0 (c : Fin τ.nSC) (s : Fin τ.nSub) :
    defs₀ (F := F) (.scVector c s) 0 ()
      = SparseCore.onTile hcore0 hsub0 (fun c s => cc0_k (L0 c s) (Memref.whole main_arg0_scv) (Memref.isWhole_whole _) (Memref.whole main_v2_scv) (Memref.isWhole_whole _)
          (Memref.whole main_v5_scv) (Memref.isWhole_whole _) (Memref.whole main_v8_scv) (Memref.isWhole_whole _) (Memref.whole main_v15_scv) (Memref.isWhole_whole _)
          (Memref.whole main_v18_scv) (Memref.isWhole_whole _) (Memref.whole main_v43_0_scv) (Memref.isWhole_whole _) (Memref.whole main_v43_1_scv) (Memref.isWhole_whole _)
          (Memref.whole main_v43_2_scv) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _)
          (Memref.whole cc0_scratch5) (Memref.isWhole_whole _) (Memref.whole cc0_scratch6) (Memref.isWhole_whole _) (Memref.whole cc0_scratch7) (Memref.isWhole_whole _)
          cc0_scratch8 cc0_scratch9 cc0_scoped0 cc0_scoped1 cc0_scoped2 cc0_scoped3 cc0_scoped4 cc0_scoped5 cc0_scoped6 cc0_scoped7) ⟨⟩ c s := rfl
theorem defs₀_vec2 (c : Fin τ.nSC) (s : Fin τ.nSub) :
    defs₀ (F := F) (.scVector c s) 2 ()
      = SparseCore.onTile hcore2 hsub2 (fun c s => cc2_k (L2 c s) (Memref.whole main_v44_scv) (Memref.isWhole_whole _) (Memref.whole main_v20_scv) (Memref.isWhole_whole _)
          (Memref.whole main_v21_scv) (Memref.isWhole_whole _) (Memref.whole main_v45_scv) (Memref.isWhole_whole _) (Memref.whole cc2_scratch0) (Memref.isWhole_whole _)
          (Memref.whole cc2_scratch1) (Memref.isWhole_whole _) (Memref.whole cc2_scratch2) (Memref.isWhole_whole _) cc2_scoped0 cc2_scoped1 cc2_scoped2 cc2_scoped3) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

variable (hpre : ∀ d : Dev nD, IdxRange.PreAt m d)

include hpre in
theorem idxOK0 (d : Dev nD) : K0Body.IdxOK d (Wh m d main_v15) (Wh m d main_v18) := by
  unfold Wh
  exact ⟨fun j => IdxRange.src_g_lt m d (hpre d) j, fun j => IdxRange.dst_g_lt m d (hpre d) j⟩
include hpre in
theorem dstOK2 (d : Dev nD) : K2Body.DstOK (d := d) (Wh m d main_v20) := by
  unfold Wh
  exact fun j => (IdxRange.dst_s_ok m d (hpre d) j).2

end Cert.Proof.KI

end
-- ==== Proof.KI.R1Dat.lean ====
import proofs.«205084_g25537875542483_cont_9to1_419_23_alg».proof.Proof.KI.Common
import Idealize.ShloMosaic.Lib.Pipeline.FrameBody
import Idealize.ShloMosaic.Lib.Ring
import Idealize.ShloMosaic.Lib.Tactic

set_option maxRecDepth 16384

noncomputable section

namespace Cert.Proof.KI.R1Dat

open Cert.KernelIdeal Cert.KernelIdeal.Gen Cert.Proof.KI

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

section Region

variable (V : (c : Dev nD) → (b : Ref sig .tc) → Buf (Elt F) ((c : Thread nD τ).loc b))
  (O : CellTallies nD τ sig (HIx 2)) (Rec : Set (SemLoc sig × HIx 2))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r_S4096x128 : Rect S4096x128 := Rect.unit (s := S4096x128) ![0, 0] S4096x128.size inb_S4096x128_S4096x128_0_0
abbrev r_S256x16 : Rect S256x16 := Rect.unit (s := S256x16) ![0, 0] S256x16.size inb_S256x16_S256x16_0_0
abbrev r_S128x514 : Rect S128x514 := Rect.unit (s := S128x514) ![0, 0] S128x514.size inb_S128x514_S128x514_0_0
abbrev r_S16x514 : Rect S16x514 := Rect.unit (s := S16x514) ![0, 0] S16x514.size inb_S16x514_S16x514_0_0
abbrev r_S1x514 : Rect S1x514 := Rect.unit (s := S1x514) ![0, 0] S1x514.size inb_S1x514_S1x514_0_0
abbrev r_S514x16 : Rect S514x16 := Rect.unit (s := S514x16) ![0, 0] S514x16.size inb_S514x16_S514x16_0_0
abbrev r_S1x16 : Rect S1x16 := Rect.unit (s := S1x16) ![0, 0] S1x16.size inb_S1x16_S1x16_0_0
abbrev r_S16x4096 : Rect S16x4096 := Rect.unit (s := S16x4096) ![0, 0] S16x4096.size inb_S16x4096_S16x4096_0_0

def out1_9 (x0 x1 : Vec F S4096x128 .f32) (x2 : Vec F S256x16 .f32) (x3 x4 : Vec F S128x514 .f32) (x5 : Vec F S16x514 .f32)
    (x6 : Vec F S1x514 .f32) (x7 : Vec F S514x16 .f32) (x8 : Vec F S1x16 .f32) : Vec F S16x4096 .f32 :=
  View.canon [⟨r_S16x4096, k1_pay1 (k1_pay2 (View.ld x2 r_S256x16))
    (k1_pay3 (View.ld x0 r_S4096x128) (View.ld x3 r_S128x514) (View.ld x1 r_S4096x128) (View.ld x4 r_S128x514))
    (View.ld x5 r_S16x514) (View.ld x6 r_S1x514) (View.ld x7 r_S514x16) (View.ld x8 r_S1x16)⟩]

theorem cover1_9 (p0 : Vec F S16x4096 .f32) (y : S16x4096.Idx) :
    ∃ pc ∈ ([⟨r_S16x4096, p0⟩] : List (View.Piece (Elt F) S16x4096 .f32)), y ∈ pc.1.set :=
  View.cover_of_tiled [⟨r_S16x4096, p0⟩] S16x4096.size (by rfl) y

set_option maxHeartbeats 4000000 in
theorem sound_kernel1 (c : Dev nD) (E : Set ℕ) (i : grid1.Coords) (arg1 : Memref sig .tc .vmem S4096x128 .f32) (harg1 : arg1.IsWhole) (arg2 : Memref sig .tc .vmem S4096x128 .f32) (harg2 : arg2.IsWhole) (arg3 : Memref sig .tc .vmem S256x16 .f32) (harg3 : arg3.IsWhole) (arg4 : Memref sig .tc .vmem S128x514 .f32) (harg4 : arg4.IsWhole) (arg5 : Memref sig .tc .vmem S128x514 .f32) (harg5 : arg5.IsWhole) (arg6 : Memref sig .tc .vmem S16x514 .f32) (harg6 : arg6.IsWhole) (arg7 : Memref sig .tc .vmem S1x514 .f32) (harg7 : arg7.IsWhole) (arg8 : Memref sig .tc .vmem S514x16 .f32) (harg8 : arg8.IsWhole) (arg9 : Memref sig .tc .vmem S1x16 .f32) (harg9 : arg9.IsWhole) (arg10 : Memref sig .tc .vmem S16x4096 .f32) (harg10 : arg10.IsWhole)
    (x0 x1 : Vec F S4096x128 .f32) (x2 : Vec F S256x16 .f32) (x3 x4 : Vec F S128x514 .f32) (x5 : Vec F S16x514 .f32) (x6 : Vec F S1x514 .f32) (x7 : Vec F S514x16 .f32) (x8 : Vec F S1x16 .f32) (d : Vec F S16x4096 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare d
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare (out1_9 x0 x1 x2 x3 x4 x5 x6 x7 x8)) -∗ K ⟨⟩))
      ⊢ wp frame (wpE (defs₀ (F := F)) Variants.none c none) E (cc1__edge_body i arg1 harg1 arg2 harg2 arg3 harg3 arg4 harg4 arg5 harg5 arg6 harg6 arg7 harg7 arg8 harg8 arg9 harg9 arg10 harg10) K := by
  simp only [cc1__edge_body_eq_skeleton]; unfold cc1__edge_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

def dat1 (c : Dev nD) : Dat τ (Elt F) (HIx 2) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.scopedRest (Ix := HIx 2) (Name := ℕ) (U := UU) (Lvl := ℕ) (Val := Elt F) spec1 c
  q _ := fullShare
  owed _ := O
  recorded _ := Rec

theorem A_eq1 (c : Dev nD) (w : Fin cfg1.W) : (dat1 V O Rec c).A w = V c (Pipeline.arrRef spec1 w) := by
  dsimp only [dat1]

theorem share1 (c : Dev nD) (w : Fin cfg1.W) : (dat1 V O Rec c).share w = fullShare := (dat1 V O Rec c).share_full (fun _ => rfl) w

theorem after1_9 (c : Dev nD) (t : Fin cfg1.N) : (dat1 V O Rec c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) : ∀ t d, (dat1 V O Rec c).before 0 t d = (dat1 V O Rec c).after 0 t :=
  (dat1 V O Rec c).before_in_eq_fetched 0 rfl (fun _ => rfl) (fun _ _ _ => rfl) fun _ => rfl
theorem before1_1 (c : Dev nD) : ∀ t d, (dat1 V O Rec c).before 1 t d = (dat1 V O Rec c).after 1 t :=
  (dat1 V O Rec c).before_in_eq_fetched 1 rfl (fun _ => rfl) (fun _ _ _ => rfl) fun _ => rfl
theorem before1_2 (c : Dev nD) : ∀ t d, (dat1 V O Rec c).before 2 t d = (dat1 V O Rec c).after 2 t :=
  (dat1 V O Rec c).before_in_eq_fetched 2 rfl (fun _ => rfl) (fun _ _ _ => rfl) fun _ => rfl
theorem before1_3 (c : Dev nD) : ∀ t d, (dat1 V O Rec c).before 3 t d = (dat1 V O Rec c).after 3 t :=
  (dat1 V O Rec c).before_in_eq_fetched 3 rfl (fun _ => rfl) (fun _ _ _ => rfl) fun _ => rfl
theorem before1_4 (c : Dev nD) : ∀ t d, (dat1 V O Rec c).before 4 t d = (dat1 V O Rec c).after 4 t :=
  (dat1 V O Rec c).before_in_eq_fetched 4 rfl (fun _ => rfl) (fun _ _ _ => rfl) fun _ => rfl
theorem before1_5 (c : Dev nD) : ∀ t d, (dat1 V O Rec c).before 5 t d = (dat1 V O Rec c).after 5 t :=
  (dat1 V O Rec c).before_in_eq_fetched 5 rfl (fun _ => rfl) (fun _ _ _ => rfl) fun _ => rfl
theorem before1_6 (c : Dev nD) : ∀ t d, (dat1 V O Rec c).before 6 t d = (dat1 V O Rec c).after 6 t :=
  (dat1 V O Rec c).before_in_eq_fetched 6 rfl (fun _ => rfl) (fun _ _ _ => rfl) fun _ => rfl
theorem before1_7 (c : Dev nD) : ∀ t d, (dat1 V O Rec c).before 7 t d = (dat1 V O Rec c).after 7 t :=
  (dat1 V O Rec c).before_in_eq_fetched 7 rfl (fun _ => rfl) (fun _ _ _ => rfl) fun _ => rfl
theorem before1_8 (c : Dev nD) : ∀ t d, (dat1 V O Rec c).before 8 t d = (dat1 V O Rec c).after 8 t :=
  (dat1 V O Rec c).before_in_eq_fetched 8 rfl (fun _ => rfl) (fun _ _ _ => rfl) fun _ => rfl

def inAt1 (c : Dev nD) (t : Fin cfg1.N) (w : Fin cfg1.W) : sProp 𝕄 :=
  iprop(∃ d, owns c ((cfg1.win w).stage (cfg1.slots t w)) fullShare ((dat1 V O Rec c).before w t d))

def outAt1 (c : Dev nD) (t : Fin cfg1.N) (w : Fin cfg1.W) : sProp 𝕄 :=
  owns c ((cfg1.win w).stage (cfg1.slots t w)) fullShare ((dat1 V O Rec c).after w t)

theorem sound_body1 (c : Dev nD) (t : Fin cfg1.N) :
    iprop((dat1 V O Rec c).Φ t.castSucc ∗ (dat1 V O Rec c).owesAt none t.castSucc ∗ inAt1 V O Rec c t 0 ∗ inAt1 V O Rec c t 1 ∗ inAt1 V O Rec c t 2 ∗ inAt1 V O Rec c t 3 ∗ inAt1 V O Rec c t 4 ∗ inAt1 V O Rec c t 5 ∗ inAt1 V O Rec c t 6 ∗ inAt1 V O Rec c t 7 ∗ inAt1 V O Rec c t 8 ∗ inAt1 V O Rec c t 9)
      ⊢ wp frame (wpE (defs₀ (F := F)) Variants.none c none) Set.univ (bodyAt1 t) fun _ =>
        iprop((dat1 V O Rec c).Φ t.succ ∗ (dat1 V O Rec c).owesAt none t.succ ∗ outAt1 V O Rec c t 0 ∗ outAt1 V O Rec c t 1 ∗ outAt1 V O Rec c t 2 ∗ outAt1 V O Rec c t 3 ∗ outAt1 V O Rec c t 4 ∗ outAt1 V O Rec c t 5 ∗ outAt1 V O Rec c t 6 ∗ outAt1 V O Rec c t 7 ∗ outAt1 V O Rec c t 8 ∗ outAt1 V O Rec c t 9) := by
  unfold inAt1 outAt1 bodyAt1
  simp only [before1_0, before1_1, before1_2, before1_3, before1_4, before1_5, before1_6, before1_7, before1_8]
  rw [show (dat1 V O Rec c).Φ t.succ = (dat1 V O Rec c).Φ t.castSucc from rfl,
    show (dat1 V O Rec c).owesAt none t.succ = (dat1 V O Rec c).owesAt none t.castSucc from rfl, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ _ _ _ _ _ _ _ _ _ _ _)
  iframe
  iintro ⟨H0, H1, H2, H3, H4, H5, H6, H7, H8, H9⟩
  iframe
  iexact H9

theorem hbody1 (c : Dev nD) : BodyObligationLoose (dat1 (F := F) V O Rec c) (defs₀ (F := F)) 𝒱₀ none Set.univ :=
  BodyObligation.loose _ fun t => by
    rw [bigSep_W1, bigSep_W1]
    exact sound_body1 V O Rec c t

theorem hwaits1 (hO : ∀ g, O g none = 0)
    (pdats : (p : Fin 2) → (c : Dev nD) → Dat τ (Elt F) (HIx 2) ℕ UU ℕ (Pipeline.pin (pcfgs (F := F)) adm p) c)
    (h0 : ∀ c, pdats 0 c = dat1 V O Rec c) (c : Dev nD) :
    (levAts (K (F := F)).L (K (F := F)).lev : sProp 𝕄) ⊢ Pipeline.cellsWaits (Pipeline.pin (pcfgs (F := F)) adm) pdats none 0 c :=
  Pipeline.cellsWaits_intro (Pipeline.pin (pcfgs (F := F)) adm) pdats none 0 c fun w s t => by
    rw [h0 c]; exact (K (F := F)).mayWait_none _ hO

theorem hin1 (c : Dev nD) :
    iprop((emp : sProp 𝕄) ∗ Pipeline.prefHeld (pcfgs (F := F) 0).pre c (fun _ => fullShare) (adm (F := F) 0).1 ∗ Pipeline.scopedRest (Pipeline.pin (pcfgs (F := F)) adm 0).spec c)
      ⊢ (dat1 V O Rec c).Φ 0 := by
  rw [show (dat1 V O Rec c).Φ 0 = Pipeline.scopedRest (Ix := HIx 2) (Name := ℕ) (U := UU) (Lvl := ℕ) (Val := Elt F) spec1 c from rfl]
  iintro ⟨-, -, Hr⟩
  iexact Hr

theorem hout1 (c : Dev nD) :
    (dat1 V O Rec c).Φ (Fin.last (Pipeline.pin (pcfgs (F := F)) adm 0).N)
      ⊢ iprop((emp : sProp 𝕄) ∗ Pipeline.ownSems0 (fun k : PEmpty => k.elim) c ∗ Pipeline.scopedRest (Pipeline.pin (pcfgs (F := F)) adm 0).spec c) := by
  show Pipeline.scopedRest (Ix := HIx 2) (Name := ℕ) (U := UU) (Lvl := ℕ) (Val := Elt F) spec1 c
    ⊢ iprop((emp : sProp 𝕄) ∗ Pipeline.ownSems0 (fun k : PEmpty => k.elim) c ∗ Pipeline.scopedRest (Ix := HIx 2) (Name := ℕ) (U := UU) (Lvl := ℕ) (Val := Elt F) spec1 c)
  rw [Pipeline.ownSems0_none]
  iintro Hr
  isplitr; · iempintro
  isplitr; · iempintro
  iexact Hr

end Region

end Cert.Proof.KI.R1Dat

end
-- ==== Proof.KI.R3Dat.lean ====
import proofs.«205084_g25537875542483_cont_9to1_419_23_alg».proof.Proof.KI.Common
import Idealize.ShloMosaic.Lib.Pipeline.FrameBody
import Idealize.ShloMosaic.Lib.Ring
import Idealize.ShloMosaic.Lib.Tactic

set_option maxRecDepth 16384

noncomputable section

namespace Cert.Proof.KI.R3Dat

open Cert.KernelIdeal Cert.KernelIdeal.Gen Cert.Proof.KI

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

section Region

variable (V : (c : Dev nD) → (b : Ref sig .tc) → Buf (Elt F) ((c : Thread nD τ).loc b))
  (O : CellTallies nD τ sig (HIx 2)) (Rec : Set (SemLoc sig × HIx 2))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x128 := Rect.unit (s := S10000x128) ![0, 0] S10000x128.size inb_S10000x128_S10000x128_0_0
abbrev r3_1a : Rect S2x16x640x128 := Rect.unit (s := S2x16x640x128) ![0, 0, 0, 0] S1x16x640x128.size inb_S2x16x640x128_S1x16x640x128_0_0_0_0
abbrev r3_1b : Rect S2x16x640x128 := Rect.unit (s := S2x16x640x128) ![1, 0, 0, 0] S1x16x640x128.size inb_S2x16x640x128_S1x16x640x128_1_0_0_0
abbrev r3_2 : Rect S128x256 := Rect.unit (s := S128x256) ![0, 0] S128x256.size inb_S128x256_S128x256_0_0
abbrev r3_3 : Rect S16x256 := Rect.unit (s := S16x256) ![0, 0] S16x256.size inb_S16x256_S16x256_0_0
abbrev r3_4 : Rect S1x256 := Rect.unit (s := S1x256) ![0, 0] S1x256.size inb_S1x256_S1x256_0_0
abbrev r3_5 : Rect S256x128 := Rect.unit (s := S256x128) ![0, 0] S256x128.size inb_S256x128_S256x128_0_0
abbrev r3_6 : Rect S1x128 := Rect.unit (s := S1x128) ![0, 0] S1x128.size inb_S1x128_S1x128_0_0
abbrev r3_9 : Rect S128x3 := Rect.unit (s := S128x3) ![0, 0] S128x3.size inb_S128x3_S128x3_0_0
abbrev r3_10 : Rect S1x3 := Rect.unit (s := S1x3) ![0, 0] S1x3.size inb_S1x3_S1x3_0_0
abbrev r3_11 : Rect S10000x3 := Rect.unit (s := S10000x3) ![0, 0] S10000x3.size inb_S10000x3_S10000x3_0_0

def val3 (x0 : Vec F S10000x128 .f32) (x1 : Vec F S2x16x640x128 .f32) (x2 : Vec F S128x256 .f32) (x3 : Vec F S16x256 .f32)
    (x4 : Vec F S1x256 .f32) (x5 : Vec F S256x128 .f32) (x6 : Vec F S1x128 .f32) (x7 : Vec F S1x128 .f32) (x8 : Vec F S1x128 .f32)
    (x9 : Vec F S128x3 .f32) (x10 : Vec F S1x3 .f32) : FVec F S10000x3 .f32 :=
  k3_pay1
    (k3_pay4 (View.ld x0 r3_0) (k3_pay2 (View.ld x1 r3_1a) (View.ld x1 r3_1b)) (k3_pay3 (View.ld x2 r3_2))
      (View.ld x3 r3_3) (View.ld x4 r3_4) (View.ld x5 r3_5) (View.ld x6 r3_6))
    (k3_pay5 (View.ld x7 r3_6)) (View.ld x8 r3_6) (View.ld x9 r3_9) (View.ld x10 r3_10)

def out3_11 (x0 : Vec F S10000x128 .f32) (x1 : Vec F S2x16x640x128 .f32) (x2 : Vec F S128x256 .f32) (x3 : Vec F S16x256 .f32)
    (x4 : Vec F S1x256 .f32) (x5 : Vec F S256x128 .f32) (x6 : Vec F S1x128 .f32) (x7 : Vec F S1x128 .f32) (x8 : Vec F S1x128 .f32)
    (x9 : Vec F S128x3 .f32) (x10 : Vec F S1x3 .f32) : Vec F S10000x3 .f32 :=
  View.canon [⟨r3_11, val3 x0 x1 x2 x3 x4 x5 x6 x7 x8 x9 x10⟩]

theorem cover3_11 (p0 : Vec F S10000x3 .f32) (y : S10000x3.Idx) :
    ∃ pc ∈ ([⟨r3_11, p0⟩] : List (View.Piece (Elt F) S10000x3 .f32)), y ∈ pc.1.set :=
  View.cover_of_tiled [⟨r3_11, p0⟩] S10000x3.size (by rfl) y

set_option maxHeartbeats 4000000 in
theorem sound_kernel3 (c : Dev nD) (E : Set ℕ) (arg0 : Memref sig .tc .vmem S10000x128 .f32) (harg0 : arg0.IsWhole) (arg1 : Memref sig .tc .vmem S2x16x640x128 .f32) (harg1 : arg1.IsWhole) (arg2 : Memref sig .tc .vmem S128x256 .f32) (harg2 : arg2.IsWhole) (arg3 : Memref sig .tc .vmem S16x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x3 .f32) (harg9 : arg9.IsWhole) (arg10 : Memref sig .tc .vmem S1x3 .f32) (harg10 : arg10.IsWhole) (arg11 : Memref sig .tc .vmem S10000x3 .f32) (harg11 : arg11.IsWhole)
    (x0 : Vec F S10000x128 .f32) (x1 : Vec F S2x16x640x128 .f32) (x2 : Vec F S128x256 .f32) (x3 : Vec F S16x256 .f32) (x4 : Vec F S1x256 .f32) (x5 : Vec F S256x128 .f32) (x6 : Vec F S1x128 .f32) (x7 : Vec F S1x128 .f32) (x8 : Vec F S1x128 .f32) (x9 : Vec F S128x3 .f32) (x10 : Vec F S1x3 .f32) (d : Vec F S10000x3 .f32) (Kont : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare d
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare (out3_11 x0 x1 x2 x3 x4 x5 x6 x7 x8 x9 x10)) -∗ Kont ⟨⟩))
      ⊢ wp frame (wpE (defs₀ (F := F)) Variants.none c none) E (cc3__node_body arg0 harg0 arg1 harg1 arg2 harg2 arg3 harg3 arg4 harg4 arg5 harg5 arg6 harg6 arg7 harg7 arg8 harg8 arg9 harg9 arg10 harg10 arg11 harg11) Kont := by
  simp only [cc3__node_body_eq_skeleton]; unfold cc3__node_body_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover3_11 _)

def dat3 (c : Dev nD) : Dat τ (Elt F) (HIx 2) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.scopedRest (Ix := HIx 2) (Name := ℕ) (U := UU) (Lvl := ℕ) (Val := Elt F) spec3 c
  q _ := fullShare
  owed _ := O
  recorded _ := Rec

theorem A_eq3 (c : Dev nD) (w : Fin cfg3.W) : (dat3 V O Rec c).A w = V c (Pipeline.arrRef spec3 w) := by
  dsimp only [dat3]

theorem share3 (c : Dev nD) (w : Fin cfg3.W) : (dat3 V O Rec c).share w = fullShare := (dat3 V O Rec c).share_full (fun _ => rfl) w

theorem after3_11 (c : Dev nD) (t : Fin cfg3.N) : (dat3 V O Rec c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

theorem before3_0 (c : Dev nD) : ∀ t d, (dat3 V O Rec c).before 0 t d = (dat3 V O Rec c).after 0 t :=
  (dat3 V O Rec c).before_in_eq_fetched 0 rfl (fun _ => rfl) (fun _ _ _ => rfl) fun _ => rfl
theorem before3_1 (c : Dev nD) : ∀ t d, (dat3 V O Rec c).before 1 t d = (dat3 V O Rec c).after 1 t :=
  (dat3 V O Rec c).before_in_eq_fetched 1 rfl (fun _ => rfl) (fun _ _ _ => rfl) fun _ => rfl
theorem before3_2 (c : Dev nD) : ∀ t d, (dat3 V O Rec c).before 2 t d = (dat3 V O Rec c).after 2 t :=
  (dat3 V O Rec c).before_in_eq_fetched 2 rfl (fun _ => rfl) (fun _ _ _ => rfl) fun _ => rfl
theorem before3_3 (c : Dev nD) : ∀ t d, (dat3 V O Rec c).before 3 t d = (dat3 V O Rec c).after 3 t :=
  (dat3 V O Rec c).before_in_eq_fetched 3 rfl (fun _ => rfl) (fun _ _ _ => rfl) fun _ => rfl
theorem before3_4 (c : Dev nD) : ∀ t d, (dat3 V O Rec c).before 4 t d = (dat3 V O Rec c).after 4 t :=
  (dat3 V O Rec c).before_in_eq_fetched 4 rfl (fun _ => rfl) (fun _ _ _ => rfl) fun _ => rfl
theorem before3_5 (c : Dev nD) : ∀ t d, (dat3 V O Rec c).before 5 t d = (dat3 V O Rec c).after 5 t :=
  (dat3 V O Rec c).before_in_eq_fetched 5 rfl (fun _ => rfl) (fun _ _ _ => rfl) fun _ => rfl
theorem before3_6 (c : Dev nD) : ∀ t d, (dat3 V O Rec c).before 6 t d = (dat3 V O Rec c).after 6 t :=
  (dat3 V O Rec c).before_in_eq_fetched 6 rfl (fun _ => rfl) (fun _ _ _ => rfl) fun _ => rfl
theorem before3_7 (c : Dev nD) : ∀ t d, (dat3 V O Rec c).before 7 t d = (dat3 V O Rec c).after 7 t :=
  (dat3 V O Rec c).before_in_eq_fetched 7 rfl (fun _ => rfl) (fun _ _ _ => rfl) fun _ => rfl
theorem before3_8 (c : Dev nD) : ∀ t d, (dat3 V O Rec c).before 8 t d = (dat3 V O Rec c).after 8 t :=
  (dat3 V O Rec c).before_in_eq_fetched 8 rfl (fun _ => rfl) (fun _ _ _ => rfl) fun _ => rfl
theorem before3_9 (c : Dev nD) : ∀ t d, (dat3 V O Rec c).before 9 t d = (dat3 V O Rec c).after 9 t :=
  (dat3 V O Rec c).before_in_eq_fetched 9 rfl (fun _ => rfl) (fun _ _ _ => rfl) fun _ => rfl
theorem before3_10 (c : Dev nD) : ∀ t d, (dat3 V O Rec c).before 10 t d = (dat3 V O Rec c).after 10 t :=
  (dat3 V O Rec c).before_in_eq_fetched 10 rfl (fun _ => rfl) (fun _ _ _ => rfl) fun _ => rfl

def inAt3 (c : Dev nD) (t : Fin cfg3.N) (w : Fin cfg3.W) : sProp 𝕄 :=
  iprop(∃ d, owns c ((cfg3.win w).stage (cfg3.slots t w)) fullShare ((dat3 V O Rec c).before w t d))

def outAt3 (c : Dev nD) (t : Fin cfg3.N) (w : Fin cfg3.W) : sProp 𝕄 :=
  owns c ((cfg3.win w).stage (cfg3.slots t w)) fullShare ((dat3 V O Rec c).after w t)

theorem sound_body3 (c : Dev nD) (t : Fin cfg3.N) :
    iprop((dat3 V O Rec c).Φ t.castSucc ∗ (dat3 V O Rec c).owesAt none t.castSucc ∗ inAt3 V O Rec c t 0 ∗ inAt3 V O Rec c t 1 ∗ inAt3 V O Rec c t 2 ∗ inAt3 V O Rec c t 3 ∗ inAt3 V O Rec c t 4 ∗ inAt3 V O Rec c t 5 ∗ inAt3 V O Rec c t 6 ∗ inAt3 V O Rec c t 7 ∗ inAt3 V O Rec c t 8 ∗ inAt3 V O Rec c t 9 ∗ inAt3 V O Rec c t 10 ∗ inAt3 V O Rec c t 11)
      ⊢ wp frame (wpE (defs₀ (F := F)) Variants.none c none) Set.univ (bodyAt3 t) fun _ =>
        iprop((dat3 V O Rec c).Φ t.succ ∗ (dat3 V O Rec c).owesAt none t.succ ∗ outAt3 V O Rec c t 0 ∗ outAt3 V O Rec c t 1 ∗ outAt3 V O Rec c t 2 ∗ outAt3 V O Rec c t 3 ∗ outAt3 V O Rec c t 4 ∗ outAt3 V O Rec c t 5 ∗ outAt3 V O Rec c t 6 ∗ outAt3 V O Rec c t 7 ∗ outAt3 V O Rec c t 8 ∗ outAt3 V O Rec c t 9 ∗ outAt3 V O Rec c t 10 ∗ outAt3 V O Rec c t 11) := by
  unfold inAt3 outAt3 bodyAt3
  simp only [before3_0, before3_1, before3_2, before3_3, before3_4, before3_5, before3_6, before3_7, before3_8, before3_9, before3_10]
  rw [show (dat3 V O Rec c).Φ t.succ = (dat3 V O Rec c).Φ t.castSucc from rfl,
    show (dat3 V O Rec c).owesAt none t.succ = (dat3 V O Rec c).owesAt none t.castSucc from rfl, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _ _ _ _ _ _ _ _ _ _ _ _ _)
  iframe
  iintro ⟨H0, H1, H2, H3, H4, H5, H6, H7, H8, H9, H10, H11⟩
  iframe
  iexact H11

theorem hbody3 (c : Dev nD) : BodyObligationLoose (dat3 (F := F) V O Rec c) (defs₀ (F := F)) 𝒱₀ none Set.univ :=
  BodyObligation.loose _ fun t => by
    rw [bigSep_W3, bigSep_W3]
    exact sound_body3 V O Rec c t

theorem mayWait3 (hO : ∀ g, O g none = 0) (c : Dev nD) (w : Fin cfg3.W) (s : Fin (cfg3.win w).nbuf) (t : Fin (cfg3.N + 1)) :
    (levAts (K (F := F)).L (K (F := F)).lev : sProp 𝕄) ⊢ MayWait (c : Thread nD τ) (.dma ((cfg3.win w).sem s)) none ((dat3 V O Rec c).owed t) :=
  (K (F := F)).mayWait_none _ hO

theorem hin3 (c : Dev nD) :
    iprop((emp : sProp 𝕄) ∗ Pipeline.prefHeld (pcfgs (F := F) 1).pre c (fun _ => fullShare) (adm (F := F) 1).1
        ∗ Pipeline.scopedRest (Ix := HIx 2) (Name := ℕ) (U := UU) (Lvl := ℕ) (Val := Elt F) spec3 c)
      ⊢ (dat3 V O Rec c).Φ 0 := by
  rw [show (dat3 V O Rec c).Φ 0 = Pipeline.scopedRest (Ix := HIx 2) (Name := ℕ) (U := UU) (Lvl := ℕ) (Val := Elt F) spec3 c from rfl]
  iintro ⟨-, -, Hr⟩
  iexact Hr

theorem hout3 (c : Dev nD) :
    (dat3 V O Rec c).Φ (Fin.last cfg3.N)
      ⊢ iprop((emp : sProp 𝕄) ∗ Pipeline.ownSems0 (fun k : PEmpty => (k.elim : SemLoc sig)) c
        ∗ Pipeline.scopedRest (Ix := HIx 2) (Name := ℕ) (U := UU) (Lvl := ℕ) (Val := Elt F) spec3 c) := by
  rw [Pipeline.ownSems0_none, show (dat3 V O Rec c).Φ (Fin.last cfg3.N) = Pipeline.scopedRest (Ix := HIx 2) (Name := ℕ) (U := UU) (Lvl := ℕ) (Val := Elt F) spec3 c from rfl]
  iintro Hr
  isplitr; · iempintro
  isplitr; · iempintro
  iexact Hr

end Region

end Cert.Proof.KI.R3Dat

end
-- ==== Proof.KI.Segs.lean ====
import proofs.«205084_g25537875542483_cont_9to1_419_23_alg».proof.Proof.KI.Common
import proofs.«205084_g25537875542483_cont_9to1_419_23_alg».proof.Proof.KI.R1Dat
import proofs.«205084_g25537875542483_cont_9to1_419_23_alg».proof.Proof.KI.R3Dat
import Idealize.ShloMosaic.Lib.Pipeline.RegionsLoop
import Idealize.ShloMosaic.Lib.Pipeline.FrameSuffix

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 2) (Elt F) ℕ UU ℕ

variable (W1 W3 : Dev nD → Valuation τ sig (Elt F)) (O1 O3 : CellTallies nD τ sig (HIx 2)) (B1 B3 : Set (SemLoc sig × HIx 2))

abbrev atTc (W : Dev nD → Valuation τ sig (Elt F)) : (c : Dev nD) → (b : Ref sig .tc) → Buf (Elt F) ((c : Thread nD τ).loc b) := fun c b => W c b

def pdats : (p : Fin 2) → (c : Dev nD) → Dat τ (Elt F) (HIx 2) ℕ UU ℕ (Pipeline.pin (pcfgs (F := F)) adm p) c
  | ⟨0, _⟩ => fun c => R1Dat.dat1 (atTc W1) O1 B1 c
  | ⟨1, _⟩ => fun c => R3Dat.dat3 (atTc W3) O3 B3 c

def exit1 (c : Dev nD) : Valuation τ sig (Elt F) :=
  Pipeline.withArrays spec1 c (W1 c) fun w => (R1Dat.dat1 (atTc W1) O1 B1 c).arrAt w cfg1.N
theorem exit1_arr (c : Dev nD) (w : Fin cfg1.W) :
    exit1 W1 O1 B1 c (Proc.devRef .tc (Pipeline.arrRef spec1 w)) = (R1Dat.dat1 (atTc W1) O1 B1 c).arrAt w cfg1.N := by
  unfold exit1; exact Pipeline.withArrays_arr spec1 launch1.win.arr_inj c _ _ w
theorem exit1_of_ne (c : Dev nD) (b : Ref sig .tc) (hb : ∀ w, Pipeline.arrRef spec1 w ≠ b) :
    exit1 W1 O1 B1 c (Proc.devRef .tc b) = W1 c (Proc.devRef .tc b) := by
  unfold exit1; exact Pipeline.withArrays_of_ne spec1 c _ _ b hb

set_option backward.isDefEq.respectTransparency.types false in
def reg1 (hO1 : ∀ g, O1 g none = 0) :
    Pipeline.RegionSeg (pcfgs (F := F)) adm (pdats W1 W3 O1 O3 B1 B3) (none : HIx 2) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := R1Dat.hbody1 (atTc W1) O1 B1 c
  hwaits := R1Dat.hwaits1 (atTc W1) O1 B1 hO1 (pdats W1 W3 O1 O3 B1 B3) (fun _ => rfl)
  pre c := iprop(StableHlo.held (c : Thread nD τ) (Pipeline.ucRefs τ sig) (W1 c) ∗ (pdats W1 W3 O1 O3 B1 B3 0 c).owesAt none 0)
  post c := iprop(StableHlo.held (c : Thread nD τ) (Pipeline.ucRefs τ sig) (exit1 W1 O1 B1 c)
    ∗ (pdats W1 W3 O1 O3 B1 B3 0 c).owesAt none (Fin.last (Pipeline.pin (pcfgs (F := F)) adm 0).N))
  X c := iprop(emp)
  Y c := iprop(emp)
  Z c := Pipeline.unscopedRest (Ix := HIx 2) (Name := ℕ) (U := UU) (Lvl := ℕ) spec1 c (atTc W1 c)
  hentry c := by
    rw [Pipeline.ownSems0_none]
    have hsplit := Pipeline.arrays_of_unscopedBufs (p := 0) (pcfgs (F := F)) adm (pdats W1 W3 O1 O3 B1 B3) launch1.win launch1.arr_whole c
      (fun w => R1Dat.share1 (atTc W1) O1 B1 c w) (atTc W1 c) fun w => R1Dat.A_eq1 (atTc W1) O1 B1 c w
    rw [Pipeline.unscopedBufs_held] at hsplit
    iintro ⟨⟨Hub, HO⟩, -, -⟩
    ihave H := hsplit $$ Hub
    icases H with ⟨Ha, Hrest⟩
    imodintro
    iframe
    unfold Pipeline.prefHeld; rw [show (Finset.univ : Finset (Fin 0)) = ∅ from rfl, BI.bigSep_empty]; iempintro
  hin c := R1Dat.hin1 (atTc W1) O1 B1 c
  hout c := R1Dat.hout1 (atTc W1) O1 B1 c
  hexit c := by
    have hjoin := Pipeline.unscopedBufs_of_arrays (p := 0) (pcfgs (F := F)) adm (Ix := HIx 2) (Name := ℕ) (U := UU) (Lvl := ℕ)
      launch1.win launch1.arr_whole c (pdats W1 W3 O1 O3 B1 B3) (fun w => R1Dat.share1 (atTc W1) O1 B1 c w)
      (atTc W1 c) (atTc (exit1 W1 O1 B1) c) ((pdats W1 W3 O1 O3 B1 B3 0 c).arrAt · cfg1.N) (fun w => (exit1_arr W1 O1 B1 c w).symm)
      fun b hb => exit1_of_ne W1 O1 B1 c b fun w e => hb (Finset.mem_image.mpr ⟨w, Finset.mem_univ _, e⟩)
    rw [Pipeline.unscopedBufs_held] at hjoin
    iintro ⟨Ha, HO, -, Hrest⟩
    imodintro
    iframe HO
    iapply hjoin; iframe

def exit3 (c : Dev nD) : Valuation τ sig (Elt F) :=
  Pipeline.withArrays spec3 c (W3 c) fun w => (R3Dat.dat3 (atTc W3) O3 B3 c).arrAt w cfg3.N
theorem exit3_arr (c : Dev nD) (w : Fin cfg3.W) :
    exit3 W3 O3 B3 c (Proc.devRef .tc (Pipeline.arrRef spec3 w)) = (R3Dat.dat3 (atTc W3) O3 B3 c).arrAt w cfg3.N := by
  unfold exit3; exact Pipeline.withArrays_arr spec3 launch3.win.arr_inj c _ _ w
theorem exit3_of_ne (c : Dev nD) (b : Ref sig .tc) (hb : ∀ w, Pipeline.arrRef spec3 w ≠ b) :
    exit3 W3 O3 B3 c (Proc.devRef .tc b) = W3 c (Proc.devRef .tc b) := by
  unfold exit3; exact Pipeline.withArrays_of_ne spec3 c _ _ b hb

set_option backward.isDefEq.respectTransparency.types false in
def reg3 (hO3 : ∀ g, O3 g none = 0) :
    Pipeline.RegionSeg (pcfgs (F := F)) adm (pdats W1 W3 O1 O3 B1 B3) (none : HIx 2) defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := R3Dat.hbody3 (atTc W3) O3 B3 c
  hwaits := fun c => Pipeline.cellsWaits_intro (Pipeline.pin (pcfgs (F := F)) adm) (pdats W1 W3 O1 O3 B1 B3) none 1 c (R3Dat.mayWait3 (atTc W3) O3 B3 hO3 c)
  pre c := iprop(StableHlo.held (c : Thread nD τ) (Pipeline.ucRefs τ sig) (W3 c) ∗ (pdats W1 W3 O1 O3 B1 B3 1 c).owesAt none 0)
  post c := iprop(StableHlo.held (c : Thread nD τ) (Pipeline.ucRefs τ sig) (exit3 W3 O3 B3 c)
    ∗ (pdats W1 W3 O1 O3 B1 B3 1 c).owesAt none (Fin.last (Pipeline.pin (pcfgs (F := F)) adm 1).N))
  X c := iprop(emp)
  Y c := iprop(emp)
  Z c := Pipeline.unscopedRest (Ix := HIx 2) (Name := ℕ) (U := UU) (Lvl := ℕ) spec3 c (atTc W3 c)
  hentry c := by
    rw [Pipeline.ownSems0_none]
    have hsplit := Pipeline.arrays_of_unscopedBufs (p := 1) (pcfgs (F := F)) adm (pdats W1 W3 O1 O3 B1 B3) launch3.win launch3.arr_whole c
      (fun w => R3Dat.share3 (atTc W3) O3 B3 c w) (atTc W3 c) fun w => R3Dat.A_eq3 (atTc W3) O3 B3 c w
    rw [Pipeline.unscopedBufs_held] at hsplit
    iintro ⟨⟨Hub, HO⟩, -, -⟩
    ihave H := hsplit $$ Hub
    icases H with ⟨Ha, Hrest⟩
    imodintro
    iframe
    unfold Pipeline.prefHeld; rw [show (Finset.univ : Finset (Fin 0)) = ∅ from rfl, BI.bigSep_empty]; iempintro
  hin c := R3Dat.hin3 (atTc W3) O3 B3 c
  hout c := R3Dat.hout3 (atTc W3) O3 B3 c
  hexit c := by
    have hjoin := Pipeline.unscopedBufs_of_arrays (p := 1) (pcfgs (F := F)) adm (Ix := HIx 2) (Name := ℕ) (U := UU) (Lvl := ℕ)
      launch3.win launch3.arr_whole c (pdats W1 W3 O1 O3 B1 B3) (fun w => R3Dat.share3 (atTc W3) O3 B3 c w)
      (atTc W3 c) (atTc (exit3 W3 O3 B3) c) ((pdats W1 W3 O1 O3 B1 B3 1 c).arrAt · cfg3.N) (fun w => (exit3_arr W3 O3 B3 c w).symm)
      fun b hb => exit3_of_ne W3 O3 B3 c b fun w e => hb (Finset.mem_image.mpr ⟨w, Finset.mem_univ _, e⟩)
    rw [Pipeline.unscopedBufs_held] at hjoin
    iintro ⟨Ha, HO, -, Hrest⟩
    imodintro
    iframe HO
    iapply hjoin; iframe

end Cert.Proof.KI

end
-- ==== Proof.KI.Region.lean ====
import proofs.«205084_g25537875542483_cont_9to1_419_23_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (pdats : (p : Fin 2) → (c : Dev nD) → Pipeline.Dat τ (Elt F) (HIx 2) ℕ UU ℕ (Pipeline.pin (pcfgs (F := F)) adm p) c)

set_option backward.isDefEq.respectTransparency.types false in
theorem wp_region [∀ e, Nonempty (Elt F e)] (p : Fin 2)
    (R : Pipeline.RegionSeg (pcfgs (F := F)) adm pdats (none : HIx 2) defs₀ 𝒱₀ (K (F := F)).L (K (F := F)).lev p) (d : Dev nD)
    {α : Type} (k : PUnit → Prog (TpuEff nD τ sig (Elt F) (SparseCore.Sig (ΛP (F := F)) 2) .tc) α) (Q : α → sProp 𝕄) :
    iprop((iprop(boundary (T d) ∗ R.post d) -∗ wp frame (wpE ((K (F := F)).defs (D (F := F))) 𝒱 (T d) none) Set.univ (k ⟨⟩) Q)
        ∗ boundary (T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE ((K (F := F)).defs (D (F := F))) 𝒱 (T d) none) Set.univ (.op (.customCall (SparseCore.inner (Pipeline.entry p)) ()) k) Q := by
  have h := Pipeline.RegionSeg.wp (pcfgs (F := F)) adm pdats (none : HIx 2) cellOf_inj (EP (F := F)) defs₀ 𝒱₀ (K (F := F)).L (K (F := F)).lev R d none
    (by intro u hu; exact absurd hu (Option.not_mem_none u)) (α := PUnit) (fun _ => Prog.ret PUnit.unit) (fun _ => iprop(boundary (T d) ∗ R.post d))
  have hl := (K (F := F)).wp_liftProg (D (F := F)) 𝒱 (T d) Set.univ none
    (α := PUnit) (Prog.op (.customCall (Pipeline.entry p) ()) fun _ => Prog.ret PUnit.unit) (fun _ => iprop(boundary (T d) ∗ R.post d))
  rw [show (Prog.op (TpuEff.customCall (SparseCore.inner (Pipeline.entry p)) ()) k) =
      (SparseCore.liftProg (Prog.op (TpuEff.customCall (Pipeline.entry p) ()) fun _ => Prog.ret PUnit.unit) >>= k) from rfl, wp_bind]
  iintro ⟨Hk, Hb, Hpre, Hlv, Hg, Ht⟩
  iapply (wp_wand_r frame _ Set.univ)
  isplitl [Hb Hpre Hlv Hg Ht]
  · iapply hl
    iapply h
    isplitr
    · iintro H; rw [wp_ret]; imodintro; iexact H
    isplitl [Hb]; · iexact Hb
    isplitl [Hpre]; · iexact Hpre
    isplitl [Hlv]; · iexact Hlv
    isplitl [Hg] <;> iassumption
  · iintro %_ H
    iapply Hk; iexact H

end Cert.Proof.KI

end
-- ==== Proof.KI.Ghost.lean ====
import proofs.«205084_g25537875542483_cont_9to1_419_23_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

abbrev G (d : Dev nD) : sProp 𝕄 :=
  bigSep Finset.univ fun p : Fin 2 =>
    iprop(Pipeline.cellsGhost (Pipeline.pin (pcfgs (F := F)) adm) (EP (F := F)) p d ∗ Pipeline.toksInit (Pipeline.pin (pcfgs (F := F)) adm) (EP (F := F)) p d)

def u₀ : UU :=
  (initOf (K (F := F)).hsCells (K (F := F)).hsToks,
    (initOf (Pipeline.cells (nD := nD) (τ := τ) (Pipeline.pin (pcfgs (F := F)) adm) cellOf_inj) (Pipeline.launchToks (nD := nD) (τ := τ) (Pipeline.pin (pcfgs (F := F)) adm) cellOf_inj), 1))

set_option backward.isDefEq.respectTransparency.types false in
theorem hu₀ : (ownU (u₀ (F := F)) : sProp 𝕄)
    ⊢ |={Set.univ}=> iprop(BI.own (EH (initOf (K (F := F)).hsCells (K (F := F)).hsToks)) ∗ bigSep Finset.univ fun d : Dev nD => G (F := F) d) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (Entails.of_eq (show (BI.own (((Emb.inl : Emb UP (UP × Counters)).trans (embR : Emb (UP × Counters) 𝕄))
      (initOf (Pipeline.cells (nD := nD) (τ := τ) (Pipeline.pin (pcfgs (F := F)) adm) cellOf_inj) (Pipeline.launchToks (nD := nD) (τ := τ) (Pipeline.pin (pcfgs (F := F)) adm) cellOf_inj))) : sProp 𝕄)
      = BI.own ((EP (F := F)) (initOf (Pipeline.cells (nD := nD) (τ := τ) (Pipeline.pin (pcfgs (F := F)) adm) cellOf_inj) (Pipeline.launchToks (nD := nD) (τ := τ) (Pipeline.pin (pcfgs (F := F)) adm) cellOf_inj))) from rfl)) $$ HP
  imod (Pipeline.fund_ghost (Pipeline.pin (pcfgs (F := F)) adm) (EP (F := F)) cellOf_inj) $$ HP' with ⟨Hg, Ht⟩
  imodintro
  isplitl [HH]; · iexact HH
  unfold G
  simp only [bigSep_sep']
  isplitl [Hg] <;> iassumption

end Cert.Proof.KI

end
-- ==== Proof.KI.Steps.lean ====
import proofs.«205084_g25537875542483_cont_9to1_419_23_alg».proof.Proof.KI.Pay
import proofs.«205084_g25537875542483_cont_9to1_419_23_alg».proof.Proof.KI.Segs
import proofs.«205084_g25537875542483_cont_9to1_419_23_alg».proof.Proof.KI.Region
import proofs.«205084_g25537875542483_cont_9to1_419_23_alg».proof.Proof.KI.Ghost

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 2) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄)
      = iprop((∃ W, ⌜(K (F := F)).WBelow (T d) W (8 * n)⌝ ∗ owes (T d) ((K (F := F)).Otc d n) W) ∗ tcRest (F := F) d n) := rfl

def Bn (d : Dev nD) (n : ℕ) : Set (SemLoc sig × HIx 2) := {p | (K (F := F)).lev (T d, p.1) p.2 ≤ 8 * n}

variable (m : (ℓ : Loc nD τ sig) → Buf (Elt F) ℓ)

set_option backward.isDefEq.respectTransparency.types false in
-- A region entered from the buffers at `W` beside the TensorCore's debts within the bound, and left at `Wx` beside the same, is a step from the state before call `n` to itself.
theorem region_step [∀ e, Nonempty (Elt F e)] (p : Fin 2) (n : ℕ) (d : Dev nD) (W Wx : Valuation τ sig (Elt F))
    (pd : (p : Fin 2) → (c : Dev nD) → Pipeline.Dat τ (Elt F) (HIx 2) ℕ UU ℕ (Pipeline.pin (pcfgs (F := F)) adm p) c)
    (R : Pipeline.RegionSeg (pcfgs (F := F)) adm pd (none : HIx 2) defs₀ 𝒱₀ (K (F := F)).L (K (F := F)).lev p)
    (Sp : Set (SemLoc sig × HIx 2)) (hS : ∀ q ∈ Sp, q.2 = none)
    (hpre : R.pre d = iprop(StableHlo.held (T d) (Pipeline.ucRefs τ sig) W ∗ Pipeline.owesWithin d ((K (F := F)).Otc d n) (Bn (F := F) d n ∪ Sp)))
    (hpost : R.post d = iprop(StableHlo.held (T d) (Pipeline.ucRefs τ sig) Wx ∗ Pipeline.owesWithin d ((K (F := F)).Otc d n) (Bn (F := F) d n ∪ Sp)))
    {α : Type} (k : PUnit → Prog (TpuEff nD τ sig (Elt F) (SparseCore.Sig (ΛP (F := F)) 2) .tc) α) (Q : α → sProp 𝕄) :
    iprop(levAts (K (F := F)).L (K (F := F)).lev ∗ (K (F := F)).tcSt EH d n ∗ boundary (T d) ∗ StableHlo.held (T d) (Pipeline.ucRefs τ sig) W
        ∗ Pipeline.cellsGhost (Pipeline.pin (pcfgs (F := F)) adm) (EP (F := F)) p d ∗ Pipeline.toksInit (Pipeline.pin (pcfgs (F := F)) adm) (EP (F := F)) p d
        ∗ (iprop((K (F := F)).tcSt EH d n ∗ boundary (T d) ∗ StableHlo.held (T d) (Pipeline.ucRefs τ sig) Wx)
            -∗ wp frame (wpE ((K (F := F)).defs (D (F := F))) 𝒱 (T d) none) Set.univ (k ⟨⟩) Q))
      ⊢ wp frame (wpE ((K (F := F)).defs (D (F := F))) 𝒱 (T d) none) Set.univ (.op (.customCall (SparseCore.inner (Pipeline.entry p)) ()) k) Q := by
  rw [tcSt_eq]
  iintro ⟨#Hlv, ⟨⟨%W0, %hW0, HO⟩, Hrest⟩, Hb, Hheld, Hg, Ht, Hk⟩
  iapply (wp_region pd p R d k Q)
  rw [hpre, hpost]
  isplitl [Hk Hrest]
  · iintro ⟨Hb, Hheld, ⟨%W', %hW', HO⟩⟩
    iapply Hk
    iframe Hrest Hb Hheld
    iexists W'; isplitr
    · ipureintro
      intro q hq
      rcases hW' (Finset.mem_coe.mpr hq) with h | hs
      · exact h
      · show (K (F := F)).lev _ q.2 ≤ _; rw [hS q hs, SparseCore.Cfg.lev_none]; exact Nat.zero_le _
    · iexact HO
  iframe Hb Hheld Hlv Hg Ht
  iexists W0; isplitr
  · ipureintro; intro q hq; exact Or.inl (hW0 q (Finset.mem_coe.mp hq))
  · iexact HO

set_option backward.isDefEq.respectTransparency.types false in
theorem region1_step [∀ e, Nonempty (Elt F e)] (d : Dev nD) (W : Valuation τ sig (Elt F))
    {α : Type} (k : PUnit → Prog (TpuEff nD τ sig (Elt F) (SparseCore.Sig (ΛP (F := F)) 2) .tc) α) (Q : α → sProp 𝕄) :
    iprop(levAts (K (F := F)).L (K (F := F)).lev ∗ (K (F := F)).tcSt EH d 1 ∗ boundary (T d) ∗ StableHlo.held (T d) (Pipeline.ucRefs τ sig) W
        ∗ Pipeline.cellsGhost (Pipeline.pin (pcfgs (F := F)) adm) (EP (F := F)) 0 d ∗ Pipeline.toksInit (Pipeline.pin (pcfgs (F := F)) adm) (EP (F := F)) 0 d
        ∗ (iprop((K (F := F)).tcSt EH d 1 ∗ boundary (T d)
            ∗ StableHlo.held (T d) (Pipeline.ucRefs τ sig) (exit1 (fun _ => W) ((K (F := F)).Otc d 1) (Bn (F := F) d 1) d))
            -∗ wp frame (wpE ((K (F := F)).defs (D (F := F))) 𝒱 (T d) none) Set.univ (k ⟨⟩) Q))
      ⊢ wp frame (wpE ((K (F := F)).defs (D (F := F))) 𝒱 (T d) none) Set.univ (.op (.customCall (SparseCore.inner (Pipeline.entry 0)) ()) k) Q :=
  region_step 0 1 d W _ _ (reg1 (fun _ => W) (fun _ => W) ((K (F := F)).Otc d 1) ((K (F := F)).Otc d 1) (Bn (F := F) d 1) (Bn (F := F) d 1) fun g => Otc_none d 1 g)
    (cfg1.waitPairs none) (by rintro _ ⟨w, s, rfl⟩; rfl) rfl rfl k Q

set_option backward.isDefEq.respectTransparency.types false in
theorem region3_step [∀ e, Nonempty (Elt F e)] (d : Dev nD) (W : Valuation τ sig (Elt F))
    {α : Type} (k : PUnit → Prog (TpuEff nD τ sig (Elt F) (SparseCore.Sig (ΛP (F := F)) 2) .tc) α) (Q : α → sProp 𝕄) :
    iprop(levAts (K (F := F)).L (K (F := F)).lev ∗ (K (F := F)).tcSt EH d 2 ∗ boundary (T d) ∗ StableHlo.held (T d) (Pipeline.ucRefs τ sig) W
        ∗ Pipeline.cellsGhost (Pipeline.pin (pcfgs (F := F)) adm) (EP (F := F)) 1 d ∗ Pipeline.toksInit (Pipeline.pin (pcfgs (F := F)) adm) (EP (F := F)) 1 d
        ∗ (iprop((K (F := F)).tcSt EH d 2 ∗ boundary (T d)
            ∗ StableHlo.held (T d) (Pipeline.ucRefs τ sig) (exit3 (fun _ => W) ((K (F := F)).Otc d 2) (Bn (F := F) d 2) d))
            -∗ wp frame (wpE ((K (F := F)).defs (D (F := F))) 𝒱 (T d) none) Set.univ (k ⟨⟩) Q))
      ⊢ wp frame (wpE ((K (F := F)).defs (D (F := F))) 𝒱 (T d) none) Set.univ (.op (.customCall (SparseCore.inner (Pipeline.entry 1)) ()) k) Q :=
  region_step 1 2 d W _ _ (reg3 (fun _ => W) (fun _ => W) ((K (F := F)).Otc d 2) ((K (F := F)).Otc d 2) (Bn (F := F) d 2) (Bn (F := F) d 2) fun g => Otc_none d 2 g)
    (cfg3.waitPairs none) (by rintro _ ⟨w, s, rfl⟩; rfl) rfl rfl k Q

end Cert.Proof.KI

end
-- ==== Proof.KI.Tiles.lean ====
import proofs.«205084_g25537875542483_cont_9to1_419_23_alg».proof.Proof.KI.Common
import proofs.«205084_g25537875542483_cont_9to1_419_23_alg».proof.Proof.KI.K0Body
import proofs.«205084_g25537875542483_cont_9to1_419_23_alg».proof.Proof.KI.K2Body
import proofs.«205084_g25537875542483_cont_9to1_419_23_alg».proof.Proof.KI.Pay
import proofs.«205084_g25537875542483_cont_9to1_419_23_alg».proof.Proof.LibTileSplit

noncomputable section

namespace Cert.Proof.KI.Tiles

open Cert.KernelIdeal Cert.KernelIdeal.Gen Cert.Proof.KI
open Cert.Proof.KI.K0Body (xLoc pxLoc pyLoc pzLoc srcLoc xiLoc xjLoc relLoc wid wid_lt L0_lt L1_lt srcBlk outBlk relBlk tileShare go0 td0)
open Cert.Proof.KI.K2Body (mtLoc zpkLoc partsLoc partsSet go2 td2 partsSet_disjoint partsSet_cover)

open Idealize.ShloMosaic Idealize.ShloMosaic.TileSplit
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

theorem wid_inj {L L' : grid0.Coords} (h : wid L = wid L') : L = L' := by
  have h0 := L0_lt L; have h1 := L1_lt L; have h0' := L0_lt L'; have h1' := L1_lt L'
  unfold wid at h
  funext a
  match a with
  | ⟨0, _⟩ => exact Fin.ext (show (L 0).val = (L' 0).val by omega)
  | ⟨1, _⟩ => exact Fin.ext (show (L 1).val = (L' 1).val by omega)

def tileOf (k : Fin 32) : grid0.Coords :=
  fun | 0 => (⟨k.val / 16, by omega⟩ : Fin 2) | 1 => (⟨k.val % 16, by omega⟩ : Fin 16)
      | ⟨_ + 2, h⟩ => absurd h (Nat.not_lt.2 (Nat.le_add_left _ _))

theorem wid_tileOf (k : Fin 32) : wid (tileOf k) = k.val := by
  show 16 * (k.val / 16) + k.val % 16 = k.val
  omega

def widEquiv : grid0.Coords ≃ Fin 32 where
  toFun L := ⟨wid L, wid_lt L⟩
  invFun := tileOf
  left_inv L := wid_inj (wid_tileOf ⟨wid L, wid_lt L⟩)
  right_inv k := Fin.ext (wid_tileOf k)

def coordsEquiv : Fin (grid0.bound 0) × Fin (grid0.bound 1) ≃ grid0.Coords where
  toFun p := L0 p.1 p.2
  invFun L := (L 0, L 1)
  left_inv p := rfl
  right_inv L := by
    funext a
    match a with
    | ⟨0, _⟩ => rfl
    | ⟨1, _⟩ => rfl

theorem bigSep_coords (Φ : grid0.Coords → sProp 𝕄) :
    bigSep Finset.univ Φ
      = bigSep Finset.univ fun c : Fin (grid0.bound 0) => bigSep Finset.univ fun i : Fin (grid0.bound 1) => Φ (L0 c i) := by
  rw [bigSep_univ_equiv coordsEquiv Φ, bigSep_univ_prod]
  rfl

theorem toks_tiles {ℓ : Loc nD τ sig} (I : Finset (Idx ℓ)) (f : Buf (Elt F) ℓ) :
    (ℓ ↦[I]{fullShare} f : sProp 𝕄)
      ⊣⊢ iprop((ℓ ↦[I]{Transfers.shareDrop fullShare 32} f) ∗ bigSep (Finset.univ : Finset grid0.Coords) fun L => ℓ ↦[I]{tileShare L} f) := by
  have e := bigSep_univ_equiv widEquiv (fun k : Fin 32 => (ℓ ↦[I]{Transfers.shareTok fullShare 32 k} f : sProp 𝕄))
  have h := Transfers.pointsTo_toks (Ix := HIx 2) (Name := ℕ) (U := UU) (Lvl := ℕ) (ℓ := ℓ) (S := I) (f := f) fullShare 32
  rw [e] at h
  exact h

theorem srcBlk_disjoint : ∀ L ∈ (Finset.univ : Finset grid0.Coords), ∀ L' ∈ (Finset.univ : Finset grid0.Coords), L ≠ L' →
    Disjoint (srcBlk L).set (srcBlk L').set := by
  intro L _ L' _ h
  have hw : wid L ≠ wid L' := fun e => h (wid_inj e)
  refine Rect.unit_disjoint 0 ?_
  show wid L + 1 ≤ wid L' ∨ wid L' + 1 ≤ wid L
  omega

theorem srcBlk_cover : (Finset.univ : Finset grid0.Coords).biUnion (fun L => (srcBlk L).set) = Finset.univ := by
  refine Finset.eq_univ_of_forall fun j => ?_
  have h0 : (j 0).val < 32 := (j 0).isLt
  have h1 : (j 1).val < 80 := (j 1).isLt
  have h2 : (j 2).val < 128 := (j 2).isLt
  refine Finset.mem_biUnion.2 ⟨tileOf ⟨(j 0).val, h0⟩, Finset.mem_univ _, Rect.mem_set_unit.2 fun a => ?_⟩
  have hw : wid (tileOf ⟨(j 0).val, h0⟩) = (j 0).val := wid_tileOf _
  match a with
  | ⟨0, _⟩ => show wid (tileOf ⟨(j 0).val, h0⟩) ≤ (j 0).val ∧ (j 0).val < wid (tileOf ⟨(j 0).val, h0⟩) + 1; omega
  | ⟨1, _⟩ => show 0 ≤ (j 1).val ∧ (j 1).val < 0 + 80; omega
  | ⟨2, _⟩ => show 0 ≤ (j 2).val ∧ (j 2).val < 0 + 128; omega

theorem outBlk_disjoint : ∀ L ∈ (Finset.univ : Finset grid0.Coords), ∀ L' ∈ (Finset.univ : Finset grid0.Coords), L ≠ L' →
    Disjoint (outBlk L).set (outBlk L').set := by
  intro L _ L' _ h
  have hw : wid L ≠ wid L' := fun e => h (wid_inj e)
  refine Rect.unit_disjoint 0 ?_
  show 10240 * wid L + 10240 ≤ 10240 * wid L' ∨ 10240 * wid L' + 10240 ≤ 10240 * wid L
  omega

theorem outBlk_cover : (Finset.univ : Finset grid0.Coords).biUnion (fun L => (outBlk L).set) = Finset.univ := by
  refine Finset.eq_univ_of_forall fun j => ?_
  have h0 : (j 0).val < 327680 := (j 0).isLt
  have h1 : (j 1).val < 128 := (j 1).isLt
  have hk : (j 0).val / 10240 < 32 := by omega
  refine Finset.mem_biUnion.2 ⟨tileOf ⟨(j 0).val / 10240, hk⟩, Finset.mem_univ _, Rect.mem_set_unit.2 fun a => ?_⟩
  have hw : wid (tileOf ⟨(j 0).val / 10240, hk⟩) = (j 0).val / 10240 := wid_tileOf _
  match a with
  | ⟨0, _⟩ =>
    show 10240 * wid (tileOf ⟨(j 0).val / 10240, hk⟩) ≤ (j 0).val ∧ (j 0).val < 10240 * wid (tileOf ⟨(j 0).val / 10240, hk⟩) + 10240
    omega
  | ⟨1, _⟩ => show 0 ≤ (j 1).val ∧ (j 1).val < 0 + 128; omega

theorem relBlk_disjoint : ∀ L ∈ (Finset.univ : Finset grid0.Coords), ∀ L' ∈ (Finset.univ : Finset grid0.Coords), L ≠ L' →
    Disjoint (relBlk L).set (relBlk L').set := by
  intro L _ L' _ h
  have hw : wid L ≠ wid L' := fun e => h (wid_inj e)
  refine Rect.unit_disjoint 0 ?_
  show 640 * wid L + 640 ≤ 640 * wid L' ∨ 640 * wid L' + 640 ≤ 640 * wid L
  omega

theorem relBlk_cover : (Finset.univ : Finset grid0.Coords).biUnion (fun L => (relBlk L).set) = Finset.univ := by
  refine Finset.eq_univ_of_forall fun j => ?_
  have h0 : (j 0).val < 20480 := (j 0).isLt
  have h1 : (j 1).val < 16 := (j 1).isLt
  have hk : (j 0).val / 640 < 32 := by omega
  refine Finset.mem_biUnion.2 ⟨tileOf ⟨(j 0).val / 640, hk⟩, Finset.mem_univ _, Rect.mem_set_unit.2 fun a => ?_⟩
  have hw : wid (tileOf ⟨(j 0).val / 640, hk⟩) = (j 0).val / 640 := wid_tileOf _
  match a with
  | ⟨0, _⟩ =>
    show 640 * wid (tileOf ⟨(j 0).val / 640, hk⟩) ≤ (j 0).val ∧ (j 0).val < 640 * wid (tileOf ⟨(j 0).val / 640, hk⟩) + 640
    omega
  | ⟨1, _⟩ => show 0 ≤ (j 1).val ∧ (j 1).val < 0 + 16; omega

theorem partsSet_disjoint' : ∀ L ∈ (Finset.univ : Finset grid2.Coords), ∀ L' ∈ (Finset.univ : Finset grid2.Coords), L ≠ L' →
    Disjoint (partsSet L) (partsSet L') := fun L _ L' _ h => partsSet_disjoint L L' h

theorem src_blocks (d : Dev nD) (f : Buf (Elt F) (srcLoc d)) :
    (srcLoc d ↦{fullShare} f : sProp 𝕄) = bigSep (Finset.univ : Finset grid0.Coords) fun L => srcLoc d ↦[(srcBlk L).set]{fullShare} f := by
  rw [← pointsTo_biUnion Finset.univ (ℓ := srcLoc d) (fun L => (srcBlk L).set) srcBlk_disjoint, srcBlk_cover]
theorem dst_blocks (d : Dev nD) (f : Buf (Elt F) (K0Body.dstLoc d)) :
    (K0Body.dstLoc d ↦{fullShare} f : sProp 𝕄) = bigSep (Finset.univ : Finset grid0.Coords) fun L => K0Body.dstLoc d ↦[(srcBlk L).set]{fullShare} f := by
  rw [← pointsTo_biUnion Finset.univ (ℓ := K0Body.dstLoc d) (fun L => (srcBlk L).set) srcBlk_disjoint, srcBlk_cover]

-- An array held whole at some contents is its blocks, pairwise disjoint and covering, each at some contents.
theorem blocks_split {T : Type} [Fintype T] {ℓ : Loc nD τ sig} (K : T → Finset (Idx ℓ))
    (h : ∀ t ∈ (Finset.univ : Finset T), ∀ t' ∈ (Finset.univ : Finset T), t ≠ t' → Disjoint (K t) (K t'))
    (hc : (Finset.univ : Finset T).biUnion K = Finset.univ) :
    (iprop(∃ f, ℓ ↦{fullShare} f) : sProp 𝕄) ⊢ bigSep (Finset.univ : Finset T) fun t => iprop(∃ f, ℓ ↦[K t]{fullShare} f) := by
  have h' := pointsTo_blocks_split (Ix := HIx 2) (Val := Elt F) (Name := ℕ) (U := UU) (Lvl := ℕ) (ℓ := ℓ) (q := fullShare) Finset.univ K h
  rw [hc] at h'
  exact h'

section Call0

variable (d : Dev nD)
variable (fx : Buf (Elt F) (xLoc d)) (fpx : Buf (Elt F) (pxLoc d)) (fpy : Buf (Elt F) (pyLoc d)) (fpz : Buf (Elt F) (pzLoc d))
variable (fsrc : Buf (Elt F) (srcLoc d)) (fdst : Buf (Elt F) (K0Body.dstLoc d))

def rem0 : sProp 𝕄 :=
  iprop((xLoc d ↦{Transfers.shareDrop fullShare 32} fx) ∗ (pxLoc d ↦{Transfers.shareDrop fullShare 32} fpx)
    ∗ (pyLoc d ↦{Transfers.shareDrop fullShare 32} fpy) ∗ (pzLoc d ↦{Transfers.shareDrop fullShare 32} fpz))

def whole0 : sProp 𝕄 :=
  iprop((xLoc d ↦{fullShare} fx) ∗ (pxLoc d ↦{fullShare} fpx) ∗ (pyLoc d ↦{fullShare} fpy) ∗ (pzLoc d ↦{fullShare} fpz)
    ∗ (srcLoc d ↦{fullShare} fsrc) ∗ (K0Body.dstLoc d ↦{fullShare} fdst)
    ∗ (∃ f, xiLoc d ↦{fullShare} f) ∗ (∃ f, xjLoc d ↦{fullShare} f) ∗ (∃ f, relLoc d ↦{fullShare} f))

theorem split0_coords :
    whole0 d fx fpx fpy fpz fsrc fdst
      ⊢ iprop(rem0 d fx fpx fpy fpz ∗ bigSep (Finset.univ : Finset grid0.Coords) fun L => go0 (tileShare L) d L fx fpx fpy fpz fsrc fdst) := by
  unfold whole0 rem0 K0Body.go0
  simp only [bigSep_sep']
  iintro ⟨Hx, Hpx, Hpy, Hpz, Hs, Hd, Hxi, Hxj, Hrel⟩
  ihave Hx' := (toks_tiles Finset.univ fx).1 $$ Hx
  icases Hx' with ⟨Hxr, Hxt⟩
  ihave Hpx' := (toks_tiles Finset.univ fpx).1 $$ Hpx
  icases Hpx' with ⟨Hpxr, Hpxt⟩
  ihave Hpy' := (toks_tiles Finset.univ fpy).1 $$ Hpy
  icases Hpy' with ⟨Hpyr, Hpyt⟩
  ihave Hpz' := (toks_tiles Finset.univ fpz).1 $$ Hpz
  icases Hpz' with ⟨Hpzr, Hpzt⟩
  ihave Hs' := (Entails.of_eq (src_blocks d fsrc)) $$ Hs
  ihave Hd' := (Entails.of_eq (dst_blocks d fdst)) $$ Hd
  ihave Hxi' := (blocks_split (ℓ := xiLoc d) (fun L => (outBlk L).set) outBlk_disjoint outBlk_cover) $$ Hxi
  ihave Hxj' := (blocks_split (ℓ := xjLoc d) (fun L => (outBlk L).set) outBlk_disjoint outBlk_cover) $$ Hxj
  ihave Hrel' := (blocks_split (ℓ := relLoc d) (fun L => (relBlk L).set) relBlk_disjoint relBlk_cover) $$ Hrel
  iframe

end Call0

section Call2

variable (d : Dev nD)
variable (fmt : Buf (Elt F) (mtLoc d)) (fdst : Buf (Elt F) (K2Body.dstLoc d)) (fz : Buf (Elt F) (zpkLoc d))

abbrev tileShare2 (L : grid2.Coords) : PosShare TreeShare := tileShare (L : grid0.Coords)

def rem2 : sProp 𝕄 :=
  iprop((mtLoc d ↦{Transfers.shareDrop fullShare 32} fmt) ∗ (K2Body.dstLoc d ↦{Transfers.shareDrop fullShare 32} fdst)
    ∗ (zpkLoc d ↦{Transfers.shareDrop fullShare 32} fz))

def whole2 : sProp 𝕄 :=
  iprop((mtLoc d ↦{fullShare} fmt) ∗ (K2Body.dstLoc d ↦{fullShare} fdst) ∗ (zpkLoc d ↦{fullShare} fz) ∗ ∃ f, partsLoc d ↦{fullShare} f)

theorem split2_coords :
    whole2 d fmt fdst fz
      ⊢ iprop(rem2 d fmt fdst fz ∗ bigSep (Finset.univ : Finset grid2.Coords) fun L =>
          go2 (tileShare2 L) (tileShare2 L) (tileShare2 L) d fmt fdst fz L) := by
  unfold whole2 rem2 K2Body.go2
  simp only [bigSep_sep']
  iintro ⟨Hm, Hd, Hz, Hp⟩
  ihave Hm' := (toks_tiles Finset.univ fmt).1 $$ Hm
  icases Hm' with ⟨Hmr, Hmt⟩
  ihave Hd' := (toks_tiles Finset.univ fdst).1 $$ Hd
  icases Hd' with ⟨Hdr, Hdt⟩
  ihave Hz' := (toks_tiles Finset.univ fz).1 $$ Hz
  icases Hz' with ⟨Hzr, Hzt⟩
  ihave Hp' := (blocks_split (ℓ := partsLoc d) partsSet partsSet_disjoint' partsSet_cover) $$ Hp
  iframe

end Call2

section At

open Idealize.ShloMosaic.TcCoe

variable [FloatOps F] (m : (ℓ : Loc nD τ sig) → Buf (Elt F) ℓ) (d : Dev nD)

def whole0At : sProp 𝕄 :=
  whole0 d (Wh m d main_arg0) (Wh m d main_v2) (Wh m d main_v5) (Wh m d main_v8) (Wh m d main_v15) (Wh m d main_v18)

def rem0At : sProp 𝕄 :=
  rem0 d (Wh m d main_arg0) (Wh m d main_v2) (Wh m d main_v5) (Wh m d main_v8)

theorem split0 :
    whole0At m d ⊢ iprop(rem0At m d ∗ bigSep Finset.univ fun c : Fin (grid0.bound 0) => bigSep Finset.univ fun i : Fin (grid0.bound 1) => go0At m d c i) := by
  unfold whole0At rem0At
  refine (split0_coords d _ _ _ _ _ _).trans (Entails.of_eq ?_)
  rw [bigSep_coords]
  rfl

def whole2At (fmt : Buf (Elt F) (mtLoc d)) : sProp 𝕄 := whole2 d fmt (Wh m d main_v20) (Wh m d main_v21)

def rem2At (fmt : Buf (Elt F) (mtLoc d)) : sProp 𝕄 := rem2 d fmt (Wh m d main_v20) (Wh m d main_v21)

end At

end Cert.Proof.KI.Tiles

end
-- ==== Proof.KI.Calls.lean ====
import proofs.«205084_g25537875542483_cont_9to1_419_23_alg».proof.Proof.KI.Common
import proofs.«205084_g25537875542483_cont_9to1_419_23_alg».proof.Proof.KI.Pay
import proofs.«205084_g25537875542483_cont_9to1_419_23_alg».proof.Proof.KI.Tiles

noncomputable section

namespace Cert.Proof.KI.Calls

open Cert.KernelIdeal Cert.KernelIdeal.Gen Cert.Proof.KI

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (m : (ℓ : Loc nD τ sig) → Buf (Elt F) ℓ)

abbrev x' : DevRef τ sig := Proc.devRef .tc (main_arg0 : Ref sig .tc)
abbrev px' : DevRef τ sig := Proc.devRef .tc (main_v2 : Ref sig .tc)
abbrev py' : DevRef τ sig := Proc.devRef .tc (main_v5 : Ref sig .tc)
abbrev pz' : DevRef τ sig := Proc.devRef .tc (main_v8 : Ref sig .tc)
abbrev src' : DevRef τ sig := Proc.devRef .tc (main_v15 : Ref sig .tc)
abbrev dst' : DevRef τ sig := Proc.devRef .tc (main_v18 : Ref sig .tc)
abbrev xi' : DevRef τ sig := Proc.devRef .tc (main_v43_0 : Ref sig .tc)
abbrev xj' : DevRef τ sig := Proc.devRef .tc (main_v43_1 : Ref sig .tc)
abbrev rel' : DevRef τ sig := Proc.devRef .tc (main_v43_2 : Ref sig .tc)
abbrev mt' : DevRef τ sig := Proc.devRef .tc (main_v44 : Ref sig .tc)
abbrev tg' : DevRef τ sig := Proc.devRef .tc (main_v20 : Ref sig .tc)
abbrev zb' : DevRef τ sig := Proc.devRef .tc (main_v21 : Ref sig .tc)
abbrev parts' : DevRef τ sig := Proc.devRef .tc (main_v45 : Ref sig .tc)

abbrev S9 : Finset (DevRef τ sig) := {x', px', py', pz', src', dst', xi', xj', rel'}

abbrev S4 : Finset (DevRef τ sig) := {mt', tg', zb', parts'}

theorem mem_uc (r : Ref sig .tc) (h : r.isScoped = false) : Proc.devRef .tc r ∈ Pipeline.ucRefs τ sig :=
  Finset.mem_filter.2 ⟨StableHlo.devRef_mem_tcRefs r, by rw [Proc.isScoped_devRef, h]; exact Bool.false_ne_true⟩

theorem S9_sub : S9 ⊆ Pipeline.ucRefs τ sig := by
  intro b hb
  simp only [S9, Finset.mem_insert, Finset.mem_singleton] at hb
  rcases hb with rfl | rfl | rfl | rfl | rfl | rfl | rfl | rfl | rfl <;> exact mem_uc _ rfl
theorem S4_sub : S4 ⊆ Pipeline.ucRefs τ sig := by
  intro b hb
  simp only [S4, Finset.mem_insert, Finset.mem_singleton] at hb
  rcases hb with rfl | rfl | rfl | rfl <;> exact mem_uc _ rfl

omit [FloatOps F] in
theorem held_S9 (d : Dev nD) (W : Valuation τ sig (Elt F)) :
    (held (T d) S9 W : sProp 𝕄) = iprop((K0Body.xLoc d ↦{fullShare} W x') ∗ (K0Body.pxLoc d ↦{fullShare} W px') ∗ (K0Body.pyLoc d ↦{fullShare} W py')
      ∗ (K0Body.pzLoc d ↦{fullShare} W pz') ∗ (K0Body.srcLoc d ↦{fullShare} W src') ∗ (K0Body.dstLoc d ↦{fullShare} W dst')
      ∗ (K0Body.xiLoc d ↦{fullShare} W xi') ∗ (K0Body.xjLoc d ↦{fullShare} W xj') ∗ (K0Body.relLoc d ↦{fullShare} W rel')) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem held_S4 (d : Dev nD) (W : Valuation τ sig (Elt F)) :
    (held (T d) S4 W : sProp 𝕄) = iprop((K2Body.mtLoc d ↦{fullShare} W mt') ∗ (K2Body.dstLoc d ↦{fullShare} W tg')
      ∗ (K2Body.zpkLoc d ↦{fullShare} W zb') ∗ (K2Body.partsLoc d ↦{fullShare} W parts')) := by
  unfold held S4
  rw [SparseCore.bigSep_insert' (by decide), SparseCore.bigSep_insert' (by decide), SparseCore.bigSep_insert' (by decide), bigSep_singleton]

def Wc0 (d : Dev nD) (f0 : Buf (Elt F) (K0Body.xiLoc d)) (f1 : Buf (Elt F) (K0Body.xjLoc d)) (f2 : Buf (Elt F) (K0Body.relLoc d)) :
    Valuation τ sig (Elt F) :=
  Function.update (Function.update (Function.update (Wh m d) xi' f0) xj' f1) rel' f2

section Wc0

variable (d : Dev nD) (f0 : Buf (Elt F) (K0Body.xiLoc d)) (f1 : Buf (Elt F) (K0Body.xjLoc d)) (f2 : Buf (Elt F) (K0Body.relLoc d))

theorem Wc0_of_ne' (b : DevRef τ sig) (h0 : b ≠ xi') (h1 : b ≠ xj') (h2 : b ≠ rel') : Wc0 m d f0 f1 f2 b = Wh m d b := by
  unfold Wc0
  rw [Function.update_of_ne h2, Function.update_of_ne h1, Function.update_of_ne h0]
theorem Wc0_of_ne (b : Ref sig .tc) (h : b ≠ main_v43_0 ∧ b ≠ main_v43_1 ∧ b ≠ main_v43_2) :
    Wc0 m d f0 f1 f2 (Proc.devRef .tc b) = Wh m d b :=
  Wc0_of_ne' m d f0 f1 f2 _ (StableHlo.devRef_ne_of_ne h.1) (StableHlo.devRef_ne_of_ne h.2.1) (StableHlo.devRef_ne_of_ne h.2.2)
theorem Wc0_xi : Wc0 m d f0 f1 f2 xi' = f0 := by
  unfold Wc0
  rw [Function.update_of_ne (show xi' ≠ rel' by decide), Function.update_of_ne (show xi' ≠ xj' by decide), Function.update_self]
theorem Wc0_xj : Wc0 m d f0 f1 f2 xj' = f1 := by
  unfold Wc0
  rw [Function.update_of_ne (show xj' ≠ rel' by decide), Function.update_self]
theorem Wc0_rel : Wc0 m d f0 f1 f2 rel' = f2 := by
  unfold Wc0
  rw [Function.update_self]

end Wc0

theorem st1_eq (d : Dev nD) :
    (bigSep Finset.univ fun c : Fin ((K (F := F)).nCore 1) => (P m).st 1 d c)
      = bigSep Finset.univ fun c : Fin (grid2.bound 0) => bigSep Finset.univ fun i : Fin (grid2.bound 1) => go2At m d c i := rfl
end Cert.Proof.KI.Calls

end
-- ==== Proof.KI.R3Val.lean ====
import proofs.«205084_g25537875542483_cont_9to1_419_23_alg».proof.Proof.KI.R3Dat
import Idealize.ShloMosaic.Lib.Pipeline.Value

set_option maxRecDepth 16384

noncomputable section

namespace Cert.Proof.KI.R3Val

open Cert.KernelIdeal Cert.KernelIdeal.Gen Cert.Proof.KI Cert.Proof.KI.R3Dat

open Idealize.ShloMosaic Idealize.ShloMosaic.TcCoe
open Idealize.ShloMosaic.SparseCore.Cfg (HIx)
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))
  (O : CellTallies nD τ sig (HIx 2)) (Rec : Set (SemLoc sig × HIx 2))

theorem arrAt3_in (c : Dev nD) (w : Fin cfg3.W) (hw : (cfg3.win w).isOut = false) (n : Nat) :
    (dat3 V O Rec c).arrAt w n = V c (Pipeline.arrRef spec3 w) :=
  ((dat3 V O Rec c).arrAt_in w hw n).trans (A_eq3 V O Rec c w)

theorem arrAt3_out (c : Dev nD) :
    ((cfg3.win 11).blk t3_0).view.read (Elt F) ((dat3 V O Rec c).arrAt 11 cfg3.N) = out3_11 (iblk3 V c 0 t3_0) (iblk3 V c 1 t3_0) (iblk3 V c 2 t3_0) (iblk3 V c 3 t3_0) (iblk3 V c 4 t3_0) (iblk3 V c 5 t3_0) (iblk3 V c 6 t3_0) (iblk3 V c 7 t3_0) (iblk3 V c 8 t3_0) (iblk3 V c 9 t3_0) (iblk3 V c 10 t3_0) :=
  ((dat3 V O Rec c).read_blk_arrAt_eq_flushed 11 (fun t t' _ _ h => absurd ((fin_N3 t).trans (fin_N3 t').symm) h)
    cfg3.N t3_0 t3_0.isLt (flush3_11 t3_0)).trans (after3_11 V O Rec c t3_0)

end Cert.Proof.KI.R3Val

end
-- ==== Proof.KI.Main.lean ====
import proofs.«205084_g25537875542483_cont_9to1_419_23_alg».proof.Proof.KI.Steps
import proofs.«205084_g25537875542483_cont_9to1_419_23_alg».proof.Proof.KI.Calls
import proofs.«205084_g25537875542483_cont_9to1_419_23_alg».proof.Proof.KI.R3Val

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9,
  main_arg10, main_arg11, main_arg12, main_arg13, main_arg14, main_arg15, main_arg16, main_arg17, main_arg18, main_arg19]

abbrev Wr1 (d : Dev nD) (f0 : Buf (Elt F) (K0Body.xiLoc d)) (f1 : Buf (Elt F) (K0Body.xjLoc d)) (f2 : Buf (Elt F) (K0Body.relLoc d)) : Valuation τ sig (Elt F) :=
  exit1 (fun _ => Calls.Wc0 m d f0 f1 f2) ((K (F := F)).Otc d 1) (Bn (F := F) d 1) d

abbrev Wc1 (d : Dev nD) (f0 : Buf (Elt F) (K0Body.xiLoc d)) (f1 : Buf (Elt F) (K0Body.xjLoc d)) (f2 : Buf (Elt F) (K0Body.relLoc d)) (g : Buf (Elt F) (K2Body.partsLoc d)) :
    Valuation τ sig (Elt F) := Function.update (Wr1 m d f0 f1 f2) Calls.parts' g

abbrev Wr3 (d : Dev nD) (f0 : Buf (Elt F) (K0Body.xiLoc d)) (f1 : Buf (Elt F) (K0Body.xjLoc d)) (f2 : Buf (Elt F) (K0Body.relLoc d)) (g : Buf (Elt F) (K2Body.partsLoc d)) :
    Valuation τ sig (Elt F) := exit3 (fun _ => Wc1 m d f0 f1 f2 g) ((K (F := F)).Otc d 2) (Bn (F := F) d 2) d

theorem Wc1_arg (d : Dev nD) (f0 f1 f2 g) (b : Ref sig .tc) (hb : b ∈ argRefs) :
    Wc1 m d f0 f1 f2 g (Proc.devRef .tc b) = m (d, Proc.devRef .tc b) := by
  have h45 : (Proc.devRef .tc b : DevRef τ sig) ≠ Calls.parts' :=
    StableHlo.devRef_ne_of_ne ((by decide : ∀ b ∈ argRefs, b ≠ main_v45) b hb)
  have h1 : ∀ w, Pipeline.arrRef spec1 w ≠ b := (by decide : ∀ b ∈ argRefs, ∀ w, Pipeline.arrRef spec1 w ≠ b) b hb
  have h0 : b ≠ main_v43_0 ∧ b ≠ main_v43_1 ∧ b ≠ main_v43_2 := (by decide : ∀ b ∈ argRefs, b ≠ main_v43_0 ∧ b ≠ main_v43_1 ∧ b ≠ main_v43_2) b hb
  have hW : b ∉ IdxRange.hostPre_W := (by decide : ∀ b ∈ argRefs, b ∉ IdxRange.hostPre_W) b hb
  show Function.update _ _ _ _ = _
  rw [Function.update_of_ne h45]
  show exit1 _ _ _ d (Proc.devRef .tc b) = _
  rw [exit1_of_ne _ _ _ d b h1, Calls.Wc0_of_ne m d f0 f1 f2 b h0]
  unfold Wh
  exact IdxRange.after_hostPre_of _ b hW

theorem Wr3_arg (d : Dev nD) (f0 f1 f2 g) (b : Ref sig .tc) (hb : b ∈ argRefs) :
    Wr3 m d f0 f1 f2 g (Proc.devRef .tc b) = m (d, Proc.devRef .tc b) := by
  by_cases h0 : b = main_arg0
  · subst h0
    show exit3 _ _ _ d (Proc.devRef .tc (Pipeline.arrRef spec3 0)) = _
    rw [exit3_arr, R3Val.arrAt3_in _ _ _ d 0 rfl cfg3.N]
    exact Wc1_arg m d f0 f1 f2 g main_arg0 (by decide)
  · have h3 : ∀ w, Pipeline.arrRef spec3 w ≠ b :=
      (by decide : ∀ b ∈ argRefs, b ≠ main_arg0 → ∀ w, Pipeline.arrRef spec3 w ≠ b) b hb h0
    show exit3 _ _ _ d (Proc.devRef .tc b) = _
    rw [exit3_of_ne _ _ _ d b h3]
    exact Wc1_arg m d f0 f1 f2 g b hb

theorem G_eq (d : Dev nD) : (G (F := F) d : sProp 𝕄)
    = iprop((Pipeline.cellsGhost (Pipeline.pin (pcfgs (F := F)) adm) (EP (F := F)) 0 d ∗ Pipeline.toksInit (Pipeline.pin (pcfgs (F := F)) adm) (EP (F := F)) 0 d)
        ∗ (Pipeline.cellsGhost (Pipeline.pin (pcfgs (F := F)) adm) (EP (F := F)) 1 d ∗ Pipeline.toksInit (Pipeline.pin (pcfgs (F := F)) adm) (EP (F := F)) 1 d)) := by
  unfold G
  rw [show (Finset.univ : Finset (Fin 2)) = {0, 1} by decide, SparseCore.bigSep_insert' (by decide), bigSep_singleton]

omit [FloatOps F] in
theorem bigSep_emp' {I : Type} (s : Finset I) : (bigSep s fun _ => iprop(emp)) = (iprop(emp) : sProp 𝕄) := bigSep_emp_const s

end Cert.Proof.KI

end
-- ==== Proof.KI.K0Spec.lean ====
import proofs.«205084_g25537875542483_cont_9to1_419_23_alg».proof.Proof.KI.K0Body
import Idealize.ShloMosaic.Lib.ValueIdx

noncomputable section

namespace Cert.Proof.KI.K0Spec

open Cert.KernelIdeal Cert.KernelIdeal.Gen Cert.Proof.KI
open Cert.Proof.KI.K0Body (xLoc pxLoc pyLoc pzLoc srcLoc xiLoc xjLoc relLoc wid wid_lt srcBlk outBlk relBlk tileShare go0 td0 IdxOK)

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

def rowOf (v : BitVec 32) : Fin 10000 := ⟨min v.toNat 9999, by omega⟩
def nodeOf (v : BitVec 32) : Fin 10112 := ⟨min v.toNat 10111, by omega⟩

theorem rowOf_val {v : BitVec 32} (h : v.toNat < 10000) : (rowOf v).val = v.toNat := by
  show min v.toNat 9999 = v.toNat; omega
theorem nodeOf_val {v : BitVec 32} (h : v.toNat < 10112) : (nodeOf v).val = v.toNat := by
  show min v.toNat 10111 = v.toNat; omega

def edgeIdx (e : Fin 327680) : S32x80x128.Idx :=
  ix3 (⟨e.val / 10240, by omega⟩ : Fin 32) (⟨e.val / 128 % 80, by omega⟩ : Fin 80) (⟨e.val % 128, by omega⟩ : Fin 128)

theorem edgeIdx_0 (e : Fin 327680) : (edgeIdx e 0).val = e.val / 10240 := rfl
theorem edgeIdx_1 (e : Fin 327680) : (edgeIdx e 1).val = e.val / 128 % 80 := rfl
theorem edgeIdx_2 (e : Fin 327680) : (edgeIdx e 2).val = e.val % 128 := rfl

theorem edgeIdx_of (w j l : ℕ) (hw : w < 32) (hj : j < 80) (hl : l < 128) :
    edgeIdx ⟨10240 * w + 128 * j + l, by omega⟩ = ix3 (⟨w, hw⟩ : Fin 32) (⟨j, hj⟩ : Fin 80) (⟨l, hl⟩ : Fin 128) := by
  funext a
  match a with
  | ⟨0, _⟩ => exact Fin.ext (show (10240 * w + 128 * j + l) / 10240 = w by omega)
  | ⟨1, _⟩ => exact Fin.ext (show (10240 * w + 128 * j + l) / 128 % 80 = j by omega)
  | ⟨2, _⟩ => exact Fin.ext (show (10240 * w + 128 * j + l) % 128 = l by omega)

section Results

variable [FloatOps F] (d : Dev nD)
variable (fx : Buf (Elt F) (xLoc d)) (fpx : Buf (Elt F) (pxLoc d)) (fpy : Buf (Elt F) (pyLoc d)) (fpz : Buf (Elt F) (pzLoc d))
variable (fsrc : Buf (Elt F) (srcLoc d)) (fdst : Buf (Elt F) (K0Body.dstLoc d))

def xiOf : Buf (Elt F) (xiLoc d) :=
  fun (i : S327680x128.Idx) => (fx : S10000x128.Idx → F .f32) (ix2 (rowOf ((fdst : S32x80x128.Idx → BitVec 32) (edgeIdx (i 0)))) (i 1))
def xjOf : Buf (Elt F) (xjLoc d) :=
  fun (i : S327680x128.Idx) => (fx : S10000x128.Idx → F .f32) (ix2 (rowOf ((fsrc : S32x80x128.Idx → BitVec 32) (edgeIdx (i 0)))) (i 1))

def sqd (p : S10112.Idx → F .f32) (s t : BitVec 32) : F .f32 :=
  FloatOps.mulf (FloatOps.subf (p (ix1 (nodeOf s))) (p (ix1 (nodeOf t)))) (FloatOps.subf (p (ix1 (nodeOf s))) (p (ix1 (nodeOf t))))

def relEdge (i : S20480x16.Idx) : Fin 327680 :=
  ⟨16 * (i 0).val + (i 1).val, by have h0 : (i 0).val < 20480 := (i 0).isLt; have h1 : (i 1).val < 16 := (i 1).isLt; omega⟩

def relOf : Buf (Elt F) (relLoc d) :=
  fun (i : S20480x16.Idx) =>
    FloatOps.addf (FloatOps.addf (FloatOps.addf (Scalar.ofBits .f32 0x00000000#32)
        (sqd (fpx : S10112.Idx → F .f32) ((fsrc : S32x80x128.Idx → BitVec 32) (edgeIdx (relEdge i))) ((fdst : S32x80x128.Idx → BitVec 32) (edgeIdx (relEdge i)))))
        (sqd (fpy : S10112.Idx → F .f32) ((fsrc : S32x80x128.Idx → BitVec 32) (edgeIdx (relEdge i))) ((fdst : S32x80x128.Idx → BitVec 32) (edgeIdx (relEdge i)))))
        (sqd (fpz : S10112.Idx → F .f32) ((fsrc : S32x80x128.Idx → BitVec 32) (edgeIdx (relEdge i))) ((fdst : S32x80x128.Idx → BitVec 32) (edgeIdx (relEdge i))))

end Results

section Task

variable [FloatOps F] (q : PosShare TreeShare) (d : Dev nD) (L : grid0.Coords)
variable (fx : Buf (Elt F) (xLoc d)) (fpx : Buf (Elt F) (pxLoc d)) (fpy : Buf (Elt F) (pyLoc d)) (fpz : Buf (Elt F) (pzLoc d))
variable (fsrc : Buf (Elt F) (srcLoc d)) (fdst : Buf (Elt F) (K0Body.dstLoc d))

def td0V : sProp 𝕄 :=
  iprop((xLoc d ↦{q} fx) ∗ (pxLoc d ↦{q} fpx) ∗ (pyLoc d ↦{q} fpy) ∗ (pzLoc d ↦{q} fpz)
    ∗ (srcLoc d ↦[(srcBlk L).set]{fullShare} fsrc) ∗ (K0Body.dstLoc d ↦[(srcBlk L).set]{fullShare} fdst)
    ∗ (xiLoc d ↦[(outBlk L).set]{fullShare} xiOf d fx fdst) ∗ (xjLoc d ↦[(outBlk L).set]{fullShare} xjOf d fx fsrc)
    ∗ (relLoc d ↦[(relBlk L).set]{fullShare} relOf d fpx fpy fpz fsrc fdst))

end Task

def Body0V [FloatOps F] (q : PosShare TreeShare) (d : Dev nD) (L : grid0.Coords)
    (fx : Buf (Elt F) (xLoc d)) (fpx : Buf (Elt F) (pxLoc d)) (fpy : Buf (Elt F) (pyLoc d)) (fpz : Buf (Elt F) (pzLoc d))
    (fsrc : Buf (Elt F) (srcLoc d)) (fdst : Buf (Elt F) (K0Body.dstLoc d)) : Prop :=
  ∀ (O : CellTallies nD τ sig (HIx 2)) (W : Waits sig (HIx 2)) (hO : ∀ g, O g none = 0) (hok : IdxOK d fsrc fdst),
    (iprop(levAts (K (F := F)).L (K (F := F)).lev ∗ emp ∗ go0 q d L fx fpx fpy fpz fsrc fdst
        ∗ scopedBufs (V d (cV0 L) (jV0 L)) ∗ scopedSems0 (V d (cV0 L) (jV0 L)) ∗ owes (V d (cV0 L) (jV0 L)) O W) : sProp 𝕄)
      ⊢ wp frame (wpE (defs₀ (F := F)) 𝒱₀ (V d (cV0 L) (jV0 L)) none) Set.univ
          (cc0_k L (.whole main_arg0_scv) (Memref.isWhole_whole _) (.whole main_v2_scv) (Memref.isWhole_whole _) (.whole main_v5_scv) (Memref.isWhole_whole _) (.whole main_v8_scv) (Memref.isWhole_whole _)
            (.whole main_v15_scv) (Memref.isWhole_whole _) (.whole main_v18_scv) (Memref.isWhole_whole _) (.whole main_v43_0_scv) (Memref.isWhole_whole _) (.whole main_v43_1_scv) (Memref.isWhole_whole _)
            (.whole main_v43_2_scv) (Memref.isWhole_whole _) (.whole cc0_scratch0) (Memref.isWhole_whole _) (.whole cc0_scratch1) (Memref.isWhole_whole _) (.whole cc0_scratch2) (Memref.isWhole_whole _)
            (.whole cc0_scratch3) (Memref.isWhole_whole _) (.whole cc0_scratch4) (Memref.isWhole_whole _) (.whole cc0_scratch5) (Memref.isWhole_whole _) (.whole cc0_scratch6) (Memref.isWhole_whole _)
            (.whole cc0_scratch7) (Memref.isWhole_whole _) cc0_scratch8 cc0_scratch9 cc0_scoped0 cc0_scoped1 cc0_scoped2 cc0_scoped3 cc0_scoped4
            cc0_scoped5 cc0_scoped6 cc0_scoped7)
          fun _ => iprop(td0V q d L fx fpx fpy fpz fsrc fdst ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W')

end Cert.Proof.KI.K0Spec

end
-- ==== Proof.KI.K2Spec.lean ====
import proofs.«205084_g25537875542483_cont_9to1_419_23_alg».proof.Proof.KI.K2Body
import Idealize.ShloMosaic.Lib.ValueIdx

noncomputable section

namespace Cert.Proof.KI.K2Spec

open Cert.KernelIdeal Cert.KernelIdeal.Gen Cert.Proof.KI
open Cert.Proof.KI.K2Body (mtLoc zpkLoc partsLoc partsSl partsSet td2v out2 DstOK k2_off12_closed partsSet_eq)

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

def tileOfBlock (h : Fin 2) (g : Fin 16) : grid2.Coords :=
  fun | 0 => (⟨(2 * g.val + h.val) / 16, by omega⟩ : Fin 2) | 1 => (⟨(2 * g.val + h.val) % 16, by omega⟩ : Fin 16)
      | ⟨_ + 2, hh⟩ => absurd hh (Nat.not_lt.2 (Nat.le_add_left _ _))

theorem mem_partsSet {L : grid2.Coords} {i : S2x16x640x128.Idx} (hi : i ∈ partsSet L) :
    (i 0).val = (16 * (L 0).val + (L 1).val) % 2 ∧ (i 1).val = (16 * (L 0).val + (L 1).val) / 2 := by
  rw [partsSet_eq, Rect.mem_set_unit, k2_off12_closed L] at hi
  have h0 : (16 * (L 0).val + (L 1).val) % 2 ≤ (i 0).val ∧ (i 0).val < (16 * (L 0).val + (L 1).val) % 2 + 1 := hi 0
  have h1 : (16 * (L 0).val + (L 1).val) / 2 ≤ (i 1).val ∧ (i 1).val < (16 * (L 0).val + (L 1).val) / 2 + 1 := hi 1
  omega

theorem tileOfBlock_of_mem {L : grid2.Coords} {i : S2x16x640x128.Idx} (hi : i ∈ partsSet L) : tileOfBlock (i 0) (i 1) = L := by
  obtain ⟨e0, e1⟩ := mem_partsSet hi
  have hc : (L 0).val < 2 := (L 0).isLt
  have hs : (L 1).val < 16 := (L 1).isLt
  funext a
  match a with
  | ⟨0, _⟩ => exact Fin.ext (show (2 * (i 1).val + (i 0).val) / 16 = (L 0).val by omega)
  | ⟨1, _⟩ => exact Fin.ext (show (2 * (i 1).val + (i 0).val) % 16 = (L 1).val by omega)

theorem emb_block {L : grid2.Coords} {i : S2x16x640x128.Idx} (hi : i ∈ partsSet L) :
    (partsSl L).view.emb (ix2 (i 2) (i 3)) = i := by
  obtain ⟨e0, e1⟩ := mem_partsSet hi
  have hr : Shape.reshapeEquiv squeezes_S1x1x640x128_S640x128.numel_eq (ix2 (i 2) (i 3) : S640x128.Idx)
      = (ix4 (0 : Fin 1) (0 : Fin 1) (i 2) (i 3) : S1x1x640x128.Idx) := by
    refine Shape.reshapeEquiv_eq_of_rowMajor _ ?_
    rw [Shape.rowMajor_val_four, Shape.rowMajor_val_two]
    show ((0 * 1 + 0) * 640 + (i 2).val) * 128 + (i 3).val = (i 2).val * 128 + (i 3).val
    omega
  show (Rect.unit (s := S2x16x640x128) (k2_off12 L) S1x1x640x128.size (k2_off12_inb L)).emb
      (Shape.reshapeEquiv squeezes_S1x1x640x128_S640x128.numel_eq (ix2 (i 2) (i 3) : S640x128.Idx)) = i
  rw [hr]
  funext a
  refine Fin.ext ?_
  rw [Rect.emb_apply]
  have hoff := congrFun (k2_off12_closed L)
  match a with
  | ⟨0, _⟩ =>
    show k2_off12 L 0 + 1 * 0 = (i 0).val
    rw [hoff 0]
    show (16 * (L 0).val + (L 1).val) % 2 + 1 * 0 = (i 0).val
    omega
  | ⟨1, _⟩ =>
    show k2_off12 L 1 + 1 * 0 = (i 1).val
    rw [hoff 1]
    show (16 * (L 0).val + (L 1).val) / 2 + 1 * 0 = (i 1).val
    omega
  | ⟨2, _⟩ =>
    show k2_off12 L 2 + 1 * (i 2).val = (i 2).val
    rw [hoff 2]
    show 0 + 1 * (i 2).val = (i 2).val
    omega
  | ⟨3, _⟩ =>
    show k2_off12 L 3 + 1 * (i 3).val = (i 3).val
    rw [hoff 3]
    show 0 + 1 * (i 3).val = (i 3).val
    omega

section Result

variable (d : Dev nD) (fmt : Buf (Elt F) (mtLoc d)) (fdst : Buf (Elt F) (K2Body.dstLoc d)) (fz : Buf (Elt F) (zpkLoc d)) (hok : DstOK fdst)

def partsOf : Buf (Elt F) (partsLoc d) :=
  fun (i : S2x16x640x128.Idx) => out2 d (tileOfBlock (i 0) (i 1)) fmt fdst fz hok (ix2 (i 2) (i 3))

theorem partsOf_of_mem {L : grid2.Coords} {i : S2x16x640x128.Idx} (hi : i ∈ partsSet L) :
    (partsOf d fmt fdst fz hok : S2x16x640x128.Idx → F .f32) i = out2 d L fmt fdst fz hok (ix2 (i 2) (i 3)) := by
  unfold partsOf
  rw [tileOfBlock_of_mem hi]

theorem eq_partsOf_of_read {L : grid2.Coords} (f : Buf (Elt F) (partsLoc d))
    (hf : (partsSl L).view.read (Elt F) f = out2 d L fmt fdst fz hok) :
    ∀ i ∈ partsSet L, (f : S2x16x640x128.Idx → F .f32) i = (partsOf d fmt fdst fz hok : S2x16x640x128.Idx → F .f32) i := by
  intro i hi
  rw [partsOf_of_mem d fmt fdst fz hok hi, ← hf]
  show f i = cast _ (f ((partsSl L).view.emb (ix2 (i 2) (i 3))))
  rw [emb_block hi, cast_eq]

def td2V (qm qd qz : PosShare TreeShare) (L : grid2.Coords) : sProp 𝕄 :=
  iprop((mtLoc d ↦{qm} fmt) ∗ (K2Body.dstLoc d ↦{qd} fdst) ∗ (zpkLoc d ↦{qz} fz) ∗ partsLoc d ↦[partsSet L]{fullShare} partsOf d fmt fdst fz hok)

theorem td2v_td2V (qm qd qz : PosShare TreeShare) (L : grid2.Coords) :
    td2v d L qm qd qz fmt fdst fz hok ⊢ td2V d fmt fdst fz hok qm qd qz L := by
  unfold K2Body.td2v td2V
  iintro ⟨Hm, Hd, Hz, %f, Hp, %hf⟩
  have e : (partsLoc d ↦[partsSet L]{fullShare} f : sProp 𝕄) = partsLoc d ↦[partsSet L]{fullShare} partsOf d fmt fdst fz hok :=
    pointsTo_congr (eq_partsOf_of_read d fmt fdst fz hok f hf)
  rw [← e]
  iframe

end Result

end Cert.Proof.KI.K2Spec

end
-- ==== Proof.KI.PayV.lean ====
import proofs.«205084_g25537875542483_cont_9to1_419_23_alg».proof.Proof.KI.Pay
import proofs.«205084_g25537875542483_cont_9to1_419_23_alg».proof.Proof.KI.K0Spec
import proofs.«205084_g25537875542483_cont_9to1_419_23_alg».proof.Proof.KI.K2Spec

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)
variable (fmtOf : (d : Dev nD) → Buf (Elt F) (K2Body.mtLoc d))
variable (hok : ∀ d : Dev nD, K2Body.DstOK (d := d) (Wh m d main_v20))

def xiAt (d : Dev nD) : Buf (Elt F) (K0Body.xiLoc d) := K0Spec.xiOf d (Wh m d main_arg0) (Wh m d main_v18)
def xjAt (d : Dev nD) : Buf (Elt F) (K0Body.xjLoc d) := K0Spec.xjOf d (Wh m d main_arg0) (Wh m d main_v15)
def relAt (d : Dev nD) : Buf (Elt F) (K0Body.relLoc d) :=
  K0Spec.relOf d (Wh m d main_v2) (Wh m d main_v5) (Wh m d main_v8) (Wh m d main_v15) (Wh m d main_v18)
def partsAt (d : Dev nD) : Buf (Elt F) (K2Body.partsLoc d) :=
  K2Spec.partsOf d (fmtOf d) (Wh m d main_v20) (Wh m d main_v21) (hok d)

def td0AtV (d : Dev nD) (c : Fin (grid0.bound 0)) (i : Fin (grid0.bound 1)) : sProp 𝕄 :=
  K0Spec.td0V (K0Body.tileShare (L0 c i)) d (L0 c i) (Wh m d main_arg0) (Wh m d main_v2) (Wh m d main_v5) (Wh m d main_v8) (Wh m d main_v15) (Wh m d main_v18)
def go2AtV (d : Dev nD) (c : Fin (grid2.bound 0)) (i : Fin (grid2.bound 1)) : sProp 𝕄 :=
  K2Body.go2 (tok2 (L2 c i)) (tok2 (L2 c i)) (tok2 (L2 c i)) d (fmtOf d) (Wh m d main_v20) (Wh m d main_v21) (L2 c i)
def td2AtV (d : Dev nD) (c : Fin (grid2.bound 0)) (i : Fin (grid2.bound 1)) : sProp 𝕄 :=
  K2Spec.td2V d (fmtOf d) (Wh m d main_v20) (Wh m d main_v21) (hok d) (tok2 (L2 c i)) (tok2 (L2 c i)) (tok2 (L2 c i)) (L2 c i)

def PV : (K (F := F)).Pay (nD := nD) (Val := Elt F) (Name := ℕ) (U := UU) where
  st := fun q d c => match q, c with
    | 0, c => bigSep Finset.univ fun i : Fin (grid0.bound 1) => go0At m d c i
    | 1, c => bigSep Finset.univ fun i : Fin (grid2.bound 1) => go2AtV m fmtOf d c i
  dn := fun q d c => match q, c with
    | 0, c => bigSep Finset.univ fun i : Fin (grid0.bound 1) => td0AtV m d c i
    | 1, c => bigSep Finset.univ fun i : Fin (grid2.bound 1) => td2AtV m fmtOf hok d c i
  go := fun q d c i => match q, c, i with
    | 0, c, i => go0At m d c i
    | 1, c, i => go2AtV m fmtOf d c i
  td := fun q d c i => match q, c, i with
    | 0, c, i => td0AtV m d c i
    | 1, c, i => td2AtV m fmtOf hok d c i
  x := fun _ _ => iprop(emp)

set_option synthInstance.maxHeartbeats 400000 in
instance td0AtV_storable (d : Dev nD) (c : Fin (grid0.bound 0)) (i : Fin (grid0.bound 1)) : BI.Storable (upEmb : UEmb _ 𝕄) (td0AtV m d c i) := by
  unfold td0AtV K0Spec.td0V; infer_instance
instance go2AtV_storable (d : Dev nD) (c : Fin (grid2.bound 0)) (i : Fin (grid2.bound 1)) : BI.Storable (upEmb : UEmb _ 𝕄) (go2AtV m fmtOf d c i) :=
  go2_storable _ _ _ _ _ _ _ _
set_option synthInstance.maxHeartbeats 400000 in
instance td2AtV_storable (d : Dev nD) (c : Fin (grid2.bound 0)) (i : Fin (grid2.bound 1)) : BI.Storable (upEmb : UEmb _ 𝕄) (td2AtV m fmtOf hok d c i) := by
  unfold td2AtV K2Spec.td2V; infer_instance

instance PV_storable : (PV (F := F) m fmtOf hok).IsStorable where
  st q d c := match q, c with
    | 0, c => by haveI : ∀ i : Fin (grid0.bound 1), BI.Storable (upEmb : UEmb _ 𝕄) (go0At m d c i) := fun i => go0At_storable m d c i; exact (inferInstance : BI.Storable (upEmb : UEmb _ 𝕄) (bigSep Finset.univ fun i : Fin (grid0.bound 1) => go0At m d c i))
    | 1, c => by haveI : ∀ i : Fin (grid2.bound 1), BI.Storable (upEmb : UEmb _ 𝕄) (go2AtV m fmtOf d c i) := fun i => go2AtV_storable m fmtOf d c i; exact (inferInstance : BI.Storable (upEmb : UEmb _ 𝕄) (bigSep Finset.univ fun i : Fin (grid2.bound 1) => go2AtV m fmtOf d c i))
  dn q d c := match q, c with
    | 0, c => by haveI : ∀ i : Fin (grid0.bound 1), BI.Storable (upEmb : UEmb _ 𝕄) (td0AtV m d c i) := fun i => td0AtV_storable m d c i; exact (inferInstance : BI.Storable (upEmb : UEmb _ 𝕄) (bigSep Finset.univ fun i : Fin (grid0.bound 1) => td0AtV m d c i))
    | 1, c => by haveI : ∀ i : Fin (grid2.bound 1), BI.Storable (upEmb : UEmb _ 𝕄) (td2AtV m fmtOf hok d c i) := fun i => td2AtV_storable m fmtOf hok d c i; exact (inferInstance : BI.Storable (upEmb : UEmb _ 𝕄) (bigSep Finset.univ fun i : Fin (grid2.bound 1) => td2AtV m fmtOf hok d c i))
  go q d c i := match q, c, i with
    | 0, c, i => go0At_storable m d c i
    | 1, c, i => go2AtV_storable m fmtOf d c i
  td q d c i := match q, c, i with
    | 0, c, i => td0AtV_storable m d c i
    | 1, c, i => td2AtV_storable m fmtOf hok d c i

variable (hpre : ∀ d : Dev nD, IdxRange.PreAt m d)

include hpre in
theorem tileObl0V (hb : ∀ (q : PosShare TreeShare) (d : Dev nD) (L : grid0.Coords) (fx : Buf (Elt F) (K0Body.xLoc d)) (fpx : Buf (Elt F) (K0Body.pxLoc d))
      (fpy : Buf (Elt F) (K0Body.pyLoc d)) (fpz : Buf (Elt F) (K0Body.pzLoc d)) (fsrc : Buf (Elt F) (K0Body.srcLoc d)) (fdst : Buf (Elt F) (K0Body.dstLoc d)),
      K0Spec.Body0V q d L fx fpx fpy fpz fsrc fdst) :
    (K (F := F)).TileObl (D (F := F)) 𝒱 (PV m fmtOf hok) v₀ 0 := by
  intro d c i O W hO _ _
  simp only [show (PV m fmtOf hok).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vec0]; simp only [SparseCore.onTile, hc, and_self, ↓reduceDIte]
  exact (hb _ d (L0 ⟨_, hc.1⟩ ⟨_, hc.2⟩) _ _ _ _ _ _ O W hO (idxOK0 m hpre d)).trans (wp_mono frame _ _ fun _ => obl_post)

theorem tileObl1V : (K (F := F)).TileObl (D (F := F)) 𝒱 (PV m fmtOf hok) v₀ 1 := by
  intro d c i O W hO _ _
  simp only [show (PV m fmtOf hok).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vec2]; simp only [SparseCore.onTile, hc, and_self, ↓reduceDIte]
  refine (K2Body.body2v d (L2 ⟨_, hc.1⟩ ⟨_, hc.2⟩) _ _ _ (fmtOf d) _ _ O W hO (hok d)).trans (wp_mono frame _ _ fun _ => ?_)
  iintro ⟨Htd, Hsb, Hss, %W', %hW', HO⟩
  isplitl [Htd]
  · show _ ⊢ td2AtV m fmtOf hok d c i
    unfold td2AtV
    iapply (K2Spec.td2v_td2V d (fmtOf d) _ _ (hok d))
  isplitl [Hsb]; · iexact Hsb
  isplitl [Hss]; · iexact Hss
  iexists W'; isplitr
  · ipureintro; exact fun p hp => (hW' p hp).imp_right Or.inl
  · iexact HO

-- Handing a resource on now and taking any other back unchanged later is no update at all.
omit [FloatOps F] in
theorem split_id (A B : sProp 𝕄) : A ⊢ |={Set.univ}=> iprop(A ∗ (B -∗ B)) := by
  iintro H; imodintro
  isplitl [H]; · iexact H
  iintro H; iexact H

theorem vecSplit0V : (K (F := F)).VecSplit' (PV m fmtOf hok) 0 := fun _ _ => split_id _ _
theorem vecSplit1V : (K (F := F)).VecSplit' (PV m fmtOf hok) 1 := fun _ _ => split_id _ _

end Cert.Proof.KI

end
-- ==== Proof.KI.ValsV.lean ====
import proofs.«205084_g25537875542483_cont_9to1_419_23_alg».proof.Proof.KI.Main
import proofs.«205084_g25537875542483_cont_9to1_419_23_alg».proof.Proof.KI.PayV

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.Sem

variable {F : FTy → Type} [FloatOps F]

variable (m : (ℓ : Loc nD τ sig) → Buf (Elt F) ℓ)
variable (hok : ∀ d : Dev nD, K2Body.DstOK (d := d) (Wh m d main_v20))

def fmtV (d : Dev nD) : Buf (Elt F) (K2Body.mtLoc d) := Wr1 m d (xiAt m d) (xjAt m d) (relAt m d) Calls.mt'

abbrev Wc1V (d : Dev nD) : Valuation τ sig (Elt F) := Wc1 m d (xiAt m d) (xjAt m d) (relAt m d) (partsAt m (fmtV m) hok d)
abbrev Wr3V (d : Dev nD) : Valuation τ sig (Elt F) := Wr3 m d (xiAt m d) (xjAt m d) (relAt m d) (partsAt m (fmtV m) hok d)

def kernelOut (d : Dev nD) : Buf (Elt F) ((d, Proc.devRef .tc main_v46) : Loc nD τ sig) := Wr3V m hok d (Proc.devRef .tc main_v46)

end Cert.Proof.KI

end
-- ==== Proof.KI.TilesV.lean ====
import proofs.«205084_g25537875542483_cont_9to1_419_23_alg».proof.Proof.KI.Tiles
import proofs.«205084_g25537875542483_cont_9to1_419_23_alg».proof.Proof.KI.PayV

noncomputable section

namespace Cert.Proof.KI.TilesV

open Cert.KernelIdeal Cert.KernelIdeal.Gen Cert.Proof.KI Cert.Proof.KI.Tiles
open Cert.Proof.KI.K0Body (xLoc pxLoc pyLoc pzLoc srcLoc xiLoc xjLoc relLoc wid wid_lt srcBlk outBlk relBlk tileShare go0 td0)
open Cert.Proof.KI.K2Body (mtLoc zpkLoc partsLoc partsSet go2 td2 partsSet_disjoint partsSet_cover)

open Idealize.ShloMosaic Idealize.ShloMosaic.TileSplit Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

-- An array held whole at one function is its blocks, pairwise disjoint and covering, each at that function.
theorem blocks_eq {T : Type} [Fintype T] {ℓ : Loc nD τ sig} (K : T → Finset (Idx ℓ))
    (h : ∀ t ∈ (Finset.univ : Finset T), ∀ t' ∈ (Finset.univ : Finset T), t ≠ t' → Disjoint (K t) (K t'))
    (hc : (Finset.univ : Finset T).biUnion K = Finset.univ) (g : Buf (Elt F) ℓ) :
    (ℓ ↦{fullShare} g : sProp 𝕄) = bigSep (Finset.univ : Finset T) fun t => ℓ ↦[K t]{fullShare} g := by
  rw [← pointsTo_biUnion Finset.univ (ℓ := ℓ) K h, hc]

section Call0

variable (d : Dev nD)
variable (fx : Buf (Elt F) (xLoc d)) (fpx : Buf (Elt F) (pxLoc d)) (fpy : Buf (Elt F) (pyLoc d)) (fpz : Buf (Elt F) (pzLoc d))
variable (fsrc : Buf (Elt F) (srcLoc d)) (fdst : Buf (Elt F) (K0Body.dstLoc d))

def whole0V : sProp 𝕄 :=
  iprop((xLoc d ↦{fullShare} fx) ∗ (pxLoc d ↦{fullShare} fpx) ∗ (pyLoc d ↦{fullShare} fpy) ∗ (pzLoc d ↦{fullShare} fpz)
    ∗ (srcLoc d ↦{fullShare} fsrc) ∗ (K0Body.dstLoc d ↦{fullShare} fdst)
    ∗ (xiLoc d ↦{fullShare} K0Spec.xiOf d fx fdst) ∗ (xjLoc d ↦{fullShare} K0Spec.xjOf d fx fsrc)
    ∗ (relLoc d ↦{fullShare} K0Spec.relOf d fpx fpy fpz fsrc fdst))

theorem join0V_coords :
    iprop(rem0 d fx fpx fpy fpz ∗ bigSep (Finset.univ : Finset grid0.Coords) fun L => K0Spec.td0V (tileShare L) d L fx fpx fpy fpz fsrc fdst)
      ⊢ whole0V d fx fpx fpy fpz fsrc fdst := by
  unfold whole0V rem0 K0Spec.td0V
  simp only [bigSep_sep']
  rw [blocks_eq (ℓ := xiLoc d) (fun L => (outBlk L).set) outBlk_disjoint outBlk_cover,
    blocks_eq (ℓ := xjLoc d) (fun L => (outBlk L).set) outBlk_disjoint outBlk_cover,
    blocks_eq (ℓ := relLoc d) (fun L => (relBlk L).set) relBlk_disjoint relBlk_cover, src_blocks, dst_blocks]
  iintro ⟨⟨Hxr, Hpxr, Hpyr, Hpzr⟩, Hxt, Hpxt, Hpyt, Hpzt, Hs, Hd, Hxi, Hxj, Hrel⟩
  isplitl [Hxr Hxt]; · iapply (toks_tiles Finset.univ fx).2; iframe
  isplitl [Hpxr Hpxt]; · iapply (toks_tiles Finset.univ fpx).2; iframe
  isplitl [Hpyr Hpyt]; · iapply (toks_tiles Finset.univ fpy).2; iframe
  isplitl [Hpzr Hpzt]; · iapply (toks_tiles Finset.univ fpz).2; iframe
  iframe

end Call0

section Call2

variable (d : Dev nD)
variable (fmt : Buf (Elt F) (mtLoc d)) (fdst : Buf (Elt F) (K2Body.dstLoc d)) (fz : Buf (Elt F) (zpkLoc d)) (hok : K2Body.DstOK fdst)

def whole2V : sProp 𝕄 :=
  iprop((mtLoc d ↦{fullShare} fmt) ∗ (K2Body.dstLoc d ↦{fullShare} fdst) ∗ (zpkLoc d ↦{fullShare} fz)
    ∗ partsLoc d ↦{fullShare} K2Spec.partsOf d fmt fdst fz hok)

theorem join2V_coords :
    iprop(rem2 d fmt fdst fz ∗ bigSep (Finset.univ : Finset grid2.Coords) fun L =>
        K2Spec.td2V d fmt fdst fz hok (tileShare2 L) (tileShare2 L) (tileShare2 L) L)
      ⊢ whole2V d fmt fdst fz hok := by
  unfold whole2V rem2 K2Spec.td2V
  simp only [bigSep_sep']
  rw [blocks_eq (ℓ := partsLoc d) partsSet partsSet_disjoint' partsSet_cover]
  iintro ⟨⟨Hmr, Hdr, Hzr⟩, Hmt, Hdt, Hzt, Hp⟩
  isplitl [Hmr Hmt]; · iapply (toks_tiles Finset.univ fmt).2; iframe
  isplitl [Hdr Hdt]; · iapply (toks_tiles Finset.univ fdst).2; iframe
  isplitl [Hzr Hzt]; · iapply (toks_tiles Finset.univ fz).2; iframe
  iexact Hp

end Call2

section At

variable (m : (ℓ : Loc nD τ sig) → Buf (Elt F) ℓ) (fmtOf : (d : Dev nD) → Buf (Elt F) (K2Body.mtLoc d))
variable (hok : ∀ d : Dev nD, K2Body.DstOK (d := d) (Wh m d main_v20)) (d : Dev nD)

def whole0AtV : sProp 𝕄 :=
  whole0V d (Wh m d main_arg0) (Wh m d main_v2) (Wh m d main_v5) (Wh m d main_v8) (Wh m d main_v15) (Wh m d main_v18)

theorem join0V :
    iprop(rem0At m d ∗ bigSep Finset.univ fun c : Fin (grid0.bound 0) => bigSep Finset.univ fun i : Fin (grid0.bound 1) => td0AtV m d c i) ⊢ whole0AtV m d := by
  unfold whole0AtV rem0At
  refine (Entails.of_eq ?_).trans (join0V_coords d _ _ _ _ _ _)
  rw [bigSep_coords]
  rfl

def whole2AtV : sProp 𝕄 := whole2V d (fmtOf d) (Wh m d main_v20) (Wh m d main_v21) (hok d)

theorem split2V :
    whole2At m d (fmtOf d) ⊢ iprop(rem2At m d (fmtOf d) ∗ bigSep Finset.univ fun c : Fin (grid2.bound 0) => bigSep Finset.univ fun i : Fin (grid2.bound 1) => go2AtV m fmtOf d c i) := by
  unfold whole2At rem2At
  refine (split2_coords d (fmtOf d) _ _).trans (Entails.of_eq ?_)
  rw [bigSep_coords]
  rfl

theorem join2V :
    iprop(rem2At m d (fmtOf d) ∗ bigSep Finset.univ fun c : Fin (grid2.bound 0) => bigSep Finset.univ fun i : Fin (grid2.bound 1) => td2AtV m fmtOf hok d c i)
      ⊢ whole2AtV m fmtOf hok d := by
  unfold whole2AtV rem2At
  refine (Entails.of_eq ?_).trans (join2V_coords d (fmtOf d) _ _ (hok d))
  rw [bigSep_coords]
  rfl

end At

end Cert.Proof.KI.TilesV

end
-- ==== Proof.KI.CallsV.lean ====
import proofs.«205084_g25537875542483_cont_9to1_419_23_alg».proof.Proof.KI.Calls
import proofs.«205084_g25537875542483_cont_9to1_419_23_alg».proof.Proof.KI.PayV
import proofs.«205084_g25537875542483_cont_9to1_419_23_alg».proof.Proof.KI.TilesV

noncomputable section

namespace Cert.Proof.KI.CallsV

open Cert.KernelIdeal Cert.KernelIdeal.Gen Cert.Proof.KI Cert.Proof.KI.Calls

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (m : (ℓ : Loc nD τ sig) → Buf (Elt F) ℓ) (fmtOf : (d : Dev nD) → Buf (Elt F) (K2Body.mtLoc d))
variable (hok : ∀ d : Dev nD, K2Body.DstOK (d := d) (Wh m d main_v20))

def Wc0V (d : Dev nD) : Valuation τ sig (Elt F) := Wc0 m d (xiAt m d) (xjAt m d) (relAt m d)

theorem st0V_eq (d : Dev nD) :
    (bigSep Finset.univ fun c : Fin ((K (F := F)).nCore 0) => (PV m fmtOf hok).st 0 d c)
      = bigSep Finset.univ fun c : Fin (grid0.bound 0) => bigSep Finset.univ fun i : Fin (grid0.bound 1) => go0At m d c i := rfl
theorem dn0V_eq (d : Dev nD) :
    (bigSep Finset.univ fun c : Fin ((K (F := F)).nCore 0) => (PV m fmtOf hok).dn 0 d c)
      = bigSep Finset.univ fun c : Fin (grid0.bound 0) => bigSep Finset.univ fun i : Fin (grid0.bound 1) => td0AtV m d c i := rfl
theorem st1V_eq (d : Dev nD) :
    (bigSep Finset.univ fun c : Fin ((K (F := F)).nCore 1) => (PV m fmtOf hok).st 1 d c)
      = bigSep Finset.univ fun c : Fin (grid2.bound 0) => bigSep Finset.univ fun i : Fin (grid2.bound 1) => go2AtV m fmtOf d c i := rfl
theorem dn1V_eq (d : Dev nD) :
    (bigSep Finset.univ fun c : Fin ((K (F := F)).nCore 1) => (PV m fmtOf hok).dn 1 d c)
      = bigSep Finset.univ fun c : Fin (grid2.bound 0) => bigSep Finset.univ fun i : Fin (grid2.bound 1) => td2AtV m fmtOf hok d c i := rfl

theorem call0_stepV (κ : GSem nD τ sig → ℕ) (d : Dev nD) {α : Type}
    (k : PUnit → Prog (TpuEff nD τ sig (Elt F) (SparseCore.Sig (ΛP (F := F)) 2) .tc) α) (Q : α → sProp 𝕄) :
    iprop((K (F := F)).ctx EH (PV m fmtOf hok) κ ∗ (K (F := F)).tcSt EH d 0 ∗ held (T d) (Pipeline.ucRefs τ sig) (Wh m d)
        ∗ (iprop((K (F := F)).tcSt EH d 1 ∗ held (T d) (Pipeline.ucRefs τ sig) (Wc0V m d))
            -∗ wp frame (wpE ((K (F := F)).defs (D (F := F))) 𝒱 (T d) none) Set.univ (k ⟨⟩) Q))
      ⊢ wp frame (wpE ((K (F := F)).defs (D (F := F))) 𝒱 (T d) none) Set.univ ((K (F := F)).run d 0 >>= k) Q := by
  have hsp : iprop((K0Body.xLoc d ↦{fullShare} Wh m d x') ∗ (K0Body.pxLoc d ↦{fullShare} Wh m d px') ∗ (K0Body.pyLoc d ↦{fullShare} Wh m d py')
        ∗ (K0Body.pzLoc d ↦{fullShare} Wh m d pz') ∗ (K0Body.srcLoc d ↦{fullShare} Wh m d src') ∗ (K0Body.dstLoc d ↦{fullShare} Wh m d dst')
        ∗ (∃ f, K0Body.xiLoc d ↦{fullShare} f) ∗ (∃ f, K0Body.xjLoc d ↦{fullShare} f) ∗ (∃ f, K0Body.relLoc d ↦{fullShare} f))
      ⊢ (iprop(Tiles.rem0At m d ∗ bigSep Finset.univ fun c : Fin (grid0.bound 0) => bigSep Finset.univ fun i : Fin (grid0.bound 1) => go0At m d c i) : sProp 𝕄) := by
    have h := Tiles.split0 m d
    unfold Tiles.whole0At Tiles.whole0 at h
    exact h
  have hjn : (iprop(Tiles.rem0At m d ∗ bigSep Finset.univ fun c : Fin (grid0.bound 0) => bigSep Finset.univ fun i : Fin (grid0.bound 1) => td0AtV m d c i) : sProp 𝕄)
      ⊢ iprop((K0Body.xLoc d ↦{fullShare} Wh m d x') ∗ (K0Body.pxLoc d ↦{fullShare} Wh m d px') ∗ (K0Body.pyLoc d ↦{fullShare} Wh m d py')
        ∗ (K0Body.pzLoc d ↦{fullShare} Wh m d pz') ∗ (K0Body.srcLoc d ↦{fullShare} Wh m d src') ∗ (K0Body.dstLoc d ↦{fullShare} Wh m d dst')
        ∗ (K0Body.xiLoc d ↦{fullShare} xiAt m d) ∗ (K0Body.xjLoc d ↦{fullShare} xjAt m d) ∗ (K0Body.relLoc d ↦{fullShare} relAt m d)) := by
    have h := TilesV.join0V m d
    unfold TilesV.whole0AtV TilesV.whole0V at h
    exact h
  rw [wp_bind]
  iintro ⟨#Hctx, Hst, Hheld, Hk⟩
  ihave Hh := (Entails.of_eq (StableHlo.held_sub_split (T d) S9_sub (Wh m d))) $$ Hheld
  icases Hh with ⟨H9, Hrest⟩
  ihave H9' := (Entails.of_eq (held_S9 d (Wh m d))) $$ H9
  icases H9' with ⟨Hx, Hpx, Hpy, Hpz, Hs, Hd, Hxi, Hxj, Hrel⟩
  ihave Hsp := hsp $$ [Hx Hpx Hpy Hpz Hs Hd Hxi Hxj Hrel]
  · iframe
    isplitl [Hxi]; · iexists _; iexact Hxi
    isplitl [Hxj]; · iexists _; iexact Hxj
    iexists _; iexact Hrel
  icases Hsp with ⟨Hrem, Hgo⟩
  iapply ((K (F := F)).wp_run (D (F := F)) 𝒱 (EH := EH) (P := PV m fmtOf hok) κ d 0) $$ [Hst Hgo Hrem Hrest Hk]
  isplitr; · iexact Hctx
  isplitl [Hst]; · iexact Hst
  isplitl [Hgo]; · rw [st0V_eq]; iexact Hgo
  iintro ⟨Hst, Hdn⟩
  ihave Hdn' := (Entails.of_eq (dn0V_eq m fmtOf hok d)) $$ Hdn
  ihave Hj := hjn $$ [Hrem Hdn']
  · iframe
  icases Hj with ⟨Hx, Hpx, Hpy, Hpz, Hs, Hd, Hxi, Hxj, Hrel⟩
  iapply Hk
  isplitl [Hst]; · iexact Hst
  unfold Wc0V
  rw [StableHlo.held_sub_split (T d) S9_sub (Wc0 m d (xiAt m d) (xjAt m d) (relAt m d)), held_S9,
    ← StableHlo.held_congr (T d) (V := Wh m d) (V' := Wc0 m d (xiAt m d) (xjAt m d) (relAt m d)) (S := Pipeline.ucRefs τ sig \ S9) fun b hb => by
      have hb' := (Finset.mem_sdiff.1 hb).2
      simp only [S9, Finset.mem_insert, Finset.mem_singleton, not_or] at hb'
      exact (Wc0_of_ne' m d _ _ _ b hb'.2.2.2.2.2.2.1 hb'.2.2.2.2.2.2.2.1 hb'.2.2.2.2.2.2.2.2).symm,
    Wc0_of_ne' m d _ _ _ x' (by decide) (by decide) (by decide), Wc0_of_ne' m d _ _ _ px' (by decide) (by decide) (by decide),
    Wc0_of_ne' m d _ _ _ py' (by decide) (by decide) (by decide), Wc0_of_ne' m d _ _ _ pz' (by decide) (by decide) (by decide),
    Wc0_of_ne' m d _ _ _ src' (by decide) (by decide) (by decide), Wc0_of_ne' m d _ _ _ dst' (by decide) (by decide) (by decide),
    Wc0_xi, Wc0_xj, Wc0_rel]
  iframe

theorem call1_stepV (κ : GSem nD τ sig → ℕ) (d : Dev nD) (W : Valuation τ sig (Elt F))
    (h44 : W (Proc.devRef .tc main_v44) = fmtOf d)
    (h20 : W (Proc.devRef .tc main_v20) = Wh m d main_v20) (h21 : W (Proc.devRef .tc main_v21) = Wh m d main_v21) {α : Type}
    (k : PUnit → Prog (TpuEff nD τ sig (Elt F) (SparseCore.Sig (ΛP (F := F)) 2) .tc) α) (Q : α → sProp 𝕄) :
    iprop((K (F := F)).ctx EH (PV m fmtOf hok) κ ∗ (K (F := F)).tcSt EH d 1 ∗ held (T d) (Pipeline.ucRefs τ sig) W
        ∗ (iprop((K (F := F)).tcSt EH d 2 ∗ held (T d) (Pipeline.ucRefs τ sig) (Function.update W parts' (partsAt m fmtOf hok d)))
            -∗ wp frame (wpE ((K (F := F)).defs (D (F := F))) 𝒱 (T d) none) Set.univ (k ⟨⟩) Q))
      ⊢ wp frame (wpE ((K (F := F)).defs (D (F := F))) 𝒱 (T d) none) Set.univ ((K (F := F)).run d 1 >>= k) Q := by
  have hsp : iprop((K2Body.mtLoc d ↦{fullShare} fmtOf d) ∗ (K2Body.dstLoc d ↦{fullShare} Wh m d main_v20) ∗ (K2Body.zpkLoc d ↦{fullShare} Wh m d main_v21)
        ∗ ∃ f, K2Body.partsLoc d ↦{fullShare} f)
      ⊢ (iprop(Tiles.rem2At m d (fmtOf d) ∗ bigSep Finset.univ fun c : Fin (grid2.bound 0) => bigSep Finset.univ fun i : Fin (grid2.bound 1) => go2AtV m fmtOf d c i) : sProp 𝕄) := by
    have h := TilesV.split2V m fmtOf d
    unfold Tiles.whole2At Tiles.whole2 at h
    exact h
  have hjn : (iprop(Tiles.rem2At m d (fmtOf d) ∗ bigSep Finset.univ fun c : Fin (grid2.bound 0) => bigSep Finset.univ fun i : Fin (grid2.bound 1) => td2AtV m fmtOf hok d c i) : sProp 𝕄)
      ⊢ iprop((K2Body.mtLoc d ↦{fullShare} fmtOf d) ∗ (K2Body.dstLoc d ↦{fullShare} Wh m d main_v20) ∗ (K2Body.zpkLoc d ↦{fullShare} Wh m d main_v21)
        ∗ K2Body.partsLoc d ↦{fullShare} partsAt m fmtOf hok d) := by
    have h := TilesV.join2V m fmtOf hok d
    unfold TilesV.whole2AtV TilesV.whole2V at h
    exact h
  have e4 : ∀ W' : Valuation τ sig (Elt F), W' mt' = fmtOf d → W' tg' = Wh m d main_v20 → W' zb' = Wh m d main_v21 →
      (held (T d) S4 W' : sProp 𝕄) = iprop((K2Body.mtLoc d ↦{fullShare} fmtOf d) ∗ (K2Body.dstLoc d ↦{fullShare} Wh m d main_v20)
        ∗ (K2Body.zpkLoc d ↦{fullShare} Wh m d main_v21) ∗ (K2Body.partsLoc d ↦{fullShare} W' parts')) := by
    intro W' e44 e20 e21
    rw [held_S4, e44, e20, e21]
  rw [wp_bind]
  iintro ⟨#Hctx, Hst, Hheld, Hk⟩
  ihave Hh := (Entails.of_eq (StableHlo.held_sub_split (T d) S4_sub W)) $$ Hheld
  icases Hh with ⟨H4, Hrest⟩
  ihave H4' := (Entails.of_eq (e4 W h44 h20 h21)) $$ H4
  icases H4' with ⟨Hm, Hd, Hz, Hp⟩
  ihave Hsp := hsp $$ [Hm Hd Hz Hp]
  · iframe; iexists _; iexact Hp
  icases Hsp with ⟨Hrem, Hgo⟩
  iapply ((K (F := F)).wp_run (D (F := F)) 𝒱 (EH := EH) (P := PV m fmtOf hok) κ d 1) $$ [Hst Hgo Hrem Hrest Hk]
  isplitr; · iexact Hctx
  isplitl [Hst]; · iexact Hst
  isplitl [Hgo]; · rw [st1V_eq]; iexact Hgo
  iintro ⟨Hst, Hdn⟩
  ihave Hdn' := (Entails.of_eq (dn1V_eq m fmtOf hok d)) $$ Hdn
  ihave Hj := hjn $$ [Hrem Hdn']
  · iframe
  icases Hj with ⟨Hm, Hd, Hz, Hp⟩
  iapply Hk
  isplitl [Hst]; · iexact Hst
  rw [StableHlo.held_sub_split (T d) S4_sub (Function.update W parts' (partsAt m fmtOf hok d)),
    e4 (Function.update W parts' (partsAt m fmtOf hok d)) ((Function.update_of_ne (show mt' ≠ parts' by decide) _ _).trans h44)
      ((Function.update_of_ne (show tg' ≠ parts' by decide) _ _).trans h20)
      ((Function.update_of_ne (show zb' ≠ parts' by decide) _ _).trans h21),
    ← StableHlo.held_congr (T d) (V := W) (V' := Function.update W parts' (partsAt m fmtOf hok d)) (S := Pipeline.ucRefs τ sig \ S4) fun b hb => by
      have hb' := (Finset.mem_sdiff.1 hb).2
      simp only [S4, Finset.mem_insert, Finset.mem_singleton, not_or] at hb'
      exact (Function.update_of_ne hb'.2.2.2 _ _).symm,
    Function.update_self]
  iframe

end Cert.Proof.KI.CallsV

end
-- ==== Proof.KI.MainV.lean ====
import proofs.«205084_g25537875542483_cont_9to1_419_23_alg».proof.Proof.KI.ValsV
import proofs.«205084_g25537875542483_cont_9to1_419_23_alg».proof.Proof.KI.CallsV

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)
variable (hok : ∀ d : Dev nD, K2Body.DstOK (d := d) (Wh m d main_v20))

def FINV (d : Dev nD) : sProp 𝕄 := StableHlo.held (T d) (Pipeline.ucRefs τ sig) (Wr3V m hok d)

set_option backward.isDefEq.respectTransparency.types false in
theorem hmainV [∀ e, Nonempty (Elt F e)] (κ : GSem nD τ sig → ℕ) (d : Dev nD) :
    iprop((K (F := F)).ctx EH (PV m (fmtV m) hok) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FINV m hok d) := by
  unfold SparseCore.Cfg.tcRes
  rw [show unscopedBufs d (fun b => m ((SparseCore.T d).loc b)) = StableHlo.held (SparseCore.T d) (Pipeline.ucRefs τ sig) (W0 m d)
    from Pipeline.unscopedBufs_held d (W0 m d)]
  rw [IdxRange.main_pre_eq, G_eq]
  iintro ⟨#Hctx, Hst, ⟨Hb, Hheld, Hsems, Hprng⟩, ⟨Hg0, Ht0⟩, ⟨Hg1, Ht1⟩⟩
  have hlev : (K (F := F)).ctx EH (PV m (fmtV m) hok) κ ⊢ (levAts (K (F := F)).L (K (F := F)).lev : sProp 𝕄) := SparseCore.Cfg.ctx_levAts κ
  ihave Hlv1 := hlev $$ Hctx
  ihave Hlv3 := hlev $$ Hctx
  iapply (StableHlo.wp_seq (defs := (K (F := F)).defs (D (F := F))) 𝒱 none Set.univ d (Pipeline.ucRefs τ sig) (fun _ => IdxRange.mainCalls d)
    (IdxRange.hostPre (F := F)) IdxRange.hostPre_sub_uc IdxRange.hostPre_fresh_mem (W0 m d)) $$ [Hb Hheld]
  · isplitl [Hb] <;> iassumption
  iintro ⟨Hb, Hheld⟩
  unfold IdxRange.mainCalls
  iapply (CallsV.call0_stepV m (fmtV m) hok κ d _ _)
  isplitr; · iexact Hctx
  isplitl [Hst]; · iexact Hst
  isplitl [Hheld]; · iexact Hheld
  iintro ⟨Hst, Hheld⟩
  iapply (region1_step d (CallsV.Wc0V m d) _ _)
  iframe Hlv1 Hb Hheld Hg0 Ht0
  isplitl [Hst]; · iexact Hst
  iintro ⟨Hst, Hb, Hheld⟩
  iapply (CallsV.call1_stepV m (fmtV m) hok κ d (Wr1 m d (xiAt m d) (xjAt m d) (relAt m d)) rfl
    (by show exit1 _ _ _ d (Proc.devRef .tc main_v20) = _
        rw [exit1_of_ne _ _ _ d main_v20 (by decide), Calls.Wc0_of_ne m d _ _ _ main_v20 (by decide)])
    (by show exit1 _ _ _ d (Proc.devRef .tc main_v21) = _
        rw [exit1_of_ne _ _ _ d main_v21 (by decide), Calls.Wc0_of_ne m d _ _ _ main_v21 (by decide)]) _ _)
  isplitr; · iexact Hctx
  isplitl [Hst]; · iexact Hst
  isplitl [Hheld]; · iexact Hheld
  iintro ⟨Hst, Hheld⟩
  iapply (region3_step d (Wc1V m hok d) _ _)
  iframe Hlv3 Hb Hheld Hg1 Ht1
  isplitl [Hst]; · iexact Hst
  iintro ⟨Hst, Hb, Hheld⟩
  rw [show ((Prog.ret PUnit.unit).bind fun _ => (Pure.pure PUnit.unit : Prog (TpuEff nD τ sig (Elt F) (SparseCore.Sig (ΛP (F := F)) 2) .tc) PUnit))
      = Pure.pure PUnit.unit from rfl, wp_pure]
  imodintro
  isplitl [Hst]; · iexact Hst
  unfold FINV
  iexact Hheld

def fqV (d : Dev nD) (s' : Phys nD τ sig (Elt F)) : Prop :=
  ∀ b ∈ Pipeline.ucRefs τ sig, s'.mem.mem ((d, b) : Loc nD τ sig) = Wr3V m hok d b

theorem hfinV (d : Dev nD) (s' : Phys nD τ sig (Elt F)) : iprop(FINV m hok d ∗ SI s') ⊢ (⌜fqV m hok d s'⌝ : sProp 𝕄) := by
  unfold FINV
  iintro ⟨Hh, HSI⟩
  unfold StableHlo.held
  have hread : iprop((bigSep (Pipeline.ucRefs τ sig) fun b => (((d, b) : Loc nD τ sig) ↦{fullShare} Wr3V m hok d b : sProp 𝕄)) ∗ SI s')
      ⊢ iprop(⌜∀ b ∈ Pipeline.ucRefs τ sig, s'.mem.mem ((d, b) : Loc nD τ sig) = Wr3V m hok d b⌝ ∗ SI s') :=
    pointsTo_read_all (Pipeline.ucRefs τ sig) (fun b => ((d, b) : Loc nD τ sig)) (Wr3V m hok d) s'
  ihave H := hread $$ [Hh HSI]
  · isplitl [Hh] <;> iassumption
  icases H with ⟨%h, -⟩
  ipureintro; exact h

def QCV : PUnit × MemSt nD τ sig (Elt F) → Prop :=
  fun r => ∀ c : Dev nD, r.2.mem (c, Proc.devRef .tc main_v46) = kernelOut m hok c
    ∧ ∀ b ∈ argRefs, r.2.mem (c, Proc.devRef .tc b) = m (c, Proc.devRef .tc b)

theorem hu₀V : iprop(ownU (u₀ (F := F)) ∗ (PV (F := F) m (fmtV m) hok).oxCred ∗ (K (F := F)).freeSems0) ⊢ |={Set.univ}=> iprop(BI.own (EH (initOf (K (F := F)).hsCells (K (F := F)).hsToks))
    ∗ (bigSep Finset.univ fun d : Dev nD => G (F := F) d)
    ∗ bigSep Finset.univ fun thr : Thread nD τ => bigSep Finset.univ fun q : Fin 2 => (PV (F := F) m (fmtV m) hok).x q thr) := by
  have h0 := hu₀ (F := F)
  iintro ⟨Hu, -, -⟩
  imod h0 $$ Hu with ⟨HH, HG⟩
  imodintro
  isplitl [HH]; · iexact HH
  isplitl [HG]; · iexact HG
  unfold PV; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

theorem run_mainV [∀ e, Nonempty (Elt F e)] (hpre : ∀ d : Dev nD, IdxRange.PreAt m d)
    (hb : ∀ (q : PosShare TreeShare) (d : Dev nD) (L : grid0.Coords) (fx : Buf (Elt F) (K0Body.xLoc d)) (fpx : Buf (Elt F) (K0Body.pxLoc d))
      (fpy : Buf (Elt F) (K0Body.pyLoc d)) (fpz : Buf (Elt F) (K0Body.pzLoc d)) (fsrc : Buf (Elt F) (K0Body.srcLoc d)) (fdst : Buf (Elt F) (K0Body.dstLoc d)),
      K0Spec.Body0V q d L fx fpx fpy fpz fsrc fdst) :
    θ_run (Cert.KernelIdeal.defs (F := F)) (Cert.KernelIdeal.threads (F := F)) ⟨m, fun _ => 0, ρ⟩ (QCV m hok) :=
  SparseCore.Cfg.θ_run_sc (K := K (F := F)) (D := D (F := F)) (𝒱 := 𝒱) (EH := EH) (P := PV m (fmtV m) hok) facts v₀
    (fun q hq => match q with | 0 => nomatch hq | 1 => nomatch hq)
    (fun q _ => match q with | 0 => tileObl0V m (fmtV m) hok hpre hb | 1 => tileObl1V m (fmtV m) hok)
    (fun q _ => match q with | 0 => SparseCore.Cfg.VecSplit.of_plain (vecSplit0V m (fmtV m) hok) | 1 => SparseCore.Cfg.VecSplit.of_plain (vecSplit1V m (fmtV m) hok))
    m ρ main (fun d => G (F := F) d) (FINV m hok) (u₀ (F := F)) (hu₀V m hok) (hmainV m ρ hok) (fqV m hok) (hfinV m hok) (QCV m hok)
    (fun s' h c => ⟨h c _ ((by decide : (Proc.devRef .tc main_v46 : DevRef τ sig) ∈ Pipeline.ucRefs τ sig)),
      fun b hb => (h c _ ((by decide : ∀ b ∈ argRefs, (Proc.devRef .tc b : DevRef τ sig) ∈ Pipeline.ucRefs τ sig) b hb)).trans (Wr3_arg m c _ _ _ _ b hb)⟩)

end Cert.Proof.KI

end
-- ==== Proof.KI.K0BodyV.lean ====
import proofs.«205084_g25537875542483_cont_9to1_419_23_alg».proof.Proof.KI.K0Spec
import Idealize.ShloMosaic.Lib.Writes

noncomputable section

namespace Cert.Proof.KI.K0BodyV

open Cert.KernelIdeal Cert.KernelIdeal.Gen Cert.Proof.KI
open Cert.Proof.KI.K0Body Cert.Proof.KI.K0Spec

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "xV" => (Memref.whole Cert.KernelIdeal.main_arg0_scv : Memref Cert.KernelIdeal.sig Kind.scVector Space.hbm Cert.KernelIdeal.S10000x128 EltTy.f32)
local notation "srcV" => (Memref.whole Cert.KernelIdeal.main_v15_scv : Memref Cert.KernelIdeal.sig Kind.scVector Space.hbm Cert.KernelIdeal.S32x80x128 EltTy.i32)
local notation "dstV" => (Memref.whole Cert.KernelIdeal.main_v18_scv : Memref Cert.KernelIdeal.sig Kind.scVector Space.hbm Cert.KernelIdeal.S32x80x128 EltTy.i32)
local notation "xiV" => (Memref.whole Cert.KernelIdeal.main_v43_0_scv : Memref Cert.KernelIdeal.sig Kind.scVector Space.hbm Cert.KernelIdeal.S327680x128 EltTy.f32)
local notation "xjV" => (Memref.whole Cert.KernelIdeal.main_v43_1_scv : Memref Cert.KernelIdeal.sig Kind.scVector Space.hbm Cert.KernelIdeal.S327680x128 EltTy.f32)
local notation "relV" => (Memref.whole Cert.KernelIdeal.main_v43_2_scv : Memref Cert.KernelIdeal.sig Kind.scVector Space.hbm Cert.KernelIdeal.S20480x16 EltTy.f32)
local notation "iaV" => (Memref.whole Cert.KernelIdeal.cc0_scratch0 : Memref Cert.KernelIdeal.sig Kind.scVector Space.vmem Cert.KernelIdeal.S128 EltTy.i32)
local notation "ibV" => (Memref.whole Cert.KernelIdeal.cc0_scratch1 : Memref Cert.KernelIdeal.sig Kind.scVector Space.vmem Cert.KernelIdeal.S128 EltTy.i32)
local notation "raV" => (Memref.whole Cert.KernelIdeal.cc0_scratch2 : Memref Cert.KernelIdeal.sig Kind.scVector Space.vmem Cert.KernelIdeal.S128x128 EltTy.f32)
local notation "rbV" => (Memref.whole Cert.KernelIdeal.cc0_scratch3 : Memref Cert.KernelIdeal.sig Kind.scVector Space.vmem Cert.KernelIdeal.S128x128 EltTy.f32)
local notation "rvV" => (Memref.whole Cert.KernelIdeal.cc0_scratch4 : Memref Cert.KernelIdeal.sig Kind.scVector Space.vmem Cert.KernelIdeal.S8x16 EltTy.f32)
local notation "pxS" => (Memref.whole Cert.KernelIdeal.cc0_scratch5 : Memref Cert.KernelIdeal.sig Kind.scVector Space.vmem Cert.KernelIdeal.S10112 EltTy.f32)
local notation "pyS" => (Memref.whole Cert.KernelIdeal.cc0_scratch6 : Memref Cert.KernelIdeal.sig Kind.scVector Space.vmem Cert.KernelIdeal.S10112 EltTy.f32)
local notation "pzS" => (Memref.whole Cert.KernelIdeal.cc0_scratch7 : Memref Cert.KernelIdeal.sig Kind.scVector Space.vmem Cert.KernelIdeal.S10112 EltTy.f32)

section Done

variable (L : grid0.Coords)

def DoneOut (n : ℕ) (f g : S327680x128.Idx → F .f32) : Prop :=
  ∀ i : S327680x128.Idx, 10240 * wid L ≤ (i 0).val ∧ (i 0).val < 10240 * wid L + 128 * n → f i = g i
def DoneRel (n : ℕ) (f g : S20480x16.Idx → F .f32) : Prop :=
  ∀ i : S20480x16.Idx, 640 * wid L ≤ (i 0).val ∧ (i 0).val < 640 * wid L + 8 * n → f i = g i

theorem trips_eq : k0_t1_loop.trips = 80 := by decide

-- Overwriting a rectangle with the target's values keeps what agreed with the target and adds the rectangle.
theorem done_step {s : Shape} {α : Type} (R : Rect s) (P P' : s.Idx → Prop) (I : Finset s.Idx) {dI : ∀ j, Decidable (j ∈ I)} (hI : I = R.set)
    (f g tgt : s.Idx → α) (hdone : ∀ i, P i → f i = tgt i) (hrow : ∀ y, g (R.emb y) = tgt (R.emb y))
    (hP : ∀ i, P' i → i ∉ R.set → P i) (i : s.Idx) (h : P' i) : (@Finset.piecewise _ _ I g f dI) i = tgt i := by
  subst hI
  by_cases hi : i ∈ R.set
  · rw [Finset.piecewise_eq_of_mem _ _ _ hi]
    obtain ⟨y, rfl⟩ := R.exists_idx_of_mem hi
    exact hrow y
  · rw [Finset.piecewise_eq_of_notMem _ _ _ hi]
    exact hdone i (hP i h hi)

theorem doneOut_step (k : Fin k0_t1_loop.trips) (I : Finset S327680x128.Idx) {dI : ∀ j, Decidable (j ∈ I)} (hI : I = (outRect L k).set)
    (f g tgt : S327680x128.Idx → F .f32) (hdone : DoneOut L k.val f tgt)
    (hrow : ∀ y : S128x128.Idx, g ((outRect L k).emb y) = tgt ((outRect L k).emb y)) :
    DoneOut L (k.val + 1) (@Finset.piecewise _ _ I g f dI) tgt := by
  unfold DoneOut at hdone ⊢
  refine done_step (outRect L k) _ _ I hI f g tgt hdone hrow ?_
  rintro i ⟨h1, h2⟩ hi
  refine ⟨h1, ?_⟩
  by_contra hlt
  refine hi (Rect.mem_set_unit.mpr fun a => ?_)
  rw [k0_off3_eq]
  have hw : wid L = 16 * (L 0).val + (L 1).val := rfl
  match a with
  | ⟨0, _⟩ => exact ⟨by show 163840 * (L 0).val + 10240 * (L 1).val + 128 * k.val ≤ (i 0).val; omega,
      by show (i 0).val < 163840 * (L 0).val + 10240 * (L 1).val + 128 * k.val + 128; omega⟩
  | ⟨1, _⟩ => exact ⟨Nat.zero_le _, by show (i 1).val < 0 + 128; have := (i 1).isLt; have : S327680x128.size 1 = 128 := rfl; omega⟩

theorem doneRel_step (k : Fin k0_t1_loop.trips) (I : Finset S20480x16.Idx) {dI : ∀ j, Decidable (j ∈ I)} (hI : I = (relRect L k).set)
    (f g tgt : S20480x16.Idx → F .f32) (hdone : DoneRel L k.val f tgt)
    (hrow : ∀ y : S8x16.Idx, g ((relRect L k).emb y) = tgt ((relRect L k).emb y)) :
    DoneRel L (k.val + 1) (@Finset.piecewise _ _ I g f dI) tgt := by
  unfold DoneRel at hdone ⊢
  refine done_step (relRect L k) _ _ I hI f g tgt hdone hrow ?_
  rintro i ⟨h1, h2⟩ hi
  refine ⟨h1, ?_⟩
  by_contra hlt
  refine hi (Rect.mem_set_unit.mpr fun a => ?_)
  rw [k0_off2_eq]
  have hw : wid L = 16 * (L 0).val + (L 1).val := rfl
  match a with
  | ⟨0, _⟩ => exact ⟨by show 10240 * (L 0).val + 640 * (L 1).val + 8 * k.val ≤ (i 0).val; omega,
      by show (i 0).val < 10240 * (L 0).val + 640 * (L 1).val + 8 * k.val + 8; omega⟩
  | ⟨1, _⟩ => exact ⟨Nat.zero_le _, by show (i 1).val < 0 + 16; have := (i 1).isLt; have : S20480x16.size 1 = 16 := rfl; omega⟩

theorem doneOut_all (f g : S327680x128.Idx → F .f32) (h : DoneOut L k0_t1_loop.trips f g) : ∀ i ∈ (outBlk L).set, f i = g i := by
  intro i hi
  have h0 := (Rect.mem_set_unit.mp hi) 0
  rw [trips_eq] at h
  exact h i ⟨by have := h0.1; simpa using this, by have := h0.2; simp at this; omega⟩
theorem doneRel_all (f g : S20480x16.Idx → F .f32) (h : DoneRel L k0_t1_loop.trips f g) : ∀ i ∈ (relBlk L).set, f i = g i := by
  intro i hi
  have h0 := (Rect.mem_set_unit.mp hi) 0
  rw [trips_eq] at h
  exact h i ⟨by have := h0.1; simpa using this, by have := h0.2; simp at this; omega⟩

end Done

section Rows

variable [FloatOps F] (d : Dev nD) (L : grid0.Coords) (k : Fin k0_t1_loop.trips)

abbrev xSl : Memref sig .scVector .hbm S10000x128 .f32 :=
  (xV).slice (Rect.unit (s := S10000x128) ![0, 0] S10000x128.size inb_S10000x128_S10000x128_0_0) (fun _ => rfl)

theorem xSl_emb (z : S10000x128.Idx) : (xSl).view.emb z = z := by
  funext a; apply Fin.ext
  have h := Rect.emb_apply (Rect.unit (s := S10000x128) ![0, 0] S10000x128.size inb_S10000x128_S10000x128_0_0) z a
  show ((Rect.unit (s := S10000x128) ![0, 0] S10000x128.size inb_S10000x128_S10000x128_0_0).emb z a : ℕ) = _
  rw [h]
  match a with
  | ⟨0, _⟩ => show 0 + 1 * _ = _; omega
  | ⟨1, _⟩ => show 0 + 1 * _ = _; omega

theorem out_emb_0 (y : S128x128.Idx) : ((outRect L k).emb y 0 : ℕ) = 10240 * wid L + 128 * k.val + (y 0).val := by
  rw [Rect.emb_apply]
  show k0_off3 L k 0 + 1 * (y 0).val = _
  rw [k0_off3_eq]
  show 163840 * (L 0).val + 10240 * (L 1).val + 128 * k.val + 1 * (y 0).val = 10240 * (16 * (L 0).val + (L 1).val) + 128 * k.val + (y 0).val
  omega
theorem out_emb_1 (y : S128x128.Idx) : ((outRect L k).emb y 1 : ℕ) = (y 1).val := by
  rw [Rect.emb_apply]
  show k0_off3 L k 1 + 1 * (y 1).val = _
  rw [k0_off3_eq]
  show 0 + 1 * (y 1).val = _
  omega

-- A lane of trip k's row of an index array is the array's word at (tile, trip, lane).
theorem row_emb (x : S128.Idx) : (srcRect L k).emb (Shape.reshapeEquiv squeezes_S1x1x128_S128.numel_eq x)
    = ix3 (⟨wid L, wid_lt L⟩ : Fin 32) (⟨k.val, trip_lt k⟩ : Fin 80) (x 0) := by
  have hr : Shape.reshapeEquiv squeezes_S1x1x128_S128.numel_eq x = (ix3 (0 : Fin 1) (0 : Fin 1) (x 0) : S1x1x128.Idx) :=
    Shape.reshapeEquiv_eq_of_rowMajor _ (by
      rw [Shape.rowMajor_val_three, Shape.rowMajor_val_one]; simp)
  rw [hr]
  funext a; apply Fin.ext
  rw [Rect.emb_apply]
  show k0_off1 L k a + 1 * _ = _
  rw [k0_off1_eq]
  match a with
  | ⟨0, _⟩ => show 16 * (L 0).val + (L 1).val + 1 * 0 = wid L; unfold wid; omega
  | ⟨1, _⟩ => show k.val + 1 * 0 = k.val; omega
  | ⟨2, _⟩ => show 0 + 1 * (x 0).val = (x 0).val; omega

theorem srcRow_read (fsrc : Buf (Elt F) (srcLoc d)) (x : S128.Idx) : (srcRowK L k).view.read (Elt F) fsrc x
    = (fsrc : S32x80x128.Idx → BitVec 32) (ix3 (⟨wid L, wid_lt L⟩ : Fin 32) (⟨k.val, trip_lt k⟩ : Fin 80) (x 0)) := by
  refine (cast_eq _ _).trans (congrArg _ ?_)
  exact row_emb L k x
theorem dstRow_read (fdst : Buf (Elt F) (dstLoc d)) (x : S128.Idx) : (dstRowK L k).view.read (Elt F) fdst x
    = (fdst : S32x80x128.Idx → BitVec 32) (ix3 (⟨wid L, wid_lt L⟩ : Fin 32) (⟨k.val, trip_lt k⟩ : Fin 80) (x 0)) := by
  refine (cast_eq _ _).trans (congrArg _ ?_)
  exact row_emb L k x

-- What is read after a whole-view write is what was written.
theorem read_whole_writes {κ : Kind} {sp : Space} {s : Shape} {e : EltTy} (v : View sig κ sp s e) (f : v.ty.Contents (Elt F))
    (G : s.Idx → Elt F e) (y : s.Idx) : v.read (Elt F) (v.writes (Elt F) f [⟨Rect.whole s, G⟩]) y = G y :=
  (congrArg (fun z => View.read (Elt F) v (v.writes (Elt F) f [⟨Rect.whole s, G⟩]) z) (Rect.emb_whole_apply s y)).symm.trans
    (View.read_writes_cons_emb v f (Rect.whole s) G [] y)

theorem whole_write_read (b : Ref sig .scVector) (g pay : b.ty.Contents (Elt F)) (x : b.ty.shape.Idx) :
    (Memref.whole b).view.read (Elt F) (View.write (Elt F) (Memref.whole b).view g pay Finset.univ) x = pay x := by
  have h1 : View.write (Elt F) (Memref.whole b).view g pay Finset.univ = pay := View.write_whole_univ _ _ _
  rw [h1]; rfl

theorem whole_write_access (b : Ref sig .scVector) (g pay : b.ty.Contents (Elt F)) (z : b.ty.shape.Idx) :
    ((Memref.whole b).access (Rect.whole _)).read (Elt F) (View.write (Elt F) (Memref.whole b).view g pay Finset.univ) z = pay z := by
  have h1 : View.write (Elt F) (Memref.whole b).view g pay Finset.univ = pay := View.write_whole_univ _ _ _
  rw [h1]; exact congrFun (Memref.read_access_whole (Elt F) b _) z

-- The rows gathered through a trip's index words are the rows of x the trip's edges name.
theorem gather_val (fx : Buf (Elt F) (xLoc d)) (idx : S128.Idx → Elt F .i32) (hin : ∀ x, (idx x).toNat < 10000)
    (f : S32x80x128.Idx → BitVec 32) (hf : ∀ i, (f i).toNat < 10000)
    (hidx : ∀ x, idx x = f (ix3 (⟨wid L, wid_lt L⟩ : Fin 32) (⟨k.val, trip_lt k⟩ : Fin 80) (x 0)))
    (y : S128x128.Idx) (i : S327680x128.Idx) (hi0 : (i 0).val = 10240 * wid L + 128 * k.val + (y 0).val) (hi1 : (i 1).val = (y 1).val) :
    SparseCore.gatherPayload gathers_S10000x128_S128x128 ((xSl).view.read (Elt F) fx) (SparseCore.rows idx rfl hin) y
      = (fx : S10000x128.Idx → F .f32) (ix2 (rowOf (f (edgeIdx (i 0)))) (i 1)) := by
  show (xSl).view.read (Elt F) fx (gathers_S10000x128_S128x128.idx _ y) = _
  rw [View.read_apply, xSl_emb]
  refine (cast_eq _ _).trans ?_
  show (fx : S10000x128.Idx → F .f32) _ = (fx : S10000x128.Idx → F .f32) _
  congr 1
  funext a; apply Fin.ext
  match a with
  | ⟨1, _⟩ =>
    rw [Shape.Gathers.idx_of_ne _ _ _ _ (by exact Nat.one_ne_zero)]
    exact hi1.symm
  | ⟨0, _⟩ =>
    refine (congrArg Fin.val (Shape.Gathers.idx_axis gathers_S10000x128_S128x128 (SparseCore.rows idx rfl hin) y)).trans ?_
    set x' : S128.Idx := S128.rowMajor.symm ((y gathers_S10000x128_S128x128.axis').cast (rfl : S128x128.size gathers_S10000x128_S128x128.axis' = S128.numel)) with hx'
    have hx0 : (x' 0).val = (y 0).val := by
      have h := Shape.rowMajor_val_one (d := S128.size) x'
      rw [hx', Equiv.apply_symm_apply] at h
      exact h.symm
    show (idx x').toNat = _
    rw [hidx]
    have he : i 0 = (⟨10240 * wid L + 128 * k.val + (y 0).val, by
        have := wid_lt L; have := trip_lt k; have := (y 0).isLt; have : S128x128.size 0 = 128 := rfl; omega⟩ : Fin 327680) := Fin.ext hi0
    show _ = (rowOf (f (edgeIdx (i 0)))).val
    rw [he, edgeIdx_of (wid L) k.val (y 0).val (wid_lt L) (trip_lt k) (y 0).isLt, rowOf_val (hf _)]
    congr 2
    funext b
    match b with
    | ⟨0, _⟩ => rfl
    | ⟨1, _⟩ => rfl
    | ⟨2, _⟩ => exact Fin.ext hx0

theorem xi_wr (f0 : (xiRowK L k).view.ty.Contents (Elt F)) (P : S128x128.Idx → Elt F .f32) (y : S128x128.Idx) :
    ((xiRowK L k).view.writes (Elt F) f0 [⟨Rect.whole S128x128, P⟩] : S327680x128.Idx → F .f32) ((outRect L k).emb y) = P y := by
  have h := read_whole_writes (xiRowK L k).view f0 P y
  rw [View.read_apply] at h
  exact (cast_eq _ _).symm.trans h
theorem xj_wr (f0 : (xjRowK L k).view.ty.Contents (Elt F)) (P : S128x128.Idx → Elt F .f32) (y : S128x128.Idx) :
    ((xjRowK L k).view.writes (Elt F) f0 [⟨Rect.whole S128x128, P⟩] : S327680x128.Idx → F .f32) ((outRect L k).emb y) = P y := by
  have h := read_whole_writes (xjRowK L k).view f0 P y
  rw [View.read_apply] at h
  exact (cast_eq _ _).symm.trans h
theorem rel_wr (f0 : (relRowK L k).view.ty.Contents (Elt F)) (P : S8x16.Idx → Elt F .f32) (y : S8x16.Idx) :
    ((relRowK L k).view.writes (Elt F) f0 [⟨Rect.whole S8x16, P⟩] : S20480x16.Idx → F .f32) ((relRect L k).emb y) = P y := by
  have h := read_whole_writes (relRowK L k).view f0 P y
  rw [View.read_apply] at h
  exact (cast_eq _ _).symm.trans h

end Rows

section Rel

variable [FloatOps F] (d : Dev nD) (L : grid0.Coords) (k : Fin k0_t1_loop.trips)
variable (fpx : Buf (Elt F) (pxLoc d)) (fpy : Buf (Elt F) (pyLoc d)) (fpz : Buf (Elt F) (pzLoc d))
variable (fsrc : Buf (Elt F) (srcLoc d)) (fdst : Buf (Elt F) (dstLoc d))

-- The squared distances of sixteen pairs of endpoints, coordinate by coordinate from zero.
def dist (a1 a2 b1 b2 c1 c2 : Vec F S16 .f32) : FVec F S16 .f32 :=
  addf (addf (addf (broadcast S16 (Scalar.ofBits .f32 0x00000000#32 : F .f32)) (mulf (subf a1 a2) (subf a1 a2)))
    (mulf (subf b1 b2) (subf b1 b2))) (mulf (subf c1 c2) (subf c1 c2))

theorem dist_apply (a1 a2 b1 b2 c1 c2 : Vec F S16 .f32) (x : S16.Idx) :
    dist a1 a2 b1 b2 c1 c2 x = FloatOps.addf (FloatOps.addf (FloatOps.addf (Scalar.ofBits .f32 0x00000000#32 : F .f32)
      (FloatOps.mulf (FloatOps.subf (a1 x) (a2 x)) (FloatOps.subf (a1 x) (a2 x))))
      (FloatOps.mulf (FloatOps.subf (b1 x) (b2 x)) (FloatOps.subf (b1 x) (b2 x))))
      (FloatOps.mulf (FloatOps.subf (c1 x) (c2 x)) (FloatOps.subf (c1 x) (c2 x))) := rfl

-- Sixteen consecutive words read at offset o of an index row are the row's words at o, o + 1, ….
theorem lane_idx (m : Memref sig .scVector .vmem S128 .i32) (fo : m.view.ty.Contents (Elt F)) (f : S32x80x128.Idx → BitVec 32)
    (hfo : ∀ x, m.view.read (Elt F) fo x = f (ix3 (⟨wid L, wid_lt L⟩ : Fin 32) (⟨k.val, trip_lt k⟩ : Fin 80) (x 0)))
    (o : ℕ) (inb : ∀ a, (![o] : Fin 1 → ℕ) a + S16.size a ≤ S128.size a) (x : S16.Idx) (hl : o + (x 0).val < 128) :
    m.view.readAt (Elt F) (Rect.unit (s := S128) ![o] S16.size inb).toLoadRect fo x
      = f (ix3 (⟨wid L, wid_lt L⟩ : Fin 32) (⟨k.val, trip_lt k⟩ : Fin 80) (⟨o + (x 0).val, hl⟩ : Fin 128)) := by
  rw [View.readAt_apply, hfo]
  congr 1
  funext b
  match b with
  | ⟨0, _⟩ => rfl
  | ⟨1, _⟩ => rfl
  | ⟨2, _⟩ => exact Fin.ext (by show o + 1 * (x 0).val = o + (x 0).val; omega)

theorem loadIdx_node (P : S10112.Idx → F .f32) (w : IVec S16 32) (h : ∀ a x, ((![w] : Fin 1 → IVec S16 32) a x).toNat < S10112.size a)
    (x : S16.Idx) (u : BitVec 32) (hu : w x = u) : loadIdx (F := F) (e := .f32) P ![w] h x = P (ix1 (nodeOf u)) := by
  subst hu
  show P (idxAt ![w] h x) = _
  congr 1
  funext a
  match a with
  | ⟨0, _⟩ => exact Fin.ext (nodeOf_val (h 0 x)).symm

-- One stored row of squared distances: the sixteen edges of group q of trip k.
theorem rel_piece (q : ℕ) (hq : q < 8) (o : ℕ) (ho : o = 16 * q)
    (inbA : ∀ a, (![o] : Fin 1 → ℕ) a + S16.size a ≤ S128.size a)
    (inbR : ∀ a, (![q, 0] : Fin 2 → ℕ) a + S1x16.size a ≤ S8x16.size a)
    (foa : (iaV).view.ty.Contents (Elt F)) (hfa : ∀ x, (iaV).view.read (Elt F) foa x = (srcRowK L k).view.read (Elt F) fsrc x)
    (hina : ∀ x, ((iaV).view.read (Elt F) foa x).toNat < 10000)
    (fob : (ibV).view.ty.Contents (Elt F)) (hfb : ∀ x, (ibV).view.read (Elt F) fob x = (dstRowK L k).view.read (Elt F) fdst x)
    (hinb : ∀ x, ((ibV).view.read (Elt F) fob x).toNat < 10000)
    (Px Py Pz : S10112.Idx → F .f32) (hPx : ∀ z, Px z = (fpx : S10112.Idx → F .f32) z)
    (hPy : ∀ z, Py z = (fpy : S10112.Idx → F .f32) z) (hPz : ∀ z, Pz z = (fpz : S10112.Idx → F .f32) z)
    (val : FVec F S16 .f32)
    (hval : val = dist (loadIdx (F := F) (e := .f32) Px ![((iaV).view.readAt (Elt F) (Rect.unit (s := S128) ![o] S16.size inbA).toLoadRect foa)] (chk_ok (iaV) foa hina ![o] inbA)) (loadIdx (F := F) (e := .f32) Px ![((ibV).view.readAt (Elt F) (Rect.unit (s := S128) ![o] S16.size inbA).toLoadRect fob)] (chk_ok (ibV) fob hinb ![o] inbA))
      (loadIdx (F := F) (e := .f32) Py ![((iaV).view.readAt (Elt F) (Rect.unit (s := S128) ![o] S16.size inbA).toLoadRect foa)] (chk_ok (iaV) foa hina ![o] inbA)) (loadIdx (F := F) (e := .f32) Py ![((ibV).view.readAt (Elt F) (Rect.unit (s := S128) ![o] S16.size inbA).toLoadRect fob)] (chk_ok (ibV) fob hinb ![o] inbA))
      (loadIdx (F := F) (e := .f32) Pz ![((iaV).view.readAt (Elt F) (Rect.unit (s := S128) ![o] S16.size inbA).toLoadRect foa)] (chk_ok (iaV) foa hina ![o] inbA)) (loadIdx (F := F) (e := .f32) Pz ![((ibV).view.readAt (Elt F) (Rect.unit (s := S128) ![o] S16.size inbA).toLoadRect fob)] (chk_ok (ibV) fob hinb ![o] inbA)))
    (sc : S16.ShapeCasts S1x16) (x : S1x16.Idx) :
    shapeCast S1x16 val sc x
      = (relOf d fpx fpy fpz fsrc fdst : S20480x16.Idx → F .f32)
          ((relRect L k).emb ((Rect.unit (s := S8x16) ![q, 0] S1x16.size inbR).emb x)) := by
  subst hval ho
  show dist _ _ _ _ _ _ (Shape.reshapeEquiv sc x) = _
  generalize hx16 : Shape.reshapeEquiv sc x = x16
  have hx0 : (x16 0).val = (x 1).val := by
    have h := Shape.rowMajor_reshapeEquiv sc x
    rw [hx16, Shape.rowMajor_val_one, Shape.rowMajor_val_two] at h
    have h0 : (x 0).val = 0 := by have := (x 0).isLt; have : S1x16.size 0 = 1 := rfl; omega
    rw [h0] at h; simpa using h
  have hx16lt : (x16 0).val < 16 := (x16 0).isLt
  have hl : 16 * q + (x16 0).val < 128 := by omega
  have ks := lane_idx L k (iaV) foa fsrc (fun x => (hfa x).trans (srcRow_read d L k fsrc x)) (16 * q) inbA x16 hl
  have kt := lane_idx L k (ibV) fob fdst (fun x => (hfb x).trans (dstRow_read d L k fdst x)) (16 * q) inbA x16 hl
  have hw : wid L = 16 * (L 0).val + (L 1).val := rfl
  have hwl := wid_lt L
  have hkl := trip_lt k
  have hi0 : (((relRect L k).emb ((Rect.unit (s := S8x16) ![q, 0] S1x16.size inbR).emb x)) 0).val = 640 * wid L + 8 * k.val + q := by
    rw [Rect.emb_apply, Rect.emb_apply]
    show k0_off2 L k 0 + 1 * (q + 1 * (x 0).val) = _
    rw [k0_off2_eq]
    have h0 : (x 0).val = 0 := by have := (x 0).isLt; have : S1x16.size 0 = 1 := rfl; omega
    show 10240 * (L 0).val + 640 * (L 1).val + 8 * k.val + 1 * (q + 1 * (x 0).val) = _
    omega
  have hi1 : (((relRect L k).emb ((Rect.unit (s := S8x16) ![q, 0] S1x16.size inbR).emb x)) 1).val = (x 1).val := by
    rw [Rect.emb_apply, Rect.emb_apply]
    show k0_off2 L k 1 + 1 * (0 + 1 * (x 1).val) = _
    rw [k0_off2_eq]
    show 0 + 1 * (0 + 1 * (x 1).val) = _
    omega
  have hedge : edgeIdx (relEdge ((relRect L k).emb ((Rect.unit (s := S8x16) ![q, 0] S1x16.size inbR).emb x)))
      = ix3 (⟨wid L, wid_lt L⟩ : Fin 32) (⟨k.val, trip_lt k⟩ : Fin 80) (⟨16 * q + (x16 0).val, hl⟩ : Fin 128) := by
    have he : relEdge ((relRect L k).emb ((Rect.unit (s := S8x16) ![q, 0] S1x16.size inbR).emb x))
        = (⟨10240 * wid L + 128 * k.val + (16 * q + (x16 0).val), by omega⟩ : Fin 327680) :=
      Fin.ext (by show 16 * _ + _ = 10240 * wid L + 128 * k.val + (16 * q + (x16 0).val); rw [hi0, hi1]; omega)
    rw [he]
    exact edgeIdx_of (wid L) k.val (16 * q + (x16 0).val) (wid_lt L) (trip_lt k) hl
  rw [dist_apply,
    loadIdx_node Px _ _ x16 _ ks, loadIdx_node Px _ _ x16 _ kt,
    loadIdx_node Py _ _ x16 _ ks, loadIdx_node Py _ _ x16 _ kt,
    loadIdx_node Pz _ _ x16 _ ks, loadIdx_node Pz _ _ x16 _ kt,
    hPx, hPx, hPy, hPy, hPz, hPz]
  show _ = FloatOps.addf (FloatOps.addf (FloatOps.addf (Scalar.ofBits .f32 0x00000000#32 : F .f32)
      (sqd (fpx : S10112.Idx → F .f32) _ _)) (sqd (fpy : S10112.Idx → F .f32) _ _)) (sqd (fpz : S10112.Idx → F .f32) _ _)
  rw [hedge]
  rfl

-- Trip k's eight rows of the distances, once written out, are the named result's.
theorem rel_row_done (frv : (rvV).view.ty.Contents (Elt F)) (Lst : List (View.Piece (Elt F) S8x16 .f32))
    (hL : ∀ p ∈ Lst, ∀ x : p.1.shape.Idx, p.2 x = (relOf d fpx fpy fpz fsrc fdst : S20480x16.Idx → F .f32) ((relRect L k).emb (p.1.emb x)))
    (ht : View.Piece.tiled Lst S1x16.size = true) (f0 : (relRowK L k).view.ty.Contents (Elt F)) (y : S8x16.Idx) :
    ((relRowK L k).view.writes (Elt F) f0 [⟨Rect.whole S8x16, (rvV).view.read (Elt F) ((rvV).view.writes (Elt F) frv Lst)⟩] : S20480x16.Idx → F .f32) ((relRect L k).emb y)
      = (relOf d fpx fpy fpz fsrc fdst : S20480x16.Idx → F .f32) ((relRect L k).emb y) :=
  (rel_wr L k f0 _ y).trans (View.read_writes_apply_of_pieces (rvV).view frv
    (fun y => (relOf d fpx fpy fpz fsrc fdst : S20480x16.Idx → F .f32) ((relRect L k).emb y)) Lst hL y (View.cover_of_tiled Lst S1x16.size ht y))

end Rel

set_option hygiene false in
local macro "vli " H:ident base:term : tactic =>
  `(tactic| (iapply (SparseCore.wp_vectorLoadIdx 𝒱₀ (V d (cV0 L) (jV0 L)) none Set.univ (base := $base) (S := Finset.univ) (q := fullShare) (Finset.subset_univ _)) $$ $H:ident; iintro $H:ident))

section Body

variable [FloatOps F]
variable (q : PosShare TreeShare) (d : Dev nD) (L : grid0.Coords)
variable (fx : Buf (Elt F) (xLoc d)) (fpx : Buf (Elt F) (pxLoc d)) (fpy : Buf (Elt F) (pyLoc d)) (fpz : Buf (Elt F) (pzLoc d))
variable (fsrc : Buf (Elt F) (srcLoc d)) (fdst : Buf (Elt F) (dstLoc d))

-- A carved-out part and the kept rest join as the part and the rest do.
theorem join_kept {P Q R : sProp 𝕄} (h : iprop(P ∗ Q) ⊢ R) : iprop(P ∗ Kept Q) ⊢ R := h

-- The loop's invariant: the tile's rows of the three results agree with the named results below trip n's rows.
def invV (gx : (pxS).view.ty.Contents (Elt F)) (gy : (pyS).view.ty.Contents (Elt F)) (gz : (pzS).view.ty.Contents (Elt F))
    (O : CellTallies nD τ sig (HIx 2)) (W : Waits sig (HIx 2)) (n : Nat) (_ : PUnit) : sProp 𝕄 :=
  iprop(∃ fxi fxj frel fia fib fra frb frv W',
    ⌜DoneOut L n (fxi : S327680x128.Idx → F .f32) (xiOf d fx fdst) ∧ DoneOut L n (fxj : S327680x128.Idx → F .f32) (xjOf d fx fsrc)
      ∧ DoneRel L n (frel : S20480x16.Idx → F .f32) (relOf d fpx fpy fpz fsrc fdst) ∧ ∀ p ∈ W', p ∈ W ∨ p.2 = none⌝
    ∗ Transfers.MayWaits (V d (cV0 L) (jV0 L)) (default : HIx 2) O
    ∗ ((xV).view.loc (V d (cV0 L) (jV0 L)) ↦{q} fx)
    ∗ ((srcV).view.loc (V d (cV0 L) (jV0 L)) ↦[(srcBlk L).set]{fullShare} fsrc)
    ∗ ((dstV).view.loc (V d (cV0 L) (jV0 L)) ↦[(srcBlk L).set]{fullShare} fdst)
    ∗ ((xiV).view.loc (V d (cV0 L) (jV0 L)) ↦[(outBlk L).set]{fullShare} fxi)
    ∗ ((xjV).view.loc (V d (cV0 L) (jV0 L)) ↦[(outBlk L).set]{fullShare} fxj)
    ∗ ((relV).view.loc (V d (cV0 L) (jV0 L)) ↦[(relBlk L).set]{fullShare} frel)
    ∗ ((iaV).view.loc (V d (cV0 L) (jV0 L)) ↦{fullShare} fia)
    ∗ ((ibV).view.loc (V d (cV0 L) (jV0 L)) ↦{fullShare} fib)
    ∗ ((raV).view.loc (V d (cV0 L) (jV0 L)) ↦{fullShare} fra)
    ∗ ((rbV).view.loc (V d (cV0 L) (jV0 L)) ↦{fullShare} frb)
    ∗ ((rvV).view.loc (V d (cV0 L) (jV0 L)) ↦{fullShare} frv)
    ∗ (((pxS).access (.whole S10112)).loc (V d (cV0 L) (jV0 L)) ↦{fullShare} gx)
    ∗ (((pyS).access (.whole S10112)).loc (V d (cV0 L) (jV0 L)) ↦{fullShare} gy)
    ∗ (((pzS).access (.whole S10112)).loc (V d (cV0 L) (jV0 L)) ↦{fullShare} gz)
    ∗ semVal (cell d L cc0_scratch8.sem) 0
    ∗ semVal (cell d L cc0_scratch9.sem) 0
    ∗ semVal (cell d L cc0_scoped3.sem) 0
    ∗ semVal (cell d L cc0_scoped4.sem) 0
    ∗ semVal (cell d L cc0_scoped5.sem) 0
    ∗ semVal (cell d L cc0_scoped6.sem) 0
    ∗ semVal (cell d L cc0_scoped7.sem) 0
    ∗ owes (V d (cV0 L) (jV0 L)) O W')

set_option maxHeartbeats 4000000 in
theorem body0V : K0Spec.Body0V q d L fx fpx fpy fpz fsrc fdst := by
  unfold K0Spec.Body0V
  intro O W hO hok
  simp only [cc0_k_eq_skeleton]; unfold cc0_k_skel
  rw [(K (F := F)).scopedBufs_V facts d (cV0 L) (jV0 L), SparseCore.Cfg.scopedSems0_V (Val := Elt F) d (cV0 L) (jV0 L), ownSems0_V, ownBufs_V]
  unfold go0
  iintro ⟨#Hlv, -, ⟨Hx, Hpx, Hpy, Hpz, Hsrc, Hdst, ⟨%fxi, Hxi⟩, ⟨%fxj, Hxj⟩, ⟨%frel, Hrel⟩⟩,
    ⟨⟨%fia, Hia⟩, ⟨%fib, Hib⟩, ⟨%fra, Hra⟩, ⟨%frb, Hrb⟩, ⟨%frv, Hrv⟩, ⟨%fpxs, Hpxs⟩, ⟨%fpys, Hpys⟩, ⟨%fpzs, Hpzs⟩, Hbufs⟩,
    ⟨HsemA, HsemB, Hsem0, Hsem1, Hsem2, Hsem3, Hsem4, Hsem5, Hsem6, Hsem7, Hsems⟩, HO⟩
  ihave Hmw := (show levAts (K (F := F)).L (K (F := F)).lev ⊢ Transfers.MayWaits (V d (cV0 L) (jV0 L)) (default : HIx 2) O from
    (K (F := F)).mayWaits_none (thr := V d (cV0 L) (jV0 L)) hO) $$ Hlv
  ihave Hx := (Entails.of_eq (pts_x (F := F) d L _ _ _).symm) $$ Hx
  ihave Hpx := (Entails.of_eq (pts_px (F := F) d L _ _ _).symm) $$ Hpx
  ihave Hpy := (Entails.of_eq (pts_py (F := F) d L _ _ _).symm) $$ Hpy
  ihave Hpz := (Entails.of_eq (pts_pz (F := F) d L _ _ _).symm) $$ Hpz
  ihave Hsrc := (Entails.of_eq (pts_src (F := F) d L _ _ _).symm) $$ Hsrc
  ihave Hdst := (Entails.of_eq (pts_dst (F := F) d L _ _ _).symm) $$ Hdst
  ihave Hxi := (Entails.of_eq (pts_xi (F := F) d L _ _ _).symm) $$ Hxi
  ihave Hxj := (Entails.of_eq (pts_xj (F := F) d L _ _ _).symm) $$ Hxj
  ihave Hrel := (Entails.of_eq (pts_rel (F := F) d L _ _ _).symm) $$ Hrel
  ihave Hia := (Entails.of_eq (pts_s0 (F := F) d L _).symm) $$ Hia
  ihave Hib := (Entails.of_eq (pts_s1 (F := F) d L _).symm) $$ Hib
  ihave Hra := (Entails.of_eq (pts_s2 (F := F) d L _).symm) $$ Hra
  ihave Hrb := (Entails.of_eq (pts_s3 (F := F) d L _).symm) $$ Hrb
  ihave Hrv := (Entails.of_eq (pts_s4 (F := F) d L _).symm) $$ Hrv
  ihave Hpxs := (Entails.of_eq (pts_s5 (F := F) d L _).symm) $$ Hpxs
  ihave Hpys := (Entails.of_eq (pts_s6 (F := F) d L _).symm) $$ Hpys
  ihave Hpzs := (Entails.of_eq (pts_s7 (F := F) d L _).symm) $$ Hpzs
  sl_exec

  sl_for (invV q d L fx fpx fpy fpz fsrc fdst (View.write (Elt F) (pxS).view fpxs (body0V.sl.dma0 d fpx) Finset.univ) (View.write (Elt F) (pyS).view fpys (body0V.sl.dma0_1 d fpy) Finset.univ) (View.write (Elt F) (pzS).view fpzs (body0V.sl.dma0_2 d fpz) Finset.univ) O W) $$ [Hmw Hx Hsrc Hdst Hxi Hxj Hrel Hia Hib Hra Hrb Hrv Hpxs Hpys Hpzs HsemA HsemB Hsem3 Hsem4 Hsem5 Hsem6 Hsem7 HO]
  case region =>
    intro k _
    unfold invV
    iintro ⟨%fxi, %fxj, %frel, %fia, %fib, %fra, %frb, %frv, %W', %hp, Hmw, Hx, Hsrc, Hdst, Hxi, Hxj, Hrel, Hia, Hib, Hra, Hrb, Hrv, Hpxs, Hpys, Hpzs, HsemA, HsemB, Hsem3, Hsem4, Hsem5, Hsem6, Hsem7, HO⟩
    obtain ⟨hdxi, hdxj, hdrel, hW'⟩ := hp
    have hsS : (srcRowK L k).view.set ⊆ (srcBlk L).set := by rw [set_srcRowK]; exact srcRect_sub L k
    have hsD : (dstRowK L k).view.set ⊆ (srcBlk L).set := by rw [set_dstRowK]; exact srcRect_sub L k
    have hsXi : (xiRowK L k).view.set ⊆ (outBlk L).set := by rw [set_xiRowK]; exact outRect_sub L k
    have hsXj : (xjRowK L k).view.set ⊆ (outBlk L).set := by rw [set_xjRowK]; exact outRect_sub L k
    have hsR : (relRowK L k).view.set ⊆ (relBlk L).set := by rw [set_relRowK]; exact relRect_sub L k
    ihave ⟨Hsrcrow, Hsrc⟩ := (pointsTo_split_subset (ℓ := (srcRowK L k).view.loc (V d (cV0 L) (jV0 L))) (I := (srcRowK L k).view.set) (q := fullShare) (f := fsrc) hsS).1 $$ Hsrc
    ihave Hsrc := (Entails.of_eq (kept_eq _).symm) $$ Hsrc
    ihave ⟨Hdstrow, Hdst⟩ := (pointsTo_split_subset (ℓ := (dstRowK L k).view.loc (V d (cV0 L) (jV0 L))) (I := (dstRowK L k).view.set) (q := fullShare) (f := fdst) hsD).1 $$ Hdst
    ihave Hdst := (Entails.of_eq (kept_eq _).symm) $$ Hdst
    ihave ⟨Hxirow, Hxi⟩ := (pointsTo_split_subset (ℓ := (xiRowK L k).view.loc (V d (cV0 L) (jV0 L))) (I := (xiRowK L k).view.set) (q := fullShare) (f := fxi) hsXi).1 $$ Hxi
    ihave Hxi := (Entails.of_eq (kept_eq _).symm) $$ Hxi
    ihave ⟨Hxjrow, Hxj⟩ := (pointsTo_split_subset (ℓ := (xjRowK L k).view.loc (V d (cV0 L) (jV0 L))) (I := (xjRowK L k).view.set) (q := fullShare) (f := fxj) hsXj).1 $$ Hxj
    ihave Hxj := (Entails.of_eq (kept_eq _).symm) $$ Hxj
    ihave ⟨Hrelrow, Hrel⟩ := (pointsTo_split_subset (ℓ := (relRowK L k).view.loc (V d (cV0 L) (jV0 L))) (I := (relRowK L k).view.set) (q := fullShare) (f := frel) hsR).1 $$ Hrel
    ihave Hrel := (Entails.of_eq (kept_eq _).symm) $$ Hrel
    sl_exec
    have hinA := ia_ok d L k fsrc fdst hok fia (body0V.sl.dma0_3 d L fsrc k) rfl
    have hinB := ib_ok d L k fsrc fdst hok fib (body0V.sl.dma0_4 d L fdst k) rfl
    have hc1 : k0_chk1 _ := chk3 _ _ hinA ![0] inb_S128_S16_0
    have hc2 : k0_chk2 _ := chk3 _ _ hinB ![0] inb_S128_S16_0
    have hc3 : k0_chk3 _ := chk3 _ _ hinA ![16] inb_S128_S16_16
    have hc4 : k0_chk4 _ := chk3 _ _ hinB ![16] inb_S128_S16_16
    have hc5 : k0_chk5 _ := chk3 _ _ hinA ![32] inb_S128_S16_32
    have hc6 : k0_chk6 _ := chk3 _ _ hinB ![32] inb_S128_S16_32
    have hc7 : k0_chk7 _ := chk3 _ _ hinA ![48] inb_S128_S16_48
    have hc8 : k0_chk8 _ := chk3 _ _ hinB ![48] inb_S128_S16_48
    have hc9 : k0_chk9 _ := chk3 _ _ hinA ![64] inb_S128_S16_64
    have hc10 : k0_chk10 _ := chk3 _ _ hinB ![64] inb_S128_S16_64
    have hc11 : k0_chk11 _ := chk3 _ _ hinA ![80] inb_S128_S16_80
    have hc12 : k0_chk12 _ := chk3 _ _ hinB ![80] inb_S128_S16_80
    have hc13 : k0_chk13 _ := chk3 _ _ hinA ![96] inb_S128_S16_96
    have hc14 : k0_chk14 _ := chk3 _ _ hinB ![96] inb_S128_S16_96
    have hc15 : k0_chk15 _ := chk3 _ _ hinA ![112] inb_S128_S16_112
    have hc16 : k0_chk16 _ := chk3 _ _ hinB ![112] inb_S128_S16_112
    ihave ⟨Hx1, Hx2⟩ := (pointsTo_share (PosShare.mem_left_op_right q)).1 $$ Hx
    ihave ⟨Hia1, Hia2⟩ := (pointsTo_share (PosShare.mem_left_op_right fullShare)).1 $$ Hia
    ihave ⟨Hib1, Hib2⟩ := (pointsTo_share (PosShare.mem_left_op_right fullShare)).1 $$ Hib
    sl_exec
    vli Hpxs pxS
    vli Hpxs pxS
    vli Hpys pyS
    vli Hpys pyS
    sl_exec
    vli Hpzs pzS
    vli Hpzs pzS
    sl_exec
    vli Hpxs pxS
    vli Hpxs pxS
    vli Hpys pyS
    vli Hpys pyS
    vli Hpzs pzS
    vli Hpzs pzS
    sl_exec
    vli Hpxs pxS
    vli Hpxs pxS
    vli Hpys pyS
    vli Hpys pyS
    sl_exec
    vli Hpzs pzS
    vli Hpzs pzS
    sl_exec
    vli Hpxs pxS
    vli Hpxs pxS
    vli Hpys pyS
    vli Hpys pyS
    vli Hpzs pzS
    vli Hpzs pzS
    sl_exec
    vli Hpxs pxS
    vli Hpxs pxS
    vli Hpys pyS
    vli Hpys pyS
    vli Hpzs pzS
    vli Hpzs pzS
    sl_exec
    vli Hpxs pxS
    vli Hpxs pxS
    vli Hpys pyS
    vli Hpys pyS
    vli Hpzs pzS
    vli Hpzs pzS
    sl_exec
    vli Hpxs pxS
    vli Hpxs pxS
    vli Hpys pyS
    vli Hpys pyS
    vli Hpzs pzS
    vli Hpzs pzS
    sl_exec
    vli Hpxs pxS
    vli Hpxs pxS
    vli Hpys pyS
    vli Hpys pyS
    vli Hpzs pzS
    vli Hpzs pzS
    sl_exec
    have hfa := fun x => whole_write_read cc0_scratch0 fia (body0V.sl.dma0_3 d L fsrc k) x
    have hfb := fun x => whole_write_read cc0_scratch1 fib (body0V.sl.dma0_4 d L fdst k) x
    have hp8 := fun g hg o ho inbA inbR => rel_piece d L k fpx fpy fpz fsrc fdst g hg o ho inbA inbR _ hfa hinA _ hfb hinB _ _ _
      (whole_write_access cc0_scratch5 fpxs (body0V.sl.dma0 d fpx)) (whole_write_access cc0_scratch6 fpys (body0V.sl.dma0_1 d fpy))
      (whole_write_access cc0_scratch7 fpzs (body0V.sl.dma0_2 d fpz))
    have hL : ∀ p ∈ (body0V.sl.Hrv_8 d L fpx fpy fpz fsrc fdst fpxs fpys fpzs k fia fib hc1 hc2 hc3 hc4 hc5 hc6 hc7 hc8 hc9 hc10 hc11 hc12 hc13 hc14 hc15 hc16), ∀ x : p.1.shape.Idx,
        p.2 x = (relOf d fpx fpy fpz fsrc fdst : S20480x16.Idx → F .f32) ((relRect L k).emb (p.1.emb x)) := by
      intro p hp
      unfold body0V.sl.Hrv_8 at hp
      simp only [List.mem_cons, List.not_mem_nil, or_false] at hp
      rcases hp with rfl | rfl | rfl | rfl | rfl | rfl | rfl | rfl
      · exact fun x => hp8 7 (by omega) 112 rfl inb_S128_S16_112 inb_S8x16_S1x16_7_0 _ rfl _ x
      · exact fun x => hp8 6 (by omega) 96 rfl inb_S128_S16_96 inb_S8x16_S1x16_6_0 _ rfl _ x
      · exact fun x => hp8 5 (by omega) 80 rfl inb_S128_S16_80 inb_S8x16_S1x16_5_0 _ rfl _ x
      · exact fun x => hp8 4 (by omega) 64 rfl inb_S128_S16_64 inb_S8x16_S1x16_4_0 _ rfl _ x
      · exact fun x => hp8 3 (by omega) 48 rfl inb_S128_S16_48 inb_S8x16_S1x16_3_0 _ rfl _ x
      · exact fun x => hp8 2 (by omega) 32 rfl inb_S128_S16_32 inb_S8x16_S1x16_2_0 _ rfl _ x
      · exact fun x => hp8 1 (by omega) 16 rfl inb_S128_S16_16 inb_S8x16_S1x16_1_0 _ rfl _ x
      · exact fun x => hp8 0 (by omega) 0 rfl inb_S128_S16_0 inb_S8x16_S1x16_0_0 _ rfl _ x
    sl_step
    ihave Hx := (pointsTo_share (PosShare.mem_left_op_right q)).2 $$ [Hx1 Hx2]
    · iframe
    ihave Hia := (pointsTo_share (PosShare.mem_left_op_right fullShare)).2 $$ [Hia1 Hia2]
    · iframe
    ihave Hib := (pointsTo_share (PosShare.mem_left_op_right fullShare)).2 $$ [Hib1 Hib2]
    · iframe
    ihave Hsrc := join_kept (pointsTo_split_subset (ℓ := (srcRowK L k).view.loc (V d (cV0 L) (jV0 L))) (I := (srcRowK L k).view.set) (q := fullShare) (f := fsrc) hsS).2 $$ [Hsrcrow Hsrc]
    · iframe
    ihave Hdst := join_kept (pointsTo_split_subset (ℓ := (dstRowK L k).view.loc (V d (cV0 L) (jV0 L))) (I := (dstRowK L k).view.set) (q := fullShare) (f := fdst) hsD).2 $$ [Hdstrow Hdst]
    · iframe
    ihave Hxi := join_kept (pointsTo_join_subset (ℓ := (xiRowK L k).view.loc (V d (cV0 L) (jV0 L))) (I := (xiRowK L k).view.set) (q := fullShare) hsXi) $$ [Hxirow Hxi]
    · iframe
    ihave Hxj := join_kept (pointsTo_join_subset (ℓ := (xjRowK L k).view.loc (V d (cV0 L) (jV0 L))) (I := (xjRowK L k).view.set) (q := fullShare) hsXj) $$ [Hxjrow Hxj]
    · iframe
    ihave Hrel := join_kept (pointsTo_join_subset (ℓ := (relRowK L k).view.loc (V d (cV0 L) (jV0 L))) (I := (relRowK L k).view.set) (q := fullShare) hsR) $$ [Hrelrow Hrel]
    · iframe
    iexists _, _, _, _, _, _, _, _, _
    iframe
    isplitr
    · ipureintro
      exact ⟨doneOut_step L k _ (set_xiRowK L k) _ _ _ hdxi fun y => (xi_wr L k fxi _ y).trans <| (read_whole_writes (rbV).view frb _ y).trans <|
          gather_val d L k fx _ hinB fdst hok.2 (fun x => (hfb x).trans (dstRow_read d L k fdst x)) y _ (out_emb_0 L k y) (out_emb_1 L k y),
        doneOut_step L k _ (set_xjRowK L k) _ _ _ hdxj fun y => (xj_wr L k fxj _ y).trans <| (read_whole_writes (raV).view fra _ y).trans <|
          gather_val d L k fx _ hinA fsrc hok.1 (fun x => (hfa x).trans (srcRow_read d L k fsrc x)) y _ (out_emb_0 L k y) (out_emb_1 L k y),
        doneRel_step L k _ (set_relRowK L k) _ _ _ hdrel fun y => rel_row_done d L k fpx fpy fpz fsrc fdst frv _ hL rfl frel y,
        W_ins _ (W_ins _ (W_ins _ (W_ins _ (W_ins _ (W_ins _ (W_ins _ hW'))))))⟩
    isplitl [HsemA]; · iexact HsemA
    isplitl [HsemB]; · iexact HsemB
    isplitl [Hsem3]; · iexact Hsem3
    isplitl [Hsem4]; · iexact Hsem4
    isplitl [Hsem5]; · iexact Hsem5
    isplitl [Hsem6]; · iexact Hsem6
    iexact Hsem7
  · unfold invV
    ihave Hpxs := (Entails.of_eq (rfl : ((pxS).view.loc (V d (cV0 L) (jV0 L)) ↦{fullShare} (View.write (Elt F) (pxS).view fpxs (body0V.sl.dma0 d fpx) Finset.univ) : sProp 𝕄) = (((pxS).access (.whole S10112)).loc (V d (cV0 L) (jV0 L)) ↦{fullShare} (View.write (Elt F) (pxS).view fpxs (body0V.sl.dma0 d fpx) Finset.univ)))) $$ Hpxs
    ihave Hpys := (Entails.of_eq (rfl : ((pyS).view.loc (V d (cV0 L) (jV0 L)) ↦{fullShare} (View.write (Elt F) (pyS).view fpys (body0V.sl.dma0_1 d fpy) Finset.univ) : sProp 𝕄) = (((pyS).access (.whole S10112)).loc (V d (cV0 L) (jV0 L)) ↦{fullShare} (View.write (Elt F) (pyS).view fpys (body0V.sl.dma0_1 d fpy) Finset.univ)))) $$ Hpys
    ihave Hpzs := (Entails.of_eq (rfl : ((pzS).view.loc (V d (cV0 L) (jV0 L)) ↦{fullShare} (View.write (Elt F) (pzS).view fpzs (body0V.sl.dma0_2 d fpz) Finset.univ) : sProp 𝕄) = (((pzS).access (.whole S10112)).loc (V d (cV0 L) (jV0 L)) ↦{fullShare} (View.write (Elt F) (pzS).view fpzs (body0V.sl.dma0_2 d fpz) Finset.univ)))) $$ Hpzs
    iexists _, _, _, _, _, _, _, _, _
    iframe Hmw
    iframe
    ipureintro
    exact ⟨fun i ⟨h1, h2⟩ => by omega, fun i ⟨h1, h2⟩ => by omega, fun i ⟨h1, h2⟩ => by omega, W_ins _ (W_ins _ (W_ins _ (fun p hp => .inl hp)))⟩
  iintro %_ HI
  unfold invV
  icases HI with ⟨%fxi, %fxj, %frel, %fia, %fib, %fra, %frb, %frv, %W', %hp, -, Hx, Hsrc, Hdst, Hxi, Hxj, Hrel, Hia, Hib, Hra, Hrb, Hrv, Hpxs, Hpys, Hpzs, HsemA, HsemB, Hsem3, Hsem4, Hsem5, Hsem6, Hsem7, HO⟩
  obtain ⟨hdxi, hdxj, hdrel, hW'⟩ := hp
  sl_exec
  sl_step
  unfold K0Spec.td0V
  ihave Hxi := (Entails.of_eq (pointsTo_congr (doneOut_all L _ _ hdxi))) $$ Hxi
  ihave Hxj := (Entails.of_eq (pointsTo_congr (doneOut_all L _ _ hdxj))) $$ Hxj
  ihave Hrel := (Entails.of_eq (pointsTo_congr (doneRel_all L _ _ hdrel))) $$ Hrel
  isplitl [Hx Hpx Hpy Hpz Hsrc Hdst Hxi Hxj Hrel]
  · isplitl [Hx]; · iexact Hx
    isplitl [Hpx]; · iexact Hpx
    isplitl [Hpy]; · iexact Hpy
    isplitl [Hpz]; · iexact Hpz
    isplitl [Hsrc]; · iexact Hsrc
    isplitl [Hdst]; · iexact Hdst
    isplitl [Hxi]; · iexact Hxi
    isplitl [Hxj]; · iexact Hxj
    iexact Hrel
  isplitl [Hia Hib Hra Hrb Hrv Hpxs Hpys Hpzs Hbufs]
  · isplitl [Hia]; · iexists _; iexact Hia
    isplitl [Hib]; · iexists _; iexact Hib
    isplitl [Hra]; · iexists _; iexact Hra
    isplitl [Hrb]; · iexists _; iexact Hrb
    isplitl [Hrv]; · iexists _; iexact Hrv
    isplitl [Hpxs]; · iexists _; iexact Hpxs
    isplitl [Hpys]; · iexists _; iexact Hpys
    isplitl [Hpzs]; · iexists _; iexact Hpzs
    iexact Hbufs
  isplitl [HsemA HsemB Hsem0 Hsem1 Hsem2 Hsem3 Hsem4 Hsem5 Hsem6 Hsem7 Hsems]
  · iframe
    isplitl [Hsem0]; · iexact Hsem0
    isplitl [Hsem1]; · iexact Hsem1
    iexact Hsem2
  iexists W'; isplitr
  · ipureintro; exact hW'
  · iexact HO

end Body

end Cert.Proof.KI.K0BodyV

end
-- ==== Proof.KI.HostVals.lean ====
import proofs.«205084_g25537875542483_cont_9to1_419_23_alg».proof.Proof.KI.IdxRange
import Idealize.ShloMosaic.Lib.ValueIdx
import Idealize.ShloMosaic.Lib.ValueLayout
import Idealize.ShloMosaic.Lib.KernelVsHost
import Idealize.ShloMosaic.Lib.Pipeline.Value

noncomputable section

namespace Cert.Proof.KI.HostVals

open Cert.KernelIdeal Cert.KernelIdeal.Gen Cert.Proof.KI.IdxRange
open Idealize.ShloMosaic Idealize.ShloMosaic.ValueIdx
open Idealize.SL.Sem

variable {F : FTy → Type} [FloatOps F]

variable (V : Valuation τ sig (Elt F))

theorem w1a_eq (a : Fin 128) (h : Fin 514) :
    (StableHlo.after hostPre V (Proc.devRef .tc main_v23) : FVec F S128x514 .f32) (ix2 a h)
      = (V (Proc.devRef .tc main_arg4) : FVec F S514x257 .f32) (ix2 h (⟨a.val, by have := a.isLt; omega⟩ : Fin 257)) := by
  unfold hostPre; after_results
  exact (transpose_ix2_apply _ transposes_S514x128_S128x514_1_0 a h).trans
    (slice2_axis1_apply 0 _ slices_S514x257_S514x128_0_0 h a _ (Nat.zero_add _).symm)

theorem w1b_eq (a : Fin 128) (h : Fin 514) :
    (StableHlo.after hostPre V (Proc.devRef .tc main_v25) : FVec F S128x514 .f32) (ix2 a h)
      = (V (Proc.devRef .tc main_arg4) : FVec F S514x257 .f32) (ix2 h (⟨128 + a.val, by have := a.isLt; omega⟩ : Fin 257)) := by
  unfold hostPre; after_results
  exact (transpose_ix2_apply _ transposes_S514x128_S128x514_1_0 a h).trans
    (slice2_axis1_apply 128 _ slices_S514x257_S514x128_0_128 h a _ rfl)

theorem wr16_eq (d : Fin 16) (h : Fin 514) :
    (StableHlo.after hostPre V (Proc.devRef .tc main_v28) : FVec F S16x514 .f32) (ix2 d h)
      = (V (Proc.devRef .tc main_arg4) : FVec F S514x257 .f32) (ix2 h (⟨256, by decide⟩ : Fin 257)) := by
  unfold hostPre; after_results
  exact (broadcastInDim_apply ![0, 1] bcast_S1x514_S16x514_0_1 _ (ix2 d h) (ix2 (0 : Fin 1) h) (fun a => match a with
    | ⟨0, _⟩ => rfl
    | ⟨1, _⟩ => rfl)).trans ((transpose_ix2_apply _ transposes_S514x1_S1x514_1_0 (0 : Fin 1) h).trans
      (slice2_axis1_apply 256 _ slices_S514x257_S514x1_0_256 h (0 : Fin 1) _ rfl))

theorem b1_eq (h : Fin 514) :
    (StableHlo.after hostPre V (Proc.devRef .tc main_v29) : FVec F S1x514 .f32) (ix2 (0 : Fin 1) h) = (V (Proc.devRef .tc main_arg5) : FVec F S514 .f32) (ix1 h) := by
  unfold hostPre; after_results
  exact shapeCast_a_1a_apply _ shapeCasts_S514_S1x514 (0 : Fin 1) h

theorem w2_eq (h : Fin 514) (k : Fin 16) :
    (StableHlo.after hostPre V (Proc.devRef .tc main_v30) : FVec F S514x16 .f32) (ix2 h k) = (V (Proc.devRef .tc main_arg6) : FVec F S16x514 .f32) (ix2 k h) := by
  unfold hostPre; after_results
  exact transpose_ix2_apply _ transposes_S16x514_S514x16_1_0 h k

theorem b2_eq (k : Fin 16) :
    (StableHlo.after hostPre V (Proc.devRef .tc main_v31) : FVec F S1x16 .f32) (ix2 (0 : Fin 1) k) = (V (Proc.devRef .tc main_arg7) : FVec F S16 .f32) (ix1 k) := by
  unfold hostPre; after_results
  exact shapeCast_a_1a_apply _ shapeCasts_S16_S1x16 (0 : Fin 1) k

theorem n1a_eq (c : Fin 128) (k : Fin 256) :
    (StableHlo.after hostPre V (Proc.devRef .tc main_v33) : FVec F S128x256 .f32) (ix2 c k)
      = (V (Proc.devRef .tc main_arg12) : FVec F S256x144 .f32) (ix2 k (⟨c.val, by have := c.isLt; omega⟩ : Fin 144)) := by
  unfold hostPre; after_results
  exact (transpose_ix2_apply _ transposes_S256x128_S128x256_1_0 c k).trans
    (slice2_axis1_apply 0 _ slices_S256x144_S256x128_0_0 k c _ (Nat.zero_add _).symm)

theorem n1b_eq (q : Fin 16) (k : Fin 256) :
    (StableHlo.after hostPre V (Proc.devRef .tc main_v35) : FVec F S16x256 .f32) (ix2 q k)
      = (V (Proc.devRef .tc main_arg12) : FVec F S256x144 .f32) (ix2 k (⟨128 + q.val, by have := q.isLt; omega⟩ : Fin 144)) := by
  unfold hostPre; after_results
  exact (transpose_ix2_apply _ transposes_S256x16_S16x256_1_0 q k).trans
    (slice2_axis1_apply 128 _ slices_S256x144_S256x16_0_128 k q _ rfl)

theorem nb1_eq (k : Fin 256) :
    (StableHlo.after hostPre V (Proc.devRef .tc main_v36) : FVec F S1x256 .f32) (ix2 (0 : Fin 1) k) = (V (Proc.devRef .tc main_arg13) : FVec F S256 .f32) (ix1 k) := by
  unfold hostPre; after_results
  exact shapeCast_a_1a_apply _ shapeCasts_S256_S1x256 (0 : Fin 1) k

theorem n2_eq (k : Fin 256) (c : Fin 128) :
    (StableHlo.after hostPre V (Proc.devRef .tc main_v37) : FVec F S256x128 .f32) (ix2 k c) = (V (Proc.devRef .tc main_arg14) : FVec F S128x256 .f32) (ix2 c k) := by
  unfold hostPre; after_results
  exact transpose_ix2_apply _ transposes_S128x256_S256x128_1_0 k c

theorem nb2_eq (c : Fin 128) :
    (StableHlo.after hostPre V (Proc.devRef .tc main_v38) : FVec F S1x128 .f32) (ix2 (0 : Fin 1) c) = (V (Proc.devRef .tc main_arg15) : FVec F S128 .f32) (ix1 c) := by
  unfold hostPre; after_results
  exact shapeCast_a_1a_apply _ shapeCasts_S128_S1x128 (0 : Fin 1) c

theorem g_eq (c : Fin 128) :
    (StableHlo.after hostPre V (Proc.devRef .tc main_v39) : FVec F S1x128 .f32) (ix2 (0 : Fin 1) c) = (V (Proc.devRef .tc main_arg16) : FVec F S128 .f32) (ix1 c) := by
  unfold hostPre; after_results
  exact shapeCast_a_1a_apply _ shapeCasts_S128_S1x128 (0 : Fin 1) c

theorem bt_eq (c : Fin 128) :
    (StableHlo.after hostPre V (Proc.devRef .tc main_v40) : FVec F S1x128 .f32) (ix2 (0 : Fin 1) c) = (V (Proc.devRef .tc main_arg17) : FVec F S128 .f32) (ix1 c) := by
  unfold hostPre; after_results
  exact shapeCast_a_1a_apply _ shapeCasts_S128_S1x128 (0 : Fin 1) c

theorem wfc_eq (c : Fin 128) (j : Fin 3) :
    (StableHlo.after hostPre V (Proc.devRef .tc main_v41) : FVec F S128x3 .f32) (ix2 c j) = (V (Proc.devRef .tc main_arg18) : FVec F S3x128 .f32) (ix2 j c) := by
  unfold hostPre; after_results
  exact transpose_ix2_apply _ transposes_S3x128_S128x3_1_0 c j

theorem bfc_eq (j : Fin 3) :
    (StableHlo.after hostPre V (Proc.devRef .tc main_v42) : FVec F S1x3 .f32) (ix2 (0 : Fin 1) j) = (V (Proc.devRef .tc main_arg19) : FVec F S3 .f32) (ix1 j) := by
  unfold hostPre; after_results
  exact shapeCast_a_1a_apply _ shapeCasts_S3_S1x3 (0 : Fin 1) j

abbrev padVal : F .f32 := FloatOps.sitofp .f32 (0#32 : BitVec 32)

-- Column o of the positions, flattened and padded at the end to 10112 entries: the coordinate below 10000, the padding value from there on.
theorem col_apply (x : FVec F S10000x3 .f32) (o : Nat) (c : Fin 3) (hc : c.val = o) (hs : S10000x3.Slices ![0, o] S10000x1) (n : Fin 10112) :
    pad S10112 ![0] ![112] ![0] (shapeCast S10000 (extractStridedSlice S10000x1 ![0, o] x hs) shapeCasts_S10000x1_S10000)
        (sitofp .f32 (constantI S_ 32 0#32) : FVec F S_ .f32) pads_S10000_S10112_01120 h_S_ (ix1 n)
      = if h : n.val < 10000 then x (ix2 (⟨n.val, h⟩ : Fin 10000) c) else padVal := by
  have hn : n.val < 10112 := n.isLt
  split
  · next h =>
    exact (pad_apply_of_inside (s := S10000) (t := S10112) ![0] ![112] ![0] _ _ pads_S10000_S10112_01120 h_S_ (ix1 n) (ix1 (⟨n.val, h⟩ : Fin 10000))
      (fun a => match a with | ⟨0, _⟩ => by show n.val = 0 + n.val * (0 + 1); omega)).trans
      ((shapeCast_apply _ shapeCasts_S10000x1_S10000 (ix1 (⟨n.val, h⟩ : Fin 10000)) (ix2 (⟨n.val, h⟩ : Fin 10000) (0 : Fin 1))
        (by rw [Shape.rowMajor_val_two, Shape.rowMajor_val_one]; show n.val * 1 + 0 = n.val; omega)).trans
        (slice2_axis1_apply o _ hs (⟨n.val, h⟩ : Fin 10000) (0 : Fin 1) c (hc.trans (Nat.add_zero o).symm)))
  · exact pad_apply_of_not_inside (s := S10000) (t := S10112) ![0] ![112] ![0] _ _ pads_S10000_S10112_01120 h_S_ (ix1 n) (⟨0, by decide⟩ : Fin S10000.rank)
      (by show ¬(0 ≤ n.val ∧ (n.val - 0) % (0 + 1) = 0 ∧ (n.val - 0) / (0 + 1) < 10000); omega)

theorem px_eq (n : Fin 10112) :
    (StableHlo.after hostPre V (Proc.devRef .tc main_v2) : FVec F S10112 .f32) (ix1 n)
      = if h : n.val < 10000 then (V (Proc.devRef .tc main_arg2) : FVec F S10000x3 .f32) (ix2 (⟨n.val, h⟩ : Fin 10000) (0 : Fin 3)) else padVal := by
  unfold hostPre; after_results
  exact col_apply _ 0 0 rfl _ n

theorem py_eq (n : Fin 10112) :
    (StableHlo.after hostPre V (Proc.devRef .tc main_v5) : FVec F S10112 .f32) (ix1 n)
      = if h : n.val < 10000 then (V (Proc.devRef .tc main_arg2) : FVec F S10000x3 .f32) (ix2 (⟨n.val, h⟩ : Fin 10000) (1 : Fin 3)) else padVal := by
  unfold hostPre; after_results
  exact col_apply _ 1 1 rfl _ n

theorem pz_eq (n : Fin 10112) :
    (StableHlo.after hostPre V (Proc.devRef .tc main_v8) : FVec F S10112 .f32) (ix1 n)
      = if h : n.val < 10000 then (V (Proc.devRef .tc main_arg2) : FVec F S10000x3 .f32) (ix2 (⟨n.val, h⟩ : Fin 10000) (2 : Fin 3)) else padVal := by
  unfold hostPre; after_results
  exact col_apply _ 2 2 rfl _ n

theorem zpk_eq (r : Fin 640) (c : Fin 128) :
    (StableHlo.after hostPre V (Proc.devRef .tc main_v21) : FVec F S640x128 .f32) (ix2 r c) = (Scalar.ofBits .f32 0x00000000#32 : F .f32) := by
  unfold hostPre; after_results
  exact (broadcastInDim_apply ![] bcast_S_S640x128 _ (ix2 r c) ix0 (fun a => a.elim0)).trans rfl

theorem x_eq : StableHlo.after hostPre V (Proc.devRef .tc main_arg0) = V (Proc.devRef .tc main_arg0) :=
  after_hostPre_of V main_arg0 (by decide)

end Cert.Proof.KI.HostVals

end
-- ==== Proof.KI.R3Pay.lean ====
import proofs.«205084_g25537875542483_cont_9to1_419_23_alg».proof.Proof.Gen.KernelIdeal.Skeleton
import Idealize.ShloMosaic.Lib.Pipeline.Value
import Idealize.ShloMosaic.Lib.ValueIdx
import Idealize.ShloMosaic.Lib.ValueLayout

set_option maxRecDepth 16384

noncomputable section

namespace Cert.Proof.KI.R3Pay

open Cert.KernelIdeal Cert.KernelIdeal.Gen
open Idealize.ShloMosaic Idealize.ShloMosaic.ValueIdx
open Idealize.SL.Sem

variable {F : FTy → Type} [FloatOps F]

theorem shapeCast_self_apply {α : Type} {s : Shape} (x : s.Idx → α) (h : s.ShapeCasts s) (j : s.Idx) : shapeCast s x h j = x j :=
  shapeCast_apply x h j j rfl

theorem k3_pay3_apply (v44 : Vec F S128x256 .f32) (j : S128x256.Idx) : k3_pay3 v44 j = v44 j :=
  shapeCast_self_apply v44 _ j

theorem k3_pay5_apply (v85 : Vec F S1x128 .f32) (p : Fin 10000) (c : Fin 128) : k3_pay5 v85 (ix2 p c) = v85 (ix2 (0 : Fin 1) c) := by
  show broadcastTo S10000x128 (shapeCast S1x128 v85 shapeCasts_S1x128_S1x128) broadcasts_S1x128_S10000x128 (ix2 p c) = _
  rw [broadcastTo_1b_ab_apply, shapeCast_self_apply]

def gsum (v : Vec F S1x16x640x128 .f32) : FVec F S640x128 .f32 :=
  multiReduction .add [0] S640x128 (shapeCast S16x640x128 v shapeCasts_S1x16x640x128_S16x640x128) 0x00000000#32 reduces_S16x640x128_S640x128 (.inl rfl) rfl

theorem slicesCol (b : Fin 16) : S640x128.Slices ![0, 8 * b.val] S640x8 := by
  revert b; decide

def colSlice (v3 : FVec F S640x128 .f32) (b : Fin 16) : FVec F S640x8 .f32 :=
  extractStridedSlice S640x8 ![0, 8 * b.val] v3 (slicesCol b)

theorem catRows {α : Type} (f : Fin 16 → (S640x8.Idx → α)) :
    Shape.Concatenates ((List.ofFn fun b : Fin 16 => (⟨S640x8, f b⟩ : (s : Shape) × (s.Idx → α))).map (·.1)) S10240x8 0 := by
  have e : (List.ofFn fun b : Fin 16 => (⟨S640x8, f b⟩ : (s : Shape) × (s.Idx → α))).map (·.1) = List.ofFn fun _ : Fin 16 => S640x8 := by
    rw [List.map_ofFn]; rfl
  rw [e]; decide

def rowsCat (v3 : FVec F S640x128 .f32) : FVec F S10240x8 .f32 :=
  concatenate S10240x8 0 (List.ofFn fun b : Fin 16 => (⟨S640x8, colSlice v3 b⟩ : (s : Shape) × (s.Idx → F .f32))) (catRows (colSlice v3))

theorem k3_pay2_eq (v1 v4 : Vec F S1x16x640x128 .f32) :
    k3_pay2 v1 v4 = concatenate S10000x16 1
      [⟨S10000x8, extractStridedSlice S10000x8 ![0, 0] (rowsCat (gsum v1)) slices_S10240x8_o0_0_S10000x8⟩,
       ⟨S10000x8, extractStridedSlice S10000x8 ![0, 0] (rowsCat (gsum v4)) slices_S10240x8_o0_0_S10000x8⟩]
      concatenates_S10000x8_S10000x8_S10000x16_d1 := rfl

theorem rowsCat_apply (v3 : FVec F S640x128 .f32) (r : Fin 10240) (k : Fin 8) :
    rowsCat v3 (ix2 r k)
      = v3 (ix2 (⟨r.val % 640, Nat.mod_lt _ (by decide)⟩ : Fin 640) (⟨8 * (r.val / 640) + k.val, by have := r.isLt; have := k.isLt; omega⟩ : Fin 128)) := by
  unfold rowsCat
  have hq : r.val / 640 < 16 := by have := r.isLt; omega
  rw [concatenate_ofFn_apply (t := S10240x8) (s₁ := S640x8) (0 : Fin 2) (colSlice v3) (catRows (colSlice v3)) rfl 640 rfl
    (ix2 r k) ⟨r.val / 640, hq⟩ rfl (ix2 (⟨r.val % 640, Nat.mod_lt _ (by decide)⟩ : Fin 640) k) rfl
    (fun b hb => by
      match b with
      | ⟨0, _⟩ => exact absurd rfl hb
      | ⟨1, _⟩ => rfl)]
  unfold colSlice
  exact slice2_axis1_apply _ v3 _ _ k _ rfl

theorem k3_pay2_apply_lo (v1 v4 : Vec F S1x16x640x128 .f32) (n : Fin 10000) (q : Fin 16) (hq : q.val < 8) :
    k3_pay2 v1 v4 (ix2 n q)
      = gsum v1 (ix2 (⟨n.val % 640, Nat.mod_lt _ (by decide)⟩ : Fin 640) (⟨8 * (n.val / 640) + q.val, by have := n.isLt; omega⟩ : Fin 128)) := by
  rw [k3_pay2_eq]
  rw [concatenate_pair_apply_left (t := S10000x16) (s₁ := S10000x8) (s₂ := S10000x8) (1 : Fin 2) _ _ concatenates_S10000x8_S10000x8_S10000x16_d1 (ix2 n q) rfl
    (ix2 n (⟨q.val, hq⟩ : Fin 8)) (fun b => by
      match b with
      | ⟨0, _⟩ => rfl
      | ⟨1, _⟩ => rfl)]
  rw [slice2_axis0_apply 0 (rowsCat (gsum v1)) slices_S10240x8_o0_0_S10000x8 n (⟨q.val, hq⟩ : Fin 8) (⟨n.val, by have := n.isLt; omega⟩ : Fin 10240) (Nat.zero_add _).symm]
  exact rowsCat_apply (gsum v1) _ _

theorem k3_pay2_apply_hi (v1 v4 : Vec F S1x16x640x128 .f32) (n : Fin 10000) (q : Fin 16) (hq : 8 ≤ q.val) :
    k3_pay2 v1 v4 (ix2 n q)
      = gsum v4 (ix2 (⟨n.val % 640, Nat.mod_lt _ (by decide)⟩ : Fin 640) (⟨8 * (n.val / 640) + (q.val - 8), by have := n.isLt; have := q.isLt; omega⟩ : Fin 128)) := by
  rw [k3_pay2_eq]
  have hq8 : q.val - 8 < 8 := by have := q.isLt; omega
  rw [concatenate_pair_apply_right (t := S10000x16) (s₁ := S10000x8) (s₂ := S10000x8) (1 : Fin 2) _ _ concatenates_S10000x8_S10000x8_S10000x16_d1 (ix2 n q) rfl rfl
    (ix2 n (⟨q.val - 8, hq8⟩ : Fin 8)) (fun b hb => by
      match b with
      | ⟨0, _⟩ => rfl
      | ⟨1, _⟩ => exact absurd rfl hb)
    (by show q.val - 8 + 8 = q.val; omega)]
  rw [slice2_axis0_apply 0 (rowsCat (gsum v4)) slices_S10240x8_o0_0_S10000x8 n (⟨q.val - 8, hq8⟩ : Fin 8) (⟨n.val, by have := n.isLt; omega⟩ : Fin 10240) (Nat.zero_add _).symm]
  exact rowsCat_apply (gsum v4) _ _

def pre3 (v0 : Vec F S10000x128 .f32) (v43 : FVec F S10000x16 .f32) (v45 : FVec F S128x256 .f32) (v47 : Vec F S16x256 .f32) (v51 : Vec F S1x256 .f32) :
    FVec F S10000x256 .f32 :=
  addf (addf (matmul dot_S10000x128_S128x256_S10000x256_1_0_0_1_n_n none v0 v45 (constant S10000x256 .f32 0x00000000#32))
      (matmul dot_S10000x16_S16x256_S10000x256_1_0_0_1_n_n none v43 (shapeCast S16x256 v47 shapeCasts_S16x256_S16x256) (constant S10000x256 .f32 0x00000000#32)))
    (broadcastTo S10000x256 (shapeCast S1x256 v51 shapeCasts_S1x256_S1x256) broadcasts_S1x256_S10000x256)

def hid3 (v0 : Vec F S10000x128 .f32) (p : FVec F S10000x256 .f32) (v57 : Vec F S256x128 .f32) (v60 : Vec F S1x128 .f32) : FVec F S10000x128 .f32 :=
  addf v0 (addf (matmul dot_S10000x256_S256x128_S10000x128_1_0_0_1_n_n none (mulf p (logistic p)) (shapeCast S256x128 v57 shapeCasts_S256x128_S256x128) (constant S10000x128 .f32 0x00000000#32))
    (broadcastTo S10000x128 (shapeCast S1x128 v60 shapeCasts_S1x128_S1x128) broadcasts_S1x128_S10000x128))

def mean3 (h : FVec F S10000x128 .f32) : FVec F S1x128 .f32 :=
  divf (shapeCast S1x128 (multiReduction .add [0] S128 h 0x00000000#32 reduces_S10000x128_S128 (.inl rfl) rfl) shapeCasts_S128_S1x128)
    (broadcast S1x128 (Scalar.ofBits .f32 0x461C4000#32))

def dev3 (h : FVec F S10000x128 .f32) : FVec F S10000x128 .f32 :=
  subf h (broadcastTo S10000x128 (mean3 h) broadcasts_S1x128_S10000x128)

def var3 (h : FVec F S10000x128 .f32) : FVec F S1x128 .f32 :=
  divf (shapeCast S1x128 (multiReduction .add [0] S128 (mulf (dev3 h) (dev3 h)) 0x00000000#32 reduces_S10000x128_S128 (.inl rfl) rfl) shapeCasts_S128_S1x128)
    (broadcast S1x128 (Scalar.ofBits .f32 0x461C4000#32))

def norm3 (h : FVec F S10000x128 .f32) : FVec F S10000x128 .f32 :=
  mulf (dev3 h) (broadcastTo S10000x128 (rsqrt (addf (var3 h) (broadcast S1x128 (Scalar.ofBits .f32 0x3727C5AC#32)))) broadcasts_S1x128_S10000x128)

theorem k3_pay4_eq (v0 : Vec F S10000x128 .f32) (v43 : FVec F S10000x16 .f32) (v45 : FVec F S128x256 .f32) (v47 : Vec F S16x256 .f32)
    (v51 : Vec F S1x256 .f32) (v57 : Vec F S256x128 .f32) (v60 : Vec F S1x128 .f32) :
    k3_pay4 v0 v43 v45 v47 v51 v57 v60 = norm3 (hid3 v0 (pre3 v0 v43 v45 v47 v51) v57 v60) := rfl

def last3 (v84 v87 : FVec F S10000x128 .f32) (v89 : Vec F S1x128 .f32) (v93 : Vec F S128x3 .f32) (v96 : Vec F S1x3 .f32) : FVec F S10000x3 .f32 :=
  addf (matmul dot_S10000x128_S128x3_S10000x3_1_0_0_1_n_n none
      (addf (mulf v84 v87) (broadcastTo S10000x128 (shapeCast S1x128 v89 shapeCasts_S1x128_S1x128) broadcasts_S1x128_S10000x128))
      (shapeCast S128x3 v93 shapeCasts_S128x3_S128x3) (constant S10000x3 .f32 0x00000000#32))
    (broadcastTo S10000x3 (shapeCast S1x3 v96 shapeCasts_S1x3_S1x3) broadcasts_S1x3_S10000x3)

theorem k3_pay1_eq (v84 v87 : FVec F S10000x128 .f32) (v89 : Vec F S1x128 .f32) (v93 : Vec F S128x3 .f32) (v96 : Vec F S1x3 .f32) :
    k3_pay1 v84 v87 v89 v93 v96 = last3 v84 v87 v89 v93 v96 := rfl

end Cert.Proof.KI.R3Pay

end
-- ==== Proof.KI.R3PayIdeal.lean ====
import proofs.«205084_g25537875542483_cont_9to1_419_23_alg».proof.Proof.KI.R3Pay
import Idealize.ShloMosaic.PureOps.Ideal.Laws
import Idealize.ShloMosaic.Lib.StackMember

set_option maxRecDepth 16384

noncomputable section

namespace Cert.Proof.KI.R3PayIdeal

open Cert.KernelIdeal Cert.KernelIdeal.Gen Cert.Proof.KI.R3Pay
open Idealize.ShloMosaic Idealize.ShloMosaic.ValueIdx
open Idealize.SL.Sem

theorem matmul_plain_apply {m k n : Nat} {φ₁ φ₂ : FTy}
    (w : DotDims.WF (⟨2, ![m, k]⟩ : Shape) ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (acc : FVec Ideal ⟨2, ![m, n]⟩ .f32) (a : Fin m) (b : Fin n) :
    matmul (⟨[1], [0], [0], [1], [], [], w⟩ : DotDims _ _ _) prec A B acc (ix2 a b)
      = acc (ix2 a b) + ∑ c : Fin k, A (ix2 a c) * B (ix2 c b) := by
  rw [← StackMember.dotGeneral_plain_apply prec A B a b]
  show FloatOps.matmul _ prec A B acc (ix2 a b) = acc (ix2 a b) + FloatOps.dotGeneral (DotDims.plain m k n) prec _ A B (ix2 a b)
  rw [Ideal.matmul_apply, Ideal.dotGeneral_apply]
  rfl

theorem matmul_plain_zero_apply {m k n : Nat} {φ₁ φ₂ : FTy}
    (w : DotDims.WF (⟨2, ![m, k]⟩ : Shape) ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  rw [matmul_plain_apply, constant_apply, Ideal.ofBits_zero_f32, zero_add]

theorem gsum_apply (v : Vec Ideal S1x16x640x128 .f32) (r : Fin 640) (c : Fin 128) :
    gsum v (ix2 r c) = ∑ g : Fin 16, v (ix4 (0 : Fin 1) g r c) := by
  show multiReduction (F := Ideal) .add [0] S640x128 (shapeCast S16x640x128 v shapeCasts_S1x16x640x128_S16x640x128) 0x00000000#32
    reduces_S16x640x128_S640x128 (.inl rfl) rfl (ix2 r c) = _
  refine (Ideal.multiReduction_add_single _ _ _ _ _ _).trans (Finset.sum_congr rfl fun g _ => ?_)
  exact shapeCast_1abc_abc_apply v shapeCasts_S1x16x640x128_S16x640x128 g r c

theorem k3_pay2_ideal_lo (v1 v4 : Vec Ideal S1x16x640x128 .f32) (n : Fin 10000) (q : Fin 16) (hq : q.val < 8) :
    k3_pay2 v1 v4 (ix2 n q)
      = ∑ g : Fin 16, v1 (ix4 (0 : Fin 1) g (⟨n.val % 640, Nat.mod_lt _ (by decide)⟩ : Fin 640) (⟨8 * (n.val / 640) + q.val, by have := n.isLt; omega⟩ : Fin 128)) := by
  rw [k3_pay2_apply_lo v1 v4 n q hq, gsum_apply]

theorem k3_pay2_ideal_hi (v1 v4 : Vec Ideal S1x16x640x128 .f32) (n : Fin 10000) (q : Fin 16) (hq : 8 ≤ q.val) :
    k3_pay2 v1 v4 (ix2 n q)
      = ∑ g : Fin 16, v4 (ix4 (0 : Fin 1) g (⟨n.val % 640, Nat.mod_lt _ (by decide)⟩ : Fin 640) (⟨8 * (n.val / 640) + (q.val - 8), by have := n.isLt; have := q.isLt; omega⟩ : Fin 128)) := by
  rw [k3_pay2_apply_hi v1 v4 n q hq, gsum_apply]

theorem pre3_apply (v0 : FVec Ideal S10000x128 .f32) (v43 : FVec Ideal S10000x16 .f32) (v45 : FVec Ideal S128x256 .f32)
    (v47 : FVec Ideal S16x256 .f32) (v51 : FVec Ideal S1x256 .f32) (n : Fin 10000) (k : Fin 256) :
    pre3 v0 v43 v45 v47 v51 (ix2 n k)
      = ((∑ c : Fin 128, v0 (ix2 n c) * v45 (ix2 c k)) + ∑ q : Fin 16, v43 (ix2 n q) * v47 (ix2 q k)) + v51 (ix2 (0 : Fin 1) k) := by
  show (matmul dot_S10000x128_S128x256_S10000x256_1_0_0_1_n_n none v0 v45 (constant S10000x256 .f32 0x00000000#32) (ix2 n k)
      + matmul dot_S10000x16_S16x256_S10000x256_1_0_0_1_n_n none v43 (shapeCast S16x256 v47 shapeCasts_S16x256_S16x256) (constant S10000x256 .f32 0x00000000#32) (ix2 n k))
    + broadcastTo S10000x256 (shapeCast S1x256 v51 shapeCasts_S1x256_S1x256) broadcasts_S1x256_S10000x256 (ix2 n k) = _
  rw [show dot_S10000x128_S128x256_S10000x256_1_0_0_1_n_n = ⟨[1], [0], [0], [1], [], [], dot_S10000x128_S128x256_S10000x256_1_0_0_1_n_n_wf⟩ from rfl,
    show dot_S10000x16_S16x256_S10000x256_1_0_0_1_n_n = ⟨[1], [0], [0], [1], [], [], dot_S10000x16_S16x256_S10000x256_1_0_0_1_n_n_wf⟩ from rfl,
    matmul_plain_zero_apply, matmul_plain_zero_apply, broadcastTo_1b_ab_apply, shapeCast_self_apply]
  simp only [shapeCast_self_apply]

theorem hid3_apply (v0 : FVec Ideal S10000x128 .f32) (p : FVec Ideal S10000x256 .f32) (v57 : FVec Ideal S256x128 .f32)
    (v60 : FVec Ideal S1x128 .f32) (n : Fin 10000) (c : Fin 128) :
    hid3 v0 p v57 v60 (ix2 n c)
      = v0 (ix2 n c) + ((∑ k : Fin 256, (p (ix2 n k) * Ideal.logistic (p (ix2 n k))) * v57 (ix2 k c)) + v60 (ix2 (0 : Fin 1) c)) := by
  show v0 (ix2 n c) + (matmul dot_S10000x256_S256x128_S10000x128_1_0_0_1_n_n none (mulf p (logistic p)) (shapeCast S256x128 v57 shapeCasts_S256x128_S256x128) (constant S10000x128 .f32 0x00000000#32) (ix2 n c)
      + broadcastTo S10000x128 (shapeCast S1x128 v60 shapeCasts_S1x128_S1x128) broadcasts_S1x128_S10000x128 (ix2 n c)) = _
  rw [show dot_S10000x256_S256x128_S10000x128_1_0_0_1_n_n = ⟨[1], [0], [0], [1], [], [], dot_S10000x256_S256x128_S10000x128_1_0_0_1_n_n_wf⟩ from rfl,
    matmul_plain_zero_apply, broadcastTo_1b_ab_apply, shapeCast_self_apply]
  simp only [shapeCast_self_apply]
  rfl

abbrev nodes : EReal := Ideal.ofBits .f32 0x461C4000#32

abbrev eps : EReal := Ideal.ofBits .f32 0x3727C5AC#32

theorem lift_rows (c : Fin 128) (n : Fin 10000) : reduces_S10000x128_S128.lift (ix1 c) n = ix2 n c := by
  funext a; apply Fin.ext
  match a with
  | ⟨0, _⟩ => rfl
  | ⟨1, _⟩ => rfl

theorem mean3_apply (h : FVec Ideal S10000x128 .f32) (u : Fin 1) (c : Fin 128) :
    mean3 h (ix2 u c) = Ideal.div (∑ n : Fin 10000, h (ix2 n c)) nodes := by
  show Ideal.div (shapeCast S1x128 (multiReduction (F := Ideal) .add [0] S128 h 0x00000000#32 reduces_S10000x128_S128 (.inl rfl) rfl) shapeCasts_S128_S1x128 (ix2 u c)) nodes = _
  rw [shapeCast_a_1a_apply]
  exact congrArg (Ideal.div · nodes) ((Ideal.multiReduction_add_single _ _ _ _ _ _).trans (Finset.sum_congr rfl fun n _ => congrArg h (lift_rows c n)))

theorem dev3_apply (h : FVec Ideal S10000x128 .f32) (n : Fin 10000) (c : Fin 128) :
    dev3 h (ix2 n c) = h (ix2 n c) - mean3 h (ix2 (0 : Fin 1) c) := by
  show h (ix2 n c) - broadcastTo S10000x128 (mean3 h) broadcasts_S1x128_S10000x128 (ix2 n c) = _
  rw [broadcastTo_1b_ab_apply]

theorem var3_apply (h : FVec Ideal S10000x128 .f32) (u : Fin 1) (c : Fin 128) :
    var3 h (ix2 u c) = Ideal.div (∑ n : Fin 10000, dev3 h (ix2 n c) * dev3 h (ix2 n c)) nodes := by
  show Ideal.div (shapeCast S1x128 (multiReduction (F := Ideal) .add [0] S128 (mulf (dev3 h) (dev3 h)) 0x00000000#32 reduces_S10000x128_S128 (.inl rfl) rfl) shapeCasts_S128_S1x128 (ix2 u c)) nodes = _
  rw [shapeCast_a_1a_apply]
  exact congrArg (Ideal.div · nodes) ((Ideal.multiReduction_add_single _ _ _ _ _ _).trans (Finset.sum_congr rfl fun n _ => congrArg (mulf (dev3 h) (dev3 h)) (lift_rows c n)))

theorem norm3_apply (h : FVec Ideal S10000x128 .f32) (n : Fin 10000) (c : Fin 128) :
    norm3 h (ix2 n c) = dev3 h (ix2 n c) * Ideal.rsqrt (var3 h (ix2 (0 : Fin 1) c) + eps) := by
  show dev3 h (ix2 n c) * broadcastTo S10000x128 (rsqrt (addf (var3 h) (broadcast S1x128 (Scalar.ofBits .f32 0x3727C5AC#32)))) broadcasts_S1x128_S10000x128 (ix2 n c) = _
  rw [broadcastTo_1b_ab_apply]
  rfl

theorem last3_apply (v84 v87 : FVec Ideal S10000x128 .f32) (v89 : FVec Ideal S1x128 .f32) (v93 : FVec Ideal S128x3 .f32)
    (v96 : FVec Ideal S1x3 .f32) (n : Fin 10000) (j : Fin 3) :
    last3 v84 v87 v89 v93 v96 (ix2 n j)
      = (∑ c : Fin 128, (v84 (ix2 n c) * v87 (ix2 n c) + v89 (ix2 (0 : Fin 1) c)) * v93 (ix2 c j)) + v96 (ix2 (0 : Fin 1) j) := by
  show matmul dot_S10000x128_S128x3_S10000x3_1_0_0_1_n_n none
        (addf (mulf v84 v87) (broadcastTo S10000x128 (shapeCast S1x128 v89 shapeCasts_S1x128_S1x128) broadcasts_S1x128_S10000x128))
        (shapeCast S128x3 v93 shapeCasts_S128x3_S128x3) (constant S10000x3 .f32 0x00000000#32) (ix2 n j)
      + broadcastTo S10000x3 (shapeCast S1x3 v96 shapeCasts_S1x3_S1x3) broadcasts_S1x3_S10000x3 (ix2 n j) = _
  rw [show dot_S10000x128_S128x3_S10000x3_1_0_0_1_n_n = ⟨[1], [0], [0], [1], [], [], dot_S10000x128_S128x3_S10000x3_1_0_0_1_n_n_wf⟩ from rfl,
    matmul_plain_zero_apply, broadcastTo_1b_ab_apply, shapeCast_self_apply]
  refine congrArg (· + v96 (ix2 (0 : Fin 1) j)) (Finset.sum_congr rfl fun c _ => ?_)
  rw [shapeCast_self_apply]
  show (v84 (ix2 n c) * v87 (ix2 n c) + broadcastTo S10000x128 (shapeCast S1x128 v89 shapeCasts_S1x128_S1x128) broadcasts_S1x128_S10000x128 (ix2 n c)) * v93 (ix2 c j) = _
  rw [broadcastTo_1b_ab_apply, shapeCast_self_apply]

end Cert.Proof.KI.R3PayIdeal

end
-- ==== Proof.KI.R3ValIdeal.lean ====
import proofs.«205084_g25537875542483_cont_9to1_419_23_alg».proof.Proof.KI.R3Dat
import proofs.«205084_g25537875542483_cont_9to1_419_23_alg».proof.Proof.KI.R3PayIdeal

set_option maxRecDepth 16384

noncomputable section

namespace Cert.Proof.KI.R3ValIdeal

open Cert.KernelIdeal Cert.KernelIdeal.Gen Cert.Proof.KI.R3Dat Cert.Proof.KI.R3Pay Cert.Proof.KI.R3PayIdeal
open Idealize.ShloMosaic Idealize.ShloMosaic.ValueIdx
open Idealize.SL.Sem

theorem ld_whole2 {Val : EltTy → Type} {e : EltTy} {a b : Nat} (inb : ∀ i, (![0, 0] : Fin 2 → Nat) i + (⟨2, ![a, b]⟩ : Shape).size i ≤ (⟨2, ![a, b]⟩ : Shape).size i)
    (X : (⟨2, ![a, b]⟩ : Shape).Idx → Val e) :
    View.ld X (Rect.unit (s := ⟨2, ![a, b]⟩) ![0, 0] (⟨2, ![a, b]⟩ : Shape).size inb) = X :=
  View.ld_unit_zero (by funext i; match i with | ⟨0, _⟩ => rfl | ⟨1, _⟩ => rfl) inb X

theorem ld3_0 {F : FTy → Type} (x : Vec F S10000x128 .f32) : View.ld x r3_0 = x := ld_whole2 _ x
theorem ld3_2 {F : FTy → Type} (x : Vec F S128x256 .f32) : View.ld x r3_2 = x := ld_whole2 _ x
theorem ld3_3 {F : FTy → Type} (x : Vec F S16x256 .f32) : View.ld x r3_3 = x := ld_whole2 _ x
theorem ld3_4 {F : FTy → Type} (x : Vec F S1x256 .f32) : View.ld x r3_4 = x := ld_whole2 _ x
theorem ld3_5 {F : FTy → Type} (x : Vec F S256x128 .f32) : View.ld x r3_5 = x := ld_whole2 _ x
theorem ld3_6 {F : FTy → Type} (x : Vec F S1x128 .f32) : View.ld x r3_6 = x := ld_whole2 _ x
theorem ld3_9 {F : FTy → Type} (x : Vec F S128x3 .f32) : View.ld x r3_9 = x := ld_whole2 _ x
theorem ld3_10 {F : FTy → Type} (x : Vec F S1x3 .f32) : View.ld x r3_10 = x := ld_whole2 _ x

theorem ld_half0 {F : FTy → Type} (x1 : Vec F S2x16x640x128 .f32) (g : Fin 16) (r : Fin 640) (c : Fin 128) :
    View.ld x1 r3_1a (ix4 (0 : Fin 1) g r c) = x1 (ix4 (0 : Fin 2) g r c) :=
  congrArg x1 (funext fun a => Fin.ext (by
    match a with
    | ⟨0, _⟩ => rfl
    | ⟨1, _⟩ => show 0 + 1 * g.val = g.val; omega
    | ⟨2, _⟩ => show 0 + 1 * r.val = r.val; omega
    | ⟨3, _⟩ => show 0 + 1 * c.val = c.val; omega))

theorem ld_half1 {F : FTy → Type} (x1 : Vec F S2x16x640x128 .f32) (g : Fin 16) (r : Fin 640) (c : Fin 128) :
    View.ld x1 r3_1b (ix4 (0 : Fin 1) g r c) = x1 (ix4 (1 : Fin 2) g r c) :=
  congrArg x1 (funext fun a => Fin.ext (by
    match a with
    | ⟨0, _⟩ => rfl
    | ⟨1, _⟩ => show 0 + 1 * g.val = g.val; omega
    | ⟨2, _⟩ => show 0 + 1 * r.val = r.val; omega
    | ⟨3, _⟩ => show 0 + 1 * c.val = c.val; omega))

variable (x0 : FVec Ideal S10000x128 .f32) (x1 : FVec Ideal S2x16x640x128 .f32) (x2 : FVec Ideal S128x256 .f32) (x3 : FVec Ideal S16x256 .f32) (x4 : FVec Ideal S1x256 .f32) (x5 : FVec Ideal S256x128 .f32) (x6 : FVec Ideal S1x128 .f32) (x7 : FVec Ideal S1x128 .f32) (x8 : FVec Ideal S1x128 .f32) (x9 : FVec Ideal S128x3 .f32) (x10 : FVec Ideal S1x3 .f32)

def agg (n : Fin 10000) (q : Fin 16) : EReal :=
  ∑ g : Fin 16, x1 (ix4 (⟨q.val / 8, by have := q.isLt; omega⟩ : Fin 2) g (⟨n.val % 640, Nat.mod_lt _ (by decide)⟩ : Fin 640)
    (⟨8 * (n.val / 640) + q.val % 8, by have := n.isLt; have := q.isLt; omega⟩ : Fin 128))

def preAct (n : Fin 10000) (k : Fin 256) : EReal :=
  ((∑ c : Fin 128, x0 (ix2 n c) * x2 (ix2 c k)) + ∑ q : Fin 16, agg x1 n q * x3 (ix2 q k)) + x4 (ix2 (0 : Fin 1) k)

def resid (n : Fin 10000) (c : Fin 128) : EReal :=
  x0 (ix2 n c) + ((∑ k : Fin 256, (preAct x0 x1 x2 x3 x4 n k * Ideal.logistic (preAct x0 x1 x2 x3 x4 n k)) * x5 (ix2 k c)) + x6 (ix2 (0 : Fin 1) c))

def colMean (H : Fin 10000 → Fin 128 → EReal) (c : Fin 128) : EReal := Ideal.div (∑ n : Fin 10000, H n c) nodes

def colVar (H : Fin 10000 → Fin 128 → EReal) (c : Fin 128) : EReal :=
  Ideal.div (∑ n : Fin 10000, (H n c - colMean H c) * (H n c - colMean H c)) nodes

def normed (H : Fin 10000 → Fin 128 → EReal) (n : Fin 10000) (c : Fin 128) : EReal :=
  (H n c - colMean H c) * Ideal.rsqrt (colVar H c + eps)

def outAt (n : Fin 10000) (j : Fin 3) : EReal :=
  (∑ c : Fin 128, (normed (resid x0 x1 x2 x3 x4 x5 x6) n c * x7 (ix2 (0 : Fin 1) c) + x8 (ix2 (0 : Fin 1) c)) * x9 (ix2 c j)) + x10 (ix2 (0 : Fin 1) j)

theorem k3_pay2_agg (n : Fin 10000) (q : Fin 16) :
    k3_pay2 (F := Ideal) (View.ld x1 r3_1a) (View.ld x1 r3_1b) (ix2 n q) = agg x1 n q := by
  unfold agg
  by_cases hq : q.val < 8
  · rw [k3_pay2_ideal_lo _ _ n q hq]
    refine Finset.sum_congr rfl fun g _ => (ld_half0 (F := Ideal) x1 g _ _).trans (congrArg x1 ?_)
    funext a; apply Fin.ext
    match a with
    | ⟨0, _⟩ => show 0 = q.val / 8; omega
    | ⟨1, _⟩ => rfl
    | ⟨2, _⟩ => rfl
    | ⟨3, _⟩ => show 8 * (n.val / 640) + q.val = 8 * (n.val / 640) + q.val % 8; omega
  · have hq' : 8 ≤ q.val := Nat.le_of_not_lt hq
    rw [k3_pay2_ideal_hi _ _ n q hq']
    refine Finset.sum_congr rfl fun g _ => (ld_half1 (F := Ideal) x1 g _ _).trans (congrArg x1 ?_)
    funext a; apply Fin.ext
    match a with
    | ⟨0, _⟩ => show 1 = q.val / 8; have := q.isLt; omega
    | ⟨1, _⟩ => rfl
    | ⟨2, _⟩ => rfl
    | ⟨3, _⟩ => show 8 * (n.val / 640) + (q.val - 8) = 8 * (n.val / 640) + q.val % 8; have := q.isLt; omega

theorem hid_resid (n : Fin 10000) (c : Fin 128) :
    hid3 (F := Ideal) (View.ld x0 r3_0) (pre3 (View.ld x0 r3_0) (k3_pay2 (View.ld x1 r3_1a) (View.ld x1 r3_1b)) (k3_pay3 (View.ld x2 r3_2)) (View.ld x3 r3_3) (View.ld x4 r3_4))
        (View.ld x5 r3_5) (View.ld x6 r3_6) (ix2 n c)
      = resid x0 x1 x2 x3 x4 x5 x6 n c := by
  have e0 := ld3_0 (F := Ideal) x0
  have e2 := ld3_2 (F := Ideal) x2
  have e3 := ld3_3 (F := Ideal) x3
  have e4 := ld3_4 (F := Ideal) x4
  have e5 := ld3_5 (F := Ideal) x5
  have e6 := ld3_6 (F := Ideal) x6
  rw [e0, e2, e3, e4, e5, e6, hid3_apply]
  unfold resid preAct
  simp only [pre3_apply, k3_pay3_apply, k3_pay2_agg]

theorem norm3_normed (h : FVec Ideal S10000x128 .f32) (H : Fin 10000 → Fin 128 → EReal) (hH : ∀ n c, h (ix2 n c) = H n c)
    (n : Fin 10000) (c : Fin 128) : norm3 h (ix2 n c) = normed H n c := by
  rw [norm3_apply]
  unfold normed colVar colMean
  simp only [dev3_apply, var3_apply, mean3_apply, hH]

theorem val3_apply (n : Fin 10000) (j : Fin 3) :
    val3 (F := Ideal) x0 x1 x2 x3 x4 x5 x6 x7 x8 x9 x10 (ix2 n j) = outAt x0 x1 x2 x3 x4 x5 x6 x7 x8 x9 x10 n j := by
  have e0 := ld3_0 (F := Ideal) x0
  have e2 := ld3_2 (F := Ideal) x2
  have e3 := ld3_3 (F := Ideal) x3
  have e4 := ld3_4 (F := Ideal) x4
  have e5 := ld3_5 (F := Ideal) x5
  have e6 := ld3_6 (F := Ideal) x6
  have e7 := ld3_6 (F := Ideal) x7
  have e8 := ld3_6 (F := Ideal) x8
  have e9 := ld3_9 (F := Ideal) x9
  have e10 := ld3_10 (F := Ideal) x10
  have hres := hid_resid x0 x1 x2 x3 x4 x5 x6
  rw [e0, e2, e3, e4, e5, e6] at hres
  unfold val3 outAt
  rw [e0, e2, e3, e4, e5, e6, e7, e8, e9, e10, k3_pay1_eq, k3_pay4_eq, last3_apply]
  simp only [k3_pay5_apply]
  refine congrArg (· + x10 (ix2 (0 : Fin 1) j)) (Finset.sum_congr rfl fun c _ => ?_)
  rw [norm3_normed _ (resid x0 x1 x2 x3 x4 x5 x6) hres n c]

theorem out3_11_apply (n : Fin 10000) (j : Fin 3) :
    out3_11 (F := Ideal) x0 x1 x2 x3 x4 x5 x6 x7 x8 x9 x10 (ix2 n j) = outAt x0 x1 x2 x3 x4 x5 x6 x7 x8 x9 x10 n j := by
  unfold out3_11
  rw [View.canon_unit_zero (by funext i; match i with | ⟨0, _⟩ => rfl | ⟨1, _⟩ => rfl)]
  exact val3_apply x0 x1 x2 x3 x4 x5 x6 x7 x8 x9 x10 n j

end Cert.Proof.KI.R3ValIdeal

end
-- ==== Proof.KI.R3ArrIdeal.lean ====
import proofs.«205084_g25537875542483_cont_9to1_419_23_alg».proof.Proof.KI.R3Val
import proofs.«205084_g25537875542483_cont_9to1_419_23_alg».proof.Proof.KI.R3ValIdeal
import Idealize.ShloMosaic.Lib.IdealHost

set_option maxRecDepth 16384

noncomputable section

namespace Cert.Proof.KI.R3ArrIdeal

open Cert.KernelIdeal Cert.KernelIdeal.Gen Cert.Proof.KI Cert.Proof.KI.R3Dat Cert.Proof.KI.R3Val Cert.Proof.KI.R3PayIdeal Cert.Proof.KI.R3ValIdeal
open Idealize.ShloMosaic Idealize.ShloMosaic.TcCoe Idealize.ShloMosaic.ValueIdx
open Idealize.ShloMosaic.SparseCore.Cfg (HIx)
open Idealize.SL Idealize.SL.Sem

section Out
variable (V : (c : Dev nD) → (b : Ref sig .tc) → Buf (Elt Ideal) ((c : Thread nD τ).loc b))
  (O : CellTallies nD τ sig (HIx 2)) (Rec : Set (SemLoc sig × HIx 2))

set_option maxHeartbeats 2000000 in
theorem arrAt3_out_apply (c : Dev nD) (n : Fin 10000) (j : Fin 3) :
    (dat3 V O Rec c).arrAt 11 cfg3.N (ix2 n j) = outAt (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) n j := by
  refine Eq.trans ?_ ((congrFun (arrAt3_out V O Rec c) (ix2 n j)).trans ((congrFun ?e (ix2 n j)).trans (out3_11_apply _ _ _ _ _ _ _ _ _ _ _ n j)))
  case e =>
    congr 1 <;> (funext y; exact congrArg (V c (Pipeline.arrRef spec3 _)) (funext fun a => Fin.ext (Pipeline.Window.rect_emb_val_of_index_zero _ _ _ rfl y)))
  show (dat3 V O Rec c).arrAt 11 cfg3.N (ix2 n j) = (dat3 V O Rec c).arrAt 11 cfg3.N (((cfg3.win 11).rect t3_0).emb (ix2 n j))
  exact congrArg _ (funext fun a => Fin.ext (Pipeline.Window.rect_emb_val_of_index_zero (cfg3.win 11) t3_0 a rfl (ix2 n j)).symm)

end Out

theorem nodes_eq : nodes = ((10000 : ℝ) : EReal) := by
  show Ideal.ofBits .f32 0x461C4000#32 = _
  simp [Ideal.ofBits, Ideal.ieee, -EReal.coe_mul]; norm_num

theorem eps_eq : eps = ((10995116 / 1099511627776 : ℝ) : EReal) := by
  show Ideal.ofBits .f32 0x3727C5AC#32 = _
  simp [Ideal.ofBits, Ideal.ieee, -EReal.coe_mul]; norm_num

theorem eps_pos : 0 < eps := by
  rw [eps_eq]; exact EReal.coe_pos.mpr (by norm_num)

end Cert.Proof.KI.R3ArrIdeal

end
-- ==== Proof.LibRsqrtDiv.lean ====
import Idealize.ShloMosaic.PureOps.Ideal
import Idealize.ShloMosaic.PureOps.Ideal.Laws

noncomputable section

open scoped BigOperators

namespace Cert.RsqrtDiv

open Idealize.ShloMosaic

theorem mul_rsqrt_eq_div_sqrt (a v : EReal) (hv : 0 < v) : a * Ideal.rsqrt v = Ideal.div a (Ideal.sqrt v) := by
  induction v using EReal.rec with
  | bot => exact absurd hv (not_lt_bot)
  | top =>
    rw [Ideal.rsqrt_top, Ideal.sqrt_top, Ideal.div, if_neg EReal.top_ne_zero, EReal.inv_top]
  | coe r =>
    have hr : 0 < r := EReal.coe_pos.mp hv
    have hs : 0 < Real.sqrt r := Real.sqrt_pos.mpr hr
    rw [Ideal.rsqrt_coe, Ideal.sqrt_coe, if_neg (not_lt.mpr hr.le), if_neg hr.ne', if_neg (not_lt.mpr hr.le),
      Ideal.div_coe hs.ne', one_div]

theorem mul_self_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (_root_.mul_self_nonneg r)

theorem sum_mul_self_nonneg {ι : Type*} (S : Finset ι) (f : ι → EReal) : 0 ≤ ∑ i ∈ S, f i * f i :=
  Finset.sum_nonneg fun i _ => mul_self_nonneg (f i)

theorem div_nonneg_of_pos {x : EReal} (hx : 0 ≤ x) {n : ℝ} (hn : 0 < n) : 0 ≤ Ideal.div x (n : EReal) := by
  rw [Ideal.div_coe hn.ne']
  exact EReal.mul_nonneg hx (EReal.coe_nonneg.mpr (one_div_pos.mpr hn).le)

end Cert.RsqrtDiv

end
-- ==== Proof.KI.R3VarPos.lean ====
import proofs.«205084_g25537875542483_cont_9to1_419_23_alg».proof.Proof.KI.R3ArrIdeal
import proofs.«205084_g25537875542483_cont_9to1_419_23_alg».proof.Proof.LibRsqrtDiv

noncomputable section

open scoped BigOperators

namespace Cert.Proof.KI.R3VarPos

open Cert.Proof.KI.R3PayIdeal Cert.Proof.KI.R3ValIdeal Cert.Proof.KI.R3ArrIdeal
open Idealize.ShloMosaic

theorem colVar_nonneg (H : Fin 10000 → Fin 128 → EReal) (c : Fin 128) : 0 ≤ colVar H c := by
  unfold colVar
  rw [nodes_eq]
  exact Cert.RsqrtDiv.div_nonneg_of_pos (Cert.RsqrtDiv.sum_mul_self_nonneg Finset.univ fun n => H n c - colMean H c) (by norm_num)

theorem colVar_add_eps_pos (H : Fin 10000 → Fin 128 → EReal) (c : Fin 128) : 0 < colVar H c + eps :=
  lt_of_lt_of_le eps_pos (le_add_of_nonneg_left (colVar_nonneg H c))

theorem normed_eq_div (H : Fin 10000 → Fin 128 → EReal) (n : Fin 10000) (c : Fin 128) :
    normed H n c = Ideal.div (H n c - colMean H c) (Ideal.sqrt (colVar H c + eps)) :=
  Cert.RsqrtDiv.mul_rsqrt_eq_div_sqrt _ _ (colVar_add_eps_pos H c)

end Cert.Proof.KI.R3VarPos

end
-- ==== Proof.RefRun.lean ====
import proofs.«205084_g25537875542483_cont_9to1_419_23_alg».proof.Defs
import proofs.«205084_g25537875542483_cont_9to1_419_23_alg».proof.Proof.Gen.ReferenceIdeal
import Idealize.ShloMosaic.Lib.StableHlo.Run

set_option Elab.async false

noncomputable section

namespace Cert.Proof.RefRun

open Cert.ReferenceIdeal Cert.ReferenceIdeal.Gen Idealize.ShloMosaic Idealize.ShloMosaic.TcCoe Idealize.SL.Sem Idealize.ShloMosaic.StableHlo

section General

variable {τ : Topo} {sig : RefSig} {Val : EltTy → Type}

theorem after_append' : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

theorem nary3_result {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

-- A line whose operations write, one each, the references listed in `W` leaves every other reference as it was.
theorem after_keep {l : List (HloOp τ sig Val)} {W : List (Ref sig .tc)}
    (h : l.map (·.writes) = W.map fun y => ({Proc.devRef .tc y} : Finset (DevRef τ sig))) (V : Valuation τ sig Val)
    {r : Ref sig .tc} (hr : r ∉ W) : after l V (Proc.devRef .tc r) = V (Proc.devRef .tc r) :=
  after_of_writes_sub l V (List.forall_iff_forall_mem.mpr fun op hop => by
    obtain ⟨y, hy, e⟩ := List.mem_map.mp (h ▸ List.mem_map_of_mem (f := HloOp.writes) hop)
    rw [← e]
    exact Finset.singleton_subset_iff.mpr (List.mem_toFinset.mpr (List.mem_map_of_mem hy))) hr

end General

variable {F : FTy → Type} [FloatOps F]

def row0 (ei : IVec S2x320000 32) : IVec S320000 32 :=
  shapeCast S320000 (extractStridedSlice S1x320000 ![0, 0] ei slices_S2x320000_S1x320000_0_0) shapeCasts_S1x320000_S320000

def row1 (ei : IVec S2x320000 32) : IVec S320000 32 :=
  shapeCast S320000 (extractStridedSlice S1x320000 ![1, 0] ei slices_S2x320000_S1x320000_1_0) shapeCasts_S1x320000_S320000

def wrap (v : IVec S320000 32) : IVec S320000x1 32 :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v)

def gatherPos (pos : FVec F S10000x3 .f32) (i : IVec S320000x1 32) : FVec F S320000x3 .f32 :=
  Host.gather gather_S10000x3_S320000x1_S320000x3_1_0_n_n_0_1_13 pos i

def gatherFeat (x : FVec F S10000x128 .f32) (i : IVec S320000x1 32) : FVec F S320000x128 .f32 :=
  Host.gather gather_S10000x128_S320000x1_S320000x128_1_0_n_n_0_1_1128 x i

def relCoors (pos : FVec F S10000x3 .f32) (ei : IVec S2x320000 32) : FVec F S320000x3 .f32 :=
  subf (gatherPos pos (wrap (row0 ei))) (gatherPos pos (wrap (row1 ei)))

def relDist (rc : FVec F S320000x3 .f32) : FVec F S320000x1 .f32 :=
  broadcastInDim S320000x1 ![0] bcast_S320000_S320000x1_0
    (Host.reduceAdd (mulf rc rc) (constant S_ .f32 0x00000000#32) reducesTo_S320000x3_S320000_d1 h_S_)

def relDistOf (pos : FVec F S10000x3 .f32) (ei : IVec S2x320000 32) : FVec F S320000x1 .f32 :=
  relDist (relCoors pos ei)

def xI (x : FVec F S10000x128 .f32) (ei : IVec S2x320000 32) : FVec F S320000x128 .f32 :=
  gatherFeat x (wrap (row1 ei))

def xJ (x : FVec F S10000x128 .f32) (ei : IVec S2x320000 32) : FVec F S320000x128 .f32 :=
  gatherFeat x (wrap (row0 ei))

def mIn (xi xj : FVec F S320000x128 .f32) (rd : FVec F S320000x1 .f32) : FVec F S320000x257 .f32 :=
  concatenate S320000x257 1 [⟨S320000x128, xi⟩, ⟨S320000x128, xj⟩, ⟨S320000x1, rd⟩]
    concatenates_S320000x128_S320000x128_S320000x1_S320000x257_d1

def mInOf (x : FVec F S10000x128 .f32) (ei : IVec S2x320000 32) (pos : FVec F S10000x3 .f32) : FVec F S320000x257 .f32 :=
  mIn (xI x ei) (xJ x ei) (relDistOf pos ei)

def silu {S : Shape} (h1 : S_.BroadcastsInDim S (![] : Fin 0 → Fin S.rank)) (v : FVec F S .f32) : FVec F S .f32 :=
  mulf v (Host.divf (broadcastInDim S ![] h1 (constant S_ .f32 0x3F800000#32))
    (addf (broadcastInDim S ![] h1 (constant S_ .f32 0x3F800000#32)) (Host.exp (Host.negf v))))

def edgeHidden (mi : FVec F S320000x257 .f32) (W : FVec F S514x257 .f32) (b : FVec F S514 .f32) : FVec F S320000x514 .f32 :=
  silu bcast_S_S320000x514
    (addf (Host.dotGeneral dot_S320000x257_S257x514_S320000x514_1_0_0_1_n_n none mi (transpose S257x514 [1, 0] W transposes_S514x257_S257x514_1_0))
      (broadcastInDim S320000x514 ![0, 1] bcast_S1x514_S320000x514_0_1 (broadcastInDim S1x514 ![1] bcast_S514_S1x514_1 b)))

def edgeMsg (h : FVec F S320000x514 .f32) (W : FVec F S16x514 .f32) (b : FVec F S16 .f32) : FVec F S320000x16 .f32 :=
  silu bcast_S_S320000x16
    (addf (Host.dotGeneral dot_S320000x514_S514x16_S320000x16_1_0_0_1_n_n none h (transpose S514x16 [1, 0] W transposes_S16x514_S514x16_1_0))
      (broadcastInDim S320000x16 ![0, 1] bcast_S1x16_S320000x16_0_1 (broadcastInDim S1x16 ![1] bcast_S16_S1x16_1 b)))

def segSum (dst : IVec S320000 32) (m : FVec F S320000x16 .f32) : FVec F S10000x16 .f32 :=
  Host.scatterAdd scatter_S10000x16_S320000x1_S320000x16_1_0_0_1
    (broadcastInDim S10000x16 ![] bcast_S_S10000x16 (constant S_ .f32 0x00000000#32))
    (broadcastInDim S320000x1 ![0] bcast_S320000_S320000x1_0 dst) m

def nodeIn (x : FVec F S10000x128 .f32) (mi : FVec F S10000x16 .f32) : FVec F S10000x144 .f32 :=
  concatenate S10000x144 1 [⟨S10000x128, x⟩, ⟨S10000x16, mi⟩] concatenates_S10000x128_S10000x16_S10000x144_d1

def nodeHidden (ni : FVec F S10000x144 .f32) (W : FVec F S256x144 .f32) (b : FVec F S256 .f32) : FVec F S10000x256 .f32 :=
  silu bcast_S_S10000x256
    (addf (Host.dotGeneral dot_S10000x144_S144x256_S10000x256_1_0_0_1_n_n none ni (transpose S144x256 [1, 0] W transposes_S256x144_S144x256_1_0))
      (broadcastInDim S10000x256 ![0, 1] bcast_S1x256_S10000x256_0_1 (broadcastInDim S1x256 ![1] bcast_S256_S1x256_1 b)))

def wN2T (W : FVec F S128x256 .f32) : FVec F S256x128 .f32 :=
  transpose S256x128 [1, 0] W transposes_S128x256_S256x128_1_0

def hiddenOut (x : FVec F S10000x128 .f32) (nh : FVec F S10000x256 .f32) (Wt : FVec F S256x128 .f32) (b : FVec F S128 .f32) :
    FVec F S10000x128 .f32 :=
  addf x (addf (Host.dotGeneral dot_S10000x256_S256x128_S10000x128_1_0_0_1_n_n none nh Wt)
    (broadcastInDim S10000x128 ![0, 1] bcast_S1x128_S10000x128_0_1 (broadcastInDim S1x128 ![1] bcast_S128_S1x128_1 b)))

def meanOf (ho : FVec F S10000x128 .f32) : FVec F S128 .f32 :=
  Host.divf (Host.reduceAdd ho (constant S_ .f32 0x00000000#32) reducesTo_S10000x128_S128_d0 h_S_)
    (broadcastInDim S128 ![] bcast_S_S128 (constant S_ .f32 0x461C4000#32))

def centered (ho : FVec F S10000x128 .f32) : FVec F S10000x128 .f32 :=
  subf ho (broadcastInDim S10000x128 ![0, 1] bcast_S1x128_S10000x128_0_1
    (Host.divf (broadcastInDim S1x128 ![1] bcast_S128_S1x128_1
        (Host.reduceAdd ho (constant S_ .f32 0x00000000#32) reducesTo_S10000x128_S128_d0 h_S_))
      (broadcastInDim S1x128 ![] bcast_S_S1x128 (constant S_ .f32 0x461C4000#32))))

def dofN : FVec F S_ .f32 :=
  subf (constant S_ .f32 0x461C4000#32) (sitofp (F := F) .f32 (constantI S_ 32 0#32))

def varOf (ho : FVec F S10000x128 .f32) : FVec F S128 .f32 :=
  select (broadcastInDim S128 ![] bcast_S_S128 (cmpf .ogt (dofN (F := F)) (constant S_ .f32 0x00000000#32)))
    (Host.divf (Host.reduceAdd (mulf (centered ho) (centered ho)) (constant S_ .f32 0x00000000#32) reducesTo_S10000x128_S128_d0 h_S_)
      (broadcastInDim S128 ![] bcast_S_S128 (dofN (F := F))))
    (broadcastInDim S128 ![] bcast_S_S128 (constant S_ .f32 0x7FC00000#32))

def rowBcast (v : FVec F S128 .f32) : FVec F S10000x128 .f32 :=
  broadcastInDim S10000x128 ![0, 1] bcast_S1x128_S10000x128_0_1 (broadcastInDim S1x128 ![1] bcast_S128_S1x128_1 v)

def normalized (ho : FVec F S10000x128 .f32) (mean var : FVec F S128 .f32) : FVec F S10000x128 .f32 :=
  Host.divf (subf ho (rowBcast mean))
    (rowBcast (Host.sqrt (addf var (broadcastInDim S128 ![] bcast_S_S128 (constant S_ .f32 0x3727C5AC#32)))))

def bnAffine (hn : FVec F S10000x128 .f32) (g b : FVec F S128 .f32) : FVec F S10000x128 .f32 :=
  addf (mulf hn (rowBcast g)) (rowBcast b)

def fcOut (y : FVec F S10000x128 .f32) (W : FVec F S3x128 .f32) (b : FVec F S3 .f32) : FVec F S10000x3 .f32 :=
  addf (Host.dotGeneral dot_S10000x128_S128x3_S10000x3_1_0_0_1_n_n none y (transpose S128x3 [1, 0] W transposes_S3x128_S128x3_1_0))
    (broadcastInDim S10000x3 ![0, 1] bcast_S1x3_S10000x3_0_1 (broadcastInDim S1x3 ![1] bcast_S3_S1x3_1 b))

def bnOut (ho : FVec F S10000x128 .f32) (mean var g b : FVec F S128 .f32) (W : FVec F S3x128 .f32) (bf : FVec F S3 .f32) :
    FVec F S10000x3 .f32 :=
  fcOut (bnAffine (normalized ho mean var) g b) W bf

def hOf (x : FVec F S10000x128 .f32) (ei : IVec S2x320000 32) (pos : FVec F S10000x3 .f32)
    (We1 : FVec F S514x257 .f32) (be1 : FVec F S514 .f32) : FVec F S320000x514 .f32 :=
  edgeHidden (mInOf x ei pos) We1 be1

def mIJOf (x : FVec F S10000x128 .f32) (ei : IVec S2x320000 32) (pos : FVec F S10000x3 .f32)
    (We1 : FVec F S514x257 .f32) (be1 : FVec F S514 .f32) (We2 : FVec F S16x514 .f32) (be2 : FVec F S16 .f32) : FVec F S320000x16 .f32 :=
  edgeMsg (hOf x ei pos We1 be1) We2 be2

def mIOf (x : FVec F S10000x128 .f32) (ei : IVec S2x320000 32) (pos : FVec F S10000x3 .f32)
    (We1 : FVec F S514x257 .f32) (be1 : FVec F S514 .f32) (We2 : FVec F S16x514 .f32) (be2 : FVec F S16 .f32) : FVec F S10000x16 .f32 :=
  segSum (row1 ei) (mIJOf x ei pos We1 be1 We2 be2)

def nodeInOf (x : FVec F S10000x128 .f32) (ei : IVec S2x320000 32) (pos : FVec F S10000x3 .f32)
    (We1 : FVec F S514x257 .f32) (be1 : FVec F S514 .f32) (We2 : FVec F S16x514 .f32) (be2 : FVec F S16 .f32) : FVec F S10000x144 .f32 :=
  nodeIn x (mIOf x ei pos We1 be1 We2 be2)

def nhOf (x : FVec F S10000x128 .f32) (ei : IVec S2x320000 32) (pos : FVec F S10000x3 .f32)
    (We1 : FVec F S514x257 .f32) (be1 : FVec F S514 .f32) (We2 : FVec F S16x514 .f32) (be2 : FVec F S16 .f32)
    (Wn1 : FVec F S256x144 .f32) (bn1 : FVec F S256 .f32) : FVec F S10000x256 .f32 :=
  nodeHidden (nodeInOf x ei pos We1 be1 We2 be2) Wn1 bn1

def hiddenOutOf (x : FVec F S10000x128 .f32) (ei : IVec S2x320000 32) (pos : FVec F S10000x3 .f32)
    (We1 : FVec F S514x257 .f32) (be1 : FVec F S514 .f32) (We2 : FVec F S16x514 .f32) (be2 : FVec F S16 .f32)
    (Wn1 : FVec F S256x144 .f32) (bn1 : FVec F S256 .f32) (Wn2 : FVec F S128x256 .f32) (bn2 : FVec F S128 .f32) : FVec F S10000x128 .f32 :=
  hiddenOut x (nhOf x ei pos We1 be1 We2 be2 Wn1 bn1) (wN2T Wn2) bn2

def refOut (a0 : FVec F S10000x128 .f32) (a1 : IVec S2x320000 32) (a2 : FVec F S10000x3 .f32) (a3 : IVec S10000 32)
    (a4 : FVec F S514x257 .f32) (a5 : FVec F S514 .f32) (a6 : FVec F S16x514 .f32) (a7 : FVec F S16 .f32)
    (a8 : FVec F S64x16 .f32) (a9 : FVec F S64 .f32) (a10 : FVec F S1x64 .f32) (a11 : FVec F S1 .f32)
    (a12 : FVec F S256x144 .f32) (a13 : FVec F S256 .f32) (a14 : FVec F S128x256 .f32) (a15 : FVec F S128 .f32)
    (a16 : FVec F S128 .f32) (a17 : FVec F S128 .f32) (a18 : FVec F S3x128 .f32) (a19 : FVec F S3 .f32) : FVec F S10000x3 .f32 :=
  bnOut (hiddenOutOf a0 a1 a2 a4 a5 a6 a7 a12 a13 a14 a15) (meanOf (hiddenOutOf a0 a1 a2 a4 a5 a6 a7 a12 a13 a14 a15))
    (varOf (hiddenOutOf a0 a1 a2 a4 a5 a6 a7 a12 a13 a14 a15)) a16 a17 a18 a19

abbrev w0 : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.nullary main_c (constantI S_ 32 0#32),
    StableHlo.unary main_c main_v4 (broadcastInDim S320000 ![] bcast_S_S320000 : (⟨S_, .i32⟩ : BufTy).Contents (Elt F) → (⟨S320000, .i32⟩ : BufTy).Contents (Elt F)),
    StableHlo.binary main_v1 main_v4 main_v5 (cmpi .slt : (⟨S320000, .i32⟩ : BufTy).Contents (Elt F) → (⟨S320000, .i32⟩ : BufTy).Contents (Elt F) → (⟨S320000, .i1⟩ : BufTy).Contents (Elt F)),
    StableHlo.nullary main_c_0 (constantI S_ 32 10000#32),
    StableHlo.unary main_c_0 main_v6 (broadcastInDim S320000 ![] bcast_S_S320000 : (⟨S_, .i32⟩ : BufTy).Contents (Elt F) → (⟨S320000, .i32⟩ : BufTy).Contents (Elt F)),
    StableHlo.binary main_v1 main_v6 main_v7 (addi : (⟨S320000, .i32⟩ : BufTy).Contents (Elt F) → (⟨S320000, .i32⟩ : BufTy).Contents (Elt F) → (⟨S320000, .i32⟩ : BufTy).Contents (Elt F)),
    StableHlo.ternary main_v5 main_v7 main_v1 main_v8 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v8 main_v9 (broadcastInDim S320000x1 ![0] bcast_S320000_S320000x1_0 : (⟨S320000, .i32⟩ : BufTy).Contents (Elt F) → (⟨S320000x1, .i32⟩ : BufTy).Contents (Elt F)),
    StableHlo.binary main_arg2 main_v9 main_v10 ((fun x i => Host.gather gather_S10000x3_S320000x1_S320000x3_1_0_n_n_0_1_13 x i) : (⟨S10000x3, .f32⟩ : BufTy).Contents (Elt F) → (⟨S320000x1, .i32⟩ : BufTy).Contents (Elt F) → (⟨S320000x3, .f32⟩ : BufTy).Contents (Elt F)),
    StableHlo.nullary main_c_1 (constantI S_ 32 0#32),
    StableHlo.unary main_c_1 main_v11 (broadcastInDim S320000 ![] bcast_S_S320000 : (⟨S_, .i32⟩ : BufTy).Contents (Elt F) → (⟨S320000, .i32⟩ : BufTy).Contents (Elt F)),
    StableHlo.binary main_v3 main_v11 main_v12 (cmpi .slt : (⟨S320000, .i32⟩ : BufTy).Contents (Elt F) → (⟨S320000, .i32⟩ : BufTy).Contents (Elt F) → (⟨S320000, .i1⟩ : BufTy).Contents (Elt F)),
    StableHlo.nullary main_c_2 (constantI S_ 32 10000#32),
    StableHlo.unary main_c_2 main_v13 (broadcastInDim S320000 ![] bcast_S_S320000 : (⟨S_, .i32⟩ : BufTy).Contents (Elt F) → (⟨S320000, .i32⟩ : BufTy).Contents (Elt F)),
    StableHlo.binary main_v3 main_v13 main_v14 (addi : (⟨S320000, .i32⟩ : BufTy).Contents (Elt F) → (⟨S320000, .i32⟩ : BufTy).Contents (Elt F) → (⟨S320000, .i32⟩ : BufTy).Contents (Elt F)),
    StableHlo.ternary main_v12 main_v14 main_v3 main_v15 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v15 main_v16 (broadcastInDim S320000x1 ![0] bcast_S320000_S320000x1_0 : (⟨S320000, .i32⟩ : BufTy).Contents (Elt F) → (⟨S320000x1, .i32⟩ : BufTy).Contents (Elt F)),
    StableHlo.binary main_arg2 main_v16 main_v17 ((fun x i => Host.gather gather_S10000x3_S320000x1_S320000x3_1_0_n_n_0_1_13 x i) : (⟨S10000x3, .f32⟩ : BufTy).Contents (Elt F) → (⟨S320000x1, .i32⟩ : BufTy).Contents (Elt F) → (⟨S320000x3, .f32⟩ : BufTy).Contents (Elt F)),
    StableHlo.binary main_v10 main_v17 main_v18 (subf : (⟨S320000x3, .f32⟩ : BufTy).Contents (Elt F) → (⟨S320000x3, .f32⟩ : BufTy).Contents (Elt F) → (⟨S320000x3, .f32⟩ : BufTy).Contents (Elt F)),
    StableHlo.binary main_v18 main_v18 main_v19 (mulf : (⟨S320000x3, .f32⟩ : BufTy).Contents (Elt F) → (⟨S320000x3, .f32⟩ : BufTy).Contents (Elt F) → (⟨S320000x3, .f32⟩ : BufTy).Contents (Elt F)),
    StableHlo.nullary main_cst (constant S_ .f32 0x00000000#32),
    StableHlo.binary main_v19 main_cst main_v20 ((fun x v => Host.reduceAdd x v reducesTo_S320000x3_S320000_d1 h_S_) : (⟨S320000x3, .f32⟩ : BufTy).Contents (Elt F) → (⟨S_, .f32⟩ : BufTy).Contents (Elt F) → (⟨S320000, .f32⟩ : BufTy).Contents (Elt F)),
    StableHlo.unary main_v20 main_v21 (broadcastInDim S320000x1 ![0] bcast_S320000_S320000x1_0 : (⟨S320000, .f32⟩ : BufTy).Contents (Elt F) → (⟨S320000x1, .f32⟩ : BufTy).Contents (Elt F)),
    StableHlo.nullary main_c_3 (constantI S_ 32 0#32),
    StableHlo.unary main_c_3 main_v22 (broadcastInDim S320000 ![] bcast_S_S320000 : (⟨S_, .i32⟩ : BufTy).Contents (Elt F) → (⟨S320000, .i32⟩ : BufTy).Contents (Elt F)),
    StableHlo.binary main_v3 main_v22 main_v23 (cmpi .slt : (⟨S320000, .i32⟩ : BufTy).Contents (Elt F) → (⟨S320000, .i32⟩ : BufTy).Contents (Elt F) → (⟨S320000, .i1⟩ : BufTy).Contents (Elt F)),
    StableHlo.nullary main_c_4 (constantI S_ 32 10000#32),
    StableHlo.unary main_c_4 main_v24 (broadcastInDim S320000 ![] bcast_S_S320000 : (⟨S_, .i32⟩ : BufTy).Contents (Elt F) → (⟨S320000, .i32⟩ : BufTy).Contents (Elt F)),
    StableHlo.binary main_v3 main_v24 main_v25 (addi : (⟨S320000, .i32⟩ : BufTy).Contents (Elt F) → (⟨S320000, .i32⟩ : BufTy).Contents (Elt F) → (⟨S320000, .i32⟩ : BufTy).Contents (Elt F)),
    StableHlo.ternary main_v23 main_v25 main_v3 main_v26 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v26 main_v27 (broadcastInDim S320000x1 ![0] bcast_S320000_S320000x1_0 : (⟨S320000, .i32⟩ : BufTy).Contents (Elt F) → (⟨S320000x1, .i32⟩ : BufTy).Contents (Elt F)),
    StableHlo.binary main_arg0 main_v27 main_v28 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    StableHlo.nullary main_c_5 (constantI S_ 32 0#32),
    StableHlo.unary main_c_5 main_v29 (broadcastInDim S320000 ![] bcast_S_S320000 : (⟨S_, .i32⟩ : BufTy).Contents (Elt F) → (⟨S320000, .i32⟩ : BufTy).Contents (Elt F)),
    StableHlo.binary main_v1 main_v29 main_v30 (cmpi .slt : (⟨S320000, .i32⟩ : BufTy).Contents (Elt F) → (⟨S320000, .i32⟩ : BufTy).Contents (Elt F) → (⟨S320000, .i1⟩ : BufTy).Contents (Elt F)),
    StableHlo.nullary main_c_6 (constantI S_ 32 10000#32),
    StableHlo.unary main_c_6 main_v31 (broadcastInDim S320000 ![] bcast_S_S320000 : (⟨S_, .i32⟩ : BufTy).Contents (Elt F) → (⟨S320000, .i32⟩ : BufTy).Contents (Elt F)),
    StableHlo.binary main_v1 main_v31 main_v32 (addi : (⟨S320000, .i32⟩ : BufTy).Contents (Elt F) → (⟨S320000, .i32⟩ : BufTy).Contents (Elt F) → (⟨S320000, .i32⟩ : BufTy).Contents (Elt F)),
    StableHlo.ternary main_v30 main_v32 main_v1 main_v33 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v33 main_v34 (broadcastInDim S320000x1 ![0] bcast_S320000_S320000x1_0 : (⟨S320000, .i32⟩ : BufTy).Contents (Elt F) → (⟨S320000x1, .i32⟩ : BufTy).Contents (Elt F)),
    StableHlo.binary main_arg0 main_v34 main_v35 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)) ]

abbrev w1 : List (HloOp τ sig (Elt F)) :=
  [ StableHlo.nary ![main_v28, main_v35, main_v21] main_v36 (fun u => concatenate S320000x257 1 [⟨S320000x128, u 0⟩, ⟨S320000x128, u 1⟩, ⟨S320000x1, u 2⟩] concatenates_S320000x128_S320000x128_S320000x1_S320000x257_d1) ]

abbrev w2 : List (HloOp τ sig (Elt F)) :=
  [ StableHlo.unary main_arg4 main_v37 ((transpose S257x514 [1, 0] · transposes_S514x257_S257x514_1_0) : (⟨S514x257, .f32⟩ : BufTy).Contents (Elt F) → (⟨S257x514, .f32⟩ : BufTy).Contents (Elt F)),
    StableHlo.binary main_v36 main_v37 main_v38 ((fun l r => Host.dotGeneral dot_S320000x257_S257x514_S320000x514_1_0_0_1_n_n none l r) : (⟨S320000x257, .f32⟩ : BufTy).Contents (Elt F) → (⟨S257x514, .f32⟩ : BufTy).Contents (Elt F) → (⟨S320000x514, .f32⟩ : BufTy).Contents (Elt F)),
    StableHlo.unary main_arg5 main_v39 (broadcastInDim S1x514 ![1] bcast_S514_S1x514_1 : (⟨S514, .f32⟩ : BufTy).Contents (Elt F) → (⟨S1x514, .f32⟩ : BufTy).Contents (Elt F)),
    StableHlo.unary main_v39 main_v40 (broadcastInDim S320000x514 ![0, 1] bcast_S1x514_S320000x514_0_1 : (⟨S1x514, .f32⟩ : BufTy).Contents (Elt F) → (⟨S320000x514, .f32⟩ : BufTy).Contents (Elt F)),
    StableHlo.binary main_v38 main_v40 main_v41 (addf : (⟨S320000x514, .f32⟩ : BufTy).Contents (Elt F) → (⟨S320000x514, .f32⟩ : BufTy).Contents (Elt F) → (⟨S320000x514, .f32⟩ : BufTy).Contents (Elt F)),
    StableHlo.unary main_v41 main_v42 (Host.negf : (⟨S320000x514, .f32⟩ : BufTy).Contents (Elt F) → (⟨S320000x514, .f32⟩ : BufTy).Contents (Elt F)),
    StableHlo.unary main_v42 main_v43 (Host.exp : (⟨S320000x514, .f32⟩ : BufTy).Contents (Elt F) → (⟨S320000x514, .f32⟩ : BufTy).Contents (Elt F)),
    StableHlo.nullary main_cst_7 (constant S_ .f32 0x3F800000#32),
    StableHlo.unary main_cst_7 main_v44 (broadcastInDim S320000x514 ![] bcast_S_S320000x514 : (⟨S_, .f32⟩ : BufTy).Contents (Elt F) → (⟨S320000x514, .f32⟩ : BufTy).Contents (Elt F)),
    StableHlo.binary main_v44 main_v43 main_v45 (addf : (⟨S320000x514, .f32⟩ : BufTy).Contents (Elt F) → (⟨S320000x514, .f32⟩ : BufTy).Contents (Elt F) → (⟨S320000x514, .f32⟩ : BufTy).Contents (Elt F)),
    StableHlo.nullary main_cst_8 (constant S_ .f32 0x3F800000#32),
    StableHlo.unary main_cst_8 main_v46 (broadcastInDim S320000x514 ![] bcast_S_S320000x514 : (⟨S_, .f32⟩ : BufTy).Contents (Elt F) → (⟨S320000x514, .f32⟩ : BufTy).Contents (Elt F)),
    StableHlo.binary main_v46 main_v45 main_v47 (Host.divf : (⟨S320000x514, .f32⟩ : BufTy).Contents (Elt F) → (⟨S320000x514, .f32⟩ : BufTy).Contents (Elt F) → (⟨S320000x514, .f32⟩ : BufTy).Contents (Elt F)),
    StableHlo.binary main_v41 main_v47 main_v48 (mulf : (⟨S320000x514, .f32⟩ : BufTy).Contents (Elt F) → (⟨S320000x514, .f32⟩ : BufTy).Contents (Elt F) → (⟨S320000x514, .f32⟩ : BufTy).Contents (Elt F)) ]

abbrev w3 : List (HloOp τ sig (Elt F)) :=
  [ StableHlo.unary main_arg6 main_v49 ((transpose S514x16 [1, 0] · transposes_S16x514_S514x16_1_0) : (⟨S16x514, .f32⟩ : BufTy).Contents (Elt F) → (⟨S514x16, .f32⟩ : BufTy).Contents (Elt F)),
    StableHlo.binary main_v48 main_v49 main_v50 ((fun l r => Host.dotGeneral dot_S320000x514_S514x16_S320000x16_1_0_0_1_n_n none l r) : (⟨S320000x514, .f32⟩ : BufTy).Contents (Elt F) → (⟨S514x16, .f32⟩ : BufTy).Contents (Elt F) → (⟨S320000x16, .f32⟩ : BufTy).Contents (Elt F)),
    StableHlo.unary main_arg7 main_v51 (broadcastInDim S1x16 ![1] bcast_S16_S1x16_1 : (⟨S16, .f32⟩ : BufTy).Contents (Elt F) → (⟨S1x16, .f32⟩ : BufTy).Contents (Elt F)),
    StableHlo.unary main_v51 main_v52 (broadcastInDim S320000x16 ![0, 1] bcast_S1x16_S320000x16_0_1 : (⟨S1x16, .f32⟩ : BufTy).Contents (Elt F) → (⟨S320000x16, .f32⟩ : BufTy).Contents (Elt F)),
    StableHlo.binary main_v50 main_v52 main_v53 (addf : (⟨S320000x16, .f32⟩ : BufTy).Contents (Elt F) → (⟨S320000x16, .f32⟩ : BufTy).Contents (Elt F) → (⟨S320000x16, .f32⟩ : BufTy).Contents (Elt F)),
    StableHlo.unary main_v53 main_v54 (Host.negf : (⟨S320000x16, .f32⟩ : BufTy).Contents (Elt F) → (⟨S320000x16, .f32⟩ : BufTy).Contents (Elt F)),
    StableHlo.unary main_v54 main_v55 (Host.exp : (⟨S320000x16, .f32⟩ : BufTy).Contents (Elt F) → (⟨S320000x16, .f32⟩ : BufTy).Contents (Elt F)),
    StableHlo.nullary main_cst_9 (constant S_ .f32 0x3F800000#32),
    StableHlo.unary main_cst_9 main_v56 (broadcastInDim S320000x16 ![] bcast_S_S320000x16 : (⟨S_, .f32⟩ : BufTy).Contents (Elt F) → (⟨S320000x16, .f32⟩ : BufTy).Contents (Elt F)),
    StableHlo.binary main_v56 main_v55 main_v57 (addf : (⟨S320000x16, .f32⟩ : BufTy).Contents (Elt F) → (⟨S320000x16, .f32⟩ : BufTy).Contents (Elt F) → (⟨S320000x16, .f32⟩ : BufTy).Contents (Elt F)),
    StableHlo.nullary main_cst_10 (constant S_ .f32 0x3F800000#32),
    StableHlo.unary main_cst_10 main_v58 (broadcastInDim S320000x16 ![] bcast_S_S320000x16 : (⟨S_, .f32⟩ : BufTy).Contents (Elt F) → (⟨S320000x16, .f32⟩ : BufTy).Contents (Elt F)),
    StableHlo.binary main_v58 main_v57 main_v59 (Host.divf : (⟨S320000x16, .f32⟩ : BufTy).Contents (Elt F) → (⟨S320000x16, .f32⟩ : BufTy).Contents (Elt F) → (⟨S320000x16, .f32⟩ : BufTy).Contents (Elt F)),
    StableHlo.binary main_v53 main_v59 main_v60 (mulf : (⟨S320000x16, .f32⟩ : BufTy).Contents (Elt F) → (⟨S320000x16, .f32⟩ : BufTy).Contents (Elt F) → (⟨S320000x16, .f32⟩ : BufTy).Contents (Elt F)),
    StableHlo.unary main_arg8 main_v61 ((transpose S16x64 [1, 0] · transposes_S64x16_S16x64_1_0) : (⟨S64x16, .f32⟩ : BufTy).Contents (Elt F) → (⟨S16x64, .f32⟩ : BufTy).Contents (Elt F)),
    StableHlo.binary main_v60 main_v61 main_v62 ((fun l r => Host.dotGeneral dot_S320000x16_S16x64_S320000x64_1_0_0_1_n_n none l r) : (⟨S320000x16, .f32⟩ : BufTy).Contents (Elt F) → (⟨S16x64, .f32⟩ : BufTy).Contents (Elt F) → (⟨S320000x64, .f32⟩ : BufTy).Contents (Elt F)),
    StableHlo.unary main_arg9 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S320000x64 ![0, 1] bcast_S1x64_S320000x64_0_1 : (⟨S1x64, .f32⟩ : BufTy).Contents (Elt F) → (⟨S320000x64, .f32⟩ : BufTy).Contents (Elt F)),
    StableHlo.binary main_v62 main_v64 main_v65 (addf : (⟨S320000x64, .f32⟩ : BufTy).Contents (Elt F) → (⟨S320000x64, .f32⟩ : BufTy).Contents (Elt F) → (⟨S320000x64, .f32⟩ : BufTy).Contents (Elt F)),
    StableHlo.unary main_v65 main_v66 (Host.negf : (⟨S320000x64, .f32⟩ : BufTy).Contents (Elt F) → (⟨S320000x64, .f32⟩ : BufTy).Contents (Elt F)),
    StableHlo.unary main_v66 main_v67 (Host.exp : (⟨S320000x64, .f32⟩ : BufTy).Contents (Elt F) → (⟨S320000x64, .f32⟩ : BufTy).Contents (Elt F)),
    StableHlo.nullary main_cst_11 (constant S_ .f32 0x3F800000#32),
    StableHlo.unary main_cst_11 main_v68 (broadcastInDim S320000x64 ![] bcast_S_S320000x64 : (⟨S_, .f32⟩ : BufTy).Contents (Elt F) → (⟨S320000x64, .f32⟩ : BufTy).Contents (Elt F)),
    StableHlo.binary main_v68 main_v67 main_v69 (addf : (⟨S320000x64, .f32⟩ : BufTy).Contents (Elt F) → (⟨S320000x64, .f32⟩ : BufTy).Contents (Elt F) → (⟨S320000x64, .f32⟩ : BufTy).Contents (Elt F)),
    StableHlo.nullary main_cst_12 (constant S_ .f32 0x3F800000#32),
    StableHlo.unary main_cst_12 main_v70 (broadcastInDim S320000x64 ![] bcast_S_S320000x64 : (⟨S_, .f32⟩ : BufTy).Contents (Elt F) → (⟨S320000x64, .f32⟩ : BufTy).Contents (Elt F)),
    StableHlo.binary main_v70 main_v69 main_v71 (Host.divf : (⟨S320000x64, .f32⟩ : BufTy).Contents (Elt F) → (⟨S320000x64, .f32⟩ : BufTy).Contents (Elt F) → (⟨S320000x64, .f32⟩ : BufTy).Contents (Elt F)),
    StableHlo.binary main_v65 main_v71 main_v72 (mulf : (⟨S320000x64, .f32⟩ : BufTy).Contents (Elt F) → (⟨S320000x64, .f32⟩ : BufTy).Contents (Elt F) → (⟨S320000x64, .f32⟩ : BufTy).Contents (Elt F)),
    StableHlo.unary main_arg10 main_v73 ((transpose S64x1 [1, 0] · transposes_S1x64_S64x1_1_0) : (⟨S1x64, .f32⟩ : BufTy).Contents (Elt F) → (⟨S64x1, .f32⟩ : BufTy).Contents (Elt F)),
    StableHlo.binary main_v72 main_v73 main_v74 ((fun l r => Host.dotGeneral dot_S320000x64_S64x1_S320000x1_1_0_0_1_n_n none l r) : (⟨S320000x64, .f32⟩ : BufTy).Contents (Elt F) → (⟨S64x1, .f32⟩ : BufTy).Contents (Elt F) → (⟨S320000x1, .f32⟩ : BufTy).Contents (Elt F)),
    StableHlo.unary main_arg11 main_v75 (broadcastInDim S1x1 ![1] bcast_S1_S1x1_1 : (⟨S1, .f32⟩ : BufTy).Contents (Elt F) → (⟨S1x1, .f32⟩ : BufTy).Contents (Elt F)),
    StableHlo.unary main_v75 main_v76 (broadcastInDim S320000x1 ![0, 1] bcast_S1x1_S320000x1_0_1 : (⟨S1x1, .f32⟩ : BufTy).Contents (Elt F) → (⟨S320000x1, .f32⟩ : BufTy).Contents (Elt F)),
    StableHlo.binary main_v74 main_v76 main_v77 (addf : (⟨S320000x1, .f32⟩ : BufTy).Contents (Elt F) → (⟨S320000x1, .f32⟩ : BufTy).Contents (Elt F) → (⟨S320000x1, .f32⟩ : BufTy).Contents (Elt F)),
    StableHlo.unary main_v77 main_v78 (broadcastInDim S320000x3 ![0, 1] bcast_S320000x1_S320000x3_0_1 : (⟨S320000x1, .f32⟩ : BufTy).Contents (Elt F) → (⟨S320000x3, .f32⟩ : BufTy).Contents (Elt F)),
    StableHlo.binary main_v78 main_v18 main_v79 (mulf : (⟨S320000x3, .f32⟩ : BufTy).Contents (Elt F) → (⟨S320000x3, .f32⟩ : BufTy).Contents (Elt F) → (⟨S320000x3, .f32⟩ : BufTy).Contents (Elt F)),
    StableHlo.nullary main_cst_13 (constant S_ .f32 0x00000000#32),
    StableHlo.unary main_cst_13 main_v80 (broadcastInDim S10000x3 ![] bcast_S_S10000x3 : (⟨S_, .f32⟩ : BufTy).Contents (Elt F) → (⟨S10000x3, .f32⟩ : BufTy).Contents (Elt F)),
    StableHlo.unary main_v3 main_v81 (broadcastInDim S320000x1 ![0] bcast_S320000_S320000x1_0 : (⟨S320000, .i32⟩ : BufTy).Contents (Elt F) → (⟨S320000x1, .i32⟩ : BufTy).Contents (Elt F)),
    StableHlo.ternary main_v80 main_v81 main_v79 main_v82 ((fun x i u => Host.scatterAdd scatter_S10000x3_S320000x1_S320000x3_1_0_0_1 x i u) : (⟨S10000x3, .f32⟩ : BufTy).Contents (Elt F) → (⟨S320000x1, .i32⟩ : BufTy).Contents (Elt F) → (⟨S320000x3, .f32⟩ : BufTy).Contents (Elt F) → (⟨S10000x3, .f32⟩ : BufTy).Contents (Elt F)),
    StableHlo.binary main_arg2 main_v82 main_v83 (addf : (⟨S10000x3, .f32⟩ : BufTy).Contents (Elt F) → (⟨S10000x3, .f32⟩ : BufTy).Contents (Elt F) → (⟨S10000x3, .f32⟩ : BufTy).Contents (Elt F)),
    StableHlo.nullary main_cst_14 (constant S_ .f32 0x00000000#32),
    StableHlo.unary main_cst_14 main_v84 (broadcastInDim S10000x16 ![] bcast_S_S10000x16 : (⟨S_, .f32⟩ : BufTy).Contents (Elt F) → (⟨S10000x16, .f32⟩ : BufTy).Contents (Elt F)),
    StableHlo.unary main_v3 main_v85 (broadcastInDim S320000x1 ![0] bcast_S320000_S320000x1_0 : (⟨S320000, .i32⟩ : BufTy).Contents (Elt F) → (⟨S320000x1, .i32⟩ : BufTy).Contents (Elt F)),
    StableHlo.ternary main_v84 main_v85 main_v60 main_v86 ((fun x i u => Host.scatterAdd scatter_S10000x16_S320000x1_S320000x16_1_0_0_1 x i u) : (⟨S10000x16, .f32⟩ : BufTy).Contents (Elt F) → (⟨S320000x1, .i32⟩ : BufTy).Contents (Elt F) → (⟨S320000x16, .f32⟩ : BufTy).Contents (Elt F) → (⟨S10000x16, .f32⟩ : BufTy).Contents (Elt F)) ]

abbrev w4 : List (HloOp τ sig (Elt F)) :=
  [ StableHlo.binary main_arg0 main_v86 main_v87 ((fun a b => concatenate S10000x144 1 [⟨S10000x128, a⟩, ⟨S10000x16, b⟩] concatenates_S10000x128_S10000x16_S10000x144_d1) : (⟨S10000x128, .f32⟩ : BufTy).Contents (Elt F) → (⟨S10000x16, .f32⟩ : BufTy).Contents (Elt F) → (⟨S10000x144, .f32⟩ : BufTy).Contents (Elt F)) ]

abbrev w5 : List (HloOp τ sig (Elt F)) :=
  [ StableHlo.unary main_arg12 main_v88 ((transpose S144x256 [1, 0] · transposes_S256x144_S144x256_1_0) : (⟨S256x144, .f32⟩ : BufTy).Contents (Elt F) → (⟨S144x256, .f32⟩ : BufTy).Contents (Elt F)),
    StableHlo.binary main_v87 main_v88 main_v89 ((fun l r => Host.dotGeneral dot_S10000x144_S144x256_S10000x256_1_0_0_1_n_n none l r) : (⟨S10000x144, .f32⟩ : BufTy).Contents (Elt F) → (⟨S144x256, .f32⟩ : BufTy).Contents (Elt F) → (⟨S10000x256, .f32⟩ : BufTy).Contents (Elt F)),
    StableHlo.unary main_arg13 main_v90 (broadcastInDim S1x256 ![1] bcast_S256_S1x256_1 : (⟨S256, .f32⟩ : BufTy).Contents (Elt F) → (⟨S1x256, .f32⟩ : BufTy).Contents (Elt F)),
    StableHlo.unary main_v90 main_v91 (broadcastInDim S10000x256 ![0, 1] bcast_S1x256_S10000x256_0_1 : (⟨S1x256, .f32⟩ : BufTy).Contents (Elt F) → (⟨S10000x256, .f32⟩ : BufTy).Contents (Elt F)),
    StableHlo.binary main_v89 main_v91 main_v92 (addf : (⟨S10000x256, .f32⟩ : BufTy).Contents (Elt F) → (⟨S10000x256, .f32⟩ : BufTy).Contents (Elt F) → (⟨S10000x256, .f32⟩ : BufTy).Contents (Elt F)),
    StableHlo.unary main_v92 main_v93 (Host.negf : (⟨S10000x256, .f32⟩ : BufTy).Contents (Elt F) → (⟨S10000x256, .f32⟩ : BufTy).Contents (Elt F)),
    StableHlo.unary main_v93 main_v94 (Host.exp : (⟨S10000x256, .f32⟩ : BufTy).Contents (Elt F) → (⟨S10000x256, .f32⟩ : BufTy).Contents (Elt F)),
    StableHlo.nullary main_cst_15 (constant S_ .f32 0x3F800000#32),
    StableHlo.unary main_cst_15 main_v95 (broadcastInDim S10000x256 ![] bcast_S_S10000x256 : (⟨S_, .f32⟩ : BufTy).Contents (Elt F) → (⟨S10000x256, .f32⟩ : BufTy).Contents (Elt F)),
    StableHlo.binary main_v95 main_v94 main_v96 (addf : (⟨S10000x256, .f32⟩ : BufTy).Contents (Elt F) → (⟨S10000x256, .f32⟩ : BufTy).Contents (Elt F) → (⟨S10000x256, .f32⟩ : BufTy).Contents (Elt F)),
    StableHlo.nullary main_cst_16 (constant S_ .f32 0x3F800000#32),
    StableHlo.unary main_cst_16 main_v97 (broadcastInDim S10000x256 ![] bcast_S_S10000x256 : (⟨S_, .f32⟩ : BufTy).Contents (Elt F) → (⟨S10000x256, .f32⟩ : BufTy).Contents (Elt F)),
    StableHlo.binary main_v97 main_v96 main_v98 (Host.divf : (⟨S10000x256, .f32⟩ : BufTy).Contents (Elt F) → (⟨S10000x256, .f32⟩ : BufTy).Contents (Elt F) → (⟨S10000x256, .f32⟩ : BufTy).Contents (Elt F)),
    StableHlo.binary main_v92 main_v98 main_v99 (mulf : (⟨S10000x256, .f32⟩ : BufTy).Contents (Elt F) → (⟨S10000x256, .f32⟩ : BufTy).Contents (Elt F) → (⟨S10000x256, .f32⟩ : BufTy).Contents (Elt F)),
    StableHlo.unary main_arg14 main_v100 ((transpose S256x128 [1, 0] · transposes_S128x256_S256x128_1_0) : (⟨S128x256, .f32⟩ : BufTy).Contents (Elt F) → (⟨S256x128, .f32⟩ : BufTy).Contents (Elt F)) ]

abbrev w6 : List (HloOp τ sig (Elt F)) :=
  [ StableHlo.binary main_v99 main_v100 main_v101 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg15 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S10000x128 ![0, 1] bcast_S1x128_S10000x128_0_1 : (⟨S1x128, .f32⟩ : BufTy).Contents (Elt F) → (⟨S10000x128, .f32⟩ : BufTy).Contents (Elt F)),
    StableHlo.binary main_v101 main_v103 main_v104 (addf : (⟨S10000x128, .f32⟩ : BufTy).Contents (Elt F) → (⟨S10000x128, .f32⟩ : BufTy).Contents (Elt F) → (⟨S10000x128, .f32⟩ : BufTy).Contents (Elt F)),
    StableHlo.binary main_arg0 main_v104 main_v105 (addf : (⟨S10000x128, .f32⟩ : BufTy).Contents (Elt F) → (⟨S10000x128, .f32⟩ : BufTy).Contents (Elt F) → (⟨S10000x128, .f32⟩ : BufTy).Contents (Elt F)) ]

abbrev w7 : List (HloOp τ sig (Elt F)) :=
  [ StableHlo.nullary main_cst_17 (constant S_ .f32 0x00000000#32),
    StableHlo.binary main_v105 main_cst_17 main_v106 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.nullary main_cst_18 (constant S_ .f32 0x461C4000#32),
    StableHlo.unary main_cst_18 main_v107 (broadcastInDim S128 ![] bcast_S_S128 : (⟨S_, .f32⟩ : BufTy).Contents (Elt F) → (⟨S128, .f32⟩ : BufTy).Contents (Elt F)),
    StableHlo.binary main_v106 main_v107 main_v108 (Host.divf : (⟨S128, .f32⟩ : BufTy).Contents (Elt F) → (⟨S128, .f32⟩ : BufTy).Contents (Elt F) → (⟨S128, .f32⟩ : BufTy).Contents (Elt F)),
    StableHlo.nullary main_c_19 (constantI S_ 32 0#32),
    TRef.nullary main_call0.cst (constant S_ .f32 0x00000000#32),
    TRef.binary (TRef.of main_v105 : TRef sig ⟨S10000x128, .f32⟩) main_call0.cst main_call0.v0 (fun x v => Host.reduceAdd x v reducesTo_S10000x128_S128_d0 h_S_),
    TRef.unary main_call0.v0 main_call0.v1 (broadcastInDim S1x128 ![1] bcast_S128_S1x128_1),
    TRef.nullary main_call0.cst_0 (constant S_ .f32 0x461C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S10000x128 ![0, 1] bcast_S1x128_S10000x128_0_1),
    TRef.binary (TRef.of main_v105 : TRef sig ⟨S10000x128, .f32⟩) main_call0.v4 main_call0.v5 subf,
    TRef.binary main_call0.v5 main_call0.v5 main_call0.v6 mulf,
    TRef.unary (TRef.of main_c_19 : TRef sig ⟨S_, .i32⟩) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

abbrev w8 : List (HloOp τ sig (Elt F)) :=
  [ StableHlo.unary main_v108 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S10000x128 ![0, 1] bcast_S1x128_S10000x128_0_1 : (⟨S1x128, .f32⟩ : BufTy).Contents (Elt F) → (⟨S10000x128, .f32⟩ : BufTy).Contents (Elt F)),
    StableHlo.binary main_v105 main_v111 main_v112 (subf : (⟨S10000x128, .f32⟩ : BufTy).Contents (Elt F) → (⟨S10000x128, .f32⟩ : BufTy).Contents (Elt F) → (⟨S10000x128, .f32⟩ : BufTy).Contents (Elt F)),
    StableHlo.nullary main_cst_20 (constant S_ .f32 0x3727C5AC#32),
    StableHlo.unary main_cst_20 main_v113 (broadcastInDim S128 ![] bcast_S_S128 : (⟨S_, .f32⟩ : BufTy).Contents (Elt F) → (⟨S128, .f32⟩ : BufTy).Contents (Elt F)),
    StableHlo.binary main_v109 main_v113 main_v114 (addf : (⟨S128, .f32⟩ : BufTy).Contents (Elt F) → (⟨S128, .f32⟩ : BufTy).Contents (Elt F) → (⟨S128, .f32⟩ : BufTy).Contents (Elt F)),
    StableHlo.unary main_v114 main_v115 (Host.sqrt : (⟨S128, .f32⟩ : BufTy).Contents (Elt F) → (⟨S128, .f32⟩ : BufTy).Contents (Elt F)),
    StableHlo.unary main_v115 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S10000x128 ![0, 1] bcast_S1x128_S10000x128_0_1 : (⟨S1x128, .f32⟩ : BufTy).Contents (Elt F) → (⟨S10000x128, .f32⟩ : BufTy).Contents (Elt F)),
    StableHlo.binary main_v112 main_v117 main_v118 (Host.divf : (⟨S10000x128, .f32⟩ : BufTy).Contents (Elt F) → (⟨S10000x128, .f32⟩ : BufTy).Contents (Elt F) → (⟨S10000x128, .f32⟩ : BufTy).Contents (Elt F)),
    StableHlo.unary main_arg16 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S10000x128 ![0, 1] bcast_S1x128_S10000x128_0_1 : (⟨S1x128, .f32⟩ : BufTy).Contents (Elt F) → (⟨S10000x128, .f32⟩ : BufTy).Contents (Elt F)),
    StableHlo.binary main_v118 main_v120 main_v121 (mulf : (⟨S10000x128, .f32⟩ : BufTy).Contents (Elt F) → (⟨S10000x128, .f32⟩ : BufTy).Contents (Elt F) → (⟨S10000x128, .f32⟩ : BufTy).Contents (Elt F)),
    StableHlo.unary main_arg17 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S10000x128 ![0, 1] bcast_S1x128_S10000x128_0_1 : (⟨S1x128, .f32⟩ : BufTy).Contents (Elt F) → (⟨S10000x128, .f32⟩ : BufTy).Contents (Elt F)),
    StableHlo.binary main_v121 main_v123 main_v124 (addf : (⟨S10000x128, .f32⟩ : BufTy).Contents (Elt F) → (⟨S10000x128, .f32⟩ : BufTy).Contents (Elt F) → (⟨S10000x128, .f32⟩ : BufTy).Contents (Elt F)),
    StableHlo.unary main_arg18 main_v125 ((transpose S128x3 [1, 0] · transposes_S3x128_S128x3_1_0) : (⟨S3x128, .f32⟩ : BufTy).Contents (Elt F) → (⟨S128x3, .f32⟩ : BufTy).Contents (Elt F)),
    StableHlo.binary main_v124 main_v125 main_v126 ((fun l r => Host.dotGeneral dot_S10000x128_S128x3_S10000x3_1_0_0_1_n_n none l r) : (⟨S10000x128, .f32⟩ : BufTy).Contents (Elt F) → (⟨S128x3, .f32⟩ : BufTy).Contents (Elt F) → (⟨S10000x3, .f32⟩ : BufTy).Contents (Elt F)),
    StableHlo.unary main_arg19 main_v127 (broadcastInDim S1x3 ![1] bcast_S3_S1x3_1 : (⟨S3, .f32⟩ : BufTy).Contents (Elt F) → (⟨S1x3, .f32⟩ : BufTy).Contents (Elt F)),
    StableHlo.unary main_v127 main_v128 (broadcastInDim S10000x3 ![0, 1] bcast_S1x3_S10000x3_0_1 : (⟨S1x3, .f32⟩ : BufTy).Contents (Elt F) → (⟨S10000x3, .f32⟩ : BufTy).Contents (Elt F)),
    StableHlo.binary main_v126 main_v128 main_v129 (addf : (⟨S10000x3, .f32⟩ : BufTy).Contents (Elt F) → (⟨S10000x3, .f32⟩ : BufTy).Contents (Elt F) → (⟨S10000x3, .f32⟩ : BufTy).Contents (Elt F)) ]

def ops : List (HloOp τ sig (Elt F)) := (w0 ++ (w1 ++ w2)) ++ ((w3 ++ (w4 ++ w5)) ++ (w6 ++ (w7 ++ w8)))

set_option maxRecDepth 8192 in
set_option maxHeartbeats 4000000 in
theorem main_part0_eq (c : Dev nD) : main_part0 (F := F) c = seq (w0 ++ (w1 ++ w2)) := rfl
set_option maxRecDepth 8192 in
set_option maxHeartbeats 4000000 in
theorem main_part1_eq (c : Dev nD) : main_part1 (F := F) c = seq (w3 ++ (w4 ++ w5)) := rfl
set_option maxRecDepth 8192 in
set_option maxHeartbeats 4000000 in
theorem main_part2_eq (c : Dev nD) : main_part2 (F := F) c = seq (w6 ++ (w7 ++ w8)) := by
  simp only [main_part2, fn_var.body, fn_where.body, bind_assoc, pure_bind]
  rfl
theorem main_eq (c : Dev nD) : main (F := F) c = seq ops := by
  unfold ops
  rw [seq_append (w0 ++ (w1 ++ w2)), seq_append (w3 ++ (w4 ++ w5)), ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append, List.Forall, nullary_bufs_sub, unary_bufs_sub, binary_bufs_sub, ternary_bufs_sub, reshape_bufs_sub, nary_bufs_sub, and_self]
theorem ops_fresh : ∀ op ∈ (ops : List (HloOp τ sig (Elt F))), op.fresh = ∅ :=
  (List.map_inj_left (g := fun _ => ∅)).mp rfl

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

variable (V0 : Valuation τ sig (Elt F))

-- A line that writes no argument carries "every argument holds its launch contents" across.
theorem arg_step {l : List (HloOp τ sig (Elt F))} {W : List (Ref sig .tc)} {V : Valuation τ sig (Elt F)}
    (h : l.map (·.writes) = W.map fun y => ({Proc.devRef .tc y} : Finset (DevRef τ sig))) (hW : ∀ r ∈ args, r ∉ W)
    (hV : ∀ r ∈ args, V (Proc.devRef .tc r) = V0 (Proc.devRef .tc r)) (r : Ref sig .tc) (hr : r ∈ args) :
    after l V (Proc.devRef .tc r) = V0 (Proc.devRef .tc r) :=
  (after_keep h V (hW r hr)).trans (hV r hr)

def val0 : Valuation τ sig (Elt F) := V0
theorem val0_arg (r : Ref sig .tc) (h : r ∈ args := by decide) : val0 V0 (no_index (Proc.devRef .tc r)) = V0 (Proc.devRef .tc r) := rfl

def val1 : Valuation τ sig (Elt F) := after w0 (val0 V0)
abbrev w0_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_cst, main_v20, main_v21, main_c_3, main_v22, main_v23, main_c_4, main_v24, main_v25, main_v26, main_v27, main_v28, main_c_5, main_v29, main_v30, main_c_6, main_v31, main_v32, main_v33, main_v34, main_v35]
theorem val1_arg (r : Ref sig .tc) (h : r ∈ args := by decide) : val1 V0 (no_index (Proc.devRef .tc r)) = V0 (Proc.devRef .tc r) :=
  arg_step V0 (l := w0) (W := w0_W) rfl (by decide) (fun r h => val0_arg V0 r h) r h
set_option maxRecDepth 8192 in
set_option maxHeartbeats 4000000 in
theorem val1_main_v3 : val1 V0 (no_index (Proc.devRef .tc main_v3)) = row1 (V0 (Proc.devRef .tc main_arg1)) := by
  unfold val1
  simp only [w0]
  after_results_simp
  simp only [val0_arg V0 main_arg1] <;> rfl
set_option maxRecDepth 8192 in
set_option maxHeartbeats 4000000 in
theorem val1_main_v21 : val1 V0 (no_index (Proc.devRef .tc main_v21)) = relDistOf (V0 (Proc.devRef .tc main_arg2)) (V0 (Proc.devRef .tc main_arg1)) := by
  unfold val1
  simp only [w0]
  after_results_simp
  simp only [val0_arg V0 main_arg2, val0_arg V0 main_arg1] <;> rfl
set_option maxRecDepth 8192 in
set_option maxHeartbeats 4000000 in
theorem val1_main_v28 : val1 V0 (no_index (Proc.devRef .tc main_v28)) = xI (V0 (Proc.devRef .tc main_arg0)) (V0 (Proc.devRef .tc main_arg1)) := by
  unfold val1
  simp only [w0]
  after_results_simp
  simp only [val0_arg V0 main_arg0, val0_arg V0 main_arg1] <;> rfl
set_option maxRecDepth 8192 in
set_option maxHeartbeats 4000000 in
theorem val1_main_v35 : val1 V0 (no_index (Proc.devRef .tc main_v35)) = xJ (V0 (Proc.devRef .tc main_arg0)) (V0 (Proc.devRef .tc main_arg1)) := by
  unfold val1
  simp only [w0]
  after_results_simp
  simp only [val0_arg V0 main_arg0, val0_arg V0 main_arg1] <;> rfl

def val2 : Valuation τ sig (Elt F) := after w1 (val1 V0)
abbrev w1_W : List (Ref sig .tc) := [main_v36]
theorem val2_arg (r : Ref sig .tc) (h : r ∈ args := by decide) : val2 V0 (no_index (Proc.devRef .tc r)) = V0 (Proc.devRef .tc r) :=
  arg_step V0 (l := w1) (W := w1_W) rfl (by decide) (fun r h => val1_arg V0 r h) r h
theorem val2_main_v3 : val2 V0 (no_index (Proc.devRef .tc main_v3)) = row1 (V0 (Proc.devRef .tc main_arg1)) :=
  (after_keep (l := w1) (W := w1_W) rfl _ (by decide : main_v3 ∉ w1_W)).trans (val1_main_v3 V0)
set_option maxRecDepth 8192 in
set_option maxHeartbeats 400000 in
theorem val2_main_v36 : val2 V0 (no_index (Proc.devRef .tc main_v36)) = mInOf (V0 (Proc.devRef .tc main_arg0)) (V0 (Proc.devRef .tc main_arg1)) (V0 (Proc.devRef .tc main_arg2)) := by
  unfold val2
  simp only [w1, after_cons, after_nil]
  rw [nary3_result, val1_main_v28, val1_main_v35, val1_main_v21]
  rfl

def val3 : Valuation τ sig (Elt F) := after w2 (val2 V0)
abbrev w2_W : List (Ref sig .tc) := [main_v37, main_v38, main_v39, main_v40, main_v41, main_v42, main_v43, main_cst_7, main_v44, main_v45, main_cst_8, main_v46, main_v47, main_v48]
theorem val3_arg (r : Ref sig .tc) (h : r ∈ args := by decide) : val3 V0 (no_index (Proc.devRef .tc r)) = V0 (Proc.devRef .tc r) :=
  arg_step V0 (l := w2) (W := w2_W) rfl (by decide) (fun r h => val2_arg V0 r h) r h
theorem val3_main_v3 : val3 V0 (no_index (Proc.devRef .tc main_v3)) = row1 (V0 (Proc.devRef .tc main_arg1)) :=
  (after_keep (l := w2) (W := w2_W) rfl _ (by decide : main_v3 ∉ w2_W)).trans (val2_main_v3 V0)
set_option maxRecDepth 8192 in
set_option maxHeartbeats 2800000 in
theorem val3_main_v48 : val3 V0 (no_index (Proc.devRef .tc main_v48)) = hOf (V0 (Proc.devRef .tc main_arg0)) (V0 (Proc.devRef .tc main_arg1)) (V0 (Proc.devRef .tc main_arg2)) (V0 (Proc.devRef .tc main_arg4)) (V0 (Proc.devRef .tc main_arg5)) := by
  unfold val3
  simp only [w2]
  after_results_simp
  simp only [val2_main_v36, val2_arg V0 main_arg4, val2_arg V0 main_arg5] <;> rfl

def val4 : Valuation τ sig (Elt F) := after w3 (val3 V0)
abbrev w3_W : List (Ref sig .tc) := [main_v49, main_v50, main_v51, main_v52, main_v53, main_v54, main_v55, main_cst_9, main_v56, main_v57, main_cst_10, main_v58, main_v59, main_v60, main_v61, main_v62, main_v63, main_v64, main_v65, main_v66, main_v67, main_cst_11, main_v68, main_v69, main_cst_12, main_v70, main_v71, main_v72, main_v73, main_v74, main_v75, main_v76, main_v77, main_v78, main_v79, main_cst_13, main_v80, main_v81, main_v82, main_v83, main_cst_14, main_v84, main_v85, main_v86]
theorem val4_arg (r : Ref sig .tc) (h : r ∈ args := by decide) : val4 V0 (no_index (Proc.devRef .tc r)) = V0 (Proc.devRef .tc r) :=
  arg_step V0 (l := w3) (W := w3_W) rfl (by decide) (fun r h => val3_arg V0 r h) r h
set_option maxRecDepth 8192 in
set_option maxHeartbeats 4000000 in
theorem val4_main_v86 : val4 V0 (no_index (Proc.devRef .tc main_v86)) = mIOf (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) := by
  unfold val4
  simp only [w3]
  after_results_simp
  simp only [val3_main_v48, val3_main_v3, val3_arg V0 main_arg6, val3_arg V0 main_arg7] <;> rfl

def val5 : Valuation τ sig (Elt F) := after w4 (val4 V0)
abbrev w4_W : List (Ref sig .tc) := [main_v87]
theorem val5_arg (r : Ref sig .tc) (h : r ∈ args := by decide) : val5 V0 (no_index (Proc.devRef .tc r)) = V0 (Proc.devRef .tc r) :=
  arg_step V0 (l := w4) (W := w4_W) rfl (by decide) (fun r h => val4_arg V0 r h) r h
set_option maxRecDepth 8192 in
set_option maxHeartbeats 400000 in
theorem val5_main_v87 : val5 V0 (no_index (Proc.devRef .tc main_v87)) = nodeInOf (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) := by
  unfold val5
  simp only [w4, after_cons, after_nil]
  rw [binary_result, val4_arg V0 main_arg0, val4_main_v86]
  rfl

def val6 : Valuation τ sig (Elt F) := after w5 (val5 V0)
abbrev w5_W : List (Ref sig .tc) := [main_v88, main_v89, main_v90, main_v91, main_v92, main_v93, main_v94, main_cst_15, main_v95, main_v96, main_cst_16, main_v97, main_v98, main_v99, main_v100]
theorem val6_arg (r : Ref sig .tc) (h : r ∈ args := by decide) : val6 V0 (no_index (Proc.devRef .tc r)) = V0 (Proc.devRef .tc r) :=
  arg_step V0 (l := w5) (W := w5_W) rfl (by decide) (fun r h => val5_arg V0 r h) r h
set_option maxRecDepth 8192 in
set_option maxHeartbeats 3000000 in
theorem val6_main_v99 : val6 V0 (no_index (Proc.devRef .tc main_v99)) = nhOf (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg12)) (V0 (Proc.devRef .tc main_arg13)) := by
  unfold val6
  simp only [w5]
  after_results_simp
  simp only [val5_main_v87, val5_arg V0 main_arg12, val5_arg V0 main_arg13] <;> rfl
set_option maxRecDepth 8192 in
set_option maxHeartbeats 3000000 in
theorem val6_main_v100 : val6 V0 (no_index (Proc.devRef .tc main_v100)) = wN2T (V0 (Proc.devRef .tc main_arg14)) := by
  unfold val6
  simp only [w5]
  after_results_simp
  simp only [val5_arg V0 main_arg14] <;> rfl

def val7 : Valuation τ sig (Elt F) := after w6 (val6 V0)
abbrev w6_W : List (Ref sig .tc) := [main_v101, main_v102, main_v103, main_v104, main_v105]
theorem val7_arg (r : Ref sig .tc) (h : r ∈ args := by decide) : val7 V0 (no_index (Proc.devRef .tc r)) = V0 (Proc.devRef .tc r) :=
  arg_step V0 (l := w6) (W := w6_W) rfl (by decide) (fun r h => val6_arg V0 r h) r h
abbrev hid : FVec F S10000x128 .f32 := hiddenOutOf (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg12)) (V0 (Proc.devRef .tc main_arg13)) (V0 (Proc.devRef .tc main_arg14)) (V0 (Proc.devRef .tc main_arg15))
set_option maxRecDepth 8192 in
set_option maxHeartbeats 1000000 in
theorem val7_main_v105 : val7 V0 (no_index (Proc.devRef .tc main_v105)) = hid V0 := by
  unfold val7
  simp only [w6]
  after_results_simp
  simp only [val6_main_v99, val6_main_v100, val6_arg V0 main_arg15, val6_arg V0 main_arg0] <;> rfl

def val8 : Valuation τ sig (Elt F) := after w7 (val7 V0)
abbrev w7_W : List (Ref sig .tc) := [main_cst_17, main_v106, main_cst_18, main_v107, main_v108, main_c_19, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]
theorem val8_arg (r : Ref sig .tc) (h : r ∈ args := by decide) : val8 V0 (no_index (Proc.devRef .tc r)) = V0 (Proc.devRef .tc r) :=
  arg_step V0 (l := w7) (W := w7_W) rfl (by decide) (fun r h => val7_arg V0 r h) r h
theorem val8_main_v105 : val8 V0 (no_index (Proc.devRef .tc main_v105)) = hid V0 :=
  (after_keep (l := w7) (W := w7_W) rfl _ (by decide : main_v105 ∉ w7_W)).trans (val7_main_v105 V0)
set_option maxRecDepth 8192 in
set_option maxHeartbeats 4000000 in
theorem val8_main_v108 : val8 V0 (no_index (Proc.devRef .tc main_v108)) = meanOf (hid V0) := by
  unfold val8
  simp only [w7]
  after_results_simp
  simp only [val7_main_v105] <;> rfl
set_option maxRecDepth 8192 in
set_option maxHeartbeats 4000000 in
theorem val8_main_v109 : val8 V0 (no_index (Proc.devRef .tc main_v109)) = varOf (hid V0) := by
  unfold val8
  simp only [w7]
  after_results_simp
  simp only [val7_main_v105] <;> (try simp only [TRef.ofBuf, TRef.toBuf, cast_eq]) <;> rfl

def val9 : Valuation τ sig (Elt F) := after w8 (val8 V0)
abbrev w8_W : List (Ref sig .tc) := [main_v110, main_v111, main_v112, main_cst_20, main_v113, main_v114, main_v115, main_v116, main_v117, main_v118, main_v119, main_v120, main_v121, main_v122, main_v123, main_v124, main_v125, main_v126, main_v127, main_v128, main_v129]
theorem val9_arg (r : Ref sig .tc) (h : r ∈ args := by decide) : val9 V0 (no_index (Proc.devRef .tc r)) = V0 (Proc.devRef .tc r) :=
  arg_step V0 (l := w8) (W := w8_W) rfl (by decide) (fun r h => val8_arg V0 r h) r h
set_option maxRecDepth 8192 in
set_option maxHeartbeats 4000000 in
theorem val9_main_v129 : val9 V0 (no_index (Proc.devRef .tc main_v129)) = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) := by
  unfold val9
  simp only [w8]
  after_results_simp
  simp only [val8_main_v105, val8_main_v108, val8_main_v109, val8_arg V0 main_arg16, val8_arg V0 main_arg17, val8_arg V0 main_arg18, val8_arg V0 main_arg19] <;> rfl

theorem after_ops : after ops V0 = val9 V0 := by
  simp only [ops, after_append']
  rfl

-- Every weakly fair execution ends with the result at `refOut` of the arguments and the arguments as they were.
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v129) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun s h c =>
    have e (r : Ref sig .tc) := (h c r).trans (congrFun (after_ops (launchContents m c)) _)
    ⟨(e _).trans (val9_main_v129 _), (List.forall_iff_forall_mem (l := args) (p := fun r => s.2.mem ((c.tc : Thread nD τ).loc r) = m ((c.tc : Thread nD τ).loc r))).mpr
      fun r hr => (e r).trans (val9_arg _ r hr)⟩)
    (run_seq scopedRefs_eq scopedSems_eq defs main (fun _ => ops) main_eq (fun _ => ops_sub) m ρ (fun _ => ops_fresh))

end Cert.Proof.RefRun

end
-- ==== Proof.RefVal.lean ====
import proofs.«205084_g25537875542483_cont_9to1_419_23_alg».proof.Proof.RefRun
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Proof.RefVal

open Cert.ReferenceIdeal Cert.ReferenceIdeal.Gen Idealize.ShloMosaic Idealize.ShloMosaic.ValueIdx Cert.Proof.RefRun
open scoped BigOperators

section Layout

variable {α : Type}

theorem row0_apply (ei : IVec S2x320000 32) (e : Fin 320000) : row0 ei (ix1 e) = ei (ix2 (0 : Fin 2) e) := by
  unfold row0
  rw [shapeCast_1a_a_apply]
  exact slice2_axis0_apply 0 ei _ (0 : Fin 1) e (0 : Fin 2) rfl

theorem row1_apply (ei : IVec S2x320000 32) (e : Fin 320000) : row1 ei (ix1 e) = ei (ix2 (1 : Fin 2) e) := by
  unfold row1
  rw [shapeCast_1a_a_apply]
  exact slice2_axis0_apply 1 ei _ (0 : Fin 1) e (1 : Fin 2) rfl

theorem bcast_col_apply {E : Nat} (hE : E ≠ 1) (h : (⟨1, ![E]⟩ : Shape).BroadcastsInDim ⟨2, ![E, 1]⟩ ![0])
    (u : (⟨1, ![E]⟩ : Shape).Idx → α) (e : Fin E) (z : Fin 1) :
    broadcastInDim ⟨2, ![E, 1]⟩ ![0] h u (ix2 e z) = u (ix1 e) :=
  broadcastInDim_apply _ h u _ _ fun a => by
    match a with
    | ⟨0, _⟩ => exact (if_neg hE).symm

theorem bcast_row_apply {M N : Nat} (hN : N ≠ 1) (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → α) (r : Fin M) (c : Fin N) :
    broadcastInDim ⟨2, ![M, N]⟩ ![0, 1] h2 (broadcastInDim ⟨2, ![1, N]⟩ ![1] h1 b) (ix2 r c) = b (ix1 c) := by
  rw [broadcastInDim_apply _ h2 _ (ix2 r c) (ix2 (0 : Fin 1) c) fun a => by
    match a with
    | ⟨0, _⟩ => exact (if_pos rfl).symm
    | ⟨1, _⟩ => exact (if_neg hN).symm]
  exact broadcastInDim_apply _ h1 b _ _ fun a => by
    match a with
    | ⟨0, _⟩ => exact (if_neg hN).symm

theorem bcast_rows_apply {M N : Nat} (hN : N ≠ 1)
    (h2 : (⟨2, ![1, N]⟩ : Shape).BroadcastsInDim ⟨2, ![M, N]⟩ ![0, 1]) (v : (⟨2, ![1, N]⟩ : Shape).Idx → α) (r : Fin M) (c : Fin N) :
    broadcastInDim ⟨2, ![M, N]⟩ ![0, 1] h2 v (ix2 r c) = v (ix2 (0 : Fin 1) c) :=
  broadcastInDim_apply _ h2 _ (ix2 r c) (ix2 (0 : Fin 1) c) fun a => by
    match a with
    | ⟨0, _⟩ => exact (if_pos rfl).symm
    | ⟨1, _⟩ => exact (if_neg hN).symm

theorem bcast_row1_apply {N : Nat} (hN : N ≠ 1) (h1 : (⟨1, ![N]⟩ : Shape).BroadcastsInDim ⟨2, ![1, N]⟩ ![1])
    (b : (⟨1, ![N]⟩ : Shape).Idx → α) (z : Fin 1) (c : Fin N) :
    broadcastInDim ⟨2, ![1, N]⟩ ![1] h1 b (ix2 z c) = b (ix1 c) :=
  broadcastInDim_apply _ h1 b _ _ fun a => by
    match a with
    | ⟨0, _⟩ => exact (if_neg hN).symm

end Layout

theorem slt_zero_of_lt (b : BitVec 32) (h : b.toNat < 10000) : b.slt 0#32 = false := by
  have e := BitVec.toInt_eq_toNat_cond b
  rw [if_pos (by omega)] at e
  simp only [BitVec.slt, e, BitVec.toInt_zero, decide_eq_false_iff_not, not_lt]
  omega

theorem toInt_toNat_of_lt (b : BitVec 32) (h : b.toNat < 10000) : b.toInt.toNat = b.toNat := by
  have e := BitVec.toInt_eq_toNat_cond b
  rw [if_pos (by omega)] at e
  rw [e]; rfl

theorem wrap_apply_of_lt (v : IVec S320000 32) (e : Fin 320000) (z : Fin 1) (hv : (v (ix1 e)).toNat < 10000) :
    wrap v (ix2 e z) = v (ix1 e) := by
  unfold wrap
  rw [bcast_col_apply (by decide)]
  show Scalar.select (IntOp.cmpi .slt (v (ix1 e)) 0#32) _ (v (ix1 e)) = v (ix1 e)
  have : IntOp.cmpi .slt (v (ix1 e)) 0#32 = 0#1 := by
    show BitVec.ofBool ((v (ix1 e)).slt 0#32) = 0#1
    rw [slt_zero_of_lt _ hv]; rfl
  rw [this, select_zero]

section Gather

variable {α : Type}

abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (a : Fin C) :
    Host.gather (rowsDims N E C wf) x idx (ix2 e a)
      = x (ix2 ⟨min (idx (ix2 e (0 : Fin 1))).toInt.toNat (N - 1), by omega⟩ a) := by
  unfold Host.gather
  congr 1
  funext ax
  refine Fin.ext ?_
  show (rowsDims N E C wf).start (ix2 e a) idx ax + (rowsDims N E C wf).batchCoord (ix2 e a) ax
      + (rowsDims N E C wf).offCoord (ix2 e a) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ (rowsDims N E C wf).startIndexMap from List.mem_singleton.mpr rfl)]
    have hsi : (rowsDims N E C wf).siIdx (ix2 e a) ⟨List.idxOf (⟨0, by decide⟩ : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, h1⟩ =>
    have hs : (rowsDims N E C wf).start (ix2 e a) idx ⟨1, h1⟩ = 0 := by
      unfold GatherDims.start
      rw [dif_neg (by show (⟨1, h1⟩ : Fin 2) ∉ [(0 : Fin 2)]; simp [Fin.ext_iff])]
    have ho : (rowsDims N E C wf).offCoord (ix2 e a) ⟨1, h1⟩ = a.val := by
      unfold GatherDims.offCoord
      rw [dif_pos ((GatherDims.mem_sKept _ _).mpr ⟨by show (⟨1, h1⟩ : Fin 2) ∉ [(0 : Fin 2)]; simp [Fin.ext_iff], List.not_mem_nil⟩)]
      rfl
    rw [hs, ho, Nat.zero_add]

end Gather

theorem gatherFeat_wrap_apply (x : FVec Ideal S10000x128 .f32) (v : IVec S320000 32) (e : Fin 320000) (a : Fin 128)
    (hv : (v (ix1 e)).toNat < 10000) :
    gatherFeat x (wrap v) (ix2 e a) = x (ix2 ⟨(v (ix1 e)).toNat, hv⟩ a) := by
  unfold gatherFeat
  show Host.gather (rowsDims 10000 320000 128 gather_S10000x128_S320000x1_S320000x128_1_0_n_n_0_1_1128_wf) x (wrap v) (ix2 e a) = _
  rw [gather_rows_apply (by decide)]
  congr 2
  refine Fin.ext ?_
  show min (wrap v (ix2 e (0 : Fin 1))).toInt.toNat (10000 - 1) = (v (ix1 e)).toNat
  rw [wrap_apply_of_lt v e 0 hv, toInt_toNat_of_lt _ hv]; omega

theorem gatherPos_wrap_apply (pos : FVec Ideal S10000x3 .f32) (v : IVec S320000 32) (e : Fin 320000) (a : Fin 3)
    (hv : (v (ix1 e)).toNat < 10000) :
    gatherPos pos (wrap v) (ix2 e a) = pos (ix2 ⟨(v (ix1 e)).toNat, hv⟩ a) := by
  unfold gatherPos
  show Host.gather (rowsDims 10000 320000 3 gather_S10000x3_S320000x1_S320000x3_1_0_n_n_0_1_13_wf) pos (wrap v) (ix2 e a) = _
  rw [gather_rows_apply (by decide)]
  congr 2
  refine Fin.ext ?_
  show min (wrap v (ix2 e (0 : Fin 1))).toInt.toNat (10000 - 1) = (v (ix1 e)).toNat
  rw [wrap_apply_of_lt v e 0 hv, toInt_toNat_of_lt _ hv]; omega

theorem ofBits_one_f32 : Ideal.ofBits .f32 0x3F800000#32 = 1 := by
  simp [Ideal.ofBits, Ideal.ieee, -EReal.coe_mul]; norm_num

theorem ofBits_ten4_f32 : Ideal.ofBits .f32 0x461C4000#32 = ((10000 : ℝ) : EReal) := by
  simp [Ideal.ofBits, Ideal.ieee, -EReal.coe_mul]; norm_num

theorem reduce_cols3_apply (v : FVec Ideal S320000x3 .f32) (e : Fin 320000) :
    Host.reduceAdd v (constant S_ .f32 0x00000000#32) reducesTo_S320000x3_S320000_d1 h_S_ (ix1 e)
      = ∑ a : Fin 3, v (ix2 e a) := by
  have hR : S320000x3.Reduces [1] S320000 := by decide
  show Ideal.hostReduceAdd reducesTo_S320000x3_S320000_d1 v (Ideal.ofBits .f32 0x00000000#32) (ix1 e) = _
  rw [Ideal.hostReduceAdd_single _ hR, Ideal.ofBits_zero_f32, zero_add]
  refine Finset.sum_congr rfl fun a _ => congrArg v ?_
  funext ax; refine Fin.ext ?_
  match ax with
  | ⟨0, _⟩ => rfl
  | ⟨1, _⟩ => rfl

theorem reduce_rows_apply (v : FVec Ideal S10000x128 .f32) (c : Fin 128) :
    Host.reduceAdd v (constant S_ .f32 0x00000000#32) reducesTo_S10000x128_S128_d0 h_S_ (ix1 c)
      = ∑ n : Fin 10000, v (ix2 n c) := by
  have hR : S10000x128.Reduces [0] S128 := by decide
  show Ideal.hostReduceAdd reducesTo_S10000x128_S128_d0 v (Ideal.ofBits .f32 0x00000000#32) (ix1 c) = _
  rw [Ideal.hostReduceAdd_single _ hR, Ideal.ofBits_zero_f32, zero_add]
  refine Finset.sum_congr rfl fun a _ => congrArg v ?_
  funext ax; refine Fin.ext ?_
  match ax with
  | ⟨0, _⟩ => rfl
  | ⟨1, _⟩ => rfl

theorem lin_apply {M K N : Nat} (hN : N ≠ 1) (d : DotDims ⟨2, ![M, K]⟩ ⟨2, ![K, N]⟩ ⟨2, ![M, N]⟩)
    (hd : d = DotDims.plain M K N) (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (A : FVec Ideal ⟨2, ![M, K]⟩ .f32) (W : FVec Ideal ⟨2, ![N, K]⟩ .f32) (b : FVec Ideal ⟨1, ![N]⟩ .f32) (r : Fin M) (c : Fin N) :
    addf (Host.dotGeneral d none A (transpose ⟨2, ![K, N]⟩ [1, 0] W ht))
        (broadcastInDim ⟨2, ![M, N]⟩ ![0, 1] h2 (broadcastInDim ⟨2, ![1, N]⟩ ![1] h1 b)) (ix2 r c)
      = (∑ k : Fin K, A (ix2 r k) * W (ix2 c k)) + b (ix1 c) := by
  subst hd
  show Host.dotGeneral (DotDims.plain M K N) none A (transpose ⟨2, ![K, N]⟩ [1, 0] W ht) (ix2 r c)
      + broadcastInDim ⟨2, ![M, N]⟩ ![0, 1] h2 (broadcastInDim ⟨2, ![1, N]⟩ ![1] h1 b) (ix2 r c) = _
  rw [StackMember.dotGeneral_plain_apply, bcast_row_apply hN]
  congr 1
  exact Finset.sum_congr rfl fun k _ => by rw [transpose_ix2_apply]

theorem silu_apply {S : Shape} (h1 : S_.BroadcastsInDim S (![] : Fin 0 → Fin S.rank)) (v : FVec Ideal S .f32) (i : S.Idx) :
    RefRun.silu h1 v i = v i * Ideal.logistic (v i) := by
  show v i * Ideal.div (Ideal.ofBits .f32 0x3F800000#32) (Ideal.ofBits .f32 0x3F800000#32 + Ideal.exp (-(v i))) = _
  rw [ofBits_one_f32]; rfl

theorem mIn_apply_left (xi xj : FVec Ideal S320000x128 .f32) (rd : FVec Ideal S320000x1 .f32) (e : Fin 320000) (a : Fin 128) :
    mIn xi xj rd (ix2 e (⟨a.val, by omega⟩ : Fin 257)) = xi (ix2 e a) := by
  unfold mIn
  exact concatenate_apply_piece (t := S320000x257) (1 : Fin 2) [⟨S320000x128, xi⟩, ⟨S320000x128, xj⟩, ⟨S320000x1, rd⟩] concatenates_S320000x128_S320000x128_S320000x1_S320000x257_d1 (ix2 e (⟨a.val, by omega⟩ : Fin 257)) 0 (by simp) S320000x128 xi rfl rfl 0 rfl (ix2 e a)
    (fun b hb => by
      match b with
      | ⟨0, _⟩ => rfl
      | ⟨1, _⟩ => exact absurd rfl hb) (Nat.zero_add _)

theorem mIn_apply_mid (xi xj : FVec Ideal S320000x128 .f32) (rd : FVec Ideal S320000x1 .f32) (e : Fin 320000) (a : Fin 128) :
    mIn xi xj rd (ix2 e (⟨128 + a.val, by omega⟩ : Fin 257)) = xj (ix2 e a) := by
  unfold mIn
  exact concatenate_apply_piece (t := S320000x257) (1 : Fin 2) [⟨S320000x128, xi⟩, ⟨S320000x128, xj⟩, ⟨S320000x1, rd⟩] concatenates_S320000x128_S320000x128_S320000x1_S320000x257_d1 (ix2 e (⟨128 + a.val, by omega⟩ : Fin 257)) 1 (by simp) S320000x128 xj rfl rfl 128 rfl (ix2 e a)
    (fun b hb => by
      match b with
      | ⟨0, _⟩ => rfl
      | ⟨1, _⟩ => exact absurd rfl hb) rfl

theorem mIn_apply_last (xi xj : FVec Ideal S320000x128 .f32) (rd : FVec Ideal S320000x1 .f32) (e : Fin 320000) :
    mIn xi xj rd (ix2 e (⟨256, by omega⟩ : Fin 257)) = rd (ix2 e (0 : Fin 1)) := by
  unfold mIn
  exact concatenate_apply_piece (t := S320000x257) (1 : Fin 2) [⟨S320000x128, xi⟩, ⟨S320000x128, xj⟩, ⟨S320000x1, rd⟩] concatenates_S320000x128_S320000x128_S320000x1_S320000x257_d1 (ix2 e (⟨256, by omega⟩ : Fin 257)) 2 (by simp) S320000x1 rd rfl rfl 256 rfl (ix2 e (0 : Fin 1))
    (fun b hb => by
      match b with
      | ⟨0, _⟩ => rfl
      | ⟨1, _⟩ => exact absurd rfl hb) rfl

theorem nodeIn_apply_left (x : FVec Ideal S10000x128 .f32) (mi : FVec Ideal S10000x16 .f32) (n : Fin 10000) (c : Fin 128) :
    nodeIn x mi (ix2 n (⟨c.val, by omega⟩ : Fin 144)) = x (ix2 n c) := by
  unfold nodeIn
  exact concatenate_apply_piece (t := S10000x144) (1 : Fin 2) [⟨S10000x128, x⟩, ⟨S10000x16, mi⟩] concatenates_S10000x128_S10000x16_S10000x144_d1 (ix2 n (⟨c.val, by omega⟩ : Fin 144)) 0 (by simp) S10000x128 x rfl rfl 0 rfl (ix2 n c)
    (fun b hb => by
      match b with
      | ⟨0, _⟩ => rfl
      | ⟨1, _⟩ => exact absurd rfl hb) (Nat.zero_add _)

theorem nodeIn_apply_right (x : FVec Ideal S10000x128 .f32) (mi : FVec Ideal S10000x16 .f32) (n : Fin 10000) (q : Fin 16) :
    nodeIn x mi (ix2 n (⟨128 + q.val, by omega⟩ : Fin 144)) = mi (ix2 n q) := by
  unfold nodeIn
  exact concatenate_apply_piece (t := S10000x144) (1 : Fin 2) [⟨S10000x128, x⟩, ⟨S10000x16, mi⟩] concatenates_S10000x128_S10000x16_S10000x144_d1 (ix2 n (⟨128 + q.val, by omega⟩ : Fin 144)) 1 (by simp) S10000x16 mi rfl rfl 128 rfl (ix2 n q)
    (fun b hb => by
      match b with
      | ⟨0, _⟩ => rfl
      | ⟨1, _⟩ => exact absurd rfl hb) rfl

section Scatter

abbrev rowsScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem ix2_inj {n0 n1 : Nat} (a c : Fin n0) (b d : Fin n1) : ix2 a b = ix2 c d ↔ a = c ∧ b = d :=
  ⟨fun h => ⟨congrFun h (0 : Fin 2), congrFun h (1 : Fin 2)⟩, fun h => by rw [h.1, h.2]⟩

theorem resultIdx_rows {N E C w : Nat} (wf : ScatterDims.WF ⟨2, ![N, C]⟩ ⟨2, ![E, 1]⟩ ⟨2, ![E, C]⟩ [1] [0] [0] 1)
    (idx : IVec ⟨2, ![E, 1]⟩ w) (e : Fin E) (q : Fin C) (n : Fin N) (hn : (idx (ix2 e (0 : Fin 1))).toInt = (n.val : Int)) :
    (rowsScatter N E C wf).resultIdx? (ix2 e q) idx = some (ix2 n q) := by
  have key : ∀ a : Fin 2, (rowsScatter N E C wf).start (ix2 e q) idx a + ((rowsScatter N E C wf).window (ix2 e q) a : Int)
      = ((ix2 n q a).val : Int) := by
    intro a
    match a with
    | ⟨0, h0⟩ =>
      have hs : (rowsScatter N E C wf).start (ix2 e q) idx ⟨0, h0⟩ = (idx (ix2 e (0 : Fin 1))).toInt := by
        unfold ScatterDims.start
        rw [dif_pos (show (⟨0, h0⟩ : Fin 2) ∈ [(0 : Fin 2)] from List.mem_singleton.mpr rfl)]
        congr 2
        funext b; refine Fin.ext ?_
        match b with
        | ⟨0, _⟩ => rfl
        | ⟨1, _⟩ => rfl
      have hw : (rowsScatter N E C wf).window (ix2 e q) ⟨0, h0⟩ = 0 := by
        unfold ScatterDims.window
        rw [dif_neg (by show (⟨0, h0⟩ : Fin 2) ∉ Shape.kept ⟨2, ![N, C]⟩ [(0 : Fin 2)]; simp [Shape.kept])]
      rw [hs, hw, hn]; simp
    | ⟨1, h1⟩ =>
      have hs : (rowsScatter N E C wf).start (ix2 e q) idx ⟨1, h1⟩ = 0 := by
        unfold ScatterDims.start
        rw [dif_neg (by show (⟨1, h1⟩ : Fin 2) ∉ [(0 : Fin 2)]; simp [Fin.ext_iff])]
      have hw : (rowsScatter N E C wf).window (ix2 e q) ⟨1, h1⟩ = q.val := by
        unfold ScatterDims.window
        rw [dif_pos (by
          show (⟨1, h1⟩ : Fin 2) ∈ Shape.kept ⟨2, ![N, C]⟩ [(0 : Fin 2)]
          unfold Shape.kept
          exact List.mem_filter.mpr ⟨List.mem_finRange _, by simp [Fin.ext_iff]⟩)]
        rfl
      rw [hs, hw]; simp
  unfold ScatterDims.resultIdx?
  rw [dif_pos (fun a => by rw [key a]; exact ⟨Int.natCast_nonneg _, by exact_mod_cast (ix2 n q a).isLt⟩)]
  congr 1
  funext a; refine Fin.ext ?_
  show ((rowsScatter N E C wf).start (ix2 e q) idx a + ((rowsScatter N E C wf).window (ix2 e q) a : Int)).toNat = (ix2 n q a).val
  rw [key a]; exact Int.toNat_natCast _

end Scatter

set_option maxRecDepth 4096 in
theorem segSum_apply (dst : IVec S320000 32) (m : FVec Ideal S320000x16 .f32) (hd : ∀ e, (dst (ix1 e)).toNat < 10000)
    (n : Fin 10000) (q : Fin 16) :
    segSum dst m (ix2 n q) = ∑ e : Fin 320000, if (⟨(dst (ix1 e)).toNat, hd e⟩ : Fin 10000) = n then m (ix2 e q) else 0 := by
  have hd' : scatter_S10000x16_S320000x1_S320000x16_1_0_0_1
      = rowsScatter 10000 320000 16 scatter_S10000x16_S320000x1_S320000x16_1_0_0_1_wf := rfl
  have hz : broadcastInDim S10000x16 ![] bcast_S_S10000x16 (constant (F := Ideal) S_ .f32 0x00000000#32) (ix2 n q) = 0 :=
    Ideal.ofBits_zero_f32
  unfold segSum Host.scatterAdd
  rw [hd', Ideal.hostScatterAdd_def]
  unfold Ideal.hostScatterAdd
  rw [hz, zero_add, Finset.sum_filter, sum_idx2]
  refine Finset.sum_congr rfl fun e _ => ?_
  have hr : ∀ q' : Fin 16, (rowsScatter 10000 320000 16 scatter_S10000x16_S320000x1_S320000x16_1_0_0_1_wf).resultIdx? (ix2 e q')
      (broadcastInDim S320000x1 ![0] bcast_S320000_S320000x1_0 dst) = some (ix2 (⟨(dst (ix1 e)).toNat, hd e⟩ : Fin 10000) q') := fun q' =>
    resultIdx_rows _ _ e q' _ (by
      rw [bcast_col_apply (by decide)]
      have h2 := BitVec.toInt_eq_toNat_cond (dst (ix1 e))
      rw [if_pos (by have := hd e; omega)] at h2
      exact h2)
  simp only [hr, Option.some.injEq, ix2_inj]
  by_cases hdn : (⟨(dst (ix1 e)).toNat, hd e⟩ : Fin 10000) = n
  · simp [hdn]
  · simp [hdn]

variable (x : FVec Ideal S10000x128 .f32) (ei : IVec S2x320000 32) (pos : FVec Ideal S10000x3 .f32) (We1 : FVec Ideal S514x257 .f32) (be1 : FVec Ideal S514 .f32) (We2 : FVec Ideal S16x514 .f32) (be2 : FVec Ideal S16 .f32) (Wn1 : FVec Ideal S256x144 .f32) (bn1 : FVec Ideal S256 .f32) (Wn2 : FVec Ideal S128x256 .f32) (bn2 : FVec Ideal S128 .f32) (gamma : FVec Ideal S128 .f32) (beta : FVec Ideal S128 .f32) (Wfc : FVec Ideal S3x128 .f32) (bfc : FVec Ideal S3 .f32) (hidx : ∀ i, (ei i).toNat < 10000)

def src (e : Fin 320000) : Fin 10000 := ⟨(ei (ix2 (0 : Fin 2) e)).toNat, hidx _⟩

def dst (e : Fin 320000) : Fin 10000 := ⟨(ei (ix2 (1 : Fin 2) e)).toNat, hidx _⟩

def silu (z : EReal) : EReal := z * Ideal.logistic z

def relD (pos : FVec Ideal S10000x3 .f32) (ei : IVec S2x320000 32) (hidx : ∀ i, (ei i).toNat < 10000) (e : Fin 320000) : EReal :=
  ∑ a : Fin 3, (pos (ix2 (src ei hidx e) a) - pos (ix2 (dst ei hidx e) a)) * (pos (ix2 (src ei hidx e) a) - pos (ix2 (dst ei hidx e) a))

def preE (e : Fin 320000) (h : Fin 514) : EReal :=
  ((∑ a : Fin 128, x (ix2 (dst ei hidx e) a) * We1 (ix2 h (⟨a.val, by omega⟩ : Fin 257)))
    + (∑ a : Fin 128, x (ix2 (src ei hidx e) a) * We1 (ix2 h (⟨128 + a.val, by omega⟩ : Fin 257)))
    + relD pos ei hidx e * We1 (ix2 h (⟨256, by omega⟩ : Fin 257))) + be1 (ix1 h)

def msgR (e : Fin 320000) (q : Fin 16) : EReal :=
  silu ((∑ h : Fin 514, silu (preE x ei pos We1 be1 hidx e h) * We2 (ix2 q h)) + be2 (ix1 q))

def aggR (n : Fin 10000) (q : Fin 16) : EReal :=
  ∑ e : Fin 320000, if dst ei hidx e = n then msgR x ei pos We1 be1 We2 be2 hidx e q else 0

def preN (n : Fin 10000) (k : Fin 256) : EReal :=
  ((∑ c : Fin 128, x (ix2 n c) * Wn1 (ix2 k (⟨c.val, by omega⟩ : Fin 144)))
    + ∑ q : Fin 16, aggR x ei pos We1 be1 We2 be2 hidx n q * Wn1 (ix2 k (⟨128 + q.val, by omega⟩ : Fin 144))) + bn1 (ix1 k)

def hidR (n : Fin 10000) (c : Fin 128) : EReal :=
  x (ix2 n c) + ((∑ k : Fin 256, silu (preN x ei pos We1 be1 We2 be2 Wn1 bn1 hidx n k) * Wn2 (ix2 c k)) + bn2 (ix1 c))

def ten4 : EReal := Ideal.ofBits .f32 0x461C4000#32

def eps : EReal := Ideal.ofBits .f32 0x3727C5AC#32

def meanR (c : Fin 128) : EReal := Ideal.div (∑ n : Fin 10000, hidR x ei pos We1 be1 We2 be2 Wn1 bn1 Wn2 bn2 hidx n c) ten4

def varR (c : Fin 128) : EReal :=
  Ideal.div (∑ n : Fin 10000, (hidR x ei pos We1 be1 We2 be2 Wn1 bn1 Wn2 bn2 hidx n c - meanR x ei pos We1 be1 We2 be2 Wn1 bn1 Wn2 bn2 hidx c) * (hidR x ei pos We1 be1 We2 be2 Wn1 bn1 Wn2 bn2 hidx n c - meanR x ei pos We1 be1 We2 be2 Wn1 bn1 Wn2 bn2 hidx c)) ten4

def normR (n : Fin 10000) (c : Fin 128) : EReal :=
  Ideal.div (hidR x ei pos We1 be1 We2 be2 Wn1 bn1 Wn2 bn2 hidx n c - meanR x ei pos We1 be1 We2 be2 Wn1 bn1 Wn2 bn2 hidx c) (Ideal.sqrt (varR x ei pos We1 be1 We2 be2 Wn1 bn1 Wn2 bn2 hidx c + eps))

def outR (n : Fin 10000) (j : Fin 3) : EReal :=
  (∑ c : Fin 128, (normR x ei pos We1 be1 We2 be2 Wn1 bn1 Wn2 bn2 hidx n c * gamma (ix1 c) + beta (ix1 c)) * Wfc (ix2 j c)) + bfc (ix1 j)

theorem sum_split3 (f : Fin 257 → EReal) :
    ∑ k, f k = (∑ a : Fin 128, f ⟨a.val, by omega⟩) + (∑ a : Fin 128, f ⟨128 + a.val, by omega⟩) + f ⟨256, by omega⟩ := by
  rw [show (∑ k : Fin 257, f k) = ∑ k : Fin (128 + 128 + 1), f k from rfl, Fin.sum_univ_add, Fin.sum_univ_add, Fin.sum_univ_one]
  rfl

theorem sum_split2 (f : Fin 144 → EReal) :
    ∑ k, f k = (∑ c : Fin 128, f ⟨c.val, by omega⟩) + ∑ q : Fin 16, f ⟨128 + q.val, by omega⟩ := by
  rw [show (∑ k : Fin 144, f k) = ∑ k : Fin (128 + 16), f k from rfl, Fin.sum_univ_add]
  rfl

theorem row0_lt (ei : IVec S2x320000 32) (hidx : ∀ i, (ei i).toNat < 10000) (e : Fin 320000) : (row0 ei (ix1 e)).toNat < 10000 := by rw [row0_apply]; exact hidx _
theorem row1_lt (ei : IVec S2x320000 32) (hidx : ∀ i, (ei i).toNat < 10000) (e : Fin 320000) : (row1 ei (ix1 e)).toNat < 10000 := by rw [row1_apply]; exact hidx _

theorem src_eq (ei : IVec S2x320000 32) (hidx : ∀ i, (ei i).toNat < 10000) (e : Fin 320000) (hv : (row0 ei (ix1 e)).toNat < 10000) :
    (⟨(row0 ei (ix1 e)).toNat, hv⟩ : Fin 10000) = src ei hidx e :=
  Fin.ext (by show (row0 ei (ix1 e)).toNat = (ei (ix2 (0 : Fin 2) e)).toNat; rw [row0_apply])

theorem dst_eq (ei : IVec S2x320000 32) (hidx : ∀ i, (ei i).toNat < 10000) (e : Fin 320000) (hv : (row1 ei (ix1 e)).toNat < 10000) :
    (⟨(row1 ei (ix1 e)).toNat, hv⟩ : Fin 10000) = dst ei hidx e :=
  Fin.ext (by show (row1 ei (ix1 e)).toNat = (ei (ix2 (1 : Fin 2) e)).toNat; rw [row1_apply])

theorem relCoors_apply (pos : FVec Ideal S10000x3 .f32) (ei : IVec S2x320000 32) (hidx : ∀ i, (ei i).toNat < 10000) (e : Fin 320000) (a : Fin 3) :
    relCoors pos ei (ix2 e a) = pos (ix2 (src ei hidx e) a) - pos (ix2 (dst ei hidx e) a) := by
  unfold relCoors
  show gatherPos pos (wrap (row0 ei)) (ix2 e a) - gatherPos pos (wrap (row1 ei)) (ix2 e a) = _
  rw [gatherPos_wrap_apply pos _ e a (row0_lt ei hidx e), gatherPos_wrap_apply pos _ e a (row1_lt ei hidx e),
    src_eq ei hidx, dst_eq ei hidx]

theorem relDistOf_apply (pos : FVec Ideal S10000x3 .f32) (ei : IVec S2x320000 32) (hidx : ∀ i, (ei i).toNat < 10000) (e : Fin 320000) (z : Fin 1) : relDistOf pos ei (ix2 e z) = relD pos ei hidx e := by
  unfold relDistOf relDist
  rw [bcast_col_apply (by decide), reduce_cols3_apply]
  unfold relD
  refine Finset.sum_congr rfl fun a _ => ?_
  show relCoors pos ei (ix2 e a) * relCoors pos ei (ix2 e a) = _
  rw [relCoors_apply pos ei hidx]

theorem xI_apply (e : Fin 320000) (a : Fin 128) : xI x ei (ix2 e a) = x (ix2 (dst ei hidx e) a) := by
  unfold xI
  rw [gatherFeat_wrap_apply x _ e a (row1_lt ei hidx e), dst_eq ei hidx]

theorem xJ_apply (e : Fin 320000) (a : Fin 128) : xJ x ei (ix2 e a) = x (ix2 (src ei hidx e) a) := by
  unfold xJ
  rw [gatherFeat_wrap_apply x _ e a (row0_lt ei hidx e), src_eq ei hidx]

theorem hOf_apply (e : Fin 320000) (h : Fin 514) :
    hOf x ei pos We1 be1 (ix2 e h) = silu (preE x ei pos We1 be1 hidx e h) := by
  unfold hOf edgeHidden
  rw [silu_apply, lin_apply (by decide) dot_S320000x257_S257x514_S320000x514_1_0_0_1_n_n rfl]
  have hp : (∑ k : Fin 257, mInOf x ei pos (ix2 e k) * We1 (ix2 h k)) + be1 (ix1 h) = preE x ei pos We1 be1 hidx e h := by
    rw [sum_split3]
    unfold mInOf preE
    simp only [mIn_apply_left, mIn_apply_mid, mIn_apply_last, xI_apply x ei hidx, xJ_apply x ei hidx, relDistOf_apply pos ei hidx]
  rw [hp]; rfl

theorem mIJOf_apply (e : Fin 320000) (q : Fin 16) :
    mIJOf x ei pos We1 be1 We2 be2 (ix2 e q) = msgR x ei pos We1 be1 We2 be2 hidx e q := by
  unfold mIJOf edgeMsg
  rw [silu_apply, lin_apply (by decide) dot_S320000x514_S514x16_S320000x16_1_0_0_1_n_n rfl]
  unfold msgR
  simp only [hOf_apply x ei pos We1 be1 hidx]
  rfl

theorem mIOf_apply (n : Fin 10000) (q : Fin 16) :
    mIOf x ei pos We1 be1 We2 be2 (ix2 n q) = aggR x ei pos We1 be1 We2 be2 hidx n q := by
  unfold mIOf
  rw [segSum_apply _ _ (row1_lt ei hidx)]
  unfold aggR
  simp only [dst_eq ei hidx, mIJOf_apply x ei pos We1 be1 We2 be2 hidx]

theorem nhOf_apply (n : Fin 10000) (k : Fin 256) :
    nhOf x ei pos We1 be1 We2 be2 Wn1 bn1 (ix2 n k) = silu (preN x ei pos We1 be1 We2 be2 Wn1 bn1 hidx n k) := by
  unfold nhOf nodeHidden
  rw [silu_apply, lin_apply (by decide) dot_S10000x144_S144x256_S10000x256_1_0_0_1_n_n rfl]
  have hp : (∑ c : Fin 144, nodeInOf x ei pos We1 be1 We2 be2 (ix2 n c) * Wn1 (ix2 k c)) + bn1 (ix1 k)
      = preN x ei pos We1 be1 We2 be2 Wn1 bn1 hidx n k := by
    rw [sum_split2]
    unfold nodeInOf preN
    simp only [nodeIn_apply_left, nodeIn_apply_right, mIOf_apply x ei pos We1 be1 We2 be2 hidx]
  rw [hp]; rfl

theorem hiddenOutOf_apply (n : Fin 10000) (c : Fin 128) :
    hiddenOutOf x ei pos We1 be1 We2 be2 Wn1 bn1 Wn2 bn2 (ix2 n c) = hidR x ei pos We1 be1 We2 be2 Wn1 bn1 Wn2 bn2 hidx n c := by
  unfold hiddenOutOf hiddenOut wN2T
  show x (ix2 n c) + _ = _
  rw [lin_apply (by decide) dot_S10000x256_S256x128_S10000x128_1_0_0_1_n_n rfl]
  unfold hidR
  simp only [nhOf_apply x ei pos We1 be1 We2 be2 Wn1 bn1 hidx]

theorem meanOf_apply (ho : FVec Ideal S10000x128 .f32) (c : Fin 128) :
    meanOf ho (ix1 c) = Ideal.div (∑ n : Fin 10000, ho (ix2 n c)) ten4 := by
  unfold meanOf
  show Ideal.div (Host.reduceAdd ho (constant S_ .f32 0x00000000#32) reducesTo_S10000x128_S128_d0 h_S_ (ix1 c)) _ = _
  rw [reduce_rows_apply]; rfl

theorem centered_apply (ho : FVec Ideal S10000x128 .f32) (n : Fin 10000) (c : Fin 128) :
    centered ho (ix2 n c) = ho (ix2 n c) - Ideal.div (∑ n' : Fin 10000, ho (ix2 n' c)) ten4 := by
  unfold centered
  show ho (ix2 n c) - _ = _
  rw [bcast_rows_apply (by decide)]
  show _ - Ideal.div (broadcastInDim S1x128 ![1] bcast_S128_S1x128_1
      (Host.reduceAdd ho (constant S_ .f32 0x00000000#32) reducesTo_S10000x128_S128_d0 h_S_) (ix2 (0 : Fin 1) c)) _ = _
  rw [bcast_row1_apply (by decide), reduce_rows_apply]; rfl

theorem dofN_apply (i : S_.Idx) : dofN (F := Ideal) i = ten4 := by
  show Ideal.ofBits .f32 0x461C4000#32 - (((0#32 : BitVec 32).toInt : ℝ) : EReal) = _
  rw [BitVec.toInt_zero, Int.cast_zero, EReal.coe_zero, sub_zero]; rfl

theorem ten4_pos : (0 : EReal) < ten4 := by
  unfold ten4; rw [ofBits_ten4_f32]; exact EReal.coe_pos.mpr (by norm_num)

theorem varOf_apply (ho : FVec Ideal S10000x128 .f32) (c : Fin 128) :
    varOf ho (ix1 c) = Ideal.div (∑ n : Fin 10000, (ho (ix2 n c) - Ideal.div (∑ n' : Fin 10000, ho (ix2 n' c)) ten4)
      * (ho (ix2 n c) - Ideal.div (∑ n' : Fin 10000, ho (ix2 n' c)) ten4)) ten4 := by
  unfold varOf
  show Scalar.select (Ideal.cmp .ogt (dofN (F := Ideal) _) (Ideal.ofBits .f32 0x00000000#32))
      (Ideal.div (Host.reduceAdd (mulf (centered ho) (centered ho)) (constant S_ .f32 0x00000000#32) reducesTo_S10000x128_S128_d0 h_S_ (ix1 c))
        (dofN (F := Ideal) _)) _ = _
  rw [dofN_apply, Ideal.ofBits_zero_f32]
  have hc : Ideal.cmp .ogt ten4 0 = 1#1 := by
    show BitVec.ofBool (decide ((0 : EReal) < ten4)) = 1#1
    rw [decide_eq_true ten4_pos]; rfl
  rw [hc, select_one, reduce_rows_apply]
  congr 1
  refine Finset.sum_congr rfl fun n _ => ?_
  show centered ho (ix2 n c) * centered ho (ix2 n c) = _
  rw [centered_apply]

theorem rowBcast_apply (v : FVec Ideal S128 .f32) (n : Fin 10000) (c : Fin 128) : rowBcast v (ix2 n c) = v (ix1 c) := by
  unfold rowBcast
  exact bcast_row_apply (by decide) _ _ v n c

theorem bnOut_apply (ho : FVec Ideal S10000x128 .f32) (mean var g b : FVec Ideal S128 .f32) (W : FVec Ideal S3x128 .f32)
    (bf : FVec Ideal S3 .f32) (n : Fin 10000) (j : Fin 3) :
    bnOut ho mean var g b W bf (ix2 n j)
      = (∑ c : Fin 128, (Ideal.div (ho (ix2 n c) - mean (ix1 c)) (Ideal.sqrt (var (ix1 c) + eps)) * g (ix1 c) + b (ix1 c)) * W (ix2 j c))
        + bf (ix1 j) := by
  unfold bnOut fcOut
  rw [lin_apply (by decide) dot_S10000x128_S128x3_S10000x3_1_0_0_1_n_n rfl]
  congr 1
  refine Finset.sum_congr rfl fun c _ => ?_
  congr 1
  unfold bnAffine normalized
  show Ideal.div (ho (ix2 n c) - rowBcast mean (ix2 n c)) (rowBcast (F := Ideal) _ (ix2 n c)) * rowBcast g (ix2 n c) + rowBcast b (ix2 n c) = _
  rw [rowBcast_apply, rowBcast_apply, rowBcast_apply, rowBcast_apply]
  rfl

theorem refOut_apply (a3 : IVec S10000 32) (a8 : FVec Ideal S64x16 .f32) (a9 : FVec Ideal S64 .f32) (a10 : FVec Ideal S1x64 .f32) (a11 : FVec Ideal S1 .f32) (n : Fin 10000) (j : Fin 3) :
    refOut x ei pos a3 We1 be1 We2 be2 a8 a9 a10 a11 Wn1 bn1 Wn2 bn2 gamma beta Wfc bfc (ix2 n j) = outR x ei pos We1 be1 We2 be2 Wn1 bn1 Wn2 bn2 gamma beta Wfc bfc hidx n j := by
  unfold refOut
  rw [bnOut_apply]
  unfold outR normR varR meanR
  simp only [meanOf_apply, varOf_apply, hiddenOutOf_apply x ei pos We1 be1 We2 be2 Wn1 bn1 Wn2 bn2 hidx]

end Cert.Proof.RefVal

end
-- ==== Proof.KI.NodeJoinIdeal.lean ====
import proofs.«205084_g25537875542483_cont_9to1_419_23_alg».proof.Proof.KI.R3VarPos
import proofs.«205084_g25537875542483_cont_9to1_419_23_alg».proof.Proof.RefVal

noncomputable section

open scoped BigOperators

namespace Cert.Proof.KI.NodeJoinIdeal

open Cert.Proof.KI.R3PayIdeal Cert.Proof.KI.R3ValIdeal Cert.Proof.KI.R3ArrIdeal Cert.Proof.KI.R3VarPos
open Idealize.ShloMosaic Idealize.ShloMosaic.ValueIdx

theorem outAt_eq_outR (x0 : FVec Ideal Cert.KernelIdeal.S10000x128 .f32) (x1 : FVec Ideal Cert.KernelIdeal.S2x16x640x128 .f32) (x2 : FVec Ideal Cert.KernelIdeal.S128x256 .f32) (x3 : FVec Ideal Cert.KernelIdeal.S16x256 .f32) (x4 : FVec Ideal Cert.KernelIdeal.S1x256 .f32) (x5 : FVec Ideal Cert.KernelIdeal.S256x128 .f32) (x6 : FVec Ideal Cert.KernelIdeal.S1x128 .f32) (x7 : FVec Ideal Cert.KernelIdeal.S1x128 .f32) (x8 : FVec Ideal Cert.KernelIdeal.S1x128 .f32) (x9 : FVec Ideal Cert.KernelIdeal.S128x3 .f32) (x10 : FVec Ideal Cert.KernelIdeal.S1x3 .f32)
    (x : FVec Ideal Cert.ReferenceIdeal.S10000x128 .f32) (ei : IVec Cert.ReferenceIdeal.S2x320000 32) (pos : FVec Ideal Cert.ReferenceIdeal.S10000x3 .f32)
    (We1 : FVec Ideal Cert.ReferenceIdeal.S514x257 .f32) (be1 : FVec Ideal Cert.ReferenceIdeal.S514 .f32) (We2 : FVec Ideal Cert.ReferenceIdeal.S16x514 .f32) (be2 : FVec Ideal Cert.ReferenceIdeal.S16 .f32)
    (Wn1 : FVec Ideal Cert.ReferenceIdeal.S256x144 .f32) (bn1 : FVec Ideal Cert.ReferenceIdeal.S256 .f32) (Wn2 : FVec Ideal Cert.ReferenceIdeal.S128x256 .f32) (bn2 : FVec Ideal Cert.ReferenceIdeal.S128 .f32)
    (gamma : FVec Ideal Cert.ReferenceIdeal.S128 .f32) (beta : FVec Ideal Cert.ReferenceIdeal.S128 .f32) (Wfc : FVec Ideal Cert.ReferenceIdeal.S3x128 .f32) (bfc : FVec Ideal Cert.ReferenceIdeal.S3 .f32)
    (hidx : ∀ i, (ei i).toNat < 10000)
    (hx : ∀ n c, x0 (ix2 n c) = x (ix2 n c))
    (hagg : ∀ n q, agg x1 n q = Cert.Proof.RefVal.aggR x ei pos We1 be1 We2 be2 hidx n q)
    (hn1a : ∀ (c : Fin 128) (k : Fin 256), x2 (ix2 c k) = Wn1 (ix2 k (⟨c.val, by have := c.isLt; omega⟩ : Fin 144)))
    (hn1b : ∀ (q : Fin 16) (k : Fin 256), x3 (ix2 q k) = Wn1 (ix2 k (⟨128 + q.val, by have := q.isLt; omega⟩ : Fin 144)))
    (hnb1 : ∀ k : Fin 256, x4 (ix2 (0 : Fin 1) k) = bn1 (ix1 k))
    (hn2 : ∀ (k : Fin 256) (c : Fin 128), x5 (ix2 k c) = Wn2 (ix2 c k))
    (hnb2 : ∀ c : Fin 128, x6 (ix2 (0 : Fin 1) c) = bn2 (ix1 c))
    (hg : ∀ c : Fin 128, x7 (ix2 (0 : Fin 1) c) = gamma (ix1 c))
    (hbt : ∀ c : Fin 128, x8 (ix2 (0 : Fin 1) c) = beta (ix1 c))
    (hwfc : ∀ (c : Fin 128) (j : Fin 3), x9 (ix2 c j) = Wfc (ix2 j c))
    (hbfc : ∀ j : Fin 3, x10 (ix2 (0 : Fin 1) j) = bfc (ix1 j))
    (n : Fin 10000) (j : Fin 3) :
    outAt x0 x1 x2 x3 x4 x5 x6 x7 x8 x9 x10 n j
      = Cert.Proof.RefVal.outR x ei pos We1 be1 We2 be2 Wn1 bn1 Wn2 bn2 gamma beta Wfc bfc hidx n j := by
  have hpre : ∀ n k, preAct x0 x1 x2 x3 x4 n k = Cert.Proof.RefVal.preN x ei pos We1 be1 We2 be2 Wn1 bn1 hidx n k := by
    intro n k
    unfold preAct Cert.Proof.RefVal.preN
    simp only [hx, hagg, hn1a, hn1b, hnb1]
  have hres : resid x0 x1 x2 x3 x4 x5 x6 = fun n c => Cert.Proof.RefVal.hidR x ei pos We1 be1 We2 be2 Wn1 bn1 Wn2 bn2 hidx n c := by
    funext n c
    unfold resid Cert.Proof.RefVal.hidR Cert.Proof.RefVal.silu
    simp only [hpre, hx, hn2, hnb2]
  unfold outAt Cert.Proof.RefVal.outR
  rw [hres]
  simp only [normed_eq_div, hg, hbt, hwfc, hbfc]
  rfl

end Cert.Proof.KI.NodeJoinIdeal

end
-- ==== Proof.KI.AggJoinIdeal.lean ====
import proofs.«205084_g25537875542483_cont_9to1_419_23_alg».proof.Proof.RefVal
import proofs.«205084_g25537875542483_cont_9to1_419_23_alg».proof.Proof.KI.R3ValIdeal
import Idealize.ShloMosaic.Lib.ValueIdx
import Idealize.ShloMosaic.PureOps.Ideal.Laws

noncomputable section

namespace Cert.Proof.KI.AggJoinIdeal

open Idealize.ShloMosaic Idealize.ShloMosaic.ValueIdx
open scoped BigOperators

abbrev edgeOf (g : Fin 16) (t : Fin 20480) : Fin 327680 := ⟨20480 * g.val + t.val, by have := g.isLt; have := t.isLt; omega⟩

abbrev rowOf (h : Fin 2) (c : Fin 8) : Fin 16 := ⟨8 * h.val + c.val, by have := h.isLt; have := c.isLt; omega⟩

theorem inner_sum (Dv nv qv : ℕ) (f : Fin 8 → EReal) :
    (∑ c : Fin 8, if Dv % 640 = nv % 640 ∧ 8 * (Dv / 640) + c.val = 8 * (nv / 640) + qv % 8 then f c else 0)
      = if Dv = nv then f ⟨qv % 8, Nat.mod_lt _ (by decide)⟩ else 0 := by
  by_cases hD : Dv = nv
  · subst hD
    rw [if_pos rfl]
    have key : ∀ c : Fin 8, (Dv % 640 = Dv % 640 ∧ 8 * (Dv / 640) + c.val = 8 * (Dv / 640) + qv % 8)
        ↔ c = ⟨qv % 8, Nat.mod_lt _ (by decide)⟩ := by
      intro c
      constructor
      · rintro ⟨-, h⟩; exact Fin.ext (by show c.val = qv % 8; omega)
      · intro h; subst h; exact ⟨rfl, rfl⟩
    rw [Finset.sum_congr rfl (fun c _ => if_congr (key c) rfl rfl), Finset.sum_ite_eq' Finset.univ _ f, if_pos (Finset.mem_univ _)]
  · rw [if_neg hD]
    refine Finset.sum_eq_zero fun c _ => if_neg ?_
    rintro ⟨h1, h2⟩
    have hc := c.isLt
    omega

theorem sum_groups (F : Fin 327680 → EReal) : (∑ g : Fin 16, ∑ t : Fin 20480, F (edgeOf g t)) = ∑ E : Fin 327680, F E := by
  rw [← Fintype.sum_prod_type' (f := fun g t => F (edgeOf g t))]
  refine Fintype.sum_equiv (finProdFinEquiv (m := 16) (n := 20480)) _ _ fun p => ?_
  congr 1
  refine Fin.ext ?_
  show 20480 * p.1.val + p.2.val = p.2.val + 20480 * p.1.val
  omega

theorem sum_head_tail (G : Fin 327680 → EReal) :
    ∑ E, G E = (∑ e : Fin 320000, G ⟨e.val, by omega⟩) + ∑ p : Fin 7680, G ⟨320000 + p.val, by omega⟩ := by
  rw [show (∑ E : Fin 327680, G E) = ∑ E : Fin (320000 + 7680), G E from rfl, Fin.sum_univ_add]
  rfl

theorem agg_eq_aggR (x1 : FVec Ideal Cert.KernelIdeal.S2x16x640x128 .f32) (mt : (⟨2, ![16, 327680]⟩ : Shape).Idx → EReal)
    (D : Fin 327680 → ℕ)
    (x : FVec Ideal Cert.ReferenceIdeal.S10000x128 .f32) (ei : IVec Cert.ReferenceIdeal.S2x320000 32)
    (pos : FVec Ideal Cert.ReferenceIdeal.S10000x3 .f32) (We1 : FVec Ideal Cert.ReferenceIdeal.S514x257 .f32)
    (be1 : FVec Ideal Cert.ReferenceIdeal.S514 .f32) (We2 : FVec Ideal Cert.ReferenceIdeal.S16x514 .f32)
    (be2 : FVec Ideal Cert.ReferenceIdeal.S16 .f32) (hidx : ∀ i, (ei i).toNat < 10000)
    (Hparts : ∀ (h : Fin 2) (g : Fin 16) (r : Fin 640) (col : Fin 128),
      x1 (ix4 h g r col) = ∑ t : Fin 20480, ∑ c : Fin 8,
        if D (edgeOf g t) % 640 = r.val ∧ 8 * (D (edgeOf g t) / 640) + c.val = col.val then mt (ix2 (rowOf h c) (edgeOf g t)) else 0)
    (Hdst : ∀ e : Fin 320000, D ⟨e.val, by omega⟩ = (Cert.Proof.RefVal.dst ei hidx e).val)
    (Hpad : ∀ p : Fin 7680, D ⟨320000 + p.val, by omega⟩ = 10008)
    (Hmsg : ∀ (q : Fin 16) (e : Fin 320000),
      mt (ix2 q (⟨e.val, by omega⟩ : Fin 327680)) = Cert.Proof.RefVal.msgR x ei pos We1 be1 We2 be2 hidx e q)
    (n : Fin 10000) (q : Fin 16) :
    Cert.Proof.KI.R3ValIdeal.agg x1 n q = Cert.Proof.RefVal.aggR x ei pos We1 be1 We2 be2 hidx n q := by
  unfold Cert.Proof.KI.R3ValIdeal.agg Cert.Proof.RefVal.aggR
  have h1 : (∑ g : Fin 16, x1 (ix4 (⟨q.val / 8, by have := q.isLt; omega⟩ : Fin 2) g (⟨n.val % 640, Nat.mod_lt _ (by decide)⟩ : Fin 640)
        (⟨8 * (n.val / 640) + q.val % 8, by have := n.isLt; have := q.isLt; omega⟩ : Fin 128)))
      = ∑ g : Fin 16, ∑ t : Fin 20480, if D (edgeOf g t) = n.val then mt (ix2 q (edgeOf g t)) else 0 := by
    refine Finset.sum_congr rfl fun g _ => ?_
    rw [Hparts]
    refine Finset.sum_congr rfl fun t _ => ?_
    refine (inner_sum (D (edgeOf g t)) n.val q.val _).trans ?_
    show (if D (edgeOf g t) = n.val then mt (ix2 (rowOf ⟨q.val / 8, _⟩ ⟨q.val % 8, _⟩) (edgeOf g t)) else 0) = _
    have hq : rowOf ⟨q.val / 8, by have := q.isLt; omega⟩ ⟨q.val % 8, Nat.mod_lt _ (by decide)⟩ = q :=
      Fin.ext (by show 8 * (q.val / 8) + q.val % 8 = q.val; omega)
    rw [hq]
  rw [h1]
  refine (sum_groups (fun E : Fin 327680 => if D E = n.val then mt (ix2 q E) else 0)).trans ?_
  rw [sum_head_tail]
  have htail : (∑ p : Fin 7680, (fun E : Fin 327680 => if D E = n.val then mt (ix2 q E) else 0) ⟨320000 + p.val, by omega⟩) = 0 :=
    Finset.sum_eq_zero fun p _ => if_neg (by rw [Hpad]; have := n.isLt; omega)
  rw [htail, add_zero]
  refine Finset.sum_congr rfl fun e _ => ?_
  show (if D ⟨e.val, _⟩ = n.val then mt (ix2 q ⟨e.val, _⟩) else 0) = _
  rw [Hdst, Hmsg]
  by_cases hd : Cert.Proof.RefVal.dst ei hidx e = n
  · rw [if_pos hd, if_pos (congrArg Fin.val hd)]
  · rw [if_neg hd, if_neg (fun h => hd (Fin.ext h))]

end Cert.Proof.KI.AggJoinIdeal

end
-- ==== Proof.KI.FinalJoinIdeal.lean ====
import proofs.«205084_g25537875542483_cont_9to1_419_23_alg».proof.Proof.KI.Main
import proofs.«205084_g25537875542483_cont_9to1_419_23_alg».proof.Proof.KI.HostVals
import proofs.«205084_g25537875542483_cont_9to1_419_23_alg».proof.Proof.KI.NodeJoinIdeal
import proofs.«205084_g25537875542483_cont_9to1_419_23_alg».proof.Proof.KI.AggJoinIdeal

set_option maxRecDepth 16384

noncomputable section

open scoped BigOperators

namespace Cert.Proof.KI.FinalJoinIdeal

open Cert.KernelIdeal Cert.KernelIdeal.Gen Cert.Proof.KI
open Cert.Proof.KI.R3Dat Cert.Proof.KI.R3ValIdeal
open Idealize.ShloMosaic Idealize.ShloMosaic.TcCoe Idealize.ShloMosaic.ValueIdx
open Idealize.ShloMosaic.SparseCore.Cfg (HIx)
open Idealize.SL Idealize.SL.Sem

variable (m : (ℓ : Loc nD τ sig) → Buf (Elt Ideal) ℓ) (d : Dev nD)
  (f0 : Buf (Elt Ideal) (K0Body.xiLoc d)) (f1 : Buf (Elt Ideal) (K0Body.xjLoc d)) (f2 : Buf (Elt Ideal) (K0Body.relLoc d))
  (g : Buf (Elt Ideal) (K2Body.partsLoc d))

abbrev hostRefs3 : List (Ref sig .tc) := [main_v33, main_v35, main_v36, main_v37, main_v38, main_v39, main_v40, main_v41, main_v42]

theorem Wc1_host (b : Ref sig .tc) (hb : b ∈ hostRefs3) : Wc1 m d f0 f1 f2 g (Proc.devRef .tc b) = Wh m d b := by
  have h45 : (Proc.devRef .tc b : DevRef τ sig) ≠ Calls.parts' :=
    StableHlo.devRef_ne_of_ne ((by decide : ∀ b ∈ hostRefs3, b ≠ main_v45) b hb)
  have h1 : ∀ w, Pipeline.arrRef spec1 w ≠ b := (by decide : ∀ b ∈ hostRefs3, ∀ w, Pipeline.arrRef spec1 w ≠ b) b hb
  have h0 : b ≠ main_v43_0 ∧ b ≠ main_v43_1 ∧ b ≠ main_v43_2 := (by decide : ∀ b ∈ hostRefs3, b ≠ main_v43_0 ∧ b ≠ main_v43_1 ∧ b ≠ main_v43_2) b hb
  show Function.update _ _ _ _ = _
  rw [Function.update_of_ne h45]
  show exit1 _ _ _ d (Proc.devRef .tc b) = _
  rw [exit1_of_ne _ _ _ d b h1, Calls.Wc0_of_ne m d f0 f1 f2 b h0]

theorem Wc1_parts : Wc1 m d f0 f1 f2 g Calls.parts' = g := Function.update_self _ _ _

theorem outAt_congr {x0 y0 : FVec Ideal S10000x128 .f32} {x1 y1 : FVec Ideal S2x16x640x128 .f32} {x2 y2 : FVec Ideal S128x256 .f32} {x3 y3 : FVec Ideal S16x256 .f32} {x4 y4 : FVec Ideal S1x256 .f32} {x5 y5 : FVec Ideal S256x128 .f32} {x6 y6 : FVec Ideal S1x128 .f32} {x7 y7 : FVec Ideal S1x128 .f32} {x8 y8 : FVec Ideal S1x128 .f32} {x9 y9 : FVec Ideal S128x3 .f32} {x10 y10 : FVec Ideal S1x3 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (n : Fin 10000) (j : Fin 3) :
    outAt x0 x1 x2 x3 x4 x5 x6 x7 x8 x9 x10 n j = outAt y0 y1 y2 y3 y4 y5 y6 y7 y8 y9 y10 n j := by
  subst h0 h1 h2 h3 h4 h5 h6 h7 h8 h9 h10; rfl

theorem Wr3_out_apply (n : Fin 10000) (j : Fin 3) :
    (Wr3 m d f0 f1 f2 g (Proc.devRef .tc main_v46) : FVec Ideal S10000x3 .f32) (ix2 n j)
      = outAt (m (d, Proc.devRef .tc main_arg0)) g (Wh m d main_v33) (Wh m d main_v35) (Wh m d main_v36) (Wh m d main_v37) (Wh m d main_v38) (Wh m d main_v39) (Wh m d main_v40) (Wh m d main_v41) (Wh m d main_v42) n j := by
  show (exit3 (fun _ => Wc1 m d f0 f1 f2 g) _ _ d (Proc.devRef .tc (Pipeline.arrRef spec3 11)) : FVec Ideal S10000x3 .f32) (ix2 n j) = _
  rw [exit3_arr]
  have H (b : Ref sig .tc) (hb : b ∈ hostRefs3) := Wc1_host m d f0 f1 f2 g b hb
  exact (R3ArrIdeal.arrAt3_out_apply (atTc fun _ => Wc1 m d f0 f1 f2 g) _ _ d n j).trans (outAt_congr (Wc1_arg m d f0 f1 f2 g main_arg0 (by decide)) (Wc1_parts m d f0 f1 f2 g)
    (H main_v33 (by decide)) (H main_v35 (by decide)) (H main_v36 (by decide)) (H main_v37 (by decide)) (H main_v38 (by decide)) (H main_v39 (by decide)) (H main_v40 (by decide)) (H main_v41 (by decide)) (H main_v42 (by decide)) n j)

def dstNat (E : Fin 327680) : ℕ := ((Wh m d main_v20 : IVec S327680 32) (ix1 E)).toNat

theorem dstNat_edge (hidx : ∀ i, ((m (d, Proc.devRef .tc main_arg1) : IVec Cert.ReferenceIdeal.S2x320000 32) i).toNat < 10000) (e : Fin 320000) :
    dstNat m d ⟨e.val, by have := e.isLt; omega⟩ = (Cert.Proof.RefVal.dst (m (d, Proc.devRef .tc main_arg1) : IVec Cert.ReferenceIdeal.S2x320000 32) hidx e).val := by
  unfold dstNat
  rw [Wh_eq, IdxRange.dst_s_eq (W0 m d) (ix1 (⟨e.val, by have := e.isLt; omega⟩ : Fin 327680))]
  unfold IdxRange.rowPad
  rw [dif_pos (show ((ix1 (⟨e.val, by have := e.isLt; omega⟩ : Fin 327680) : S327680.Idx) 0).val < 320000 from e.isLt)]
  rfl

theorem dstNat_pad (p : Fin 7680) : dstNat m d ⟨320000 + p.val, by have := p.isLt; omega⟩ = 10008 := by
  unfold dstNat
  rw [Wh_eq, IdxRange.dst_s_eq (W0 m d) (ix1 (⟨320000 + p.val, by have := p.isLt; omega⟩ : Fin 327680))]
  unfold IdxRange.rowPad
  rw [dif_neg (show ¬ ((ix1 (⟨320000 + p.val, by have := p.isLt; omega⟩ : Fin 327680) : S327680.Idx) 0).val < 320000 from by
    show ¬ (320000 + p.val < 320000); omega)]
  rfl

theorem Wr3_out_eq_refOut_of (hidx : ∀ i, ((m (d, Proc.devRef .tc main_arg1) : IVec Cert.ReferenceIdeal.S2x320000 32) i).toNat < 10000)
    (mt : (⟨2, ![16, 327680]⟩ : Shape).Idx → EReal)
    (Hparts : ∀ (h : Fin 2) (gg : Fin 16) (r : Fin 640) (col : Fin 128),
      (g : FVec Ideal S2x16x640x128 .f32) (ix4 h gg r col) = ∑ t : Fin 20480, ∑ c : Fin 8,
        if dstNat m d (AggJoinIdeal.edgeOf gg t) % 640 = r.val ∧ 8 * (dstNat m d (AggJoinIdeal.edgeOf gg t) / 640) + c.val = col.val
        then mt (ix2 (AggJoinIdeal.rowOf h c) (AggJoinIdeal.edgeOf gg t)) else 0)
    (Hmsg : ∀ (q : Fin 16) (e : Fin 320000), mt (ix2 q (⟨e.val, by have := e.isLt; omega⟩ : Fin 327680))
      = Cert.Proof.RefVal.msgR (m (d, Proc.devRef .tc main_arg0) : FVec Ideal Cert.ReferenceIdeal.S10000x128 .f32) (m (d, Proc.devRef .tc main_arg1) : IVec Cert.ReferenceIdeal.S2x320000 32) (m (d, Proc.devRef .tc main_arg2) : FVec Ideal Cert.ReferenceIdeal.S10000x3 .f32) (m (d, Proc.devRef .tc main_arg4) : FVec Ideal Cert.ReferenceIdeal.S514x257 .f32) (m (d, Proc.devRef .tc main_arg5) : FVec Ideal Cert.ReferenceIdeal.S514 .f32) (m (d, Proc.devRef .tc main_arg6) : FVec Ideal Cert.ReferenceIdeal.S16x514 .f32) (m (d, Proc.devRef .tc main_arg7) : FVec Ideal Cert.ReferenceIdeal.S16 .f32) hidx e q)
    (n : Fin 10000) (j : Fin 3) :
    (Wr3 m d f0 f1 f2 g (Proc.devRef .tc main_v46) : FVec Ideal S10000x3 .f32) (ix2 n j)
      = Cert.Proof.RefRun.refOut (F := Ideal) (m (d, Proc.devRef .tc main_arg0) : FVec Ideal Cert.ReferenceIdeal.S10000x128 .f32) (m (d, Proc.devRef .tc main_arg1) : IVec Cert.ReferenceIdeal.S2x320000 32) (m (d, Proc.devRef .tc main_arg2) : FVec Ideal Cert.ReferenceIdeal.S10000x3 .f32) (m (d, Proc.devRef .tc main_arg3) : IVec Cert.ReferenceIdeal.S10000 32) (m (d, Proc.devRef .tc main_arg4) : FVec Ideal Cert.ReferenceIdeal.S514x257 .f32) (m (d, Proc.devRef .tc main_arg5) : FVec Ideal Cert.ReferenceIdeal.S514 .f32) (m (d, Proc.devRef .tc main_arg6) : FVec Ideal Cert.ReferenceIdeal.S16x514 .f32) (m (d, Proc.devRef .tc main_arg7) : FVec Ideal Cert.ReferenceIdeal.S16 .f32) (m (d, Proc.devRef .tc main_arg8) : FVec Ideal Cert.ReferenceIdeal.S64x16 .f32) (m (d, Proc.devRef .tc main_arg9) : FVec Ideal Cert.ReferenceIdeal.S64 .f32) (m (d, Proc.devRef .tc main_arg10) : FVec Ideal Cert.ReferenceIdeal.S1x64 .f32) (m (d, Proc.devRef .tc main_arg11) : FVec Ideal Cert.ReferenceIdeal.S1 .f32) (m (d, Proc.devRef .tc main_arg12) : FVec Ideal Cert.ReferenceIdeal.S256x144 .f32) (m (d, Proc.devRef .tc main_arg13) : FVec Ideal Cert.ReferenceIdeal.S256 .f32) (m (d, Proc.devRef .tc main_arg14) : FVec Ideal Cert.ReferenceIdeal.S128x256 .f32) (m (d, Proc.devRef .tc main_arg15) : FVec Ideal Cert.ReferenceIdeal.S128 .f32) (m (d, Proc.devRef .tc main_arg16) : FVec Ideal Cert.ReferenceIdeal.S128 .f32) (m (d, Proc.devRef .tc main_arg17) : FVec Ideal Cert.ReferenceIdeal.S128 .f32) (m (d, Proc.devRef .tc main_arg18) : FVec Ideal Cert.ReferenceIdeal.S3x128 .f32) (m (d, Proc.devRef .tc main_arg19) : FVec Ideal Cert.ReferenceIdeal.S3 .f32) (ix2 n j) :=
  ((Wr3_out_apply m d f0 f1 f2 g n j).trans
    (NodeJoinIdeal.outAt_eq_outR _ g _ _ _ _ _ _ _ _ _ _ _ _ _ _ _ _ _ _ _ _ _ _ _ _ hidx (fun _ _ => rfl)
      (AggJoinIdeal.agg_eq_aggR g mt (dstNat m d) _ _ _ _ _ _ _ hidx Hparts (dstNat_edge m d hidx) (dstNat_pad m d) Hmsg)
      (fun c k => HostVals.n1a_eq (W0 m d) c k) (fun q k => HostVals.n1b_eq (W0 m d) q k) (fun k => HostVals.nb1_eq (W0 m d) k)
      (fun k c => HostVals.n2_eq (W0 m d) k c) (fun c => HostVals.nb2_eq (W0 m d) c) (fun c => HostVals.g_eq (W0 m d) c)
      (fun c => HostVals.bt_eq (W0 m d) c) (fun c j => HostVals.wfc_eq (W0 m d) c j) (fun j => HostVals.bfc_eq (W0 m d) j) n j)).trans
    (Cert.Proof.RefVal.refOut_apply _ _ _ _ _ _ _ _ _ _ _ _ _ _ _ hidx _ _ _ _ _ n j).symm

end Cert.Proof.KI.FinalJoinIdeal

end
-- ==== Proof.LibScatterAddSum.lean ====
import Idealize.ShloMosaic.PureOps.Ideal.Laws
import Idealize.ShloMosaic.PureOps.ShapeOps
import Mathlib.Algebra.BigOperators.Fin
import Mathlib.Logic.Equiv.Fin.Basic

noncomputable section

namespace Idealize.ShloMosaic.ScatterAddSum

open Idealize.ShloMosaic
open scoped BigOperators

section Adds
variable {ι : Type}

def Adds (f g : ι → EReal) (C : ι → EReal) : Prop := ∀ j, g j = f j + C j

theorem Adds.trans {f g h : ι → EReal} {C D : ι → EReal} (h₁ : Adds f g C) (h₂ : Adds g h D) : Adds f h (fun j => C j + D j) :=
  fun j => by rw [h₂ j, h₁ j, add_assoc]

theorem Adds.congr {f g : ι → EReal} {C D : ι → EReal} (h : Adds f g C) (e : ∀ j, C j = D j) : Adds f g D :=
  fun j => by rw [h j, e j]

theorem Adds.iterate {n : Nat} (G : Nat → ι → EReal) (C : Fin n → ι → EReal)
    (h : ∀ i : Fin n, Adds (G i.val) (G (i.val + 1)) (C i)) : Adds (G 0) (G n) (fun j => ∑ i : Fin n, C i j) := by
  have key : ∀ m (hm : m ≤ n), Adds (G 0) (G m) (fun j => ∑ i : Fin m, C (i.castLE hm) j) := by
    intro m
    induction m with
    | zero => intro hm j; simp
    | succ m ih =>
      intro hm j
      have h1 := ih (Nat.le_of_succ_le hm) j
      have h2 : G (m + 1) j = G m j + C ⟨m, hm⟩ j := h ⟨m, hm⟩ j
      show G (m + 1) j = G 0 j + ∑ i : Fin (m + 1), C (i.castLE hm) j
      rw [Fin.sum_univ_castSucc, h2, h1, add_assoc]
      rfl
  exact key n le_rfl

end Adds

section Store
variable {s : Shape} {d : Fin 1 → Nat}

def contrib [DecidableEq s.Idx] (idxs : Fin s.rank → IVec ⟨1, d⟩ 32) (v : FVec Ideal ⟨1, d⟩ .f32) (mask : IVec ⟨1, d⟩ 1)
    (h : ∀ a x, (idxs a x).toNat < s.size a) (j : s.Idx) : EReal :=
  ∑ k : Fin (d 0), if mask (Shape.ofLane k) = 1 ∧ idxAt idxs h (Shape.ofLane k) = j then v (Shape.ofLane k) else 0

theorem step_eq {ι : Type} [DecidableEq ι] (P : Prop) [Decidable P] (Q : ι → Prop) [DecidablePred Q] (g : ι → EReal) (i : ι) (x : EReal)
    (hQ : ∀ j, Q j ↔ i = j) (j : ι) :
    (if P then (fun j' => if Q j' then g i + x else g j') else g) j = g j + (if P ∧ i = j then x else 0) := by
  by_cases hP : P
  · by_cases hij : i = j
    · subst hij
      have hq : Q i := (hQ i).mpr rfl
      simp only [if_pos hP, if_pos hq, and_true]
    · have hq : ¬ Q j := fun hq => hij ((hQ j).mp hq)
      simp only [if_pos hP, if_neg hq, if_neg (fun hc : P ∧ i = j => hij hc.2), add_zero]
  · simp only [if_neg hP, if_neg (fun hc : P ∧ i = j => hP hc.1), add_zero]

theorem storeIdx_adds [DecidableEq s.Idx] (f : FVec Ideal s .f32) (idxs : Fin s.rank → IVec ⟨1, d⟩ 32) (v : FVec Ideal ⟨1, d⟩ .f32)
    (mask : IVec ⟨1, d⟩ 1) (h : ∀ a x, (idxs a x).toNat < s.size a) :
    Adds f (storeIdx (F := Ideal) (e := .f32) f idxs v mask true h) (contrib idxs v mask h) := by
  intro j
  unfold storeIdx contrib
  rw [Fin.sum_univ_def]
  generalize List.finRange (d 0) = L
  induction L generalizing f with
  | nil => simp
  | cons k L ih =>
    rw [List.foldl_cons, ih, List.map_cons, List.sum_cons, ← add_assoc]
    congr 1
    exact step_eq (mask (Shape.ofLane k) = 1) (fun j' => ∀ a, (j' a).val = ((idxAt idxs h (Shape.ofLane k)) a).val) f
      (idxAt idxs h (Shape.ofLane k)) (v (Shape.ofLane k))
      (fun j' => ⟨fun hh => funext fun a => Fin.ext (hh a).symm, fun e a => by rw [e]⟩) j

theorem contrib_eq [DecidableEq s.Idx] (idxs : Fin s.rank → IVec ⟨1, d⟩ 32) (v : FVec Ideal ⟨1, d⟩ .f32) (mask : IVec ⟨1, d⟩ 1)
    (h : ∀ a x, (idxs a x).toNat < s.size a) (T : Fin (d 0) → s.Idx) (w : Fin (d 0) → EReal)
    (hm : ∀ k, mask (Shape.ofLane k) = 1) (hT : ∀ k, idxAt idxs h (Shape.ofLane k) = T k) (hw : ∀ k, v (Shape.ofLane k) = w k) (j : s.Idx) :
    contrib idxs v mask h j = ∑ k : Fin (d 0), if T k = j then w k else 0 := by
  unfold contrib
  refine Finset.sum_congr rfl fun k _ => ?_
  rw [hT k, hw k]
  simp [hm k]

end Store

section Range

def enc {K Q Ln : Nat} (k : Fin K) (q : Fin Q) (l : Fin Ln) : Fin (K * Q * Ln) :=
  finProdFinEquiv (finProdFinEquiv (k, q), l)

theorem enc_val {K Q Ln : Nat} (k : Fin K) (q : Fin Q) (l : Fin Ln) : (enc k q l).val = (k.val * Q + q.val) * Ln + l.val := by
  show l.val + Ln * (q.val + Q * k.val) = _
  ring

theorem sum_enc {M : Type} [AddCommMonoid M] (K Q Ln : Nat) (g : Fin (K * Q * Ln) → M) :
    ∑ k : Fin K, ∑ q : Fin Q, ∑ l : Fin Ln, g (enc k q l) = ∑ e : Fin (K * Q * Ln), g e := by
  calc ∑ k : Fin K, ∑ q : Fin Q, ∑ l : Fin Ln, g (enc k q l)
      = ∑ kq : Fin K × Fin Q, ∑ l : Fin Ln, g (finProdFinEquiv (finProdFinEquiv kq, l)) :=
        (Fintype.sum_prod_type (fun kq : Fin K × Fin Q => ∑ l : Fin Ln, g (finProdFinEquiv (finProdFinEquiv kq, l)))).symm
    _ = ∑ a : Fin (K * Q), ∑ l : Fin Ln, g (finProdFinEquiv (a, l)) :=
        Equiv.sum_comp finProdFinEquiv (fun a : Fin (K * Q) => ∑ l : Fin Ln, g (finProdFinEquiv (a, l)))
    _ = ∑ p : Fin (K * Q) × Fin Ln, g (finProdFinEquiv p) :=
        (Fintype.sum_prod_type (fun p : Fin (K * Q) × Fin Ln => g (finProdFinEquiv p))).symm
    _ = ∑ e : Fin (K * Q * Ln), g e := Equiv.sum_comp finProdFinEquiv g

theorem Adds.range {ι : Type} [DecidableEq ι] {K Q Cn Ln : Nat} {f g : ι → EReal} (tgt : Fin (K * Q * Ln) → Fin Cn → ι)
    (val : Fin Cn → Fin (K * Q * Ln) → EReal)
    (h : Adds f g fun j => ∑ k : Fin K, ∑ q : Fin Q, ∑ c : Fin Cn, ∑ l : Fin Ln,
      if tgt (enc k q l) c = j then val c (enc k q l) else 0) :
    Adds f g fun j => ∑ e : Fin (K * Q * Ln), ∑ c : Fin Cn, if tgt e c = j then val c e else 0 := by
  refine h.congr fun j => ?_
  rw [← sum_enc K Q Ln (fun e => ∑ c : Fin Cn, if tgt e c = j then val c e else 0)]
  refine Finset.sum_congr rfl fun k _ => Finset.sum_congr rfl fun q _ => ?_
  exact Finset.sum_comm

end Range

end Idealize.ShloMosaic.ScatterAddSum

end
-- ==== Proof.KI.K2ValIdeal.lean ====
import proofs.«205084_g25537875542483_cont_9to1_419_23_alg».proof.Proof.KI.K2Body
import proofs.«205084_g25537875542483_cont_9to1_419_23_alg».proof.Proof.LibScatterAddSum

noncomputable section

namespace Cert.Proof.KI.K2ValIdeal

open Cert.KernelIdeal Cert.KernelIdeal.Gen Cert.Proof.KI Cert.Proof.KI.K2Body
open Idealize.ShloMosaic Idealize.ShloMosaic.ValueIdx Idealize.ShloMosaic.ScatterAddSum
open scoped BigOperators

variable (d : Dev nD) (L : grid2.Coords)

abbrev rd {ι : Type} (f : ι → EReal) (i : ι) : EReal := f i

def pos (t : Fin k2_t2_loop.trips) (l : Fin 16) : Fin 2048 :=
  ⟨16 * t.val + l.val, by have := Nat.lt_of_lt_of_le t.isLt k2_t2_abs.2.1; omega⟩

theorem lane_cast (l : Fin 16) :
    Shape.reshapeEquiv (s := S1x16) (s' := S16) shapeCasts_S1x16_S16 (Shape.ofLane l) = ix2 (0 : Fin 1) l :=
  Shape.reshapeEquiv_eq_of_rowMajor _ (by
    rw [Shape.rowMajor_val_two, Shape.rowMajor_val_one]
    show 0 * 16 + l.val = l.val
    omega)

theorem word_at (fi : Buf (Elt Ideal) ((thr d L).loc cc2_scratch1)) (t : Fin k2_t2_loop.trips) (l : Fin 16) :
    k2_pay1 (F := Ideal) (ld d L fi t) (Shape.ofLane l) = fi (ix2 (0 : Fin 1) (pos t l)) := by
  show ld d L fi t (Shape.reshapeEquiv shapeCasts_S1x16_S16 (Shape.ofLane l)) = _
  rw [lane_cast]
  show fi ((Rect.unit (s := S1x2048) (k2_off3 t) S1x16.size (k2_off3_inb t)).toLoadRect.idx (ix2 (0 : Fin 1) l)) = _
  congr 1
  funext a; apply Fin.ext
  rw [LoadRect.idx_apply]
  match a with
  | ⟨0, _⟩ =>
    show k2_off3 t 0 + 1 * 0 = 0
    rw [k2_off3_eq t]; simp
  | ⟨1, _⟩ =>
    show k2_off3 t 1 + 1 * l.val = 16 * t.val + l.val
    rw [k2_off3_eq t]; simp

theorem row_at (fr : Buf (Elt Ideal) ((thr d L).loc cc2_scratch2)) (t : Fin k2_t2_loop.trips) (off : Fin 2 → Nat)
    (inb : ∀ a, off a + S1x16.size a ≤ S8x2048.size a) (r : Fin 8) (ho : off = ![r.val, 16 * t.val]) (l : Fin 16) :
    shapeCast S16 (rowLd (F := Ideal) d L fr off inb) shapeCasts_S1x16_S16 (Shape.ofLane l) = fr (ix2 r (pos t l)) := by
  subst ho
  show rowLd d L fr _ inb (Shape.reshapeEquiv shapeCasts_S1x16_S16 (Shape.ofLane l)) = _
  rw [lane_cast]
  show fr ((Rect.unit (s := S8x2048) _ S1x16.size inb).toLoadRect.idx (ix2 (0 : Fin 1) l)) = _
  congr 1
  funext a; apply Fin.ext
  rw [LoadRect.idx_apply]
  match a with
  | ⟨0, _⟩ =>
    show r.val + 1 * 0 = r.val
    omega
  | ⟨1, _⟩ =>
    show 16 * t.val + 1 * l.val = 16 * t.val + l.val
    omega

def tgtW (w : BitVec 32) (hw : w.toNat < 10240) (c : Fin 8) : S640x128.Idx :=
  ix2 (⟨w.toNat % 640, Nat.mod_lt _ (by decide)⟩ : Fin 640) (⟨8 * (w.toNat / 640) + c.val, by omega⟩ : Fin 128)

theorem tgtW_congr {w w' : BitVec 32} (e : w = w') (hw : w.toNat < 10240) (hw' : w'.toNat < 10240) (c : Fin 8) :
    tgtW w hw c = tgtW w' hw' c := by subst e; rfl

theorem store_tgt (fi : Buf (Elt Ideal) ((thr d L).loc cc2_scratch1)) (hfi : IdxOK d L fi) (t : Fin k2_t2_loop.trips)
    (cw : BitVec 32) (c : Fin 8) (hcw : cw.toNat = c.val)
    (h : ∀ a x, ((![k2_pay2 (ld d L fi t), addi (k2_pay3 (ld d L fi t)) (broadcast S16 cw)] : Fin 2 → IVec S16 32) a x).toNat < S640x128.size a)
    (l : Fin 16) :
    idxAt ![k2_pay2 (ld d L fi t), addi (k2_pay3 (ld d L fi t)) (broadcast S16 cw)] h (Shape.ofLane l)
      = tgtW (fi (ix2 (0 : Fin 1) (pos t l))) (hfi _) c := by
  have hb : (k2_pay1 (F := Ideal) (ld d L fi t) (Shape.ofLane l)).toNat < 10240 := hfi _
  funext a; apply Fin.ext
  match a with
  | ⟨0, _⟩ =>
    show (IntOp.remsi .vector (k2_pay1 (F := Ideal) (ld d L fi t) (Shape.ofLane l)) 640#32).toNat = (fi (ix2 (0 : Fin 1) (pos t l))).toNat % 640
    rw [remsi_toNat _ hb, word_at]
  | ⟨1, _⟩ =>
    show (IntOp.addi (IntOp.muli (IntOp.divsi .vector (k2_pay1 (F := Ideal) (ld d L fi t) (Shape.ofLane l)) 640#32) 8#32) cw).toNat
      = 8 * ((fi (ix2 (0 : Fin 1) (pos t l))).toNat / 640) + c.val
    rw [col_toNat _ _ hb (by omega), word_at, hcw]

theorem st1_adds (f : S640x128.Idx → EReal) (fi : Buf (Elt Ideal) ((thr d L).loc cc2_scratch1)) (hfi : IdxOK d L fi)
    (fr : Buf (Elt Ideal) ((thr d L).loc cc2_scratch2)) (t : Fin k2_t2_loop.trips) (cw : BitVec 32) (c : Fin 8) (hcw : cw.toNat = c.val)
    (off : Fin 2 → Nat) (inb : ∀ a, off a + S1x16.size a ≤ S8x2048.size a) (ho : off = ![c.val, 16 * t.val])
    (jv : IVec S16 32) (hjv : jv = addi (k2_pay3 (ld d L fi t)) (broadcast S16 cw))
    (v : Vec Ideal S16 .f32) (hv : v = shapeCast S16 (rowLd d L fr off inb) shapeCasts_S1x16_S16)
    (h : ∀ a x, ((![k2_pay2 (ld d L fi t), jv] : Fin 2 → IVec S16 32) a x).toNat < S640x128.size a) :
    Adds f (st1 (F := Ideal) d L f (k2_pay2 (ld d L fi t)) jv v h)
      (fun j => ∑ l : Fin 16, if tgtW (fi (ix2 (0 : Fin 1) (pos t l))) (hfi _) c = j then rd (ι := S8x2048.Idx) fr (ix2 c (pos t l)) else 0) := by
  subst hjv hv
  rw [st1_eq]
  refine (storeIdx_adds f _ _ (fun _ => 1#1) h).congr fun j => ?_
  exact contrib_eq _ _ (fun _ => 1#1) h (fun l => tgtW (fi (ix2 (0 : Fin 1) (pos t l))) (hfi _) c)
    (fun l => rd (ι := S8x2048.Idx) fr (ix2 c (pos t l)))
    (fun _ => rfl) (fun l => store_tgt d L fi hfi t cw c hcw h l) (fun l => row_at d L fr t off inb c ho l) j

theorem T_adds (fi : Buf (Elt Ideal) ((thr d L).loc cc2_scratch1)) (hfi : IdxOK d L fi) (fr : Buf (Elt Ideal) ((thr d L).loc cc2_scratch2))
    (t : Fin k2_t2_loop.trips) (f : S640x128.Idx → EReal) :
    Adds f (K2Body.T (F := Ideal) d L fi hfi fr t f)
      (fun j => ∑ c : Fin 8, ∑ l : Fin 16,
        if tgtW (fi (ix2 (0 : Fin 1) (pos t l))) (hfi _) c = j then rd (ι := S8x2048.Idx) fr (ix2 c (pos t l)) else 0) := by
  unfold K2Body.T
  extract_lets f1 f2 f3 f4 f5 f6 f7
  have a1 : Adds f f1 _ := st1_adds d L f fi hfi fr t 0#32 0 rfl (k2_off4 t) (k2_off4_inb t) (k2_off4_eq t) _ rfl _ rfl _
  have a2 : Adds f1 f2 _ := st1_adds d L f1 fi hfi fr t 1#32 1 rfl (k2_off5 t) (k2_off5_inb t) (k2_off5_eq t) _ rfl _ rfl _
  have a3 : Adds f2 f3 _ := st1_adds d L f2 fi hfi fr t 2#32 2 rfl (k2_off6 t) (k2_off6_inb t) (k2_off6_eq t) _ rfl _ rfl _
  have a4 : Adds f3 f4 _ := st1_adds d L f3 fi hfi fr t 3#32 3 rfl (k2_off7 t) (k2_off7_inb t) (k2_off7_eq t) _ rfl _ rfl _
  have a5 : Adds f4 f5 _ := st1_adds d L f4 fi hfi fr t 4#32 4 rfl (k2_off8 t) (k2_off8_inb t) (k2_off8_eq t) _ rfl _ rfl _
  have a6 : Adds f5 f6 _ := st1_adds d L f5 fi hfi fr t 5#32 5 rfl (k2_off9 t) (k2_off9_inb t) (k2_off9_eq t) _ rfl _ rfl _
  have a7 : Adds f6 f7 _ := st1_adds d L f6 fi hfi fr t 6#32 6 rfl (k2_off10 t) (k2_off10_inb t) (k2_off10_eq t) _ rfl _ rfl _
  have a8 := st1_adds d L f7 fi hfi fr t 7#32 7 rfl (k2_off11 t) (k2_off11_inb t) (k2_off11_eq t)
    (k2_pay19 (k2_pay3 (ld d L fi t))) rfl (k2_pay18 (rowLd d L fr (k2_off11 t) (k2_off11_inb t))) rfl (chk_ok d L fi hfi t 7#32 (by decide))
  have hs := ((((((a1.trans a2).trans a3).trans a4).trans a5).trans a6).trans a7).trans a8
  refine hs.congr fun j => ?_
  exact (Fin.sum_univ_eight (fun c : Fin 8 => ∑ l : Fin 16,
    if tgtW (fi (ix2 (0 : Fin 1) (pos t l))) (hfi _) c = j then rd (ι := S8x2048.Idx) fr (ix2 c (pos t l)) else 0)).symm

-- a step that adds, trip by trip: the sum over the trips of what each adds
theorem iter_adds {n : Nat} (g : Fin n → (S640x128.Idx → EReal) → S640x128.Idx → EReal) (c : Fin n → S640x128.Idx → EReal)
    (hg : ∀ t f, Adds f (g t f) (c t)) (a : S640x128.Idx → EReal) : Adds a (iter n g a n) (fun j => ∑ t : Fin n, c t j) :=
  Adds.iterate (n := n) (fun t => iter n g a t) c (fun t => by
    show Adds (iter n g a t.val) (iter n g a (t.val + 1)) _
    rw [iter_succ]; exact hg t _)

theorem B_adds (fi : Buf (Elt Ideal) ((thr d L).loc cc2_scratch1)) (hfi : IdxOK d L fi) (fr : Buf (Elt Ideal) ((thr d L).loc cc2_scratch2))
    (f₀ : S640x128.Idx → EReal) :
    Adds f₀ (B (F := Ideal) d L fi hfi fr f₀ k2_t2_loop.trips)
      (fun j => ∑ t : Fin k2_t2_loop.trips, ∑ c : Fin 8, ∑ l : Fin 16,
        if tgtW (fi (ix2 (0 : Fin 1) (pos t l))) (hfi _) c = j then rd (ι := S8x2048.Idx) fr (ix2 c (pos t l)) else 0) := by
  unfold B
  exact iter_adds _ _ (fun t f => T_adds d L fi hfi fr t f) f₀

theorem A_adds (fmt : Buf (Elt Ideal) (mtLoc d)) (fdst : Buf (Elt Ideal) (dstLoc d)) (fz : Buf (Elt Ideal) (zpkLoc d)) (hok : DstOK fdst) :
    Adds (fz : S640x128.Idx → EReal) (A (F := Ideal) d L fmt fdst fz hok k2_t1_loop.trips)
      (fun j => ∑ k : Fin k2_t1_loop.trips, ∑ t : Fin k2_t2_loop.trips, ∑ c : Fin 8, ∑ l : Fin 16,
        if tgtW (Ik d L fdst k (ix2 (0 : Fin 1) (pos t l))) (Ik_ok d L fdst hok k _) c = j then rd (ι := S8x2048.Idx) (Rk d L fmt k) (ix2 c (pos t l)) else 0) := by
  unfold A
  exact iter_adds _ _ (fun k f => B_adds d L _ _ _ f) _

theorem trips1_eq : k2_t1_loop.trips = 10 := by decide +kernel
theorem trips2_eq : k2_t2_loop.trips = 128 := by decide +kernel

theorem range_eq : k2_t1_loop.trips * k2_t2_loop.trips * 16 = 20480 := by rw [trips1_eq, trips2_eq]

theorem edge_lt' (t : Fin 20480) : 20480 * ((16 * (L 0).val + (L 1).val) / 2) + t.val < 327680 := by
  have ht := t.isLt
  have hc : (L 0).val < 2 := (L 0).isLt
  have hs : (L 1).val < 16 := (L 1).isLt
  omega

theorem edge_lt (e : Fin (k2_t1_loop.trips * k2_t2_loop.trips * 16)) :
    20480 * ((16 * (L 0).val + (L 1).val) / 2) + e.val < 327680 := edge_lt' L (finCongr range_eq e)

def tgtE (fdst : Buf (Elt Ideal) (dstLoc d)) (hok : DstOK fdst) (e : Fin (k2_t1_loop.trips * k2_t2_loop.trips * 16)) (c : Fin 8) : S640x128.Idx :=
  tgtW (fdst (ix1 ⟨20480 * ((16 * (L 0).val + (L 1).val) / 2) + e.val, edge_lt L e⟩)) (hok _) c
def valE (fmt : Buf (Elt Ideal) (mtLoc d)) (c : Fin 8) (e : Fin (k2_t1_loop.trips * k2_t2_loop.trips * 16)) : EReal :=
  rd (ι := S16x327680.Idx) fmt (ix2 ⟨8 * ((16 * (L 0).val + (L 1).val) % 2) + c.val, row_lt L c⟩ ⟨20480 * ((16 * (L 0).val + (L 1).val) / 2) + e.val, edge_lt L e⟩)

theorem term_congr (fmt : Buf (Elt Ideal) (mtLoc d)) (fdst : Buf (Elt Ideal) (dstLoc d)) (hok : DstOK fdst) (c : Fin 8) (j : S640x128.Idx)
    (n n' : Nat) (hn : n < 327680) (hn' : n' < 327680) (e : n = n') :
    (if tgtW (fdst (ix1 ⟨n, hn⟩)) (hok _) c = j then rd (ι := S16x327680.Idx) fmt (ix2 ⟨8 * ((16 * (L 0).val + (L 1).val) % 2) + c.val, row_lt L c⟩ ⟨n, hn⟩) else (0 : EReal))
      = (if tgtW (fdst (ix1 ⟨n', hn'⟩)) (hok _) c = j then rd (ι := S16x327680.Idx) fmt (ix2 ⟨8 * ((16 * (L 0).val + (L 1).val) % 2) + c.val, row_lt L c⟩ ⟨n', hn'⟩) else 0) := by
  subst e; rfl

theorem ix2_eq_iff {n0 n1 : Nat} (a r : Fin n0) (b c : Fin n1) : ix2 a b = ix2 r c ↔ a = r ∧ b = c := by
  constructor
  · intro h
    have h0 : ix2 a b (0 : Fin 2) = ix2 r c (0 : Fin 2) := congrFun h 0
    have h1 : ix2 a b (1 : Fin 2) = ix2 r c (1 : Fin 2) := congrFun h 1
    exact ⟨h0, h1⟩
  · rintro ⟨rfl, rfl⟩; rfl

theorem out2_at_coords (fmt : Buf (Elt Ideal) (mtLoc d)) (fdst : Buf (Elt Ideal) (dstLoc d)) (fz : Buf (Elt Ideal) (zpkLoc d)) (hok : DstOK fdst)
    (r : Fin 640) (col : Fin 128) :
    out2 (F := Ideal) d L fmt fdst fz hok (ix2 r col)
      = rd (ι := S640x128.Idx) fz (ix2 r col) + ∑ t : Fin 20480, ∑ c : Fin 8,
          if (fdst (ix1 ⟨20480 * ((16 * (L 0).val + (L 1).val) / 2) + t.val, edge_lt' L t⟩)).toNat % 640 = r.val
              ∧ 8 * ((fdst (ix1 ⟨20480 * ((16 * (L 0).val + (L 1).val) / 2) + t.val, edge_lt' L t⟩)).toNat / 640) + c.val = col.val
          then rd (ι := S16x327680.Idx) fmt (ix2 ⟨8 * ((16 * (L 0).val + (L 1).val) % 2) + c.val, row_lt L c⟩
            ⟨20480 * ((16 * (L 0).val + (L 1).val) / 2) + t.val, edge_lt' L t⟩)
          else 0 := by
  have h4 : Adds (fz : S640x128.Idx → EReal) (out2 (F := Ideal) d L fmt fdst fz hok)
      (fun j => ∑ k : Fin k2_t1_loop.trips, ∑ q : Fin k2_t2_loop.trips, ∑ c : Fin 8, ∑ l : Fin 16,
        if tgtE d L fdst hok (enc k q l) c = j then valE d L fmt c (enc k q l) else 0) := by
    refine Adds.congr (fun j => show out2 (F := Ideal) d L fmt fdst fz hok j = _ from A_adds d L fmt fdst fz hok j) fun j => ?_
    refine Finset.sum_congr rfl fun k _ => Finset.sum_congr rfl fun t _ => Finset.sum_congr rfl fun c _ => Finset.sum_congr rfl fun l _ => ?_
    show (if tgtW (Ik d L fdst k (ix2 (0 : Fin 1) (pos t l))) (Ik_ok d L fdst hok k _) c = j then Rk d L fmt k (ix2 c (pos t l)) else (0 : EReal)) = _
    rw [Rk_at, tgtW_congr (Ik_at d L fdst k (pos t l)) _ (hok _) c]
    refine term_congr d L fmt fdst hok c j _ _ _ _ ?_
    rw [enc_val]
    have e : k.val * k2_t2_loop.trips = k.val * 128 := congrArg (k.val * ·) trips2_eq
    rw [e]
    show 20480 * ((16 * (L 0).val + (L 1).val) / 2) + 2048 * k.val + (16 * t.val + l.val) = _
    omega
  rw [Adds.range (tgtE d L fdst hok) (valE d L fmt) h4 (ix2 r col)]
  refine congrArg (fun x : EReal => rd (ι := S640x128.Idx) fz (ix2 r col) + x) ?_
  refine Fintype.sum_equiv (finCongr range_eq) _ _ fun e => ?_
  refine Finset.sum_congr rfl fun c _ => ?_
  unfold tgtE valE tgtW
  refine if_congr ?_ rfl rfl
  rw [ix2_eq_iff, Fin.ext_iff, Fin.ext_iff]
  rfl

end Cert.Proof.KI.K2ValIdeal

end
-- ==== Proof.KI.HostValsIdeal.lean ====
import proofs.«205084_g25537875542483_cont_9to1_419_23_alg».proof.Proof.KI.HostVals
import Idealize.ShloMosaic.PureOps.Ideal.Laws

noncomputable section

namespace Cert.Proof.KI.HostValsIdeal

open Cert.KernelIdeal Cert.KernelIdeal.Gen Cert.Proof.KI.IdxRange Cert.Proof.KI.HostVals
open Idealize.ShloMosaic Idealize.ShloMosaic.ValueIdx
open Idealize.SL.Sem

theorem padVal_ideal : (padVal : Ideal .f32) = 0 := by
  show (((0#32 : BitVec 32).toInt : ℝ) : EReal) = 0
  rw [show (0#32 : BitVec 32).toInt = 0 from by decide]
  simp

theorem zero_ideal : (Scalar.ofBits .f32 0x00000000#32 : Ideal .f32) = 0 := Ideal.ofBits_zero_f32

variable (V : Valuation τ sig (Elt Ideal))

theorem px_ideal (n : Fin 10112) :
    (StableHlo.after hostPre V (Proc.devRef .tc main_v2) : FVec Ideal S10112 .f32) (ix1 n)
      = if h : n.val < 10000 then (V (Proc.devRef .tc main_arg2) : FVec Ideal S10000x3 .f32) (ix2 (⟨n.val, h⟩ : Fin 10000) (0 : Fin 3)) else (0 : EReal) := by
  rw [px_eq, padVal_ideal]
theorem py_ideal (n : Fin 10112) :
    (StableHlo.after hostPre V (Proc.devRef .tc main_v5) : FVec Ideal S10112 .f32) (ix1 n)
      = if h : n.val < 10000 then (V (Proc.devRef .tc main_arg2) : FVec Ideal S10000x3 .f32) (ix2 (⟨n.val, h⟩ : Fin 10000) (1 : Fin 3)) else (0 : EReal) := by
  rw [py_eq, padVal_ideal]
theorem pz_ideal (n : Fin 10112) :
    (StableHlo.after hostPre V (Proc.devRef .tc main_v8) : FVec Ideal S10112 .f32) (ix1 n)
      = if h : n.val < 10000 then (V (Proc.devRef .tc main_arg2) : FVec Ideal S10000x3 .f32) (ix2 (⟨n.val, h⟩ : Fin 10000) (2 : Fin 3)) else (0 : EReal) := by
  rw [pz_eq, padVal_ideal]

theorem zpk_ideal (r : Fin 640) (c : Fin 128) :
    (StableHlo.after hostPre V (Proc.devRef .tc main_v21) : FVec Ideal S640x128 .f32) (ix2 r c) = (0 : EReal) := by
  rw [zpk_eq, zero_ideal]

end Cert.Proof.KI.HostValsIdeal

end
-- ==== Proof.KI.R1Idx.lean ====
import proofs.«205084_g25537875542483_cont_9to1_419_23_alg».proof.Proof.KI.R1Dat
import Idealize.ShloMosaic.Lib.Pipeline.Value
import Idealize.ShloMosaic.Lib.ValueIdx
import Idealize.ShloMosaic.Lib.Affine

set_option maxRecDepth 16384

noncomputable section

namespace Cert.Proof.KI.R1Idx

open Cert.KernelIdeal Cert.KernelIdeal.Gen Cert.Proof.KI Cert.Proof.KI.R1Dat

open Idealize.ShloMosaic Idealize.ShloMosaic.ValueIdx

variable {F : FTy → Type} [FloatOps F]

def fixW (k m : BitVec 32) : BitVec 32 :=
  Scalar.select
    (IntOp.andi (IntOp.xori (IntOp.cmpi .slt m 0#32) (Scalar.cmpi .slt k 0#32)) (IntOp.cmpi .ne m 0#32))
    (IntOp.addi m k) m

theorem fixW_small : ∀ m : Fin 16, fixW 16#32 (BitVec.ofNat 32 m.val) = BitVec.ofNat 32 m.val := by decide

theorem div16 : (Scalar.select (Scalar.cmpi .eq (16#32 : BitVec 32) 0#32) (1#32 : BitVec 32) 16#32) = 16#32 := by decide

theorem rem16 (e : Fin 4096) : IntOp.remsi .vector (BitVec.ofNat 32 e.val) 16#32 = BitVec.ofNat 32 (e.val % 16) := by
  have he : e.val < 4096 := e.isLt
  have hr : (BitVec.ofNat 32 e.val).toNat = e.val := by rw [BitVec.toNat_ofNat]; omega
  apply BitVec.eq_of_toNat_eq
  rw [show (16#32 : BitVec 32) = BitVec.ofNat 32 16 from rfl,
    IntOp.toNat_remsi .vector (by rw [hr]; omega) 16 (by omega) (by omega), hr, BitVec.toNat_ofNat]
  omega

theorem ofNat_eq_iff {a b : Nat} (ha : a < 4096) (hb : b < 4096) : BitVec.ofNat 32 a = BitVec.ofNat 32 b ↔ a = b := by
  constructor
  · intro h
    have h' := congrArg BitVec.toNat h
    rw [BitVec.toNat_ofNat, BitVec.toNat_ofNat] at h'
    omega
  · intro h; rw [h]

theorem select_cmpi_eq {α : Type} (x y : BitVec 32) (a b : α) :
    Scalar.select (IntOp.cmpi .eq x y) a b = if x = y then a else b := by
  unfold Scalar.select
  exact if_congr IntOp.cmpi_eq rfl rfl

theorem relB_apply (v0 : Vec F S256x16 .f32) (e : Fin 4096) (d : Fin 16) :
    shapeCast S4096x16
        (broadcastTo S256x16x16
          (shapeCast S256x1x16 (shapeCast S256x1x16 (shapeCast S256x16 v0 shapeCasts_S256x16_S256x16) shapeCasts_S256x16_S256x1x16)
            shapeCasts_S256x1x16_S256x1x16) broadcasts_S256x1x16_S256x16x16)
        shapeCasts_S256x16x16_S4096x16 (ix2 e d)
      = v0 (ix2 (⟨e.val / 16, by have := e.isLt; omega⟩ : Fin 256) d) := by
  have he : e.val < 4096 := e.isLt
  have hd : d.val < 16 := d.isLt
  rw [shapeCast_self v0, shapeCast_self (shapeCast S256x1x16 v0 shapeCasts_S256x16_S256x1x16)]
  refine (shapeCast_apply _ _ (ix2 e d)
    (ix3 (⟨e.val / 16, by omega⟩ : Fin 256) (⟨e.val % 16, Nat.mod_lt _ (by decide)⟩ : Fin 16) d)
    (by rw [Shape.rowMajor_val_three, Shape.rowMajor_val_two]
        show (e.val / 16 * 16 + e.val % 16) * 16 + d.val = e.val * 16 + d.val
        omega)).trans ?_
  refine (broadcastTo_apply _ _ _ (ix3 (⟨e.val / 16, by omega⟩ : Fin 256) (⟨0, by decide⟩ : Fin 1) d)
    (fun a => match a with
      | ⟨0, _⟩ => rfl
      | ⟨1, _⟩ => rfl
      | ⟨2, _⟩ => rfl)).trans ?_
  exact shapeCast_apply _ _ _ (ix2 (⟨e.val / 16, by omega⟩ : Fin 256) d)
    (by rw [Shape.rowMajor_val_two, Shape.rowMajor_val_three]
        show e.val / 16 * 16 + d.val = (e.val / 16 * 1 + 0) * 16 + d.val
        omega)

theorem pay2_apply (v0 : Vec F S256x16 .f32) (e : Fin 4096) (d : Fin 16) :
    k1_pay2 v0 (ix2 e d)
      = if d.val = e.val % 16 then v0 (ix2 (⟨e.val / 16, by have := e.isLt; omega⟩ : Fin 256) d)
        else (Scalar.ofBits .f32 0x00000000#32 : F .f32) := by
  have he : e.val < 4096 := e.isLt
  have hd : d.val < 16 := d.isLt
  have hm : e.val % 16 < 16 := Nat.mod_lt _ (by decide)
  unfold k1_pay2
  show Scalar.select (IntOp.cmpi .eq (iota .tc S4096x16 32 [1] iota_S4096x16_d1_w32 (ix2 e d))
      (fixW (Scalar.select (Scalar.cmpi .eq (16#32 : BitVec 32) 0#32) (1#32 : BitVec 32) 16#32)
        (IntOp.remsi .vector (iota .tc S4096x16 32 [0] iota_S4096x16_d0_w32 (ix2 e d)) (Scalar.select (Scalar.cmpi .eq (16#32 : BitVec 32) 0#32) (1#32 : BitVec 32) 16#32))))
      (shapeCast S4096x16
        (broadcastTo S256x16x16
          (shapeCast S256x1x16 (shapeCast S256x1x16 (shapeCast S256x16 v0 shapeCasts_S256x16_S256x16) shapeCasts_S256x16_S256x1x16)
            shapeCasts_S256x1x16_S256x1x16) broadcasts_S256x1x16_S256x16x16)
        shapeCasts_S256x16x16_S4096x16 (ix2 e d))
      (Scalar.ofBits .f32 0x00000000#32 : F .f32) = _
  rw [div16, iota_single_apply, iota_single_apply, relB_apply]
  show Scalar.select (IntOp.cmpi .eq (BitVec.ofNat 32 d.val) (fixW 16#32 (IntOp.remsi .vector (BitVec.ofNat 32 e.val) 16#32))) _ _ = _
  rw [rem16, fixW_small ⟨e.val % 16, hm⟩, select_cmpi_eq]
  exact if_congr (ofNat_eq_iff (by omega) (by omega)) rfl rfl

theorem pay3_eq (v27 : Vec F S4096x128 .f32) (v29 : Vec F S128x514 .f32) (v32 : Vec F S4096x128 .f32) (v34 : Vec F S128x514 .f32) :
    k1_pay3 v27 v29 v32 v34
      = addf (matmul dot_S4096x128_S128x514_S4096x514_1_0_0_1_n_n none v27 v29 (constant S4096x514 .f32 0x00000000#32))
          (matmul dot_S4096x128_S128x514_S4096x514_1_0_0_1_n_n none v32 v34 (constant S4096x514 .f32 0x00000000#32)) := by
  unfold k1_pay3
  rw [shapeCast_self v27, shapeCast_self v29, shapeCast_self v32, shapeCast_self v34]

def hid (v26 : FVec F S4096x16 .f32) (v37 : FVec F S4096x514 .f32) (v38 : Vec F S16x514 .f32) (v42 : Vec F S1x514 .f32) :
    FVec F S4096x514 .f32 := fun i =>
  FloatOps.mulf
    (FloatOps.addf (FloatOps.addf (v37 i) (matmul dot_S4096x16_S16x514_S4096x514_1_0_0_1_n_n none v26 v38 (constant S4096x514 .f32 0x00000000#32) i)) (v42 (ix2 (0 : Fin 1) (i 1))))
    (FloatOps.logistic
      (FloatOps.addf (FloatOps.addf (v37 i) (matmul dot_S4096x16_S16x514_S4096x514_1_0_0_1_n_n none v26 v38 (constant S4096x514 .f32 0x00000000#32) i)) (v42 (ix2 (0 : Fin 1) (i 1)))))

def msg (v26 : FVec F S4096x16 .f32) (v37 : FVec F S4096x514 .f32) (v38 : Vec F S16x514 .f32) (v42 : Vec F S1x514 .f32)
    (v48 : Vec F S514x16 .f32) (v51 : Vec F S1x16 .f32) (e : Fin 4096) (k : Fin 16) : F .f32 :=
  FloatOps.mulf
    (FloatOps.addf (matmul dot_S4096x514_S514x16_S4096x16_1_0_0_1_n_n none (hid v26 v37 v38 v42) v48 (constant S4096x16 .f32 0x00000000#32) (ix2 e k)) (v51 (ix2 (0 : Fin 1) k)))
    (FloatOps.logistic
      (FloatOps.addf (matmul dot_S4096x514_S514x16_S4096x16_1_0_0_1_n_n none (hid v26 v37 v38 v42) v48 (constant S4096x16 .f32 0x00000000#32) (ix2 e k)) (v51 (ix2 (0 : Fin 1) k))))

theorem bias1_eq (v42 : Vec F S1x514 .f32) :
    broadcastTo S4096x514 v42 broadcasts_S1x514_S4096x514 = fun i : S4096x514.Idx => v42 (ix2 (0 : Fin 1) (i 1)) :=
  funext fun i => broadcastTo_apply v42 _ i (ix2 (0 : Fin 1) (i 1)) (fun a => match a with
    | ⟨0, _⟩ => rfl
    | ⟨1, _⟩ => rfl)

theorem bias2_eq (v51 : Vec F S1x16 .f32) :
    broadcastTo S4096x16 v51 broadcasts_S1x16_S4096x16 = fun i : S4096x16.Idx => v51 (ix2 (0 : Fin 1) (i 1)) :=
  funext fun i => broadcastTo_apply v51 _ i (ix2 (0 : Fin 1) (i 1)) (fun a => match a with
    | ⟨0, _⟩ => rfl
    | ⟨1, _⟩ => rfl)

theorem pay1_apply (v26 : FVec F S4096x16 .f32) (v37 : FVec F S4096x514 .f32) (v38 : Vec F S16x514 .f32) (v42 : Vec F S1x514 .f32)
    (v48 : Vec F S514x16 .f32) (v51 : Vec F S1x16 .f32) (j : S16x4096.Idx) :
    k1_pay1 v26 v37 v38 v42 v48 v51 j = msg v26 v37 v38 v42 v48 v51 (j 1) (j 0) := by
  unfold k1_pay1
  rw [shapeCast_self v38, shapeCast_self v42, shapeCast_self v48, shapeCast_self v51, bias1_eq, bias2_eq]
  exact transpose_apply [1, 0] _ transposes_S4096x16_p1_0_S16x4096 j (ix2 (j 1) (j 0))
    (fun b => match b with | ⟨0, _⟩ => rfl | ⟨1, _⟩ => rfl)

theorem hz : (![0, 0] : Fin 2 → Nat) = fun _ => 0 := funext fun a => by fin_cases a <;> rfl

theorem out1_9_apply (x0 x1 : Vec F S4096x128 .f32) (x2 : Vec F S256x16 .f32) (x3 x4 : Vec F S128x514 .f32) (x5 : Vec F S16x514 .f32)
    (x6 : Vec F S1x514 .f32) (x7 : Vec F S514x16 .f32) (x8 : Vec F S1x16 .f32) (j : S16x4096.Idx) :
    out1_9 x0 x1 x2 x3 x4 x5 x6 x7 x8 j = msg (k1_pay2 x2) (k1_pay3 x0 x3 x1 x4) x5 x6 x7 x8 (j 1) (j 0) := by
  unfold out1_9
  rw [View.canon_unit_zero hz]
  simp only [View.ld_unit_zero (S := S4096x128) hz, View.ld_unit_zero (S := S256x16) hz, View.ld_unit_zero (S := S128x514) hz,
    View.ld_unit_zero (S := S16x514) hz, View.ld_unit_zero (S := S1x514) hz, View.ld_unit_zero (S := S514x16) hz,
    View.ld_unit_zero (S := S1x16) hz]
  exact pay1_apply _ _ _ _ _ _ j

end Cert.Proof.KI.R1Idx

end
-- ==== Proof.LibOneAxisContraction.lean ====
import Idealize.ShloMosaic.Lib.ValueIdx
import Idealize.ShloMosaic.PureOps.Ideal.Laws

noncomputable section

namespace Cert.Dots

open Idealize.ShloMosaic Idealize.ShloMosaic.ValueIdx
open scoped BigOperators

theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.KI.R1ValIdeal.lean ====
import proofs.«205084_g25537875542483_cont_9to1_419_23_alg».proof.Proof.KI.R1Idx
import proofs.«205084_g25537875542483_cont_9to1_419_23_alg».proof.Proof.LibOneAxisContraction
import Idealize.ShloMosaic.PureOps.Ideal.Laws

set_option maxRecDepth 16384

noncomputable section

open scoped BigOperators

namespace Cert.Proof.KI.R1ValIdeal

open Cert.KernelIdeal Cert.KernelIdeal.Gen Cert.Proof.KI Cert.Proof.KI.R1Dat Cert.Proof.KI.R1Idx

open Idealize.ShloMosaic Idealize.ShloMosaic.ValueIdx

def silu (z : EReal) : EReal := z * Ideal.logistic z

variable (x0 x1 : FVec Ideal S4096x128 .f32) (x2 : FVec Ideal S256x16 .f32) (x3 x4 : FVec Ideal S128x514 .f32) (x5 : FVec Ideal S16x514 .f32)
  (x6 : FVec Ideal S1x514 .f32) (x7 : FVec Ideal S514x16 .f32) (x8 : FVec Ideal S1x16 .f32)

def pre (e : Fin 4096) (h : Fin 514) : EReal :=
  ((∑ a : Fin 128, x0 (ix2 e a) * x3 (ix2 a h)) + (∑ a : Fin 128, x1 (ix2 e a) * x4 (ix2 a h))
      + ∑ d : Fin 16, (if d.val = e.val % 16 then x2 (ix2 (⟨e.val / 16, by have := e.isLt; omega⟩ : Fin 256) d) else 0) * x5 (ix2 d h))
    + x6 (ix2 (0 : Fin 1) h)

def msgI (e : Fin 4096) (k : Fin 16) : EReal :=
  silu ((∑ h : Fin 514, silu (pre x0 x1 x2 x3 x4 x5 x6 e h) * x7 (ix2 h k)) + x8 (ix2 (0 : Fin 1) k))

theorem pay3_apply (e : Fin 4096) (h : Fin 514) :
    k1_pay3 x0 x3 x1 x4 (ix2 e h) = (∑ a : Fin 128, x0 (ix2 e a) * x3 (ix2 a h)) + (∑ a : Fin 128, x1 (ix2 e a) * x4 (ix2 a h)) := by
  rw [pay3_eq]
  show matmul (φ₁ := .f32) (φ₂ := .f32) dot_S4096x128_S128x514_S4096x514_1_0_0_1_n_n none x0 x3 (constant S4096x514 .f32 0x00000000#32) (ix2 e h)
      + matmul (φ₁ := .f32) (φ₂ := .f32) dot_S4096x128_S128x514_S4096x514_1_0_0_1_n_n none x1 x4 (constant S4096x514 .f32 0x00000000#32) (ix2 e h) = _
  rw [Cert.Dots.matmul_zero_apply_of (φ₁ := .f32) (φ₂ := .f32) dot_S4096x128_S128x514_S4096x514_1_0_0_1_n_n 128 rfl rfl none x0 x3 (ix2 e h)
      (fun c => ix2 e c) (fun c => ix2 c h)
      (fun c => funext fun a => match a with | ⟨0, _⟩ => rfl | ⟨1, _⟩ => rfl)
      (fun c => funext fun a => match a with | ⟨0, _⟩ => rfl | ⟨1, _⟩ => rfl),
    Cert.Dots.matmul_zero_apply_of (φ₁ := .f32) (φ₂ := .f32) dot_S4096x128_S128x514_S4096x514_1_0_0_1_n_n 128 rfl rfl none x1 x4 (ix2 e h)
      (fun c => ix2 e c) (fun c => ix2 c h)
      (fun c => funext fun a => match a with | ⟨0, _⟩ => rfl | ⟨1, _⟩ => rfl)
      (fun c => funext fun a => match a with | ⟨0, _⟩ => rfl | ⟨1, _⟩ => rfl)]

theorem pay2_ideal (e : Fin 4096) (d : Fin 16) :
    k1_pay2 x2 (ix2 e d) = if d.val = e.val % 16 then x2 (ix2 (⟨e.val / 16, by have := e.isLt; omega⟩ : Fin 256) d) else 0 := by
  rw [pay2_apply]
  show (if d.val = e.val % 16 then _ else Ideal.ofBits .f32 0x00000000#32) = _
  rw [Ideal.ofBits_zero_f32]

theorem hid_apply (e : Fin 4096) (h : Fin 514) :
    hid (F := Ideal) (k1_pay2 x2) (k1_pay3 x0 x3 x1 x4) x5 x6 (ix2 e h) = silu (pre x0 x1 x2 x3 x4 x5 x6 e h) := by
  have h3 := pay3_apply x0 x1 x3 x4 e h
  have hm := Cert.Dots.matmul_zero_apply_of (φ₁ := .f32) (φ₂ := .f32) dot_S4096x16_S16x514_S4096x514_1_0_0_1_n_n 16 rfl rfl none (k1_pay2 x2) x5 (ix2 e h)
      (fun c => ix2 e c) (fun c => ix2 c h)
      (fun c => funext fun a => match a with | ⟨0, _⟩ => rfl | ⟨1, _⟩ => rfl)
      (fun c => funext fun a => match a with | ⟨0, _⟩ => rfl | ⟨1, _⟩ => rfl)
  show silu ((k1_pay3 (F := Ideal) x0 x3 x1 x4 (ix2 e h)
      + matmul (φ₁ := .f32) (φ₂ := .f32) dot_S4096x16_S16x514_S4096x514_1_0_0_1_n_n none (k1_pay2 (F := Ideal) x2) x5 (constant S4096x514 .f32 0x00000000#32) (ix2 e h))
      + x6 (ix2 (0 : Fin 1) h)) = _
  rw [h3, hm]
  unfold pre
  congr 3
  exact Finset.sum_congr rfl fun d _ => by rw [pay2_ideal]

theorem msg_ideal (e : Fin 4096) (k : Fin 16) :
    msg (F := Ideal) (k1_pay2 x2) (k1_pay3 x0 x3 x1 x4) x5 x6 x7 x8 e k = msgI x0 x1 x2 x3 x4 x5 x6 x7 x8 e k := by
  have hm := Cert.Dots.matmul_zero_apply_of (φ₁ := .f32) (φ₂ := .f32) dot_S4096x514_S514x16_S4096x16_1_0_0_1_n_n 514 rfl rfl none
      (hid (F := Ideal) (k1_pay2 x2) (k1_pay3 x0 x3 x1 x4) x5 x6) x7 (ix2 e k)
      (fun c => ix2 e c) (fun c => ix2 c k)
      (fun c => funext fun a => match a with | ⟨0, _⟩ => rfl | ⟨1, _⟩ => rfl)
      (fun c => funext fun a => match a with | ⟨0, _⟩ => rfl | ⟨1, _⟩ => rfl)
  show silu (matmul (φ₁ := .f32) (φ₂ := .f32) dot_S4096x514_S514x16_S4096x16_1_0_0_1_n_n none (hid (F := Ideal) (k1_pay2 x2) (k1_pay3 x0 x3 x1 x4) x5 x6) x7
      (constant S4096x16 .f32 0x00000000#32) (ix2 e k) + x8 (ix2 (0 : Fin 1) k)) = _
  rw [hm]
  unfold msgI
  congr 2
  exact Finset.sum_congr rfl fun h _ => by rw [hid_apply]

theorem out1_9_ideal (j : S16x4096.Idx) :
    out1_9 (F := Ideal) x0 x1 x2 x3 x4 x5 x6 x7 x8 j = msgI x0 x1 x2 x3 x4 x5 x6 x7 x8 (j 1) (j 0) :=
  by
  rw [out1_9_apply (F := Ideal) x0 x1 x2 x3 x4 x5 x6 x7 x8 j]
  exact msg_ideal x0 x1 x2 x3 x4 x5 x6 x7 x8 (j 1) (j 0)

end Cert.Proof.KI.R1ValIdeal

end
-- ==== Proof.KI.R1Val.lean ====
import proofs.«205084_g25537875542483_cont_9to1_419_23_alg».proof.Proof.KI.R1Dat
import Idealize.ShloMosaic.Lib.Pipeline.Value

set_option maxRecDepth 16384

noncomputable section

namespace Cert.Proof.KI.R1Val

open Cert.KernelIdeal Cert.KernelIdeal.Gen Cert.Proof.KI Cert.Proof.KI.R1Dat

open Idealize.ShloMosaic Idealize.ShloMosaic.TcCoe
open Idealize.ShloMosaic.SparseCore.Cfg (HIx)
open Idealize.SL Idealize.SL.Sem
open Idealize.ShloMosaic.Pipeline (Dat)

variable {F : FTy → Type} [FloatOps F]

variable (V : (c : Dev nD) → (b : Ref sig .tc) → Buf (Elt F) ((c : Thread nD τ).loc b))
  (O : CellTallies nD τ sig (HIx 2)) (Rec : Set (SemLoc sig × HIx 2))

theorem idx1_9 : ∀ t : Fin cfg1.N, win1_9.index t (0 : Fin 2) = 0 ∧ win1_9.index t (1 : Fin 2) = t.val := by decide +kernel

def ptOf (i : S16x327680.Idx) : Fin cfg1.N := ⟨(i 1).val / 4096, by
  have h : (i 1).val < 327680 := (i 1).isLt
  have hN : cfg1.N = 80 := N_1
  omega⟩

def inBlk (i : S16x327680.Idx) : S16x4096.Idx := fun a =>
  match a with
  | ⟨0, _⟩ => ⟨(i 0).val, (i 0).isLt⟩
  | ⟨1, _⟩ => ⟨(i 1).val % 4096, Nat.mod_lt _ (by decide)⟩

def G1_9 (c : Dev nD) : S16x327680.Idx → Elt F .f32 := fun i =>
  out1_9 (iblk1 V c 0 (ptOf i)) (iblk1 V c 1 (ptOf i)) (iblk1 V c 2 (ptOf i)) (iblk1 V c 3 (ptOf i)) (iblk1 V c 4 (ptOf i)) (iblk1 V c 5 (ptOf i)) (iblk1 V c 6 (ptOf i)) (iblk1 V c 7 (ptOf i)) (iblk1 V c 8 (ptOf i)) (inBlk i)

theorem emb1_9 (t : Fin cfg1.N) (j : S16x4096.Idx) :
    ((((cfg1.win 9).blk t).view.emb j) 0).val = (j 0).val ∧ ((((cfg1.win 9).blk t).view.emb j) 1).val = t.val * 4096 + (j 1).val := by
  obtain ⟨e0, e1⟩ := idx1_9 t
  constructor
  · show win1_9.index t (0 : Fin 2) * 16 + 1 * (j 0).val = (j 0).val
    rw [e0]; omega
  · show win1_9.index t (1 : Fin 2) * 4096 + 1 * (j 1).val = t.val * 4096 + (j 1).val
    rw [e1]; omega

theorem ptOf_emb (t : Fin cfg1.N) (j : S16x4096.Idx) : ptOf (((cfg1.win 9).blk t).view.emb j) = t := by
  apply Fin.ext
  show ((((cfg1.win 9).blk t).view.emb j) 1).val / 4096 = t.val
  rw [(emb1_9 t j).2]
  have hj : (j 1).val < 4096 := (j 1).isLt
  omega

theorem inBlk_emb (t : Fin cfg1.N) (j : S16x4096.Idx) : inBlk (((cfg1.win 9).blk t).view.emb j) = j := by
  funext a
  apply Fin.ext
  match a with
  | ⟨0, _⟩ => exact (emb1_9 t j).1
  | ⟨1, _⟩ =>
    show ((((cfg1.win 9).blk t).view.emb j) 1).val % 4096 = (j 1).val
    rw [(emb1_9 t j).2]
    have hj : (j 1).val < 4096 := (j 1).isLt
    omega

theorem read_blk1_9 (t : Fin cfg1.N) (G : S16x327680.Idx → Elt F .f32) :
    ((cfg1.win 9).blk t).view.read (Elt F) G = fun j : S16x4096.Idx => G (((cfg1.win 9).blk t).view.emb j) := rfl

theorem flushed1_9_eq (c : Dev nD) (t : Fin cfg1.N) :
    (dat1 V O Rec c).flushed 9 t = ((cfg1.win 9).blk t).view.read (Elt F) (G1_9 V c) := by
  show (cfg1.win 9).cut (grid1.coords t) ((dat1 V O Rec c).after 9 t) = _
  rw [after1_9, read_blk1_9]
  exact funext fun j => by unfold G1_9; rw [ptOf_emb, inBlk_emb] <;> rfl

theorem mem_blk1_9 (t : Fin cfg1.N) (i : S16x327680.Idx) :
    i ∈ ((cfg1.win 9).blk t).view.set ↔ ∀ a : Fin 2, win1_9.index t a * S16x4096.size a ≤ (i a).val ∧ (i a).val < win1_9.index t a * S16x4096.size a + S16x4096.size a := by
  show i ∈ ((View.whole main_v44).slice (win1_9.rect t)).set ↔ _
  rw [View.set_slice_whole, Rect.mem_set_unit]
  exact Iff.rfl

theorem cover1_9 (i : S16x327680.Idx) :
    ∃ t : Fin cfg1.N, (cfg1.win 9).flush t = true ∧ i ∈ ((cfg1.win 9).blk t).view.set := by
  refine ⟨ptOf i, flush1_9 _, ?_⟩
  rw [mem_blk1_9]
  obtain ⟨e0, e1⟩ := idx1_9 (ptOf i)
  have h0 : (i 0).val < 16 := (i 0).isLt
  have hp : (ptOf i).val = (i 1).val / 4096 := rfl
  intro a
  match a with
  | ⟨0, _⟩ => show win1_9.index (ptOf i) (0 : Fin 2) * 16 ≤ (i 0).val ∧ (i 0).val < win1_9.index (ptOf i) (0 : Fin 2) * 16 + 16; omega
  | ⟨1, _⟩ => show win1_9.index (ptOf i) (1 : Fin 2) * 4096 ≤ (i 1).val ∧ (i 1).val < win1_9.index (ptOf i) (1 : Fin 2) * 4096 + 4096; omega

theorem final1_9 (c : Dev nD) : (dat1 V O Rec c).arrAt 9 cfg1.N = G1_9 V c :=
  (dat1 V O Rec c).arrAt_eq_of_cover 9 (G1_9 V c) (fun t _ => flushed1_9_eq V O Rec c t) cover1_9

end Cert.Proof.KI.R1Val

end
-- ==== Proof.KI.R1Blk.lean ====
import proofs.«205084_g25537875542483_cont_9to1_419_23_alg».proof.Proof.KI.R1Val
import Idealize.ShloMosaic.Lib.ValueIdx

set_option maxRecDepth 16384

noncomputable section

namespace Cert.Proof.KI.R1Blk

open Cert.KernelIdeal Cert.KernelIdeal.Gen Cert.Proof.KI Cert.Proof.KI.R1Dat Cert.Proof.KI.R1Val

open Idealize.ShloMosaic Idealize.ShloMosaic.TcCoe Idealize.ShloMosaic.ValueIdx
open Idealize.SL Idealize.SL.Sem

variable {F : FTy → Type} [FloatOps F]

variable (V : (c : Dev nD) → (b : Ref sig .tc) → Buf (Elt F) ((c : Thread nD τ).loc b))

theorem idx1_0 : ∀ t : Fin cfg1.N, win1_0.index t (0 : Fin 2) = t.val ∧ win1_0.index t (1 : Fin 2) = 0 := by decide +kernel
theorem idx1_1 : ∀ t : Fin cfg1.N, win1_1.index t (0 : Fin 2) = t.val ∧ win1_1.index t (1 : Fin 2) = 0 := by decide +kernel
theorem idx1_2 : ∀ t : Fin cfg1.N, win1_2.index t (0 : Fin 2) = t.val ∧ win1_2.index t (1 : Fin 2) = 0 := by decide +kernel
theorem idx1_3 : ∀ t : Fin cfg1.N, ∀ b, win1_3.index t b = 0 := by decide +kernel
theorem idx1_4 : ∀ t : Fin cfg1.N, ∀ b, win1_4.index t b = 0 := by decide +kernel
theorem idx1_5 : ∀ t : Fin cfg1.N, ∀ b, win1_5.index t b = 0 := by decide +kernel
theorem idx1_6 : ∀ t : Fin cfg1.N, ∀ b, win1_6.index t b = 0 := by decide +kernel
theorem idx1_7 : ∀ t : Fin cfg1.N, ∀ b, win1_7.index t b = 0 := by decide +kernel
theorem idx1_8 : ∀ t : Fin cfg1.N, ∀ b, win1_8.index t b = 0 := by decide +kernel

theorem iblk1_0_apply (c : Dev nD) (t : Fin cfg1.N) (e : Fin 4096) (a : Fin 128) :
    iblk1 V c 0 t (ix2 e a)
      = V c (Pipeline.arrRef spec1 0) (ix2 (⟨t.val * 4096 + e.val, by have := e.isLt; have := t.isLt; have hN : cfg1.N = 80 := N_1; omega⟩ : Fin 327680) a) := by
  obtain ⟨e0, e1⟩ := idx1_0 t
  have he : e.val < 4096 := e.isLt
  have ha : a.val < 128 := a.isLt
  show V c (Pipeline.arrRef spec1 0) (((cfg1.win 0).blk t).view.emb (ix2 e a)) = _
  congr 1
  funext b
  apply Fin.ext
  match b with
  | ⟨0, _⟩ => show win1_0.index t (0 : Fin 2) * 4096 + 1 * e.val = t.val * 4096 + e.val; rw [e0]; omega
  | ⟨1, _⟩ => show win1_0.index t (1 : Fin 2) * 128 + 1 * a.val = a.val; rw [e1]; omega

theorem iblk1_1_apply (c : Dev nD) (t : Fin cfg1.N) (e : Fin 4096) (a : Fin 128) :
    iblk1 V c 1 t (ix2 e a)
      = V c (Pipeline.arrRef spec1 1) (ix2 (⟨t.val * 4096 + e.val, by have := e.isLt; have := t.isLt; have hN : cfg1.N = 80 := N_1; omega⟩ : Fin 327680) a) := by
  obtain ⟨e0, e1⟩ := idx1_1 t
  have he : e.val < 4096 := e.isLt
  have ha : a.val < 128 := a.isLt
  show V c (Pipeline.arrRef spec1 1) (((cfg1.win 1).blk t).view.emb (ix2 e a)) = _
  congr 1
  funext b
  apply Fin.ext
  match b with
  | ⟨0, _⟩ => show win1_1.index t (0 : Fin 2) * 4096 + 1 * e.val = t.val * 4096 + e.val; rw [e0]; omega
  | ⟨1, _⟩ => show win1_1.index t (1 : Fin 2) * 128 + 1 * a.val = a.val; rw [e1]; omega

theorem iblk1_2_apply (c : Dev nD) (t : Fin cfg1.N) (e : Fin 256) (a : Fin 16) :
    iblk1 V c 2 t (ix2 e a)
      = V c (Pipeline.arrRef spec1 2) (ix2 (⟨t.val * 256 + e.val, by have := e.isLt; have := t.isLt; have hN : cfg1.N = 80 := N_1; omega⟩ : Fin 20480) a) := by
  obtain ⟨e0, e1⟩ := idx1_2 t
  have he : e.val < 256 := e.isLt
  have ha : a.val < 16 := a.isLt
  show V c (Pipeline.arrRef spec1 2) (((cfg1.win 2).blk t).view.emb (ix2 e a)) = _
  congr 1
  funext b
  apply Fin.ext
  match b with
  | ⟨0, _⟩ => show win1_2.index t (0 : Fin 2) * 256 + 1 * e.val = t.val * 256 + e.val; rw [e0]; omega
  | ⟨1, _⟩ => show win1_2.index t (1 : Fin 2) * 16 + 1 * a.val = a.val; rw [e1]; omega

theorem idx_ext_zero {s : Shape} {i j : s.Idx} {ix sz : Fin s.rank → ℕ} (h0 : ∀ b, ix b = 0)
    (h : ∀ b, (i b).val = ix b * sz b + 1 * (j b).val) : i = j :=
  funext fun b => Fin.ext (by rw [h b, h0 b, Nat.zero_mul, Nat.zero_add, Nat.one_mul])

theorem iblk1_3_eq (c : Dev nD) (t : Fin cfg1.N) : iblk1 V c 3 t = V c (Pipeline.arrRef spec1 3) :=
  funext fun j => congrArg (V c (Pipeline.arrRef spec1 3))
    (idx_ext_zero (ix := win1_3.index t) (sz := (cfg1.win 3).size) (idx1_3 t) fun _ => rfl)

theorem iblk1_4_eq (c : Dev nD) (t : Fin cfg1.N) : iblk1 V c 4 t = V c (Pipeline.arrRef spec1 4) :=
  funext fun j => congrArg (V c (Pipeline.arrRef spec1 4))
    (idx_ext_zero (ix := win1_4.index t) (sz := (cfg1.win 4).size) (idx1_4 t) fun _ => rfl)

theorem iblk1_5_eq (c : Dev nD) (t : Fin cfg1.N) : iblk1 V c 5 t = V c (Pipeline.arrRef spec1 5) :=
  funext fun j => congrArg (V c (Pipeline.arrRef spec1 5))
    (idx_ext_zero (ix := win1_5.index t) (sz := (cfg1.win 5).size) (idx1_5 t) fun _ => rfl)

theorem iblk1_6_eq (c : Dev nD) (t : Fin cfg1.N) : iblk1 V c 6 t = V c (Pipeline.arrRef spec1 6) :=
  funext fun j => congrArg (V c (Pipeline.arrRef spec1 6))
    (idx_ext_zero (ix := win1_6.index t) (sz := (cfg1.win 6).size) (idx1_6 t) fun _ => rfl)

theorem iblk1_7_eq (c : Dev nD) (t : Fin cfg1.N) : iblk1 V c 7 t = V c (Pipeline.arrRef spec1 7) :=
  funext fun j => congrArg (V c (Pipeline.arrRef spec1 7))
    (idx_ext_zero (ix := win1_7.index t) (sz := (cfg1.win 7).size) (idx1_7 t) fun _ => rfl)

theorem iblk1_8_eq (c : Dev nD) (t : Fin cfg1.N) : iblk1 V c 8 t = V c (Pipeline.arrRef spec1 8) :=
  funext fun j => congrArg (V c (Pipeline.arrRef spec1 8))
    (idx_ext_zero (ix := win1_8.index t) (sz := (cfg1.win 8).size) (idx1_8 t) fun _ => rfl)

end Cert.Proof.KI.R1Blk

end
-- ==== Proof.KI.R1GlobIdeal.lean ====
import proofs.«205084_g25537875542483_cont_9to1_419_23_alg».proof.Proof.KI.R1ValIdeal
import proofs.«205084_g25537875542483_cont_9to1_419_23_alg».proof.Proof.KI.R1Blk

set_option maxRecDepth 16384

noncomputable section

open scoped BigOperators

namespace Cert.Proof.KI.R1GlobIdeal

open Cert.KernelIdeal Cert.KernelIdeal.Gen Cert.Proof.KI Cert.Proof.KI.R1Dat Cert.Proof.KI.R1Val Cert.Proof.KI.R1Idx
open Cert.Proof.KI.R1ValIdeal Cert.Proof.KI.R1Blk

open Idealize.ShloMosaic Idealize.ShloMosaic.TcCoe Idealize.ShloMosaic.ValueIdx
open Idealize.ShloMosaic.SparseCore.Cfg (HIx)
open Idealize.SL Idealize.SL.Sem

variable (V : (c : Dev nD) → (b : Ref sig .tc) → Buf (Elt Ideal) ((c : Thread nD τ).loc b))

abbrev aXi (c : Dev nD) : FVec Ideal S327680x128 .f32 := V c (Pipeline.arrRef spec1 0)
abbrev aXj (c : Dev nD) : FVec Ideal S327680x128 .f32 := V c (Pipeline.arrRef spec1 1)
abbrev aRel (c : Dev nD) : FVec Ideal S20480x16 .f32 := V c (Pipeline.arrRef spec1 2)
abbrev aW1a (c : Dev nD) : FVec Ideal S128x514 .f32 := V c (Pipeline.arrRef spec1 3)
abbrev aW1b (c : Dev nD) : FVec Ideal S128x514 .f32 := V c (Pipeline.arrRef spec1 4)
abbrev aWr (c : Dev nD) : FVec Ideal S16x514 .f32 := V c (Pipeline.arrRef spec1 5)
abbrev aB1 (c : Dev nD) : FVec Ideal S1x514 .f32 := V c (Pipeline.arrRef spec1 6)
abbrev aW2 (c : Dev nD) : FVec Ideal S514x16 .f32 := V c (Pipeline.arrRef spec1 7)
abbrev aB2 (c : Dev nD) : FVec Ideal S1x16 .f32 := V c (Pipeline.arrRef spec1 8)

def preG (c : Dev nD) (E : Fin 327680) (h : Fin 514) : EReal :=
  ((∑ a : Fin 128, aXi V c (ix2 E a) * aW1a V c (ix2 a h)) + (∑ a : Fin 128, aXj V c (ix2 E a) * aW1b V c (ix2 a h))
      + ∑ d : Fin 16, (if d.val = E.val % 16 then aRel V c (ix2 (⟨E.val / 16, by have := E.isLt; omega⟩ : Fin 20480) d) else 0) * aWr V c (ix2 d h))
    + aB1 V c (ix2 (0 : Fin 1) h)

def msgG (c : Dev nD) (E : Fin 327680) (k : Fin 16) : EReal :=
  silu ((∑ h : Fin 514, silu (preG V c E h) * aW2 V c (ix2 h k)) + aB2 V c (ix2 (0 : Fin 1) k))

abbrev blkOf (E : Fin 327680) : Fin cfg1.N := ⟨E.val / 4096, by have := E.isLt; have hN : cfg1.N = 80 := N_1; omega⟩

theorem pre_blocks (c : Dev nD) (E : Fin 327680) (h : Fin 514) :
    pre (iblk1 V c 0 (blkOf E))
        (iblk1 V c 1 (blkOf E))
        (iblk1 V c 2 (blkOf E))
        (iblk1 V c 3 (blkOf E))
        (iblk1 V c 4 (blkOf E))
        (iblk1 V c 5 (blkOf E))
        (iblk1 V c 6 (blkOf E))
        (⟨E.val % 4096, Nat.mod_lt _ (by decide)⟩ : Fin 4096) h
      = preG V c E h := by
  have hE : E.val < 327680 := E.isLt
  unfold pre preG
  rw [iblk1_3_eq, iblk1_4_eq, iblk1_5_eq, iblk1_6_eq]
  have e0 : ∀ a : Fin 128, iblk1 V c 0 (blkOf E) (ix2 (⟨E.val % 4096, Nat.mod_lt _ (by decide)⟩ : Fin 4096) a)
      = aXi V c (ix2 E a) := fun a => by
    rw [iblk1_0_apply]; congr 2; apply Fin.ext; show E.val / 4096 * 4096 + E.val % 4096 = E.val; omega
  have e1 : ∀ a : Fin 128, iblk1 V c 1 (blkOf E) (ix2 (⟨E.val % 4096, Nat.mod_lt _ (by decide)⟩ : Fin 4096) a)
      = aXj V c (ix2 E a) := fun a => by
    rw [iblk1_1_apply]; congr 2; apply Fin.ext; show E.val / 4096 * 4096 + E.val % 4096 = E.val; omega
  have e2 : ∀ d : Fin 16, iblk1 V c 2 (blkOf E)
        (ix2 (⟨E.val % 4096 / 16, by omega⟩ : Fin 256) d)
      = aRel V c (ix2 (⟨E.val / 16, by omega⟩ : Fin 20480) d) := fun d => by
    rw [iblk1_2_apply]; congr 2; apply Fin.ext; show E.val / 4096 * 256 + E.val % 4096 / 16 = E.val / 16; omega
  have hmod : E.val % 4096 % 16 = E.val % 16 := by omega
  simp only [e0, e1]
  congr 3
  funext d
  rw [hmod, e2 d]

theorem final1_9_ideal (O : CellTallies nD τ sig (HIx 2)) (Rec : Set (SemLoc sig × HIx 2)) (c : Dev nD) (i : S16x327680.Idx) :
    (dat1 V O Rec c).arrAt 9 cfg1.N i = msgG V c (i 1) (i 0) := by
  rw [final1_9]
  show out1_9 (F := Ideal) (iblk1 V c 0 (ptOf i)) (iblk1 V c 1 (ptOf i)) (iblk1 V c 2 (ptOf i)) (iblk1 V c 3 (ptOf i)) (iblk1 V c 4 (ptOf i))
      (iblk1 V c 5 (ptOf i)) (iblk1 V c 6 (ptOf i)) (iblk1 V c 7 (ptOf i)) (iblk1 V c 8 (ptOf i)) (inBlk i) = _
  rw [out1_9_ideal]
  unfold msgI msgG
  rw [iblk1_7_eq, iblk1_8_eq]
  have hk : inBlk i 0 = i 0 := rfl
  have hpre : ∀ h, pre (iblk1 V c 0 (ptOf i)) (iblk1 V c 1 (ptOf i)) (iblk1 V c 2 (ptOf i)) (iblk1 V c 3 (ptOf i)) (iblk1 V c 4 (ptOf i))
      (iblk1 V c 5 (ptOf i)) (iblk1 V c 6 (ptOf i)) (inBlk i 1) h = preG V c (i 1) h := fun h => pre_blocks V c (i 1) h
  simp only [hpre, hk]

end Cert.Proof.KI.R1GlobIdeal

end
-- ==== Proof.KI.EdgeJoinIdeal.lean ====
import proofs.«205084_g25537875542483_cont_9to1_419_23_alg».proof.Proof.KI.R1GlobIdeal
import proofs.«205084_g25537875542483_cont_9to1_419_23_alg».proof.Proof.KI.K0Spec
import proofs.«205084_g25537875542483_cont_9to1_419_23_alg».proof.Proof.KI.HostValsIdeal
import proofs.«205084_g25537875542483_cont_9to1_419_23_alg».proof.Proof.RefVal

set_option maxRecDepth 16384

noncomputable section

open scoped BigOperators

namespace Cert.Proof.KI.EdgeJoinIdeal

open Cert.KernelIdeal Cert.KernelIdeal.Gen Cert.Proof.KI Cert.Proof.KI.R1Dat Cert.Proof.KI.R1ValIdeal Cert.Proof.KI.R1GlobIdeal
open Cert.Proof.KI.K0Spec (rowOf nodeOf rowOf_val nodeOf_val edgeIdx relEdge sqd)

open Idealize.ShloMosaic Idealize.ShloMosaic.TcCoe Idealize.ShloMosaic.ValueIdx
open Idealize.SL Idealize.SL.Sem

theorem sum_ite_mul {n : Nat} (m : Fin n) (f g : Fin n → EReal) :
    (∑ d : Fin n, (if d.val = m.val then f d else 0) * g d) = f m * g m := by
  rw [Finset.sum_eq_single m]
  · rw [if_pos rfl]
  · intro d _ hd
    rw [if_neg (fun hv => hd (Fin.ext hv)), zero_mul]
  · intro hn; exact absurd (Finset.mem_univ _) hn

theorem silu_eq (z : EReal) : R1ValIdeal.silu z = Cert.Proof.RefVal.silu z := rfl

section Join

variable (V : (c : Dev nD) → (b : Ref sig .tc) → Buf (Elt Ideal) ((c : Thread nD τ).loc b)) (c : Dev nD)
  (x : FVec Ideal S10000x128 .f32) (ei : IVec S2x320000 32) (pos : FVec Ideal S10000x3 .f32)
  (We1 : FVec Ideal S514x257 .f32) (be1 : FVec Ideal S514 .f32) (We2 : FVec Ideal S16x514 .f32) (be2 : FVec Ideal S16 .f32)
  (hidx : ∀ i, (ei i).toNat < 10000)

theorem msgG_eq_msgR (E : Fin 327680) (hE : E.val < 320000) (k : Fin 16)
    (hXi : ∀ a : Fin 128, aXi V c (ix2 E a) = x (ix2 (Cert.Proof.RefVal.dst ei hidx ⟨E.val, hE⟩) a))
    (hXj : ∀ a : Fin 128, aXj V c (ix2 E a) = x (ix2 (Cert.Proof.RefVal.src ei hidx ⟨E.val, hE⟩) a))
    (hRel : aRel V c (ix2 (⟨E.val / 16, by have := E.isLt; omega⟩ : Fin 20480) (⟨E.val % 16, Nat.mod_lt _ (by decide)⟩ : Fin 16))
      = Cert.Proof.RefVal.relD pos ei hidx ⟨E.val, hE⟩)
    (hW1a : ∀ (a : Fin 128) (h : Fin 514), aW1a V c (ix2 a h) = We1 (ix2 h (⟨a.val, by have := a.isLt; omega⟩ : Fin 257)))
    (hW1b : ∀ (a : Fin 128) (h : Fin 514), aW1b V c (ix2 a h) = We1 (ix2 h (⟨128 + a.val, by have := a.isLt; omega⟩ : Fin 257)))
    (hWr : ∀ (d : Fin 16) (h : Fin 514), aWr V c (ix2 d h) = We1 (ix2 h (⟨256, by decide⟩ : Fin 257)))
    (hB1 : ∀ h : Fin 514, aB1 V c (ix2 (0 : Fin 1) h) = be1 (ix1 h))
    (hW2 : ∀ (h : Fin 514) (k : Fin 16), aW2 V c (ix2 h k) = We2 (ix2 k h))
    (hB2 : ∀ k : Fin 16, aB2 V c (ix2 (0 : Fin 1) k) = be2 (ix1 k)) :
    msgG V c E k = Cert.Proof.RefVal.msgR x ei pos We1 be1 We2 be2 hidx ⟨E.val, hE⟩ k := by
  have hp (h : Fin 514) : preG V c E h = Cert.Proof.RefVal.preE x ei pos We1 be1 hidx ⟨E.val, hE⟩ h := by
    have s1 : (∑ a : Fin 128, aXi V c (ix2 E a) * aW1a V c (ix2 a h))
        = ∑ a : Fin 128, x (ix2 (Cert.Proof.RefVal.dst ei hidx ⟨E.val, hE⟩) a) * We1 (ix2 h (⟨a.val, by have := a.isLt; omega⟩ : Fin 257)) :=
      Finset.sum_congr rfl fun a _ => by rw [hXi a, hW1a a h]
    have s2 : (∑ a : Fin 128, aXj V c (ix2 E a) * aW1b V c (ix2 a h))
        = ∑ a : Fin 128, x (ix2 (Cert.Proof.RefVal.src ei hidx ⟨E.val, hE⟩) a) * We1 (ix2 h (⟨128 + a.val, by have := a.isLt; omega⟩ : Fin 257)) :=
      Finset.sum_congr rfl fun a _ => by rw [hXj a, hW1b a h]
    have s3 : (∑ d : Fin 16, (if d.val = E.val % 16 then aRel V c (ix2 (⟨E.val / 16, by have := E.isLt; omega⟩ : Fin 20480) d) else 0) * aWr V c (ix2 d h))
        = Cert.Proof.RefVal.relD pos ei hidx ⟨E.val, hE⟩ * We1 (ix2 h (⟨256, by decide⟩ : Fin 257)) := by
      have hs := sum_ite_mul (⟨E.val % 16, Nat.mod_lt _ (by decide)⟩ : Fin 16)
        (fun d => aRel V c (ix2 (⟨E.val / 16, by have := E.isLt; omega⟩ : Fin 20480) d)) (fun d => aWr V c (ix2 d h))
      exact hs.trans (by rw [hRel, hWr])
    unfold preG Cert.Proof.RefVal.preE
    rw [s1, s2, s3, hB1 h]
  have s : (∑ h : Fin 514, R1ValIdeal.silu (preG V c E h) * aW2 V c (ix2 h k))
      = ∑ h : Fin 514, Cert.Proof.RefVal.silu (Cert.Proof.RefVal.preE x ei pos We1 be1 hidx ⟨E.val, hE⟩ h) * We2 (ix2 k h) :=
    Finset.sum_congr rfl fun h _ => by
      rw [hp h, hW2 h k, silu_eq]
  unfold msgG Cert.Proof.RefVal.msgR
  rw [s, hB2 k, silu_eq]

end Join

section Rel

variable (d : Dev nD)
  (fpx : Buf (Elt Ideal) (K0Body.pxLoc d)) (fpy : Buf (Elt Ideal) (K0Body.pyLoc d)) (fpz : Buf (Elt Ideal) (K0Body.pzLoc d))
  (fsrc : Buf (Elt Ideal) (K0Body.srcLoc d)) (fdst : Buf (Elt Ideal) (K0Body.dstLoc d))
  (ei : IVec S2x320000 32) (pos : FVec Ideal S10000x3 .f32) (hidx : ∀ i, (ei i).toNat < 10000)

theorem sqd_eq (p : S10112.Idx → Ideal .f32) (a : Fin 3) (e : Fin 320000)
    (hp : ∀ n : Fin 10000, p (ix1 (⟨n.val, by have := n.isLt; omega⟩ : Fin 10112)) = pos (ix2 n a)) :
    sqd p (ei (ix2 (0 : Fin 2) e)) (ei (ix2 (1 : Fin 2) e))
      = (pos (ix2 (Cert.Proof.RefVal.src ei hidx e) a) - pos (ix2 (Cert.Proof.RefVal.dst ei hidx e) a))
        * (pos (ix2 (Cert.Proof.RefVal.src ei hidx e) a) - pos (ix2 (Cert.Proof.RefVal.dst ei hidx e) a)) := by
  have hs : nodeOf (ei (ix2 (0 : Fin 2) e)) = (⟨(Cert.Proof.RefVal.src ei hidx e).val, by have := (Cert.Proof.RefVal.src ei hidx e).isLt; omega⟩ : Fin 10112) :=
    Fin.ext (nodeOf_val (by have := hidx (ix2 (0 : Fin 2) e); omega))
  have ht : nodeOf (ei (ix2 (1 : Fin 2) e)) = (⟨(Cert.Proof.RefVal.dst ei hidx e).val, by have := (Cert.Proof.RefVal.dst ei hidx e).isLt; omega⟩ : Fin 10112) :=
    Fin.ext (nodeOf_val (by have := hidx (ix2 (1 : Fin 2) e); omega))
  unfold sqd
  rw [hs, ht, hp, hp]
  rfl

theorem relOf_eq_relD (r : Fin 20480) (l : Fin 16) (e : Fin 320000) (he : 16 * r.val + l.val = e.val)
    (hs : (fsrc : S32x80x128.Idx → BitVec 32) (edgeIdx (⟨e.val, by have := e.isLt; omega⟩ : Fin 327680)) = ei (ix2 (0 : Fin 2) e))
    (ht : (fdst : S32x80x128.Idx → BitVec 32) (edgeIdx (⟨e.val, by have := e.isLt; omega⟩ : Fin 327680)) = ei (ix2 (1 : Fin 2) e))
    (hpx : ∀ n : Fin 10000, (fpx : S10112.Idx → Ideal .f32) (ix1 (⟨n.val, by have := n.isLt; omega⟩ : Fin 10112)) = pos (ix2 n (0 : Fin 3)))
    (hpy : ∀ n : Fin 10000, (fpy : S10112.Idx → Ideal .f32) (ix1 (⟨n.val, by have := n.isLt; omega⟩ : Fin 10112)) = pos (ix2 n (1 : Fin 3)))
    (hpz : ∀ n : Fin 10000, (fpz : S10112.Idx → Ideal .f32) (ix1 (⟨n.val, by have := n.isLt; omega⟩ : Fin 10112)) = pos (ix2 n (2 : Fin 3))) :
    (K0Spec.relOf d fpx fpy fpz fsrc fdst : S20480x16.Idx → Ideal .f32) (ix2 r l) = Cert.Proof.RefVal.relD pos ei hidx e := by
  have hedge : relEdge (ix2 r l) = (⟨e.val, by have := e.isLt; omega⟩ : Fin 327680) := Fin.ext he
  unfold K0Spec.relOf Cert.Proof.RefVal.relD
  show ((Scalar.ofBits .f32 0x00000000#32 : Ideal .f32)
      + sqd (fpx : S10112.Idx → Ideal .f32) ((fsrc : S32x80x128.Idx → BitVec 32) (edgeIdx (relEdge (ix2 r l)))) ((fdst : S32x80x128.Idx → BitVec 32) (edgeIdx (relEdge (ix2 r l))))
      + sqd (fpy : S10112.Idx → Ideal .f32) ((fsrc : S32x80x128.Idx → BitVec 32) (edgeIdx (relEdge (ix2 r l)))) ((fdst : S32x80x128.Idx → BitVec 32) (edgeIdx (relEdge (ix2 r l)))))
      + sqd (fpz : S10112.Idx → Ideal .f32) ((fsrc : S32x80x128.Idx → BitVec 32) (edgeIdx (relEdge (ix2 r l)))) ((fdst : S32x80x128.Idx → BitVec 32) (edgeIdx (relEdge (ix2 r l)))) = _
  rw [hedge, hs, ht, sqd_eq ei pos hidx _ (0 : Fin 3) e hpx, sqd_eq ei pos hidx _ (1 : Fin 3) e hpy, sqd_eq ei pos hidx _ (2 : Fin 3) e hpz,
    HostValsIdeal.zero_ideal, zero_add, Fin.sum_univ_three]

end Rel

end Cert.Proof.KI.EdgeJoinIdeal

end
-- ==== Proof.KI.EdgeJoinAt.lean ====
import proofs.«205084_g25537875542483_cont_9to1_419_23_alg».proof.Proof.KI.EdgeJoinIdeal
import proofs.«205084_g25537875542483_cont_9to1_419_23_alg».proof.Proof.KI.Calls
import proofs.«205084_g25537875542483_cont_9to1_419_23_alg».proof.Proof.KI.Segs

set_option maxRecDepth 16384

noncomputable section

open scoped BigOperators

namespace Cert.Proof.KI.EdgeJoinAt

open Cert.KernelIdeal Cert.KernelIdeal.Gen Cert.Proof.KI Cert.Proof.KI.R1Dat Cert.Proof.KI.R1ValIdeal Cert.Proof.KI.R1GlobIdeal
open Cert.Proof.KI.EdgeJoinIdeal Cert.Proof.KI.Calls
open Cert.Proof.KI.K0Spec (rowOf nodeOf rowOf_val nodeOf_val edgeIdx relEdge sqd)

open Idealize.ShloMosaic Idealize.ShloMosaic.TcCoe Idealize.ShloMosaic.ValueIdx
open Idealize.SL Idealize.SL.Sem

variable (m : (ℓ : Loc nD τ sig) → Buf (Elt Ideal) ℓ)

variable (d : Dev nD)

def Vg : (c : Dev nD) → (b : Ref sig .tc) → Buf (Elt Ideal) ((c : Thread nD τ).loc b) :=
  atTc fun _ => Wc0 m d (K0Spec.xiOf d (Wh m d x') (Wh m d dst')) (K0Spec.xjOf d (Wh m d x') (Wh m d src'))
    (K0Spec.relOf d (Wh m d px') (Wh m d py') (Wh m d pz') (Wh m d src') (Wh m d dst'))

variable (c : Dev nD)

theorem flat_edge (E : Fin 327680) : ((edgeIdx E 0).val * 80 + (edgeIdx E 1).val) * 128 + (edgeIdx E 2).val = E.val := by
  rw [K0Spec.edgeIdx_0, K0Spec.edgeIdx_1, K0Spec.edgeIdx_2]
  have := E.isLt
  omega

theorem dst_at (E : Fin 327680) (hE : E.val < 320000) :
    (StableHlo.after IdxRange.hostPre (W0 m d) (Proc.devRef .tc main_v18) : IVec S32x80x128 32) (edgeIdx E)
      = (m (d, Proc.devRef .tc main_arg1) : IVec S2x320000 32) (ix2 (1 : Fin 2) (⟨E.val, hE⟩ : Fin 320000)) := by
  have h := IdxRange.dst_g_eq (W0 m d) (edgeIdx E)
  rw [flat_edge E] at h
  unfold IdxRange.rowPad at h
  rw [dif_pos hE] at h
  exact h

theorem src_at (E : Fin 327680) (hE : E.val < 320000) :
    (StableHlo.after IdxRange.hostPre (W0 m d) (Proc.devRef .tc main_v15) : IVec S32x80x128 32) (edgeIdx E)
      = (m (d, Proc.devRef .tc main_arg1) : IVec S2x320000 32) (ix2 (0 : Fin 2) (⟨E.val, hE⟩ : Fin 320000)) := by
  have h := IdxRange.src_g_eq (W0 m d) (edgeIdx E)
  rw [flat_edge E] at h
  unfold IdxRange.rowPad at h
  rw [dif_pos hE] at h
  exact h

theorem px_at (n : Fin 10000) :
    (StableHlo.after IdxRange.hostPre (W0 m d) (Proc.devRef .tc main_v2) : FVec Ideal S10112 .f32) (ix1 (⟨n.val, by have := n.isLt; omega⟩ : Fin 10112))
      = (m (d, Proc.devRef .tc main_arg2) : FVec Ideal S10000x3 .f32) (ix2 n (0 : Fin 3)) := by
  rw [HostValsIdeal.px_ideal, dif_pos n.isLt]
theorem py_at (n : Fin 10000) :
    (StableHlo.after IdxRange.hostPre (W0 m d) (Proc.devRef .tc main_v5) : FVec Ideal S10112 .f32) (ix1 (⟨n.val, by have := n.isLt; omega⟩ : Fin 10112))
      = (m (d, Proc.devRef .tc main_arg2) : FVec Ideal S10000x3 .f32) (ix2 n (1 : Fin 3)) := by
  rw [HostValsIdeal.py_ideal, dif_pos n.isLt]
theorem pz_at (n : Fin 10000) :
    (StableHlo.after IdxRange.hostPre (W0 m d) (Proc.devRef .tc main_v8) : FVec Ideal S10112 .f32) (ix1 (⟨n.val, by have := n.isLt; omega⟩ : Fin 10112))
      = (m (d, Proc.devRef .tc main_arg2) : FVec Ideal S10000x3 .f32) (ix2 n (2 : Fin 3)) := by
  rw [HostValsIdeal.pz_ideal, dif_pos n.isLt]

theorem final_at (O : CellTallies nD τ sig (Idealize.ShloMosaic.SparseCore.Cfg.HIx 2)) (Rec : Set (SemLoc sig × Idealize.ShloMosaic.SparseCore.Cfg.HIx 2))
    (hidx : ∀ i, ((m (d, Proc.devRef .tc main_arg1) : IVec S2x320000 32) i).toNat < 10000)
    (i : S16x327680.Idx) (hE : (i 1).val < 320000) :
    (dat1 (Vg m d) O Rec c).arrAt 9 cfg1.N i
      = Cert.Proof.RefVal.msgR (m (d, Proc.devRef .tc main_arg0) : FVec Ideal S10000x128 .f32)
          (m (d, Proc.devRef .tc main_arg1) : IVec S2x320000 32) (m (d, Proc.devRef .tc main_arg2) : FVec Ideal S10000x3 .f32)
          (m (d, Proc.devRef .tc main_arg4) : FVec Ideal S514x257 .f32) (m (d, Proc.devRef .tc main_arg5) : FVec Ideal S514 .f32)
          (m (d, Proc.devRef .tc main_arg6) : FVec Ideal S16x514 .f32) (m (d, Proc.devRef .tc main_arg7) : FVec Ideal S16 .f32)
          hidx ⟨(i 1).val, hE⟩ (i 0) := by
  rw [final1_9_ideal]
  refine msgG_eq_msgR (Vg m d) c _ _ _ _ _ _ _ hidx (i 1) hE (i 0) ?hXi ?hXj ?hRel ?hW1a ?hW1b ?hWr ?hB1 ?hW2 ?hB2
  case hXi =>
    intro a
    show (Wc0 m d _ _ _ xi' : FVec Ideal S327680x128 .f32) (ix2 (i 1) a) = _
    rw [Wc0_xi]
    show (Wh m d x' : FVec Ideal S10000x128 .f32) (ix2 (rowOf ((Wh m d dst' : IVec S32x80x128 32) (edgeIdx (i 1)))) a) = _
    rw [show (Wh m d dst' : IVec S32x80x128 32) (edgeIdx (i 1)) = _ from dst_at m d (i 1) hE,
      show Wh m d x' = m (d, Proc.devRef .tc main_arg0) from HostVals.x_eq (W0 m d)]
    congr 2
    exact Fin.ext (rowOf_val (hidx _))
  case hXj =>
    intro a
    show (Wc0 m d _ _ _ xj' : FVec Ideal S327680x128 .f32) (ix2 (i 1) a) = _
    rw [Wc0_xj]
    show (Wh m d x' : FVec Ideal S10000x128 .f32) (ix2 (rowOf ((Wh m d src' : IVec S32x80x128 32) (edgeIdx (i 1)))) a) = _
    rw [show (Wh m d src' : IVec S32x80x128 32) (edgeIdx (i 1)) = _ from src_at m d (i 1) hE,
      show Wh m d x' = m (d, Proc.devRef .tc main_arg0) from HostVals.x_eq (W0 m d)]
    congr 2
    exact Fin.ext (rowOf_val (hidx _))
  case hRel =>
    show (Wc0 m d _ _ _ rel' : FVec Ideal S20480x16 .f32) _ = _
    rw [Wc0_rel]
    exact relOf_eq_relD d _ _ _ _ _ _ _ hidx _ _ ⟨(i 1).val, hE⟩ (by show 16 * ((i 1).val / 16) + (i 1).val % 16 = (i 1).val; omega)
      (src_at m d ⟨(i 1).val, by have := (i 1).isLt; omega⟩ hE) (dst_at m d ⟨(i 1).val, by have := (i 1).isLt; omega⟩ hE)
      (px_at m d) (py_at m d) (pz_at m d)
  case hW1a =>
    intro a h
    show (Wc0 m d _ _ _ (Proc.devRef .tc main_v23) : FVec Ideal S128x514 .f32) (ix2 a h) = _
    rw [Wc0_of_ne m d _ _ _ main_v23 (by decide)]
    exact HostVals.w1a_eq (W0 m d) a h
  case hW1b =>
    intro a h
    show (Wc0 m d _ _ _ (Proc.devRef .tc main_v25) : FVec Ideal S128x514 .f32) (ix2 a h) = _
    rw [Wc0_of_ne m d _ _ _ main_v25 (by decide)]
    exact HostVals.w1b_eq (W0 m d) a h
  case hWr =>
    intro dd h
    show (Wc0 m d _ _ _ (Proc.devRef .tc main_v28) : FVec Ideal S16x514 .f32) (ix2 dd h) = _
    rw [Wc0_of_ne m d _ _ _ main_v28 (by decide)]
    exact HostVals.wr16_eq (W0 m d) dd h
  case hB1 =>
    intro h
    show (Wc0 m d _ _ _ (Proc.devRef .tc main_v29) : FVec Ideal S1x514 .f32) (ix2 (0 : Fin 1) h) = _
    rw [Wc0_of_ne m d _ _ _ main_v29 (by decide)]
    exact HostVals.b1_eq (W0 m d) h
  case hW2 =>
    intro h k
    show (Wc0 m d _ _ _ (Proc.devRef .tc main_v30) : FVec Ideal S514x16 .f32) (ix2 h k) = _
    rw [Wc0_of_ne m d _ _ _ main_v30 (by decide)]
    exact HostVals.w2_eq (W0 m d) h k
  case hB2 =>
    intro k
    show (Wc0 m d _ _ _ (Proc.devRef .tc main_v31) : FVec Ideal S1x16 .f32) (ix2 (0 : Fin 1) k) = _
    rw [Wc0_of_ne m d _ _ _ main_v31 (by decide)]
    exact HostVals.b2_eq (W0 m d) k

end Cert.Proof.KI.EdgeJoinAt

end
-- ==== Proof.KI.EdgeJoinV.lean ====
import proofs.«205084_g25537875542483_cont_9to1_419_23_alg».proof.Proof.KI.EdgeJoinAt
import proofs.«205084_g25537875542483_cont_9to1_419_23_alg».proof.Proof.KI.PayV
import proofs.«205084_g25537875542483_cont_9to1_419_23_alg».proof.Proof.KI.ValsV

set_option maxRecDepth 16384

noncomputable section

namespace Cert.Proof.KI.EdgeJoinV

open Cert.KernelIdeal Cert.KernelIdeal.Gen Cert.Proof.KI Cert.Proof.KI.R1Dat Cert.Proof.KI.R1GlobIdeal
open Cert.Proof.KI.EdgeJoinAt Cert.Proof.KI.Calls

open Idealize.ShloMosaic Idealize.ShloMosaic.TcCoe Idealize.ShloMosaic.ValueIdx
open Idealize.ShloMosaic.SparseCore.Cfg (HIx)
open Idealize.SL Idealize.SL.Sem

variable (m : (ℓ : Loc nD τ sig) → Buf (Elt Ideal) ℓ) (d c : Dev nD)

theorem fmtV_msg (hidx : ∀ i, ((m (d, Proc.devRef .tc main_arg1) : IVec S2x320000 32) i).toNat < 10000)
    (q : Fin 16) (E : Fin 327680) (hE : E.val < 320000) :
    (fmtV m d : S16x327680.Idx → Ideal .f32) (ix2 q E)
      = Cert.Proof.RefVal.msgR (m (d, Proc.devRef .tc main_arg0) : FVec Ideal S10000x128 .f32)
          (m (d, Proc.devRef .tc main_arg1) : IVec S2x320000 32) (m (d, Proc.devRef .tc main_arg2) : FVec Ideal S10000x3 .f32)
          (m (d, Proc.devRef .tc main_arg4) : FVec Ideal S514x257 .f32) (m (d, Proc.devRef .tc main_arg5) : FVec Ideal S514 .f32)
          (m (d, Proc.devRef .tc main_arg6) : FVec Ideal S16x514 .f32) (m (d, Proc.devRef .tc main_arg7) : FVec Ideal S16 .f32)
          hidx ⟨E.val, hE⟩ q := by
  have h := exit1_arr (fun _ => Wc0 m d (xiAt m d) (xjAt m d) (relAt m d)) ((K (F := Ideal)).Otc d 1) (Bn (F := Ideal) d 1) d (9 : Fin cfg1.W)
  unfold fmtV
  show (exit1 (fun _ => Wc0 m d (xiAt m d) (xjAt m d) (relAt m d)) ((K (F := Ideal)).Otc d 1) (Bn (F := Ideal) d 1) d
      (Proc.devRef .tc (Pipeline.arrRef spec1 9)) : S16x327680.Idx → Ideal .f32) (ix2 q E) = _
  rw [h]
  exact final_at m d d ((K (F := Ideal)).Otc d 1) (Bn (F := Ideal) d 1) hidx (ix2 q E) hE

end Cert.Proof.KI.EdgeJoinV

end
-- ==== Proof.KI.FinalIdeal.lean ====
import proofs.«205084_g25537875542483_cont_9to1_419_23_alg».proof.Proof.KI.FinalJoinIdeal
import proofs.«205084_g25537875542483_cont_9to1_419_23_alg».proof.Proof.KI.ValsV
import proofs.«205084_g25537875542483_cont_9to1_419_23_alg».proof.Proof.KI.K2ValIdeal
import proofs.«205084_g25537875542483_cont_9to1_419_23_alg».proof.Proof.KI.HostValsIdeal
import proofs.«205084_g25537875542483_cont_9to1_419_23_alg».proof.Proof.KI.EdgeJoinV

set_option maxRecDepth 16384

noncomputable section

open scoped BigOperators

namespace Cert.Proof.KI.FinalIdeal

open Cert.KernelIdeal Cert.KernelIdeal.Gen Cert.Proof.KI
open Cert.Proof.KI.R3ValIdeal Cert.Proof.KI.FinalJoinIdeal
open Idealize.ShloMosaic Idealize.ShloMosaic.TcCoe Idealize.ShloMosaic.ValueIdx
open Idealize.SL Idealize.SL.Sem

variable (m : (ℓ : Loc nD τ sig) → Buf (Elt Ideal) ℓ)
variable (hok : ∀ d : Dev nD, K2Body.DstOK (d := d) (Wh m d main_v20))
variable (d : Dev nD)

theorem parts_at (h : Fin 2) (gg : Fin 16) (r : Fin 640) (col : Fin 128) :
    K2ValIdeal.rd (ι := S2x16x640x128.Idx) (partsAt m (fmtV m) hok d) (ix4 h gg r col) = ∑ t : Fin 20480, ∑ c : Fin 8,
      if dstNat m d (AggJoinIdeal.edgeOf gg t) % 640 = r.val ∧ 8 * (dstNat m d (AggJoinIdeal.edgeOf gg t) / 640) + c.val = col.val
      then K2ValIdeal.rd (ι := S16x327680.Idx) (fmtV m d) (ix2 (AggJoinIdeal.rowOf h c) (AggJoinIdeal.edgeOf gg t)) else 0 := by
  show K2ValIdeal.rd (ι := S640x128.Idx) (K2Body.out2 (F := Ideal) d (K2Spec.tileOfBlock h gg) (fmtV m d) (Wh m d main_v20) (Wh m d main_v21) (hok d)) (ix2 r col) = _
  unfold K2ValIdeal.rd
  rw [K2ValIdeal.out2_at_coords]
  have hz : K2ValIdeal.rd (ι := S640x128.Idx) (Wh m d main_v21) (ix2 r col) = 0 := HostValsIdeal.zpk_ideal (W0 m d) r col
  rw [hz, zero_add]
  have hL : 16 * ((K2Spec.tileOfBlock h gg) 0).val + ((K2Spec.tileOfBlock h gg) 1).val = 2 * gg.val + h.val := by
    show 16 * ((2 * gg.val + h.val) / 16) + (2 * gg.val + h.val) % 16 = _
    omega
  have hh : h.val < 2 := h.isLt
  refine Finset.sum_congr rfl fun t _ => Finset.sum_congr rfl fun c _ => ?_
  have e1 : (⟨20480 * ((16 * ((K2Spec.tileOfBlock h gg) 0).val + ((K2Spec.tileOfBlock h gg) 1).val) / 2) + t.val, K2ValIdeal.edge_lt' (K2Spec.tileOfBlock h gg) t⟩ : Fin 327680)
      = AggJoinIdeal.edgeOf gg t := Fin.ext (by
    show 20480 * ((16 * ((K2Spec.tileOfBlock h gg) 0).val + ((K2Spec.tileOfBlock h gg) 1).val) / 2) + t.val = 20480 * gg.val + t.val
    rw [hL]; omega)
  have e2 : (⟨8 * ((16 * ((K2Spec.tileOfBlock h gg) 0).val + ((K2Spec.tileOfBlock h gg) 1).val) % 2) + c.val, K2Body.row_lt (K2Spec.tileOfBlock h gg) c⟩ : Fin 16)
      = AggJoinIdeal.rowOf h c := Fin.ext (by
    show 8 * ((16 * ((K2Spec.tileOfBlock h gg) 0).val + ((K2Spec.tileOfBlock h gg) 1).val) % 2) + c.val = 8 * h.val + c.val
    rw [hL]; omega)
  rw [e1, e2]
  rfl

theorem kernelOut_eq (hpre : IdxRange.PreAt (F := Ideal) m d) :
    (kernelOut m hok d : FVec Ideal S10000x3 .f32)
      = Cert.Proof.RefRun.refOut (F := Ideal) (m (d, Proc.devRef .tc main_arg0) : FVec Ideal Cert.ReferenceIdeal.S10000x128 .f32) (m (d, Proc.devRef .tc main_arg1) : IVec Cert.ReferenceIdeal.S2x320000 32) (m (d, Proc.devRef .tc main_arg2) : FVec Ideal Cert.ReferenceIdeal.S10000x3 .f32) (m (d, Proc.devRef .tc main_arg3) : IVec Cert.ReferenceIdeal.S10000 32) (m (d, Proc.devRef .tc main_arg4) : FVec Ideal Cert.ReferenceIdeal.S514x257 .f32) (m (d, Proc.devRef .tc main_arg5) : FVec Ideal Cert.ReferenceIdeal.S514 .f32) (m (d, Proc.devRef .tc main_arg6) : FVec Ideal Cert.ReferenceIdeal.S16x514 .f32) (m (d, Proc.devRef .tc main_arg7) : FVec Ideal Cert.ReferenceIdeal.S16 .f32) (m (d, Proc.devRef .tc main_arg8) : FVec Ideal Cert.ReferenceIdeal.S64x16 .f32) (m (d, Proc.devRef .tc main_arg9) : FVec Ideal Cert.ReferenceIdeal.S64 .f32) (m (d, Proc.devRef .tc main_arg10) : FVec Ideal Cert.ReferenceIdeal.S1x64 .f32) (m (d, Proc.devRef .tc main_arg11) : FVec Ideal Cert.ReferenceIdeal.S1 .f32) (m (d, Proc.devRef .tc main_arg12) : FVec Ideal Cert.ReferenceIdeal.S256x144 .f32) (m (d, Proc.devRef .tc main_arg13) : FVec Ideal Cert.ReferenceIdeal.S256 .f32) (m (d, Proc.devRef .tc main_arg14) : FVec Ideal Cert.ReferenceIdeal.S128x256 .f32) (m (d, Proc.devRef .tc main_arg15) : FVec Ideal Cert.ReferenceIdeal.S128 .f32) (m (d, Proc.devRef .tc main_arg16) : FVec Ideal Cert.ReferenceIdeal.S128 .f32) (m (d, Proc.devRef .tc main_arg17) : FVec Ideal Cert.ReferenceIdeal.S128 .f32) (m (d, Proc.devRef .tc main_arg18) : FVec Ideal Cert.ReferenceIdeal.S3x128 .f32) (m (d, Proc.devRef .tc main_arg19) : FVec Ideal Cert.ReferenceIdeal.S3 .f32) := by
  funext i
  rw [eq_ix2 i]
  unfold kernelOut
  exact Wr3_out_eq_refOut_of m d (xiAt m d) (xjAt m d) (relAt m d) (partsAt m (fmtV m) hok d) (IdxRange.edge_range m d hpre)
    (K2ValIdeal.rd (ι := S16x327680.Idx) (fmtV m d)) (parts_at m hok d)
    (fun q e => EdgeJoinV.fmtV_msg m d (IdxRange.edge_range m d hpre) q ⟨e.val, by have := e.isLt; omega⟩ e.isLt) (i 0) (i 1)

end Cert.Proof.KI.FinalIdeal

end
-- ==== Proof.lean ====
import proofs.«205084_g25537875542483_cont_9to1_419_23_alg».proof.Defs
import proofs.«205084_g25537875542483_cont_9to1_419_23_alg».proof.Proof.Gen.Kernel
import proofs.«205084_g25537875542483_cont_9to1_419_23_alg».proof.Proof.Gen.KernelIdeal
import proofs.«205084_g25537875542483_cont_9to1_419_23_alg».proof.Proof.Gen.ReferenceIdeal
import proofs.«205084_g25537875542483_cont_9to1_419_23_alg».proof.Proof.Gen.Pre_input_domain
import proofs.«205084_g25537875542483_cont_9to1_419_23_alg».proof.Proof.KB.Frame
import proofs.«205084_g25537875542483_cont_9to1_419_23_alg».proof.Proof.KI.MainV
import proofs.«205084_g25537875542483_cont_9to1_419_23_alg».proof.Proof.KI.K0BodyV
import proofs.«205084_g25537875542483_cont_9to1_419_23_alg».proof.Proof.KI.FinalIdeal
import proofs.«205084_g25537875542483_cont_9to1_419_23_alg».proof.Proof.RefRun

noncomputable section

namespace Cert.Proof

open Idealize.ShloMosaic Idealize.ShloMosaic.TcCoe Idealize.SL.Sem
open Idealize.SL Idealize.SL.RA Idealize.SL.BI

theorem frame_ri : Cert.frame_ReferenceIdeal := fun m ρ _ =>
  (θ_run (Cert.ReferenceIdeal.defs (F := Ideal)) _ _).mono (fun _ h c => (h c).2) (Cert.Proof.RefRun.run (F := Ideal) m ρ)

theorem frame_ki : Cert.frame_KernelIdeal := fun m ρ hpre => by
  have hp : ∀ d, KI.IdxRange.PreAt (F := Ideal) m d := fun d => KI.IdxRange.preAt_of_pre m hpre d
  refine (θ_run (Cert.KernelIdeal.defs (F := Ideal)) _ _).mono (fun _ h c => ?_)
    (KI.run_mainV (F := Ideal) m ρ (fun d => KI.dstOK2 m hp d) hp fun q d L fx fpx fpy fpz fsrc fdst => KI.K0BodyV.body0V q d L fx fpx fpy fpz fsrc fdst)
  (repeat' apply And.intro) <;> exact (h c).2 _ (by decide)

set_option maxHeartbeats 2000000 in
open Cert.KernelIdeal Cert.Proof.KI in

theorem algebraic : Cert.algebraic_KernelIdeal_ReferenceIdeal := by
  intro m ρ m' ρ' hpre hagree
  have hp : ∀ d, IdxRange.PreAt (F := Ideal) m d := fun d => IdxRange.preAt_of_pre m hpre d
  have hok : ∀ d : Dev nD, K2Body.DstOK (d := d) (Wh m d main_v20) := fun d => dstOK2 m hp d
  refine ⟨fun c => kernelOut m hok c, ?_, ?_⟩
  · exact (θ_run (Cert.KernelIdeal.defs (F := Ideal)) _ _).mono (fun _ h c => ⟨(h c).1, (h c).2 main_arg0 (by decide), (h c).2 main_arg1 (by decide), (h c).2 main_arg2 (by decide), (h c).2 main_arg3 (by decide), (h c).2 main_arg4 (by decide), (h c).2 main_arg5 (by decide), (h c).2 main_arg6 (by decide), (h c).2 main_arg7 (by decide), (h c).2 main_arg8 (by decide), (h c).2 main_arg9 (by decide), (h c).2 main_arg10 (by decide), (h c).2 main_arg11 (by decide), (h c).2 main_arg12 (by decide), (h c).2 main_arg13 (by decide), (h c).2 main_arg14 (by decide), (h c).2 main_arg15 (by decide), (h c).2 main_arg16 (by decide), (h c).2 main_arg17 (by decide), (h c).2 main_arg18 (by decide), (h c).2 main_arg19 (by decide)⟩)
      (run_mainV (F := Ideal) m ρ hok hp (fun q d L fx fpx fpy fpz fsrc fdst => K0BodyV.body0V q d L fx fpx fpy fpz fsrc fdst))
  · refine (θ_run (Cert.ReferenceIdeal.defs (F := Ideal)) _ _).mono (fun _ h c => ⟨(h c).1.trans ?_, (h c).2⟩)
      (Cert.Proof.RefRun.run (F := Ideal) m' ρ')
    obtain ⟨h0, h1, h2, h3, h4, h5, h6, h7, h8, h9, h10, h11, h12, h13, h14, h15, h16, h17, h18, h19⟩ := hagree c
    rw [h0, h1, h2, h3, h4, h5, h6, h7, h8, h9, h10, h11, h12, h13, h14, h15, h16, h17, h18, h19]
    exact (FinalIdeal.kernelOut_eq m hok c (hp c)).symm

theorem claim : Cert.Claim :=
  ⟨Cert.Kernel.Gen.facts, Cert.KernelIdeal.Gen.facts, Cert.ReferenceIdeal.Gen.facts, Cert.Pre_input_domain.Gen.facts,
    Cert.Proof.KB.frame, frame_ki, frame_ri, trivial, algebraic⟩

end Cert.Proof

end
